-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![8, 1024, 16, 128]⟩ ⟨4, ![8, 2048, 16, 128]⟩ (Layout.meshBlock [2, 2, 4] ![[], [1], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![8, 1024, 16, 128]⟩ ⟨4, ![8, 2048, 16, 128]⟩ (Layout.meshBlock [2, 2, 4] ![[], [1], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S8x8x16x128 : Shape := ⟨4, ![8, 8, 16, 128]⟩
abbrev S8x1024x16x128 : Shape := ⟨4, ![8, 1024, 16, 128]⟩
abbrev S_ : Shape := ⟨0, ![]⟩

class Facts : Prop where
  bcast_S_S8x8x16x128 : S_.BroadcastsInDim S8x8x16x128 (![] : Fin 0 → Fin S8x8x16x128.rank)
  reducesTo_S8x8x16x128_S_d0_1_2_3 : S8x8x16x128.ReducesTo [0, 1, 2, 3] S_
  h_S_ : 0 < S_.numel
  bcast_S_S8x1024x16x128 : S_.BroadcastsInDim S8x1024x16x128 (![] : Fin 0 → Fin S8x1024x16x128.rank)
  reducesTo_S8x1024x16x128_S_d0_1_2_3 : S8x1024x16x128.ReducesTo [0, 1, 2, 3] S_

variable [Facts]

def fn {F : FTy → Type} [FloatOps F] (main_arg0 : FVec F S8x8x16x128 .f32) (main_arg1 : FVec F S8x1024x16x128 .f32) (main_arg2 : FVec F S8x1024x16x128 .f32) : IVec S_ 1 :=
  let main_v0 : FVec F S8x8x16x128 .f32 := Host.absf main_arg0
  let main_cst : FVec F S_ .f32 := constant S_ .f32 0x7F800000#32
  let main_v1 : FVec F S8x8x16x128 .f32 := broadcastInDim S8x8x16x128 ![] bcast_S_S8x8x16x128 main_cst
  let main_v2 : IVec S8x8x16x128 1 := cmpf .olt main_v0 main_v1
  let main_c : IVec S_ 1 := constantI S_ 1 1#1
  let main_v3 : IVec S_ 1 := (fun x v => Host.reduce IntOp.andi x v reducesTo_S8x8x16x128_S_d0_1_2_3 h_S_) main_v2 main_c
  let main_v4 : FVec F S8x1024x16x128 .f32 := Host.absf main_arg1
  let main_cst_0 : FVec F S_ .f32 := constant S_ .f32 0x7F800000#32
  let main_v5 : FVec F S8x1024x16x128 .f32 := broadcastInDim S8x1024x16x128 ![] bcast_S_S8x1024x16x128 main_cst_0
  let main_v6 : IVec S8x1024x16x128 1 := cmpf .olt main_v4 main_v5
  let main_c_1 : IVec S_ 1 := constantI S_ 1 1#1
  let main_v7 : IVec S_ 1 := (fun x v => Host.reduce IntOp.andi x v reducesTo_S8x1024x16x128_S_d0_1_2_3 h_S_) main_v6 main_c_1
  let main_v8 : IVec S_ 1 := andi main_v3 main_v7
  let main_v9 : FVec F S8x1024x16x128 .f32 := Host.absf main_arg2
  let main_cst_2 : FVec F S_ .f32 := constant S_ .f32 0x7F800000#32
  let main_v10 : FVec F S8x1024x16x128 .f32 := broadcastInDim S8x1024x16x128 ![] bcast_S_S8x1024x16x128 main_cst_2
  let main_v11 : IVec S8x1024x16x128 1 := cmpf .olt main_v9 main_v10
  let main_c_3 : IVec S_ 1 := constantI S_ 1 1#1
  let main_v12 : IVec S_ 1 := (fun x v => Host.reduce IntOp.andi x v reducesTo_S8x1024x16x128_S_d0_1_2_3 h_S_) main_v11 main_c_3
  let main_v13 : IVec S_ 1 := andi main_v8 main_v12
  main_v13
-- ==== Pre_finite_inputs_ReferenceIdeal.lean ====
abbrev S8x8x16x128 : Shape := ⟨4, ![8, 8, 16, 128]⟩
abbrev S8x2048x16x128 : Shape := ⟨4, ![8, 2048, 16, 128]⟩
abbrev S_ : Shape := ⟨0, ![]⟩

class Facts : Prop where
  bcast_S_S8x8x16x128 : S_.BroadcastsInDim S8x8x16x128 (![] : Fin 0 → Fin S8x8x16x128.rank)
  reducesTo_S8x8x16x128_S_d0_1_2_3 : S8x8x16x128.ReducesTo [0, 1, 2, 3] S_
  h_S_ : 0 < S_.numel
  bcast_S_S8x2048x16x128 : S_.BroadcastsInDim S8x2048x16x128 (![] : Fin 0 → Fin S8x2048x16x128.rank)
  reducesTo_S8x2048x16x128_S_d0_1_2_3 : S8x2048x16x128.ReducesTo [0, 1, 2, 3] S_

variable [Facts]

def fn {F : FTy → Type} [FloatOps F] (main_arg0 : FVec F S8x8x16x128 .f32) (main_arg1 : FVec F S8x2048x16x128 .f32) (main_arg2 : FVec F S8x2048x16x128 .f32) : IVec S_ 1 :=
  let main_v0 : FVec F S8x8x16x128 .f32 := Host.absf main_arg0
  let main_cst : FVec F S_ .f32 := constant S_ .f32 0x7F800000#32
  let main_v1 : FVec F S8x8x16x128 .f32 := broadcastInDim S8x8x16x128 ![] bcast_S_S8x8x16x128 main_cst
  let main_v2 : IVec S8x8x16x128 1 := cmpf .olt main_v0 main_v1
  let main_c : IVec S_ 1 := constantI S_ 1 1#1
  let main_v3 : IVec S_ 1 := (fun x v => Host.reduce IntOp.andi x v reducesTo_S8x8x16x128_S_d0_1_2_3 h_S_) main_v2 main_c
  let main_v4 : FVec F S8x2048x16x128 .f32 := Host.absf main_arg1
  let main_cst_0 : FVec F S_ .f32 := constant S_ .f32 0x7F800000#32
  let main_v5 : FVec F S8x2048x16x128 .f32 := broadcastInDim S8x2048x16x128 ![] bcast_S_S8x2048x16x128 main_cst_0
  let main_v6 : IVec S8x2048x16x128 1 := cmpf .olt main_v4 main_v5
  let main_c_1 : IVec S_ 1 := constantI S_ 1 1#1
  let main_v7 : IVec S_ 1 := (fun x v => Host.reduce IntOp.andi x v reducesTo_S8x2048x16x128_S_d0_1_2_3 h_S_) main_v6 main_c_1
  let main_v8 : IVec S_ 1 := andi main_v3 main_v7
  let main_v9 : FVec F S8x2048x16x128 .f32 := Host.absf main_arg2
  let main_cst_2 : FVec F S_ .f32 := constant S_ .f32 0x7F800000#32
  let main_v10 : FVec F S8x2048x16x128 .f32 := broadcastInDim S8x2048x16x128 ![] bcast_S_S8x2048x16x128 main_cst_2
  let main_v11 : IVec S8x2048x16x128 1 := cmpf .olt main_v9 main_v10
  let main_c_3 : IVec S_ 1 := constantI S_ 1 1#1
  let main_v12 : IVec S_ 1 := (fun x v => Host.reduce IntOp.andi x v reducesTo_S8x2048x16x128_S_d0_1_2_3 h_S_) main_v11 main_c_3
  let main_v13 : IVec S_ 1 := andi main_v8 main_v12
  main_v13
-- ==== Kernel.lean ====
abbrev S8x8x16x128 : Shape := ⟨4, ![8, 8, 16, 128]⟩
abbrev S8x1024x16x128 : Shape := ⟨4, ![8, 1024, 16, 128]⟩
abbrev S2x4x1024x128 : Shape := ⟨4, ![2, 4, 1024, 128]⟩
abbrev S8x16x128 : Shape := ⟨3, ![8, 16, 128]⟩
abbrev S4x8x4x128 : Shape := ⟨4, ![4, 8, 4, 128]⟩
abbrev S4x8x4 : Shape := ⟨3, ![4, 8, 4]⟩
abbrev S2x8x8x8x128 : Shape := ⟨5, ![2, 8, 8, 8, 128]⟩
abbrev S2x4 : Shape := ⟨2, ![2, 4]⟩
abbrev S4 : Shape := ⟨1, ![4]⟩
abbrev S14 : Shape := ⟨1, ![14]⟩
abbrev S2x8 : Shape := ⟨2, ![2, 8]⟩
abbrev S_ : Shape := ⟨0, ![]⟩
abbrev S1x1 : Shape := ⟨2, ![1, 1]⟩
abbrev S1x1x1024x128 : Shape := ⟨4, ![1, 1, 1024, 128]⟩
abbrev S1024x128 : Shape := ⟨2, ![1024, 128]⟩
abbrev S1x1024x1x128 : Shape := ⟨4, ![1, 1024, 1, 128]⟩
abbrev S1x8x4x128 : Shape := ⟨4, ![1, 8, 4, 128]⟩
abbrev S8x4x128 : Shape := ⟨3, ![8, 4, 128]⟩
abbrev S4x8x128 : Shape := ⟨3, ![4, 8, 128]⟩
abbrev S1x4x1024x128 : Shape := ⟨4, ![1, 4, 1024, 128]⟩
abbrev S4x1024x128 : Shape := ⟨3, ![4, 1024, 128]⟩
abbrev S4x8x1024 : Shape := ⟨3, ![4, 8, 1024]⟩
abbrev S4x8 : Shape := ⟨2, ![4, 8]⟩
abbrev S8x4 : Shape := ⟨2, ![8, 4]⟩
abbrev S1x8x4 : Shape := ⟨3, ![1, 8, 4]⟩
abbrev S1 : Shape := ⟨1, ![1]⟩
abbrev S8x8x128 : Shape := ⟨3, ![8, 8, 128]⟩
abbrev S8x8 : Shape := ⟨2, ![8, 8]⟩
abbrev S8x8x1 : Shape := ⟨3, ![8, 8, 1]⟩
abbrev S1x8x8x128 : Shape := ⟨4, ![1, 8, 8, 128]⟩
abbrev S1x1x8x8x128 : Shape := ⟨5, ![1, 1, 8, 8, 128]⟩

abbrev nBuf : Space → Nat
  | .hbm => 4
  | .vmem => 10
  | .smem => 0
  | _ => 0

abbrev bufTy : (tb : Table) → Fin (tcTables nBuf tb) → BufTy
  | .hbm, ⟨0, _⟩ => ⟨S8x8x16x128, .f32⟩
  | .hbm, ⟨1, _⟩ => ⟨S8x1024x16x128, .f32⟩
  | .hbm, ⟨2, _⟩ => ⟨S8x1024x16x128, .f32⟩
  | .hbm, ⟨3, _⟩ => ⟨S8x8x16x128, .f32⟩
  | .local _ .vmem, ⟨0, _⟩ => ⟨S8x8x16x128, .f32⟩
  | .local _ .vmem, ⟨1, _⟩ => ⟨S8x8x16x128, .f32⟩
  | .local _ .vmem, ⟨2, _⟩ => ⟨S2x4x1024x128, .f32⟩
  | .local _ .vmem, ⟨3, _⟩ => ⟨S2x4x1024x128, .f32⟩
  | .local _ .vmem, ⟨4, _⟩ => ⟨S8x16x128, .f32⟩
  | .local _ .vmem, ⟨5, _⟩ => ⟨S4x8x4x128, .bf16⟩
  | .local _ .vmem, ⟨6, _⟩ => ⟨S4x8x4x128, .bf16⟩
  | .local _ .vmem, ⟨7, _⟩ => ⟨S4x8x4, .f32⟩
  | .local _ .vmem, ⟨8, _⟩ => ⟨S4x8x4, .f32⟩
  | .local _ .vmem, ⟨9, _⟩ => ⟨S2x8x8x8x128, .bf16⟩
  | _, _ => ⟨S8x8x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  (ofTc nBuf bufTy 1 64 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_5 : BitVec 32 := 8#32
  let v16 : BitVec 32 := Scalar.muli v2 c8_i32_5
  let v17 : BitVec 32 := Scalar.addi c0_i32 v16
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v14 : BitVec 32 := Scalar.subi c1_i32_3 v5
  let c4_i32_6 : BitVec 32 := 4#32
  let v18 : BitVec 32 := Scalar.muli v14 c4_i32_6
  let v19 : BitVec 32 := Scalar.addi v17 v18
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v20 : BitVec 32 := Scalar.muli v8 c1_i32_7
  let v21 : BitVec 32 := Scalar.addi v19 v20
  v21.toNat
def k0_dev2 (d0 : Dev nD) : Nat :=
  let c0_i32_22 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.subi c7_i32 v8
  let v10 : BitVec 32 := Scalar.muli v2 v9
  let c1_i32_2 : BitVec 32 := 1#32
  let v11 : BitVec 32 := Scalar.subi c1_i32_2 v2
  let v12 : BitVec 32 := Scalar.muli v11 v8
  let v13 : BitVec 32 := Scalar.addi v10 v12
  let c1_i32_8 : BitVec 32 := 1#32
  let v22 : BitVec 32 := Scalar.addi v13 c1_i32_8
  let c8_i32_9 : BitVec 32 := 8#32
  let c0_i32_10 : BitVec 32 := 0#32
  let v23 : BitVec 1 := Scalar.cmpi .eq c8_i32_9 c0_i32_10
  let c1_i32_11 : BitVec 32 := 1#32
  let v24 : BitVec 32 := Scalar.select v23 c1_i32_11 c8_i32_9
  let v25 : BitVec 32 := Scalar.remsi v22 v24
  let c0_i32_13 : BitVec 32 := 0#32
  let v27 : BitVec 1 := Scalar.cmpi .slt v25 c0_i32_13
  let c0_i32_14 : BitVec 32 := 0#32
  let v28 : BitVec 1 := Scalar.cmpi .slt v24 c0_i32_14
  let v29 : BitVec 1 := Scalar.xori v27 v28
  let c0_i32_12 : BitVec 32 := 0#32
  let v26 : BitVec 1 := Scalar.cmpi .ne v25 c0_i32_12
  let v30 : BitVec 1 := Scalar.andi v29 v26
  let v31 : BitVec 32 := Scalar.addi v25 v24
  let v32 : BitVec 32 := Scalar.select v30 v31 v25
  let c4_i32_15 : BitVec 32 := 4#32
  let v33 : BitVec 1 := Scalar.cmpi .slt v32 c4_i32_15
  let c0_i32_16 : BitVec 32 := 0#32
  let c1_i32_17 : BitVec 32 := 1#32
  let v34 : BitVec 32 := Scalar.select v33 c0_i32_16 c1_i32_17
  let c8_i32_21 : BitVec 32 := 8#32
  let v38 : BitVec 32 := Scalar.muli v34 c8_i32_21
  let v39 : BitVec 32 := Scalar.addi c0_i32_22 v38
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_23 : BitVec 32 := 4#32
  let v40 : BitVec 32 := Scalar.muli v5 c4_i32_23
  let v41 : BitVec 32 := Scalar.addi v39 v40
  let c4_i32_18 : BitVec 32 := 4#32
  let v35 : BitVec 1 := Scalar.cmpi .slt v32 c4_i32_18
  let c7_i32_19 : BitVec 32 := 7#32
  let v36 : BitVec 32 := Scalar.subi c7_i32_19 v32
  let v37 : BitVec 32 := Scalar.select v35 v32 v36
  let c1_i32_24 : BitVec 32 := 1#32
  let v42 : BitVec 32 := Scalar.muli v37 c1_i32_24
  let v43 : BitVec 32 := Scalar.addi v41 v42
  v43.toNat
def k0_dev3 (d0 : Dev nD) : Nat :=
  let c0_i32_39 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.subi c7_i32 v8
  let v10 : BitVec 32 := Scalar.muli v2 v9
  let c1_i32_2 : BitVec 32 := 1#32
  let v11 : BitVec 32 := Scalar.subi c1_i32_2 v2
  let v12 : BitVec 32 := Scalar.muli v11 v8
  let v13 : BitVec 32 := Scalar.addi v10 v12
  let c2_i32_25 : BitVec 32 := 2#32
  let v44 : BitVec 32 := Scalar.addi v13 c2_i32_25
  let c8_i32_26 : BitVec 32 := 8#32
  let c0_i32_27 : BitVec 32 := 0#32
  let v45 : BitVec 1 := Scalar.cmpi .eq c8_i32_26 c0_i32_27
  let c1_i32_28 : BitVec 32 := 1#32
  let v46 : BitVec 32 := Scalar.select v45 c1_i32_28 c8_i32_26
  let v47 : BitVec 32 := Scalar.remsi v44 v46
  let c0_i32_30 : BitVec 32 := 0#32
  let v49 : BitVec 1 := Scalar.cmpi .slt v47 c0_i32_30
  let c0_i32_31 : BitVec 32 := 0#32
  let v50 : BitVec 1 := Scalar.cmpi .slt v46 c0_i32_31
  let v51 : BitVec 1 := Scalar.xori v49 v50
  let c0_i32_29 : BitVec 32 := 0#32
  let v48 : BitVec 1 := Scalar.cmpi .ne v47 c0_i32_29
  let v52 : BitVec 1 := Scalar.andi v51 v48
  let v53 : BitVec 32 := Scalar.addi v47 v46
  let v54 : BitVec 32 := Scalar.select v52 v53 v47
  let c4_i32_32 : BitVec 32 := 4#32
  let v55 : BitVec 1 := Scalar.cmpi .slt v54 c4_i32_32
  let c0_i32_33 : BitVec 32 := 0#32
  let c1_i32_34 : BitVec 32 := 1#32
  let v56 : BitVec 32 := Scalar.select v55 c0_i32_33 c1_i32_34
  let c8_i32_38 : BitVec 32 := 8#32
  let v60 : BitVec 32 := Scalar.muli v56 c8_i32_38
  let v61 : BitVec 32 := Scalar.addi c0_i32_39 v60
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_40 : BitVec 32 := 4#32
  let v62 : BitVec 32 := Scalar.muli v5 c4_i32_40
  let v63 : BitVec 32 := Scalar.addi v61 v62
  let c4_i32_35 : BitVec 32 := 4#32
  let v57 : BitVec 1 := Scalar.cmpi .slt v54 c4_i32_35
  let c7_i32_36 : BitVec 32 := 7#32
  let v58 : BitVec 32 := Scalar.subi c7_i32_36 v54
  let v59 : BitVec 32 := Scalar.select v57 v54 v58
  let c1_i32_41 : BitVec 32 := 1#32
  let v64 : BitVec 32 := Scalar.muli v59 c1_i32_41
  let v65 : BitVec 32 := Scalar.addi v63 v64
  v65.toNat
def k0_dev4 (d0 : Dev nD) : Nat :=
  let c0_i32_55 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.subi c7_i32 v8
  let v10 : BitVec 32 := Scalar.muli v2 v9
  let c1_i32_2 : BitVec 32 := 1#32
  let v11 : BitVec 32 := Scalar.subi c1_i32_2 v2
  let v12 : BitVec 32 := Scalar.muli v11 v8
  let v13 : BitVec 32 := Scalar.addi v10 v12
  let c3_i32 : BitVec 32 := 3#32
  let v66 : BitVec 32 := Scalar.addi v13 c3_i32
  let c8_i32_42 : BitVec 32 := 8#32
  let c0_i32_43 : BitVec 32 := 0#32
  let v67 : BitVec 1 := Scalar.cmpi .eq c8_i32_42 c0_i32_43
  let c1_i32_44 : BitVec 32 := 1#32
  let v68 : BitVec 32 := Scalar.select v67 c1_i32_44 c8_i32_42
  let v69 : BitVec 32 := Scalar.remsi v66 v68
  let c0_i32_46 : BitVec 32 := 0#32
  let v71 : BitVec 1 := Scalar.cmpi .slt v69 c0_i32_46
  let c0_i32_47 : BitVec 32 := 0#32
  let v72 : BitVec 1 := Scalar.cmpi .slt v68 c0_i32_47
  let v73 : BitVec 1 := Scalar.xori v71 v72
  let c0_i32_45 : BitVec 32 := 0#32
  let v70 : BitVec 1 := Scalar.cmpi .ne v69 c0_i32_45
  let v74 : BitVec 1 := Scalar.andi v73 v70
  let v75 : BitVec 32 := Scalar.addi v69 v68
  let v76 : BitVec 32 := Scalar.select v74 v75 v69
  let c4_i32_48 : BitVec 32 := 4#32
  let v77 : BitVec 1 := Scalar.cmpi .slt v76 c4_i32_48
  let c0_i32_49 : BitVec 32 := 0#32
  let c1_i32_50 : BitVec 32 := 1#32
  let v78 : BitVec 32 := Scalar.select v77 c0_i32_49 c1_i32_50
  let c8_i32_54 : BitVec 32 := 8#32
  let v82 : BitVec 32 := Scalar.muli v78 c8_i32_54
  let v83 : BitVec 32 := Scalar.addi c0_i32_55 v82
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_56 : BitVec 32 := 4#32
  let v84 : BitVec 32 := Scalar.muli v5 c4_i32_56
  let v85 : BitVec 32 := Scalar.addi v83 v84
  let c4_i32_51 : BitVec 32 := 4#32
  let v79 : BitVec 1 := Scalar.cmpi .slt v76 c4_i32_51
  let c7_i32_52 : BitVec 32 := 7#32
  let v80 : BitVec 32 := Scalar.subi c7_i32_52 v76
  let v81 : BitVec 32 := Scalar.select v79 v76 v80
  let c1_i32_57 : BitVec 32 := 1#32
  let v86 : BitVec 32 := Scalar.muli v81 c1_i32_57
  let v87 : BitVec 32 := Scalar.addi v85 v86
  v87.toNat
def k0_dev5 (d0 : Dev nD) : Nat :=
  let c0_i32_72 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.subi c7_i32 v8
  let v10 : BitVec 32 := Scalar.muli v2 v9
  let c1_i32_2 : BitVec 32 := 1#32
  let v11 : BitVec 32 := Scalar.subi c1_i32_2 v2
  let v12 : BitVec 32 := Scalar.muli v11 v8
  let v13 : BitVec 32 := Scalar.addi v10 v12
  let c4_i32_58 : BitVec 32 := 4#32
  let v88 : BitVec 32 := Scalar.addi v13 c4_i32_58
  let c8_i32_59 : BitVec 32 := 8#32
  let c0_i32_60 : BitVec 32 := 0#32
  let v89 : BitVec 1 := Scalar.cmpi .eq c8_i32_59 c0_i32_60
  let c1_i32_61 : BitVec 32 := 1#32
  let v90 : BitVec 32 := Scalar.select v89 c1_i32_61 c8_i32_59
  let v91 : BitVec 32 := Scalar.remsi v88 v90
  let c0_i32_63 : BitVec 32 := 0#32
  let v93 : BitVec 1 := Scalar.cmpi .slt v91 c0_i32_63
  let c0_i32_64 : BitVec 32 := 0#32
  let v94 : BitVec 1 := Scalar.cmpi .slt v90 c0_i32_64
  let v95 : BitVec 1 := Scalar.xori v93 v94
  let c0_i32_62 : BitVec 32 := 0#32
  let v92 : BitVec 1 := Scalar.cmpi .ne v91 c0_i32_62
  let v96 : BitVec 1 := Scalar.andi v95 v92
  let v97 : BitVec 32 := Scalar.addi v91 v90
  let v98 : BitVec 32 := Scalar.select v96 v97 v91
  let c4_i32_65 : BitVec 32 := 4#32
  let v99 : BitVec 1 := Scalar.cmpi .slt v98 c4_i32_65
  let c0_i32_66 : BitVec 32 := 0#32
  let c1_i32_67 : BitVec 32 := 1#32
  let v100 : BitVec 32 := Scalar.select v99 c0_i32_66 c1_i32_67
  let c8_i32_71 : BitVec 32 := 8#32
  let v104 : BitVec 32 := Scalar.muli v100 c8_i32_71
  let v105 : BitVec 32 := Scalar.addi c0_i32_72 v104
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_73 : BitVec 32 := 4#32
  let v106 : BitVec 32 := Scalar.muli v5 c4_i32_73
  let v107 : BitVec 32 := Scalar.addi v105 v106
  let c4_i32_68 : BitVec 32 := 4#32
  let v101 : BitVec 1 := Scalar.cmpi .slt v98 c4_i32_68
  let c7_i32_69 : BitVec 32 := 7#32
  let v102 : BitVec 32 := Scalar.subi c7_i32_69 v98
  let v103 : BitVec 32 := Scalar.select v101 v98 v102
  let c1_i32_74 : BitVec 32 := 1#32
  let v108 : BitVec 32 := Scalar.muli v103 c1_i32_74
  let v109 : BitVec 32 := Scalar.addi v107 v108
  v109.toNat
def k0_dev6 (d0 : Dev nD) : Nat :=
  let c0_i32_88 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.subi c7_i32 v8
  let v10 : BitVec 32 := Scalar.muli v2 v9
  let c1_i32_2 : BitVec 32 := 1#32
  let v11 : BitVec 32 := Scalar.subi c1_i32_2 v2
  let v12 : BitVec 32 := Scalar.muli v11 v8
  let v13 : BitVec 32 := Scalar.addi v10 v12
  let c5_i32 : BitVec 32 := 5#32
  let v110 : BitVec 32 := Scalar.addi v13 c5_i32
  let c8_i32_75 : BitVec 32 := 8#32
  let c0_i32_76 : BitVec 32 := 0#32
  let v111 : BitVec 1 := Scalar.cmpi .eq c8_i32_75 c0_i32_76
  let c1_i32_77 : BitVec 32 := 1#32
  let v112 : BitVec 32 := Scalar.select v111 c1_i32_77 c8_i32_75
  let v113 : BitVec 32 := Scalar.remsi v110 v112
  let c0_i32_79 : BitVec 32 := 0#32
  let v115 : BitVec 1 := Scalar.cmpi .slt v113 c0_i32_79
  let c0_i32_80 : BitVec 32 := 0#32
  let v116 : BitVec 1 := Scalar.cmpi .slt v112 c0_i32_80
  let v117 : BitVec 1 := Scalar.xori v115 v116
  let c0_i32_78 : BitVec 32 := 0#32
  let v114 : BitVec 1 := Scalar.cmpi .ne v113 c0_i32_78
  let v118 : BitVec 1 := Scalar.andi v117 v114
  let v119 : BitVec 32 := Scalar.addi v113 v112
  let v120 : BitVec 32 := Scalar.select v118 v119 v113
  let c4_i32_81 : BitVec 32 := 4#32
  let v121 : BitVec 1 := Scalar.cmpi .slt v120 c4_i32_81
  let c0_i32_82 : BitVec 32 := 0#32
  let c1_i32_83 : BitVec 32 := 1#32
  let v122 : BitVec 32 := Scalar.select v121 c0_i32_82 c1_i32_83
  let c8_i32_87 : BitVec 32 := 8#32
  let v126 : BitVec 32 := Scalar.muli v122 c8_i32_87
  let v127 : BitVec 32 := Scalar.addi c0_i32_88 v126
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_89 : BitVec 32 := 4#32
  let v128 : BitVec 32 := Scalar.muli v5 c4_i32_89
  let v129 : BitVec 32 := Scalar.addi v127 v128
  let c4_i32_84 : BitVec 32 := 4#32
  let v123 : BitVec 1 := Scalar.cmpi .slt v120 c4_i32_84
  let c7_i32_85 : BitVec 32 := 7#32
  let v124 : BitVec 32 := Scalar.subi c7_i32_85 v120
  let v125 : BitVec 32 := Scalar.select v123 v120 v124
  let c1_i32_90 : BitVec 32 := 1#32
  let v130 : BitVec 32 := Scalar.muli v125 c1_i32_90
  let v131 : BitVec 32 := Scalar.addi v129 v130
  v131.toNat
def k0_dev7 (d0 : Dev nD) : Nat :=
  let c0_i32_104 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.subi c7_i32 v8
  let v10 : BitVec 32 := Scalar.muli v2 v9
  let c1_i32_2 : BitVec 32 := 1#32
  let v11 : BitVec 32 := Scalar.subi c1_i32_2 v2
  let v12 : BitVec 32 := Scalar.muli v11 v8
  let v13 : BitVec 32 := Scalar.addi v10 v12
  let c6_i32 : BitVec 32 := 6#32
  let v132 : BitVec 32 := Scalar.addi v13 c6_i32
  let c8_i32_91 : BitVec 32 := 8#32
  let c0_i32_92 : BitVec 32 := 0#32
  let v133 : BitVec 1 := Scalar.cmpi .eq c8_i32_91 c0_i32_92
  let c1_i32_93 : BitVec 32 := 1#32
  let v134 : BitVec 32 := Scalar.select v133 c1_i32_93 c8_i32_91
  let v135 : BitVec 32 := Scalar.remsi v132 v134
  let c0_i32_95 : BitVec 32 := 0#32
  let v137 : BitVec 1 := Scalar.cmpi .slt v135 c0_i32_95
  let c0_i32_96 : BitVec 32 := 0#32
  let v138 : BitVec 1 := Scalar.cmpi .slt v134 c0_i32_96
  let v139 : BitVec 1 := Scalar.xori v137 v138
  let c0_i32_94 : BitVec 32 := 0#32
  let v136 : BitVec 1 := Scalar.cmpi .ne v135 c0_i32_94
  let v140 : BitVec 1 := Scalar.andi v139 v136
  let v141 : BitVec 32 := Scalar.addi v135 v134
  let v142 : BitVec 32 := Scalar.select v140 v141 v135
  let c4_i32_97 : BitVec 32 := 4#32
  let v143 : BitVec 1 := Scalar.cmpi .slt v142 c4_i32_97
  let c0_i32_98 : BitVec 32 := 0#32
  let c1_i32_99 : BitVec 32 := 1#32
  let v144 : BitVec 32 := Scalar.select v143 c0_i32_98 c1_i32_99
  let c8_i32_103 : BitVec 32 := 8#32
  let v148 : BitVec 32 := Scalar.muli v144 c8_i32_103
  let v149 : BitVec 32 := Scalar.addi c0_i32_104 v148
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_105 : BitVec 32 := 4#32
  let v150 : BitVec 32 := Scalar.muli v5 c4_i32_105
  let v151 : BitVec 32 := Scalar.addi v149 v150
  let c4_i32_100 : BitVec 32 := 4#32
  let v145 : BitVec 1 := Scalar.cmpi .slt v142 c4_i32_100
  let c7_i32_101 : BitVec 32 := 7#32
  let v146 : BitVec 32 := Scalar.subi c7_i32_101 v142
  let v147 : BitVec 32 := Scalar.select v145 v142 v146
  let c1_i32_106 : BitVec 32 := 1#32
  let v152 : BitVec 32 := Scalar.muli v147 c1_i32_106
  let v153 : BitVec 32 := Scalar.addi v151 v152
  v153.toNat
def k0_dev8 (d0 : Dev nD) : Nat :=
  let c0_i32_121 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.subi c7_i32 v8
  let v10 : BitVec 32 := Scalar.muli v2 v9
  let c1_i32_2 : BitVec 32 := 1#32
  let v11 : BitVec 32 := Scalar.subi c1_i32_2 v2
  let v12 : BitVec 32 := Scalar.muli v11 v8
  let v13 : BitVec 32 := Scalar.addi v10 v12
  let c7_i32_107 : BitVec 32 := 7#32
  let v154 : BitVec 32 := Scalar.addi v13 c7_i32_107
  let c8_i32_108 : BitVec 32 := 8#32
  let c0_i32_109 : BitVec 32 := 0#32
  let v155 : BitVec 1 := Scalar.cmpi .eq c8_i32_108 c0_i32_109
  let c1_i32_110 : BitVec 32 := 1#32
  let v156 : BitVec 32 := Scalar.select v155 c1_i32_110 c8_i32_108
  let v157 : BitVec 32 := Scalar.remsi v154 v156
  let c0_i32_112 : BitVec 32 := 0#32
  let v159 : BitVec 1 := Scalar.cmpi .slt v157 c0_i32_112
  let c0_i32_113 : BitVec 32 := 0#32
  let v160 : BitVec 1 := Scalar.cmpi .slt v156 c0_i32_113
  let v161 : BitVec 1 := Scalar.xori v159 v160
  let c0_i32_111 : BitVec 32 := 0#32
  let v158 : BitVec 1 := Scalar.cmpi .ne v157 c0_i32_111
  let v162 : BitVec 1 := Scalar.andi v161 v158
  let v163 : BitVec 32 := Scalar.addi v157 v156
  let v164 : BitVec 32 := Scalar.select v162 v163 v157
  let c4_i32_114 : BitVec 32 := 4#32
  let v165 : BitVec 1 := Scalar.cmpi .slt v164 c4_i32_114
  let c0_i32_115 : BitVec 32 := 0#32
  let c1_i32_116 : BitVec 32 := 1#32
  let v166 : BitVec 32 := Scalar.select v165 c0_i32_115 c1_i32_116
  let c8_i32_120 : BitVec 32 := 8#32
  let v170 : BitVec 32 := Scalar.muli v166 c8_i32_120
  let v171 : BitVec 32 := Scalar.addi c0_i32_121 v170
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_122 : BitVec 32 := 4#32
  let v172 : BitVec 32 := Scalar.muli v5 c4_i32_122
  let v173 : BitVec 32 := Scalar.addi v171 v172
  let c4_i32_117 : BitVec 32 := 4#32
  let v167 : BitVec 1 := Scalar.cmpi .slt v164 c4_i32_117
  let c7_i32_118 : BitVec 32 := 7#32
  let v168 : BitVec 32 := Scalar.subi c7_i32_118 v164
  let v169 : BitVec 32 := Scalar.select v167 v164 v168
  let c1_i32_123 : BitVec 32 := 1#32
  let v174 : BitVec 32 := Scalar.muli v169 c1_i32_123
  let v175 : BitVec 32 := Scalar.addi v173 v174
  v175.toNat
def k0_off1 (d0 : Dev nD) : Fin 4 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.subi c7_i32 v8
  let v10 : BitVec 32 := Scalar.muli v2 v9
  let c1_i32_2 : BitVec 32 := 1#32
  let v11 : BitVec 32 := Scalar.subi c1_i32_2 v2
  let v12 : BitVec 32 := Scalar.muli v11 v8
  let v13 : BitVec 32 := Scalar.addi v10 v12
  let c0_i32_131 : BitVec 32 := 0#32
  let c0_i32_124 : BitVec 32 := 0#32
  let c0_i32_132 : BitVec 32 := 0#32
  ![v13.toNat, 0, 0, 0]
def k0_off2 (d0 : Dev nD) : Fin 4 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.subi c7_i32 v8
  let v10 : BitVec 32 := Scalar.muli v2 v9
  let c1_i32_2 : BitVec 32 := 1#32
  let v11 : BitVec 32 := Scalar.subi c1_i32_2 v2
  let v12 : BitVec 32 := Scalar.muli v11 v8
  let v13 : BitVec 32 := Scalar.addi v10 v12
  let c0_i32_140 : BitVec 32 := 0#32
  let c1_i32_133 : BitVec 32 := 1#32
  let c0_i32_141 : BitVec 32 := 0#32
  ![v13.toNat, 0, 1, 0]
def k0_off3 (d0 : Dev nD) : Fin 4 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.subi c7_i32 v8
  let v10 : BitVec 32 := Scalar.muli v2 v9
  let c1_i32_2 : BitVec 32 := 1#32
  let v11 : BitVec 32 := Scalar.subi c1_i32_2 v2
  let v12 : BitVec 32 := Scalar.muli v11 v8
  let v13 : BitVec 32 := Scalar.addi v10 v12
  let c0_i32_149 : BitVec 32 := 0#32
  let c2_i32_142 : BitVec 32 := 2#32
  let c0_i32_150 : BitVec 32 := 0#32
  ![v13.toNat, 0, 2, 0]
def k0_off4 (d0 : Dev nD) : Fin 4 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.subi c7_i32 v8
  let v10 : BitVec 32 := Scalar.muli v2 v9
  let c1_i32_2 : BitVec 32 := 1#32
  let v11 : BitVec 32 := Scalar.subi c1_i32_2 v2
  let v12 : BitVec 32 := Scalar.muli v11 v8
  let v13 : BitVec 32 := Scalar.addi v10 v12
  let c0_i32_158 : BitVec 32 := 0#32
  let c3_i32_151 : BitVec 32 := 3#32
  let c0_i32_159 : BitVec 32 := 0#32
  ![v13.toNat, 0, 3, 0]
def k0_off5 (d0 : Dev nD) : Fin 4 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.subi c7_i32 v8
  let v10 : BitVec 32 := Scalar.muli v2 v9
  let c1_i32_2 : BitVec 32 := 1#32
  let v11 : BitVec 32 := Scalar.subi c1_i32_2 v2
  let v12 : BitVec 32 := Scalar.muli v11 v8
  let v13 : BitVec 32 := Scalar.addi v10 v12
  let c0_i32_203 : BitVec 32 := 0#32
  let c4_i32_196 : BitVec 32 := 4#32
  let c0_i32_204 : BitVec 32 := 0#32
  ![v13.toNat, 0, 4, 0]
def k0_off6 (d0 : Dev nD) : Fin 4 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.subi c7_i32 v8
  let v10 : BitVec 32 := Scalar.muli v2 v9
  let c1_i32_2 : BitVec 32 := 1#32
  let v11 : BitVec 32 := Scalar.subi c1_i32_2 v2
  let v12 : BitVec 32 := Scalar.muli v11 v8
  let v13 : BitVec 32 := Scalar.addi v10 v12
  let c0_i32_212 : BitVec 32 := 0#32
  let c5_i32_205 : BitVec 32 := 5#32
  let c0_i32_213 : BitVec 32 := 0#32
  ![v13.toNat, 0, 5, 0]
def k0_off7 (d0 : Dev nD) : Fin 4 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.subi c7_i32 v8
  let v10 : BitVec 32 := Scalar.muli v2 v9
  let c1_i32_2 : BitVec 32 := 1#32
  let v11 : BitVec 32 := Scalar.subi c1_i32_2 v2
  let v12 : BitVec 32 := Scalar.muli v11 v8
  let v13 : BitVec 32 := Scalar.addi v10 v12
  let c0_i32_221 : BitVec 32 := 0#32
  let c6_i32_214 : BitVec 32 := 6#32
  let c0_i32_222 : BitVec 32 := 0#32
  ![v13.toNat, 0, 6, 0]
def k0_off8 (d0 : Dev nD) : Fin 4 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.subi c7_i32 v8
  let v10 : BitVec 32 := Scalar.muli v2 v9
  let c1_i32_2 : BitVec 32 := 1#32
  let v11 : BitVec 32 := Scalar.subi c1_i32_2 v2
  let v12 : BitVec 32 := Scalar.muli v11 v8
  let v13 : BitVec 32 := Scalar.addi v10 v12
  let c0_i32_230 : BitVec 32 := 0#32
  let c7_i32_223 : BitVec 32 := 7#32
  let c0_i32_231 : BitVec 32 := 0#32
  ![v13.toNat, 0, 7, 0]
def k0_off9 (d0 : Dev nD) : Fin 4 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.subi c7_i32 v8
  let v10 : BitVec 32 := Scalar.muli v2 v9
  let c1_i32_2 : BitVec 32 := 1#32
  let v11 : BitVec 32 := Scalar.subi c1_i32_2 v2
  let v12 : BitVec 32 := Scalar.muli v11 v8
  let v13 : BitVec 32 := Scalar.addi v10 v12
  let v320 : Index := Scalar.indexCast v13
  let c0 : Index := 0#32
  let c0_340 : Index := 0#32
  let c0_341 : Index := 0#32
  ![v320.toNat, 0, 0, 0]
def k0_dev9 (d0 : Dev nD) : Nat :=
  let c0_i32_369 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_368 : BitVec 32 := 8#32
  let v346 : BitVec 32 := Scalar.muli v2 c8_i32_368
  let v347 : BitVec 32 := Scalar.addi c0_i32_369 v346
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v14 : BitVec 32 := Scalar.subi c1_i32_3 v5
  let c4_i32_370 : BitVec 32 := 4#32
  let v348 : BitVec 32 := Scalar.muli v14 c4_i32_370
  let v349 : BitVec 32 := Scalar.addi v347 v348
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_371 : BitVec 32 := 1#32
  let v350 : BitVec 32 := Scalar.muli v8 c1_i32_371
  let v351 : BitVec 32 := Scalar.addi v349 v350
  v351.toNat
def k0_dev10 (d0 : Dev nD) : Nat :=
  let c0_i32_383 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_382 : BitVec 32 := 8#32
  let v360 : BitVec 32 := Scalar.muli v2 c8_i32_382
  let v361 : BitVec 32 := Scalar.addi c0_i32_383 v360
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v14 : BitVec 32 := Scalar.subi c1_i32_3 v5
  let c4_i32_384 : BitVec 32 := 4#32
  let v362 : BitVec 32 := Scalar.muli v14 c4_i32_384
  let v363 : BitVec 32 := Scalar.addi v361 v362
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_385 : BitVec 32 := 1#32
  let v364 : BitVec 32 := Scalar.muli v8 c1_i32_385
  let v365 : BitVec 32 := Scalar.addi v363 v364
  v365.toNat
def k0_off10 (d0 : Dev nD) : Fin 4 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.subi c7_i32 v8
  let v10 : BitVec 32 := Scalar.muli v2 v9
  let c1_i32_2 : BitVec 32 := 1#32
  let v11 : BitVec 32 := Scalar.subi c1_i32_2 v2
  let v12 : BitVec 32 := Scalar.muli v11 v8
  let v13 : BitVec 32 := Scalar.addi v10 v12
  let c0_i32_397 : BitVec 32 := 0#32
  let c8_i32_390 : BitVec 32 := 8#32
  let c0_i32_398 : BitVec 32 := 0#32
  ![v13.toNat, 0, 8, 0]
def k0_off11 (d0 : Dev nD) : Fin 4 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.subi c7_i32 v8
  let v10 : BitVec 32 := Scalar.muli v2 v9
  let c1_i32_2 : BitVec 32 := 1#32
  let v11 : BitVec 32 := Scalar.subi c1_i32_2 v2
  let v12 : BitVec 32 := Scalar.muli v11 v8
  let v13 : BitVec 32 := Scalar.addi v10 v12
  let c0_i32_405 : BitVec 32 := 0#32
  let c9_i32 : BitVec 32 := 9#32
  let c0_i32_406 : BitVec 32 := 0#32
  ![v13.toNat, 0, 9, 0]
def k0_off12 (d0 : Dev nD) : Fin 4 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.subi c7_i32 v8
  let v10 : BitVec 32 := Scalar.muli v2 v9
  let c1_i32_2 : BitVec 32 := 1#32
  let v11 : BitVec 32 := Scalar.subi c1_i32_2 v2
  let v12 : BitVec 32 := Scalar.muli v11 v8
  let v13 : BitVec 32 := Scalar.addi v10 v12
  let c0_i32_413 : BitVec 32 := 0#32
  let c10_i32 : BitVec 32 := 10#32
  let c0_i32_414 : BitVec 32 := 0#32
  ![v13.toNat, 0, 10, 0]
def k0_off13 (d0 : Dev nD) : Fin 4 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.subi c7_i32 v8
  let v10 : BitVec 32 := Scalar.muli v2 v9
  let c1_i32_2 : BitVec 32 := 1#32
  let v11 : BitVec 32 := Scalar.subi c1_i32_2 v2
  let v12 : BitVec 32 := Scalar.muli v11 v8
  let v13 : BitVec 32 := Scalar.addi v10 v12
  let c0_i32_421 : BitVec 32 := 0#32
  let c11_i32 : BitVec 32 := 11#32
  let c0_i32_422 : BitVec 32 := 0#32
  ![v13.toNat, 0, 11, 0]
def k0_off14 (d0 : Dev nD) : Fin 4 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.subi c7_i32 v8
  let v10 : BitVec 32 := Scalar.muli v2 v9
  let c1_i32_2 : BitVec 32 := 1#32
  let v11 : BitVec 32 := Scalar.subi c1_i32_2 v2
  let v12 : BitVec 32 := Scalar.muli v11 v8
  let v13 : BitVec 32 := Scalar.addi v10 v12
  let v470 : Index := Scalar.indexCast v13
  let c0_531 : Index := 0#32
  let c4 : Index := 4#32
  let c0_532 : Index := 0#32
  ![v470.toNat, 0, 4, 0]
def k0_dev11 (d0 : Dev nD) : Nat :=
  let c0_i32_559 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_558 : BitVec 32 := 8#32
  let v496 : BitVec 32 := Scalar.muli v2 c8_i32_558
  let v497 : BitVec 32 := Scalar.addi c0_i32_559 v496
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v14 : BitVec 32 := Scalar.subi c1_i32_3 v5
  let c4_i32_560 : BitVec 32 := 4#32
  let v498 : BitVec 32 := Scalar.muli v14 c4_i32_560
  let v499 : BitVec 32 := Scalar.addi v497 v498
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_561 : BitVec 32 := 1#32
  let v500 : BitVec 32 := Scalar.muli v8 c1_i32_561
  let v501 : BitVec 32 := Scalar.addi v499 v500
  v501.toNat
def k0_dev12 (d0 : Dev nD) : Nat :=
  let c0_i32_573 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_572 : BitVec 32 := 8#32
  let v510 : BitVec 32 := Scalar.muli v2 c8_i32_572
  let v511 : BitVec 32 := Scalar.addi c0_i32_573 v510
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v14 : BitVec 32 := Scalar.subi c1_i32_3 v5
  let c4_i32_574 : BitVec 32 := 4#32
  let v512 : BitVec 32 := Scalar.muli v14 c4_i32_574
  let v513 : BitVec 32 := Scalar.addi v511 v512
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_575 : BitVec 32 := 1#32
  let v514 : BitVec 32 := Scalar.muli v8 c1_i32_575
  let v515 : BitVec 32 := Scalar.addi v513 v514
  v515.toNat
def k0_off15 (d0 : Dev nD) : Fin 4 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.subi c7_i32 v8
  let v10 : BitVec 32 := Scalar.muli v2 v9
  let c1_i32_2 : BitVec 32 := 1#32
  let v11 : BitVec 32 := Scalar.subi c1_i32_2 v2
  let v12 : BitVec 32 := Scalar.muli v11 v8
  let v13 : BitVec 32 := Scalar.addi v10 v12
  let c0_i32_586 : BitVec 32 := 0#32
  let c12_i32 : BitVec 32 := 12#32
  let c0_i32_587 : BitVec 32 := 0#32
  ![v13.toNat, 0, 12, 0]
def k0_off16 (d0 : Dev nD) : Fin 4 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.subi c7_i32 v8
  let v10 : BitVec 32 := Scalar.muli v2 v9
  let c1_i32_2 : BitVec 32 := 1#32
  let v11 : BitVec 32 := Scalar.subi c1_i32_2 v2
  let v12 : BitVec 32 := Scalar.muli v11 v8
  let v13 : BitVec 32 := Scalar.addi v10 v12
  let c0_i32_594 : BitVec 32 := 0#32
  let c13_i32 : BitVec 32 := 13#32
  let c0_i32_595 : BitVec 32 := 0#32
  ![v13.toNat, 0, 13, 0]
def k0_off17 (d0 : Dev nD) : Fin 4 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.subi c7_i32 v8
  let v10 : BitVec 32 := Scalar.muli v2 v9
  let c1_i32_2 : BitVec 32 := 1#32
  let v11 : BitVec 32 := Scalar.subi c1_i32_2 v2
  let v12 : BitVec 32 := Scalar.muli v11 v8
  let v13 : BitVec 32 := Scalar.addi v10 v12
  let c0_i32_602 : BitVec 32 := 0#32
  let c14_i32 : BitVec 32 := 14#32
  let c0_i32_603 : BitVec 32 := 0#32
  ![v13.toNat, 0, 14, 0]
def k0_off18 (d0 : Dev nD) : Fin 4 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.subi c7_i32 v8
  let v10 : BitVec 32 := Scalar.muli v2 v9
  let c1_i32_2 : BitVec 32 := 1#32
  let v11 : BitVec 32 := Scalar.subi c1_i32_2 v2
  let v12 : BitVec 32 := Scalar.muli v11 v8
  let v13 : BitVec 32 := Scalar.addi v10 v12
  let c0_i32_610 : BitVec 32 := 0#32
  let c15_i32 : BitVec 32 := 15#32
  let c0_i32_611 : BitVec 32 := 0#32
  ![v13.toNat, 0, 15, 0]
def k0_off19 (d0 : Dev nD) : Fin 4 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.subi c7_i32 v8
  let v10 : BitVec 32 := Scalar.muli v2 v9
  let c1_i32_2 : BitVec 32 := 1#32
  let v11 : BitVec 32 := Scalar.subi c1_i32_2 v2
  let v12 : BitVec 32 := Scalar.muli v11 v8
  let v13 : BitVec 32 := Scalar.addi v10 v12
  let v620 : Index := Scalar.indexCast v13
  let c0_720 : Index := 0#32
  let c8 : Index := 8#32
  let c0_721 : Index := 0#32
  ![v620.toNat, 0, 8, 0]
def k0_dev13 (d0 : Dev nD) : Nat :=
  let c0_i32_748 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_747 : BitVec 32 := 8#32
  let v646 : BitVec 32 := Scalar.muli v2 c8_i32_747
  let v647 : BitVec 32 := Scalar.addi c0_i32_748 v646
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v14 : BitVec 32 := Scalar.subi c1_i32_3 v5
  let c4_i32_749 : BitVec 32 := 4#32
  let v648 : BitVec 32 := Scalar.muli v14 c4_i32_749
  let v649 : BitVec 32 := Scalar.addi v647 v648
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_750 : BitVec 32 := 1#32
  let v650 : BitVec 32 := Scalar.muli v8 c1_i32_750
  let v651 : BitVec 32 := Scalar.addi v649 v650
  v651.toNat
def k0_dev14 (d0 : Dev nD) : Nat :=
  let c0_i32_762 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_761 : BitVec 32 := 8#32
  let v660 : BitVec 32 := Scalar.muli v2 c8_i32_761
  let v661 : BitVec 32 := Scalar.addi c0_i32_762 v660
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v14 : BitVec 32 := Scalar.subi c1_i32_3 v5
  let c4_i32_763 : BitVec 32 := 4#32
  let v662 : BitVec 32 := Scalar.muli v14 c4_i32_763
  let v663 : BitVec 32 := Scalar.addi v661 v662
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_764 : BitVec 32 := 1#32
  let v664 : BitVec 32 := Scalar.muli v8 c1_i32_764
  let v665 : BitVec 32 := Scalar.addi v663 v664
  v665.toNat
def k0_off20 (d0 : Dev nD) : Fin 4 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.subi c7_i32 v8
  let v10 : BitVec 32 := Scalar.muli v2 v9
  let c1_i32_2 : BitVec 32 := 1#32
  let v11 : BitVec 32 := Scalar.subi c1_i32_2 v2
  let v12 : BitVec 32 := Scalar.muli v11 v8
  let v13 : BitVec 32 := Scalar.addi v10 v12
  let v722 : Index := Scalar.indexCast v13
  let c0_841 : Index := 0#32
  let c12 : Index := 12#32
  let c0_842 : Index := 0#32
  ![v722.toNat, 0, 12, 0]
def k0_dev15 (d0 : Dev nD) : Nat :=
  let c0_i32_869 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_868 : BitVec 32 := 8#32
  let v748 : BitVec 32 := Scalar.muli v2 c8_i32_868
  let v749 : BitVec 32 := Scalar.addi c0_i32_869 v748
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v14 : BitVec 32 := Scalar.subi c1_i32_3 v5
  let c4_i32_870 : BitVec 32 := 4#32
  let v750 : BitVec 32 := Scalar.muli v14 c4_i32_870
  let v751 : BitVec 32 := Scalar.addi v749 v750
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_871 : BitVec 32 := 1#32
  let v752 : BitVec 32 := Scalar.muli v8 c1_i32_871
  let v753 : BitVec 32 := Scalar.addi v751 v752
  v753.toNat
def k0_dev16 (d0 : Dev nD) : Nat :=
  let c0_i32_883 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_882 : BitVec 32 := 8#32
  let v762 : BitVec 32 := Scalar.muli v2 c8_i32_882
  let v763 : BitVec 32 := Scalar.addi c0_i32_883 v762
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v14 : BitVec 32 := Scalar.subi c1_i32_3 v5
  let c4_i32_884 : BitVec 32 := 4#32
  let v764 : BitVec 32 := Scalar.muli v14 c4_i32_884
  let v765 : BitVec 32 := Scalar.addi v763 v764
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_885 : BitVec 32 := 1#32
  let v766 : BitVec 32 := Scalar.muli v8 c1_i32_885
  let v767 : BitVec 32 := Scalar.addi v765 v766
  v767.toNat
def k0_off21 (d0 : Dev nD) : Fin 4 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.subi c7_i32 v8
  let v10 : BitVec 32 := Scalar.muli v2 v9
  let c1_i32_2 : BitVec 32 := 1#32
  let v11 : BitVec 32 := Scalar.subi c1_i32_2 v2
  let v12 : BitVec 32 := Scalar.muli v11 v8
  let v13 : BitVec 32 := Scalar.addi v10 v12
  let v846 : Index := Scalar.indexCast v13
  let c0_965 : Index := 0#32
  let c0_966 : Index := 0#32
  let c0_967 : Index := 0#32
  ![v846.toNat, 0, 0, 0]
def k0_off22 (d0 : Dev nD) : Fin 5 → Nat :=
  let c0_968 : Index := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.subi c7_i32 v8
  let v10 : BitVec 32 := Scalar.muli v2 v9
  let c1_i32_2 : BitVec 32 := 1#32
  let v11 : BitVec 32 := Scalar.subi c1_i32_2 v2
  let v12 : BitVec 32 := Scalar.muli v11 v8
  let v13 : BitVec 32 := Scalar.addi v10 v12
  let v851 : Index := Scalar.indexCast v13
  let c0_969 : Index := 0#32
  let c0_970 : Index := 0#32
  let c0_971 : Index := 0#32
  ![0, v851.toNat, 0, 0, 0]
def k0_off23 (d0 : Dev nD) : Fin 2 → Nat :=
  let c0_i32_986 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.subi c7_i32 v8
  let v10 : BitVec 32 := Scalar.muli v2 v9
  let c1_i32_2 : BitVec 32 := 1#32
  let v11 : BitVec 32 := Scalar.subi c1_i32_2 v2
  let v12 : BitVec 32 := Scalar.muli v11 v8
  let v13 : BitVec 32 := Scalar.addi v10 v12
  ![0, v13.toNat]
def k0_off24 (d0 : Dev nD) : Fin 5 → Nat :=
  let c0_i32_985 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.subi c7_i32 v8
  let v10 : BitVec 32 := Scalar.muli v2 v9
  let c1_i32_2 : BitVec 32 := 1#32
  let v11 : BitVec 32 := Scalar.subi c1_i32_2 v2
  let v12 : BitVec 32 := Scalar.muli v11 v8
  let v13 : BitVec 32 := Scalar.addi v10 v12
  let c0_i32_992 : BitVec 32 := 0#32
  let c0_i32_993 : BitVec 32 := 0#32
  let c0_i32_994 : BitVec 32 := 0#32
  ![0, v13.toNat, 0, 0, 0]
def k0_dev17 (d0 : Dev nD) : Nat :=
  let c0_i32_989 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.subi c7_i32 v8
  let v10 : BitVec 32 := Scalar.muli v2 v9
  let c1_i32_2 : BitVec 32 := 1#32
  let v11 : BitVec 32 := Scalar.subi c1_i32_2 v2
  let v12 : BitVec 32 := Scalar.muli v11 v8
  let v13 : BitVec 32 := Scalar.addi v10 v12
  let c1_i32_972 : BitVec 32 := 1#32
  let v855 : BitVec 32 := Scalar.addi v13 c1_i32_972
  let c8_i32_973 : BitVec 32 := 8#32
  let c0_i32_974 : BitVec 32 := 0#32
  let v856 : BitVec 1 := Scalar.cmpi .eq c8_i32_973 c0_i32_974
  let c1_i32_975 : BitVec 32 := 1#32
  let v857 : BitVec 32 := Scalar.select v856 c1_i32_975 c8_i32_973
  let v858 : BitVec 32 := Scalar.remsi v855 v857
  let c0_i32_977 : BitVec 32 := 0#32
  let v860 : BitVec 1 := Scalar.cmpi .slt v858 c0_i32_977
  let c0_i32_978 : BitVec 32 := 0#32
  let v861 : BitVec 1 := Scalar.cmpi .slt v857 c0_i32_978
  let v862 : BitVec 1 := Scalar.xori v860 v861
  let c0_i32_976 : BitVec 32 := 0#32
  let v859 : BitVec 1 := Scalar.cmpi .ne v858 c0_i32_976
  let v863 : BitVec 1 := Scalar.andi v862 v859
  let v864 : BitVec 32 := Scalar.addi v858 v857
  let v865 : BitVec 32 := Scalar.select v863 v864 v858
  let c4_i32_979 : BitVec 32 := 4#32
  let v866 : BitVec 1 := Scalar.cmpi .slt v865 c4_i32_979
  let c0_i32_980 : BitVec 32 := 0#32
  let c1_i32_981 : BitVec 32 := 1#32
  let v867 : BitVec 32 := Scalar.select v866 c0_i32_980 c1_i32_981
  let c8_i32_988 : BitVec 32 := 8#32
  let v871 : BitVec 32 := Scalar.muli v867 c8_i32_988
  let v872 : BitVec 32 := Scalar.addi c0_i32_989 v871
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_990 : BitVec 32 := 4#32
  let v873 : BitVec 32 := Scalar.muli v5 c4_i32_990
  let v874 : BitVec 32 := Scalar.addi v872 v873
  let c4_i32_982 : BitVec 32 := 4#32
  let v868 : BitVec 1 := Scalar.cmpi .slt v865 c4_i32_982
  let c7_i32_983 : BitVec 32 := 7#32
  let v869 : BitVec 32 := Scalar.subi c7_i32_983 v865
  let v870 : BitVec 32 := Scalar.select v868 v865 v869
  let c1_i32_991 : BitVec 32 := 1#32
  let v875 : BitVec 32 := Scalar.muli v870 c1_i32_991
  let v876 : BitVec 32 := Scalar.addi v874 v875
  v876.toNat
def k0_dev18 (d0 : Dev nD) : Nat :=
  let c0_i32_1015 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.subi c7_i32 v8
  let v10 : BitVec 32 := Scalar.muli v2 v9
  let c1_i32_2 : BitVec 32 := 1#32
  let v11 : BitVec 32 := Scalar.subi c1_i32_2 v2
  let v12 : BitVec 32 := Scalar.muli v11 v8
  let v13 : BitVec 32 := Scalar.addi v10 v12
  let c2_i32_998 : BitVec 32 := 2#32
  let v885 : BitVec 32 := Scalar.addi v13 c2_i32_998
  let c8_i32_999 : BitVec 32 := 8#32
  let c0_i32_1000 : BitVec 32 := 0#32
  let v886 : BitVec 1 := Scalar.cmpi .eq c8_i32_999 c0_i32_1000
  let c1_i32_1001 : BitVec 32 := 1#32
  let v887 : BitVec 32 := Scalar.select v886 c1_i32_1001 c8_i32_999
  let v888 : BitVec 32 := Scalar.remsi v885 v887
  let c0_i32_1003 : BitVec 32 := 0#32
  let v890 : BitVec 1 := Scalar.cmpi .slt v888 c0_i32_1003
  let c0_i32_1004 : BitVec 32 := 0#32
  let v891 : BitVec 1 := Scalar.cmpi .slt v887 c0_i32_1004
  let v892 : BitVec 1 := Scalar.xori v890 v891
  let c0_i32_1002 : BitVec 32 := 0#32
  let v889 : BitVec 1 := Scalar.cmpi .ne v888 c0_i32_1002
  let v893 : BitVec 1 := Scalar.andi v892 v889
  let v894 : BitVec 32 := Scalar.addi v888 v887
  let v895 : BitVec 32 := Scalar.select v893 v894 v888
  let c4_i32_1005 : BitVec 32 := 4#32
  let v896 : BitVec 1 := Scalar.cmpi .slt v895 c4_i32_1005
  let c0_i32_1006 : BitVec 32 := 0#32
  let c1_i32_1007 : BitVec 32 := 1#32
  let v897 : BitVec 32 := Scalar.select v896 c0_i32_1006 c1_i32_1007
  let c8_i32_1014 : BitVec 32 := 8#32
  let v901 : BitVec 32 := Scalar.muli v897 c8_i32_1014
  let v902 : BitVec 32 := Scalar.addi c0_i32_1015 v901
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1016 : BitVec 32 := 4#32
  let v903 : BitVec 32 := Scalar.muli v5 c4_i32_1016
  let v904 : BitVec 32 := Scalar.addi v902 v903
  let c4_i32_1008 : BitVec 32 := 4#32
  let v898 : BitVec 1 := Scalar.cmpi .slt v895 c4_i32_1008
  let c7_i32_1009 : BitVec 32 := 7#32
  let v899 : BitVec 32 := Scalar.subi c7_i32_1009 v895
  let v900 : BitVec 32 := Scalar.select v898 v895 v899
  let c1_i32_1017 : BitVec 32 := 1#32
  let v905 : BitVec 32 := Scalar.muli v900 c1_i32_1017
  let v906 : BitVec 32 := Scalar.addi v904 v905
  v906.toNat
def k0_dev19 (d0 : Dev nD) : Nat :=
  let c0_i32_1041 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.subi c7_i32 v8
  let v10 : BitVec 32 := Scalar.muli v2 v9
  let c1_i32_2 : BitVec 32 := 1#32
  let v11 : BitVec 32 := Scalar.subi c1_i32_2 v2
  let v12 : BitVec 32 := Scalar.muli v11 v8
  let v13 : BitVec 32 := Scalar.addi v10 v12
  let c3_i32_1024 : BitVec 32 := 3#32
  let v915 : BitVec 32 := Scalar.addi v13 c3_i32_1024
  let c8_i32_1025 : BitVec 32 := 8#32
  let c0_i32_1026 : BitVec 32 := 0#32
  let v916 : BitVec 1 := Scalar.cmpi .eq c8_i32_1025 c0_i32_1026
  let c1_i32_1027 : BitVec 32 := 1#32
  let v917 : BitVec 32 := Scalar.select v916 c1_i32_1027 c8_i32_1025
  let v918 : BitVec 32 := Scalar.remsi v915 v917
  let c0_i32_1029 : BitVec 32 := 0#32
  let v920 : BitVec 1 := Scalar.cmpi .slt v918 c0_i32_1029
  let c0_i32_1030 : BitVec 32 := 0#32
  let v921 : BitVec 1 := Scalar.cmpi .slt v917 c0_i32_1030
  let v922 : BitVec 1 := Scalar.xori v920 v921
  let c0_i32_1028 : BitVec 32 := 0#32
  let v919 : BitVec 1 := Scalar.cmpi .ne v918 c0_i32_1028
  let v923 : BitVec 1 := Scalar.andi v922 v919
  let v924 : BitVec 32 := Scalar.addi v918 v917
  let v925 : BitVec 32 := Scalar.select v923 v924 v918
  let c4_i32_1031 : BitVec 32 := 4#32
  let v926 : BitVec 1 := Scalar.cmpi .slt v925 c4_i32_1031
  let c0_i32_1032 : BitVec 32 := 0#32
  let c1_i32_1033 : BitVec 32 := 1#32
  let v927 : BitVec 32 := Scalar.select v926 c0_i32_1032 c1_i32_1033
  let c8_i32_1040 : BitVec 32 := 8#32
  let v931 : BitVec 32 := Scalar.muli v927 c8_i32_1040
  let v932 : BitVec 32 := Scalar.addi c0_i32_1041 v931
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1042 : BitVec 32 := 4#32
  let v933 : BitVec 32 := Scalar.muli v5 c4_i32_1042
  let v934 : BitVec 32 := Scalar.addi v932 v933
  let c4_i32_1034 : BitVec 32 := 4#32
  let v928 : BitVec 1 := Scalar.cmpi .slt v925 c4_i32_1034
  let c7_i32_1035 : BitVec 32 := 7#32
  let v929 : BitVec 32 := Scalar.subi c7_i32_1035 v925
  let v930 : BitVec 32 := Scalar.select v928 v925 v929
  let c1_i32_1043 : BitVec 32 := 1#32
  let v935 : BitVec 32 := Scalar.muli v930 c1_i32_1043
  let v936 : BitVec 32 := Scalar.addi v934 v935
  v936.toNat
def k0_dev20 (d0 : Dev nD) : Nat :=
  let c0_i32_1067 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.subi c7_i32 v8
  let v10 : BitVec 32 := Scalar.muli v2 v9
  let c1_i32_2 : BitVec 32 := 1#32
  let v11 : BitVec 32 := Scalar.subi c1_i32_2 v2
  let v12 : BitVec 32 := Scalar.muli v11 v8
  let v13 : BitVec 32 := Scalar.addi v10 v12
  let c4_i32_1050 : BitVec 32 := 4#32
  let v945 : BitVec 32 := Scalar.addi v13 c4_i32_1050
  let c8_i32_1051 : BitVec 32 := 8#32
  let c0_i32_1052 : BitVec 32 := 0#32
  let v946 : BitVec 1 := Scalar.cmpi .eq c8_i32_1051 c0_i32_1052
  let c1_i32_1053 : BitVec 32 := 1#32
  let v947 : BitVec 32 := Scalar.select v946 c1_i32_1053 c8_i32_1051
  let v948 : BitVec 32 := Scalar.remsi v945 v947
  let c0_i32_1055 : BitVec 32 := 0#32
  let v950 : BitVec 1 := Scalar.cmpi .slt v948 c0_i32_1055
  let c0_i32_1056 : BitVec 32 := 0#32
  let v951 : BitVec 1 := Scalar.cmpi .slt v947 c0_i32_1056
  let v952 : BitVec 1 := Scalar.xori v950 v951
  let c0_i32_1054 : BitVec 32 := 0#32
  let v949 : BitVec 1 := Scalar.cmpi .ne v948 c0_i32_1054
  let v953 : BitVec 1 := Scalar.andi v952 v949
  let v954 : BitVec 32 := Scalar.addi v948 v947
  let v955 : BitVec 32 := Scalar.select v953 v954 v948
  let c4_i32_1057 : BitVec 32 := 4#32
  let v956 : BitVec 1 := Scalar.cmpi .slt v955 c4_i32_1057
  let c0_i32_1058 : BitVec 32 := 0#32
  let c1_i32_1059 : BitVec 32 := 1#32
  let v957 : BitVec 32 := Scalar.select v956 c0_i32_1058 c1_i32_1059
  let c8_i32_1066 : BitVec 32 := 8#32
  let v961 : BitVec 32 := Scalar.muli v957 c8_i32_1066
  let v962 : BitVec 32 := Scalar.addi c0_i32_1067 v961
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1068 : BitVec 32 := 4#32
  let v963 : BitVec 32 := Scalar.muli v5 c4_i32_1068
  let v964 : BitVec 32 := Scalar.addi v962 v963
  let c4_i32_1060 : BitVec 32 := 4#32
  let v958 : BitVec 1 := Scalar.cmpi .slt v955 c4_i32_1060
  let c7_i32_1061 : BitVec 32 := 7#32
  let v959 : BitVec 32 := Scalar.subi c7_i32_1061 v955
  let v960 : BitVec 32 := Scalar.select v958 v955 v959
  let c1_i32_1069 : BitVec 32 := 1#32
  let v965 : BitVec 32 := Scalar.muli v960 c1_i32_1069
  let v966 : BitVec 32 := Scalar.addi v964 v965
  v966.toNat
def k0_dev21 (d0 : Dev nD) : Nat :=
  let c0_i32_1093 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.subi c7_i32 v8
  let v10 : BitVec 32 := Scalar.muli v2 v9
  let c1_i32_2 : BitVec 32 := 1#32
  let v11 : BitVec 32 := Scalar.subi c1_i32_2 v2
  let v12 : BitVec 32 := Scalar.muli v11 v8
  let v13 : BitVec 32 := Scalar.addi v10 v12
  let c5_i32_1076 : BitVec 32 := 5#32
  let v975 : BitVec 32 := Scalar.addi v13 c5_i32_1076
  let c8_i32_1077 : BitVec 32 := 8#32
  let c0_i32_1078 : BitVec 32 := 0#32
  let v976 : BitVec 1 := Scalar.cmpi .eq c8_i32_1077 c0_i32_1078
  let c1_i32_1079 : BitVec 32 := 1#32
  let v977 : BitVec 32 := Scalar.select v976 c1_i32_1079 c8_i32_1077
  let v978 : BitVec 32 := Scalar.remsi v975 v977
  let c0_i32_1081 : BitVec 32 := 0#32
  let v980 : BitVec 1 := Scalar.cmpi .slt v978 c0_i32_1081
  let c0_i32_1082 : BitVec 32 := 0#32
  let v981 : BitVec 1 := Scalar.cmpi .slt v977 c0_i32_1082
  let v982 : BitVec 1 := Scalar.xori v980 v981
  let c0_i32_1080 : BitVec 32 := 0#32
  let v979 : BitVec 1 := Scalar.cmpi .ne v978 c0_i32_1080
  let v983 : BitVec 1 := Scalar.andi v982 v979
  let v984 : BitVec 32 := Scalar.addi v978 v977
  let v985 : BitVec 32 := Scalar.select v983 v984 v978
  let c4_i32_1083 : BitVec 32 := 4#32
  let v986 : BitVec 1 := Scalar.cmpi .slt v985 c4_i32_1083
  let c0_i32_1084 : BitVec 32 := 0#32
  let c1_i32_1085 : BitVec 32 := 1#32
  let v987 : BitVec 32 := Scalar.select v986 c0_i32_1084 c1_i32_1085
  let c8_i32_1092 : BitVec 32 := 8#32
  let v991 : BitVec 32 := Scalar.muli v987 c8_i32_1092
  let v992 : BitVec 32 := Scalar.addi c0_i32_1093 v991
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1094 : BitVec 32 := 4#32
  let v993 : BitVec 32 := Scalar.muli v5 c4_i32_1094
  let v994 : BitVec 32 := Scalar.addi v992 v993
  let c4_i32_1086 : BitVec 32 := 4#32
  let v988 : BitVec 1 := Scalar.cmpi .slt v985 c4_i32_1086
  let c7_i32_1087 : BitVec 32 := 7#32
  let v989 : BitVec 32 := Scalar.subi c7_i32_1087 v985
  let v990 : BitVec 32 := Scalar.select v988 v985 v989
  let c1_i32_1095 : BitVec 32 := 1#32
  let v995 : BitVec 32 := Scalar.muli v990 c1_i32_1095
  let v996 : BitVec 32 := Scalar.addi v994 v995
  v996.toNat
def k0_dev22 (d0 : Dev nD) : Nat :=
  let c0_i32_1119 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.subi c7_i32 v8
  let v10 : BitVec 32 := Scalar.muli v2 v9
  let c1_i32_2 : BitVec 32 := 1#32
  let v11 : BitVec 32 := Scalar.subi c1_i32_2 v2
  let v12 : BitVec 32 := Scalar.muli v11 v8
  let v13 : BitVec 32 := Scalar.addi v10 v12
  let c6_i32_1102 : BitVec 32 := 6#32
  let v1005 : BitVec 32 := Scalar.addi v13 c6_i32_1102
  let c8_i32_1103 : BitVec 32 := 8#32
  let c0_i32_1104 : BitVec 32 := 0#32
  let v1006 : BitVec 1 := Scalar.cmpi .eq c8_i32_1103 c0_i32_1104
  let c1_i32_1105 : BitVec 32 := 1#32
  let v1007 : BitVec 32 := Scalar.select v1006 c1_i32_1105 c8_i32_1103
  let v1008 : BitVec 32 := Scalar.remsi v1005 v1007
  let c0_i32_1107 : BitVec 32 := 0#32
  let v1010 : BitVec 1 := Scalar.cmpi .slt v1008 c0_i32_1107
  let c0_i32_1108 : BitVec 32 := 0#32
  let v1011 : BitVec 1 := Scalar.cmpi .slt v1007 c0_i32_1108
  let v1012 : BitVec 1 := Scalar.xori v1010 v1011
  let c0_i32_1106 : BitVec 32 := 0#32
  let v1009 : BitVec 1 := Scalar.cmpi .ne v1008 c0_i32_1106
  let v1013 : BitVec 1 := Scalar.andi v1012 v1009
  let v1014 : BitVec 32 := Scalar.addi v1008 v1007
  let v1015 : BitVec 32 := Scalar.select v1013 v1014 v1008
  let c4_i32_1109 : BitVec 32 := 4#32
  let v1016 : BitVec 1 := Scalar.cmpi .slt v1015 c4_i32_1109
  let c0_i32_1110 : BitVec 32 := 0#32
  let c1_i32_1111 : BitVec 32 := 1#32
  let v1017 : BitVec 32 := Scalar.select v1016 c0_i32_1110 c1_i32_1111
  let c8_i32_1118 : BitVec 32 := 8#32
  let v1021 : BitVec 32 := Scalar.muli v1017 c8_i32_1118
  let v1022 : BitVec 32 := Scalar.addi c0_i32_1119 v1021
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1120 : BitVec 32 := 4#32
  let v1023 : BitVec 32 := Scalar.muli v5 c4_i32_1120
  let v1024 : BitVec 32 := Scalar.addi v1022 v1023
  let c4_i32_1112 : BitVec 32 := 4#32
  let v1018 : BitVec 1 := Scalar.cmpi .slt v1015 c4_i32_1112
  let c7_i32_1113 : BitVec 32 := 7#32
  let v1019 : BitVec 32 := Scalar.subi c7_i32_1113 v1015
  let v1020 : BitVec 32 := Scalar.select v1018 v1015 v1019
  let c1_i32_1121 : BitVec 32 := 1#32
  let v1025 : BitVec 32 := Scalar.muli v1020 c1_i32_1121
  let v1026 : BitVec 32 := Scalar.addi v1024 v1025
  v1026.toNat
def k0_dev23 (d0 : Dev nD) : Nat :=
  let c0_i32_1145 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.subi c7_i32 v8
  let v10 : BitVec 32 := Scalar.muli v2 v9
  let c1_i32_2 : BitVec 32 := 1#32
  let v11 : BitVec 32 := Scalar.subi c1_i32_2 v2
  let v12 : BitVec 32 := Scalar.muli v11 v8
  let v13 : BitVec 32 := Scalar.addi v10 v12
  let c7_i32_1128 : BitVec 32 := 7#32
  let v1035 : BitVec 32 := Scalar.addi v13 c7_i32_1128
  let c8_i32_1129 : BitVec 32 := 8#32
  let c0_i32_1130 : BitVec 32 := 0#32
  let v1036 : BitVec 1 := Scalar.cmpi .eq c8_i32_1129 c0_i32_1130
  let c1_i32_1131 : BitVec 32 := 1#32
  let v1037 : BitVec 32 := Scalar.select v1036 c1_i32_1131 c8_i32_1129
  let v1038 : BitVec 32 := Scalar.remsi v1035 v1037
  let c0_i32_1133 : BitVec 32 := 0#32
  let v1040 : BitVec 1 := Scalar.cmpi .slt v1038 c0_i32_1133
  let c0_i32_1134 : BitVec 32 := 0#32
  let v1041 : BitVec 1 := Scalar.cmpi .slt v1037 c0_i32_1134
  let v1042 : BitVec 1 := Scalar.xori v1040 v1041
  let c0_i32_1132 : BitVec 32 := 0#32
  let v1039 : BitVec 1 := Scalar.cmpi .ne v1038 c0_i32_1132
  let v1043 : BitVec 1 := Scalar.andi v1042 v1039
  let v1044 : BitVec 32 := Scalar.addi v1038 v1037
  let v1045 : BitVec 32 := Scalar.select v1043 v1044 v1038
  let c4_i32_1135 : BitVec 32 := 4#32
  let v1046 : BitVec 1 := Scalar.cmpi .slt v1045 c4_i32_1135
  let c0_i32_1136 : BitVec 32 := 0#32
  let c1_i32_1137 : BitVec 32 := 1#32
  let v1047 : BitVec 32 := Scalar.select v1046 c0_i32_1136 c1_i32_1137
  let c8_i32_1144 : BitVec 32 := 8#32
  let v1051 : BitVec 32 := Scalar.muli v1047 c8_i32_1144
  let v1052 : BitVec 32 := Scalar.addi c0_i32_1145 v1051
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1146 : BitVec 32 := 4#32
  let v1053 : BitVec 32 := Scalar.muli v5 c4_i32_1146
  let v1054 : BitVec 32 := Scalar.addi v1052 v1053
  let c4_i32_1138 : BitVec 32 := 4#32
  let v1048 : BitVec 1 := Scalar.cmpi .slt v1045 c4_i32_1138
  let c7_i32_1139 : BitVec 32 := 7#32
  let v1049 : BitVec 32 := Scalar.subi c7_i32_1139 v1045
  let v1050 : BitVec 32 := Scalar.select v1048 v1045 v1049
  let c1_i32_1147 : BitVec 32 := 1#32
  let v1055 : BitVec 32 := Scalar.muli v1050 c1_i32_1147
  let v1056 : BitVec 32 := Scalar.addi v1054 v1055
  v1056.toNat
def k0_off25 (d0 : Dev nD) : Fin 4 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.subi c7_i32 v8
  let v10 : BitVec 32 := Scalar.muli v2 v9
  let c1_i32_2 : BitVec 32 := 1#32
  let v11 : BitVec 32 := Scalar.subi c1_i32_2 v2
  let v12 : BitVec 32 := Scalar.muli v11 v8
  let v13 : BitVec 32 := Scalar.addi v10 v12
  let v1135 : Index := Scalar.indexCast v13
  let c0_1229 : Index := 0#32
  let c8_1230 : Index := 8#32
  let c0_1231 : Index := 0#32
  ![v1135.toNat, 0, 8, 0]
def k0_off26 (d0 : Dev nD) : Fin 5 → Nat :=
  let c1_1232 : Index := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.subi c7_i32 v8
  let v10 : BitVec 32 := Scalar.muli v2 v9
  let c1_i32_2 : BitVec 32 := 1#32
  let v11 : BitVec 32 := Scalar.subi c1_i32_2 v2
  let v12 : BitVec 32 := Scalar.muli v11 v8
  let v13 : BitVec 32 := Scalar.addi v10 v12
  let v1140 : Index := Scalar.indexCast v13
  let c0_1233 : Index := 0#32
  let c0_1234 : Index := 0#32
  let c0_1235 : Index := 0#32
  ![1, v1140.toNat, 0, 0, 0]
def k0_off27 (d0 : Dev nD) : Fin 2 → Nat :=
  let c1_i32_1250 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.subi c7_i32 v8
  let v10 : BitVec 32 := Scalar.muli v2 v9
  let c1_i32_2 : BitVec 32 := 1#32
  let v11 : BitVec 32 := Scalar.subi c1_i32_2 v2
  let v12 : BitVec 32 := Scalar.muli v11 v8
  let v13 : BitVec 32 := Scalar.addi v10 v12
  ![1, v13.toNat]
def k0_off28 (d0 : Dev nD) : Fin 5 → Nat :=
  let c1_i32_1249 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.subi c7_i32 v8
  let v10 : BitVec 32 := Scalar.muli v2 v9
  let c1_i32_2 : BitVec 32 := 1#32
  let v11 : BitVec 32 := Scalar.subi c1_i32_2 v2
  let v12 : BitVec 32 := Scalar.muli v11 v8
  let v13 : BitVec 32 := Scalar.addi v10 v12
  let c0_i32_1256 : BitVec 32 := 0#32
  let c0_i32_1257 : BitVec 32 := 0#32
  let c0_i32_1258 : BitVec 32 := 0#32
  ![1, v13.toNat, 0, 0, 0]
def k0_dev24 (d0 : Dev nD) : Nat :=
  let c0_i32_1253 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.subi c7_i32 v8
  let v10 : BitVec 32 := Scalar.muli v2 v9
  let c1_i32_2 : BitVec 32 := 1#32
  let v11 : BitVec 32 := Scalar.subi c1_i32_2 v2
  let v12 : BitVec 32 := Scalar.muli v11 v8
  let v13 : BitVec 32 := Scalar.addi v10 v12
  let c1_i32_1236 : BitVec 32 := 1#32
  let v1144 : BitVec 32 := Scalar.addi v13 c1_i32_1236
  let c8_i32_1237 : BitVec 32 := 8#32
  let c0_i32_1238 : BitVec 32 := 0#32
  let v1145 : BitVec 1 := Scalar.cmpi .eq c8_i32_1237 c0_i32_1238
  let c1_i32_1239 : BitVec 32 := 1#32
  let v1146 : BitVec 32 := Scalar.select v1145 c1_i32_1239 c8_i32_1237
  let v1147 : BitVec 32 := Scalar.remsi v1144 v1146
  let c0_i32_1241 : BitVec 32 := 0#32
  let v1149 : BitVec 1 := Scalar.cmpi .slt v1147 c0_i32_1241
  let c0_i32_1242 : BitVec 32 := 0#32
  let v1150 : BitVec 1 := Scalar.cmpi .slt v1146 c0_i32_1242
  let v1151 : BitVec 1 := Scalar.xori v1149 v1150
  let c0_i32_1240 : BitVec 32 := 0#32
  let v1148 : BitVec 1 := Scalar.cmpi .ne v1147 c0_i32_1240
  let v1152 : BitVec 1 := Scalar.andi v1151 v1148
  let v1153 : BitVec 32 := Scalar.addi v1147 v1146
  let v1154 : BitVec 32 := Scalar.select v1152 v1153 v1147
  let c4_i32_1243 : BitVec 32 := 4#32
  let v1155 : BitVec 1 := Scalar.cmpi .slt v1154 c4_i32_1243
  let c0_i32_1244 : BitVec 32 := 0#32
  let c1_i32_1245 : BitVec 32 := 1#32
  let v1156 : BitVec 32 := Scalar.select v1155 c0_i32_1244 c1_i32_1245
  let c8_i32_1252 : BitVec 32 := 8#32
  let v1160 : BitVec 32 := Scalar.muli v1156 c8_i32_1252
  let v1161 : BitVec 32 := Scalar.addi c0_i32_1253 v1160
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1254 : BitVec 32 := 4#32
  let v1162 : BitVec 32 := Scalar.muli v5 c4_i32_1254
  let v1163 : BitVec 32 := Scalar.addi v1161 v1162
  let c4_i32_1246 : BitVec 32 := 4#32
  let v1157 : BitVec 1 := Scalar.cmpi .slt v1154 c4_i32_1246
  let c7_i32_1247 : BitVec 32 := 7#32
  let v1158 : BitVec 32 := Scalar.subi c7_i32_1247 v1154
  let v1159 : BitVec 32 := Scalar.select v1157 v1154 v1158
  let c1_i32_1255 : BitVec 32 := 1#32
  let v1164 : BitVec 32 := Scalar.muli v1159 c1_i32_1255
  let v1165 : BitVec 32 := Scalar.addi v1163 v1164
  v1165.toNat
def k0_dev25 (d0 : Dev nD) : Nat :=
  let c0_i32_1279 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.subi c7_i32 v8
  let v10 : BitVec 32 := Scalar.muli v2 v9
  let c1_i32_2 : BitVec 32 := 1#32
  let v11 : BitVec 32 := Scalar.subi c1_i32_2 v2
  let v12 : BitVec 32 := Scalar.muli v11 v8
  let v13 : BitVec 32 := Scalar.addi v10 v12
  let c2_i32_1262 : BitVec 32 := 2#32
  let v1174 : BitVec 32 := Scalar.addi v13 c2_i32_1262
  let c8_i32_1263 : BitVec 32 := 8#32
  let c0_i32_1264 : BitVec 32 := 0#32
  let v1175 : BitVec 1 := Scalar.cmpi .eq c8_i32_1263 c0_i32_1264
  let c1_i32_1265 : BitVec 32 := 1#32
  let v1176 : BitVec 32 := Scalar.select v1175 c1_i32_1265 c8_i32_1263
  let v1177 : BitVec 32 := Scalar.remsi v1174 v1176
  let c0_i32_1267 : BitVec 32 := 0#32
  let v1179 : BitVec 1 := Scalar.cmpi .slt v1177 c0_i32_1267
  let c0_i32_1268 : BitVec 32 := 0#32
  let v1180 : BitVec 1 := Scalar.cmpi .slt v1176 c0_i32_1268
  let v1181 : BitVec 1 := Scalar.xori v1179 v1180
  let c0_i32_1266 : BitVec 32 := 0#32
  let v1178 : BitVec 1 := Scalar.cmpi .ne v1177 c0_i32_1266
  let v1182 : BitVec 1 := Scalar.andi v1181 v1178
  let v1183 : BitVec 32 := Scalar.addi v1177 v1176
  let v1184 : BitVec 32 := Scalar.select v1182 v1183 v1177
  let c4_i32_1269 : BitVec 32 := 4#32
  let v1185 : BitVec 1 := Scalar.cmpi .slt v1184 c4_i32_1269
  let c0_i32_1270 : BitVec 32 := 0#32
  let c1_i32_1271 : BitVec 32 := 1#32
  let v1186 : BitVec 32 := Scalar.select v1185 c0_i32_1270 c1_i32_1271
  let c8_i32_1278 : BitVec 32 := 8#32
  let v1190 : BitVec 32 := Scalar.muli v1186 c8_i32_1278
  let v1191 : BitVec 32 := Scalar.addi c0_i32_1279 v1190
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1280 : BitVec 32 := 4#32
  let v1192 : BitVec 32 := Scalar.muli v5 c4_i32_1280
  let v1193 : BitVec 32 := Scalar.addi v1191 v1192
  let c4_i32_1272 : BitVec 32 := 4#32
  let v1187 : BitVec 1 := Scalar.cmpi .slt v1184 c4_i32_1272
  let c7_i32_1273 : BitVec 32 := 7#32
  let v1188 : BitVec 32 := Scalar.subi c7_i32_1273 v1184
  let v1189 : BitVec 32 := Scalar.select v1187 v1184 v1188
  let c1_i32_1281 : BitVec 32 := 1#32
  let v1194 : BitVec 32 := Scalar.muli v1189 c1_i32_1281
  let v1195 : BitVec 32 := Scalar.addi v1193 v1194
  v1195.toNat
def k0_dev26 (d0 : Dev nD) : Nat :=
  let c0_i32_1305 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.subi c7_i32 v8
  let v10 : BitVec 32 := Scalar.muli v2 v9
  let c1_i32_2 : BitVec 32 := 1#32
  let v11 : BitVec 32 := Scalar.subi c1_i32_2 v2
  let v12 : BitVec 32 := Scalar.muli v11 v8
  let v13 : BitVec 32 := Scalar.addi v10 v12
  let c3_i32_1288 : BitVec 32 := 3#32
  let v1204 : BitVec 32 := Scalar.addi v13 c3_i32_1288
  let c8_i32_1289 : BitVec 32 := 8#32
  let c0_i32_1290 : BitVec 32 := 0#32
  let v1205 : BitVec 1 := Scalar.cmpi .eq c8_i32_1289 c0_i32_1290
  let c1_i32_1291 : BitVec 32 := 1#32
  let v1206 : BitVec 32 := Scalar.select v1205 c1_i32_1291 c8_i32_1289
  let v1207 : BitVec 32 := Scalar.remsi v1204 v1206
  let c0_i32_1293 : BitVec 32 := 0#32
  let v1209 : BitVec 1 := Scalar.cmpi .slt v1207 c0_i32_1293
  let c0_i32_1294 : BitVec 32 := 0#32
  let v1210 : BitVec 1 := Scalar.cmpi .slt v1206 c0_i32_1294
  let v1211 : BitVec 1 := Scalar.xori v1209 v1210
  let c0_i32_1292 : BitVec 32 := 0#32
  let v1208 : BitVec 1 := Scalar.cmpi .ne v1207 c0_i32_1292
  let v1212 : BitVec 1 := Scalar.andi v1211 v1208
  let v1213 : BitVec 32 := Scalar.addi v1207 v1206
  let v1214 : BitVec 32 := Scalar.select v1212 v1213 v1207
  let c4_i32_1295 : BitVec 32 := 4#32
  let v1215 : BitVec 1 := Scalar.cmpi .slt v1214 c4_i32_1295
  let c0_i32_1296 : BitVec 32 := 0#32
  let c1_i32_1297 : BitVec 32 := 1#32
  let v1216 : BitVec 32 := Scalar.select v1215 c0_i32_1296 c1_i32_1297
  let c8_i32_1304 : BitVec 32 := 8#32
  let v1220 : BitVec 32 := Scalar.muli v1216 c8_i32_1304
  let v1221 : BitVec 32 := Scalar.addi c0_i32_1305 v1220
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1306 : BitVec 32 := 4#32
  let v1222 : BitVec 32 := Scalar.muli v5 c4_i32_1306
  let v1223 : BitVec 32 := Scalar.addi v1221 v1222
  let c4_i32_1298 : BitVec 32 := 4#32
  let v1217 : BitVec 1 := Scalar.cmpi .slt v1214 c4_i32_1298
  let c7_i32_1299 : BitVec 32 := 7#32
  let v1218 : BitVec 32 := Scalar.subi c7_i32_1299 v1214
  let v1219 : BitVec 32 := Scalar.select v1217 v1214 v1218
  let c1_i32_1307 : BitVec 32 := 1#32
  let v1224 : BitVec 32 := Scalar.muli v1219 c1_i32_1307
  let v1225 : BitVec 32 := Scalar.addi v1223 v1224
  v1225.toNat
def k0_dev27 (d0 : Dev nD) : Nat :=
  let c0_i32_1331 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.subi c7_i32 v8
  let v10 : BitVec 32 := Scalar.muli v2 v9
  let c1_i32_2 : BitVec 32 := 1#32
  let v11 : BitVec 32 := Scalar.subi c1_i32_2 v2
  let v12 : BitVec 32 := Scalar.muli v11 v8
  let v13 : BitVec 32 := Scalar.addi v10 v12
  let c4_i32_1314 : BitVec 32 := 4#32
  let v1234 : BitVec 32 := Scalar.addi v13 c4_i32_1314
  let c8_i32_1315 : BitVec 32 := 8#32
  let c0_i32_1316 : BitVec 32 := 0#32
  let v1235 : BitVec 1 := Scalar.cmpi .eq c8_i32_1315 c0_i32_1316
  let c1_i32_1317 : BitVec 32 := 1#32
  let v1236 : BitVec 32 := Scalar.select v1235 c1_i32_1317 c8_i32_1315
  let v1237 : BitVec 32 := Scalar.remsi v1234 v1236
  let c0_i32_1319 : BitVec 32 := 0#32
  let v1239 : BitVec 1 := Scalar.cmpi .slt v1237 c0_i32_1319
  let c0_i32_1320 : BitVec 32 := 0#32
  let v1240 : BitVec 1 := Scalar.cmpi .slt v1236 c0_i32_1320
  let v1241 : BitVec 1 := Scalar.xori v1239 v1240
  let c0_i32_1318 : BitVec 32 := 0#32
  let v1238 : BitVec 1 := Scalar.cmpi .ne v1237 c0_i32_1318
  let v1242 : BitVec 1 := Scalar.andi v1241 v1238
  let v1243 : BitVec 32 := Scalar.addi v1237 v1236
  let v1244 : BitVec 32 := Scalar.select v1242 v1243 v1237
  let c4_i32_1321 : BitVec 32 := 4#32
  let v1245 : BitVec 1 := Scalar.cmpi .slt v1244 c4_i32_1321
  let c0_i32_1322 : BitVec 32 := 0#32
  let c1_i32_1323 : BitVec 32 := 1#32
  let v1246 : BitVec 32 := Scalar.select v1245 c0_i32_1322 c1_i32_1323
  let c8_i32_1330 : BitVec 32 := 8#32
  let v1250 : BitVec 32 := Scalar.muli v1246 c8_i32_1330
  let v1251 : BitVec 32 := Scalar.addi c0_i32_1331 v1250
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1332 : BitVec 32 := 4#32
  let v1252 : BitVec 32 := Scalar.muli v5 c4_i32_1332
  let v1253 : BitVec 32 := Scalar.addi v1251 v1252
  let c4_i32_1324 : BitVec 32 := 4#32
  let v1247 : BitVec 1 := Scalar.cmpi .slt v1244 c4_i32_1324
  let c7_i32_1325 : BitVec 32 := 7#32
  let v1248 : BitVec 32 := Scalar.subi c7_i32_1325 v1244
  let v1249 : BitVec 32 := Scalar.select v1247 v1244 v1248
  let c1_i32_1333 : BitVec 32 := 1#32
  let v1254 : BitVec 32 := Scalar.muli v1249 c1_i32_1333
  let v1255 : BitVec 32 := Scalar.addi v1253 v1254
  v1255.toNat
def k0_dev28 (d0 : Dev nD) : Nat :=
  let c0_i32_1357 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.subi c7_i32 v8
  let v10 : BitVec 32 := Scalar.muli v2 v9
  let c1_i32_2 : BitVec 32 := 1#32
  let v11 : BitVec 32 := Scalar.subi c1_i32_2 v2
  let v12 : BitVec 32 := Scalar.muli v11 v8
  let v13 : BitVec 32 := Scalar.addi v10 v12
  let c5_i32_1340 : BitVec 32 := 5#32
  let v1264 : BitVec 32 := Scalar.addi v13 c5_i32_1340
  let c8_i32_1341 : BitVec 32 := 8#32
  let c0_i32_1342 : BitVec 32 := 0#32
  let v1265 : BitVec 1 := Scalar.cmpi .eq c8_i32_1341 c0_i32_1342
  let c1_i32_1343 : BitVec 32 := 1#32
  let v1266 : BitVec 32 := Scalar.select v1265 c1_i32_1343 c8_i32_1341
  let v1267 : BitVec 32 := Scalar.remsi v1264 v1266
  let c0_i32_1345 : BitVec 32 := 0#32
  let v1269 : BitVec 1 := Scalar.cmpi .slt v1267 c0_i32_1345
  let c0_i32_1346 : BitVec 32 := 0#32
  let v1270 : BitVec 1 := Scalar.cmpi .slt v1266 c0_i32_1346
  let v1271 : BitVec 1 := Scalar.xori v1269 v1270
  let c0_i32_1344 : BitVec 32 := 0#32
  let v1268 : BitVec 1 := Scalar.cmpi .ne v1267 c0_i32_1344
  let v1272 : BitVec 1 := Scalar.andi v1271 v1268
  let v1273 : BitVec 32 := Scalar.addi v1267 v1266
  let v1274 : BitVec 32 := Scalar.select v1272 v1273 v1267
  let c4_i32_1347 : BitVec 32 := 4#32
  let v1275 : BitVec 1 := Scalar.cmpi .slt v1274 c4_i32_1347
  let c0_i32_1348 : BitVec 32 := 0#32
  let c1_i32_1349 : BitVec 32 := 1#32
  let v1276 : BitVec 32 := Scalar.select v1275 c0_i32_1348 c1_i32_1349
  let c8_i32_1356 : BitVec 32 := 8#32
  let v1280 : BitVec 32 := Scalar.muli v1276 c8_i32_1356
  let v1281 : BitVec 32 := Scalar.addi c0_i32_1357 v1280
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1358 : BitVec 32 := 4#32
  let v1282 : BitVec 32 := Scalar.muli v5 c4_i32_1358
  let v1283 : BitVec 32 := Scalar.addi v1281 v1282
  let c4_i32_1350 : BitVec 32 := 4#32
  let v1277 : BitVec 1 := Scalar.cmpi .slt v1274 c4_i32_1350
  let c7_i32_1351 : BitVec 32 := 7#32
  let v1278 : BitVec 32 := Scalar.subi c7_i32_1351 v1274
  let v1279 : BitVec 32 := Scalar.select v1277 v1274 v1278
  let c1_i32_1359 : BitVec 32 := 1#32
  let v1284 : BitVec 32 := Scalar.muli v1279 c1_i32_1359
  let v1285 : BitVec 32 := Scalar.addi v1283 v1284
  v1285.toNat
def k0_dev29 (d0 : Dev nD) : Nat :=
  let c0_i32_1383 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.subi c7_i32 v8
  let v10 : BitVec 32 := Scalar.muli v2 v9
  let c1_i32_2 : BitVec 32 := 1#32
  let v11 : BitVec 32 := Scalar.subi c1_i32_2 v2
  let v12 : BitVec 32 := Scalar.muli v11 v8
  let v13 : BitVec 32 := Scalar.addi v10 v12
  let c6_i32_1366 : BitVec 32 := 6#32
  let v1294 : BitVec 32 := Scalar.addi v13 c6_i32_1366
  let c8_i32_1367 : BitVec 32 := 8#32
  let c0_i32_1368 : BitVec 32 := 0#32
  let v1295 : BitVec 1 := Scalar.cmpi .eq c8_i32_1367 c0_i32_1368
  let c1_i32_1369 : BitVec 32 := 1#32
  let v1296 : BitVec 32 := Scalar.select v1295 c1_i32_1369 c8_i32_1367
  let v1297 : BitVec 32 := Scalar.remsi v1294 v1296
  let c0_i32_1371 : BitVec 32 := 0#32
  let v1299 : BitVec 1 := Scalar.cmpi .slt v1297 c0_i32_1371
  let c0_i32_1372 : BitVec 32 := 0#32
  let v1300 : BitVec 1 := Scalar.cmpi .slt v1296 c0_i32_1372
  let v1301 : BitVec 1 := Scalar.xori v1299 v1300
  let c0_i32_1370 : BitVec 32 := 0#32
  let v1298 : BitVec 1 := Scalar.cmpi .ne v1297 c0_i32_1370
  let v1302 : BitVec 1 := Scalar.andi v1301 v1298
  let v1303 : BitVec 32 := Scalar.addi v1297 v1296
  let v1304 : BitVec 32 := Scalar.select v1302 v1303 v1297
  let c4_i32_1373 : BitVec 32 := 4#32
  let v1305 : BitVec 1 := Scalar.cmpi .slt v1304 c4_i32_1373
  let c0_i32_1374 : BitVec 32 := 0#32
  let c1_i32_1375 : BitVec 32 := 1#32
  let v1306 : BitVec 32 := Scalar.select v1305 c0_i32_1374 c1_i32_1375
  let c8_i32_1382 : BitVec 32 := 8#32
  let v1310 : BitVec 32 := Scalar.muli v1306 c8_i32_1382
  let v1311 : BitVec 32 := Scalar.addi c0_i32_1383 v1310
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1384 : BitVec 32 := 4#32
  let v1312 : BitVec 32 := Scalar.muli v5 c4_i32_1384
  let v1313 : BitVec 32 := Scalar.addi v1311 v1312
  let c4_i32_1376 : BitVec 32 := 4#32
  let v1307 : BitVec 1 := Scalar.cmpi .slt v1304 c4_i32_1376
  let c7_i32_1377 : BitVec 32 := 7#32
  let v1308 : BitVec 32 := Scalar.subi c7_i32_1377 v1304
  let v1309 : BitVec 32 := Scalar.select v1307 v1304 v1308
  let c1_i32_1385 : BitVec 32 := 1#32
  let v1314 : BitVec 32 := Scalar.muli v1309 c1_i32_1385
  let v1315 : BitVec 32 := Scalar.addi v1313 v1314
  v1315.toNat
def k0_dev30 (d0 : Dev nD) : Nat :=
  let c0_i32_1409 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.subi c7_i32 v8
  let v10 : BitVec 32 := Scalar.muli v2 v9
  let c1_i32_2 : BitVec 32 := 1#32
  let v11 : BitVec 32 := Scalar.subi c1_i32_2 v2
  let v12 : BitVec 32 := Scalar.muli v11 v8
  let v13 : BitVec 32 := Scalar.addi v10 v12
  let c7_i32_1392 : BitVec 32 := 7#32
  let v1324 : BitVec 32 := Scalar.addi v13 c7_i32_1392
  let c8_i32_1393 : BitVec 32 := 8#32
  let c0_i32_1394 : BitVec 32 := 0#32
  let v1325 : BitVec 1 := Scalar.cmpi .eq c8_i32_1393 c0_i32_1394
  let c1_i32_1395 : BitVec 32 := 1#32
  let v1326 : BitVec 32 := Scalar.select v1325 c1_i32_1395 c8_i32_1393
  let v1327 : BitVec 32 := Scalar.remsi v1324 v1326
  let c0_i32_1397 : BitVec 32 := 0#32
  let v1329 : BitVec 1 := Scalar.cmpi .slt v1327 c0_i32_1397
  let c0_i32_1398 : BitVec 32 := 0#32
  let v1330 : BitVec 1 := Scalar.cmpi .slt v1326 c0_i32_1398
  let v1331 : BitVec 1 := Scalar.xori v1329 v1330
  let c0_i32_1396 : BitVec 32 := 0#32
  let v1328 : BitVec 1 := Scalar.cmpi .ne v1327 c0_i32_1396
  let v1332 : BitVec 1 := Scalar.andi v1331 v1328
  let v1333 : BitVec 32 := Scalar.addi v1327 v1326
  let v1334 : BitVec 32 := Scalar.select v1332 v1333 v1327
  let c4_i32_1399 : BitVec 32 := 4#32
  let v1335 : BitVec 1 := Scalar.cmpi .slt v1334 c4_i32_1399
  let c0_i32_1400 : BitVec 32 := 0#32
  let c1_i32_1401 : BitVec 32 := 1#32
  let v1336 : BitVec 32 := Scalar.select v1335 c0_i32_1400 c1_i32_1401
  let c8_i32_1408 : BitVec 32 := 8#32
  let v1340 : BitVec 32 := Scalar.muli v1336 c8_i32_1408
  let v1341 : BitVec 32 := Scalar.addi c0_i32_1409 v1340
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1410 : BitVec 32 := 4#32
  let v1342 : BitVec 32 := Scalar.muli v5 c4_i32_1410
  let v1343 : BitVec 32 := Scalar.addi v1341 v1342
  let c4_i32_1402 : BitVec 32 := 4#32
  let v1337 : BitVec 1 := Scalar.cmpi .slt v1334 c4_i32_1402
  let c7_i32_1403 : BitVec 32 := 7#32
  let v1338 : BitVec 32 := Scalar.subi c7_i32_1403 v1334
  let v1339 : BitVec 32 := Scalar.select v1337 v1334 v1338
  let c1_i32_1411 : BitVec 32 := 1#32
  let v1344 : BitVec 32 := Scalar.muli v1339 c1_i32_1411
  let v1345 : BitVec 32 := Scalar.addi v1343 v1344
  v1345.toNat
def k0_off29 (d0 : Dev nD) (c1_i32_1418 : BitVec 32) : Fin 2 → Nat :=
  let c0_i32_1427 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.subi c7_i32 v8
  let v10 : BitVec 32 := Scalar.muli v2 v9
  let c1_i32_2 : BitVec 32 := 1#32
  let v11 : BitVec 32 := Scalar.subi c1_i32_2 v2
  let v12 : BitVec 32 := Scalar.muli v11 v8
  let v13 : BitVec 32 := Scalar.addi v10 v12
  let v1354 : BitVec 32 := Scalar.addi v13 c1_i32_1418
  let c8_i32_1419 : BitVec 32 := 8#32
  let c0_i32_1420 : BitVec 32 := 0#32
  let v1355 : BitVec 1 := Scalar.cmpi .eq c8_i32_1419 c0_i32_1420
  let c1_i32_1421 : BitVec 32 := 1#32
  let v1356 : BitVec 32 := Scalar.select v1355 c1_i32_1421 c8_i32_1419
  let v1357 : BitVec 32 := Scalar.remsi v1354 v1356
  let c0_i32_1423 : BitVec 32 := 0#32
  let v1359 : BitVec 1 := Scalar.cmpi .slt v1357 c0_i32_1423
  let c0_i32_1424 : BitVec 32 := 0#32
  let v1360 : BitVec 1 := Scalar.cmpi .slt v1356 c0_i32_1424
  let v1361 : BitVec 1 := Scalar.xori v1359 v1360
  let c0_i32_1422 : BitVec 32 := 0#32
  let v1358 : BitVec 1 := Scalar.cmpi .ne v1357 c0_i32_1422
  let v1362 : BitVec 1 := Scalar.andi v1361 v1358
  let v1363 : BitVec 32 := Scalar.addi v1357 v1356
  let v1364 : BitVec 32 := Scalar.select v1362 v1363 v1357
  ![0, v1364.toNat]
def k0_off30 (d0 : Dev nD) (c1_i32_1418 : BitVec 32) : Fin 5 → Nat :=
  let c0_i32_1426 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.subi c7_i32 v8
  let v10 : BitVec 32 := Scalar.muli v2 v9
  let c1_i32_2 : BitVec 32 := 1#32
  let v11 : BitVec 32 := Scalar.subi c1_i32_2 v2
  let v12 : BitVec 32 := Scalar.muli v11 v8
  let v13 : BitVec 32 := Scalar.addi v10 v12
  let v1354 : BitVec 32 := Scalar.addi v13 c1_i32_1418
  let c8_i32_1419 : BitVec 32 := 8#32
  let c0_i32_1420 : BitVec 32 := 0#32
  let v1355 : BitVec 1 := Scalar.cmpi .eq c8_i32_1419 c0_i32_1420
  let c1_i32_1421 : BitVec 32 := 1#32
  let v1356 : BitVec 32 := Scalar.select v1355 c1_i32_1421 c8_i32_1419
  let v1357 : BitVec 32 := Scalar.remsi v1354 v1356
  let c0_i32_1423 : BitVec 32 := 0#32
  let v1359 : BitVec 1 := Scalar.cmpi .slt v1357 c0_i32_1423
  let c0_i32_1424 : BitVec 32 := 0#32
  let v1360 : BitVec 1 := Scalar.cmpi .slt v1356 c0_i32_1424
  let v1361 : BitVec 1 := Scalar.xori v1359 v1360
  let c0_i32_1422 : BitVec 32 := 0#32
  let v1358 : BitVec 1 := Scalar.cmpi .ne v1357 c0_i32_1422
  let v1362 : BitVec 1 := Scalar.andi v1361 v1358
  let v1363 : BitVec 32 := Scalar.addi v1357 v1356
  let v1364 : BitVec 32 := Scalar.select v1362 v1363 v1357
  let c0_i32_1433 : BitVec 32 := 0#32
  let c0_i32_1434 : BitVec 32 := 0#32
  let c0_i32_1435 : BitVec 32 := 0#32
  ![0, v1364.toNat, 0, 0, 0]
def k0_off31 (d0 : Dev nD) (c1_i32_1418 : BitVec 32) : Fin 5 → Nat :=
  let c0_1439 : Index := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.subi c7_i32 v8
  let v10 : BitVec 32 := Scalar.muli v2 v9
  let c1_i32_2 : BitVec 32 := 1#32
  let v11 : BitVec 32 := Scalar.subi c1_i32_2 v2
  let v12 : BitVec 32 := Scalar.muli v11 v8
  let v13 : BitVec 32 := Scalar.addi v10 v12
  let v1354 : BitVec 32 := Scalar.addi v13 c1_i32_1418
  let c8_i32_1419 : BitVec 32 := 8#32
  let c0_i32_1420 : BitVec 32 := 0#32
  let v1355 : BitVec 1 := Scalar.cmpi .eq c8_i32_1419 c0_i32_1420
  let c1_i32_1421 : BitVec 32 := 1#32
  let v1356 : BitVec 32 := Scalar.select v1355 c1_i32_1421 c8_i32_1419
  let v1357 : BitVec 32 := Scalar.remsi v1354 v1356
  let c0_i32_1423 : BitVec 32 := 0#32
  let v1359 : BitVec 1 := Scalar.cmpi .slt v1357 c0_i32_1423
  let c0_i32_1424 : BitVec 32 := 0#32
  let v1360 : BitVec 1 := Scalar.cmpi .slt v1356 c0_i32_1424
  let v1361 : BitVec 1 := Scalar.xori v1359 v1360
  let c0_i32_1422 : BitVec 32 := 0#32
  let v1358 : BitVec 1 := Scalar.cmpi .ne v1357 c0_i32_1422
  let v1362 : BitVec 1 := Scalar.andi v1361 v1358
  let v1363 : BitVec 32 := Scalar.addi v1357 v1356
  let v1364 : BitVec 32 := Scalar.select v1362 v1363 v1357
  let v1377 : Index := Scalar.indexCast v1364
  let c0_1440 : Index := 0#32
  let c0_1441 : Index := 0#32
  let c0_1442 : Index := 0#32
  ![0, v1377.toNat, 0, 0, 0]
def k0_off32 (d0 : Dev nD) (c1_i32_1418 : BitVec 32) : Fin 4 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.subi c7_i32 v8
  let v10 : BitVec 32 := Scalar.muli v2 v9
  let c1_i32_2 : BitVec 32 := 1#32
  let v11 : BitVec 32 := Scalar.subi c1_i32_2 v2
  let v12 : BitVec 32 := Scalar.muli v11 v8
  let v13 : BitVec 32 := Scalar.addi v10 v12
  let v1354 : BitVec 32 := Scalar.addi v13 c1_i32_1418
  let c8_i32_1419 : BitVec 32 := 8#32
  let c0_i32_1420 : BitVec 32 := 0#32
  let v1355 : BitVec 1 := Scalar.cmpi .eq c8_i32_1419 c0_i32_1420
  let c1_i32_1421 : BitVec 32 := 1#32
  let v1356 : BitVec 32 := Scalar.select v1355 c1_i32_1421 c8_i32_1419
  let v1357 : BitVec 32 := Scalar.remsi v1354 v1356
  let c0_i32_1423 : BitVec 32 := 0#32
  let v1359 : BitVec 1 := Scalar.cmpi .slt v1357 c0_i32_1423
  let c0_i32_1424 : BitVec 32 := 0#32
  let v1360 : BitVec 1 := Scalar.cmpi .slt v1356 c0_i32_1424
  let v1361 : BitVec 1 := Scalar.xori v1359 v1360
  let c0_i32_1422 : BitVec 32 := 0#32
  let v1358 : BitVec 1 := Scalar.cmpi .ne v1357 c0_i32_1422
  let v1362 : BitVec 1 := Scalar.andi v1361 v1358
  let v1363 : BitVec 32 := Scalar.addi v1357 v1356
  let v1364 : BitVec 32 := Scalar.select v1362 v1363 v1357
  let v1381 : Index := Scalar.indexCast v1364
  let c0_1443 : Index := 0#32
  let c0_1444 : Index := 0#32
  let c0_1445 : Index := 0#32
  ![v1381.toNat, 0, 0, 0]
def k0_off33 (d0 : Dev nD) (c1_i32_1614 : BitVec 32) : Fin 2 → Nat :=
  let c1_i32_1623 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.subi c7_i32 v8
  let v10 : BitVec 32 := Scalar.muli v2 v9
  let c1_i32_2 : BitVec 32 := 1#32
  let v11 : BitVec 32 := Scalar.subi c1_i32_2 v2
  let v12 : BitVec 32 := Scalar.muli v11 v8
  let v13 : BitVec 32 := Scalar.addi v10 v12
  let v1571 : BitVec 32 := Scalar.addi v13 c1_i32_1614
  let c8_i32_1615 : BitVec 32 := 8#32
  let c0_i32_1616 : BitVec 32 := 0#32
  let v1572 : BitVec 1 := Scalar.cmpi .eq c8_i32_1615 c0_i32_1616
  let c1_i32_1617 : BitVec 32 := 1#32
  let v1573 : BitVec 32 := Scalar.select v1572 c1_i32_1617 c8_i32_1615
  let v1574 : BitVec 32 := Scalar.remsi v1571 v1573
  let c0_i32_1619 : BitVec 32 := 0#32
  let v1576 : BitVec 1 := Scalar.cmpi .slt v1574 c0_i32_1619
  let c0_i32_1620 : BitVec 32 := 0#32
  let v1577 : BitVec 1 := Scalar.cmpi .slt v1573 c0_i32_1620
  let v1578 : BitVec 1 := Scalar.xori v1576 v1577
  let c0_i32_1618 : BitVec 32 := 0#32
  let v1575 : BitVec 1 := Scalar.cmpi .ne v1574 c0_i32_1618
  let v1579 : BitVec 1 := Scalar.andi v1578 v1575
  let v1580 : BitVec 32 := Scalar.addi v1574 v1573
  let v1581 : BitVec 32 := Scalar.select v1579 v1580 v1574
  ![1, v1581.toNat]
def k0_off34 (d0 : Dev nD) (c1_i32_1614 : BitVec 32) : Fin 5 → Nat :=
  let c1_i32_1622 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.subi c7_i32 v8
  let v10 : BitVec 32 := Scalar.muli v2 v9
  let c1_i32_2 : BitVec 32 := 1#32
  let v11 : BitVec 32 := Scalar.subi c1_i32_2 v2
  let v12 : BitVec 32 := Scalar.muli v11 v8
  let v13 : BitVec 32 := Scalar.addi v10 v12
  let v1571 : BitVec 32 := Scalar.addi v13 c1_i32_1614
  let c8_i32_1615 : BitVec 32 := 8#32
  let c0_i32_1616 : BitVec 32 := 0#32
  let v1572 : BitVec 1 := Scalar.cmpi .eq c8_i32_1615 c0_i32_1616
  let c1_i32_1617 : BitVec 32 := 1#32
  let v1573 : BitVec 32 := Scalar.select v1572 c1_i32_1617 c8_i32_1615
  let v1574 : BitVec 32 := Scalar.remsi v1571 v1573
  let c0_i32_1619 : BitVec 32 := 0#32
  let v1576 : BitVec 1 := Scalar.cmpi .slt v1574 c0_i32_1619
  let c0_i32_1620 : BitVec 32 := 0#32
  let v1577 : BitVec 1 := Scalar.cmpi .slt v1573 c0_i32_1620
  let v1578 : BitVec 1 := Scalar.xori v1576 v1577
  let c0_i32_1618 : BitVec 32 := 0#32
  let v1575 : BitVec 1 := Scalar.cmpi .ne v1574 c0_i32_1618
  let v1579 : BitVec 1 := Scalar.andi v1578 v1575
  let v1580 : BitVec 32 := Scalar.addi v1574 v1573
  let v1581 : BitVec 32 := Scalar.select v1579 v1580 v1574
  let c0_i32_1629 : BitVec 32 := 0#32
  let c0_i32_1630 : BitVec 32 := 0#32
  let c0_i32_1631 : BitVec 32 := 0#32
  ![1, v1581.toNat, 0, 0, 0]
def k0_off35 (d0 : Dev nD) (c1_i32_1614 : BitVec 32) : Fin 5 → Nat :=
  let c1_1635 : Index := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.subi c7_i32 v8
  let v10 : BitVec 32 := Scalar.muli v2 v9
  let c1_i32_2 : BitVec 32 := 1#32
  let v11 : BitVec 32 := Scalar.subi c1_i32_2 v2
  let v12 : BitVec 32 := Scalar.muli v11 v8
  let v13 : BitVec 32 := Scalar.addi v10 v12
  let v1571 : BitVec 32 := Scalar.addi v13 c1_i32_1614
  let c8_i32_1615 : BitVec 32 := 8#32
  let c0_i32_1616 : BitVec 32 := 0#32
  let v1572 : BitVec 1 := Scalar.cmpi .eq c8_i32_1615 c0_i32_1616
  let c1_i32_1617 : BitVec 32 := 1#32
  let v1573 : BitVec 32 := Scalar.select v1572 c1_i32_1617 c8_i32_1615
  let v1574 : BitVec 32 := Scalar.remsi v1571 v1573
  let c0_i32_1619 : BitVec 32 := 0#32
  let v1576 : BitVec 1 := Scalar.cmpi .slt v1574 c0_i32_1619
  let c0_i32_1620 : BitVec 32 := 0#32
  let v1577 : BitVec 1 := Scalar.cmpi .slt v1573 c0_i32_1620
  let v1578 : BitVec 1 := Scalar.xori v1576 v1577
  let c0_i32_1618 : BitVec 32 := 0#32
  let v1575 : BitVec 1 := Scalar.cmpi .ne v1574 c0_i32_1618
  let v1579 : BitVec 1 := Scalar.andi v1578 v1575
  let v1580 : BitVec 32 := Scalar.addi v1574 v1573
  let v1581 : BitVec 32 := Scalar.select v1579 v1580 v1574
  let v1594 : Index := Scalar.indexCast v1581
  let c0_1636 : Index := 0#32
  let c0_1637 : Index := 0#32
  let c0_1638 : Index := 0#32
  ![1, v1594.toNat, 0, 0, 0]
def k0_off36 (d0 : Dev nD) (c1_i32_1614 : BitVec 32) : Fin 4 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c7_i32 : BitVec 32 := 7#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.subi c7_i32 v8
  let v10 : BitVec 32 := Scalar.muli v2 v9
  let c1_i32_2 : BitVec 32 := 1#32
  let v11 : BitVec 32 := Scalar.subi c1_i32_2 v2
  let v12 : BitVec 32 := Scalar.muli v11 v8
  let v13 : BitVec 32 := Scalar.addi v10 v12
  let v1571 : BitVec 32 := Scalar.addi v13 c1_i32_1614
  let c8_i32_1615 : BitVec 32 := 8#32
  let c0_i32_1616 : BitVec 32 := 0#32
  let v1572 : BitVec 1 := Scalar.cmpi .eq c8_i32_1615 c0_i32_1616
  let c1_i32_1617 : BitVec 32 := 1#32
  let v1573 : BitVec 32 := Scalar.select v1572 c1_i32_1617 c8_i32_1615
  let v1574 : BitVec 32 := Scalar.remsi v1571 v1573
  let c0_i32_1619 : BitVec 32 := 0#32
  let v1576 : BitVec 1 := Scalar.cmpi .slt v1574 c0_i32_1619
  let c0_i32_1620 : BitVec 32 := 0#32
  let v1577 : BitVec 1 := Scalar.cmpi .slt v1573 c0_i32_1620
  let v1578 : BitVec 1 := Scalar.xori v1576 v1577
  let c0_i32_1618 : BitVec 32 := 0#32
  let v1575 : BitVec 1 := Scalar.cmpi .ne v1574 c0_i32_1618
  let v1579 : BitVec 1 := Scalar.andi v1578 v1575
  let v1580 : BitVec 32 := Scalar.addi v1574 v1573
  let v1581 : BitVec 32 := Scalar.select v1579 v1580 v1574
  let v1598 : Index := Scalar.indexCast v1581
  let c0_1639 : Index := 0#32
  let c8_1640 : Index := 8#32
  let c0_1641 : Index := 0#32
  ![v1598.toNat, 0, 8, 0]
abbrev stage0_0 : Fin 1 → Memref sig .tc .vmem S8x8x16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x8x16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S2x4_S1x1_0_0 : ∀ a, (![0, 0] : Fin 2 → Nat) a + S1x1.size a ≤ S2x4.size a
  squeezes_S1x1_S_ : S1x1.Squeezes S_
  inb_S2x4x1024x128_S1x1x1024x128_0_0_0_0 : ∀ a, (![0, 0, 0, 0] : Fin 4 → Nat) a + S1x1x1024x128.size a ≤ S2x4x1024x128.size a
  squeezes_S1x1x1024x128_S1024x128 : S1x1x1024x128.Squeezes S1024x128
  squeezes_S1x1024x1x128_S1024x128 : S1x1024x1x128.Squeezes S1024x128
  inb_S2x4_S1x1_0_1 : ∀ a, (![0, 1] : Fin 2 → Nat) a + S1x1.size a ≤ S2x4.size a
  inb_S2x4x1024x128_S1x1x1024x128_0_1_0_0 : ∀ a, (![0, 1, 0, 0] : Fin 4 → Nat) a + S1x1x1024x128.size a ≤ S2x4x1024x128.size a
  inb_S2x4_S1x1_0_2 : ∀ a, (![0, 2] : Fin 2 → Nat) a + S1x1.size a ≤ S2x4.size a
  inb_S2x4x1024x128_S1x1x1024x128_0_2_0_0 : ∀ a, (![0, 2, 0, 0] : Fin 4 → Nat) a + S1x1x1024x128.size a ≤ S2x4x1024x128.size a
  inb_S2x4_S1x1_0_3 : ∀ a, (![0, 3] : Fin 2 → Nat) a + S1x1.size a ≤ S2x4.size a
  inb_S2x4x1024x128_S1x1x1024x128_0_3_0_0 : ∀ a, (![0, 3, 0, 0] : Fin 4 → Nat) a + S1x1x1024x128.size a ≤ S2x4x1024x128.size a
  inb_S2x4_S1x1_1_0 : ∀ a, (![1, 0] : Fin 2 → Nat) a + S1x1.size a ≤ S2x4.size a
  inb_S2x4x1024x128_S1x1x1024x128_1_0_0_0 : ∀ a, (![1, 0, 0, 0] : Fin 4 → Nat) a + S1x1x1024x128.size a ≤ S2x4x1024x128.size a
  inb_S2x4_S1x1_1_1 : ∀ a, (![1, 1] : Fin 2 → Nat) a + S1x1.size a ≤ S2x4.size a
  inb_S2x4x1024x128_S1x1x1024x128_1_1_0_0 : ∀ a, (![1, 1, 0, 0] : Fin 4 → Nat) a + S1x1x1024x128.size a ≤ S2x4x1024x128.size a
  inb_S2x4_S1x1_1_2 : ∀ a, (![1, 2] : Fin 2 → Nat) a + S1x1.size a ≤ S2x4.size a
  inb_S2x4x1024x128_S1x1x1024x128_1_2_0_0 : ∀ a, (![1, 2, 0, 0] : Fin 4 → Nat) a + S1x1x1024x128.size a ≤ S2x4x1024x128.size a
  inb_S2x4_S1x1_1_3 : ∀ a, (![1, 3] : Fin 2 → Nat) a + S1x1.size a ≤ S2x4.size a
  inb_S2x4x1024x128_S1x1x1024x128_1_3_0_0 : ∀ a, (![1, 3, 0, 0] : Fin 4 → Nat) a + S1x1x1024x128.size a ≤ S2x4x1024x128.size a
  h_S1x8x4x128 : 0 < S1x8x4x128.numel
  shapeCasts_S1x8x4x128_S8x4x128 : S1x8x4x128.ShapeCasts S8x4x128
  transposes_S8x4x128_p1_0_2_S4x8x128 : S8x4x128.Transposes [1, 0, 2] S4x8x128
  inb_S2x4x1024x128_S1x4x1024x128_0_0_0_0 : ∀ a, (![0, 0, 0, 0] : Fin 4 → Nat) a + S1x4x1024x128.size a ≤ S2x4x1024x128.size a
  h_S1x4x1024x128 : 0 < S1x4x1024x128.numel
  shapeCasts_S1x4x1024x128_S4x1024x128 : S1x4x1024x128.ShapeCasts S4x1024x128
  reduces_S4x8x1024_S4x8 : S4x8x1024.Reduces [2] S4x8
  transposes_S4x8x128_p1_0_2_S8x4x128 : S4x8x128.Transposes [1, 0, 2] S8x4x128
  inb_S8x16x128_S8x4x128_0_0_0 : ∀ a, (![0, 0, 0] : Fin 3 → Nat) a + S8x4x128.size a ≤ S8x16x128.size a
  h_S8x4x128 : 0 < S8x4x128.numel
  shapeCasts_S8x4x128_S8x4x128 : S8x4x128.ShapeCasts S8x4x128
  bitsLt_bf16_f32 : FTy.bits .bf16 < FTy.bits .f32
  inb_S4x8x4x128_S1x8x4x128_0_0_0_0 : ∀ a, (![0, 0, 0, 0] : Fin 4 → Nat) a + S1x8x4x128.size a ≤ S4x8x4x128.size a
  shapeCasts_S8x4x128_S1x8x4x128 : S8x4x128.ShapeCasts S1x8x4x128
  packedbf16_S4x8x4x128_S1x8x4x128_0_0_0_0 : (Rect.unit (s := S4x8x4x128) ![0, 0, 0, 0] S1x8x4x128.size inb_S4x8x4x128_S1x8x4x128_0_0_0_0).PackedRows (EltTy.packing .bf16)
  transposes_S4x8_p1_0_S8x4 : S4x8.Transposes [1, 0] S8x4
  inb_S4x8x4_S1x8x4_0_0_0 : ∀ a, (![0, 0, 0] : Fin 3 → Nat) a + S1x8x4.size a ≤ S4x8x4.size a
  h_S1x8x4 : 0 < S1x8x4.numel
  shapeCasts_S1x8x4_S8x4 : S1x8x4.ShapeCasts S8x4
  shapeCasts_S8x4_S1x8x4 : S8x4.ShapeCasts S1x8x4
  hamt_8 : (8#32 : BitVec 32).msb = false
  inb_S4_S1_0 : ∀ a, (![0] : Fin 1 → Nat) a + S1.size a ≤ S4.size a
  squeezes_S1_S_ : S1.Squeezes S_
  squeezes_S1x8x4x128_S8x4x128 : S1x8x4x128.Squeezes S8x4x128
  wordsbf16_S4x8x4x128_S1x8x4x128_0_0_0_0 : (Rect.unit (s := S4x8x4x128) ![0, 0, 0, 0] S1x8x4x128.size inb_S4x8x4x128_S1x8x4x128_0_0_0_0).WholeWords (EltTy.packing .bf16)
  squeezes_S1x8x4_S8x4 : S1x8x4.Squeezes S8x4
  inb_S2x4x1024x128_S1x4x1024x128_1_0_0_0 : ∀ a, (![1, 0, 0, 0] : Fin 4 → Nat) a + S1x4x1024x128.size a ≤ S2x4x1024x128.size a
  inb_S8x16x128_S8x4x128_0_4_0 : ∀ a, (![0, 4, 0] : Fin 3 → Nat) a + S8x4x128.size a ≤ S8x16x128.size a
  inb_S4x8x4x128_S1x8x4x128_1_0_0_0 : ∀ a, (![1, 0, 0, 0] : Fin 4 → Nat) a + S1x8x4x128.size a ≤ S4x8x4x128.size a
  packedbf16_S4x8x4x128_S1x8x4x128_1_0_0_0 : (Rect.unit (s := S4x8x4x128) ![1, 0, 0, 0] S1x8x4x128.size inb_S4x8x4x128_S1x8x4x128_1_0_0_0).PackedRows (EltTy.packing .bf16)
  inb_S4x8x4_S1x8x4_1_0_0 : ∀ a, (![1, 0, 0] : Fin 3 → Nat) a + S1x8x4.size a ≤ S4x8x4.size a
  inb_S4_S1_1 : ∀ a, (![1] : Fin 1 → Nat) a + S1.size a ≤ S4.size a
  wordsbf16_S4x8x4x128_S1x8x4x128_1_0_0_0 : (Rect.unit (s := S4x8x4x128) ![1, 0, 0, 0] S1x8x4x128.size inb_S4x8x4x128_S1x8x4x128_1_0_0_0).WholeWords (EltTy.packing .bf16)
  inb_S8x16x128_S8x4x128_0_8_0 : ∀ a, (![0, 8, 0] : Fin 3 → Nat) a + S8x4x128.size a ≤ S8x16x128.size a
  inb_S4x8x4x128_S1x8x4x128_2_0_0_0 : ∀ a, (![2, 0, 0, 0] : Fin 4 → Nat) a + S1x8x4x128.size a ≤ S4x8x4x128.size a
  packedbf16_S4x8x4x128_S1x8x4x128_2_0_0_0 : (Rect.unit (s := S4x8x4x128) ![2, 0, 0, 0] S1x8x4x128.size inb_S4x8x4x128_S1x8x4x128_2_0_0_0).PackedRows (EltTy.packing .bf16)
  inb_S4x8x4_S1x8x4_2_0_0 : ∀ a, (![2, 0, 0] : Fin 3 → Nat) a + S1x8x4.size a ≤ S4x8x4.size a
  inb_S4_S1_2 : ∀ a, (![2] : Fin 1 → Nat) a + S1.size a ≤ S4.size a
  wordsbf16_S4x8x4x128_S1x8x4x128_2_0_0_0 : (Rect.unit (s := S4x8x4x128) ![2, 0, 0, 0] S1x8x4x128.size inb_S4x8x4x128_S1x8x4x128_2_0_0_0).WholeWords (EltTy.packing .bf16)
  inb_S8x16x128_S8x4x128_0_12_0 : ∀ a, (![0, 12, 0] : Fin 3 → Nat) a + S8x4x128.size a ≤ S8x16x128.size a
  inb_S4x8x4x128_S1x8x4x128_3_0_0_0 : ∀ a, (![3, 0, 0, 0] : Fin 4 → Nat) a + S1x8x4x128.size a ≤ S4x8x4x128.size a
  packedbf16_S4x8x4x128_S1x8x4x128_3_0_0_0 : (Rect.unit (s := S4x8x4x128) ![3, 0, 0, 0] S1x8x4x128.size inb_S4x8x4x128_S1x8x4x128_3_0_0_0).PackedRows (EltTy.packing .bf16)
  inb_S4x8x4_S1x8x4_3_0_0 : ∀ a, (![3, 0, 0] : Fin 3 → Nat) a + S1x8x4.size a ≤ S4x8x4.size a
  inb_S4_S1_3 : ∀ a, (![3] : Fin 1 → Nat) a + S1.size a ≤ S4.size a
  wordsbf16_S4x8x4x128_S1x8x4x128_3_0_0_0 : (Rect.unit (s := S4x8x4x128) ![3, 0, 0, 0] S1x8x4x128.size inb_S4x8x4x128_S1x8x4x128_3_0_0_0).WholeWords (EltTy.packing .bf16)
  concatenates_S8x4x128_S8x4x128_S8x8x128_d1 : Shape.Concatenates [S8x4x128, S8x4x128] S8x8x128 1
  concatenates_S8x4_S8x4_S8x8_d1 : Shape.Concatenates [S8x4, S8x4] S8x8 1
  inb_S8x16x128_S8x8x128_0_0_0 : ∀ a, (![0, 0, 0] : Fin 3 → Nat) a + S8x8x128.size a ≤ S8x16x128.size a
  h_S8x8x128 : 0 < S8x8x128.numel
  shapeCasts_S8x8_S8x8x1 : S8x8.ShapeCasts S8x8x1
  broadcasts_S8x8x1_S8x8x128 : S8x8x1.Broadcasts S8x8x128
  h_S1x8x8x128 : 0 < S1x8x8x128.numel
  shapeCasts_S1x8x8x128_S8x8x128 : S1x8x8x128.ShapeCasts S8x8x128
  shapeCasts_S8x8x128_S1x8x8x128 : S8x8x128.ShapeCasts S1x8x8x128
  h_S1x1x8x8x128 : 0 < S1x1x8x8x128.numel
  shapeCasts_S1x1x8x8x128_S8x8x128 : S1x1x8x8x128.ShapeCasts S8x8x128
  shapeCasts_S8x8x128_S1x1x8x8x128 : S8x8x128.ShapeCasts S1x1x8x8x128
  inb_S14_S1_0 : ∀ a, (![0] : Fin 1 → Nat) a + S1.size a ≤ S14.size a
  squeezes_S1x1x8x8x128_S8x8x128 : S1x1x8x8x128.Squeezes S8x8x128
  inb_S14_S1_1 : ∀ a, (![1] : Fin 1 → Nat) a + S1.size a ≤ S14.size a
  inb_S14_S1_2 : ∀ a, (![2] : Fin 1 → Nat) a + S1.size a ≤ S14.size a
  inb_S14_S1_3 : ∀ a, (![3] : Fin 1 → Nat) a + S1.size a ≤ S14.size a
  inb_S14_S1_4 : ∀ a, (![4] : Fin 1 → Nat) a + S1.size a ≤ S14.size a
  inb_S14_S1_5 : ∀ a, (![5] : Fin 1 → Nat) a + S1.size a ≤ S14.size a
  inb_S14_S1_6 : ∀ a, (![6] : Fin 1 → Nat) a + S1.size a ≤ S14.size a
  inb_S8x16x128_S8x8x128_0_8_0 : ∀ a, (![0, 8, 0] : Fin 3 → Nat) a + S8x8x128.size a ≤ S8x16x128.size a
  inb_S14_S1_7 : ∀ a, (![7] : Fin 1 → Nat) a + S1.size a ≤ S14.size a
  inb_S14_S1_8 : ∀ a, (![8] : Fin 1 → Nat) a + S1.size a ≤ S14.size a
  inb_S14_S1_9 : ∀ a, (![9] : Fin 1 → Nat) a + S1.size a ≤ S14.size a
  inb_S14_S1_10 : ∀ a, (![10] : Fin 1 → Nat) a + S1.size a ≤ S14.size a
  inb_S14_S1_11 : ∀ a, (![11] : Fin 1 → Nat) a + S1.size a ≤ S14.size a
  inb_S14_S1_12 : ∀ a, (![12] : Fin 1 → Nat) a + S1.size a ≤ S14.size a
  inb_S14_S1_13 : ∀ a, (![13] : Fin 1 → Nat) a + S1.size a ≤ S14.size a
  dot_S4x8x128_S4x1024x128_S4x8x1024_2_2_1_1_0_0_wf : DotDims.WF S4x8x128 S4x1024x128 S4x8x1024 [2] [2] [1] [1] [0] [0]
  dot_S4x8x1024_S4x1024x128_S4x8x128_2_1_1_2_0_0_wf : DotDims.WF S4x8x1024 S4x1024x128 S4x8x128 [2] [1] [1] [2] [0] [0]
  hcc0_scratch8 : 2 + S2x4.numel ≤ 64
  hcc0_scratch9 : 10 + S2x4.numel ≤ 64
  hcc0_scratch10 : 18 + S4.numel ≤ 64
  hcc0_scratch11 : 22 + S4.numel ≤ 64
  hcc0_scratch12 : 26 + S4.numel ≤ 64
  hcc0_scratch13 : 30 + S4.numel ≤ 64
  hcc0_scratch14 : 34 + S14.numel ≤ 64
  hcc0_scratch15 : 48 + S2x8.numel ≤ 64
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_off1_inb : ∀ d0 : Dev nD, ∀ a, (k0_off1 d0) a + S1x1024x1x128.size a ≤ S8x1024x16x128.size a
  k0_off2_inb : ∀ d0 : Dev nD, ∀ a, (k0_off2 d0) a + S1x1024x1x128.size a ≤ S8x1024x16x128.size a
  k0_off3_inb : ∀ d0 : Dev nD, ∀ a, (k0_off3 d0) a + S1x1024x1x128.size a ≤ S8x1024x16x128.size a
  k0_off4_inb : ∀ d0 : Dev nD, ∀ a, (k0_off4 d0) a + S1x1024x1x128.size a ≤ S8x1024x16x128.size a
  k0_off5_inb : ∀ d0 : Dev nD, ∀ a, (k0_off5 d0) a + S1x1024x1x128.size a ≤ S8x1024x16x128.size a
  k0_off6_inb : ∀ d0 : Dev nD, ∀ a, (k0_off6 d0) a + S1x1024x1x128.size a ≤ S8x1024x16x128.size a
  k0_off7_inb : ∀ d0 : Dev nD, ∀ a, (k0_off7 d0) a + S1x1024x1x128.size a ≤ S8x1024x16x128.size a
  k0_off8_inb : ∀ d0 : Dev nD, ∀ a, (k0_off8 d0) a + S1x1024x1x128.size a ≤ S8x1024x16x128.size a
  k0_off9_inb : ∀ d0 : Dev nD, ∀ a, (k0_off9 d0) a + S1x8x4x128.size a ≤ S8x8x16x128.size a
  k0_dev9_lt : ∀ d0 : Dev nD, (k0_dev9 d0) < nD
  k0_dev10_lt : ∀ d0 : Dev nD, (k0_dev10 d0) < nD
  k0_off10_inb : ∀ d0 : Dev nD, ∀ a, (k0_off10 d0) a + S1x1024x1x128.size a ≤ S8x1024x16x128.size a
  k0_off11_inb : ∀ d0 : Dev nD, ∀ a, (k0_off11 d0) a + S1x1024x1x128.size a ≤ S8x1024x16x128.size a
  k0_off12_inb : ∀ d0 : Dev nD, ∀ a, (k0_off12 d0) a + S1x1024x1x128.size a ≤ S8x1024x16x128.size a
  k0_off13_inb : ∀ d0 : Dev nD, ∀ a, (k0_off13 d0) a + S1x1024x1x128.size a ≤ S8x1024x16x128.size a
  k0_off14_inb : ∀ d0 : Dev nD, ∀ a, (k0_off14 d0) a + S1x8x4x128.size a ≤ S8x8x16x128.size a
  k0_dev11_lt : ∀ d0 : Dev nD, (k0_dev11 d0) < nD
  k0_dev12_lt : ∀ d0 : Dev nD, (k0_dev12 d0) < nD
  k0_off15_inb : ∀ d0 : Dev nD, ∀ a, (k0_off15 d0) a + S1x1024x1x128.size a ≤ S8x1024x16x128.size a
  k0_off16_inb : ∀ d0 : Dev nD, ∀ a, (k0_off16 d0) a + S1x1024x1x128.size a ≤ S8x1024x16x128.size a
  k0_off17_inb : ∀ d0 : Dev nD, ∀ a, (k0_off17 d0) a + S1x1024x1x128.size a ≤ S8x1024x16x128.size a
  k0_off18_inb : ∀ d0 : Dev nD, ∀ a, (k0_off18 d0) a + S1x1024x1x128.size a ≤ S8x1024x16x128.size a
  k0_off19_inb : ∀ d0 : Dev nD, ∀ a, (k0_off19 d0) a + S1x8x4x128.size a ≤ S8x8x16x128.size a
  k0_dev13_lt : ∀ d0 : Dev nD, (k0_dev13 d0) < nD
  k0_dev14_lt : ∀ d0 : Dev nD, (k0_dev14 d0) < nD
  k0_off20_inb : ∀ d0 : Dev nD, ∀ a, (k0_off20 d0) a + S1x8x4x128.size a ≤ S8x8x16x128.size a
  k0_dev15_lt : ∀ d0 : Dev nD, (k0_dev15 d0) < nD
  k0_dev16_lt : ∀ d0 : Dev nD, (k0_dev16 d0) < nD
  k0_off21_inb : ∀ d0 : Dev nD, ∀ a, (k0_off21 d0) a + S1x8x8x128.size a ≤ S8x8x16x128.size a
  k0_off22_inb : ∀ d0 : Dev nD, ∀ a, (k0_off22 d0) a + S1x1x8x8x128.size a ≤ S2x8x8x8x128.size a
  k0_off22_packedbf16 : ∀ d0 : Dev nD, (Rect.unit (s := S2x8x8x8x128) (k0_off22 d0) S1x1x8x8x128.size (k0_off22_inb d0)).PackedRows (EltTy.packing .bf16)
  k0_off23_inb : ∀ d0 : Dev nD, ∀ a, (k0_off23 d0) a + S1x1.size a ≤ S2x8.size a
  k0_off24_inb : ∀ d0 : Dev nD, ∀ a, (k0_off24 d0) a + S1x1x8x8x128.size a ≤ S2x8x8x8x128.size a
  k0_off24_wordsbf16 : ∀ d0 : Dev nD, (Rect.unit (s := S2x8x8x8x128) (k0_off24 d0) S1x1x8x8x128.size (k0_off24_inb d0)).WholeWords (EltTy.packing .bf16)
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_off25_inb : ∀ d0 : Dev nD, ∀ a, (k0_off25 d0) a + S1x8x8x128.size a ≤ S8x8x16x128.size a
  k0_off26_inb : ∀ d0 : Dev nD, ∀ a, (k0_off26 d0) a + S1x1x8x8x128.size a ≤ S2x8x8x8x128.size a
  k0_off26_packedbf16 : ∀ d0 : Dev nD, (Rect.unit (s := S2x8x8x8x128) (k0_off26 d0) S1x1x8x8x128.size (k0_off26_inb d0)).PackedRows (EltTy.packing .bf16)
  k0_off27_inb : ∀ d0 : Dev nD, ∀ a, (k0_off27 d0) a + S1x1.size a ≤ S2x8.size a
  k0_off28_inb : ∀ d0 : Dev nD, ∀ a, (k0_off28 d0) a + S1x1x8x8x128.size a ≤ S2x8x8x8x128.size a
  k0_off28_wordsbf16 : ∀ d0 : Dev nD, (Rect.unit (s := S2x8x8x8x128) (k0_off28 d0) S1x1x8x8x128.size (k0_off28_inb d0)).WholeWords (EltTy.packing .bf16)
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_off29_inb : ∀ d0 : Dev nD, ∀ (r : Fin 7), ∀ a, (k0_off29 d0 (BitVec.ofNat 32 (1 + r.val))) a + S1x1.size a ≤ S2x8.size a
  k0_off30_inb : ∀ d0 : Dev nD, ∀ (r : Fin 7), ∀ a, (k0_off30 d0 (BitVec.ofNat 32 (1 + r.val))) a + S1x1x8x8x128.size a ≤ S2x8x8x8x128.size a
  k0_off30_wordsbf16 : ∀ d0 : Dev nD, ∀ (r : Fin 7), (Rect.unit (s := S2x8x8x8x128) (k0_off30 d0 (BitVec.ofNat 32 (1 + r.val))) S1x1x8x8x128.size (k0_off30_inb d0 r)).WholeWords (EltTy.packing .bf16)
  k0_off31_inb : ∀ d0 : Dev nD, ∀ (r : Fin 7), ∀ a, (k0_off31 d0 (BitVec.ofNat 32 (1 + r.val))) a + S1x1x8x8x128.size a ≤ S2x8x8x8x128.size a
  k0_off32_inb : ∀ d0 : Dev nD, ∀ (r : Fin 7), ∀ a, (k0_off32 d0 (BitVec.ofNat 32 (1 + r.val))) a + S1x8x8x128.size a ≤ S8x8x16x128.size a
  k0_off33_inb : ∀ d0 : Dev nD, ∀ (r : Fin 7), ∀ a, (k0_off33 d0 (BitVec.ofNat 32 (1 + r.val))) a + S1x1.size a ≤ S2x8.size a
  k0_off34_inb : ∀ d0 : Dev nD, ∀ (r : Fin 7), ∀ a, (k0_off34 d0 (BitVec.ofNat 32 (1 + r.val))) a + S1x1x8x8x128.size a ≤ S2x8x8x8x128.size a
  k0_off34_wordsbf16 : ∀ d0 : Dev nD, ∀ (r : Fin 7), (Rect.unit (s := S2x8x8x8x128) (k0_off34 d0 (BitVec.ofNat 32 (1 + r.val))) S1x1x8x8x128.size (k0_off34_inb d0 r)).WholeWords (EltTy.packing .bf16)
  k0_off35_inb : ∀ d0 : Dev nD, ∀ (r : Fin 7), ∀ a, (k0_off35 d0 (BitVec.ofNat 32 (1 + r.val))) a + S1x1x8x8x128.size a ≤ S2x8x8x8x128.size a
  k0_off36_inb : ∀ d0 : Dev nD, ∀ (r : Fin 7), ∀ a, (k0_off36 d0 (BitVec.ofNat 32 (1 + r.val))) a + S1x8x8x128.size a ≤ S8x8x16x128.size a
  hstage0_0 : ∀ j, (stage0_0 j).IsWhole
  hstage0_1 : ∀ j, (stage0_1 j).IsWhole

variable [Facts₀]

abbrev cc0_scratch8 : DmaSems sig S2x4 := SemArray.consecutive 2 S2x4 hcc0_scratch8
abbrev cc0_scratch9 : DmaSems sig S2x4 := SemArray.consecutive 10 S2x4 hcc0_scratch9
abbrev cc0_scratch10 : DmaSems sig S4 := SemArray.consecutive 18 S4 hcc0_scratch10
abbrev cc0_scratch11 : DmaSems sig S4 := SemArray.consecutive 22 S4 hcc0_scratch11
abbrev cc0_scratch12 : DmaSems sig S4 := SemArray.consecutive 26 S4 hcc0_scratch12
abbrev cc0_scratch13 : DmaSems sig S4 := SemArray.consecutive 30 S4 hcc0_scratch13
abbrev cc0_scratch14 : DmaSems sig S14 := SemArray.consecutive 34 S14 hcc0_scratch14
abbrev cc0_scratch15 : DmaSems sig S2x8 := SemArray.consecutive 48 S2x8 hcc0_scratch15
def dot_S4x8x128_S4x1024x128_S4x8x1024_2_2_1_1_0_0 : DotDims S4x8x128 S4x1024x128 S4x8x1024 where
  lhsContracting := [2]
  rhsContracting := [2]
  lhsNonContracting := [1]
  rhsNonContracting := [1]
  lhsBatch := [0]
  rhsBatch := [0]
  wf := dot_S4x8x128_S4x1024x128_S4x8x1024_2_2_1_1_0_0_wf
def dot_S4x8x1024_S4x1024x128_S4x8x128_2_1_1_2_0_0 : DotDims S4x8x1024 S4x1024x128 S4x8x128 where
  lhsContracting := [2]
  rhsContracting := [1]
  lhsNonContracting := [1]
  rhsNonContracting := [2]
  lhsBatch := [0]
  rhsBatch := [0]
  wf := dot_S4x8x1024_S4x1024x128_S4x8x128_2_1_1_2_0_0_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x8x16x128 : Shape := ⟨4, ![8, 8, 16, 128]⟩
abbrev S8x2048x16x128 : Shape := ⟨4, ![8, 2048, 16, 128]⟩
abbrev S8x16x8x2048 : Shape := ⟨4, ![8, 16, 8, 2048]⟩
abbrev S_ : Shape := ⟨0, ![]⟩
abbrev S8x16x8 : Shape := ⟨3, ![8, 16, 8]⟩
abbrev S8x16x8x1 : Shape := ⟨4, ![8, 16, 8, 1]⟩
abbrev S8x16x128x8 : Shape := ⟨4, ![8, 16, 128, 8]⟩

abbrev nBuf : Space → Nat
  | .hbm => 20
  | .vmem => 0
  | .smem => 0
  | _ => 0

abbrev bufTy : (tb : Table) → Fin (tcTables nBuf tb) → BufTy
  | .hbm, ⟨0, _⟩ => ⟨S8x8x16x128, .f32⟩
  | .hbm, ⟨1, _⟩ => ⟨S8x2048x16x128, .f32⟩
  | .hbm, ⟨2, _⟩ => ⟨S8x2048x16x128, .f32⟩
  | .hbm, ⟨3, _⟩ => ⟨S8x16x8x2048, .f32⟩
  | .hbm, ⟨4, _⟩ => ⟨S_, .f32⟩
  | .hbm, ⟨5, _⟩ => ⟨S8x16x8x2048, .f32⟩
  | .hbm, ⟨6, _⟩ => ⟨S8x16x8x2048, .f32⟩
  | .hbm, ⟨7, _⟩ => ⟨S_, .f32⟩
  | .hbm, ⟨8, _⟩ => ⟨S8x16x8, .f32⟩
  | .hbm, ⟨9, _⟩ => ⟨S8x16x8x1, .f32⟩
  | .hbm, ⟨10, _⟩ => ⟨S8x16x8x2048, .f32⟩
  | .hbm, ⟨11, _⟩ => ⟨S8x16x8x2048, .f32⟩
  | .hbm, ⟨12, _⟩ => ⟨S8x16x8x2048, .f32⟩
  | .hbm, ⟨13, _⟩ => ⟨S_, .f32⟩
  | .hbm, ⟨14, _⟩ => ⟨S8x16x8, .f32⟩
  | .hbm, ⟨15, _⟩ => ⟨S8x16x8x1, .f32⟩
  | .hbm, ⟨16, _⟩ => ⟨S8x16x8x2048, .f32⟩
  | .hbm, ⟨17, _⟩ => ⟨S8x16x8x2048, .f32⟩
  | .hbm, ⟨18, _⟩ => ⟨S8x16x128x8, .f32⟩
  | .hbm, ⟨19, _⟩ => ⟨S8x8x16x128, .f32⟩
  | _, _ => ⟨S8x8x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  bcast_S_S8x16x8x2048 : S_.BroadcastsInDim S8x16x8x2048 (![] : Fin 0 → Fin S8x16x8x2048.rank)
  reducesTo_S8x16x8x2048_S8x16x8_d3 : S8x16x8x2048.ReducesTo [3] S8x16x8
  h_S_ : 0 < S_.numel
  bcast_S8x16x8_S8x16x8x1_0_1_2 : S8x16x8.BroadcastsInDim S8x16x8x1 (![0, 1, 2] : Fin 3 → Fin S8x16x8x1.rank)
  bcast_S8x16x8x1_S8x16x8x2048_0_1_2_3 : S8x16x8x1.BroadcastsInDim S8x16x8x2048 (![0, 1, 2, 3] : Fin 4 → Fin S8x16x8x2048.rank)
  transposes_S8x16x128x8_S8x8x16x128_0_3_1_2 : S8x16x128x8.Transposes [0, 3, 1, 2] S8x8x16x128
  dot_S8x8x16x128_S8x2048x16x128_S8x16x8x2048_3_3_1_1_02_02_wf : DotDims.WF S8x8x16x128 S8x2048x16x128 S8x16x8x2048 [3] [3] [1] [1] [0, 2] [0, 2]
  dot_S8x2048x16x128_S8x16x8x2048_S8x16x128x8_1_3_3_2_02_01_wf : DotDims.WF S8x2048x16x128 S8x16x8x2048 S8x16x128x8 [1] [3] [3] [2] [0, 2] [0, 1]

variable [Facts₀]

def dot_S8x8x16x128_S8x2048x16x128_S8x16x8x2048_3_3_1_1_02_02 : DotDims S8x8x16x128 S8x2048x16x128 S8x16x8x2048 where
  lhsContracting := [3]
  rhsContracting := [3]
  lhsNonContracting := [1]
  rhsNonContracting := [1]
  lhsBatch := [0, 2]
  rhsBatch := [0, 2]
  wf := dot_S8x8x16x128_S8x2048x16x128_S8x16x8x2048_3_3_1_1_02_02_wf
def dot_S8x2048x16x128_S8x16x8x2048_S8x16x128x8_1_3_3_2_02_01 : DotDims S8x2048x16x128 S8x16x8x2048 S8x16x128x8 where
  lhsContracting := [1]
  rhsContracting := [3]
  lhsNonContracting := [3]
  rhsNonContracting := [2]
  lhsBatch := [0, 2]
  rhsBatch := [0, 1]
  wf := dot_S8x2048x16x128_S8x16x8x2048_S8x16x128x8_1_3_3_2_02_01_wf

class Facts : Prop extends Facts₀ where

variable [Facts]
-- ==== Proof.Mesh.lean ====
import proofs.«900787_g7700000000000788_dist_flashdec_v7x_xyz2x2x4_y_b8_sq8_skv1024_h16_d128_f32_1_alg».proof.Proof.Gen.KernelIdeal

set_option Elab.async false

namespace Cert.KernelIdeal.Mesh

open Idealize.ShloMosaic Cert.KernelIdeal Cert.KernelIdeal.Gen

def yOf (c : Dev nD) : Nat := (c.val / 4) % 2

def pOf (c : Dev nD) : Nat := if c.val / 8 = 0 then c.val % 4 else 7 - c.val % 4

def devAt (y j : Nat) : Nat := (if j % 8 < 4 then 0 else 8) + 4 * (y % 2) + (if j % 8 < 4 then j % 8 else 7 - j % 8)

theorem devAt_lt (y j : Nat) : devAt y j < nD := by
  show devAt y j < 16
  unfold devAt; have := Nat.mod_lt y (show 0 < 2 by decide); have := Nat.mod_lt j (show 0 < 8 by decide)
  split <;> omega

def plane (c : Dev nD) (j : Nat) : Dev nD := ⟨devAt (yOf c) j, devAt_lt _ _⟩

def ring (c : Dev nD) (d : Nat) : Dev nD := plane c (pOf c + d)

def ynbr (c : Dev nD) : Dev nD := ⟨devAt (yOf c + 1) (pOf c), devAt_lt _ _⟩

theorem pOf_lt (c : Dev nD) : pOf c < 8 := by revert c; decide
theorem yOf_lt (c : Dev nD) : yOf c < 2 := by revert c; decide
theorem ynbr_ynbr (c : Dev nD) : ynbr (ynbr c) = c := by revert c; decide
theorem pOf_ynbr (c : Dev nD) : pOf (ynbr c) = pOf c := by revert c; decide
theorem plane_pOf (c : Dev nD) : plane c (pOf c) = c := by revert c; decide
theorem pOf_plane (c : Dev nD) (j : Fin 8) : pOf (plane c j.val) = j.val := by revert c j; decide
theorem pOf_ring (c : Dev nD) (d : Fin 8) : pOf (ring c d.val) = (pOf c + d.val) % 8 := by revert c d; decide
theorem ring_ring (c : Dev nD) (d : Fin 8) : ring (ring c d.val) (8 - d.val) = c := by revert c d; decide
theorem ring_ring' (c : Dev nD) (d : Fin 8) : ring (ring c (8 - d.val)) d.val = c := by revert c d; decide
theorem ring_ne (c : Dev nD) (d : Fin 8) (hd : d.val ≠ 0) : ring c d.val ≠ c := by revert c d; decide
theorem ring_ne_ynbr (c : Dev nD) (d : Fin 8) : ring c d.val ≠ ynbr c := by revert c d; decide
theorem dev1_eq (c : Dev nD) : (⟨k0_dev1 c, k0_dev1_lt c⟩ : Dev nD) = ynbr c := by revert c; decide +kernel
theorem dev2_eq (c : Dev nD) : (⟨k0_dev2 c, k0_dev2_lt c⟩ : Dev nD) = ring c 1 := by revert c; decide +kernel
theorem dev3_eq (c : Dev nD) : (⟨k0_dev3 c, k0_dev3_lt c⟩ : Dev nD) = ring c 2 := by revert c; decide +kernel
theorem dev4_eq (c : Dev nD) : (⟨k0_dev4 c, k0_dev4_lt c⟩ : Dev nD) = ring c 3 := by revert c; decide +kernel
theorem dev5_eq (c : Dev nD) : (⟨k0_dev5 c, k0_dev5_lt c⟩ : Dev nD) = ring c 4 := by revert c; decide +kernel
theorem dev6_eq (c : Dev nD) : (⟨k0_dev6 c, k0_dev6_lt c⟩ : Dev nD) = ring c 5 := by revert c; decide +kernel
theorem dev7_eq (c : Dev nD) : (⟨k0_dev7 c, k0_dev7_lt c⟩ : Dev nD) = ring c 6 := by revert c; decide +kernel
theorem dev8_eq (c : Dev nD) : (⟨k0_dev8 c, k0_dev8_lt c⟩ : Dev nD) = ring c 7 := by revert c; decide +kernel
theorem dev9_eq (c : Dev nD) : (⟨k0_dev9 c, k0_dev9_lt c⟩ : Dev nD) = ynbr c := by revert c; decide +kernel
theorem dev10_eq (c : Dev nD) : (⟨k0_dev10 c, k0_dev10_lt c⟩ : Dev nD) = ynbr c := by revert c; decide +kernel
theorem dev11_eq (c : Dev nD) : (⟨k0_dev11 c, k0_dev11_lt c⟩ : Dev nD) = ynbr c := by revert c; decide +kernel
theorem dev12_eq (c : Dev nD) : (⟨k0_dev12 c, k0_dev12_lt c⟩ : Dev nD) = ynbr c := by revert c; decide +kernel
theorem dev13_eq (c : Dev nD) : (⟨k0_dev13 c, k0_dev13_lt c⟩ : Dev nD) = ynbr c := by revert c; decide +kernel
theorem dev14_eq (c : Dev nD) : (⟨k0_dev14 c, k0_dev14_lt c⟩ : Dev nD) = ynbr c := by revert c; decide +kernel
theorem dev15_eq (c : Dev nD) : (⟨k0_dev15 c, k0_dev15_lt c⟩ : Dev nD) = ynbr c := by revert c; decide +kernel
theorem dev16_eq (c : Dev nD) : (⟨k0_dev16 c, k0_dev16_lt c⟩ : Dev nD) = ynbr c := by revert c; decide +kernel
theorem dev17_eq (c : Dev nD) : (⟨k0_dev17 c, k0_dev17_lt c⟩ : Dev nD) = ring c 1 := by revert c; decide +kernel
theorem dev18_eq (c : Dev nD) : (⟨k0_dev18 c, k0_dev18_lt c⟩ : Dev nD) = ring c 2 := by revert c; decide +kernel
theorem dev19_eq (c : Dev nD) : (⟨k0_dev19 c, k0_dev19_lt c⟩ : Dev nD) = ring c 3 := by revert c; decide +kernel
theorem dev20_eq (c : Dev nD) : (⟨k0_dev20 c, k0_dev20_lt c⟩ : Dev nD) = ring c 4 := by revert c; decide +kernel
theorem dev21_eq (c : Dev nD) : (⟨k0_dev21 c, k0_dev21_lt c⟩ : Dev nD) = ring c 5 := by revert c; decide +kernel
theorem dev22_eq (c : Dev nD) : (⟨k0_dev22 c, k0_dev22_lt c⟩ : Dev nD) = ring c 6 := by revert c; decide +kernel
theorem dev23_eq (c : Dev nD) : (⟨k0_dev23 c, k0_dev23_lt c⟩ : Dev nD) = ring c 7 := by revert c; decide +kernel
theorem dev24_eq (c : Dev nD) : (⟨k0_dev24 c, k0_dev24_lt c⟩ : Dev nD) = ring c 1 := by revert c; decide +kernel
theorem dev25_eq (c : Dev nD) : (⟨k0_dev25 c, k0_dev25_lt c⟩ : Dev nD) = ring c 2 := by revert c; decide +kernel
theorem dev26_eq (c : Dev nD) : (⟨k0_dev26 c, k0_dev26_lt c⟩ : Dev nD) = ring c 3 := by revert c; decide +kernel
theorem dev27_eq (c : Dev nD) : (⟨k0_dev27 c, k0_dev27_lt c⟩ : Dev nD) = ring c 4 := by revert c; decide +kernel
theorem dev28_eq (c : Dev nD) : (⟨k0_dev28 c, k0_dev28_lt c⟩ : Dev nD) = ring c 5 := by revert c; decide +kernel
theorem dev29_eq (c : Dev nD) : (⟨k0_dev29 c, k0_dev29_lt c⟩ : Dev nD) = ring c 6 := by revert c; decide +kernel
theorem dev30_eq (c : Dev nD) : (⟨k0_dev30 c, k0_dev30_lt c⟩ : Dev nD) = ring c 7 := by revert c; decide +kernel

theorem off1_eq (c : Dev nD) : k0_off1 c = ![pOf c, 0, 0, 0] := by revert c; decide +kernel
theorem off2_eq (c : Dev nD) : k0_off2 c = ![pOf c, 0, 1, 0] := by revert c; decide +kernel
theorem off3_eq (c : Dev nD) : k0_off3 c = ![pOf c, 0, 2, 0] := by revert c; decide +kernel
theorem off4_eq (c : Dev nD) : k0_off4 c = ![pOf c, 0, 3, 0] := by revert c; decide +kernel
theorem off5_eq (c : Dev nD) : k0_off5 c = ![pOf c, 0, 4, 0] := by revert c; decide +kernel
theorem off6_eq (c : Dev nD) : k0_off6 c = ![pOf c, 0, 5, 0] := by revert c; decide +kernel
theorem off7_eq (c : Dev nD) : k0_off7 c = ![pOf c, 0, 6, 0] := by revert c; decide +kernel
theorem off8_eq (c : Dev nD) : k0_off8 c = ![pOf c, 0, 7, 0] := by revert c; decide +kernel
theorem off9_eq (c : Dev nD) : k0_off9 c = ![pOf c, 0, 0, 0] := by revert c; decide +kernel
theorem off10_eq (c : Dev nD) : k0_off10 c = ![pOf c, 0, 8, 0] := by revert c; decide +kernel
theorem off11_eq (c : Dev nD) : k0_off11 c = ![pOf c, 0, 9, 0] := by revert c; decide +kernel
theorem off12_eq (c : Dev nD) : k0_off12 c = ![pOf c, 0, 10, 0] := by revert c; decide +kernel
theorem off13_eq (c : Dev nD) : k0_off13 c = ![pOf c, 0, 11, 0] := by revert c; decide +kernel
theorem off14_eq (c : Dev nD) : k0_off14 c = ![pOf c, 0, 4, 0] := by revert c; decide +kernel
theorem off15_eq (c : Dev nD) : k0_off15 c = ![pOf c, 0, 12, 0] := by revert c; decide +kernel
theorem off16_eq (c : Dev nD) : k0_off16 c = ![pOf c, 0, 13, 0] := by revert c; decide +kernel
theorem off17_eq (c : Dev nD) : k0_off17 c = ![pOf c, 0, 14, 0] := by revert c; decide +kernel
theorem off18_eq (c : Dev nD) : k0_off18 c = ![pOf c, 0, 15, 0] := by revert c; decide +kernel
theorem off19_eq (c : Dev nD) : k0_off19 c = ![pOf c, 0, 8, 0] := by revert c; decide +kernel
theorem off20_eq (c : Dev nD) : k0_off20 c = ![pOf c, 0, 12, 0] := by revert c; decide +kernel
theorem off21_eq (c : Dev nD) : k0_off21 c = ![pOf c, 0, 0, 0] := by revert c; decide +kernel
theorem off22_eq (c : Dev nD) : k0_off22 c = ![0, pOf c, 0, 0, 0] := by revert c; decide +kernel
theorem off23_eq (c : Dev nD) : k0_off23 c = ![0, pOf c] := by revert c; decide +kernel
theorem off24_eq (c : Dev nD) : k0_off24 c = ![0, pOf c, 0, 0, 0] := by revert c; decide +kernel
theorem off25_eq (c : Dev nD) : k0_off25 c = ![pOf c, 0, 8, 0] := by revert c; decide +kernel
theorem off26_eq (c : Dev nD) : k0_off26 c = ![1, pOf c, 0, 0, 0] := by revert c; decide +kernel
theorem off27_eq (c : Dev nD) : k0_off27 c = ![1, pOf c] := by revert c; decide +kernel
theorem off28_eq (c : Dev nD) : k0_off28 c = ![1, pOf c, 0, 0, 0] := by revert c; decide +kernel
theorem off29_eq_1 (c : Dev nD) : k0_off29 c 1#32 = ![0, (pOf c + 1) % 8] := by revert c; decide +kernel
theorem off29_eq_2 (c : Dev nD) : k0_off29 c 2#32 = ![0, (pOf c + 2) % 8] := by revert c; decide +kernel
theorem off29_eq_3 (c : Dev nD) : k0_off29 c 3#32 = ![0, (pOf c + 3) % 8] := by revert c; decide +kernel
theorem off29_eq_4 (c : Dev nD) : k0_off29 c 4#32 = ![0, (pOf c + 4) % 8] := by revert c; decide +kernel
theorem off29_eq_5 (c : Dev nD) : k0_off29 c 5#32 = ![0, (pOf c + 5) % 8] := by revert c; decide +kernel
theorem off29_eq_6 (c : Dev nD) : k0_off29 c 6#32 = ![0, (pOf c + 6) % 8] := by revert c; decide +kernel
theorem off29_eq_7 (c : Dev nD) : k0_off29 c 7#32 = ![0, (pOf c + 7) % 8] := by revert c; decide +kernel
theorem off31_eq_1 (c : Dev nD) : k0_off31 c 1#32 = ![0, (pOf c + 1) % 8, 0, 0, 0] := by revert c; decide +kernel
theorem off31_eq_2 (c : Dev nD) : k0_off31 c 2#32 = ![0, (pOf c + 2) % 8, 0, 0, 0] := by revert c; decide +kernel
theorem off31_eq_3 (c : Dev nD) : k0_off31 c 3#32 = ![0, (pOf c + 3) % 8, 0, 0, 0] := by revert c; decide +kernel
theorem off31_eq_4 (c : Dev nD) : k0_off31 c 4#32 = ![0, (pOf c + 4) % 8, 0, 0, 0] := by revert c; decide +kernel
theorem off31_eq_5 (c : Dev nD) : k0_off31 c 5#32 = ![0, (pOf c + 5) % 8, 0, 0, 0] := by revert c; decide +kernel
theorem off31_eq_6 (c : Dev nD) : k0_off31 c 6#32 = ![0, (pOf c + 6) % 8, 0, 0, 0] := by revert c; decide +kernel
theorem off31_eq_7 (c : Dev nD) : k0_off31 c 7#32 = ![0, (pOf c + 7) % 8, 0, 0, 0] := by revert c; decide +kernel
theorem off32_eq_1 (c : Dev nD) : k0_off32 c 1#32 = ![(pOf c + 1) % 8, 0, 0, 0] := by revert c; decide +kernel
theorem off32_eq_2 (c : Dev nD) : k0_off32 c 2#32 = ![(pOf c + 2) % 8, 0, 0, 0] := by revert c; decide +kernel
theorem off32_eq_3 (c : Dev nD) : k0_off32 c 3#32 = ![(pOf c + 3) % 8, 0, 0, 0] := by revert c; decide +kernel
theorem off32_eq_4 (c : Dev nD) : k0_off32 c 4#32 = ![(pOf c + 4) % 8, 0, 0, 0] := by revert c; decide +kernel
theorem off32_eq_5 (c : Dev nD) : k0_off32 c 5#32 = ![(pOf c + 5) % 8, 0, 0, 0] := by revert c; decide +kernel
theorem off32_eq_6 (c : Dev nD) : k0_off32 c 6#32 = ![(pOf c + 6) % 8, 0, 0, 0] := by revert c; decide +kernel
theorem off32_eq_7 (c : Dev nD) : k0_off32 c 7#32 = ![(pOf c + 7) % 8, 0, 0, 0] := by revert c; decide +kernel
theorem off33_eq_1 (c : Dev nD) : k0_off33 c 1#32 = ![1, (pOf c + 1) % 8] := by revert c; decide +kernel
theorem off33_eq_2 (c : Dev nD) : k0_off33 c 2#32 = ![1, (pOf c + 2) % 8] := by revert c; decide +kernel
theorem off33_eq_3 (c : Dev nD) : k0_off33 c 3#32 = ![1, (pOf c + 3) % 8] := by revert c; decide +kernel
theorem off33_eq_4 (c : Dev nD) : k0_off33 c 4#32 = ![1, (pOf c + 4) % 8] := by revert c; decide +kernel
theorem off33_eq_5 (c : Dev nD) : k0_off33 c 5#32 = ![1, (pOf c + 5) % 8] := by revert c; decide +kernel
theorem off33_eq_6 (c : Dev nD) : k0_off33 c 6#32 = ![1, (pOf c + 6) % 8] := by revert c; decide +kernel
theorem off33_eq_7 (c : Dev nD) : k0_off33 c 7#32 = ![1, (pOf c + 7) % 8] := by revert c; decide +kernel
theorem off35_eq_1 (c : Dev nD) : k0_off35 c 1#32 = ![1, (pOf c + 1) % 8, 0, 0, 0] := by revert c; decide +kernel
theorem off35_eq_2 (c : Dev nD) : k0_off35 c 2#32 = ![1, (pOf c + 2) % 8, 0, 0, 0] := by revert c; decide +kernel
theorem off35_eq_3 (c : Dev nD) : k0_off35 c 3#32 = ![1, (pOf c + 3) % 8, 0, 0, 0] := by revert c; decide +kernel
theorem off35_eq_4 (c : Dev nD) : k0_off35 c 4#32 = ![1, (pOf c + 4) % 8, 0, 0, 0] := by revert c; decide +kernel
theorem off35_eq_5 (c : Dev nD) : k0_off35 c 5#32 = ![1, (pOf c + 5) % 8, 0, 0, 0] := by revert c; decide +kernel
theorem off35_eq_6 (c : Dev nD) : k0_off35 c 6#32 = ![1, (pOf c + 6) % 8, 0, 0, 0] := by revert c; decide +kernel
theorem off35_eq_7 (c : Dev nD) : k0_off35 c 7#32 = ![1, (pOf c + 7) % 8, 0, 0, 0] := by revert c; decide +kernel
theorem off36_eq_1 (c : Dev nD) : k0_off36 c 1#32 = ![(pOf c + 1) % 8, 0, 8, 0] := by revert c; decide +kernel
theorem off36_eq_2 (c : Dev nD) : k0_off36 c 2#32 = ![(pOf c + 2) % 8, 0, 8, 0] := by revert c; decide +kernel
theorem off36_eq_3 (c : Dev nD) : k0_off36 c 3#32 = ![(pOf c + 3) % 8, 0, 8, 0] := by revert c; decide +kernel
theorem off36_eq_4 (c : Dev nD) : k0_off36 c 4#32 = ![(pOf c + 4) % 8, 0, 8, 0] := by revert c; decide +kernel
theorem off36_eq_5 (c : Dev nD) : k0_off36 c 5#32 = ![(pOf c + 5) % 8, 0, 8, 0] := by revert c; decide +kernel
theorem off36_eq_6 (c : Dev nD) : k0_off36 c 6#32 = ![(pOf c + 6) % 8, 0, 8, 0] := by revert c; decide +kernel
theorem off36_eq_7 (c : Dev nD) : k0_off36 c 7#32 = ![(pOf c + 7) % 8, 0, 8, 0] := by revert c; decide +kernel

end Cert.KernelIdeal.Mesh
-- ==== Proof.Proto.lean ====
import proofs.«900787_g7700000000000788_dist_flashdec_v7x_xyz2x2x4_y_b8_sq8_skv1024_h16_d128_f32_1_alg».proof.Proof.Gen.KernelIdeal
import proofs.«900787_g7700000000000788_dist_flashdec_v7x_xyz2x2x4_y_b8_sq8_skv1024_h16_d128_f32_1_alg».proof.Proof.Gen.KernelIdeal.Skeleton
import proofs.«900787_g7700000000000788_dist_flashdec_v7x_xyz2x2x4_y_b8_sq8_skv1024_h16_d128_f32_1_alg».proof.Proof.Gen.KernelIdeal.Launch
import proofs.«900787_g7700000000000788_dist_flashdec_v7x_xyz2x2x4_y_b8_sq8_skv1024_h16_d128_f32_1_alg».proof.Proof.Mesh
import Idealize.ShloMosaic.Lib.Pipeline.Launch
import Idealize.ShloMosaic.Lib.Pipeline.Kit
import Idealize.ShloMosaic.Lib.Tactic

noncomputable section

namespace Cert.KernelIdeal.Proto

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Dev nD)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev 𝒱₀ : Variants := Variants.none

abbrev barS : Sem sig := (SemArray.scalar (sig.barrier 0 rfl) : Sems sig S_).sem
def yoSendS (g : Fin 4) : DmaSem sig := ⟨18 + g.val, by show 18 + g.val < 64; have := g.isLt; omega⟩
def yoRecvS (g : Fin 4) : DmaSem sig := ⟨22 + g.val, by show 22 + g.val < 64; have := g.isLt; omega⟩
def ylSendS (g : Fin 4) : DmaSem sig := ⟨26 + g.val, by show 26 + g.val < 64; have := g.isLt; omega⟩
def ylRecvS (g : Fin 4) : DmaSem sig := ⟨30 + g.val, by show 30 + g.val < 64; have := g.isLt; omega⟩
def bcSendS (i : Fin 14) : DmaSem sig := ⟨34 + i.val, by show 34 + i.val < 64; have := i.isLt; omega⟩
def bcRecvS (h : Fin 2) (j : Fin 8) : DmaSem sig := ⟨48 + 8 * h.val + j.val, by show 48 + 8 * h.val + j.val < 64; have := h.isLt; have := j.isLt; omega⟩

inductive Kind where
  | bar | yoSend (g : Fin 4) | yoRecv (g : Fin 4) | ylSend (g : Fin 4) | ylRecv (g : Fin 4)
  | bcSend (i : Fin 14) | bcRecv (h : Fin 2) (j : Fin 8) | other
  deriving DecidableEq

def kindOfDma (s : DmaSem sig) : Kind :=
  if h : 18 ≤ s.val ∧ s.val < 22 then .yoSend ⟨s.val - 18, by omega⟩
  else if h : 22 ≤ s.val ∧ s.val < 26 then .yoRecv ⟨s.val - 22, by omega⟩
  else if h : 26 ≤ s.val ∧ s.val < 30 then .ylSend ⟨s.val - 26, by omega⟩
  else if h : 30 ≤ s.val ∧ s.val < 34 then .ylRecv ⟨s.val - 30, by omega⟩
  else if h : 34 ≤ s.val ∧ s.val < 48 then .bcSend ⟨s.val - 34, by omega⟩
  else if h : 48 ≤ s.val ∧ s.val < 64 then .bcRecv ⟨(s.val - 48) / 8, by omega⟩ ⟨(s.val - 48) % 8, by omega⟩
  else .other

def kindOf : SemLoc sig → Kind
  | .reg _ => .bar
  | .dma s => kindOfDma s

theorem kindOf_bar : kindOf (.reg barS) = .bar := rfl
theorem kindOf_yoSend (g : Fin 4) : kindOf (.dma (yoSendS g)) = .yoSend g := by revert g; decide
theorem kindOf_yoRecv (g : Fin 4) : kindOf (.dma (yoRecvS g)) = .yoRecv g := by revert g; decide
theorem kindOf_ylSend (g : Fin 4) : kindOf (.dma (ylSendS g)) = .ylSend g := by revert g; decide
theorem kindOf_ylRecv (g : Fin 4) : kindOf (.dma (ylRecvS g)) = .ylRecv g := by revert g; decide
theorem kindOf_bcSend (i : Fin 14) : kindOf (.dma (bcSendS i)) = .bcSend i := by revert i; decide
theorem kindOf_bcRecv (h : Fin 2) (j : Fin 8) : kindOf (.dma (bcRecvS h j)) = .bcRecv h j := by revert h j; decide

theorem inb4 (g : Fin 4) : ∀ a, (![g.val, 0, 0, 0] : Fin 4 → Nat) a + S1x8x4x128.size a ≤ S4x8x4x128.size a := by revert g; decide
theorem inb3 (g : Fin 4) : ∀ a, (![g.val, 0, 0] : Fin 3 → Nat) a + S1x8x4.size a ≤ S4x8x4.size a := by revert g; decide
abbrev obSrc (g : Fin 4) : Memref sig .tc .vmem S8x4x128 .bf16 :=
  ((Memref.whole cc0_scratch3).slice (Rect.unit (s := S4x8x4x128) ![g.val, 0, 0, 0] S1x8x4x128.size (inb4 g)) (fun _ => rfl)).squeeze S8x4x128 squeezes_S1x8x4x128_S8x4x128
abbrev obDst (g : Fin 4) : Memref sig .tc .vmem S8x4x128 .bf16 :=
  ((Memref.whole cc0_scratch4).slice (Rect.unit (s := S4x8x4x128) ![g.val, 0, 0, 0] S1x8x4x128.size (inb4 g)) (fun _ => rfl)).squeeze S8x4x128 squeezes_S1x8x4x128_S8x4x128
abbrev lbSrc (g : Fin 4) : Memref sig .tc .vmem S8x4 .f32 :=
  ((Memref.whole cc0_scratch5).slice (Rect.unit (s := S4x8x4) ![g.val, 0, 0] S1x8x4.size (inb3 g)) (fun _ => rfl)).squeeze S8x4 squeezes_S1x8x4_S8x4
abbrev lbDst (g : Fin 4) : Memref sig .tc .vmem S8x4 .f32 :=
  ((Memref.whole cc0_scratch6).slice (Rect.unit (s := S4x8x4) ![g.val, 0, 0] S1x8x4.size (inb3 g)) (fun _ => rfl)).squeeze S8x4 squeezes_S1x8x4_S8x4

abbrev bfSlot (off : Fin 5 → Nat) (inb : ∀ a, off a + S1x1x8x8x128.size a ≤ S2x8x8x8x128.size a) : Memref sig .tc .vmem S8x8x128 .bf16 :=
  ((Memref.whole cc0_scratch7).slice (Rect.unit (s := S2x8x8x8x128) off S1x1x8x8x128.size inb) (fun _ => rfl)).squeeze S8x8x128 squeezes_S1x1x8x8x128_S8x8x128

def bfOff (c : Dev nD) : Fin 2 → Fin 5 → Nat
  | 0 => k0_off24 c
  | 1 => k0_off28 c
theorem bfOff_inb (c : Dev nD) : ∀ (h : Fin 2) (a : Fin 5), bfOff c h a + S1x1x8x8x128.size a ≤ S2x8x8x8x128.size a
  | 0 => k0_off24_inb c
  | 1 => k0_off28_inb c

abbrev bfView (c : Dev nD) (h : Fin 2) : Memref sig .tc .vmem S8x8x128 .bf16 := bfSlot (bfOff c h) (bfOff_inb c h)

structure Landed (F : FTy → Type) where
  ob : Dev nD → (cc0_scratch3 : Ref sig .tc).ty.Contents (Elt F)
  lb : Dev nD → (cc0_scratch5 : Ref sig .tc).ty.Contents (Elt F)
  bf : Dev nD → (cc0_scratch7 : Ref sig .tc).ty.Contents (Elt F)

variable (V : Landed F)

abbrev No : ℕ := (obDst 0).view.dmaCredit
abbrev Nl : ℕ := (lbDst 0).view.dmaCredit
abbrev Nb : ℕ := (bfSlot ![0, 0, 0, 0, 0] (by decide)).view.dmaCredit

def bcShare : Fin 8 → PosShare TreeShare
  | 0 => fullShare
  | 1 => fullShare.left
  | 2 => fullShare.right.left
  | 3 => fullShare.right.right.left
  | 4 => fullShare.right.right.right.left
  | 5 => fullShare.right.right.right.right.left
  | 6 => fullShare.right.right.right.right.right.left
  | 7 => fullShare.right.right.right.right.right.right

def payers (c : Dev nD) : Kind → Finset (Dev nD)
  | .bar => insert (ynbr c) (((Finset.univ : Finset (Fin 8)).image fun d => ring c d.val).erase c)
  | .yoSend _ => {c} | .ylSend _ => {c} | .bcSend _ => {c}
  | .yoRecv _ => {ynbr c} | .ylRecv _ => {ynbr c}
  | .bcRecv _ j => if j.val = pOf c then ∅ else {plane c j.val}
  | .other => ∅

def payBarY (e : Dev nD) : sProp 𝕄 :=
  iprop((∃ f, (Memref.whole cc0_scratch4 : Memref sig .tc _ _ _).view.loc (e : Thread nD τ) ↦{fullShare} f)
    ∗ (∃ f, (Memref.whole cc0_scratch6 : Memref sig .tc _ _ _).view.loc (e : Thread nD τ) ↦{fullShare} f))

def payBarR (c e : Dev nD) : sProp 𝕄 :=
  iprop((∃ f, (bfView c 0).view.loc (e : Thread nD τ) ↦[(bfView c 0).view.set]{fullShare} f)
    ∗ (∃ f, (bfView c 1).view.loc (e : Thread nD τ) ↦[(bfView c 1).view.set]{fullShare} f))

set_option synthInstance.maxHeartbeats 400000 in
instance payBarY_storable (e : Dev nD) : BI.Storable (upEmb : UEmb _ 𝕄) (payBarY (F := F) e) := by unfold payBarY; infer_instance
set_option synthInstance.maxHeartbeats 400000 in
instance payBarR_storable (c e : Dev nD) : BI.Storable (upEmb : UEmb _ 𝕄) (payBarR (F := F) c e) := by unfold payBarR; infer_instance

def pay (c e : Dev nD) : Kind → sProp 𝕄
  | .bar => if e = ynbr c then payBarY e else payBarR c e
  | .yoSend g => (obSrc g).view.loc (c : Thread nD τ) ↦[(obSrc g).view.set]{fullShare} V.ob c
  | .ylSend g => (lbSrc g).view.loc (c : Thread nD τ) ↦[(lbSrc g).view.set]{fullShare.left} V.lb c
  | .bcSend i => (bfView c ⟨i.val / 7, by have := i.isLt; omega⟩).view.loc (c : Thread nD τ)
        ↦[(bfView c ⟨i.val / 7, by have := i.isLt; omega⟩).view.set]{bcShare ⟨i.val % 7 + 1, by omega⟩} V.bf c
  | .yoRecv g => (obDst g).view.loc (c : Thread nD τ) ↦[(obDst g).view.set]{fullShare} V.ob e
  | .ylRecv g => (lbDst g).view.loc (c : Thread nD τ) ↦[(lbDst g).view.set]{fullShare} V.lb e
  | .bcRecv h _ => (bfView e h).view.loc (c : Thread nD τ) ↦[(bfView e h).view.set]{fullShare} V.bf e
  | .other => iprop(emp)

def amt : Kind → ℕ
  | .bar => 1
  | .yoSend _ => No | .yoRecv _ => No
  | .ylSend _ => Nl | .ylRecv _ => Nl
  | .bcSend _ => Nb | .bcRecv _ _ => Nb
  | .other => 1

theorem amt_pos (k : Kind) : 0 < amt k := by
  cases k <;> first | exact Nat.one_pos | exact View.dmaCredit_pos _ (by decide)

def Rd : Rounds.Schedule (GSem nD τ sig) (Dev nD) 𝕄 where
  duties g r := if r = 0 ∧ g.1.2 = .tc then payers g.1.1 (kindOf g.2) else ∅
  amount g _ _ := amt (kindOf g.2)
  payload g _ e := pay V g.1.1 e (kindOf g.2)
  amount_pos g _ _ _ := amt_pos _

set_option synthInstance.maxHeartbeats 400000 in
instance pay_storable (c e : Dev nD) (k : Kind) : BI.Storable (upEmb : UEmb _ 𝕄) (pay V c e k) := by
  cases k <;> dsimp only [pay]
  · by_cases h : e = ynbr c
    · rw [if_pos h]; infer_instance
    · rw [if_neg h]; infer_instance
  all_goals infer_instance

instance Rd_payload_storable (g : GSem nD τ sig) (r : ℕ) (e : Dev nD) : BI.Storable (upEmb : UEmb _ 𝕄) ((Rd V).payload g r e) :=
  pay_storable V _ _ _

end Cert.KernelIdeal.Proto

end
-- ==== Proof.Vals.lean ====
import proofs.«900787_g7700000000000788_dist_flashdec_v7x_xyz2x2x4_y_b8_sq8_skv1024_h16_d128_f32_1_alg».proof.Proof.Proto
import Idealize.ShloMosaic.Lib.ValueIdx

noncomputable section

namespace Cert.KernelIdeal.Vals

open Cert.KernelIdeal Cert.KernelIdeal.Gen Cert.KernelIdeal.Mesh Cert.KernelIdeal.Proto
open Idealize.ShloMosaic Idealize.ShloMosaic.ValueIdx
open Idealize.ShloMosaic.TcCoe

variable {F : FTy → Type} [FloatOps F]
variable (m : (ℓ : Loc nD τ sig) → Buf (Elt F) ℓ)

def qst (c : Dev nD) : (cc0_stg0_0 : Ref sig .tc).ty.Contents (Elt F) :=
  (win0_0.blk (0 : Fin 1)).view.read (Elt F) (m ((c : Thread nD τ).loc main_arg0))

abbrev pFin (c : Dev nD) : Fin 8 := ⟨pOf c, pOf_lt c⟩
abbrev head (g : Fin 4) (hh : Fin 4) : Fin 16 := ⟨4 * g.val + hh.val, by have := g.isLt; have := hh.isLt; omega⟩
abbrev head8 (h : Fin 2) (hh : Fin 8) : Fin 16 := ⟨8 * h.val + hh.val, by have := h.isLt; have := hh.isLt; omega⟩
abbrev grp (h : Fin 2) (k : Fin 2) : Fin 4 := ⟨2 * h.val + k.val, by have := h.isLt; have := k.isLt; omega⟩

def qRows (c : Dev nD) (g : Fin 4) : Vec F S1x8x4x128 .f32 := fun i =>
  qst m c (ix4 (pFin c) (show Fin 8 from i 1) (head g (show Fin 4 from i 2)) (show Fin 128 from i 3))

def kSlab (c : Dev nD) (g : Fin 4) : Vec F S1x4x1024x128 .f32 := fun i =>
  (m ((c : Thread nD τ).loc main_arg1) : S8x1024x16x128.Idx → Elt F .f32) (ix4 (pFin c) (show Fin 1024 from i 2) (head g (show Fin 4 from i 1)) (show Fin 128 from i 3))

def vSlab (c : Dev nD) (g : Fin 4) : Vec F S1x4x1024x128 .f32 := fun i =>
  (m ((c : Thread nD τ).loc main_arg2) : S8x1024x16x128.Idx → Elt F .f32) (ix4 (pFin c) (show Fin 1024 from i 2) (head g (show Fin 4 from i 1)) (show Fin 128 from i 3))

def sc (c : Dev nD) (g : Fin 4) : FVec F S4x8x1024 .f32 := k0_pay1 (qRows m c g) (kSlab m c g)

def oG (c : Dev nD) (g : Fin 4) : FVec F S8x4x128 .f32 := k0_pay4 (sc m c g) (vSlab m c g)

def obG (c : Dev nD) (g : Fin 4) : FVec F S1x8x4x128 .bf16 := k0_pay5 (sc m c g) (vSlab m c g)

def lG (c : Dev nD) (g : Fin 4) : FVec F S1x8x4 .f32 := k0_pay6 (sc m c g)

def ob (c : Dev nD) : (cc0_scratch3 : Ref sig .tc).ty.Contents (Elt F) := fun i =>
  obG m c (show Fin 4 from i 0) (ix4 (0 : Fin 1) (show Fin 8 from i 1) (show Fin 4 from i 2) (show Fin 128 from i 3))

def lb (c : Dev nD) : (cc0_scratch5 : Ref sig .tc).ty.Contents (Elt F) := fun i =>
  lG m c (show Fin 4 from i 0) (ix3 (0 : Fin 1) (show Fin 8 from i 1) (show Fin 4 from i 2))

def om (c : Dev nD) : (cc0_scratch2 : Ref sig .tc).ty.Contents (Elt F) := fun i =>
  oG m c ⟨(show Fin 16 from i 1).val / 4, by have := (show Fin 16 from i 1).isLt; omega⟩
    (ix3 (show Fin 8 from i 0) ⟨(show Fin 16 from i 1).val % 4, Nat.mod_lt _ (by decide)⟩ (show Fin 128 from i 2))

def obPeer (c : Dev nD) (g : Fin 4) : Vec F S1x8x4x128 .bf16 := fun i =>
  ob m (ynbr c) (ix4 g (show Fin 8 from i 1) (show Fin 4 from i 2) (show Fin 128 from i 3))
def lbPeer (c : Dev nD) (g : Fin 4) : Vec F S1x8x4 .f32 := fun i =>
  lb m (ynbr c) (ix3 g (show Fin 8 from i 1) (show Fin 4 from i 2))
def lbOwn (c : Dev nD) (g : Fin 4) : Vec F S1x8x4 .f32 := fun i =>
  lb m c (ix3 g (show Fin 8 from i 1) (show Fin 4 from i 2))

def omHalf (c : Dev nD) (h : Fin 2) : Vec F S8x8x128 .f32 := fun i =>
  om m c (ix3 (show Fin 8 from i 0) (head8 h (show Fin 8 from i 1)) (show Fin 128 from i 2))

def fin (c : Dev nD) (h : Fin 2) : FVec F S8x8x128 .f32 :=
  k0_pay26 (k0_pay23 (obPeer m c (grp h 0)) (obPeer m c (grp h 1))) (k0_pay24 (lbPeer m c (grp h 0)) (lbPeer m c (grp h 1)))
    (k0_pay25 (lbOwn m c (grp h 0))) (lbOwn m c (grp h 1)) (omHalf m c h)

def finOut (c : Dev nD) (h : Fin 2) : FVec F S1x8x8x128 .f32 :=
  k0_pay27 (k0_pay23 (obPeer m c (grp h 0)) (obPeer m c (grp h 1))) (k0_pay24 (lbPeer m c (grp h 0)) (lbPeer m c (grp h 1)))
    (k0_pay25 (lbOwn m c (grp h 0))) (lbOwn m c (grp h 1)) (omHalf m c h)

def finBf (c : Dev nD) (h : Fin 2) : FVec F S1x1x8x8x128 .bf16 :=
  k0_pay28 (k0_pay23 (obPeer m c (grp h 0)) (obPeer m c (grp h 1))) (k0_pay24 (lbPeer m c (grp h 0)) (lbPeer m c (grp h 1)))
    (k0_pay25 (lbOwn m c (grp h 0))) (lbOwn m c (grp h 1)) (omHalf m c h)

def bf (c : Dev nD) : (cc0_scratch7 : Ref sig .tc).ty.Contents (Elt F) := fun i =>
  finBf m c (show Fin 2 from i 0) (ix5 (0 : Fin 1) (0 : Fin 1) (show Fin 8 from i 2) (show Fin 8 from i 3) (show Fin 128 from i 4))

def bfSlotOf (c : Dev nD) (h : Fin 2) (j : Fin 8) : Vec F S1x1x8x8x128 .bf16 := fun i =>
  bf m (plane c j.val) (ix5 h j (show Fin 8 from i 2) (show Fin 8 from i 3) (show Fin 128 from i 4))

def out (c : Dev nD) : (cc0_stg1_0 : Ref sig .tc).ty.Contents (Elt F) := fun i =>
  let b : Fin 8 := show Fin 8 from i 0
  let hd : Fin 16 := show Fin 16 from i 2
  let h : Fin 2 := ⟨hd.val / 8, by have := hd.isLt; omega⟩
  let hh : Fin 8 := ⟨hd.val % 8, Nat.mod_lt _ (by decide)⟩
  if b.val = pOf c then finOut m c h (ix4 (0 : Fin 1) (show Fin 8 from i 1) hh (show Fin 128 from i 3))
  else k0_pay32 (bfSlotOf m c h b) (ix4 (0 : Fin 1) (show Fin 8 from i 1) hh (show Fin 128 from i 3))

def landed : Landed F := ⟨ob m, lb m, bf m⟩

end Cert.KernelIdeal.Vals

end
-- ==== Proof.Iface.lean ====
import proofs.«900787_g7700000000000788_dist_flashdec_v7x_xyz2x2x4_y_b8_sq8_skv1024_h16_d128_f32_1_alg».proof.Proof.Vals

noncomputable section

namespace Cert.KernelIdeal.Iface

open Cert.KernelIdeal Cert.KernelIdeal.Gen Cert.KernelIdeal.Mesh Cert.KernelIdeal.Proto
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev barCell (c : Dev nD) : GSem nD τ sig := ((c : Thread nD τ), .reg barS)
abbrev yoSendCell (g : Fin 4) (c : Dev nD) : GSem nD τ sig := ((c : Thread nD τ), .dma (yoSendS g))
abbrev yoRecvCell (g : Fin 4) (c : Dev nD) : GSem nD τ sig := ((c : Thread nD τ), .dma (yoRecvS g))
abbrev ylSendCell (g : Fin 4) (c : Dev nD) : GSem nD τ sig := ((c : Thread nD τ), .dma (ylSendS g))
abbrev ylRecvCell (g : Fin 4) (c : Dev nD) : GSem nD τ sig := ((c : Thread nD τ), .dma (ylRecvS g))
abbrev bcSendCell (i : Fin 14) (c : Dev nD) : GSem nD τ sig := ((c : Thread nD τ), .dma (bcSendS i))
abbrev bcRecvCell (h : Fin 2) (j : Fin 8) (c : Dev nD) : GSem nD τ sig := ((c : Thread nD τ), .dma (bcRecvS h j))
abbrev pFin (c : Dev nD) : Fin 8 := ⟨pOf c, pOf_lt c⟩

abbrev rj (c : Dev nD) (d : Nat) : Fin 8 := ⟨(pOf c + d) % 8, Nat.mod_lt _ (by decide)⟩

def csem (k : Fin 47) : SemLoc sig := if h : k.val = 0 then .reg barS else .dma ⟨17 + k.val, by show 17 + k.val < 64; have := k.isLt; omega⟩
abbrev kcell (ck : Dev nD × Fin 47) : GSem nD τ sig := ((ck.1 : Thread nD τ), csem ck.2)

abbrev RdM : Rounds.Schedule (GSem nD τ sig) (Dev nD) 𝕄 := Rd (Vals.landed m)

def records (K : Dev nD × Fin 47 → ℕ) : sProp 𝕄 :=
  iprop((bigSep Finset.univ fun ck : Dev nD × Fin 47 => cellInv ER (RdM m) (K ck) (kcell ck))
    ∗ bigSep Finset.univ fun ck : Dev nD × Fin 47 => reached ER (kcell ck) 0)

instance records_persistent (K : Dev nD × Fin 47 → ℕ) : BI.Persistent (records m K) := by unfold records; infer_instance

def payToks (c : Dev nD) : sProp 𝕄 :=
  iprop(dutyTok ER (barCell (ynbr c)) 0 c
    ∗ dutyTok ER (barCell (ring c 1)) 0 c
    ∗ dutyTok ER (barCell (ring c 2)) 0 c
    ∗ dutyTok ER (barCell (ring c 3)) 0 c
    ∗ dutyTok ER (barCell (ring c 4)) 0 c
    ∗ dutyTok ER (barCell (ring c 5)) 0 c
    ∗ dutyTok ER (barCell (ring c 6)) 0 c
    ∗ dutyTok ER (barCell (ring c 7)) 0 c
    ∗ dutyTok ER (yoSendCell 0 c) 0 c
    ∗ dutyTok ER (yoRecvCell 0 (ynbr c)) 0 c
    ∗ dutyTok ER (ylSendCell 0 c) 0 c
    ∗ dutyTok ER (ylRecvCell 0 (ynbr c)) 0 c
    ∗ dutyTok ER (yoSendCell 1 c) 0 c
    ∗ dutyTok ER (yoRecvCell 1 (ynbr c)) 0 c
    ∗ dutyTok ER (ylSendCell 1 c) 0 c
    ∗ dutyTok ER (ylRecvCell 1 (ynbr c)) 0 c
    ∗ dutyTok ER (yoSendCell 2 c) 0 c
    ∗ dutyTok ER (yoRecvCell 2 (ynbr c)) 0 c
    ∗ dutyTok ER (ylSendCell 2 c) 0 c
    ∗ dutyTok ER (ylRecvCell 2 (ynbr c)) 0 c
    ∗ dutyTok ER (yoSendCell 3 c) 0 c
    ∗ dutyTok ER (yoRecvCell 3 (ynbr c)) 0 c
    ∗ dutyTok ER (ylSendCell 3 c) 0 c
    ∗ dutyTok ER (ylRecvCell 3 (ynbr c)) 0 c
    ∗ dutyTok ER (bcSendCell ⟨0, by decide⟩ c) 0 c
    ∗ dutyTok ER (bcRecvCell 0 (pFin c) (ring c 1)) 0 c
    ∗ dutyTok ER (bcSendCell ⟨1, by decide⟩ c) 0 c
    ∗ dutyTok ER (bcRecvCell 0 (pFin c) (ring c 2)) 0 c
    ∗ dutyTok ER (bcSendCell ⟨2, by decide⟩ c) 0 c
    ∗ dutyTok ER (bcRecvCell 0 (pFin c) (ring c 3)) 0 c
    ∗ dutyTok ER (bcSendCell ⟨3, by decide⟩ c) 0 c
    ∗ dutyTok ER (bcRecvCell 0 (pFin c) (ring c 4)) 0 c
    ∗ dutyTok ER (bcSendCell ⟨4, by decide⟩ c) 0 c
    ∗ dutyTok ER (bcRecvCell 0 (pFin c) (ring c 5)) 0 c
    ∗ dutyTok ER (bcSendCell ⟨5, by decide⟩ c) 0 c
    ∗ dutyTok ER (bcRecvCell 0 (pFin c) (ring c 6)) 0 c
    ∗ dutyTok ER (bcSendCell ⟨6, by decide⟩ c) 0 c
    ∗ dutyTok ER (bcRecvCell 0 (pFin c) (ring c 7)) 0 c
    ∗ dutyTok ER (bcSendCell ⟨7, by decide⟩ c) 0 c
    ∗ dutyTok ER (bcRecvCell 1 (pFin c) (ring c 1)) 0 c
    ∗ dutyTok ER (bcSendCell ⟨8, by decide⟩ c) 0 c
    ∗ dutyTok ER (bcRecvCell 1 (pFin c) (ring c 2)) 0 c
    ∗ dutyTok ER (bcSendCell ⟨9, by decide⟩ c) 0 c
    ∗ dutyTok ER (bcRecvCell 1 (pFin c) (ring c 3)) 0 c
    ∗ dutyTok ER (bcSendCell ⟨10, by decide⟩ c) 0 c
    ∗ dutyTok ER (bcRecvCell 1 (pFin c) (ring c 4)) 0 c
    ∗ dutyTok ER (bcSendCell ⟨11, by decide⟩ c) 0 c
    ∗ dutyTok ER (bcRecvCell 1 (pFin c) (ring c 5)) 0 c
    ∗ dutyTok ER (bcSendCell ⟨12, by decide⟩ c) 0 c
    ∗ dutyTok ER (bcRecvCell 1 (pFin c) (ring c 6)) 0 c
    ∗ dutyTok ER (bcSendCell ⟨13, by decide⟩ c) 0 c
    ∗ dutyTok ER (bcRecvCell 1 (pFin c) (ring c 7)) 0 c)

def positions (c : Dev nD) : sProp 𝕄 :=
  iprop(atPos ER (barCell c) 0 ∅ 0
    ∗ atPos ER (yoSendCell 0 c) 0 ∅ 0
    ∗ atPos ER (yoRecvCell 0 c) 0 ∅ 0
    ∗ atPos ER (ylSendCell 0 c) 0 ∅ 0
    ∗ atPos ER (ylRecvCell 0 c) 0 ∅ 0
    ∗ atPos ER (yoSendCell 1 c) 0 ∅ 0
    ∗ atPos ER (yoRecvCell 1 c) 0 ∅ 0
    ∗ atPos ER (ylSendCell 1 c) 0 ∅ 0
    ∗ atPos ER (ylRecvCell 1 c) 0 ∅ 0
    ∗ atPos ER (yoSendCell 2 c) 0 ∅ 0
    ∗ atPos ER (yoRecvCell 2 c) 0 ∅ 0
    ∗ atPos ER (ylSendCell 2 c) 0 ∅ 0
    ∗ atPos ER (ylRecvCell 2 c) 0 ∅ 0
    ∗ atPos ER (yoSendCell 3 c) 0 ∅ 0
    ∗ atPos ER (yoRecvCell 3 c) 0 ∅ 0
    ∗ atPos ER (ylSendCell 3 c) 0 ∅ 0
    ∗ atPos ER (ylRecvCell 3 c) 0 ∅ 0
    ∗ atPos ER (bcSendCell ⟨0, by decide⟩ c) 0 ∅ 0
    ∗ atPos ER (bcSendCell ⟨1, by decide⟩ c) 0 ∅ 0
    ∗ atPos ER (bcSendCell ⟨2, by decide⟩ c) 0 ∅ 0
    ∗ atPos ER (bcSendCell ⟨3, by decide⟩ c) 0 ∅ 0
    ∗ atPos ER (bcSendCell ⟨4, by decide⟩ c) 0 ∅ 0
    ∗ atPos ER (bcSendCell ⟨5, by decide⟩ c) 0 ∅ 0
    ∗ atPos ER (bcSendCell ⟨6, by decide⟩ c) 0 ∅ 0
    ∗ atPos ER (bcSendCell ⟨7, by decide⟩ c) 0 ∅ 0
    ∗ atPos ER (bcSendCell ⟨8, by decide⟩ c) 0 ∅ 0
    ∗ atPos ER (bcSendCell ⟨9, by decide⟩ c) 0 ∅ 0
    ∗ atPos ER (bcSendCell ⟨10, by decide⟩ c) 0 ∅ 0
    ∗ atPos ER (bcSendCell ⟨11, by decide⟩ c) 0 ∅ 0
    ∗ atPos ER (bcSendCell ⟨12, by decide⟩ c) 0 ∅ 0
    ∗ atPos ER (bcSendCell ⟨13, by decide⟩ c) 0 ∅ 0
    ∗ atPos ER (bcRecvCell 0 (rj c 0) c) 0 ∅ 0
    ∗ atPos ER (bcRecvCell 0 (rj c 1) c) 0 ∅ 0
    ∗ atPos ER (bcRecvCell 0 (rj c 2) c) 0 ∅ 0
    ∗ atPos ER (bcRecvCell 0 (rj c 3) c) 0 ∅ 0
    ∗ atPos ER (bcRecvCell 0 (rj c 4) c) 0 ∅ 0
    ∗ atPos ER (bcRecvCell 0 (rj c 5) c) 0 ∅ 0
    ∗ atPos ER (bcRecvCell 0 (rj c 6) c) 0 ∅ 0
    ∗ atPos ER (bcRecvCell 0 (rj c 7) c) 0 ∅ 0
    ∗ atPos ER (bcRecvCell 1 (rj c 0) c) 0 ∅ 0
    ∗ atPos ER (bcRecvCell 1 (rj c 1) c) 0 ∅ 0
    ∗ atPos ER (bcRecvCell 1 (rj c 2) c) 0 ∅ 0
    ∗ atPos ER (bcRecvCell 1 (rj c 3) c) 0 ∅ 0
    ∗ atPos ER (bcRecvCell 1 (rj c 4) c) 0 ∅ 0
    ∗ atPos ER (bcRecvCell 1 (rj c 5) c) 0 ∅ 0
    ∗ atPos ER (bcRecvCell 1 (rj c 6) c) 0 ∅ 0
    ∗ atPos ER (bcRecvCell 1 (rj c 7) c) 0 ∅ 0)

def credits (c : Dev nD) : sProp 𝕄 :=
  iprop(cred (tallyAt (barCell c) () 8)
    ∗ cred (tallyAt (yoRecvCell 0 c) () No)
    ∗ cred (tallyAt (ylRecvCell 0 c) () Nl)
    ∗ cred (tallyAt (yoRecvCell 1 c) () No)
    ∗ cred (tallyAt (ylRecvCell 1 c) () Nl)
    ∗ cred (tallyAt (yoRecvCell 2 c) () No)
    ∗ cred (tallyAt (ylRecvCell 2 c) () Nl)
    ∗ cred (tallyAt (yoRecvCell 3 c) () No)
    ∗ cred (tallyAt (ylRecvCell 3 c) () Nl)
    ∗ cred (tallyAt (bcRecvCell 0 (rj c 1) c) () Nb)
    ∗ cred (tallyAt (bcRecvCell 0 (rj c 2) c) () Nb)
    ∗ cred (tallyAt (bcRecvCell 0 (rj c 3) c) () Nb)
    ∗ cred (tallyAt (bcRecvCell 0 (rj c 4) c) () Nb)
    ∗ cred (tallyAt (bcRecvCell 0 (rj c 5) c) () Nb)
    ∗ cred (tallyAt (bcRecvCell 0 (rj c 6) c) () Nb)
    ∗ cred (tallyAt (bcRecvCell 0 (rj c 7) c) () Nb)
    ∗ cred (tallyAt (bcRecvCell 1 (rj c 1) c) () Nb)
    ∗ cred (tallyAt (bcRecvCell 1 (rj c 2) c) () Nb)
    ∗ cred (tallyAt (bcRecvCell 1 (rj c 3) c) () Nb)
    ∗ cred (tallyAt (bcRecvCell 1 (rj c 4) c) () Nb)
    ∗ cred (tallyAt (bcRecvCell 1 (rj c 5) c) () Nb)
    ∗ cred (tallyAt (bcRecvCell 1 (rj c 6) c) () Nb)
    ∗ cred (tallyAt (bcRecvCell 1 (rj c 7) c) () Nb))

def copySems0 (c : Dev nD) : sProp 𝕄 :=
  iprop(semVal ((c : Thread nD τ), SemLoc.dma (2 : DmaSem sig)) 0
    ∗ semVal ((c : Thread nD τ), SemLoc.dma (3 : DmaSem sig)) 0
    ∗ semVal ((c : Thread nD τ), SemLoc.dma (4 : DmaSem sig)) 0
    ∗ semVal ((c : Thread nD τ), SemLoc.dma (5 : DmaSem sig)) 0
    ∗ semVal ((c : Thread nD τ), SemLoc.dma (6 : DmaSem sig)) 0
    ∗ semVal ((c : Thread nD τ), SemLoc.dma (7 : DmaSem sig)) 0
    ∗ semVal ((c : Thread nD τ), SemLoc.dma (8 : DmaSem sig)) 0
    ∗ semVal ((c : Thread nD τ), SemLoc.dma (9 : DmaSem sig)) 0
    ∗ semVal ((c : Thread nD τ), SemLoc.dma (10 : DmaSem sig)) 0
    ∗ semVal ((c : Thread nD τ), SemLoc.dma (11 : DmaSem sig)) 0
    ∗ semVal ((c : Thread nD τ), SemLoc.dma (12 : DmaSem sig)) 0
    ∗ semVal ((c : Thread nD τ), SemLoc.dma (13 : DmaSem sig)) 0
    ∗ semVal ((c : Thread nD τ), SemLoc.dma (14 : DmaSem sig)) 0
    ∗ semVal ((c : Thread nD τ), SemLoc.dma (15 : DmaSem sig)) 0
    ∗ semVal ((c : Thread nD τ), SemLoc.dma (16 : DmaSem sig)) 0
    ∗ semVal ((c : Thread nD τ), SemLoc.dma (17 : DmaSem sig)) 0)

def Osum : List (CellTallies nD τ sig Unit) → CellTallies nD τ sig Unit
  | [] => 0
  | t :: ts => Osum ts + t
theorem Osum_cons (t : CellTallies nD τ sig Unit) (ts : List (CellTallies nD τ sig Unit)) : Osum (t :: ts) = Osum ts + t := rfl

def owedList (c : Dev nD) : List (CellTallies nD τ sig Unit) :=
  [tallyAt (barCell (ynbr c)) () 1,
   tallyAt (barCell (ring c 1)) () 1,
   tallyAt (barCell (ring c 2)) () 1,
   tallyAt (barCell (ring c 3)) () 1,
   tallyAt (barCell (ring c 4)) () 1,
   tallyAt (barCell (ring c 5)) () 1,
   tallyAt (barCell (ring c 6)) () 1,
   tallyAt (barCell (ring c 7)) () 1,
   tallyAt (yoRecvCell 0 (ynbr c)) () No,
   tallyAt (ylRecvCell 0 (ynbr c)) () Nl,
   tallyAt (yoRecvCell 1 (ynbr c)) () No,
   tallyAt (ylRecvCell 1 (ynbr c)) () Nl,
   tallyAt (yoRecvCell 2 (ynbr c)) () No,
   tallyAt (ylRecvCell 2 (ynbr c)) () Nl,
   tallyAt (yoRecvCell 3 (ynbr c)) () No,
   tallyAt (ylRecvCell 3 (ynbr c)) () Nl,
   tallyAt (bcRecvCell 0 (pFin c) (ring c 1)) () Nb,
   tallyAt (bcRecvCell 0 (pFin c) (ring c 2)) () Nb,
   tallyAt (bcRecvCell 0 (pFin c) (ring c 3)) () Nb,
   tallyAt (bcRecvCell 0 (pFin c) (ring c 4)) () Nb,
   tallyAt (bcRecvCell 0 (pFin c) (ring c 5)) () Nb,
   tallyAt (bcRecvCell 0 (pFin c) (ring c 6)) () Nb,
   tallyAt (bcRecvCell 0 (pFin c) (ring c 7)) () Nb,
   tallyAt (bcRecvCell 1 (pFin c) (ring c 1)) () Nb,
   tallyAt (bcRecvCell 1 (pFin c) (ring c 2)) () Nb,
   tallyAt (bcRecvCell 1 (pFin c) (ring c 3)) () Nb,
   tallyAt (bcRecvCell 1 (pFin c) (ring c 4)) () Nb,
   tallyAt (bcRecvCell 1 (pFin c) (ring c 5)) () Nb,
   tallyAt (bcRecvCell 1 (pFin c) (ring c 6)) () Nb,
   tallyAt (bcRecvCell 1 (pFin c) (ring c 7)) () Nb]
def O₀ (c : Dev nD) : CellTallies nD τ sig Unit := Osum (owedList c)

def L (g : GSem nD τ sig) : Finset Unit := if g.1.2 = .tc then {()} else ∅
def lv (g : GSem nD τ sig) (_ : Unit) : ℕ :=
  match kindOf g.2 with
  | .bar => 1 | .yoRecv _ => 2 | .ylRecv _ => 2 | .bcRecv _ _ => 3 | _ => 0

def start (c : Dev nD) : sProp 𝕄 :=
  iprop((∃ K, records m K) ∗ payToks c ∗ positions c ∗ credits c ∗ copySems0 c ∗ levAts L lv)

abbrev whole (c : Dev nD) (b : Ref sig .tc) (f : Buf (Elt F) ((Memref.whole b : Memref sig .tc _ _ _).view.loc (c : Thread nD τ))) : sProp 𝕄 :=
  (Memref.whole b : Memref sig .tc _ _ _).view.loc (c : Thread nD τ) ↦{fullShare} f

def Φ₀ (c : Dev nD) : sProp 𝕄 :=
  iprop(start m c
    ∗ (∃ f, whole c cc0_scratch0 f) ∗ (∃ f, whole c cc0_scratch1 f) ∗ (∃ f, whole c cc0_scratch2 f) ∗ (∃ f, whole c cc0_scratch3 f)
    ∗ (∃ f, whole c cc0_scratch4 f) ∗ (∃ f, whole c cc0_scratch5 f) ∗ (∃ f, whole c cc0_scratch6 f) ∗ (∃ f, whole c cc0_scratch7 f)
    ∗ whole c main_arg1 (m ((c : Thread nD τ).loc main_arg1)) ∗ whole c main_arg2 (m ((c : Thread nD τ).loc main_arg2)))

def Φ₁ (c : Dev nD) : sProp 𝕄 :=
  iprop((∃ f, whole c cc0_scratch0 f) ∗ (∃ f, whole c cc0_scratch1 f) ∗ (∃ f, whole c cc0_scratch2 f) ∗ (∃ f, whole c cc0_scratch3 f)
    ∗ (∃ f, whole c cc0_scratch4 f) ∗ (∃ f, whole c cc0_scratch5 f) ∗ (∃ f, whole c cc0_scratch6 f) ∗ (∃ f, whole c cc0_scratch7 f)
    ∗ whole c main_arg1 (m ((c : Thread nD τ).loc main_arg1)) ∗ whole c main_arg2 (m ((c : Thread nD τ).loc main_arg2))
    ∗ bigSep Finset.univ fun i : Fin 62 => semVal ((c : Thread nD τ), SemLoc.dma (⟨2 + i.val, by show 2 + i.val < 64; have := i.isLt; omega⟩ : DmaSem sig)) 0)

def dats (_ : Fin 1) (c : Dev nD) : Dat τ (Elt F) Unit ℕ UU ℕ cfg0 c where
  A w := m ((cfg0.win w).arr.view.loc (c : Thread nD τ))
  after w _ := match w with
    | ⟨0, _⟩ => Vals.qst m c
    | ⟨1, _⟩ => Vals.out m c
  Φ t := match t with
    | ⟨0, _⟩ => Φ₀ m c
    | ⟨_ + 1, _⟩ => Φ₁ m c
  q _ := fullShare
  owed t := match t with
    | ⟨0, _⟩ => O₀ c
    | ⟨_ + 1, _⟩ => 0

end Cert.KernelIdeal.Iface

end
-- ==== Proof.LaunchGhost.lean ====
import proofs.«900787_g7700000000000788_dist_flashdec_v7x_xyz2x2x4_y_b8_sq8_skv1024_h16_d128_f32_1_alg».proof.Proof.Iface

noncomputable section

namespace Cert.KernelIdeal.LaunchProof

open Cert.KernelIdeal Cert.KernelIdeal.Gen Cert.KernelIdeal.Mesh Cert.KernelIdeal.Proto Cert.KernelIdeal.Iface
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev osem : Fin 62 → SemLoc sig := fun i => .dma ⟨2 + i.val, by show 2 + i.val < 64; have := i.isLt; omega⟩

theorem ownSemFacts : Pipeline.OwnSemFacts cfg0.spec osem := by decide

def kYoSend (g : Fin 4) : Fin 47 := ⟨1 + g.val, by have := g.isLt; omega⟩
def kYoRecv (g : Fin 4) : Fin 47 := ⟨5 + g.val, by have := g.isLt; omega⟩
def kYlSend (g : Fin 4) : Fin 47 := ⟨9 + g.val, by have := g.isLt; omega⟩
def kYlRecv (g : Fin 4) : Fin 47 := ⟨13 + g.val, by have := g.isLt; omega⟩
def kBcSend (i : Fin 14) : Fin 47 := ⟨17 + i.val, by have := i.isLt; omega⟩
def kBcRecv (h : Fin 2) (j : Fin 8) : Fin 47 := ⟨31 + 8 * h.val + j.val, by have := h.isLt; have := j.isLt; omega⟩

theorem csem_yoSend (g : Fin 4) : csem (kYoSend g) = .dma (yoSendS g) := by revert g; decide
theorem csem_yoRecv (g : Fin 4) : csem (kYoRecv g) = .dma (yoRecvS g) := by revert g; decide
theorem csem_ylSend (g : Fin 4) : csem (kYlSend g) = .dma (ylSendS g) := by revert g; decide
theorem csem_ylRecv (g : Fin 4) : csem (kYlRecv g) = .dma (ylRecvS g) := by revert g; decide
theorem csem_bcSend (i : Fin 14) : csem (kBcSend i) = .dma (bcSendS i) := by revert i; decide
theorem csem_bcRecv (h : Fin 2) (j : Fin 8) : csem (kBcRecv h j) = .dma (bcRecvS h j) := by revert h j; decide

theorem csem_natAdd (b : Fin 46) : csem (Fin.natAdd 1 b) = osem (Fin.natAdd 16 b) := by revert b; decide

theorem csem_injective : Function.Injective csem := by
  intro k k' h; revert k k'; decide

theorem kcell_injective : Function.Injective (kcell : Dev nD × Fin 47 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

theorem kcell_zero (c : Dev nD) : kcell (c, (0 : Fin 47)) = barCell c := rfl
theorem kcell_yoSend (c : Dev nD) (g : Fin 4) : kcell (c, kYoSend g) = yoSendCell g c :=
  congrArg (Prod.mk _) (csem_yoSend g)
theorem kcell_yoRecv (c : Dev nD) (g : Fin 4) : kcell (c, kYoRecv g) = yoRecvCell g c :=
  congrArg (Prod.mk _) (csem_yoRecv g)
theorem kcell_ylSend (c : Dev nD) (g : Fin 4) : kcell (c, kYlSend g) = ylSendCell g c :=
  congrArg (Prod.mk _) (csem_ylSend g)
theorem kcell_ylRecv (c : Dev nD) (g : Fin 4) : kcell (c, kYlRecv g) = ylRecvCell g c :=
  congrArg (Prod.mk _) (csem_ylRecv g)
theorem kcell_bcSend (c : Dev nD) (i : Fin 14) : kcell (c, kBcSend i) = bcSendCell i c :=
  congrArg (Prod.mk _) (csem_bcSend i)
theorem kcell_bcRecv (c : Dev nD) (h : Fin 2) (j : Fin 8) : kcell (c, kBcRecv h j) = bcRecvCell h j c :=
  congrArg (Prod.mk _) (csem_bcRecv h j)

def protoCells : Finset (GSem nD τ sig) := Finset.univ.map ⟨kcell, kcell_injective⟩

def payCells (c : Dev nD) : List (GSem nD τ sig) :=
  barCell (ynbr c) :: (List.range 7).map (fun d => barCell (ring c (d + 1)))
    ++ (List.finRange 4).flatMap (fun g => [yoSendCell g c, yoRecvCell g (ynbr c), ylSendCell g c, ylRecvCell g (ynbr c)])
    ++ (List.finRange 14).flatMap (fun i => [bcSendCell i c,
        bcRecvCell ⟨i.val / 7, by have := i.isLt; omega⟩ (pFin c) (ring c (i.val % 7 + 1))])

def payCell (c : Dev nD) (k : Fin 52) : GSem nD τ sig := (payCells c).getD k.val (barCell c)

theorem payCell_inj : ∀ (c : Dev nD) (k k' : Fin 52), payCell c k = payCell c k' → k = k' := by decide +kernel

def payTokOf (ck : Dev nD × Fin 52) : GSem nD τ sig × ℕ × Dev nD := (payCell ck.1 ck.2, 0, ck.1)
theorem payTokOf_injective : Function.Injective payTokOf := by
  rintro ⟨c, k⟩ ⟨c', k'⟩ h
  have h1 : c = c' := congrArg (fun x : GSem nD τ sig × ℕ × Dev nD => x.2.2) h
  subst h1
  have h2 : payCell c k = payCell c k' := congrArg (fun x : GSem nD τ sig × ℕ × Dev nD => x.1) h
  rw [payCell_inj c k k' h2]
def protoToks : Finset (GSem nD τ sig × ℕ × Dev nD) := Finset.univ.map ⟨payTokOf, payTokOf_injective⟩

theorem payToks_eq (c : Dev nD) : (payToks c : sProp 𝕄) = bigSep Finset.univ fun k : Fin 52 => dutyTok ER (payCell c k) 0 c := by
  rw [bigSep_univ_eq_bigSepL (List.finRange 52) (by decide) (by decide)]; rfl

def posList (c : Dev nD) : List (Fin 47) :=
  [0, kYoSend 0, kYoRecv 0, kYlSend 0, kYlRecv 0, kYoSend 1, kYoRecv 1, kYlSend 1, kYlRecv 1, kYoSend 2, kYoRecv 2, kYlSend 2, kYlRecv 2, kYoSend 3, kYoRecv 3, kYlSend 3, kYlRecv 3, kBcSend ⟨0, by decide⟩, kBcSend ⟨1, by decide⟩, kBcSend ⟨2, by decide⟩, kBcSend ⟨3, by decide⟩, kBcSend ⟨4, by decide⟩, kBcSend ⟨5, by decide⟩, kBcSend ⟨6, by decide⟩, kBcSend ⟨7, by decide⟩, kBcSend ⟨8, by decide⟩, kBcSend ⟨9, by decide⟩, kBcSend ⟨10, by decide⟩, kBcSend ⟨11, by decide⟩, kBcSend ⟨12, by decide⟩, kBcSend ⟨13, by decide⟩, kBcRecv 0 (rj c 0), kBcRecv 0 (rj c 1), kBcRecv 0 (rj c 2), kBcRecv 0 (rj c 3), kBcRecv 0 (rj c 4), kBcRecv 0 (rj c 5), kBcRecv 0 (rj c 6), kBcRecv 0 (rj c 7), kBcRecv 1 (rj c 0), kBcRecv 1 (rj c 1), kBcRecv 1 (rj c 2), kBcRecv 1 (rj c 3), kBcRecv 1 (rj c 4), kBcRecv 1 (rj c 5), kBcRecv 1 (rj c 6), kBcRecv 1 (rj c 7)]
theorem posList_nodup : ∀ c : Dev nD, (posList c).Nodup := by decide +kernel
theorem posList_mem : ∀ (c : Dev nD) (k : Fin 47), k ∈ posList c := by decide +kernel
theorem posList_univ (c : Dev nD) : (Finset.univ : Finset (Fin 47)) = (posList c).toFinset :=
  (Finset.eq_univ_of_forall fun k => List.mem_toFinset.mpr (posList_mem c k)).symm

theorem positions_eq (c : Dev nD) : (bigSep Finset.univ fun k : Fin 47 => (atPos ER (kcell (c, k)) 0 ∅ 0 : sProp 𝕄)) = positions c := by
  rw [bigSep_univ_eq_bigSepL (posList c) (posList_univ c) (posList_nodup c)]
  unfold positions posList
  simp only [bigSepL_cons_cons, bigSepL_singleton, kcell_zero, kcell_yoSend, kcell_yoRecv, kcell_ylSend, kcell_ylRecv, kcell_bcSend, kcell_bcRecv]
  rfl

def u₀ : UU :=
  (initOf (Pipeline.cells cfgs cellOf_inj) (Pipeline.launchToks cfgs cellOf_inj), (initOf protoCells protoToks, 1))

def G (c : Dev nD) : sProp 𝕄 :=
  iprop((bigSep Finset.univ fun k : Fin 47 => roundState ER (RdM m) (kcell (c, k)) 0)
    ∗ (bigSep Finset.univ fun k : Fin 47 => iprop(atPos ER (kcell (c, k)) 0 ∅ 0 ∗ reached ER (kcell (c, k)) 0)) ∗ payToks c)

def G' (c : Dev nD) : sProp 𝕄 := iprop((∃ K, records m K) ∗ payToks c ∗ positions c ∗ copySems0 c)

theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun k : Fin 47 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => payToks c := by
    unfold protoToks; rw [bigSep_map, bigSep_univ_prod]
    exact bigSep_congr fun c _ => (payToks_eq c).symm
  iintro HX
  imod (Rounds.fund ER (RdM m) protoCells protoToks) $$ HX with ⟨Hst, Hr, Hat, Htok⟩
  imodintro
  ihave Hst' := (Entails.of_eq (hX fun g => roundState ER (RdM m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  iframe

theorem fund_u₀ : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave H2 := (own_pair_emb _ _ _) $$ HX
  icases H2 with ⟨HR, -⟩
  imod (fund_proto m) $$ HR with HG
  imodintro
  isplitl [HP] <;> iassumption

theorem unscopedSems0_eq (c : Dev nD) : (unscopedSems0 c : sProp 𝕄) = semVal (barCell c) 0 := by
  unfold unscopedSems0; rw [bigSep_eq_bigSepL_of_eq [SemLoc.reg barS] (by decide) (by decide)]; rfl

theorem ownSems0_split (c : Dev nD) :
    (Pipeline.ownSems0 (Ix := Unit) (Name := ℕ) (U := UU) (Lvl := ℕ) (Val := Elt F) (τ := τ) osem c : sProp 𝕄)
      = iprop(copySems0 c ∗ bigSep Finset.univ fun b : Fin 46 => semVal ((c : Thread nD τ), osem (Fin.natAdd 16 b)) 0) := by
  unfold Pipeline.ownSems0
  rw [bigSep_univ_equiv (finSumFinEquiv : Fin 16 ⊕ Fin 46 ≃ Fin 62), bigSep_univ_sum,
    bigSep_univ_eq_bigSepL ([0, 1, 2, 3, 4, 5, 6, 7, 8, 9, 10, 11, 12, 13, 14, 15] : List (Fin 16)) (by decide) (by decide)]
  rfl

theorem cells_split (c : Dev nD) (Φ : GSem nD τ sig → sProp 𝕄) :
    (bigSep Finset.univ fun k : Fin 47 => Φ (kcell (c, k)))
      = iprop(Φ (barCell c) ∗ bigSep Finset.univ fun b : Fin 46 => Φ ((c : Thread nD τ), osem (Fin.natAdd 16 b))) := by
  rw [bigSep_univ_equiv (finSumFinEquiv : Fin 1 ⊕ Fin 46 ≃ Fin 47), bigSep_univ_sum,
    bigSep_univ_eq_bigSepL [(0 : Fin 1)] (by decide) (by decide)]
  refine congrArg₂ _ rfl (bigSep_congr fun b _ => ?_)
  show Φ ((c : Thread nD τ), csem (Fin.natAdd 1 b)) = _
  rw [csem_natAdd]

theorem sems0_eq (c : Dev nD) :
    iprop(Pipeline.ownSems0 (Ix := Unit) (Name := ℕ) (U := UU) (Lvl := ℕ) (Val := Elt F) (τ := τ) osem c ∗ unscopedSems0 c)
      ⊢ iprop(copySems0 c ∗ bigSep Finset.univ fun k : Fin 47 => semVal (kcell (c, k)) 0 : sProp 𝕄) := by
  rw [ownSems0_split, unscopedSems0_eq, cells_split c (fun g => semVal g 0)]
  iintro ⟨⟨HC, HS⟩, HB⟩
  iframe

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 47 => iprop(∃ κ : ℕ, cellInv ER (RdM m) κ (kcell (c, k))))
          ∗ (bigSep Finset.univ fun k : Fin 47 => iprop(atPos ER (kcell (c, k)) 0 ∅ 0 ∗ reached ER (kcell (c, k)) 0)) ∗ payToks c ∗ copySems0 c) := by
  unfold G
  iintro ⟨Hos, Hus, Hst, Hat, Htok⟩
  ihave Hv := (sems0_eq (F := F) c) $$ [Hos Hus]
  · isplitl [Hos] <;> iassumption
  icases Hv with ⟨Hcp, Hv⟩
  imod (show iprop((bigSep Finset.univ fun k : Fin 47 => semVal (kcell (c, k)) 0) ∗ bigSep Finset.univ fun k : Fin 47 => roundState ER (RdM m) (kcell (c, k)) 0)
      ⊢ (|={Set.univ}=> bigSep Finset.univ fun k : Fin 47 => iprop(∃ κ : ℕ, cellInv ER (RdM m) κ (kcell (c, k))) : sProp 𝕄) from by
        rw [← bigSep_sep']
        exact (bigSep_mono fun k _ => (Rounds.body_intro ER (RdM m) (kcell (c, k))).trans inv_alloc).trans (bigSep_fupd _ _)) $$ [Hv Hst] with Hinv
  · isplitl [Hv] <;> iassumption
  imodintro
  iframe

def linear (c : Dev nD) : sProp 𝕄 :=
  iprop((bigSep Finset.univ fun k : Fin 47 => atPos ER (kcell (c, k)) 0 ∅ 0) ∗ payToks c ∗ copySems0 c)

theorem ghost_intro (K : Dev nD × Fin 47 → ℕ) (c : Dev nD) : iprop(records m K ∗ linear c) ⊢ G' m c := by
  unfold linear G'
  rw [positions_eq]
  iintro ⟨#HR, Hp, Ht, Hc⟩
  isplitr; · iexists K; iexact HR
  isplitl [Ht]; · iexact Ht
  isplitl [Hp]; · iexact Hp
  iexact Hc

theorem regroup :
    (bigSep Finset.univ fun c : Dev nD => iprop((bigSep Finset.univ fun k : Fin 47 => iprop(∃ κ : ℕ, cellInv ER (RdM m) κ (kcell (c, k))))
          ∗ (bigSep Finset.univ fun k : Fin 47 => iprop(atPos ER (kcell (c, k)) 0 ∅ 0 ∗ reached ER (kcell (c, k)) 0)) ∗ payToks c ∗ copySems0 c) : sProp 𝕄)
      ⊢ bigSep Finset.univ (G' m) := by
  rw [bigSep_sep', bigSep_sep', bigSep_sep', ← bigSep_univ_prod (fun ck : Dev nD × Fin 47 => iprop(∃ κ : ℕ, cellInv ER (RdM m) κ (kcell ck))),
    bigSep_congr (s := Finset.univ) (fun (c : Dev nD) _ => bigSep_sep' Finset.univ (fun k : Fin 47 => (atPos ER (kcell (c, k)) 0 ∅ 0 : sProp 𝕄)) (fun k => reached ER (kcell (c, k)) 0)),
    bigSep_sep', ← bigSep_univ_prod (fun ck : Dev nD × Fin 47 => (reached ER (kcell ck) 0 : sProp 𝕄))]
  iintro ⟨HI, ⟨Hat, #HR⟩, Htok, Hcp⟩
  ihave HK := (BI.bigSep_exists_pi Finset.univ (fun (ck : Dev nD × Fin 47) (κ : ℕ) => (cellInv ER (RdM m) κ (kcell ck) : sProp 𝕄))) $$ HI
  icases HK with ⟨%K, #HI⟩
  iapply (bigSep_with_persistent (R := records m K) fun c _ => ghost_intro m K c)
  isplitr
  · unfold records; isplitl; · iexact HI
    iexact HR
  · iapply (Entails.of_eq (show (bigSep Finset.univ fun c : Dev nD => (linear c : sProp 𝕄))
        = iprop((bigSep Finset.univ fun c : Dev nD => bigSep Finset.univ fun k : Fin 47 => (atPos ER (kcell (c, k)) 0 ∅ 0 : sProp 𝕄))
            ∗ (bigSep Finset.univ fun c : Dev nD => (payToks c : sProp 𝕄)) ∗ bigSep Finset.univ fun c : Dev nD => (copySems0 c : sProp 𝕄)) from by
          unfold linear; rw [bigSep_sep', bigSep_sep']).symm)
    iframe

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- info: 'Cert.KernelIdeal.LaunchProof.glob' depends on axioms: [propext, Classical.choice, Quot.sound] -/
#guard_msgs in #print axioms glob

end Cert.KernelIdeal.LaunchProof

end
-- ==== Proof.Levels.lean ====
import proofs.«900787_g7700000000000788_dist_flashdec_v7x_xyz2x2x4_y_b8_sq8_skv1024_h16_d128_f32_1_alg».proof.Proof.Iface

noncomputable section

namespace Cert.KernelIdeal.Levels

open Cert.KernelIdeal Cert.KernelIdeal.Gen Cert.KernelIdeal.Mesh Cert.KernelIdeal.Proto Cert.KernelIdeal.Iface
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem L_tc (c : Dev nD) (sm : SemLoc sig) : L ((c : Thread nD τ), sm) = {()} := if_pos rfl
theorem L_of_ne (g : GSem nD τ sig) (h : g.1.2 ≠ .tc) : L g = ∅ := if_neg h

theorem kindOfDma_low (s : DmaSem sig) (hs : s.val < 18) : kindOfDma s = .other := by
  unfold kindOfDma
  rw [dif_neg (by omega), dif_neg (by omega), dif_neg (by omega), dif_neg (by omega), dif_neg (by omega), dif_neg (by omega)]

theorem lv_bar (c : Dev nD) : lv (barCell c) () = 1 := by simp only [lv, kindOf]
theorem lv_dma_low (c : Dev nD) (s : DmaSem sig) (hs : s.val < 18) : lv ((c : Thread nD τ), SemLoc.dma s) () = 0 := by
  simp only [lv, kindOf, kindOfDma_low s hs]
theorem lv_yoRecv (g : Fin 4) (c : Dev nD) : lv (yoRecvCell g c) () = 2 := by simp only [lv, kindOf_yoRecv]
theorem lv_ylRecv (g : Fin 4) (c : Dev nD) : lv (ylRecvCell g c) () = 2 := by simp only [lv, kindOf_ylRecv]
theorem lv_bcRecv (h : Fin 2) (j : Fin 8) (c : Dev nD) : lv (bcRecvCell h j c) () = 3 := by simp only [lv, kindOf_bcRecv]

theorem Osum_pos {ts : List (CellTallies nD τ sig Unit)} {g : GSem nD τ sig} {i : Unit} (h : 0 < Osum ts g i) :
    ∃ t ∈ ts, 0 < t g i := by
  induction ts with
  | nil => exact absurd h (Nat.lt_irrefl 0)
  | cons t ts ih =>
    rw [Osum_cons] at h
    rcases Pipeline.add_pos_cases h with h | h
    · obtain ⟨t', ht', hp⟩ := ih h
      exact ⟨t', List.mem_cons_of_mem _ ht', hp⟩
    · exact ⟨t, List.mem_cons.mpr (Or.inl rfl), h⟩

def Above (b : ℕ) (t : CellTallies nD τ sig Unit) : Prop :=
  ∃ (d : Dev nD) (sm : SemLoc sig) (k : ℕ), t = tallyAt ((d : Thread nD τ), sm) () k ∧ b < lv ((d : Thread nD τ), sm) ()

theorem mayWait_above (c : Dev nD) (sm : SemLoc sig) (b : ℕ) (hsm : lv ((c : Thread nD τ), sm) () ≤ b)
    (ts : List (CellTallies nD τ sig Unit)) (hts : ∀ t ∈ ts, Above b t) :
    (levAts L lv : sProp 𝕄) ⊢ MayWait (c : Thread nD τ) sm () (Osum ts) :=
  Pipeline.mayWait_of_levAts (by rw [L_tc]; exact Finset.mem_singleton_self _) (fun g i hg => by
    obtain ⟨t, ht, hpos⟩ := Osum_pos hg
    obtain ⟨d, s', k, rfl, hlt⟩ := hts t ht
    obtain ⟨rfl, rfl⟩ := Pipeline.tallyAt_pos hpos
    exact ⟨by rw [L_tc]; exact Finset.mem_singleton_self _, lt_of_le_of_lt hsm hlt⟩)

-- Every owed tally sits at a TensorCore cell of level at least 1, from the ninth on at least 2, from the seventeenth on 3.
theorem above_owed (c : Dev nD) : (∀ t ∈ owedList c, Above 0 t) ∧ (∀ t ∈ (owedList c).drop 8, Above 1 t) ∧ (∀ t ∈ (owedList c).drop 16, Above 2 t) := by
  refine ⟨?_, ?_, ?_⟩ <;> intro t ht <;>
    simp only [owedList, List.drop_succ_cons, List.drop_zero, List.mem_cons, List.mem_nil_iff, or_false] at ht <;>
    casesm* _ ∨ _ <;> subst_vars <;> first
      | exact ⟨_, _, _, rfl, by rw [lv_bar]; decide⟩
      | exact ⟨_, _, _, rfl, by rw [lv_yoRecv]; decide⟩
      | exact ⟨_, _, _, rfl, by rw [lv_ylRecv]; decide⟩
      | exact ⟨_, _, _, rfl, by rw [lv_bcRecv]; decide⟩

theorem mayWait_low (c : Dev nD) (sm : SemLoc sig) (hsm : lv ((c : Thread nD τ), sm) () = 0) (n : ℕ) :
    (levAts L lv : sProp 𝕄) ⊢ MayWait (c : Thread nD τ) sm () (Osum ((owedList c).drop n)) :=
  mayWait_above c sm 0 (le_of_eq hsm) _ (fun t ht => (above_owed c).1 t (List.mem_of_mem_drop ht))

theorem mayWait_bar (c : Dev nD) (n : ℕ) (hn : 8 ≤ n) :
    (levAts L lv : sProp 𝕄) ⊢ MayWait (c : Thread nD τ) (.reg barS) () (Osum ((owedList c).drop n)) :=
  mayWait_above c (.reg barS) 1 (le_of_eq (lv_bar c)) _ (fun t ht => (above_owed c).2.1 t ((List.drop_sublist_drop_left _ hn).subset ht))

theorem mayWait_mid (c : Dev nD) (sm : SemLoc sig) (hsm : lv ((c : Thread nD τ), sm) () = 2) (n : ℕ) (hn : 16 ≤ n) :
    (levAts L lv : sProp 𝕄) ⊢ MayWait (c : Thread nD τ) sm () (Osum ((owedList c).drop n)) :=
  mayWait_above c sm 2 (le_of_eq hsm) _ (fun t ht => (above_owed c).2.2 t ((List.drop_sublist_drop_left _ hn).subset ht))

end Cert.KernelIdeal.Levels

end
-- ==== Proof.LaunchCred.lean ====
import proofs.«900787_g7700000000000788_dist_flashdec_v7x_xyz2x2x4_y_b8_sq8_skv1024_h16_d128_f32_1_alg».proof.Proof.Levels

noncomputable section

namespace Cert.KernelIdeal.LaunchProof

open Cert.KernelIdeal Cert.KernelIdeal.Gen Cert.KernelIdeal.Mesh Cert.KernelIdeal.Proto Cert.KernelIdeal.Iface
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem mayWait_stage (c : Dev nD) (q : DmaSem sig) (hq : kindOf (SemLoc.dma q : SemLoc sig) = Kind.other) (O : CellTallies nD τ sig Unit) (hO : O = O₀ c ∨ O = 0) :
    (levAts L lv : sProp 𝕄) ⊢ MayWait (c : Thread nD τ) (.dma q) () O := by
  rcases hO with rfl | rfl
  · exact Levels.mayWait_low c (.dma q) (by simp only [lv, hq]) 0
  · rw [MayWait_zero]; iintro -; iempintro

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

theorem launchCred_at (sm : Dev nD → SemLoc sig) (f finv : Dev nD → Dev nD) (h1 : ∀ c, f (finv c) = c) (h2 : ∀ d, finv (f d) = d) (n : ℕ) (c : Dev nD) :
    (Pipeline.launchCred (fun d => tallyAt (((f d : Dev nD) : Thread nD τ), sm (f d)) () n) c : sProp 𝕄) ⊢ cred (tallyAt ((c : Thread nD τ), sm c) () n) := by
  refine (Pipeline.launchCred_elim _ c (sm c)).trans (Entails.of_eq (congrArg cred ?_))
  rw [Pipeline.tallyOn_launchCredit_owing]
  unfold tallyAt
  refine congrArg _ ?_
  rw [Finset.sum_apply]
  have h0 : ∀ d ∈ (Finset.univ : Finset (Dev nD)), d ≠ finv c →
      tallyOn (nD := nD) (sig := sig) (((f d : Dev nD) : Thread nD τ), sm (f d)) (Finsupp.single () n) ((c : Thread nD τ), sm c) = 0 := fun d _ hd => by
    unfold tallyOn
    refine Pi.single_eq_of_ne (fun h => hd ?_) _
    have h3 : c = f d := congrArg (fun g : GSem nD τ sig => g.1.1) h
    rw [h3, h2]
  rw [Finset.sum_eq_single (finv c) h0 (fun h => absurd (Finset.mem_univ _) h)]
  unfold tallyOn
  rw [h1, Pi.single_eq_same]

theorem credY (s : SemLoc sig) (n : ℕ) (c : Dev nD) :
    (Pipeline.launchCred (fun d => tallyAt (((ynbr d : Dev nD) : Thread nD τ), s) () n) c : sProp 𝕄) ⊢ cred (tallyAt ((c : Thread nD τ), s) () n) :=
  launchCred_at (fun _ => s) ynbr ynbr ynbr_ynbr ynbr_ynbr n c

theorem credR (k : ℕ) (hk : k < 8) (s : SemLoc sig) (n : ℕ) (c : Dev nD) :
    (Pipeline.launchCred (fun d => tallyAt (((ring d k : Dev nD) : Thread nD τ), s) () n) c : sProp 𝕄) ⊢ cred (tallyAt ((c : Thread nD τ), s) () n) :=
  launchCred_at (fun _ => s) (fun d => ring d k) (fun d => ring d (8 - k)) (fun c => ring_ring' c ⟨k, hk⟩) (fun d => ring_ring d ⟨k, hk⟩) n c

theorem pFin_ring : ∀ (d : Dev nD) (k : Fin 8), pFin d = rj (ring d k.val) (8 - k.val) := by decide +kernel

theorem credB (h : Fin 2) (k k' : ℕ) (hk : k < 8) (hk' : k' = 8 - k) (c : Dev nD) :
    (Pipeline.launchCred (fun d => tallyAt (bcRecvCell h (pFin d) (ring d k)) () Nb) c : sProp 𝕄) ⊢ cred (tallyAt (bcRecvCell h (rj c k') c) () Nb) := by
  subst hk'
  rw [show (fun d : Dev nD => (tallyAt (bcRecvCell h (pFin d) (ring d k)) () Nb : CellTallies nD τ sig Unit))
      = fun d => tallyAt (((ring d k : Dev nD) : Thread nD τ), (fun e : Dev nD => SemLoc.dma (bcRecvS h (rj e (8 - k)))) (ring d k)) () Nb from
    funext fun d => by
      show tallyAt (bcRecvCell h (pFin d) (ring d k)) () Nb = tallyAt (bcRecvCell h (rj (ring d k) (8 - k)) (ring d k)) () Nb
      rw [← pFin_ring d ⟨k, hk⟩]]
  exact launchCred_at (fun e : Dev nD => SemLoc.dma (bcRecvS h (rj e (8 - k)))) (fun d => ring d k) (fun d => ring d (8 - k)) (fun c => ring_ring' c ⟨k, hk⟩) (fun d => ring_ring d ⟨k, hk⟩) Nb c

theorem cred_tallyAt_add (g : GSem nD τ sig) (a b : ℕ) :
    iprop(cred (tallyAt g () a) ∗ cred (tallyAt g () b)) ⊢ (cred (tallyAt g () (a + b)) : sProp 𝕄) := by
  rw [show (tallyAt g () (a + b) : CellTallies nD τ sig Unit) = tallyAt g () a + tallyAt g () b from by
    unfold tallyAt; rw [Finsupp.single_add, tallyOn_add]]
  exact (cred_add _ _).2

-- The owed tallies are a sum of thirty; the launch credit of a sum is the ∗ of the launch credits, each paid at its own cell.
theorem creds (c : Dev nD) : (Pipeline.launchCred O₀ c : sProp 𝕄) ⊢ credits c := by
  show (Pipeline.launchCred (fun d => Osum (owedList d)) c : sProp 𝕄) ⊢ _
  simp only [owedList, Osum, Pipeline.launchCred_add, Pipeline.launchCred_zero]
  unfold credits
  iintro ⟨⟨⟨⟨⟨⟨⟨⟨⟨⟨⟨⟨⟨⟨⟨⟨⟨⟨⟨⟨⟨⟨⟨⟨⟨⟨⟨⟨⟨⟨-, R1_7⟩, R1_6⟩, R1_5⟩, R1_4⟩, R1_3⟩, R1_2⟩, R1_1⟩, R0_7⟩, R0_6⟩, R0_5⟩, R0_4⟩, R0_3⟩, R0_2⟩, R0_1⟩, Yl3⟩, Yo3⟩, Yl2⟩, Yo2⟩, Yl1⟩, Yo1⟩, Yl0⟩, Yo0⟩, B7⟩, B6⟩, B5⟩, B4⟩, B3⟩, B2⟩, B1⟩, B0⟩
  ihave B0 := (credY (.reg barS) 1 c) $$ B0
  ihave B1 := (credR 1 (by decide) (.reg barS) 1 c) $$ B1
  ihave B2 := (credR 2 (by decide) (.reg barS) 1 c) $$ B2
  ihave B3 := (credR 3 (by decide) (.reg barS) 1 c) $$ B3
  ihave B4 := (credR 4 (by decide) (.reg barS) 1 c) $$ B4
  ihave B5 := (credR 5 (by decide) (.reg barS) 1 c) $$ B5
  ihave B6 := (credR 6 (by decide) (.reg barS) 1 c) $$ B6
  ihave B7 := (credR 7 (by decide) (.reg barS) 1 c) $$ B7
  ihave Yo0 := (credY (.dma (yoRecvS 0)) No c) $$ Yo0
  ihave Yl0 := (credY (.dma (ylRecvS 0)) Nl c) $$ Yl0
  ihave Yo1 := (credY (.dma (yoRecvS 1)) No c) $$ Yo1
  ihave Yl1 := (credY (.dma (ylRecvS 1)) Nl c) $$ Yl1
  ihave Yo2 := (credY (.dma (yoRecvS 2)) No c) $$ Yo2
  ihave Yl2 := (credY (.dma (ylRecvS 2)) Nl c) $$ Yl2
  ihave Yo3 := (credY (.dma (yoRecvS 3)) No c) $$ Yo3
  ihave Yl3 := (credY (.dma (ylRecvS 3)) Nl c) $$ Yl3
  ihave R0_1 := (credB 0 1 7 (by decide) rfl c) $$ R0_1
  ihave R0_2 := (credB 0 2 6 (by decide) rfl c) $$ R0_2
  ihave R0_3 := (credB 0 3 5 (by decide) rfl c) $$ R0_3
  ihave R0_4 := (credB 0 4 4 (by decide) rfl c) $$ R0_4
  ihave R0_5 := (credB 0 5 3 (by decide) rfl c) $$ R0_5
  ihave R0_6 := (credB 0 6 2 (by decide) rfl c) $$ R0_6
  ihave R0_7 := (credB 0 7 1 (by decide) rfl c) $$ R0_7
  ihave R1_1 := (credB 1 1 7 (by decide) rfl c) $$ R1_1
  ihave R1_2 := (credB 1 2 6 (by decide) rfl c) $$ R1_2
  ihave R1_3 := (credB 1 3 5 (by decide) rfl c) $$ R1_3
  ihave R1_4 := (credB 1 4 4 (by decide) rfl c) $$ R1_4
  ihave R1_5 := (credB 1 5 3 (by decide) rfl c) $$ R1_5
  ihave R1_6 := (credB 1 6 2 (by decide) rfl c) $$ R1_6
  ihave R1_7 := (credB 1 7 1 (by decide) rfl c) $$ R1_7
  ihave B := (cred_tallyAt_add (barCell c) 1 1) $$ [B0 B1]
  · iframe
  ihave B := (cred_tallyAt_add (barCell c) 2 1) $$ [B B2]
  · iframe
  ihave B := (cred_tallyAt_add (barCell c) 3 1) $$ [B B3]
  · iframe
  ihave B := (cred_tallyAt_add (barCell c) 4 1) $$ [B B4]
  · iframe
  ihave B := (cred_tallyAt_add (barCell c) 5 1) $$ [B B5]
  · iframe
  ihave B := (cred_tallyAt_add (barCell c) 6 1) $$ [B B6]
  · iframe
  ihave B := (cred_tallyAt_add (barCell c) 7 1) $$ [B B7]
  · iframe
  isplitl [B]; · iexact B
  iframe

/-- info: 'Cert.KernelIdeal.LaunchProof.creds' depends on axioms: [propext, Classical.choice, Quot.sound] -/
#guard_msgs in #print axioms creds

end Cert.KernelIdeal.LaunchProof

end
-- ==== Proof.Launch.lean ====
import proofs.«900787_g7700000000000788_dist_flashdec_v7x_xyz2x2x4_y_b8_sq8_skv1024_h16_d128_f32_1_alg».proof.Proof.LaunchGhost
import proofs.«900787_g7700000000000788_dist_flashdec_v7x_xyz2x2x4_y_b8_sq8_skv1024_h16_d128_f32_1_alg».proof.Proof.LaunchCred

noncomputable section

namespace Cert.KernelIdeal.LaunchProof

open Cert.KernelIdeal Cert.KernelIdeal.Gen Cert.KernelIdeal.Mesh Cert.KernelIdeal.Proto Cert.KernelIdeal.Iface
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem share_eq (c : Dev nD) (w : Fin cfg0.W) : (dats m 0 c).share w = fullShare := by unfold Dat.share; split <;> rfl

def X (c : Dev nD) : sProp 𝕄 :=
  iprop(start m c ∗ whole c main_arg1 (m ((c : Thread nD τ).loc main_arg1)) ∗ whole c main_arg2 (m ((c : Thread nD τ).loc main_arg2)))

def Y (c : Dev nD) : sProp 𝕄 :=
  iprop(whole c main_arg1 (m ((c : Thread nD τ).loc main_arg1)) ∗ whole c main_arg2 (m ((c : Thread nD τ).loc main_arg2)))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  rw [Pipeline.unscopedRestP_none, unscopedRest0_eq]
  iintro ⟨⟨H1, H2⟩, Hlev, Hcr, -, HG⟩
  ihave Hc := (creds (F := F) c) $$ Hcr
  imodintro
  unfold X start G'
  icases HG with ⟨HK, Ht, Hp, Hcp⟩
  iframe

theorem phi0_intro (c : Dev nD) :
    iprop(X m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ X
  iintro ⟨⟨Hs, Ha1, Ha2⟩, -, ⟨S0, S1, S2, S3, S4, S5, S6, S7⟩⟩
  iframe

theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, scopedRest0_eq]
  unfold Φ₁ Y Pipeline.ownSems0
  iintro ⟨S0, S1, S2, S3, S4, S5, S6, S7, Ha1, Ha2, Hz⟩
  iframe

set_option maxRecDepth 65536 in

theorem run_main (hbody : ∀ c, BodyObligation (dats (F := F) m 0 c) (defs₀ (F := F)) 𝒱₀ () Set.univ) :
    θ_run defs (onTc (τ := τ) (main (F := F))) (s₀ m ρ) (fun r => ∀ c : Dev nD,
      (∀ w : Fin cfg0.W, r.2.mem ((cfg0.win w).arr.view.loc (c : Thread nD τ)) = (dats m 0 c).arrAt w cfg0.N)
      ∧ r.2.mem ((c : Thread nD τ).loc main_arg1) = m ((c : Thread nD τ).loc main_arg1)
      ∧ r.2.mem ((c : Thread nD τ).loc main_arg2) = m ((c : Thread nD τ).loc main_arg2)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := fun _ h => if_neg h) (hwaits := waits m)
    (G := G m) (G' := G' m) (u₀ := u₀)
    (hu₀ := fund_u₀ m)
    (hglob := glob m)
    (hA := fun _ _ => rfl) (hpf := fun _ k => k.elim0)
    (X := X m) (Y := Y m) (Z := fun _ => iprop(emp))
    (hX := start_intro m ρ) (hin := phi0_intro m) (hout := phi1_exit m)
    (QY := fun c s => s.mem ((c : Thread nD τ).loc main_arg1) = m ((c : Thread nD τ).loc main_arg1)
      ∧ s.mem ((c : Thread nD τ).loc main_arg2) = m ((c : Thread nD τ).loc main_arg2))
    (hY := fun c s' => by
      unfold Y
      iintro ⟨⟨H1, H2⟩, -, HSI⟩
      icombine HSI H1 gives %h1
      icombine HSI H2 gives %h2
      imodintro
      isplitr; · ipureintro; exact ⟨Buf.eq_of_forall_mem_univ h1, Buf.eq_of_forall_mem_univ h2⟩
      iexact HSI)
    (hQ := fun _ h c => ⟨fun w => (h c).1 w, (h c).2.2⟩)

/-- info: 'Cert.KernelIdeal.LaunchProof.run_main' depends on axioms: [propext, Classical.choice, Quot.sound] -/
#guard_msgs in #print axioms run_main

theorem finalA_arg0 (c : Dev nD) : (dats m 0 c).arrAt (0 : Fin 2) cfg0.N = m ((c : Thread nD τ).loc main_arg0) :=
  (dats (F := F) m 0 c).arrAt_in (0 : Fin 2) rfl _

theorem finalA_out (c : Dev nD) : (dats m 0 c).arrAt (1 : Fin 2) cfg0.N = Vals.out m c := by
  have h := (dats (F := F) m 0 c).arrAt_succ (1 : Fin 2) t0_0
  rw [show (Pipeline.Window.flush (cfg0.win (1 : Fin 2)) t0_0) = true from by decide, if_pos rfl] at h
  refine h.trans ?_
  exact Memref.write_access_unit_zero_univ (Elt F) main_v1 (funext fun a => Nat.zero_mul _) _ _ _

end Cert.KernelIdeal.LaunchProof

end
-- ==== Proof.MeshK.lean ====
import proofs.«900787_g7700000000000788_dist_flashdec_v7x_xyz2x2x4_y_b8_sq8_skv1024_h16_d128_f32_1_alg».proof.Proof.Gen.Kernel

set_option Elab.async false

namespace Cert.Kernel.Mesh

open Idealize.ShloMosaic Cert.Kernel Cert.Kernel.Gen

def yOf (c : Dev nD) : Nat := (c.val / 4) % 2

def pOf (c : Dev nD) : Nat := if c.val / 8 = 0 then c.val % 4 else 7 - c.val % 4

def devAt (y j : Nat) : Nat := (if j % 8 < 4 then 0 else 8) + 4 * (y % 2) + (if j % 8 < 4 then j % 8 else 7 - j % 8)

theorem devAt_lt (y j : Nat) : devAt y j < nD := by
  show devAt y j < 16
  unfold devAt; have := Nat.mod_lt y (show 0 < 2 by decide); have := Nat.mod_lt j (show 0 < 8 by decide)
  split <;> omega

def plane (c : Dev nD) (j : Nat) : Dev nD := ⟨devAt (yOf c) j, devAt_lt _ _⟩

def ring (c : Dev nD) (d : Nat) : Dev nD := plane c (pOf c + d)

def ynbr (c : Dev nD) : Dev nD := ⟨devAt (yOf c + 1) (pOf c), devAt_lt _ _⟩

theorem pOf_lt (c : Dev nD) : pOf c < 8 := by revert c; decide
theorem yOf_lt (c : Dev nD) : yOf c < 2 := by revert c; decide
theorem ynbr_ynbr (c : Dev nD) : ynbr (ynbr c) = c := by revert c; decide
theorem pOf_ynbr (c : Dev nD) : pOf (ynbr c) = pOf c := by revert c; decide
theorem plane_pOf (c : Dev nD) : plane c (pOf c) = c := by revert c; decide
theorem pOf_plane (c : Dev nD) (j : Fin 8) : pOf (plane c j.val) = j.val := by revert c j; decide
theorem pOf_ring (c : Dev nD) (d : Fin 8) : pOf (ring c d.val) = (pOf c + d.val) % 8 := by revert c d; decide
theorem ring_ring (c : Dev nD) (d : Fin 8) : ring (ring c d.val) (8 - d.val) = c := by revert c d; decide
theorem ring_ring' (c : Dev nD) (d : Fin 8) : ring (ring c (8 - d.val)) d.val = c := by revert c d; decide
theorem ring_ne (c : Dev nD) (d : Fin 8) (hd : d.val ≠ 0) : ring c d.val ≠ c := by revert c d; decide
theorem ring_ne_ynbr (c : Dev nD) (d : Fin 8) : ring c d.val ≠ ynbr c := by revert c d; decide
theorem dev1_eq (c : Dev nD) : (⟨k0_dev1 c, k0_dev1_lt c⟩ : Dev nD) = ynbr c := by revert c; decide +kernel
theorem dev2_eq (c : Dev nD) : (⟨k0_dev2 c, k0_dev2_lt c⟩ : Dev nD) = ring c 1 := by revert c; decide +kernel
theorem dev3_eq (c : Dev nD) : (⟨k0_dev3 c, k0_dev3_lt c⟩ : Dev nD) = ring c 2 := by revert c; decide +kernel
theorem dev4_eq (c : Dev nD) : (⟨k0_dev4 c, k0_dev4_lt c⟩ : Dev nD) = ring c 3 := by revert c; decide +kernel
theorem dev5_eq (c : Dev nD) : (⟨k0_dev5 c, k0_dev5_lt c⟩ : Dev nD) = ring c 4 := by revert c; decide +kernel
theorem dev6_eq (c : Dev nD) : (⟨k0_dev6 c, k0_dev6_lt c⟩ : Dev nD) = ring c 5 := by revert c; decide +kernel
theorem dev7_eq (c : Dev nD) : (⟨k0_dev7 c, k0_dev7_lt c⟩ : Dev nD) = ring c 6 := by revert c; decide +kernel
theorem dev8_eq (c : Dev nD) : (⟨k0_dev8 c, k0_dev8_lt c⟩ : Dev nD) = ring c 7 := by revert c; decide +kernel
theorem dev9_eq (c : Dev nD) : (⟨k0_dev9 c, k0_dev9_lt c⟩ : Dev nD) = ynbr c := by revert c; decide +kernel
theorem dev10_eq (c : Dev nD) : (⟨k0_dev10 c, k0_dev10_lt c⟩ : Dev nD) = ynbr c := by revert c; decide +kernel
theorem dev11_eq (c : Dev nD) : (⟨k0_dev11 c, k0_dev11_lt c⟩ : Dev nD) = ynbr c := by revert c; decide +kernel
theorem dev12_eq (c : Dev nD) : (⟨k0_dev12 c, k0_dev12_lt c⟩ : Dev nD) = ynbr c := by revert c; decide +kernel
theorem dev13_eq (c : Dev nD) : (⟨k0_dev13 c, k0_dev13_lt c⟩ : Dev nD) = ynbr c := by revert c; decide +kernel
theorem dev14_eq (c : Dev nD) : (⟨k0_dev14 c, k0_dev14_lt c⟩ : Dev nD) = ynbr c := by revert c; decide +kernel
theorem dev15_eq (c : Dev nD) : (⟨k0_dev15 c, k0_dev15_lt c⟩ : Dev nD) = ynbr c := by revert c; decide +kernel
theorem dev16_eq (c : Dev nD) : (⟨k0_dev16 c, k0_dev16_lt c⟩ : Dev nD) = ynbr c := by revert c; decide +kernel
theorem dev17_eq (c : Dev nD) : (⟨k0_dev17 c, k0_dev17_lt c⟩ : Dev nD) = ring c 1 := by revert c; decide +kernel
theorem dev18_eq (c : Dev nD) : (⟨k0_dev18 c, k0_dev18_lt c⟩ : Dev nD) = ring c 2 := by revert c; decide +kernel
theorem dev19_eq (c : Dev nD) : (⟨k0_dev19 c, k0_dev19_lt c⟩ : Dev nD) = ring c 3 := by revert c; decide +kernel
theorem dev20_eq (c : Dev nD) : (⟨k0_dev20 c, k0_dev20_lt c⟩ : Dev nD) = ring c 4 := by revert c; decide +kernel
theorem dev21_eq (c : Dev nD) : (⟨k0_dev21 c, k0_dev21_lt c⟩ : Dev nD) = ring c 5 := by revert c; decide +kernel
theorem dev22_eq (c : Dev nD) : (⟨k0_dev22 c, k0_dev22_lt c⟩ : Dev nD) = ring c 6 := by revert c; decide +kernel
theorem dev23_eq (c : Dev nD) : (⟨k0_dev23 c, k0_dev23_lt c⟩ : Dev nD) = ring c 7 := by revert c; decide +kernel
theorem dev24_eq (c : Dev nD) : (⟨k0_dev24 c, k0_dev24_lt c⟩ : Dev nD) = ring c 1 := by revert c; decide +kernel
theorem dev25_eq (c : Dev nD) : (⟨k0_dev25 c, k0_dev25_lt c⟩ : Dev nD) = ring c 2 := by revert c; decide +kernel
theorem dev26_eq (c : Dev nD) : (⟨k0_dev26 c, k0_dev26_lt c⟩ : Dev nD) = ring c 3 := by revert c; decide +kernel
theorem dev27_eq (c : Dev nD) : (⟨k0_dev27 c, k0_dev27_lt c⟩ : Dev nD) = ring c 4 := by revert c; decide +kernel
theorem dev28_eq (c : Dev nD) : (⟨k0_dev28 c, k0_dev28_lt c⟩ : Dev nD) = ring c 5 := by revert c; decide +kernel
theorem dev29_eq (c : Dev nD) : (⟨k0_dev29 c, k0_dev29_lt c⟩ : Dev nD) = ring c 6 := by revert c; decide +kernel
theorem dev30_eq (c : Dev nD) : (⟨k0_dev30 c, k0_dev30_lt c⟩ : Dev nD) = ring c 7 := by revert c; decide +kernel

theorem off1_eq (c : Dev nD) : k0_off1 c = ![pOf c, 0, 0, 0] := by revert c; decide +kernel
theorem off2_eq (c : Dev nD) : k0_off2 c = ![pOf c, 0, 1, 0] := by revert c; decide +kernel
theorem off3_eq (c : Dev nD) : k0_off3 c = ![pOf c, 0, 2, 0] := by revert c; decide +kernel
theorem off4_eq (c : Dev nD) : k0_off4 c = ![pOf c, 0, 3, 0] := by revert c; decide +kernel
theorem off5_eq (c : Dev nD) : k0_off5 c = ![pOf c, 0, 4, 0] := by revert c; decide +kernel
theorem off6_eq (c : Dev nD) : k0_off6 c = ![pOf c, 0, 5, 0] := by revert c; decide +kernel
theorem off7_eq (c : Dev nD) : k0_off7 c = ![pOf c, 0, 6, 0] := by revert c; decide +kernel
theorem off8_eq (c : Dev nD) : k0_off8 c = ![pOf c, 0, 7, 0] := by revert c; decide +kernel
theorem off9_eq (c : Dev nD) : k0_off9 c = ![pOf c, 0, 0, 0] := by revert c; decide +kernel
theorem off10_eq (c : Dev nD) : k0_off10 c = ![pOf c, 0, 8, 0] := by revert c; decide +kernel
theorem off11_eq (c : Dev nD) : k0_off11 c = ![pOf c, 0, 9, 0] := by revert c; decide +kernel
theorem off12_eq (c : Dev nD) : k0_off12 c = ![pOf c, 0, 10, 0] := by revert c; decide +kernel
theorem off13_eq (c : Dev nD) : k0_off13 c = ![pOf c, 0, 11, 0] := by revert c; decide +kernel
theorem off14_eq (c : Dev nD) : k0_off14 c = ![pOf c, 0, 4, 0] := by revert c; decide +kernel
theorem off15_eq (c : Dev nD) : k0_off15 c = ![pOf c, 0, 12, 0] := by revert c; decide +kernel
theorem off16_eq (c : Dev nD) : k0_off16 c = ![pOf c, 0, 13, 0] := by revert c; decide +kernel
theorem off17_eq (c : Dev nD) : k0_off17 c = ![pOf c, 0, 14, 0] := by revert c; decide +kernel
theorem off18_eq (c : Dev nD) : k0_off18 c = ![pOf c, 0, 15, 0] := by revert c; decide +kernel
theorem off19_eq (c : Dev nD) : k0_off19 c = ![pOf c, 0, 8, 0] := by revert c; decide +kernel
theorem off20_eq (c : Dev nD) : k0_off20 c = ![pOf c, 0, 12, 0] := by revert c; decide +kernel
theorem off21_eq (c : Dev nD) : k0_off21 c = ![pOf c, 0, 0, 0] := by revert c; decide +kernel
theorem off22_eq (c : Dev nD) : k0_off22 c = ![0, pOf c, 0, 0, 0] := by revert c; decide +kernel
theorem off23_eq (c : Dev nD) : k0_off23 c = ![0, pOf c] := by revert c; decide +kernel
theorem off24_eq (c : Dev nD) : k0_off24 c = ![0, pOf c, 0, 0, 0] := by revert c; decide +kernel
theorem off25_eq (c : Dev nD) : k0_off25 c = ![pOf c, 0, 8, 0] := by revert c; decide +kernel
theorem off26_eq (c : Dev nD) : k0_off26 c = ![1, pOf c, 0, 0, 0] := by revert c; decide +kernel
theorem off27_eq (c : Dev nD) : k0_off27 c = ![1, pOf c] := by revert c; decide +kernel
theorem off28_eq (c : Dev nD) : k0_off28 c = ![1, pOf c, 0, 0, 0] := by revert c; decide +kernel
theorem off29_eq_1 (c : Dev nD) : k0_off29 c 1#32 = ![0, (pOf c + 1) % 8] := by revert c; decide +kernel
theorem off29_eq_2 (c : Dev nD) : k0_off29 c 2#32 = ![0, (pOf c + 2) % 8] := by revert c; decide +kernel
theorem off29_eq_3 (c : Dev nD) : k0_off29 c 3#32 = ![0, (pOf c + 3) % 8] := by revert c; decide +kernel
theorem off29_eq_4 (c : Dev nD) : k0_off29 c 4#32 = ![0, (pOf c + 4) % 8] := by revert c; decide +kernel
theorem off29_eq_5 (c : Dev nD) : k0_off29 c 5#32 = ![0, (pOf c + 5) % 8] := by revert c; decide +kernel
theorem off29_eq_6 (c : Dev nD) : k0_off29 c 6#32 = ![0, (pOf c + 6) % 8] := by revert c; decide +kernel
theorem off29_eq_7 (c : Dev nD) : k0_off29 c 7#32 = ![0, (pOf c + 7) % 8] := by revert c; decide +kernel
theorem off31_eq_1 (c : Dev nD) : k0_off31 c 1#32 = ![0, (pOf c + 1) % 8, 0, 0, 0] := by revert c; decide +kernel
theorem off31_eq_2 (c : Dev nD) : k0_off31 c 2#32 = ![0, (pOf c + 2) % 8, 0, 0, 0] := by revert c; decide +kernel
theorem off31_eq_3 (c : Dev nD) : k0_off31 c 3#32 = ![0, (pOf c + 3) % 8, 0, 0, 0] := by revert c; decide +kernel
theorem off31_eq_4 (c : Dev nD) : k0_off31 c 4#32 = ![0, (pOf c + 4) % 8, 0, 0, 0] := by revert c; decide +kernel
theorem off31_eq_5 (c : Dev nD) : k0_off31 c 5#32 = ![0, (pOf c + 5) % 8, 0, 0, 0] := by revert c; decide +kernel
theorem off31_eq_6 (c : Dev nD) : k0_off31 c 6#32 = ![0, (pOf c + 6) % 8, 0, 0, 0] := by revert c; decide +kernel
theorem off31_eq_7 (c : Dev nD) : k0_off31 c 7#32 = ![0, (pOf c + 7) % 8, 0, 0, 0] := by revert c; decide +kernel
theorem off32_eq_1 (c : Dev nD) : k0_off32 c 1#32 = ![(pOf c + 1) % 8, 0, 0, 0] := by revert c; decide +kernel
theorem off32_eq_2 (c : Dev nD) : k0_off32 c 2#32 = ![(pOf c + 2) % 8, 0, 0, 0] := by revert c; decide +kernel
theorem off32_eq_3 (c : Dev nD) : k0_off32 c 3#32 = ![(pOf c + 3) % 8, 0, 0, 0] := by revert c; decide +kernel
theorem off32_eq_4 (c : Dev nD) : k0_off32 c 4#32 = ![(pOf c + 4) % 8, 0, 0, 0] := by revert c; decide +kernel
theorem off32_eq_5 (c : Dev nD) : k0_off32 c 5#32 = ![(pOf c + 5) % 8, 0, 0, 0] := by revert c; decide +kernel
theorem off32_eq_6 (c : Dev nD) : k0_off32 c 6#32 = ![(pOf c + 6) % 8, 0, 0, 0] := by revert c; decide +kernel
theorem off32_eq_7 (c : Dev nD) : k0_off32 c 7#32 = ![(pOf c + 7) % 8, 0, 0, 0] := by revert c; decide +kernel
theorem off33_eq_1 (c : Dev nD) : k0_off33 c 1#32 = ![1, (pOf c + 1) % 8] := by revert c; decide +kernel
theorem off33_eq_2 (c : Dev nD) : k0_off33 c 2#32 = ![1, (pOf c + 2) % 8] := by revert c; decide +kernel
theorem off33_eq_3 (c : Dev nD) : k0_off33 c 3#32 = ![1, (pOf c + 3) % 8] := by revert c; decide +kernel
theorem off33_eq_4 (c : Dev nD) : k0_off33 c 4#32 = ![1, (pOf c + 4) % 8] := by revert c; decide +kernel
theorem off33_eq_5 (c : Dev nD) : k0_off33 c 5#32 = ![1, (pOf c + 5) % 8] := by revert c; decide +kernel
theorem off33_eq_6 (c : Dev nD) : k0_off33 c 6#32 = ![1, (pOf c + 6) % 8] := by revert c; decide +kernel
theorem off33_eq_7 (c : Dev nD) : k0_off33 c 7#32 = ![1, (pOf c + 7) % 8] := by revert c; decide +kernel
theorem off35_eq_1 (c : Dev nD) : k0_off35 c 1#32 = ![1, (pOf c + 1) % 8, 0, 0, 0] := by revert c; decide +kernel
theorem off35_eq_2 (c : Dev nD) : k0_off35 c 2#32 = ![1, (pOf c + 2) % 8, 0, 0, 0] := by revert c; decide +kernel
theorem off35_eq_3 (c : Dev nD) : k0_off35 c 3#32 = ![1, (pOf c + 3) % 8, 0, 0, 0] := by revert c; decide +kernel
theorem off35_eq_4 (c : Dev nD) : k0_off35 c 4#32 = ![1, (pOf c + 4) % 8, 0, 0, 0] := by revert c; decide +kernel
theorem off35_eq_5 (c : Dev nD) : k0_off35 c 5#32 = ![1, (pOf c + 5) % 8, 0, 0, 0] := by revert c; decide +kernel
theorem off35_eq_6 (c : Dev nD) : k0_off35 c 6#32 = ![1, (pOf c + 6) % 8, 0, 0, 0] := by revert c; decide +kernel
theorem off35_eq_7 (c : Dev nD) : k0_off35 c 7#32 = ![1, (pOf c + 7) % 8, 0, 0, 0] := by revert c; decide +kernel
theorem off36_eq_1 (c : Dev nD) : k0_off36 c 1#32 = ![(pOf c + 1) % 8, 0, 8, 0] := by revert c; decide +kernel
theorem off36_eq_2 (c : Dev nD) : k0_off36 c 2#32 = ![(pOf c + 2) % 8, 0, 8, 0] := by revert c; decide +kernel
theorem off36_eq_3 (c : Dev nD) : k0_off36 c 3#32 = ![(pOf c + 3) % 8, 0, 8, 0] := by revert c; decide +kernel
theorem off36_eq_4 (c : Dev nD) : k0_off36 c 4#32 = ![(pOf c + 4) % 8, 0, 8, 0] := by revert c; decide +kernel
theorem off36_eq_5 (c : Dev nD) : k0_off36 c 5#32 = ![(pOf c + 5) % 8, 0, 8, 0] := by revert c; decide +kernel
theorem off36_eq_6 (c : Dev nD) : k0_off36 c 6#32 = ![(pOf c + 6) % 8, 0, 8, 0] := by revert c; decide +kernel
theorem off36_eq_7 (c : Dev nD) : k0_off36 c 7#32 = ![(pOf c + 7) % 8, 0, 8, 0] := by revert c; decide +kernel

end Cert.Kernel.Mesh
-- ==== Proof.ProtoK.lean ====
import proofs.«900787_g7700000000000788_dist_flashdec_v7x_xyz2x2x4_y_b8_sq8_skv1024_h16_d128_f32_1_alg».proof.Proof.Gen.Kernel
import proofs.«900787_g7700000000000788_dist_flashdec_v7x_xyz2x2x4_y_b8_sq8_skv1024_h16_d128_f32_1_alg».proof.Proof.Gen.Kernel.Skeleton
import proofs.«900787_g7700000000000788_dist_flashdec_v7x_xyz2x2x4_y_b8_sq8_skv1024_h16_d128_f32_1_alg».proof.Proof.Gen.Kernel.Launch
import proofs.«900787_g7700000000000788_dist_flashdec_v7x_xyz2x2x4_y_b8_sq8_skv1024_h16_d128_f32_1_alg».proof.Proof.MeshK
import Idealize.ShloMosaic.Lib.Pipeline.Launch
import Idealize.ShloMosaic.Lib.Pipeline.Kit
import Idealize.ShloMosaic.Lib.Tactic

noncomputable section

namespace Cert.Kernel.Proto

open Cert.Kernel Cert.Kernel.Gen Cert.Kernel.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Dev nD)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev 𝒱₀ : Variants := Variants.none

abbrev barS : Sem sig := (SemArray.scalar (sig.barrier 0 rfl) : Sems sig S_).sem
def yoSendS (g : Fin 4) : DmaSem sig := ⟨18 + g.val, by show 18 + g.val < 64; have := g.isLt; omega⟩
def yoRecvS (g : Fin 4) : DmaSem sig := ⟨22 + g.val, by show 22 + g.val < 64; have := g.isLt; omega⟩
def ylSendS (g : Fin 4) : DmaSem sig := ⟨26 + g.val, by show 26 + g.val < 64; have := g.isLt; omega⟩
def ylRecvS (g : Fin 4) : DmaSem sig := ⟨30 + g.val, by show 30 + g.val < 64; have := g.isLt; omega⟩
def bcSendS (i : Fin 14) : DmaSem sig := ⟨34 + i.val, by show 34 + i.val < 64; have := i.isLt; omega⟩
def bcRecvS (h : Fin 2) (j : Fin 8) : DmaSem sig := ⟨48 + 8 * h.val + j.val, by show 48 + 8 * h.val + j.val < 64; have := h.isLt; have := j.isLt; omega⟩

inductive Kind where
  | bar | yoSend (g : Fin 4) | yoRecv (g : Fin 4) | ylSend (g : Fin 4) | ylRecv (g : Fin 4)
  | bcSend (i : Fin 14) | bcRecv (h : Fin 2) (j : Fin 8) | other
  deriving DecidableEq

def kindOfDma (s : DmaSem sig) : Kind :=
  if h : 18 ≤ s.val ∧ s.val < 22 then .yoSend ⟨s.val - 18, by omega⟩
  else if h : 22 ≤ s.val ∧ s.val < 26 then .yoRecv ⟨s.val - 22, by omega⟩
  else if h : 26 ≤ s.val ∧ s.val < 30 then .ylSend ⟨s.val - 26, by omega⟩
  else if h : 30 ≤ s.val ∧ s.val < 34 then .ylRecv ⟨s.val - 30, by omega⟩
  else if h : 34 ≤ s.val ∧ s.val < 48 then .bcSend ⟨s.val - 34, by omega⟩
  else if h : 48 ≤ s.val ∧ s.val < 64 then .bcRecv ⟨(s.val - 48) / 8, by omega⟩ ⟨(s.val - 48) % 8, by omega⟩
  else .other

def kindOf : SemLoc sig → Kind
  | .reg _ => .bar
  | .dma s => kindOfDma s

theorem kindOf_bar : kindOf (.reg barS) = .bar := rfl
theorem kindOf_yoSend (g : Fin 4) : kindOf (.dma (yoSendS g)) = .yoSend g := by revert g; decide
theorem kindOf_yoRecv (g : Fin 4) : kindOf (.dma (yoRecvS g)) = .yoRecv g := by revert g; decide
theorem kindOf_ylSend (g : Fin 4) : kindOf (.dma (ylSendS g)) = .ylSend g := by revert g; decide
theorem kindOf_ylRecv (g : Fin 4) : kindOf (.dma (ylRecvS g)) = .ylRecv g := by revert g; decide
theorem kindOf_bcSend (i : Fin 14) : kindOf (.dma (bcSendS i)) = .bcSend i := by revert i; decide
theorem kindOf_bcRecv (h : Fin 2) (j : Fin 8) : kindOf (.dma (bcRecvS h j)) = .bcRecv h j := by revert h j; decide

theorem inb4 (g : Fin 4) : ∀ a, (![g.val, 0, 0, 0] : Fin 4 → Nat) a + S1x8x4x128.size a ≤ S4x8x4x128.size a := by revert g; decide
theorem inb3 (g : Fin 4) : ∀ a, (![g.val, 0, 0] : Fin 3 → Nat) a + S1x8x4.size a ≤ S4x8x4.size a := by revert g; decide
abbrev obSrc (g : Fin 4) : Memref sig .tc .vmem S8x4x128 .bf16 :=
  ((Memref.whole cc0_scratch3).slice (Rect.unit (s := S4x8x4x128) ![g.val, 0, 0, 0] S1x8x4x128.size (inb4 g)) (fun _ => rfl)).squeeze S8x4x128 squeezes_S1x8x4x128_S8x4x128
abbrev obDst (g : Fin 4) : Memref sig .tc .vmem S8x4x128 .bf16 :=
  ((Memref.whole cc0_scratch4).slice (Rect.unit (s := S4x8x4x128) ![g.val, 0, 0, 0] S1x8x4x128.size (inb4 g)) (fun _ => rfl)).squeeze S8x4x128 squeezes_S1x8x4x128_S8x4x128
abbrev lbSrc (g : Fin 4) : Memref sig .tc .vmem S8x4 .f32 :=
  ((Memref.whole cc0_scratch5).slice (Rect.unit (s := S4x8x4) ![g.val, 0, 0] S1x8x4.size (inb3 g)) (fun _ => rfl)).squeeze S8x4 squeezes_S1x8x4_S8x4
abbrev lbDst (g : Fin 4) : Memref sig .tc .vmem S8x4 .f32 :=
  ((Memref.whole cc0_scratch6).slice (Rect.unit (s := S4x8x4) ![g.val, 0, 0] S1x8x4.size (inb3 g)) (fun _ => rfl)).squeeze S8x4 squeezes_S1x8x4_S8x4

abbrev bfSlot (off : Fin 5 → Nat) (inb : ∀ a, off a + S1x1x8x8x128.size a ≤ S2x8x8x8x128.size a) : Memref sig .tc .vmem S8x8x128 .bf16 :=
  ((Memref.whole cc0_scratch7).slice (Rect.unit (s := S2x8x8x8x128) off S1x1x8x8x128.size inb) (fun _ => rfl)).squeeze S8x8x128 squeezes_S1x1x8x8x128_S8x8x128

def bfOff (c : Dev nD) : Fin 2 → Fin 5 → Nat
  | 0 => k0_off24 c
  | 1 => k0_off28 c
theorem bfOff_inb (c : Dev nD) : ∀ (h : Fin 2) (a : Fin 5), bfOff c h a + S1x1x8x8x128.size a ≤ S2x8x8x8x128.size a
  | 0 => k0_off24_inb c
  | 1 => k0_off28_inb c

abbrev bfView (c : Dev nD) (h : Fin 2) : Memref sig .tc .vmem S8x8x128 .bf16 := bfSlot (bfOff c h) (bfOff_inb c h)

structure Landed (F : FTy → Type) where
  ob : Dev nD → (cc0_scratch3 : Ref sig .tc).ty.Contents (Elt F)
  lb : Dev nD → (cc0_scratch5 : Ref sig .tc).ty.Contents (Elt F)
  bf : Dev nD → (cc0_scratch7 : Ref sig .tc).ty.Contents (Elt F)

variable (V : Landed F)

abbrev No : ℕ := (obDst 0).view.dmaCredit
abbrev Nl : ℕ := (lbDst 0).view.dmaCredit
abbrev Nb : ℕ := (bfSlot ![0, 0, 0, 0, 0] (by decide)).view.dmaCredit

def bcShare : Fin 8 → PosShare TreeShare
  | 0 => fullShare
  | 1 => fullShare.left
  | 2 => fullShare.right.left
  | 3 => fullShare.right.right.left
  | 4 => fullShare.right.right.right.left
  | 5 => fullShare.right.right.right.right.left
  | 6 => fullShare.right.right.right.right.right.left
  | 7 => fullShare.right.right.right.right.right.right

def payers (c : Dev nD) : Kind → Finset (Dev nD)
  | .bar => insert (ynbr c) (((Finset.univ : Finset (Fin 8)).image fun d => ring c d.val).erase c)
  | .yoSend _ => {c} | .ylSend _ => {c} | .bcSend _ => {c}
  | .yoRecv _ => {ynbr c} | .ylRecv _ => {ynbr c}
  | .bcRecv _ j => if j.val = pOf c then ∅ else {plane c j.val}
  | .other => ∅

def payBarY (e : Dev nD) : sProp 𝕄 :=
  iprop((∃ f, (Memref.whole cc0_scratch4 : Memref sig .tc _ _ _).view.loc (e : Thread nD τ) ↦{fullShare} f)
    ∗ (∃ f, (Memref.whole cc0_scratch6 : Memref sig .tc _ _ _).view.loc (e : Thread nD τ) ↦{fullShare} f))

def payBarR (c e : Dev nD) : sProp 𝕄 :=
  iprop((∃ f, (bfView c 0).view.loc (e : Thread nD τ) ↦[(bfView c 0).view.set]{fullShare} f)
    ∗ (∃ f, (bfView c 1).view.loc (e : Thread nD τ) ↦[(bfView c 1).view.set]{fullShare} f))

set_option synthInstance.maxHeartbeats 400000 in
instance payBarY_storable (e : Dev nD) : BI.Storable (upEmb : UEmb _ 𝕄) (payBarY (F := F) e) := by unfold payBarY; infer_instance
set_option synthInstance.maxHeartbeats 400000 in
instance payBarR_storable (c e : Dev nD) : BI.Storable (upEmb : UEmb _ 𝕄) (payBarR (F := F) c e) := by unfold payBarR; infer_instance

def pay (c e : Dev nD) : Kind → sProp 𝕄
  | .bar => if e = ynbr c then payBarY e else payBarR c e
  | .yoSend g => (obSrc g).view.loc (c : Thread nD τ) ↦[(obSrc g).view.set]{fullShare} V.ob c
  | .ylSend g => (lbSrc g).view.loc (c : Thread nD τ) ↦[(lbSrc g).view.set]{fullShare.left} V.lb c
  | .bcSend i => (bfView c ⟨i.val / 7, by have := i.isLt; omega⟩).view.loc (c : Thread nD τ)
        ↦[(bfView c ⟨i.val / 7, by have := i.isLt; omega⟩).view.set]{bcShare ⟨i.val % 7 + 1, by omega⟩} V.bf c
  | .yoRecv g => (obDst g).view.loc (c : Thread nD τ) ↦[(obDst g).view.set]{fullShare} V.ob e
  | .ylRecv g => (lbDst g).view.loc (c : Thread nD τ) ↦[(lbDst g).view.set]{fullShare} V.lb e
  | .bcRecv h _ => (bfView e h).view.loc (c : Thread nD τ) ↦[(bfView e h).view.set]{fullShare} V.bf e
  | .other => iprop(emp)

def amt : Kind → ℕ
  | .bar => 1
  | .yoSend _ => No | .yoRecv _ => No
  | .ylSend _ => Nl | .ylRecv _ => Nl
  | .bcSend _ => Nb | .bcRecv _ _ => Nb
  | .other => 1

theorem amt_pos (k : Kind) : 0 < amt k := by
  cases k <;> first | exact Nat.one_pos | exact View.dmaCredit_pos _ (by decide)

def Rd : Rounds.Schedule (GSem nD τ sig) (Dev nD) 𝕄 where
  duties g r := if r = 0 ∧ g.1.2 = .tc then payers g.1.1 (kindOf g.2) else ∅
  amount g _ _ := amt (kindOf g.2)
  payload g _ e := pay V g.1.1 e (kindOf g.2)
  amount_pos g _ _ _ := amt_pos _

set_option synthInstance.maxHeartbeats 400000 in
instance pay_storable (c e : Dev nD) (k : Kind) : BI.Storable (upEmb : UEmb _ 𝕄) (pay V c e k) := by
  cases k <;> dsimp only [pay]
  · by_cases h : e = ynbr c
    · rw [if_pos h]; infer_instance
    · rw [if_neg h]; infer_instance
  all_goals infer_instance

instance Rd_payload_storable (g : GSem nD τ sig) (r : ℕ) (e : Dev nD) : BI.Storable (upEmb : UEmb _ 𝕄) ((Rd V).payload g r e) :=
  pay_storable V _ _ _

end Cert.Kernel.Proto

end
-- ==== Proof.ValsK.lean ====
import proofs.«900787_g7700000000000788_dist_flashdec_v7x_xyz2x2x4_y_b8_sq8_skv1024_h16_d128_f32_1_alg».proof.Proof.ProtoK
import Idealize.ShloMosaic.Lib.ValueIdx

noncomputable section

namespace Cert.Kernel.Vals

open Cert.Kernel Cert.Kernel.Gen Cert.Kernel.Mesh Cert.Kernel.Proto
open Idealize.ShloMosaic Idealize.ShloMosaic.ValueIdx
open Idealize.ShloMosaic.TcCoe

variable {F : FTy → Type} [FloatOps F]
variable (m : (ℓ : Loc nD τ sig) → Buf (Elt F) ℓ)

def qst (c : Dev nD) : (cc0_stg0_0 : Ref sig .tc).ty.Contents (Elt F) :=
  (win0_0.blk (0 : Fin 1)).view.read (Elt F) (m ((c : Thread nD τ).loc main_arg0))

abbrev pFin (c : Dev nD) : Fin 8 := ⟨pOf c, pOf_lt c⟩
abbrev head (g : Fin 4) (hh : Fin 4) : Fin 16 := ⟨4 * g.val + hh.val, by have := g.isLt; have := hh.isLt; omega⟩
abbrev head8 (h : Fin 2) (hh : Fin 8) : Fin 16 := ⟨8 * h.val + hh.val, by have := h.isLt; have := hh.isLt; omega⟩
abbrev grp (h : Fin 2) (k : Fin 2) : Fin 4 := ⟨2 * h.val + k.val, by have := h.isLt; have := k.isLt; omega⟩

def qRows (c : Dev nD) (g : Fin 4) : Vec F S1x8x4x128 .f32 := fun i =>
  qst m c (ix4 (pFin c) (show Fin 8 from i 1) (head g (show Fin 4 from i 2)) (show Fin 128 from i 3))

def kSlab (c : Dev nD) (g : Fin 4) : Vec F S1x4x1024x128 .f32 := fun i =>
  (m ((c : Thread nD τ).loc main_arg1) : S8x1024x16x128.Idx → Elt F .f32) (ix4 (pFin c) (show Fin 1024 from i 2) (head g (show Fin 4 from i 1)) (show Fin 128 from i 3))

def vSlab (c : Dev nD) (g : Fin 4) : Vec F S1x4x1024x128 .f32 := fun i =>
  (m ((c : Thread nD τ).loc main_arg2) : S8x1024x16x128.Idx → Elt F .f32) (ix4 (pFin c) (show Fin 1024 from i 2) (head g (show Fin 4 from i 1)) (show Fin 128 from i 3))

def sc (c : Dev nD) (g : Fin 4) : FVec F S4x8x1024 .f32 := k0_pay1 (qRows m c g) (kSlab m c g)

def oG (c : Dev nD) (g : Fin 4) : FVec F S8x4x128 .f32 := k0_pay4 (sc m c g) (vSlab m c g)

def obG (c : Dev nD) (g : Fin 4) : FVec F S1x8x4x128 .bf16 := k0_pay5 (sc m c g) (vSlab m c g)

def lG (c : Dev nD) (g : Fin 4) : FVec F S1x8x4 .f32 := k0_pay6 (sc m c g)

def ob (c : Dev nD) : (cc0_scratch3 : Ref sig .tc).ty.Contents (Elt F) := fun i =>
  obG m c (show Fin 4 from i 0) (ix4 (0 : Fin 1) (show Fin 8 from i 1) (show Fin 4 from i 2) (show Fin 128 from i 3))

def lb (c : Dev nD) : (cc0_scratch5 : Ref sig .tc).ty.Contents (Elt F) := fun i =>
  lG m c (show Fin 4 from i 0) (ix3 (0 : Fin 1) (show Fin 8 from i 1) (show Fin 4 from i 2))

def om (c : Dev nD) : (cc0_scratch2 : Ref sig .tc).ty.Contents (Elt F) := fun i =>
  oG m c ⟨(show Fin 16 from i 1).val / 4, by have := (show Fin 16 from i 1).isLt; omega⟩
    (ix3 (show Fin 8 from i 0) ⟨(show Fin 16 from i 1).val % 4, Nat.mod_lt _ (by decide)⟩ (show Fin 128 from i 2))

def obPeer (c : Dev nD) (g : Fin 4) : Vec F S1x8x4x128 .bf16 := fun i =>
  ob m (ynbr c) (ix4 g (show Fin 8 from i 1) (show Fin 4 from i 2) (show Fin 128 from i 3))
def lbPeer (c : Dev nD) (g : Fin 4) : Vec F S1x8x4 .f32 := fun i =>
  lb m (ynbr c) (ix3 g (show Fin 8 from i 1) (show Fin 4 from i 2))
def lbOwn (c : Dev nD) (g : Fin 4) : Vec F S1x8x4 .f32 := fun i =>
  lb m c (ix3 g (show Fin 8 from i 1) (show Fin 4 from i 2))

def omHalf (c : Dev nD) (h : Fin 2) : Vec F S8x8x128 .f32 := fun i =>
  om m c (ix3 (show Fin 8 from i 0) (head8 h (show Fin 8 from i 1)) (show Fin 128 from i 2))

def fin (c : Dev nD) (h : Fin 2) : FVec F S8x8x128 .f32 :=
  k0_pay26 (k0_pay23 (obPeer m c (grp h 0)) (obPeer m c (grp h 1))) (k0_pay24 (lbPeer m c (grp h 0)) (lbPeer m c (grp h 1)))
    (k0_pay25 (lbOwn m c (grp h 0))) (lbOwn m c (grp h 1)) (omHalf m c h)

def finOut (c : Dev nD) (h : Fin 2) : FVec F S1x8x8x128 .f32 :=
  k0_pay27 (k0_pay23 (obPeer m c (grp h 0)) (obPeer m c (grp h 1))) (k0_pay24 (lbPeer m c (grp h 0)) (lbPeer m c (grp h 1)))
    (k0_pay25 (lbOwn m c (grp h 0))) (lbOwn m c (grp h 1)) (omHalf m c h)

def finBf (c : Dev nD) (h : Fin 2) : FVec F S1x1x8x8x128 .bf16 :=
  k0_pay28 (k0_pay23 (obPeer m c (grp h 0)) (obPeer m c (grp h 1))) (k0_pay24 (lbPeer m c (grp h 0)) (lbPeer m c (grp h 1)))
    (k0_pay25 (lbOwn m c (grp h 0))) (lbOwn m c (grp h 1)) (omHalf m c h)

def bf (c : Dev nD) : (cc0_scratch7 : Ref sig .tc).ty.Contents (Elt F) := fun i =>
  finBf m c (show Fin 2 from i 0) (ix5 (0 : Fin 1) (0 : Fin 1) (show Fin 8 from i 2) (show Fin 8 from i 3) (show Fin 128 from i 4))

def bfSlotOf (c : Dev nD) (h : Fin 2) (j : Fin 8) : Vec F S1x1x8x8x128 .bf16 := fun i =>
  bf m (plane c j.val) (ix5 h j (show Fin 8 from i 2) (show Fin 8 from i 3) (show Fin 128 from i 4))

def out (c : Dev nD) : (cc0_stg1_0 : Ref sig .tc).ty.Contents (Elt F) := fun i =>
  let b : Fin 8 := show Fin 8 from i 0
  let hd : Fin 16 := show Fin 16 from i 2
  let h : Fin 2 := ⟨hd.val / 8, by have := hd.isLt; omega⟩
  let hh : Fin 8 := ⟨hd.val % 8, Nat.mod_lt _ (by decide)⟩
  if b.val = pOf c then finOut m c h (ix4 (0 : Fin 1) (show Fin 8 from i 1) hh (show Fin 128 from i 3))
  else k0_pay32 (bfSlotOf m c h b) (ix4 (0 : Fin 1) (show Fin 8 from i 1) hh (show Fin 128 from i 3))

def landed : Landed F := ⟨ob m, lb m, bf m⟩

end Cert.Kernel.Vals

end
-- ==== Proof.IfaceK.lean ====
import proofs.«900787_g7700000000000788_dist_flashdec_v7x_xyz2x2x4_y_b8_sq8_skv1024_h16_d128_f32_1_alg».proof.Proof.ValsK

noncomputable section

namespace Cert.Kernel.Iface

open Cert.Kernel Cert.Kernel.Gen Cert.Kernel.Mesh Cert.Kernel.Proto
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev barCell (c : Dev nD) : GSem nD τ sig := ((c : Thread nD τ), .reg barS)
abbrev yoSendCell (g : Fin 4) (c : Dev nD) : GSem nD τ sig := ((c : Thread nD τ), .dma (yoSendS g))
abbrev yoRecvCell (g : Fin 4) (c : Dev nD) : GSem nD τ sig := ((c : Thread nD τ), .dma (yoRecvS g))
abbrev ylSendCell (g : Fin 4) (c : Dev nD) : GSem nD τ sig := ((c : Thread nD τ), .dma (ylSendS g))
abbrev ylRecvCell (g : Fin 4) (c : Dev nD) : GSem nD τ sig := ((c : Thread nD τ), .dma (ylRecvS g))
abbrev bcSendCell (i : Fin 14) (c : Dev nD) : GSem nD τ sig := ((c : Thread nD τ), .dma (bcSendS i))
abbrev bcRecvCell (h : Fin 2) (j : Fin 8) (c : Dev nD) : GSem nD τ sig := ((c : Thread nD τ), .dma (bcRecvS h j))
abbrev pFin (c : Dev nD) : Fin 8 := ⟨pOf c, pOf_lt c⟩

abbrev rj (c : Dev nD) (d : Nat) : Fin 8 := ⟨(pOf c + d) % 8, Nat.mod_lt _ (by decide)⟩

def csem (k : Fin 47) : SemLoc sig := if h : k.val = 0 then .reg barS else .dma ⟨17 + k.val, by show 17 + k.val < 64; have := k.isLt; omega⟩
abbrev kcell (ck : Dev nD × Fin 47) : GSem nD τ sig := ((ck.1 : Thread nD τ), csem ck.2)

abbrev RdM : Rounds.Schedule (GSem nD τ sig) (Dev nD) 𝕄 := Rd (Vals.landed m)

def records (K : Dev nD × Fin 47 → ℕ) : sProp 𝕄 :=
  iprop((bigSep Finset.univ fun ck : Dev nD × Fin 47 => cellInv ER (RdM m) (K ck) (kcell ck))
    ∗ bigSep Finset.univ fun ck : Dev nD × Fin 47 => reached ER (kcell ck) 0)

instance records_persistent (K : Dev nD × Fin 47 → ℕ) : BI.Persistent (records m K) := by unfold records; infer_instance

def payToks (c : Dev nD) : sProp 𝕄 :=
  iprop(dutyTok ER (barCell (ynbr c)) 0 c
    ∗ dutyTok ER (barCell (ring c 1)) 0 c
    ∗ dutyTok ER (barCell (ring c 2)) 0 c
    ∗ dutyTok ER (barCell (ring c 3)) 0 c
    ∗ dutyTok ER (barCell (ring c 4)) 0 c
    ∗ dutyTok ER (barCell (ring c 5)) 0 c
    ∗ dutyTok ER (barCell (ring c 6)) 0 c
    ∗ dutyTok ER (barCell (ring c 7)) 0 c
    ∗ dutyTok ER (yoSendCell 0 c) 0 c
    ∗ dutyTok ER (yoRecvCell 0 (ynbr c)) 0 c
    ∗ dutyTok ER (ylSendCell 0 c) 0 c
    ∗ dutyTok ER (ylRecvCell 0 (ynbr c)) 0 c
    ∗ dutyTok ER (yoSendCell 1 c) 0 c
    ∗ dutyTok ER (yoRecvCell 1 (ynbr c)) 0 c
    ∗ dutyTok ER (ylSendCell 1 c) 0 c
    ∗ dutyTok ER (ylRecvCell 1 (ynbr c)) 0 c
    ∗ dutyTok ER (yoSendCell 2 c) 0 c
    ∗ dutyTok ER (yoRecvCell 2 (ynbr c)) 0 c
    ∗ dutyTok ER (ylSendCell 2 c) 0 c
    ∗ dutyTok ER (ylRecvCell 2 (ynbr c)) 0 c
    ∗ dutyTok ER (yoSendCell 3 c) 0 c
    ∗ dutyTok ER (yoRecvCell 3 (ynbr c)) 0 c
    ∗ dutyTok ER (ylSendCell 3 c) 0 c
    ∗ dutyTok ER (ylRecvCell 3 (ynbr c)) 0 c
    ∗ dutyTok ER (bcSendCell ⟨0, by decide⟩ c) 0 c
    ∗ dutyTok ER (bcRecvCell 0 (pFin c) (ring c 1)) 0 c
    ∗ dutyTok ER (bcSendCell ⟨1, by decide⟩ c) 0 c
    ∗ dutyTok ER (bcRecvCell 0 (pFin c) (ring c 2)) 0 c
    ∗ dutyTok ER (bcSendCell ⟨2, by decide⟩ c) 0 c
    ∗ dutyTok ER (bcRecvCell 0 (pFin c) (ring c 3)) 0 c
    ∗ dutyTok ER (bcSendCell ⟨3, by decide⟩ c) 0 c
    ∗ dutyTok ER (bcRecvCell 0 (pFin c) (ring c 4)) 0 c
    ∗ dutyTok ER (bcSendCell ⟨4, by decide⟩ c) 0 c
    ∗ dutyTok ER (bcRecvCell 0 (pFin c) (ring c 5)) 0 c
    ∗ dutyTok ER (bcSendCell ⟨5, by decide⟩ c) 0 c
    ∗ dutyTok ER (bcRecvCell 0 (pFin c) (ring c 6)) 0 c
    ∗ dutyTok ER (bcSendCell ⟨6, by decide⟩ c) 0 c
    ∗ dutyTok ER (bcRecvCell 0 (pFin c) (ring c 7)) 0 c
    ∗ dutyTok ER (bcSendCell ⟨7, by decide⟩ c) 0 c
    ∗ dutyTok ER (bcRecvCell 1 (pFin c) (ring c 1)) 0 c
    ∗ dutyTok ER (bcSendCell ⟨8, by decide⟩ c) 0 c
    ∗ dutyTok ER (bcRecvCell 1 (pFin c) (ring c 2)) 0 c
    ∗ dutyTok ER (bcSendCell ⟨9, by decide⟩ c) 0 c
    ∗ dutyTok ER (bcRecvCell 1 (pFin c) (ring c 3)) 0 c
    ∗ dutyTok ER (bcSendCell ⟨10, by decide⟩ c) 0 c
    ∗ dutyTok ER (bcRecvCell 1 (pFin c) (ring c 4)) 0 c
    ∗ dutyTok ER (bcSendCell ⟨11, by decide⟩ c) 0 c
    ∗ dutyTok ER (bcRecvCell 1 (pFin c) (ring c 5)) 0 c
    ∗ dutyTok ER (bcSendCell ⟨12, by decide⟩ c) 0 c
    ∗ dutyTok ER (bcRecvCell 1 (pFin c) (ring c 6)) 0 c
    ∗ dutyTok ER (bcSendCell ⟨13, by decide⟩ c) 0 c
    ∗ dutyTok ER (bcRecvCell 1 (pFin c) (ring c 7)) 0 c)

def positions (c : Dev nD) : sProp 𝕄 :=
  iprop(atPos ER (barCell c) 0 ∅ 0
    ∗ atPos ER (yoSendCell 0 c) 0 ∅ 0
    ∗ atPos ER (yoRecvCell 0 c) 0 ∅ 0
    ∗ atPos ER (ylSendCell 0 c) 0 ∅ 0
    ∗ atPos ER (ylRecvCell 0 c) 0 ∅ 0
    ∗ atPos ER (yoSendCell 1 c) 0 ∅ 0
    ∗ atPos ER (yoRecvCell 1 c) 0 ∅ 0
    ∗ atPos ER (ylSendCell 1 c) 0 ∅ 0
    ∗ atPos ER (ylRecvCell 1 c) 0 ∅ 0
    ∗ atPos ER (yoSendCell 2 c) 0 ∅ 0
    ∗ atPos ER (yoRecvCell 2 c) 0 ∅ 0
    ∗ atPos ER (ylSendCell 2 c) 0 ∅ 0
    ∗ atPos ER (ylRecvCell 2 c) 0 ∅ 0
    ∗ atPos ER (yoSendCell 3 c) 0 ∅ 0
    ∗ atPos ER (yoRecvCell 3 c) 0 ∅ 0
    ∗ atPos ER (ylSendCell 3 c) 0 ∅ 0
    ∗ atPos ER (ylRecvCell 3 c) 0 ∅ 0
    ∗ atPos ER (bcSendCell ⟨0, by decide⟩ c) 0 ∅ 0
    ∗ atPos ER (bcSendCell ⟨1, by decide⟩ c) 0 ∅ 0
    ∗ atPos ER (bcSendCell ⟨2, by decide⟩ c) 0 ∅ 0
    ∗ atPos ER (bcSendCell ⟨3, by decide⟩ c) 0 ∅ 0
    ∗ atPos ER (bcSendCell ⟨4, by decide⟩ c) 0 ∅ 0
    ∗ atPos ER (bcSendCell ⟨5, by decide⟩ c) 0 ∅ 0
    ∗ atPos ER (bcSendCell ⟨6, by decide⟩ c) 0 ∅ 0
    ∗ atPos ER (bcSendCell ⟨7, by decide⟩ c) 0 ∅ 0
    ∗ atPos ER (bcSendCell ⟨8, by decide⟩ c) 0 ∅ 0
    ∗ atPos ER (bcSendCell ⟨9, by decide⟩ c) 0 ∅ 0
    ∗ atPos ER (bcSendCell ⟨10, by decide⟩ c) 0 ∅ 0
    ∗ atPos ER (bcSendCell ⟨11, by decide⟩ c) 0 ∅ 0
    ∗ atPos ER (bcSendCell ⟨12, by decide⟩ c) 0 ∅ 0
    ∗ atPos ER (bcSendCell ⟨13, by decide⟩ c) 0 ∅ 0
    ∗ atPos ER (bcRecvCell 0 (rj c 0) c) 0 ∅ 0
    ∗ atPos ER (bcRecvCell 0 (rj c 1) c) 0 ∅ 0
    ∗ atPos ER (bcRecvCell 0 (rj c 2) c) 0 ∅ 0
    ∗ atPos ER (bcRecvCell 0 (rj c 3) c) 0 ∅ 0
    ∗ atPos ER (bcRecvCell 0 (rj c 4) c) 0 ∅ 0
    ∗ atPos ER (bcRecvCell 0 (rj c 5) c) 0 ∅ 0
    ∗ atPos ER (bcRecvCell 0 (rj c 6) c) 0 ∅ 0
    ∗ atPos ER (bcRecvCell 0 (rj c 7) c) 0 ∅ 0
    ∗ atPos ER (bcRecvCell 1 (rj c 0) c) 0 ∅ 0
    ∗ atPos ER (bcRecvCell 1 (rj c 1) c) 0 ∅ 0
    ∗ atPos ER (bcRecvCell 1 (rj c 2) c) 0 ∅ 0
    ∗ atPos ER (bcRecvCell 1 (rj c 3) c) 0 ∅ 0
    ∗ atPos ER (bcRecvCell 1 (rj c 4) c) 0 ∅ 0
    ∗ atPos ER (bcRecvCell 1 (rj c 5) c) 0 ∅ 0
    ∗ atPos ER (bcRecvCell 1 (rj c 6) c) 0 ∅ 0
    ∗ atPos ER (bcRecvCell 1 (rj c 7) c) 0 ∅ 0)

def credits (c : Dev nD) : sProp 𝕄 :=
  iprop(cred (tallyAt (barCell c) () 8)
    ∗ cred (tallyAt (yoRecvCell 0 c) () No)
    ∗ cred (tallyAt (ylRecvCell 0 c) () Nl)
    ∗ cred (tallyAt (yoRecvCell 1 c) () No)
    ∗ cred (tallyAt (ylRecvCell 1 c) () Nl)
    ∗ cred (tallyAt (yoRecvCell 2 c) () No)
    ∗ cred (tallyAt (ylRecvCell 2 c) () Nl)
    ∗ cred (tallyAt (yoRecvCell 3 c) () No)
    ∗ cred (tallyAt (ylRecvCell 3 c) () Nl)
    ∗ cred (tallyAt (bcRecvCell 0 (rj c 1) c) () Nb)
    ∗ cred (tallyAt (bcRecvCell 0 (rj c 2) c) () Nb)
    ∗ cred (tallyAt (bcRecvCell 0 (rj c 3) c) () Nb)
    ∗ cred (tallyAt (bcRecvCell 0 (rj c 4) c) () Nb)
    ∗ cred (tallyAt (bcRecvCell 0 (rj c 5) c) () Nb)
    ∗ cred (tallyAt (bcRecvCell 0 (rj c 6) c) () Nb)
    ∗ cred (tallyAt (bcRecvCell 0 (rj c 7) c) () Nb)
    ∗ cred (tallyAt (bcRecvCell 1 (rj c 1) c) () Nb)
    ∗ cred (tallyAt (bcRecvCell 1 (rj c 2) c) () Nb)
    ∗ cred (tallyAt (bcRecvCell 1 (rj c 3) c) () Nb)
    ∗ cred (tallyAt (bcRecvCell 1 (rj c 4) c) () Nb)
    ∗ cred (tallyAt (bcRecvCell 1 (rj c 5) c) () Nb)
    ∗ cred (tallyAt (bcRecvCell 1 (rj c 6) c) () Nb)
    ∗ cred (tallyAt (bcRecvCell 1 (rj c 7) c) () Nb))

def copySems0 (c : Dev nD) : sProp 𝕄 :=
  iprop(semVal ((c : Thread nD τ), SemLoc.dma (2 : DmaSem sig)) 0
    ∗ semVal ((c : Thread nD τ), SemLoc.dma (3 : DmaSem sig)) 0
    ∗ semVal ((c : Thread nD τ), SemLoc.dma (4 : DmaSem sig)) 0
    ∗ semVal ((c : Thread nD τ), SemLoc.dma (5 : DmaSem sig)) 0
    ∗ semVal ((c : Thread nD τ), SemLoc.dma (6 : DmaSem sig)) 0
    ∗ semVal ((c : Thread nD τ), SemLoc.dma (7 : DmaSem sig)) 0
    ∗ semVal ((c : Thread nD τ), SemLoc.dma (8 : DmaSem sig)) 0
    ∗ semVal ((c : Thread nD τ), SemLoc.dma (9 : DmaSem sig)) 0
    ∗ semVal ((c : Thread nD τ), SemLoc.dma (10 : DmaSem sig)) 0
    ∗ semVal ((c : Thread nD τ), SemLoc.dma (11 : DmaSem sig)) 0
    ∗ semVal ((c : Thread nD τ), SemLoc.dma (12 : DmaSem sig)) 0
    ∗ semVal ((c : Thread nD τ), SemLoc.dma (13 : DmaSem sig)) 0
    ∗ semVal ((c : Thread nD τ), SemLoc.dma (14 : DmaSem sig)) 0
    ∗ semVal ((c : Thread nD τ), SemLoc.dma (15 : DmaSem sig)) 0
    ∗ semVal ((c : Thread nD τ), SemLoc.dma (16 : DmaSem sig)) 0
    ∗ semVal ((c : Thread nD τ), SemLoc.dma (17 : DmaSem sig)) 0)

def Osum : List (CellTallies nD τ sig Unit) → CellTallies nD τ sig Unit
  | [] => 0
  | t :: ts => Osum ts + t
theorem Osum_cons (t : CellTallies nD τ sig Unit) (ts : List (CellTallies nD τ sig Unit)) : Osum (t :: ts) = Osum ts + t := rfl

def owedList (c : Dev nD) : List (CellTallies nD τ sig Unit) :=
  [tallyAt (barCell (ynbr c)) () 1,
   tallyAt (barCell (ring c 1)) () 1,
   tallyAt (barCell (ring c 2)) () 1,
   tallyAt (barCell (ring c 3)) () 1,
   tallyAt (barCell (ring c 4)) () 1,
   tallyAt (barCell (ring c 5)) () 1,
   tallyAt (barCell (ring c 6)) () 1,
   tallyAt (barCell (ring c 7)) () 1,
   tallyAt (yoRecvCell 0 (ynbr c)) () No,
   tallyAt (ylRecvCell 0 (ynbr c)) () Nl,
   tallyAt (yoRecvCell 1 (ynbr c)) () No,
   tallyAt (ylRecvCell 1 (ynbr c)) () Nl,
   tallyAt (yoRecvCell 2 (ynbr c)) () No,
   tallyAt (ylRecvCell 2 (ynbr c)) () Nl,
   tallyAt (yoRecvCell 3 (ynbr c)) () No,
   tallyAt (ylRecvCell 3 (ynbr c)) () Nl,
   tallyAt (bcRecvCell 0 (pFin c) (ring c 1)) () Nb,
   tallyAt (bcRecvCell 0 (pFin c) (ring c 2)) () Nb,
   tallyAt (bcRecvCell 0 (pFin c) (ring c 3)) () Nb,
   tallyAt (bcRecvCell 0 (pFin c) (ring c 4)) () Nb,
   tallyAt (bcRecvCell 0 (pFin c) (ring c 5)) () Nb,
   tallyAt (bcRecvCell 0 (pFin c) (ring c 6)) () Nb,
   tallyAt (bcRecvCell 0 (pFin c) (ring c 7)) () Nb,
   tallyAt (bcRecvCell 1 (pFin c) (ring c 1)) () Nb,
   tallyAt (bcRecvCell 1 (pFin c) (ring c 2)) () Nb,
   tallyAt (bcRecvCell 1 (pFin c) (ring c 3)) () Nb,
   tallyAt (bcRecvCell 1 (pFin c) (ring c 4)) () Nb,
   tallyAt (bcRecvCell 1 (pFin c) (ring c 5)) () Nb,
   tallyAt (bcRecvCell 1 (pFin c) (ring c 6)) () Nb,
   tallyAt (bcRecvCell 1 (pFin c) (ring c 7)) () Nb]
def O₀ (c : Dev nD) : CellTallies nD τ sig Unit := Osum (owedList c)

def L (g : GSem nD τ sig) : Finset Unit := if g.1.2 = .tc then {()} else ∅
def lv (g : GSem nD τ sig) (_ : Unit) : ℕ :=
  match kindOf g.2 with
  | .bar => 1 | .yoRecv _ => 2 | .ylRecv _ => 2 | .bcRecv _ _ => 3 | _ => 0

def start (c : Dev nD) : sProp 𝕄 :=
  iprop((∃ K, records m K) ∗ payToks c ∗ positions c ∗ credits c ∗ copySems0 c ∗ levAts L lv)

abbrev whole (c : Dev nD) (b : Ref sig .tc) (f : Buf (Elt F) ((Memref.whole b : Memref sig .tc _ _ _).view.loc (c : Thread nD τ))) : sProp 𝕄 :=
  (Memref.whole b : Memref sig .tc _ _ _).view.loc (c : Thread nD τ) ↦{fullShare} f

def Φ₀ (c : Dev nD) : sProp 𝕄 :=
  iprop(start m c
    ∗ (∃ f, whole c cc0_scratch0 f) ∗ (∃ f, whole c cc0_scratch1 f) ∗ (∃ f, whole c cc0_scratch2 f) ∗ (∃ f, whole c cc0_scratch3 f)
    ∗ (∃ f, whole c cc0_scratch4 f) ∗ (∃ f, whole c cc0_scratch5 f) ∗ (∃ f, whole c cc0_scratch6 f) ∗ (∃ f, whole c cc0_scratch7 f)
    ∗ whole c main_arg1 (m ((c : Thread nD τ).loc main_arg1)) ∗ whole c main_arg2 (m ((c : Thread nD τ).loc main_arg2)))

def Φ₁ (c : Dev nD) : sProp 𝕄 :=
  iprop((∃ f, whole c cc0_scratch0 f) ∗ (∃ f, whole c cc0_scratch1 f) ∗ (∃ f, whole c cc0_scratch2 f) ∗ (∃ f, whole c cc0_scratch3 f)
    ∗ (∃ f, whole c cc0_scratch4 f) ∗ (∃ f, whole c cc0_scratch5 f) ∗ (∃ f, whole c cc0_scratch6 f) ∗ (∃ f, whole c cc0_scratch7 f)
    ∗ whole c main_arg1 (m ((c : Thread nD τ).loc main_arg1)) ∗ whole c main_arg2 (m ((c : Thread nD τ).loc main_arg2))
    ∗ bigSep Finset.univ fun i : Fin 62 => semVal ((c : Thread nD τ), SemLoc.dma (⟨2 + i.val, by show 2 + i.val < 64; have := i.isLt; omega⟩ : DmaSem sig)) 0)

def dats (_ : Fin 1) (c : Dev nD) : Dat τ (Elt F) Unit ℕ UU ℕ cfg0 c where
  A w := m ((cfg0.win w).arr.view.loc (c : Thread nD τ))
  after w _ := match w with
    | ⟨0, _⟩ => Vals.qst m c
    | ⟨1, _⟩ => Vals.out m c
  Φ t := match t with
    | ⟨0, _⟩ => Φ₀ m c
    | ⟨_ + 1, _⟩ => Φ₁ m c
  q _ := fullShare
  owed t := match t with
    | ⟨0, _⟩ => O₀ c
    | ⟨_ + 1, _⟩ => 0

end Cert.Kernel.Iface

end
-- ==== Proof.LaunchGhostK.lean ====
import proofs.«900787_g7700000000000788_dist_flashdec_v7x_xyz2x2x4_y_b8_sq8_skv1024_h16_d128_f32_1_alg».proof.Proof.IfaceK

noncomputable section

namespace Cert.Kernel.LaunchProof

open Cert.Kernel Cert.Kernel.Gen Cert.Kernel.Mesh Cert.Kernel.Proto Cert.Kernel.Iface
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev osem : Fin 62 → SemLoc sig := fun i => .dma ⟨2 + i.val, by show 2 + i.val < 64; have := i.isLt; omega⟩

theorem ownSemFacts : Pipeline.OwnSemFacts cfg0.spec osem := by decide

def kYoSend (g : Fin 4) : Fin 47 := ⟨1 + g.val, by have := g.isLt; omega⟩
def kYoRecv (g : Fin 4) : Fin 47 := ⟨5 + g.val, by have := g.isLt; omega⟩
def kYlSend (g : Fin 4) : Fin 47 := ⟨9 + g.val, by have := g.isLt; omega⟩
def kYlRecv (g : Fin 4) : Fin 47 := ⟨13 + g.val, by have := g.isLt; omega⟩
def kBcSend (i : Fin 14) : Fin 47 := ⟨17 + i.val, by have := i.isLt; omega⟩
def kBcRecv (h : Fin 2) (j : Fin 8) : Fin 47 := ⟨31 + 8 * h.val + j.val, by have := h.isLt; have := j.isLt; omega⟩

theorem csem_yoSend (g : Fin 4) : csem (kYoSend g) = .dma (yoSendS g) := by revert g; decide
theorem csem_yoRecv (g : Fin 4) : csem (kYoRecv g) = .dma (yoRecvS g) := by revert g; decide
theorem csem_ylSend (g : Fin 4) : csem (kYlSend g) = .dma (ylSendS g) := by revert g; decide
theorem csem_ylRecv (g : Fin 4) : csem (kYlRecv g) = .dma (ylRecvS g) := by revert g; decide
theorem csem_bcSend (i : Fin 14) : csem (kBcSend i) = .dma (bcSendS i) := by revert i; decide
theorem csem_bcRecv (h : Fin 2) (j : Fin 8) : csem (kBcRecv h j) = .dma (bcRecvS h j) := by revert h j; decide

theorem csem_natAdd (b : Fin 46) : csem (Fin.natAdd 1 b) = osem (Fin.natAdd 16 b) := by revert b; decide

theorem csem_injective : Function.Injective csem := by
  intro k k' h; revert k k'; decide

theorem kcell_injective : Function.Injective (kcell : Dev nD × Fin 47 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

theorem kcell_zero (c : Dev nD) : kcell (c, (0 : Fin 47)) = barCell c := rfl
theorem kcell_yoSend (c : Dev nD) (g : Fin 4) : kcell (c, kYoSend g) = yoSendCell g c :=
  congrArg (Prod.mk _) (csem_yoSend g)
theorem kcell_yoRecv (c : Dev nD) (g : Fin 4) : kcell (c, kYoRecv g) = yoRecvCell g c :=
  congrArg (Prod.mk _) (csem_yoRecv g)
theorem kcell_ylSend (c : Dev nD) (g : Fin 4) : kcell (c, kYlSend g) = ylSendCell g c :=
  congrArg (Prod.mk _) (csem_ylSend g)
theorem kcell_ylRecv (c : Dev nD) (g : Fin 4) : kcell (c, kYlRecv g) = ylRecvCell g c :=
  congrArg (Prod.mk _) (csem_ylRecv g)
theorem kcell_bcSend (c : Dev nD) (i : Fin 14) : kcell (c, kBcSend i) = bcSendCell i c :=
  congrArg (Prod.mk _) (csem_bcSend i)
theorem kcell_bcRecv (c : Dev nD) (h : Fin 2) (j : Fin 8) : kcell (c, kBcRecv h j) = bcRecvCell h j c :=
  congrArg (Prod.mk _) (csem_bcRecv h j)

def protoCells : Finset (GSem nD τ sig) := Finset.univ.map ⟨kcell, kcell_injective⟩

def payCells (c : Dev nD) : List (GSem nD τ sig) :=
  barCell (ynbr c) :: (List.range 7).map (fun d => barCell (ring c (d + 1)))
    ++ (List.finRange 4).flatMap (fun g => [yoSendCell g c, yoRecvCell g (ynbr c), ylSendCell g c, ylRecvCell g (ynbr c)])
    ++ (List.finRange 14).flatMap (fun i => [bcSendCell i c,
        bcRecvCell ⟨i.val / 7, by have := i.isLt; omega⟩ (pFin c) (ring c (i.val % 7 + 1))])

def payCell (c : Dev nD) (k : Fin 52) : GSem nD τ sig := (payCells c).getD k.val (barCell c)

theorem payCell_inj : ∀ (c : Dev nD) (k k' : Fin 52), payCell c k = payCell c k' → k = k' := by decide +kernel

def payTokOf (ck : Dev nD × Fin 52) : GSem nD τ sig × ℕ × Dev nD := (payCell ck.1 ck.2, 0, ck.1)
theorem payTokOf_injective : Function.Injective payTokOf := by
  rintro ⟨c, k⟩ ⟨c', k'⟩ h
  have h1 : c = c' := congrArg (fun x : GSem nD τ sig × ℕ × Dev nD => x.2.2) h
  subst h1
  have h2 : payCell c k = payCell c k' := congrArg (fun x : GSem nD τ sig × ℕ × Dev nD => x.1) h
  rw [payCell_inj c k k' h2]
def protoToks : Finset (GSem nD τ sig × ℕ × Dev nD) := Finset.univ.map ⟨payTokOf, payTokOf_injective⟩

theorem payToks_eq (c : Dev nD) : (payToks c : sProp 𝕄) = bigSep Finset.univ fun k : Fin 52 => dutyTok ER (payCell c k) 0 c := by
  rw [bigSep_univ_eq_bigSepL (List.finRange 52) (by decide) (by decide)]; rfl

def posList (c : Dev nD) : List (Fin 47) :=
  [0, kYoSend 0, kYoRecv 0, kYlSend 0, kYlRecv 0, kYoSend 1, kYoRecv 1, kYlSend 1, kYlRecv 1, kYoSend 2, kYoRecv 2, kYlSend 2, kYlRecv 2, kYoSend 3, kYoRecv 3, kYlSend 3, kYlRecv 3, kBcSend ⟨0, by decide⟩, kBcSend ⟨1, by decide⟩, kBcSend ⟨2, by decide⟩, kBcSend ⟨3, by decide⟩, kBcSend ⟨4, by decide⟩, kBcSend ⟨5, by decide⟩, kBcSend ⟨6, by decide⟩, kBcSend ⟨7, by decide⟩, kBcSend ⟨8, by decide⟩, kBcSend ⟨9, by decide⟩, kBcSend ⟨10, by decide⟩, kBcSend ⟨11, by decide⟩, kBcSend ⟨12, by decide⟩, kBcSend ⟨13, by decide⟩, kBcRecv 0 (rj c 0), kBcRecv 0 (rj c 1), kBcRecv 0 (rj c 2), kBcRecv 0 (rj c 3), kBcRecv 0 (rj c 4), kBcRecv 0 (rj c 5), kBcRecv 0 (rj c 6), kBcRecv 0 (rj c 7), kBcRecv 1 (rj c 0), kBcRecv 1 (rj c 1), kBcRecv 1 (rj c 2), kBcRecv 1 (rj c 3), kBcRecv 1 (rj c 4), kBcRecv 1 (rj c 5), kBcRecv 1 (rj c 6), kBcRecv 1 (rj c 7)]
theorem posList_nodup : ∀ c : Dev nD, (posList c).Nodup := by decide +kernel
theorem posList_mem : ∀ (c : Dev nD) (k : Fin 47), k ∈ posList c := by decide +kernel
theorem posList_univ (c : Dev nD) : (Finset.univ : Finset (Fin 47)) = (posList c).toFinset :=
  (Finset.eq_univ_of_forall fun k => List.mem_toFinset.mpr (posList_mem c k)).symm

theorem positions_eq (c : Dev nD) : (bigSep Finset.univ fun k : Fin 47 => (atPos ER (kcell (c, k)) 0 ∅ 0 : sProp 𝕄)) = positions c := by
  rw [bigSep_univ_eq_bigSepL (posList c) (posList_univ c) (posList_nodup c)]
  unfold positions posList
  simp only [bigSepL_cons_cons, bigSepL_singleton, kcell_zero, kcell_yoSend, kcell_yoRecv, kcell_ylSend, kcell_ylRecv, kcell_bcSend, kcell_bcRecv]
  rfl

def u₀ : UU :=
  (initOf (Pipeline.cells cfgs cellOf_inj) (Pipeline.launchToks cfgs cellOf_inj), (initOf protoCells protoToks, 1))

def G (c : Dev nD) : sProp 𝕄 :=
  iprop((bigSep Finset.univ fun k : Fin 47 => roundState ER (RdM m) (kcell (c, k)) 0)
    ∗ (bigSep Finset.univ fun k : Fin 47 => iprop(atPos ER (kcell (c, k)) 0 ∅ 0 ∗ reached ER (kcell (c, k)) 0)) ∗ payToks c)

def G' (c : Dev nD) : sProp 𝕄 := iprop((∃ K, records m K) ∗ payToks c ∗ positions c ∗ copySems0 c)

theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun k : Fin 47 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => payToks c := by
    unfold protoToks; rw [bigSep_map, bigSep_univ_prod]
    exact bigSep_congr fun c _ => (payToks_eq c).symm
  iintro HX
  imod (Rounds.fund ER (RdM m) protoCells protoToks) $$ HX with ⟨Hst, Hr, Hat, Htok⟩
  imodintro
  ihave Hst' := (Entails.of_eq (hX fun g => roundState ER (RdM m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  iframe

theorem fund_u₀ : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave H2 := (own_pair_emb _ _ _) $$ HX
  icases H2 with ⟨HR, -⟩
  imod (fund_proto m) $$ HR with HG
  imodintro
  isplitl [HP] <;> iassumption

theorem unscopedSems0_eq (c : Dev nD) : (unscopedSems0 c : sProp 𝕄) = semVal (barCell c) 0 := by
  unfold unscopedSems0; rw [bigSep_eq_bigSepL_of_eq [SemLoc.reg barS] (by decide) (by decide)]; rfl

theorem ownSems0_split (c : Dev nD) :
    (Pipeline.ownSems0 (Ix := Unit) (Name := ℕ) (U := UU) (Lvl := ℕ) (Val := Elt F) (τ := τ) osem c : sProp 𝕄)
      = iprop(copySems0 c ∗ bigSep Finset.univ fun b : Fin 46 => semVal ((c : Thread nD τ), osem (Fin.natAdd 16 b)) 0) := by
  unfold Pipeline.ownSems0
  rw [bigSep_univ_equiv (finSumFinEquiv : Fin 16 ⊕ Fin 46 ≃ Fin 62), bigSep_univ_sum,
    bigSep_univ_eq_bigSepL ([0, 1, 2, 3, 4, 5, 6, 7, 8, 9, 10, 11, 12, 13, 14, 15] : List (Fin 16)) (by decide) (by decide)]
  rfl

theorem cells_split (c : Dev nD) (Φ : GSem nD τ sig → sProp 𝕄) :
    (bigSep Finset.univ fun k : Fin 47 => Φ (kcell (c, k)))
      = iprop(Φ (barCell c) ∗ bigSep Finset.univ fun b : Fin 46 => Φ ((c : Thread nD τ), osem (Fin.natAdd 16 b))) := by
  rw [bigSep_univ_equiv (finSumFinEquiv : Fin 1 ⊕ Fin 46 ≃ Fin 47), bigSep_univ_sum,
    bigSep_univ_eq_bigSepL [(0 : Fin 1)] (by decide) (by decide)]
  refine congrArg₂ _ rfl (bigSep_congr fun b _ => ?_)
  show Φ ((c : Thread nD τ), csem (Fin.natAdd 1 b)) = _
  rw [csem_natAdd]

theorem sems0_eq (c : Dev nD) :
    iprop(Pipeline.ownSems0 (Ix := Unit) (Name := ℕ) (U := UU) (Lvl := ℕ) (Val := Elt F) (τ := τ) osem c ∗ unscopedSems0 c)
      ⊢ iprop(copySems0 c ∗ bigSep Finset.univ fun k : Fin 47 => semVal (kcell (c, k)) 0 : sProp 𝕄) := by
  rw [ownSems0_split, unscopedSems0_eq, cells_split c (fun g => semVal g 0)]
  iintro ⟨⟨HC, HS⟩, HB⟩
  iframe

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 47 => iprop(∃ κ : ℕ, cellInv ER (RdM m) κ (kcell (c, k))))
          ∗ (bigSep Finset.univ fun k : Fin 47 => iprop(atPos ER (kcell (c, k)) 0 ∅ 0 ∗ reached ER (kcell (c, k)) 0)) ∗ payToks c ∗ copySems0 c) := by
  unfold G
  iintro ⟨Hos, Hus, Hst, Hat, Htok⟩
  ihave Hv := (sems0_eq (F := F) c) $$ [Hos Hus]
  · isplitl [Hos] <;> iassumption
  icases Hv with ⟨Hcp, Hv⟩
  imod (show iprop((bigSep Finset.univ fun k : Fin 47 => semVal (kcell (c, k)) 0) ∗ bigSep Finset.univ fun k : Fin 47 => roundState ER (RdM m) (kcell (c, k)) 0)
      ⊢ (|={Set.univ}=> bigSep Finset.univ fun k : Fin 47 => iprop(∃ κ : ℕ, cellInv ER (RdM m) κ (kcell (c, k))) : sProp 𝕄) from by
        rw [← bigSep_sep']
        exact (bigSep_mono fun k _ => (Rounds.body_intro ER (RdM m) (kcell (c, k))).trans inv_alloc).trans (bigSep_fupd _ _)) $$ [Hv Hst] with Hinv
  · isplitl [Hv] <;> iassumption
  imodintro
  iframe

def linear (c : Dev nD) : sProp 𝕄 :=
  iprop((bigSep Finset.univ fun k : Fin 47 => atPos ER (kcell (c, k)) 0 ∅ 0) ∗ payToks c ∗ copySems0 c)

theorem ghost_intro (K : Dev nD × Fin 47 → ℕ) (c : Dev nD) : iprop(records m K ∗ linear c) ⊢ G' m c := by
  unfold linear G'
  rw [positions_eq]
  iintro ⟨#HR, Hp, Ht, Hc⟩
  isplitr; · iexists K; iexact HR
  isplitl [Ht]; · iexact Ht
  isplitl [Hp]; · iexact Hp
  iexact Hc

theorem regroup :
    (bigSep Finset.univ fun c : Dev nD => iprop((bigSep Finset.univ fun k : Fin 47 => iprop(∃ κ : ℕ, cellInv ER (RdM m) κ (kcell (c, k))))
          ∗ (bigSep Finset.univ fun k : Fin 47 => iprop(atPos ER (kcell (c, k)) 0 ∅ 0 ∗ reached ER (kcell (c, k)) 0)) ∗ payToks c ∗ copySems0 c) : sProp 𝕄)
      ⊢ bigSep Finset.univ (G' m) := by
  rw [bigSep_sep', bigSep_sep', bigSep_sep', ← bigSep_univ_prod (fun ck : Dev nD × Fin 47 => iprop(∃ κ : ℕ, cellInv ER (RdM m) κ (kcell ck))),
    bigSep_congr (s := Finset.univ) (fun (c : Dev nD) _ => bigSep_sep' Finset.univ (fun k : Fin 47 => (atPos ER (kcell (c, k)) 0 ∅ 0 : sProp 𝕄)) (fun k => reached ER (kcell (c, k)) 0)),
    bigSep_sep', ← bigSep_univ_prod (fun ck : Dev nD × Fin 47 => (reached ER (kcell ck) 0 : sProp 𝕄))]
  iintro ⟨HI, ⟨Hat, #HR⟩, Htok, Hcp⟩
  ihave HK := (BI.bigSep_exists_pi Finset.univ (fun (ck : Dev nD × Fin 47) (κ : ℕ) => (cellInv ER (RdM m) κ (kcell ck) : sProp 𝕄))) $$ HI
  icases HK with ⟨%K, #HI⟩
  iapply (bigSep_with_persistent (R := records m K) fun c _ => ghost_intro m K c)
  isplitr
  · unfold records; isplitl; · iexact HI
    iexact HR
  · iapply (Entails.of_eq (show (bigSep Finset.univ fun c : Dev nD => (linear c : sProp 𝕄))
        = iprop((bigSep Finset.univ fun c : Dev nD => bigSep Finset.univ fun k : Fin 47 => (atPos ER (kcell (c, k)) 0 ∅ 0 : sProp 𝕄))
            ∗ (bigSep Finset.univ fun c : Dev nD => (payToks c : sProp 𝕄)) ∗ bigSep Finset.univ fun c : Dev nD => (copySems0 c : sProp 𝕄)) from by
          unfold linear; rw [bigSep_sep', bigSep_sep']).symm)
    iframe

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- info: 'Cert.Kernel.LaunchProof.glob' depends on axioms: [propext, Classical.choice, Quot.sound] -/
#guard_msgs in #print axioms glob

end Cert.Kernel.LaunchProof

end
-- ==== Proof.LevelsK.lean ====
import proofs.«900787_g7700000000000788_dist_flashdec_v7x_xyz2x2x4_y_b8_sq8_skv1024_h16_d128_f32_1_alg».proof.Proof.IfaceK

noncomputable section

namespace Cert.Kernel.Levels

open Cert.Kernel Cert.Kernel.Gen Cert.Kernel.Mesh Cert.Kernel.Proto Cert.Kernel.Iface
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem L_tc (c : Dev nD) (sm : SemLoc sig) : L ((c : Thread nD τ), sm) = {()} := if_pos rfl
theorem L_of_ne (g : GSem nD τ sig) (h : g.1.2 ≠ .tc) : L g = ∅ := if_neg h

theorem kindOfDma_low (s : DmaSem sig) (hs : s.val < 18) : kindOfDma s = .other := by
  unfold kindOfDma
  rw [dif_neg (by omega), dif_neg (by omega), dif_neg (by omega), dif_neg (by omega), dif_neg (by omega), dif_neg (by omega)]

theorem lv_bar (c : Dev nD) : lv (barCell c) () = 1 := by simp only [lv, kindOf]
theorem lv_dma_low (c : Dev nD) (s : DmaSem sig) (hs : s.val < 18) : lv ((c : Thread nD τ), SemLoc.dma s) () = 0 := by
  simp only [lv, kindOf, kindOfDma_low s hs]
theorem lv_yoRecv (g : Fin 4) (c : Dev nD) : lv (yoRecvCell g c) () = 2 := by simp only [lv, kindOf_yoRecv]
theorem lv_ylRecv (g : Fin 4) (c : Dev nD) : lv (ylRecvCell g c) () = 2 := by simp only [lv, kindOf_ylRecv]
theorem lv_bcRecv (h : Fin 2) (j : Fin 8) (c : Dev nD) : lv (bcRecvCell h j c) () = 3 := by simp only [lv, kindOf_bcRecv]

theorem Osum_pos {ts : List (CellTallies nD τ sig Unit)} {g : GSem nD τ sig} {i : Unit} (h : 0 < Osum ts g i) :
    ∃ t ∈ ts, 0 < t g i := by
  induction ts with
  | nil => exact absurd h (Nat.lt_irrefl 0)
  | cons t ts ih =>
    rw [Osum_cons] at h
    rcases Pipeline.add_pos_cases h with h | h
    · obtain ⟨t', ht', hp⟩ := ih h
      exact ⟨t', List.mem_cons_of_mem _ ht', hp⟩
    · exact ⟨t, List.mem_cons.mpr (Or.inl rfl), h⟩

def Above (b : ℕ) (t : CellTallies nD τ sig Unit) : Prop :=
  ∃ (d : Dev nD) (sm : SemLoc sig) (k : ℕ), t = tallyAt ((d : Thread nD τ), sm) () k ∧ b < lv ((d : Thread nD τ), sm) ()

theorem mayWait_above (c : Dev nD) (sm : SemLoc sig) (b : ℕ) (hsm : lv ((c : Thread nD τ), sm) () ≤ b)
    (ts : List (CellTallies nD τ sig Unit)) (hts : ∀ t ∈ ts, Above b t) :
    (levAts L lv : sProp 𝕄) ⊢ MayWait (c : Thread nD τ) sm () (Osum ts) :=
  Pipeline.mayWait_of_levAts (by rw [L_tc]; exact Finset.mem_singleton_self _) (fun g i hg => by
    obtain ⟨t, ht, hpos⟩ := Osum_pos hg
    obtain ⟨d, s', k, rfl, hlt⟩ := hts t ht
    obtain ⟨rfl, rfl⟩ := Pipeline.tallyAt_pos hpos
    exact ⟨by rw [L_tc]; exact Finset.mem_singleton_self _, lt_of_le_of_lt hsm hlt⟩)

-- Every owed tally sits at a TensorCore cell of level at least 1, from the ninth on at least 2, from the seventeenth on 3.
theorem above_owed (c : Dev nD) : (∀ t ∈ owedList c, Above 0 t) ∧ (∀ t ∈ (owedList c).drop 8, Above 1 t) ∧ (∀ t ∈ (owedList c).drop 16, Above 2 t) := by
  refine ⟨?_, ?_, ?_⟩ <;> intro t ht <;>
    simp only [owedList, List.drop_succ_cons, List.drop_zero, List.mem_cons, List.mem_nil_iff, or_false] at ht <;>
    casesm* _ ∨ _ <;> subst_vars <;> first
      | exact ⟨_, _, _, rfl, by rw [lv_bar]; decide⟩
      | exact ⟨_, _, _, rfl, by rw [lv_yoRecv]; decide⟩
      | exact ⟨_, _, _, rfl, by rw [lv_ylRecv]; decide⟩
      | exact ⟨_, _, _, rfl, by rw [lv_bcRecv]; decide⟩

theorem mayWait_low (c : Dev nD) (sm : SemLoc sig) (hsm : lv ((c : Thread nD τ), sm) () = 0) (n : ℕ) :
    (levAts L lv : sProp 𝕄) ⊢ MayWait (c : Thread nD τ) sm () (Osum ((owedList c).drop n)) :=
  mayWait_above c sm 0 (le_of_eq hsm) _ (fun t ht => (above_owed c).1 t (List.mem_of_mem_drop ht))

theorem mayWait_bar (c : Dev nD) (n : ℕ) (hn : 8 ≤ n) :
    (levAts L lv : sProp 𝕄) ⊢ MayWait (c : Thread nD τ) (.reg barS) () (Osum ((owedList c).drop n)) :=
  mayWait_above c (.reg barS) 1 (le_of_eq (lv_bar c)) _ (fun t ht => (above_owed c).2.1 t ((List.drop_sublist_drop_left _ hn).subset ht))

theorem mayWait_mid (c : Dev nD) (sm : SemLoc sig) (hsm : lv ((c : Thread nD τ), sm) () = 2) (n : ℕ) (hn : 16 ≤ n) :
    (levAts L lv : sProp 𝕄) ⊢ MayWait (c : Thread nD τ) sm () (Osum ((owedList c).drop n)) :=
  mayWait_above c sm 2 (le_of_eq hsm) _ (fun t ht => (above_owed c).2.2 t ((List.drop_sublist_drop_left _ hn).subset ht))

end Cert.Kernel.Levels

end
-- ==== Proof.LaunchCredK.lean ====
import proofs.«900787_g7700000000000788_dist_flashdec_v7x_xyz2x2x4_y_b8_sq8_skv1024_h16_d128_f32_1_alg».proof.Proof.LevelsK

noncomputable section

namespace Cert.Kernel.LaunchProof

open Cert.Kernel Cert.Kernel.Gen Cert.Kernel.Mesh Cert.Kernel.Proto Cert.Kernel.Iface
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem mayWait_stage (c : Dev nD) (q : DmaSem sig) (hq : kindOf (SemLoc.dma q : SemLoc sig) = Kind.other) (O : CellTallies nD τ sig Unit) (hO : O = O₀ c ∨ O = 0) :
    (levAts L lv : sProp 𝕄) ⊢ MayWait (c : Thread nD τ) (.dma q) () O := by
  rcases hO with rfl | rfl
  · exact Levels.mayWait_low c (.dma q) (by simp only [lv, hq]) 0
  · rw [MayWait_zero]; iintro -; iempintro

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

theorem launchCred_at (sm : Dev nD → SemLoc sig) (f finv : Dev nD → Dev nD) (h1 : ∀ c, f (finv c) = c) (h2 : ∀ d, finv (f d) = d) (n : ℕ) (c : Dev nD) :
    (Pipeline.launchCred (fun d => tallyAt (((f d : Dev nD) : Thread nD τ), sm (f d)) () n) c : sProp 𝕄) ⊢ cred (tallyAt ((c : Thread nD τ), sm c) () n) := by
  refine (Pipeline.launchCred_elim _ c (sm c)).trans (Entails.of_eq (congrArg cred ?_))
  rw [Pipeline.tallyOn_launchCredit_owing]
  unfold tallyAt
  refine congrArg _ ?_
  rw [Finset.sum_apply]
  have h0 : ∀ d ∈ (Finset.univ : Finset (Dev nD)), d ≠ finv c →
      tallyOn (nD := nD) (sig := sig) (((f d : Dev nD) : Thread nD τ), sm (f d)) (Finsupp.single () n) ((c : Thread nD τ), sm c) = 0 := fun d _ hd => by
    unfold tallyOn
    refine Pi.single_eq_of_ne (fun h => hd ?_) _
    have h3 : c = f d := congrArg (fun g : GSem nD τ sig => g.1.1) h
    rw [h3, h2]
  rw [Finset.sum_eq_single (finv c) h0 (fun h => absurd (Finset.mem_univ _) h)]
  unfold tallyOn
  rw [h1, Pi.single_eq_same]

theorem credY (s : SemLoc sig) (n : ℕ) (c : Dev nD) :
    (Pipeline.launchCred (fun d => tallyAt (((ynbr d : Dev nD) : Thread nD τ), s) () n) c : sProp 𝕄) ⊢ cred (tallyAt ((c : Thread nD τ), s) () n) :=
  launchCred_at (fun _ => s) ynbr ynbr ynbr_ynbr ynbr_ynbr n c

theorem credR (k : ℕ) (hk : k < 8) (s : SemLoc sig) (n : ℕ) (c : Dev nD) :
    (Pipeline.launchCred (fun d => tallyAt (((ring d k : Dev nD) : Thread nD τ), s) () n) c : sProp 𝕄) ⊢ cred (tallyAt ((c : Thread nD τ), s) () n) :=
  launchCred_at (fun _ => s) (fun d => ring d k) (fun d => ring d (8 - k)) (fun c => ring_ring' c ⟨k, hk⟩) (fun d => ring_ring d ⟨k, hk⟩) n c

theorem pFin_ring : ∀ (d : Dev nD) (k : Fin 8), pFin d = rj (ring d k.val) (8 - k.val) := by decide +kernel

theorem credB (h : Fin 2) (k k' : ℕ) (hk : k < 8) (hk' : k' = 8 - k) (c : Dev nD) :
    (Pipeline.launchCred (fun d => tallyAt (bcRecvCell h (pFin d) (ring d k)) () Nb) c : sProp 𝕄) ⊢ cred (tallyAt (bcRecvCell h (rj c k') c) () Nb) := by
  subst hk'
  rw [show (fun d : Dev nD => (tallyAt (bcRecvCell h (pFin d) (ring d k)) () Nb : CellTallies nD τ sig Unit))
      = fun d => tallyAt (((ring d k : Dev nD) : Thread nD τ), (fun e : Dev nD => SemLoc.dma (bcRecvS h (rj e (8 - k)))) (ring d k)) () Nb from
    funext fun d => by
      show tallyAt (bcRecvCell h (pFin d) (ring d k)) () Nb = tallyAt (bcRecvCell h (rj (ring d k) (8 - k)) (ring d k)) () Nb
      rw [← pFin_ring d ⟨k, hk⟩]]
  exact launchCred_at (fun e : Dev nD => SemLoc.dma (bcRecvS h (rj e (8 - k)))) (fun d => ring d k) (fun d => ring d (8 - k)) (fun c => ring_ring' c ⟨k, hk⟩) (fun d => ring_ring d ⟨k, hk⟩) Nb c

theorem cred_tallyAt_add (g : GSem nD τ sig) (a b : ℕ) :
    iprop(cred (tallyAt g () a) ∗ cred (tallyAt g () b)) ⊢ (cred (tallyAt g () (a + b)) : sProp 𝕄) := by
  rw [show (tallyAt g () (a + b) : CellTallies nD τ sig Unit) = tallyAt g () a + tallyAt g () b from by
    unfold tallyAt; rw [Finsupp.single_add, tallyOn_add]]
  exact (cred_add _ _).2

-- The owed tallies are a sum of thirty; the launch credit of a sum is the ∗ of the launch credits, each paid at its own cell.
theorem creds (c : Dev nD) : (Pipeline.launchCred O₀ c : sProp 𝕄) ⊢ credits c := by
  show (Pipeline.launchCred (fun d => Osum (owedList d)) c : sProp 𝕄) ⊢ _
  simp only [owedList, Osum, Pipeline.launchCred_add, Pipeline.launchCred_zero]
  unfold credits
  iintro ⟨⟨⟨⟨⟨⟨⟨⟨⟨⟨⟨⟨⟨⟨⟨⟨⟨⟨⟨⟨⟨⟨⟨⟨⟨⟨⟨⟨⟨⟨-, R1_7⟩, R1_6⟩, R1_5⟩, R1_4⟩, R1_3⟩, R1_2⟩, R1_1⟩, R0_7⟩, R0_6⟩, R0_5⟩, R0_4⟩, R0_3⟩, R0_2⟩, R0_1⟩, Yl3⟩, Yo3⟩, Yl2⟩, Yo2⟩, Yl1⟩, Yo1⟩, Yl0⟩, Yo0⟩, B7⟩, B6⟩, B5⟩, B4⟩, B3⟩, B2⟩, B1⟩, B0⟩
  ihave B0 := (credY (.reg barS) 1 c) $$ B0
  ihave B1 := (credR 1 (by decide) (.reg barS) 1 c) $$ B1
  ihave B2 := (credR 2 (by decide) (.reg barS) 1 c) $$ B2
  ihave B3 := (credR 3 (by decide) (.reg barS) 1 c) $$ B3
  ihave B4 := (credR 4 (by decide) (.reg barS) 1 c) $$ B4
  ihave B5 := (credR 5 (by decide) (.reg barS) 1 c) $$ B5
  ihave B6 := (credR 6 (by decide) (.reg barS) 1 c) $$ B6
  ihave B7 := (credR 7 (by decide) (.reg barS) 1 c) $$ B7
  ihave Yo0 := (credY (.dma (yoRecvS 0)) No c) $$ Yo0
  ihave Yl0 := (credY (.dma (ylRecvS 0)) Nl c) $$ Yl0
  ihave Yo1 := (credY (.dma (yoRecvS 1)) No c) $$ Yo1
  ihave Yl1 := (credY (.dma (ylRecvS 1)) Nl c) $$ Yl1
  ihave Yo2 := (credY (.dma (yoRecvS 2)) No c) $$ Yo2
  ihave Yl2 := (credY (.dma (ylRecvS 2)) Nl c) $$ Yl2
  ihave Yo3 := (credY (.dma (yoRecvS 3)) No c) $$ Yo3
  ihave Yl3 := (credY (.dma (ylRecvS 3)) Nl c) $$ Yl3
  ihave R0_1 := (credB 0 1 7 (by decide) rfl c) $$ R0_1
  ihave R0_2 := (credB 0 2 6 (by decide) rfl c) $$ R0_2
  ihave R0_3 := (credB 0 3 5 (by decide) rfl c) $$ R0_3
  ihave R0_4 := (credB 0 4 4 (by decide) rfl c) $$ R0_4
  ihave R0_5 := (credB 0 5 3 (by decide) rfl c) $$ R0_5
  ihave R0_6 := (credB 0 6 2 (by decide) rfl c) $$ R0_6
  ihave R0_7 := (credB 0 7 1 (by decide) rfl c) $$ R0_7
  ihave R1_1 := (credB 1 1 7 (by decide) rfl c) $$ R1_1
  ihave R1_2 := (credB 1 2 6 (by decide) rfl c) $$ R1_2
  ihave R1_3 := (credB 1 3 5 (by decide) rfl c) $$ R1_3
  ihave R1_4 := (credB 1 4 4 (by decide) rfl c) $$ R1_4
  ihave R1_5 := (credB 1 5 3 (by decide) rfl c) $$ R1_5
  ihave R1_6 := (credB 1 6 2 (by decide) rfl c) $$ R1_6
  ihave R1_7 := (credB 1 7 1 (by decide) rfl c) $$ R1_7
  ihave B := (cred_tallyAt_add (barCell c) 1 1) $$ [B0 B1]
  · iframe
  ihave B := (cred_tallyAt_add (barCell c) 2 1) $$ [B B2]
  · iframe
  ihave B := (cred_tallyAt_add (barCell c) 3 1) $$ [B B3]
  · iframe
  ihave B := (cred_tallyAt_add (barCell c) 4 1) $$ [B B4]
  · iframe
  ihave B := (cred_tallyAt_add (barCell c) 5 1) $$ [B B5]
  · iframe
  ihave B := (cred_tallyAt_add (barCell c) 6 1) $$ [B B6]
  · iframe
  ihave B := (cred_tallyAt_add (barCell c) 7 1) $$ [B B7]
  · iframe
  isplitl [B]; · iexact B
  iframe

/-- info: 'Cert.Kernel.LaunchProof.creds' depends on axioms: [propext, Classical.choice, Quot.sound] -/
#guard_msgs in #print axioms creds

end Cert.Kernel.LaunchProof

end
-- ==== Proof.LaunchK.lean ====
import proofs.«900787_g7700000000000788_dist_flashdec_v7x_xyz2x2x4_y_b8_sq8_skv1024_h16_d128_f32_1_alg».proof.Proof.LaunchGhostK
import proofs.«900787_g7700000000000788_dist_flashdec_v7x_xyz2x2x4_y_b8_sq8_skv1024_h16_d128_f32_1_alg».proof.Proof.LaunchCredK

noncomputable section

namespace Cert.Kernel.LaunchProof

open Cert.Kernel Cert.Kernel.Gen Cert.Kernel.Mesh Cert.Kernel.Proto Cert.Kernel.Iface
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem share_eq (c : Dev nD) (w : Fin cfg0.W) : (dats m 0 c).share w = fullShare := by unfold Dat.share; split <;> rfl

def X (c : Dev nD) : sProp 𝕄 :=
  iprop(start m c ∗ whole c main_arg1 (m ((c : Thread nD τ).loc main_arg1)) ∗ whole c main_arg2 (m ((c : Thread nD τ).loc main_arg2)))

def Y (c : Dev nD) : sProp 𝕄 :=
  iprop(whole c main_arg1 (m ((c : Thread nD τ).loc main_arg1)) ∗ whole c main_arg2 (m ((c : Thread nD τ).loc main_arg2)))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  rw [Pipeline.unscopedRestP_none, unscopedRest0_eq]
  iintro ⟨⟨H1, H2⟩, Hlev, Hcr, -, HG⟩
  ihave Hc := (creds (F := F) c) $$ Hcr
  imodintro
  unfold X start G'
  icases HG with ⟨HK, Ht, Hp, Hcp⟩
  iframe

theorem phi0_intro (c : Dev nD) :
    iprop(X m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ X
  iintro ⟨⟨Hs, Ha1, Ha2⟩, -, ⟨S0, S1, S2, S3, S4, S5, S6, S7⟩⟩
  iframe

theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, scopedRest0_eq]
  unfold Φ₁ Y Pipeline.ownSems0
  iintro ⟨S0, S1, S2, S3, S4, S5, S6, S7, Ha1, Ha2, Hz⟩
  iframe

set_option maxRecDepth 65536 in

theorem run_main (hbody : ∀ c, BodyObligation (dats (F := F) m 0 c) (defs₀ (F := F)) 𝒱₀ () Set.univ) :
    θ_run defs (onTc (τ := τ) (main (F := F))) (s₀ m ρ) (fun r => ∀ c : Dev nD,
      (∀ w : Fin cfg0.W, r.2.mem ((cfg0.win w).arr.view.loc (c : Thread nD τ)) = (dats m 0 c).arrAt w cfg0.N)
      ∧ r.2.mem ((c : Thread nD τ).loc main_arg1) = m ((c : Thread nD τ).loc main_arg1)
      ∧ r.2.mem ((c : Thread nD τ).loc main_arg2) = m ((c : Thread nD τ).loc main_arg2)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := fun _ h => if_neg h) (hwaits := waits m)
    (G := G m) (G' := G' m) (u₀ := u₀)
    (hu₀ := fund_u₀ m)
    (hglob := glob m)
    (hA := fun _ _ => rfl) (hpf := fun _ k => k.elim0)
    (X := X m) (Y := Y m) (Z := fun _ => iprop(emp))
    (hX := start_intro m ρ) (hin := phi0_intro m) (hout := phi1_exit m)
    (QY := fun c s => s.mem ((c : Thread nD τ).loc main_arg1) = m ((c : Thread nD τ).loc main_arg1)
      ∧ s.mem ((c : Thread nD τ).loc main_arg2) = m ((c : Thread nD τ).loc main_arg2))
    (hY := fun c s' => by
      unfold Y
      iintro ⟨⟨H1, H2⟩, -, HSI⟩
      icombine HSI H1 gives %h1
      icombine HSI H2 gives %h2
      imodintro
      isplitr; · ipureintro; exact ⟨Buf.eq_of_forall_mem_univ h1, Buf.eq_of_forall_mem_univ h2⟩
      iexact HSI)
    (hQ := fun _ h c => ⟨fun w => (h c).1 w, (h c).2.2⟩)

/-- info: 'Cert.Kernel.LaunchProof.run_main' depends on axioms: [propext, Classical.choice, Quot.sound] -/
#guard_msgs in #print axioms run_main

theorem finalA_arg0 (c : Dev nD) : (dats m 0 c).arrAt (0 : Fin 2) cfg0.N = m ((c : Thread nD τ).loc main_arg0) :=
  (dats (F := F) m 0 c).arrAt_in (0 : Fin 2) rfl _

theorem finalA_out (c : Dev nD) : (dats m 0 c).arrAt (1 : Fin 2) cfg0.N = Vals.out m c := by
  have h := (dats (F := F) m 0 c).arrAt_succ (1 : Fin 2) t0_0
  rw [show (Pipeline.Window.flush (cfg0.win (1 : Fin 2)) t0_0) = true from by decide, if_pos rfl] at h
  refine h.trans ?_
  exact Memref.write_access_unit_zero_univ (Elt F) main_v1 (funext fun a => Nat.zero_mul _) _ _ _

end Cert.Kernel.LaunchProof

end
-- ==== Proof.Spec.lean ====
import Idealize.ShloMosaic.PureOps.Ideal
import Idealize.ShloMosaic.Lib.ValueIdx

noncomputable section

namespace Cert.Attn

open Idealize.ShloMosaic Idealize.ShloMosaic.ValueIdx

abbrev SQ : Shape := ⟨4, ![8, 8, 16, 128]⟩
abbrev SKV : Shape := ⟨4, ![8, 2048, 16, 128]⟩
abbrev SKVh : Shape := ⟨4, ![8, 1024, 16, 128]⟩

def scale : EReal := Ideal.ofBits .f32 0x3DB504F3#32

def key (y : Fin 2) (k : Fin 1024) : Fin 2048 := ⟨y.val * 1024 + k.val, by have := y.isLt; have := k.isLt; omega⟩

def score (Q : FVec Ideal SQ .f32) (K : FVec Ideal SKV .f32) (b q : Fin 8) (h : Fin 16) (k : Fin 2048) : EReal :=
  (∑ d : Fin 128, Q (ix4 b q h d) * K (ix4 b k h d)) * scale

def weight (Q : FVec Ideal SQ .f32) (K : FVec Ideal SKV .f32) (b q : Fin 8) (h : Fin 16) (k : Fin 2048) : EReal :=
  Ideal.exp (score Q K b q h k)

def num (Q : FVec Ideal SQ .f32) (K V : FVec Ideal SKV .f32) (y : Fin 2) (b q : Fin 8) (h : Fin 16) (d : Fin 128) : EReal :=
  ∑ k : Fin 1024, weight Q K b q h (key y k) * V (ix4 b (key y k) h d)

def den (Q : FVec Ideal SQ .f32) (K : FVec Ideal SKV .f32) (y : Fin 2) (b q : Fin 8) (h : Fin 16) : EReal :=
  ∑ k : Fin 1024, weight Q K b q h (key y k)

def outFrom (y₀ : Fin 2) (Q : FVec Ideal SQ .f32) (K V : FVec Ideal SKV .f32) : FVec Ideal SQ .f32 := fun i =>
  Ideal.div (num Q K V y₀ (i 0) (i 1) (i 2) (i 3) + num Q K V (1 - y₀) (i 0) (i 1) (i 2) (i 3))
    (den Q K y₀ (i 0) (i 1) (i 2) + den Q K (1 - y₀) (i 0) (i 1) (i 2))

def out (Q : FVec Ideal SQ .f32) (K V : FVec Ideal SKV .f32) : FVec Ideal SQ .f32 := outFrom 0 Q K V

def Finite {s : Shape} (X : FVec Ideal s .f32) : Prop := ∀ i, ∃ r : ℝ, X i = (r : EReal)

end Cert.Attn

end
-- ==== Proof.AttnAlgebra.lean ====
import Idealize.ShloMosaic.PureOps.Ideal
import Mathlib.Data.Finset.Fold
import Mathlib.Algebra.BigOperators.Field
import Mathlib.Algebra.Order.BigOperators.Ring.Finset

noncomputable section

open scoped BigOperators

namespace Cert.AttnAlgebra

open Idealize.ShloMosaic

variable {ι : Type*}

theorem coe_sum (t : Finset ι) (f : ι → ℝ) : ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

variable [Fintype ι]

theorem fold_max_bot_real [Nonempty ι] (s : ι → EReal) (hs : ∀ k, ∃ r : ℝ, s k = (r : EReal)) :
    ∃ m : ℝ, (Finset.univ : Finset ι).fold max (⊥ : EReal) s = (m : EReal) := by
  have htop : (Finset.univ : Finset ι).fold max (⊥ : EReal) s ≠ ⊤ := by
    refine ne_of_lt ((Finset.fold_max_lt _).2 ⟨bot_lt_top, fun k _ => ?_⟩)
    obtain ⟨r, hr⟩ := hs k
    rw [hr]; exact EReal.coe_lt_top r
  have hbot : (Finset.univ : Finset ι).fold max (⊥ : EReal) s ≠ ⊥ := by
    refine ne_of_gt ((Finset.lt_fold_max _).2 (Or.inr ?_))
    obtain ⟨k⟩ := ‹Nonempty ι›
    obtain ⟨r, hr⟩ := hs k
    exact ⟨k, Finset.mem_univ k, by rw [hr]; exact EReal.bot_lt_coe r⟩
  exact ⟨_, (EReal.coe_toReal htop hbot).symm⟩

theorem real_softmax [Nonempty ι] (s v : ι → ℝ) (m : ℝ) :
    ∑ k, v k * (Real.exp (s k - m) * (1 / ∑ j, Real.exp (s j - m)))
      = (∑ k, Real.exp (s k) * v k) * (1 / ∑ k, Real.exp (s k)) := by
  have hE : (∑ k, Real.exp (s k)) ≠ 0 :=
    (Finset.sum_pos (fun k _ => Real.exp_pos (s k)) Finset.univ_nonempty).ne'
  have hm : Real.exp m ≠ 0 := (Real.exp_pos m).ne'
  have hsub : ∀ k, Real.exp (s k - m) = Real.exp (s k) * (Real.exp m)⁻¹ := fun k => by
    rw [Real.exp_sub, div_eq_mul_inv]
  have hsum : ∑ j, Real.exp (s j) * (Real.exp m)⁻¹ = (∑ j, Real.exp (s j)) * (Real.exp m)⁻¹ :=
    (Finset.sum_mul _ _ _).symm
  simp only [hsub]
  rw [hsum, Finset.sum_mul _ _ (1 / ∑ k, Real.exp (s k))]
  apply Finset.sum_congr rfl
  intro k _
  field_simp

theorem softmax_coe [Nonempty ι] (s v : ι → ℝ) (m : ℝ) :
    ∑ k, (v k : EReal) * Ideal.div (Ideal.exp ((s k : EReal) - (m : EReal)))
        ((0 : EReal) + ∑ j, Ideal.exp ((s j : EReal) - (m : EReal)))
      = Ideal.div (∑ k, Ideal.exp (s k : EReal) * (v k : EReal)) (∑ k, Ideal.exp (s k : EReal)) := by
  have hL : (∑ j, Real.exp (s j - m)) ≠ 0 :=
    (Finset.sum_pos (fun k _ => Real.exp_pos (s k - m)) Finset.univ_nonempty).ne'
  have hE : (∑ k, Real.exp (s k)) ≠ 0 :=
    (Finset.sum_pos (fun k _ => Real.exp_pos (s k)) Finset.univ_nonempty).ne'
  have e1 : ∀ k, Ideal.exp ((s k : EReal) - (m : EReal)) = ((Real.exp (s k - m) : ℝ) : EReal) := fun k => by
    rw [← EReal.coe_sub, Ideal.exp_coe]
  have e2 : ∀ k, Ideal.exp (s k : EReal) = ((Real.exp (s k) : ℝ) : EReal) := fun k => Ideal.exp_coe (s k)
  simp only [e1, e2]
  rw [← coe_sum Finset.univ fun j => Real.exp (s j - m), zero_add, ← coe_sum Finset.univ fun k => Real.exp (s k)]
  simp only [Ideal.div_coe hL, Ideal.div_coe hE, ← EReal.coe_mul]
  rw [← coe_sum, ← coe_sum, ← EReal.coe_mul, real_softmax s v m]

theorem softmax_fold_max [Nonempty ι] (s v : ι → EReal) (hs : ∀ k, ∃ r : ℝ, s k = (r : EReal))
    (hv : ∀ k, ∃ r : ℝ, v k = (r : EReal)) :
    ∑ k, v k * Ideal.div (Ideal.exp (s k - (Finset.univ : Finset ι).fold max (⊥ : EReal) s))
        ((0 : EReal) + ∑ j, Ideal.exp (s j - (Finset.univ : Finset ι).fold max (⊥ : EReal) s))
      = Ideal.div (∑ k, Ideal.exp (s k) * v k) (∑ k, Ideal.exp (s k)) := by
  obtain ⟨m, hm⟩ := fold_max_bot_real s hs
  rw [hm]
  choose s' hs' using hs
  choose v' hv' using hv
  obtain rfl : s = fun k => (s' k : EReal) := funext hs'
  obtain rfl : v = fun k => (v' k : EReal) := funext hv'
  exact softmax_coe s' v' m

end Cert.AttnAlgebra

end
-- ==== Proof.RefValueSpec.lean ====
import proofs.«900787_g7700000000000788_dist_flashdec_v7x_xyz2x2x4_y_b8_sq8_skv1024_h16_d128_f32_1_alg».proof.Proof.Spec
import proofs.«900787_g7700000000000788_dist_flashdec_v7x_xyz2x2x4_y_b8_sq8_skv1024_h16_d128_f32_1_alg».proof.Proof.AttnAlgebra
import Mathlib.Algebra.BigOperators.Fin

noncomputable section

open scoped BigOperators

namespace Cert.Attn

open Idealize.ShloMosaic Idealize.ShloMosaic.ValueIdx

theorem outFrom_one (Q : FVec Ideal SQ .f32) (K V : FVec Ideal SKV .f32) : outFrom 1 Q K V = out Q K V := by
  funext i
  have h10 : (1 : Fin 2) - 1 = 0 := by decide
  have h01 : (1 : Fin 2) - 0 = 1 := by decide
  unfold out outFrom
  rw [h10, h01, add_comm (num Q K V 1 (i 0) (i 1) (i 2) (i 3)), add_comm (den Q K 1 (i 0) (i 1) (i 2))]

theorem sum_keys {M : Type*} [AddCommMonoid M] (f : Fin 2048 → M) :
    ∑ k : Fin 2048, f k = (∑ k : Fin 1024, f (key 0 k)) + ∑ k : Fin 1024, f (key 1 k) := by
  have h := Fin.sum_univ_add (a := 1024) (b := 1024) f
  refine h.trans ?_
  have e0 : ∀ k : Fin 1024, Fin.castAdd 1024 k = key 0 k := fun k => Fin.ext (by simp [key])
  have e1 : ∀ k : Fin 1024, Fin.natAdd 1024 k = key 1 k := fun k => Fin.ext (by simp [key]; omega)
  simp only [e0, e1]

theorem out_apply (Q : FVec Ideal SQ .f32) (K V : FVec Ideal SKV .f32) (b q : Fin 8) (h : Fin 16) (d : Fin 128) :
    out Q K V (ix4 b q h d)
      = Ideal.div (∑ k : Fin 2048, weight Q K b q h k * V (ix4 b k h d)) (∑ k : Fin 2048, weight Q K b q h k) := by
  rw [sum_keys, sum_keys]
  rfl

theorem scale_real : ∃ c : ℝ, scale = (c : EReal) := by
  show ∃ c : ℝ, Ideal.ieee 8 23 (0x3DB504F3#32 : BitVec 32) = (c : EReal)
  unfold Ideal.ieee
  dsimp only
  rw [if_neg (by decide), if_neg (by decide)]
  exact ⟨_, rfl⟩

theorem score_real (Q : FVec Ideal SQ .f32) (K : FVec Ideal SKV .f32) (hQ : Finite Q) (hK : Finite K)
    (b q : Fin 8) (h : Fin 16) (k : Fin 2048) : ∃ r : ℝ, score Q K b q h k = (r : EReal) := by
  choose q' hq' using hQ
  choose k' hk' using hK
  obtain ⟨c, hc⟩ := scale_real
  refine ⟨(∑ d : Fin 128, q' (ix4 b q h d) * k' (ix4 b k h d)) * c, ?_⟩
  unfold score
  rw [hc, EReal.coe_mul, Cert.AttnAlgebra.coe_sum]
  congr 1
  exact Finset.sum_congr rfl fun d _ => by rw [hq', hk', EReal.coe_mul]

end Cert.Attn

end
-- ==== Proof.KValuePayA.lean ====
import proofs.«900787_g7700000000000788_dist_flashdec_v7x_xyz2x2x4_y_b8_sq8_skv1024_h16_d128_f32_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.KValue

open Cert.KernelIdeal Cert.KernelIdeal.Gen
open Idealize.ShloMosaic Idealize.ShloMosaic.ValueIdx

theorem transpose_ix3_102_apply {α : Type} {a b m : ℕ} (x : (⟨3, ![a, b, m]⟩ : Shape).Idx → α)
    (h : (⟨3, ![a, b, m]⟩ : Shape).Transposes [1, 0, 2] ⟨3, ![b, a, m]⟩) (j : Fin b) (i : Fin a) (e : Fin m) :
    transpose ⟨3, ![b, a, m]⟩ [1, 0, 2] x h (ix3 j i e) = x (ix3 i j e) :=
  transpose_apply _ x h _ _ fun c => match c with | ⟨0, _⟩ => rfl | ⟨1, _⟩ => rfl | ⟨2, _⟩ => rfl

/-- A product with ONE contracting axis, of extent `n`, into the zero splat: at `j` the sum over that axis of the operands' products, at the operand indices `L`, `R` the dimension numbers give. -/
theorem matmul_single_apply {sl sr so : Shape} (D : DotDims sl sr so) (n : ℕ) (hr : D.contr.rank = 1) (hs : D.contr.size ⟨0, by omega⟩ = n)
    (l : FVec Ideal sl .f32) (r : FVec Ideal sr .f32) (j : so.Idx) (L : Fin n → sl.Idx) (R : Fin n → sr.Idx)
    (hL : ∀ k, D.lhsIdx j ((contrEquiv1 D n hr hs).symm k) = L k) (hR : ∀ k, D.rhsIdx j ((contrEquiv1 D n hr hs).symm k) = R k) :
    matmul D none l r (constant (F := Ideal) so .f32 0x00000000#32) j = ∑ k : Fin n, l (L k) * r (R k) := by
  simp only [matmul]
  rw [Ideal.matmul_constant_zero_apply, ← Equiv.sum_comp (contrEquiv1 D n hr hs).symm]
  exact Finset.sum_congr rfl fun k _ => by rw [hL, hR]

theorem pay1_apply (x : Vec Ideal S1x8x4x128 .f32) (y : Vec Ideal S1x4x1024x128 .f32) (hh : Fin 4) (q : Fin 8) (k : Fin 1024) :
    k0_pay1 (F := Ideal) x y (ix3 hh q k)
      = (∑ d : Fin 128, x (ix4 (0 : Fin 1) q hh d) * y (ix4 (0 : Fin 1) hh k d)) * Ideal.ofBits .f32 0x3DB504F3#32 := by
  unfold k0_pay1
  rw [mulf_apply, broadcast_apply, matmul_single_apply dot_S4x8x128_S4x1024x128_S4x8x1024_2_2_1_1_0_0 128 rfl rfl _ _ _
    (fun d => ix3 hh q d) (fun d => ix3 hh k d) (fun _ => eq_ix3 _) (fun _ => eq_ix3 _)]
  refine congrArg (· * _) (Finset.sum_congr rfl fun d _ => ?_)
  rw [transpose_ix3_102_apply, shapeCast_1abc_abc_apply, shapeCast_1abc_abc_apply]

theorem pay2_apply (s : FVec Ideal S4x8x1024 .f32) (i : S4x8x1024.Idx) : k0_pay2 (F := Ideal) s i = Ideal.exp (s i) := rfl

theorem pay3_apply (s : FVec Ideal S4x8x1024 .f32) (v : Vec Ideal S1x4x1024x128 .f32) (q : Fin 8) (hh : Fin 4) (d : Fin 128) :
    k0_pay3 (F := Ideal) s v (ix3 q hh d)
      = ∑ k : Fin 1024, Ideal.exp (s (ix3 hh q k)) * v (ix4 (0 : Fin 1) hh k d) := by
  unfold k0_pay3
  rw [transpose_ix3_102_apply, matmul_single_apply dot_S4x8x1024_S4x1024x128_S4x8x128_2_1_1_2_0_0 1024 rfl rfl _ _ _
    (fun k => ix3 hh q k) (fun k => ix3 hh k d) (fun _ => eq_ix3 _) (fun _ => eq_ix3 _)]
  refine Finset.sum_congr rfl fun k _ => ?_
  rw [shapeCast_1abc_abc_apply, pay2_apply]
theorem pay4_apply (s : FVec Ideal S4x8x1024 .f32) (v : Vec Ideal S1x4x1024x128 .f32) (q : Fin 8) (hh : Fin 4) (d : Fin 128) :
    k0_pay4 (F := Ideal) s v (ix3 q hh d)
      = ∑ k : Fin 1024, Ideal.exp (s (ix3 hh q k)) * v (ix4 (0 : Fin 1) hh k d) := by
  unfold k0_pay4
  rw [shapeCast_self, pay3_apply]

theorem pay5_apply (s : FVec Ideal S4x8x1024 .f32) (v : Vec Ideal S1x4x1024x128 .f32) (u : Fin 1) (q : Fin 8) (hh : Fin 4) (d : Fin 128) :
    k0_pay5 (F := Ideal) s v (ix4 u q hh d)
      = ∑ k : Fin 1024, Ideal.exp (s (ix3 hh q k)) * v (ix4 (0 : Fin 1) hh k d) := by
  unfold k0_pay5
  rw [shapeCast_abc_1abc_apply, truncf_apply, pay3_apply]

theorem rowsum_apply (src : FVec Ideal S4x8x1024 .f32) (hφ : FKind.Formats .f32)
    (hacc : (0x00000000#32 : BitVec 32) = FKind.add.neutral .f32 hφ) (hh : Fin 4) (q : Fin 8) :
    multiReduction .add [2] S4x8 src 0x00000000#32 reduces_S4x8x1024_S4x8 hφ hacc (ix2 hh q)
      = ∑ k : Fin 1024, src (ix3 hh q k) := by
  refine (Ideal.multiReduction_add_single src _ reduces_S4x8x1024_S4x8 hφ hacc (ix2 hh q)).trans ?_
  refine Finset.sum_congr rfl fun k _ => congrArg src (funext fun a => Fin.ext ?_)
  match a with
  | ⟨0, _⟩ => rfl
  | ⟨1, _⟩ => rfl
  | ⟨2, _⟩ => rfl

theorem pay6_apply (s : FVec Ideal S4x8x1024 .f32) (u : Fin 1) (q : Fin 8) (hh : Fin 4) :
    k0_pay6 (F := Ideal) s (ix3 u q hh) = ∑ k : Fin 1024, Ideal.exp (s (ix3 hh q k)) := by
  unfold k0_pay6
  rw [shapeCast_ab_1ab_apply, transpose_ix2_apply]
  exact rowsum_apply (k0_pay2 s) _ _ hh q

end Cert.KernelIdeal.KValue

end
-- ==== Proof.KValueDev.lean ====
import proofs.«900787_g7700000000000788_dist_flashdec_v7x_xyz2x2x4_y_b8_sq8_skv1024_h16_d128_f32_1_alg».proof.Proof.Vals
import proofs.«900787_g7700000000000788_dist_flashdec_v7x_xyz2x2x4_y_b8_sq8_skv1024_h16_d128_f32_1_alg».proof.Proof.RefValueSpec
import proofs.«900787_g7700000000000788_dist_flashdec_v7x_xyz2x2x4_y_b8_sq8_skv1024_h16_d128_f32_1_alg».proof.Proof.KValuePayA

noncomputable section

open scoped BigOperators

namespace Cert.KernelIdeal.KValue

open Cert.KernelIdeal Cert.KernelIdeal.Gen Cert.KernelIdeal.Mesh
open Idealize.ShloMosaic Idealize.ShloMosaic.ValueIdx Idealize.SL.Sem
open Idealize.ShloMosaic.TcCoe

variable (m : (ℓ : Loc nD τ sig) → Buf (Elt Ideal) ℓ) (Q' : FVec Ideal Cert.Attn.SQ .f32) (K' V' : FVec Ideal Cert.Attn.SKV .f32)

abbrev yFin (c : Dev nD) : Fin 2 := ⟨yOf c, yOf_lt c⟩

variable (hQ : ∀ c : Dev nD, m ((c : Thread nD τ).loc main_arg0) = Q')
    (hK : ∀ (c : Dev nD) (i : S8x1024x16x128.Idx), (m ((c : Thread nD τ).loc main_arg1) : FVec Ideal S8x1024x16x128 .f32) i
        = K' (ix4 (i 0) (Cert.Attn.key ⟨yOf c, yOf_lt c⟩ (i 1)) (i 2) (i 3)))
    (hV : ∀ (c : Dev nD) (i : S8x1024x16x128.Idx), (m ((c : Thread nD τ).loc main_arg2) : FVec Ideal S8x1024x16x128 .f32) i
        = V' (ix4 (i 0) (Cert.Attn.key ⟨yOf c, yOf_lt c⟩ (i 1)) (i 2) (i 3)))

include hQ in
theorem qst_eq (c : Dev nD) (i : S8x8x16x128.Idx) :
    Vals.qst m c i = Q' i := by
  unfold Vals.qst
  rw [hQ c]
  show Q' ((win0_0.blk (0 : Fin 1)).view.emb i) = Q' i
  refine congrArg Q' (funext fun a => Fin.ext ?_)
  match a with
  | ⟨0, _⟩ => show 0 * 8 + 1 * (i 0).val = (i 0).val; omega
  | ⟨1, _⟩ => show 0 * 8 + 1 * (i 1).val = (i 1).val; omega
  | ⟨2, _⟩ => show 0 * 16 + 1 * (i 2).val = (i 2).val; omega
  | ⟨3, _⟩ => show 0 * 128 + 1 * (i 3).val = (i 3).val; omega

include hQ in
theorem qRows_apply (c : Dev nD) (g : Fin 4) (u : Fin 1) (q : Fin 8) (hh : Fin 4) (d : Fin 128) :
    Vals.qRows m c g (ix4 u q hh d) = Q' (ix4 (Vals.pFin c) q (Vals.head g hh) d) := by
  unfold Vals.qRows
  exact qst_eq m Q' hQ c _

include hK in
theorem kSlab_apply (c : Dev nD) (g : Fin 4) (u : Fin 1) (hh : Fin 4) (k : Fin 1024) (d : Fin 128) :
    Vals.kSlab m c g (ix4 u hh k d) = K' (ix4 (Vals.pFin c) (Cert.Attn.key (yFin c) k) (Vals.head g hh) d) := by
  unfold Vals.kSlab
  exact hK c _

include hV in
theorem vSlab_apply (c : Dev nD) (g : Fin 4) (u : Fin 1) (hh : Fin 4) (k : Fin 1024) (d : Fin 128) :
    Vals.vSlab m c g (ix4 u hh k d) = V' (ix4 (Vals.pFin c) (Cert.Attn.key (yFin c) k) (Vals.head g hh) d) := by
  unfold Vals.vSlab
  exact hV c _

include hQ hK in
theorem sc_apply (c : Dev nD) (g : Fin 4) (hh : Fin 4) (q : Fin 8) (k : Fin 1024) :
    Vals.sc m c g (ix3 hh q k)
      = Cert.Attn.score Q' K' (Vals.pFin c) q (Vals.head g hh) (Cert.Attn.key (yFin c) k) := by
  unfold Vals.sc
  rw [pay1_apply]
  unfold Cert.Attn.score Cert.Attn.scale
  refine congrArg (· * _) (Finset.sum_congr rfl fun d _ => ?_)
  rw [qRows_apply m Q' hQ, kSlab_apply m K' hK]

include hQ hK hV in
theorem oG_apply (c : Dev nD) (g : Fin 4) (q : Fin 8) (hh : Fin 4) (d : Fin 128) :
    Vals.oG m c g (ix3 q hh d)
      = Cert.Attn.num Q' K' V' (yFin c) (Vals.pFin c) q (Vals.head g hh) d := by
  unfold Vals.oG
  rw [pay4_apply]
  unfold Cert.Attn.num Cert.Attn.weight
  refine Finset.sum_congr rfl fun k _ => ?_
  rw [sc_apply m Q' K' hQ hK, vSlab_apply m V' hV]

include hQ hK hV in
theorem obG_apply (c : Dev nD) (g : Fin 4) (u : Fin 1) (q : Fin 8) (hh : Fin 4) (d : Fin 128) :
    Vals.obG m c g (ix4 u q hh d)
      = Cert.Attn.num Q' K' V' (yFin c) (Vals.pFin c) q (Vals.head g hh) d := by
  unfold Vals.obG
  rw [pay5_apply]
  unfold Cert.Attn.num Cert.Attn.weight
  refine Finset.sum_congr rfl fun k _ => ?_
  rw [sc_apply m Q' K' hQ hK, vSlab_apply m V' hV]

include hQ hK in
theorem lG_apply (c : Dev nD) (g : Fin 4) (u : Fin 1) (q : Fin 8) (hh : Fin 4) :
    Vals.lG m c g (ix3 u q hh)
      = Cert.Attn.den Q' K' (yFin c) (Vals.pFin c) q (Vals.head g hh) := by
  unfold Vals.lG
  rw [pay6_apply]
  unfold Cert.Attn.den Cert.Attn.weight
  refine Finset.sum_congr rfl fun k _ => ?_
  rw [sc_apply m Q' K' hQ hK]

end Cert.KernelIdeal.KValue

end
-- ==== Proof.KValuePayB.lean ====
import proofs.«900787_g7700000000000788_dist_flashdec_v7x_xyz2x2x4_y_b8_sq8_skv1024_h16_d128_f32_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.KValue

open Cert.KernelIdeal Cert.KernelIdeal.Gen
open Idealize.ShloMosaic Idealize.ShloMosaic.ValueIdx

theorem colcast_apply {α : Type} (x : S8x8.Idx → α) (q j : Fin 8) (u : Fin 1) :
    shapeCast S8x8x1 x shapeCasts_S8x8_S8x8x1 (ix3 q j u) = x (ix2 q j) :=
  shapeCast_apply x _ _ _ (by
    have hu : u.val = 0 := by omega
    rw [Shape.rowMajor_val_three, Shape.rowMajor_val_two]
    show q.val * 8 + j.val = (q.val * 8 + j.val) * 1 + u.val
    omega)

theorem lanebc_apply {α : Type} (x : S8x8x1.Idx → α) (q j : Fin 8) (d : Fin 128) :
    broadcastTo S8x8x128 x broadcasts_S8x8x1_S8x8x128 (ix3 q j d) = x (ix3 q j (0 : Fin 1)) :=
  broadcastTo_apply x _ _ _ fun a => match a with
    | ⟨0, _⟩ => by show q.val = if (8 : Nat) = 1 then 0 else q.val; rw [if_neg (by decide)]
    | ⟨1, _⟩ => by show j.val = if (8 : Nat) = 1 then 0 else j.val; rw [if_neg (by decide)]
    | ⟨2, _⟩ => by show 0 = if (1 : Nat) = 1 then 0 else d.val; rw [if_pos rfl]

theorem cast_abc_11abc_apply {α : Type} (x : S8x8x128.Idx → α) (u w : Fin 1) (q j : Fin 8) (d : Fin 128) :
    shapeCast S1x1x8x8x128 x shapeCasts_S8x8x128_S1x1x8x8x128 (ix5 u w q j d) = x (ix3 q j d) :=
  shapeCast_apply x _ _ _ (by
    have hu : u.val = 0 := by omega
    have hw : w.val = 0 := by omega
    rw [Shape.rowMajor_val_three, Shape.rowMajor_val_five]
    show (q.val * 8 + j.val) * 128 + d.val = (((u.val * 1 + w.val) * 8 + q.val) * 8 + j.val) * 128 + d.val
    omega)

theorem cast_11abc_abc_apply {α : Type} (x : S1x1x8x8x128.Idx → α) (q j : Fin 8) (d : Fin 128) :
    shapeCast S8x8x128 x shapeCasts_S1x1x8x8x128_S8x8x128 (ix3 q j d) = x (ix5 (0 : Fin 1) (0 : Fin 1) q j d) :=
  shapeCast_apply x _ _ _ (by
    rw [Shape.rowMajor_val_three, Shape.rowMajor_val_five]
    show (((0 * 1 + 0) * 8 + q.val) * 8 + j.val) * 128 + d.val = (q.val * 8 + j.val) * 128 + d.val
    omega)

theorem pay23_apply (A : Fin 2 → Vec Ideal S1x8x4x128 .bf16) (q : Fin 8) (k : Fin 2) (hh : Fin 4) (j : Fin 8)
    (hj : j.val = 4 * k.val + hh.val) (d : Fin 128) :
    k0_pay23 (F := Ideal) (A 0) (A 1) (ix3 q j d) = A k (ix4 (0 : Fin 1) q hh d) := by
  unfold k0_pay23
  rw [extf_apply]
  match k, hj with
  | ⟨0, _⟩, hj =>
    have hj' : j.val = 4 * 0 + hh.val := hj
    refine (concatenate_pair_apply_left 1 _ _ concatenates_S8x4x128_S8x4x128_S8x8x128_d1 (ix3 q j d) rfl (ix3 q hh d) (fun b => ?_)).trans ?_
    · match b with
      | ⟨0, _⟩ => rfl
      | ⟨1, _⟩ => show hh.val = j.val; omega
      | ⟨2, _⟩ => rfl
    · exact shapeCast_1abc_abc_apply _ _ _ _ _
  | ⟨1, _⟩, hj =>
    have hj' : j.val = 4 * 1 + hh.val := hj
    refine (concatenate_pair_apply_right 1 _ _ concatenates_S8x4x128_S8x4x128_S8x8x128_d1 (ix3 q j d) rfl rfl (ix3 q hh d) (fun b hb => ?_) ?_).trans ?_
    · match b, hb with
      | ⟨0, _⟩, _ => rfl
      | ⟨1, _⟩, hb => exact absurd rfl hb
      | ⟨2, _⟩, _ => rfl
    · show hh.val + 4 = j.val; omega
    · exact shapeCast_1abc_abc_apply _ _ _ _ _

theorem pay24_apply (L : Fin 2 → Vec Ideal S1x8x4 .f32) (q : Fin 8) (k : Fin 2) (hh : Fin 4) (j : Fin 8)
    (hj : j.val = 4 * k.val + hh.val) :
    k0_pay24 (F := Ideal) (L 0) (L 1) (ix2 q j) = L k (ix3 (0 : Fin 1) q hh) := by
  unfold k0_pay24
  match k, hj with
  | ⟨0, _⟩, hj =>
    have hj' : j.val = 4 * 0 + hh.val := hj
    refine (concatenate_pair_apply_left 1 _ _ concatenates_S8x4_S8x4_S8x8_d1 (ix2 q j) rfl (ix2 q hh) (fun b => ?_)).trans ?_
    · match b with
      | ⟨0, _⟩ => rfl
      | ⟨1, _⟩ => show hh.val = j.val; omega
    · exact shapeCast_1ab_ab_apply _ _ _ _
  | ⟨1, _⟩, hj =>
    have hj' : j.val = 4 * 1 + hh.val := hj
    refine (concatenate_pair_apply_right 1 _ _ concatenates_S8x4_S8x4_S8x8_d1 (ix2 q j) rfl rfl (ix2 q hh) (fun b hb => ?_) ?_).trans ?_
    · match b, hb with
      | ⟨0, _⟩, _ => rfl
      | ⟨1, _⟩, hb => exact absurd rfl hb
    · show hh.val + 4 = j.val; omega
    · exact shapeCast_1ab_ab_apply _ _ _ _

theorem norm_apply (A : Fin 2 → Vec Ideal S1x8x4x128 .bf16) (Lp Lo : Fin 2 → Vec Ideal S1x8x4 .f32)
    (o : Vec Ideal S8x8x128 .f32) (q : Fin 8) (k : Fin 2) (hh : Fin 4) (j : Fin 8) (hj : j.val = 4 * k.val + hh.val) (d : Fin 128) :
    k0_pay26 (F := Ideal) (k0_pay23 (A 0) (A 1)) (k0_pay24 (Lp 0) (Lp 1)) (k0_pay25 (Lo 0)) (Lo 1) o (ix3 q j d)
      = Ideal.div (o (ix3 q j d) + A k (ix4 (0 : Fin 1) q hh d)) (Lo k (ix3 (0 : Fin 1) q hh) + Lp k (ix3 (0 : Fin 1) q hh)) := by
  unfold k0_pay26
  rw [divf_apply, addf_apply, lanebc_apply, colcast_apply, addf_apply, pay23_apply A q k hh j hj d, pay24_apply Lp q k hh j hj]
  exact congrArg (fun t => Ideal.div _ (t + _)) (pay24_apply Lo q k hh j hj)

theorem pay27_apply (o' : FVec Ideal S8x8x128 .f32) (l' : FVec Ideal S8x8 .f32) (l0 : FVec Ideal S8x4 .f32) (l1 : Vec Ideal S1x8x4 .f32)
    (o : Vec Ideal S8x8x128 .f32) (u : Fin 1) (q j : Fin 8) (d : Fin 128) :
    k0_pay27 (F := Ideal) o' l' l0 l1 o (ix4 u q j d) = k0_pay26 (F := Ideal) o' l' l0 l1 o (ix3 q j d) := by
  unfold k0_pay27
  exact shapeCast_abc_1abc_apply _ _ _ _ _ _

theorem pay28_apply (o' : FVec Ideal S8x8x128 .f32) (l' : FVec Ideal S8x8 .f32) (l0 : FVec Ideal S8x4 .f32) (l1 : Vec Ideal S1x8x4 .f32)
    (o : Vec Ideal S8x8x128 .f32) (u w : Fin 1) (q j : Fin 8) (d : Fin 128) :
    k0_pay28 (F := Ideal) o' l' l0 l1 o (ix5 u w q j d) = k0_pay26 (F := Ideal) o' l' l0 l1 o (ix3 q j d) := by
  unfold k0_pay28
  rw [cast_abc_11abc_apply, truncf_apply]

theorem pay32_apply (v : Vec Ideal S1x1x8x8x128 .bf16) (u : Fin 1) (q j : Fin 8) (d : Fin 128) :
    k0_pay32 (F := Ideal) v (ix4 u q j d) = v (ix5 (0 : Fin 1) (0 : Fin 1) q j d) := by
  unfold k0_pay32
  rw [shapeCast_abc_1abc_apply, extf_apply, cast_11abc_abc_apply]

end Cert.KernelIdeal.KValue

end
-- ==== Proof.KValueFin.lean ====
import proofs.«900787_g7700000000000788_dist_flashdec_v7x_xyz2x2x4_y_b8_sq8_skv1024_h16_d128_f32_1_alg».proof.Proof.KValueDev
import proofs.«900787_g7700000000000788_dist_flashdec_v7x_xyz2x2x4_y_b8_sq8_skv1024_h16_d128_f32_1_alg».proof.Proof.KValuePayB

noncomputable section

open scoped BigOperators

namespace Cert.KernelIdeal.KValue

open Cert.KernelIdeal Cert.KernelIdeal.Gen Cert.KernelIdeal.Mesh
open Idealize.ShloMosaic Idealize.ShloMosaic.ValueIdx Idealize.SL.Sem
open Idealize.ShloMosaic.TcCoe

variable (m : (ℓ : Loc nD τ sig) → Buf (Elt Ideal) ℓ) (Q' : FVec Ideal Cert.Attn.SQ .f32) (K' V' : FVec Ideal Cert.Attn.SKV .f32)

theorem pFin_ynbr (c : Dev nD) : Vals.pFin (ynbr c) = Vals.pFin c := Fin.ext (pOf_ynbr c)

theorem yFin_ynbr (c : Dev nD) : yFin (ynbr c) = 1 - yFin c := by revert c; decide

theorem head_grp (h k : Fin 2) (hh : Fin 4) (j : Fin 8) (hj : j.val = 4 * k.val + hh.val) :
    Vals.head (Vals.grp h k) hh = Vals.head8 h j :=
  Fin.ext (by show 4 * (2 * h.val + k.val) + hh.val = 8 * h.val + j.val; omega)

theorem head_div_mod (hd : Fin 16) (h1 : hd.val / 4 < 4) (h2 : hd.val % 4 < 4) :
    Vals.head ⟨hd.val / 4, h1⟩ ⟨hd.val % 4, h2⟩ = hd :=
  Fin.ext (by show 4 * (hd.val / 4) + hd.val % 4 = hd.val; omega)

theorem outFrom_any (y : Fin 2) : Cert.Attn.outFrom y Q' K' V' = Cert.Attn.out Q' K' V' := by
  match y with
  | ⟨0, _⟩ => rfl
  | ⟨1, _⟩ => exact Cert.Attn.outFrom_one Q' K' V'

section
variable (hQ : ∀ c : Dev nD, m ((c : Thread nD τ).loc main_arg0) = Q')
    (hK : ∀ (c : Dev nD) (i : S8x1024x16x128.Idx), (m ((c : Thread nD τ).loc main_arg1) : FVec Ideal S8x1024x16x128 .f32) i
        = K' (ix4 (i 0) (Cert.Attn.key ⟨yOf c, yOf_lt c⟩ (i 1)) (i 2) (i 3)))
    (hV : ∀ (c : Dev nD) (i : S8x1024x16x128.Idx), (m ((c : Thread nD τ).loc main_arg2) : FVec Ideal S8x1024x16x128 .f32) i
        = V' (ix4 (i 0) (Cert.Attn.key ⟨yOf c, yOf_lt c⟩ (i 1)) (i 2) (i 3)))
include hQ hK hV

theorem obPeer_apply (c : Dev nD) (g : Fin 4) (u : Fin 1) (q : Fin 8) (hh : Fin 4) (d : Fin 128) :
    Vals.obPeer m c g (ix4 u q hh d)
      = Cert.Attn.num Q' K' V' (1 - yFin c) (Vals.pFin c) q (Vals.head g hh) d := by
  show Vals.obG m (ynbr c) g (ix4 (0 : Fin 1) q hh d) = _
  rw [obG_apply m Q' K' V' hQ hK hV, pFin_ynbr, yFin_ynbr]

theorem lbPeer_apply (c : Dev nD) (g : Fin 4) (u : Fin 1) (q : Fin 8) (hh : Fin 4) :
    Vals.lbPeer m c g (ix3 u q hh)
      = Cert.Attn.den Q' K' (1 - yFin c) (Vals.pFin c) q (Vals.head g hh) := by
  show Vals.lG m (ynbr c) g (ix3 (0 : Fin 1) q hh) = _
  rw [lG_apply m Q' K' hQ hK, pFin_ynbr, yFin_ynbr]

theorem lbOwn_apply (c : Dev nD) (g : Fin 4) (u : Fin 1) (q : Fin 8) (hh : Fin 4) :
    Vals.lbOwn m c g (ix3 u q hh)
      = Cert.Attn.den Q' K' (yFin c) (Vals.pFin c) q (Vals.head g hh) := by
  show Vals.lG m c g (ix3 (0 : Fin 1) q hh) = _
  rw [lG_apply m Q' K' hQ hK]

theorem omHalf_apply (c : Dev nD) (h : Fin 2) (q j : Fin 8) (d : Fin 128) :
    Vals.omHalf m c h (ix3 q j d)
      = Cert.Attn.num Q' K' V' (yFin c) (Vals.pFin c) q (Vals.head8 h j) d := by
  show Vals.oG m c ⟨(Vals.head8 h j).val / 4, _⟩ (ix3 q ⟨(Vals.head8 h j).val % 4, _⟩ d) = _
  rw [oG_apply m Q' K' V' hQ hK hV, head_div_mod]

theorem fin_apply (c : Dev nD) (h : Fin 2) (q j : Fin 8) (d : Fin 128) :
    Vals.fin m c h (ix3 q j d) = Cert.Attn.out Q' K' V' (ix4 (Vals.pFin c) q (Vals.head8 h j) d) := by
  have h1 : j.val / 4 < 2 := by have := j.isLt; omega
  have h2 : j.val % 4 < 4 := Nat.mod_lt _ (by decide)
  have hj : j.val = 4 * (⟨j.val / 4, h1⟩ : Fin 2).val + (⟨j.val % 4, h2⟩ : Fin 4).val := by
    show j.val = 4 * (j.val / 4) + j.val % 4; omega
  unfold Vals.fin
  refine (norm_apply (fun k => Vals.obPeer m c (Vals.grp h k)) (fun k => Vals.lbPeer m c (Vals.grp h k))
    (fun k => Vals.lbOwn m c (Vals.grp h k)) (Vals.omHalf m c h) q ⟨j.val / 4, h1⟩ ⟨j.val % 4, h2⟩ j hj d).trans ?_
  beta_reduce
  rw [omHalf_apply m Q' K' V' hQ hK hV, obPeer_apply m Q' K' V' hQ hK hV, lbOwn_apply m Q' K' V' hQ hK hV,
    lbPeer_apply m Q' K' V' hQ hK hV, head_grp h ⟨j.val / 4, h1⟩ ⟨j.val % 4, h2⟩ j hj, ← outFrom_any Q' K' V' (yFin c)]
  rfl

theorem finOut_apply (c : Dev nD) (h : Fin 2) (u : Fin 1) (q j : Fin 8) (d : Fin 128) :
    Vals.finOut m c h (ix4 u q j d) = Cert.Attn.out Q' K' V' (ix4 (Vals.pFin c) q (Vals.head8 h j) d) := by
  unfold Vals.finOut
  rw [pay27_apply]
  exact fin_apply m Q' K' V' hQ hK hV c h q j d

theorem finBf_apply (c : Dev nD) (h : Fin 2) (u w : Fin 1) (q j : Fin 8) (d : Fin 128) :
    Vals.finBf m c h (ix5 u w q j d) = Cert.Attn.out Q' K' V' (ix4 (Vals.pFin c) q (Vals.head8 h j) d) := by
  unfold Vals.finBf
  rw [pay28_apply]
  exact fin_apply m Q' K' V' hQ hK hV c h q j d

end

end Cert.KernelIdeal.KValue

end
-- ==== Proof.KValue.lean ====
import proofs.«900787_g7700000000000788_dist_flashdec_v7x_xyz2x2x4_y_b8_sq8_skv1024_h16_d128_f32_1_alg».proof.Proof.KValueFin

noncomputable section

open scoped BigOperators

namespace Cert.KernelIdeal.KValue

open Cert.KernelIdeal Cert.KernelIdeal.Gen Cert.KernelIdeal.Mesh
open Idealize.ShloMosaic Idealize.ShloMosaic.ValueIdx Idealize.SL.Sem
open Idealize.ShloMosaic.TcCoe

theorem head8_div_mod (hd : Fin 16) (h1 : hd.val / 8 < 2) (h2 : hd.val % 8 < 8) :
    Vals.head8 ⟨hd.val / 8, h1⟩ ⟨hd.val % 8, h2⟩ = hd :=
  Fin.ext (by show 8 * (hd.val / 8) + hd.val % 8 = hd.val; omega)

theorem out_eq (m : (ℓ : Loc nD τ sig) → Buf (Elt Ideal) ℓ) (Q' : FVec Ideal Cert.Attn.SQ .f32) (K' V' : FVec Ideal Cert.Attn.SKV .f32)
    (hQ : ∀ c : Dev nD, m ((c : Thread nD τ).loc main_arg0) = Q')
    (hK : ∀ (c : Dev nD) (i : S8x1024x16x128.Idx), (m ((c : Thread nD τ).loc main_arg1) : FVec Ideal S8x1024x16x128 .f32) i
        = K' (ix4 (i 0) (Cert.Attn.key ⟨yOf c, yOf_lt c⟩ (i 1)) (i 2) (i 3)))
    (hV : ∀ (c : Dev nD) (i : S8x1024x16x128.Idx), (m ((c : Thread nD τ).loc main_arg2) : FVec Ideal S8x1024x16x128 .f32) i
        = V' (ix4 (i 0) (Cert.Attn.key ⟨yOf c, yOf_lt c⟩ (i 1)) (i 2) (i 3)))
    (fQ : Cert.Attn.Finite Q') (fK : Cert.Attn.Finite K') (fV : Cert.Attn.Finite V') (c : Dev nD) :
    Vals.out (F := Ideal) m c = Cert.Attn.out Q' K' V' := by
  funext i
  obtain ⟨b, q, hd, d, rfl⟩ : ∃ (b q : Fin 8) (hd : Fin 16) (d : Fin 128), i = ix4 b q hd d :=
    ⟨i 0, i 1, i 2, i 3, eq_ix4 (n0 := 8) (n1 := 8) (n2 := 16) (n3 := 128) i⟩
  have h1 : hd.val / 8 < 2 := by have := hd.isLt; omega
  have h2 : hd.val % 8 < 8 := Nat.mod_lt _ (by decide)
  by_cases hb : b.val = pOf c
  · have e : Vals.out m c (ix4 b q hd d)
        = Vals.finOut m c ⟨hd.val / 8, h1⟩ (ix4 (0 : Fin 1) q ⟨hd.val % 8, h2⟩ d) := if_pos hb
    rw [e, finOut_apply m Q' K' V' hQ hK hV, head8_div_mod, show Vals.pFin c = b from Fin.ext hb.symm]
  · have e : Vals.out m c (ix4 b q hd d)
        = k0_pay32 (Vals.bfSlotOf m c ⟨hd.val / 8, h1⟩ b) (ix4 (0 : Fin 1) q ⟨hd.val % 8, h2⟩ d) := if_neg hb
    rw [e, pay32_apply]
    show Vals.finBf m (plane c b.val) ⟨hd.val / 8, h1⟩ (ix5 (0 : Fin 1) (0 : Fin 1) q ⟨hd.val % 8, h2⟩ d) = _
    rw [finBf_apply m Q' K' V' hQ hK hV, head8_div_mod, show Vals.pFin (plane c b.val) = b from Fin.ext (pOf_plane c b)]

end Cert.KernelIdeal.KValue

end
-- ==== Proof.LayoutFinite.lean ====
import proofs.«900787_g7700000000000788_dist_flashdec_v7x_xyz2x2x4_y_b8_sq8_skv1024_h16_d128_f32_1_alg».proof.Pre_finite_inputs_Kernel
import proofs.«900787_g7700000000000788_dist_flashdec_v7x_xyz2x2x4_y_b8_sq8_skv1024_h16_d128_f32_1_alg».proof.Proof.Spec
import Idealize.ShloMosaic.Lib.ReduceAll
import Idealize.ShloMosaic.Lib.Pipeline.Value
import Idealize.ShloMosaic.Lib.ValueIdx
import Idealize.ShloMosaic.PureOps.Ideal.Laws

noncomputable section

namespace Cert.KernelIdeal.LayoutBridge

open Idealize.ShloMosaic Cert.Pre_finite_inputs_Kernel

instance : Subsingleton S_.Idx := ⟨fun _ _ => funext fun d => d.elim0⟩

theorem real_of_abs_lt_top (x : EReal) (h : max x (-x) < ⊤) : ∃ r : ℝ, x = (r : EReal) := by
  induction x using EReal.rec with
  | bot => simp at h
  | top => simp at h
  | coe r => exact ⟨r, rfl⟩

theorem ofBits_pos_inf : Ideal.ofBits .f32 0x7F800000#32 = (⊤ : EReal) := by simp [Ideal.ofBits, Ideal.ieee]

theorem real_of_test {s : Shape} (X : FVec Ideal s .f32) (hb : S_.BroadcastsInDim s (![] : Fin 0 → Fin s.rank)) (i : s.Idx)
    (h : cmpf .olt (Host.absf X) (broadcastInDim s ![] hb (constant (F := Ideal) S_ .f32 0x7F800000#32)) i = 1#1) :
    ∃ r : ℝ, X i = (r : EReal) := by
  have hbc : broadcastInDim s ![] hb (constant (F := Ideal) S_ .f32 0x7F800000#32) i = Ideal.ofBits .f32 0x7F800000#32 :=
    broadcastInDim_apply _ hb _ i (fun a => a.elim0) (fun a => a.elim0)
  have h' : Ideal.cmp .olt (max (X i) (-(X i))) (⊤ : EReal) = 1#1 := by
    rw [← ofBits_pos_inf, ← hbc]; exact h
  refine real_of_abs_lt_top (X i) ?_
  by_contra hn
  simp [Ideal.cmp, hn] at h'

theorem finite_of_pre [Facts] (A : FVec Ideal S8x8x16x128 .f32) (B C : FVec Ideal S8x1024x16x128 .f32)
    (h : fn (F := Ideal) A B C = fun _ => 1#1) :
    Cert.Attn.Finite A ∧ Cert.Attn.Finite B ∧ Cert.Attn.Finite C := by
  have h0 := congrFun h ValueIdx.ix0
  dsimp only [fn] at h0
  obtain ⟨h01, hC⟩ := IntOp.andi_eq_one.1 h0
  obtain ⟨hA, hB⟩ := IntOp.andi_eq_one.1 h01
  exact ⟨fun i => real_of_test A _ i (Host.reduce_andi_all _ _ _ _ _ hA i),
    fun i => real_of_test B _ i (Host.reduce_andi_all _ _ _ _ _ hB i),
    fun i => real_of_test C _ i (Host.reduce_andi_all _ _ _ _ _ hC i)⟩

end Cert.KernelIdeal.LayoutBridge

end
-- ==== Proof.LayoutBridge.lean ====
import proofs.«900787_g7700000000000788_dist_flashdec_v7x_xyz2x2x4_y_b8_sq8_skv1024_h16_d128_f32_1_alg».proof.Defs
import proofs.«900787_g7700000000000788_dist_flashdec_v7x_xyz2x2x4_y_b8_sq8_skv1024_h16_d128_f32_1_alg».proof.Proof.Mesh
import proofs.«900787_g7700000000000788_dist_flashdec_v7x_xyz2x2x4_y_b8_sq8_skv1024_h16_d128_f32_1_alg».proof.Proof.Spec
import proofs.«900787_g7700000000000788_dist_flashdec_v7x_xyz2x2x4_y_b8_sq8_skv1024_h16_d128_f32_1_alg».proof.Proof.LayoutFinite
import Idealize.ShloMosaic.Lib.Layout
import Idealize.ShloMosaic.Lib.ValueIdx

noncomputable section

namespace Cert.KernelIdeal.LayoutBridge

open Idealize.ShloMosaic Idealize.SL.Sem Cert.KernelIdeal.Mesh

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

abbrev Agree : Prop :=
  ∀ c : Dev Cert.KernelIdeal.nD,
    m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
    ∧ m ((c.tc : Thread Cert.KernelIdeal.nD Cert.KernelIdeal.τ).loc Cert.KernelIdeal.main_arg1) = Layout.blockN ⟨4, ![8, 1024, 16, 128]⟩ ⟨4, ![8, 2048, 16, 128]⟩ (Layout.meshBlock [2, 2, 4] ![[], [1], [], []] c) (m' (((0 : Dev Cert.ReferenceIdeal.nD).tc : Thread Cert.ReferenceIdeal.nD Cert.ReferenceIdeal.τ).loc Cert.ReferenceIdeal.main_arg1))
    ∧ m ((c.tc : Thread Cert.KernelIdeal.nD Cert.KernelIdeal.τ).loc Cert.KernelIdeal.main_arg2) = Layout.blockN ⟨4, ![8, 1024, 16, 128]⟩ ⟨4, ![8, 2048, 16, 128]⟩ (Layout.meshBlock [2, 2, 4] ![[], [1], [], []] c) (m' (((0 : Dev Cert.ReferenceIdeal.nD).tc : Thread Cert.ReferenceIdeal.nD Cert.ReferenceIdeal.τ).loc Cert.ReferenceIdeal.main_arg2))

set_option quotPrecheck false in
local notation "Q'" => (m' (((0 : Dev Cert.ReferenceIdeal.nD).tc : Thread Cert.ReferenceIdeal.nD Cert.ReferenceIdeal.τ).loc Cert.ReferenceIdeal.main_arg0) : FVec Ideal Cert.Attn.SQ .f32)
set_option quotPrecheck false in
local notation "K'" => (m' (((0 : Dev Cert.ReferenceIdeal.nD).tc : Thread Cert.ReferenceIdeal.nD Cert.ReferenceIdeal.τ).loc Cert.ReferenceIdeal.main_arg1) : FVec Ideal Cert.Attn.SKV .f32)
set_option quotPrecheck false in
local notation "V'" => (m' (((0 : Dev Cert.ReferenceIdeal.nD).tc : Thread Cert.ReferenceIdeal.nD Cert.ReferenceIdeal.τ).loc Cert.ReferenceIdeal.main_arg2) : FVec Ideal Cert.Attn.SKV .f32)

theorem blockIdx (c : Dev Cert.KernelIdeal.nD) (i : Cert.KernelIdeal.S8x1024x16x128.Idx)
    (hT : Layout.TilesN (⟨4, ![8, 1024, 16, 128]⟩ : Shape) ⟨4, ![8, 2048, 16, 128]⟩
      (fun b => Layout.cutSize [2, 2, 4] ((![[], [1], [], []] : Fin 4 → List Nat) b))) :
    hT.idx (Layout.meshBlock [2, 2, 4] ![[], [1], [], []] c) i
      = ValueIdx.ix4 (i 0) (Cert.Attn.key ⟨yOf c, yOf_lt c⟩ (i 1)) (i 2) (i 3) := by
  funext a
  apply Fin.ext
  rw [Layout.TilesN.idx_val]
  match a with
  | ⟨0, _⟩ => show 0 * 8 + (i 0).val = (i 0).val; omega
  | ⟨1, _⟩ => show ((c.val / 4) % 2 * 1 + 0) * 1024 + (i 1).val = (c.val / 4) % 2 * 1024 + (i 1).val; omega
  | ⟨2, _⟩ => show 0 * 16 + (i 2).val = (i 2).val; omega
  | ⟨3, _⟩ => show 0 * 128 + (i 3).val = (i 3).val; omega

theorem arg0_eq (hagree : Agree m m') (c : Dev Cert.KernelIdeal.nD) :
    m ((c.tc : Thread Cert.KernelIdeal.nD Cert.KernelIdeal.τ).loc Cert.KernelIdeal.main_arg0) = Q' :=
  (hagree c).1

theorem arg1_apply (hagree : Agree m m') (c : Dev Cert.KernelIdeal.nD) (i : Cert.KernelIdeal.S8x1024x16x128.Idx) :
    (m ((c.tc : Thread Cert.KernelIdeal.nD Cert.KernelIdeal.τ).loc Cert.KernelIdeal.main_arg1) : FVec Ideal Cert.KernelIdeal.S8x1024x16x128 .f32) i
      = K' (ValueIdx.ix4 (i 0) (Cert.Attn.key ⟨yOf c, yOf_lt c⟩ (i 1)) (i 2) (i 3)) := by
  rw [(hagree c).2.1]
  exact congrArg K' (blockIdx c i _)

theorem arg2_apply (hagree : Agree m m') (c : Dev Cert.KernelIdeal.nD) (i : Cert.KernelIdeal.S8x1024x16x128.Idx) :
    (m ((c.tc : Thread Cert.KernelIdeal.nD Cert.KernelIdeal.τ).loc Cert.KernelIdeal.main_arg2) : FVec Ideal Cert.KernelIdeal.S8x1024x16x128 .f32) i
      = V' (ValueIdx.ix4 (i 0) (Cert.Attn.key ⟨yOf c, yOf_lt c⟩ (i 1)) (i 2) (i 3)) := by
  rw [(hagree c).2.2]
  exact congrArg V' (blockIdx c i _)

theorem key_covered (k : Fin 2048) :
    ∃ (c : Dev Cert.KernelIdeal.nD) (k' : Fin 1024), Cert.Attn.key ⟨yOf c, yOf_lt c⟩ k' = k := by
  by_cases hk : k.val < 1024
  · exact ⟨⟨0, by decide⟩, ⟨k.val, hk⟩, Fin.ext (by show (0 / 4) % 2 * 1024 + k.val = k.val; omega)⟩
  · exact ⟨⟨4, by decide⟩, ⟨k.val - 1024, by have := k.isLt; omega⟩,
      Fin.ext (by show (4 / 4) % 2 * 1024 + (k.val - 1024) = k.val; omega)⟩

theorem finite_of_halves (X : FVec Ideal Cert.Attn.SKV .f32) (Y : Dev Cert.KernelIdeal.nD → FVec Ideal Cert.Attn.SKVh .f32)
    (hY : ∀ (c : Dev Cert.KernelIdeal.nD) (i : Cert.Attn.SKVh.Idx),
      Y c i = X (ValueIdx.ix4 (i 0) (Cert.Attn.key ⟨yOf c, yOf_lt c⟩ (i 1)) (i 2) (i 3)))
    (hfin : ∀ c, Cert.Attn.Finite (Y c)) : Cert.Attn.Finite X := by
  intro j
  obtain ⟨b, k, h, d, rfl⟩ : ∃ (b : Fin 8) (k : Fin 2048) (h : Fin 16) (d : Fin 128), j = ValueIdx.ix4 b k h d :=
    ⟨j 0, j 1, j 2, j 3, ValueIdx.eq_ix4 j⟩
  obtain ⟨c, k', hk⟩ := key_covered k
  obtain ⟨r, hr⟩ := hfin c (ValueIdx.ix4 b k' h d)
  refine ⟨r, ?_⟩
  rw [← hr, hY c (ValueIdx.ix4 b k' h d)]
  show X (ValueIdx.ix4 b k h d) = X (ValueIdx.ix4 b (Cert.Attn.key ⟨yOf c, yOf_lt c⟩ k') h d)
  rw [hk]

theorem finite_whole [hPre_finite_inputs_Kernel : Cert.Pre_finite_inputs_Kernel.Facts]
    (hpre : Cert.Pre_KernelIdeal m) (hagree : Agree m m') :
    Cert.Attn.Finite Q' ∧ Cert.Attn.Finite K' ∧ Cert.Attn.Finite V' := by
  refine ⟨?_, ?_, ?_⟩
  · have h0 := (finite_of_pre _ _ _ (hpre (0 : Dev Cert.KernelIdeal.nD))).1
    rw [arg0_eq m m' hagree] at h0
    exact h0
  · exact finite_of_halves K' (fun c => m ((c.tc : Thread Cert.KernelIdeal.nD Cert.KernelIdeal.τ).loc Cert.KernelIdeal.main_arg1)) (fun c i => arg1_apply m m' hagree c i)
      (fun c => (finite_of_pre _ _ _ (hpre c)).2.1)
  · exact finite_of_halves V' (fun c => m ((c.tc : Thread Cert.KernelIdeal.nD Cert.KernelIdeal.τ).loc Cert.KernelIdeal.main_arg2)) (fun c i => arg2_apply m m' hagree c i)
      (fun c => (finite_of_pre _ _ _ (hpre c)).2.2)

end Cert.KernelIdeal.LayoutBridge

end
-- ==== Proof.RefValue.lean ====
import proofs.«900787_g7700000000000788_dist_flashdec_v7x_xyz2x2x4_y_b8_sq8_skv1024_h16_d128_f32_1_alg».proof.Proof.Gen.ReferenceIdeal.Read
import proofs.«900787_g7700000000000788_dist_flashdec_v7x_xyz2x2x4_y_b8_sq8_skv1024_h16_d128_f32_1_alg».proof.Proof.RefValueSpec
import Idealize.ShloMosaic.PureOps.Ideal.Laws
import Idealize.ShloMosaic.PureOps.Reduce
import Idealize.ShloMosaic.Lib.ValueIdx

noncomputable section

open scoped BigOperators

namespace Cert.ReferenceIdeal.RefValue

open Cert.ReferenceIdeal Cert.ReferenceIdeal.Gen Cert.ReferenceIdeal.Read Idealize.ShloMosaic
  Idealize.ShloMosaic.ValueIdx Cert.Attn

theorem lidx_v0 (b q : Fin 8) (h : Fin 16) (k : Fin 2048) (d : Fin 128) :
    lidx_main_v0 (ix4 b h q k) d = ix4 b q h d :=
  eq_ix4 _

theorem ridx_v0 (b q : Fin 8) (h : Fin 16) (k : Fin 2048) (d : Fin 128) :
    ridx_main_v0 (ix4 b h q k) d = ix4 b k h d :=
  eq_ix4 _

theorem idx_v4_v5 (b q : Fin 8) (h : Fin 16) (k : Fin 2048) :
    idx_main_v4 (idx_main_v5 (ix4 b h q k)) = ix3 b h q :=
  eq_ix3 _

theorem idx_v8 (b q : Fin 8) (h : Fin 16) (k : Fin 2048) : idx_main_v8 (ix3 b h q) k = ix4 b h q k :=
  eq_ix4 _

theorem idx_v9_v10 (b q : Fin 8) (h : Fin 16) (k : Fin 2048) :
    idx_main_v9 (idx_main_v10 (ix4 b h q k)) = ix3 b h q :=
  eq_ix3 _

theorem idx_v13 (b q : Fin 8) (h : Fin 16) (d : Fin 128) : idx_main_v13 (ix4 b q h d) = ix4 b h d q :=
  eq_ix4 _

theorem lidx_v12 (b q : Fin 8) (h : Fin 16) (d : Fin 128) (k : Fin 2048) :
    lidx_main_v12 (ix4 b h d q) k = ix4 b k h d :=
  eq_ix4 _

theorem ridx_v12 (b q : Fin 8) (h : Fin 16) (d : Fin 128) (k : Fin 2048) :
    ridx_main_v12 (ix4 b h d q) k = ix4 b h q k :=
  eq_ix4 _

theorem lift_keys (hr : S8x16x8x2048.Reduces [3] S8x16x8) (b q : Fin 8) (h : Fin 16) (k : Fin (S8x16x8x2048.size 3)) :
    hr.lift (ix3 b h q) k = ix4 b h q (⟨k.val, k.isLt⟩ : Fin 2048) :=
  eq_ix4 _

theorem ofBits_neg_inf : Ideal.ofBits .f32 0xFF800000#32 = (⊥ : EReal) := by simp [Ideal.ofBits, Ideal.ieee]

section
variable (Q : FVec Ideal SQ .f32) (K V : FVec Ideal SKV .f32)

def rowMax (b q : Fin 8) (h : Fin 16) : EReal :=
  (Finset.univ : Finset (Fin 2048)).fold max (⊥ : EReal) fun k => score Q K b q h k

theorem v2_eq (b q : Fin 8) (h : Fin 16) (k : Fin 2048) :
    val_main_v2 (F := Ideal) Q K (ix4 b h q k) = score Q K b q h k := by
  rw [val_main_v2_apply, val_main_v0_apply, val_main_v1_apply, val_main_cst_apply]
  simp only [lidx_v0, ridx_v0]
  rfl

theorem v3_eq (b q : Fin 8) (h : Fin 16) : val_main_v3 (F := Ideal) Q K (ix3 b h q) = rowMax Q K b q h := by
  have hr : S8x16x8x2048.Reduces [3] S8x16x8 := by decide
  have hf : (val_main_v2 (F := Ideal) Q K ∘ hr.lift (ix3 b h q)) = fun k : Fin 2048 => score Q K b q h k :=
    funext fun k => (congrArg (val_main_v2 (F := Ideal) Q K) (lift_keys hr b q h k)).trans (v2_eq Q K b q h ⟨k.val, k.isLt⟩)
  have hb : val_main_cst_0 (F := Ideal) (Shape.Idx.first h_S_) = (⊥ : EReal) := ofBits_neg_inf
  unfold val_main_v3
  refine (Host.reduce_eq_fold_single (FloatOps.maximumf (F := Ideal) (φ := .f32)) (val_main_v2 (F := Ideal) Q K)
    (val_main_cst_0 (F := Ideal)) reducesTo_S8x16x8x2048_S8x16x8_d3 hr h_S_ (ix3 b h q)).trans ?_
  refine (congrArg (fun z : EReal => Finset.fold max z (val_main_v2 (F := Ideal) Q K ∘ hr.lift (ix3 b h q))
    (Finset.univ : Finset (Fin 2048))) hb).trans ?_
  exact congrArg (fun f => Finset.fold max (⊥ : EReal) f (Finset.univ : Finset (Fin 2048))) hf

theorem v7_eq (b q : Fin 8) (h : Fin 16) (k : Fin 2048) :
    val_main_v7 (F := Ideal) Q K (ix4 b h q k) = Ideal.exp (score Q K b q h k - rowMax Q K b q h) := by
  rw [val_main_v7_apply, val_main_v6_apply, val_main_v5_apply, val_main_v4_apply, idx_v4_v5, v3_eq, v2_eq]
  rfl

theorem v8_eq (b q : Fin 8) (h : Fin 16) :
    val_main_v8 (F := Ideal) Q K (ix3 b h q)
      = (0 : EReal) + ∑ k : Fin 2048, Ideal.exp (score Q K b q h k - rowMax Q K b q h) := by
  rw [val_main_v8_apply, val_main_cst_1_apply]
  simp only [idx_v8, v7_eq]
  show Ideal.ofBits .f32 0x00000000#32 + _ = _
  rw [Ideal.ofBits_zero_f32]

theorem v11_eq (b q : Fin 8) (h : Fin 16) (k : Fin 2048) :
    val_main_v11 (F := Ideal) Q K (ix4 b h q k)
      = Ideal.div (Ideal.exp (score Q K b q h k - rowMax Q K b q h))
          ((0 : EReal) + ∑ j : Fin 2048, Ideal.exp (score Q K b q h j - rowMax Q K b q h)) := by
  rw [val_main_v11_apply, val_main_v10_apply, val_main_v9_apply, idx_v9_v10, v8_eq, v7_eq]
  rfl

theorem v13_eq (b q : Fin 8) (h : Fin 16) (d : Fin 128) :
    val_main_v13 (F := Ideal) Q K V (ix4 b q h d)
      = ∑ k : Fin 2048, V (ix4 b k h d) * Ideal.div (Ideal.exp (score Q K b q h k - rowMax Q K b q h))
          ((0 : EReal) + ∑ j : Fin 2048, Ideal.exp (score Q K b q h j - rowMax Q K b q h)) := by
  rw [val_main_v13_apply, idx_v13, val_main_v12_apply]
  simp only [lidx_v12, ridx_v12, v11_eq]

end

theorem stage_eq (Q : FVec Ideal SQ .f32) (K V : FVec Ideal SKV .f32) (hQ : Cert.Attn.Finite Q)
    (hK : Cert.Attn.Finite K) (hV : Cert.Attn.Finite V) :
    val_main_v13 (F := Ideal) Q K V = Cert.Attn.out Q K V := by
  funext i
  obtain ⟨b, q, h, d, rfl⟩ : ∃ (b q : Fin 8) (h : Fin 16) (d : Fin 128), i = ix4 b q h d :=
    ⟨i 0, i 1, i 2, i 3, eq_ix4 i⟩
  rw [v13_eq, out_apply]
  exact Cert.AttnAlgebra.softmax_fold_max (fun k : Fin 2048 => score Q K b q h k) (fun k : Fin 2048 => V (ix4 b k h d))
    (fun k => score_real Q K hQ hK b q h k) (fun k => hV (ix4 b k h d))

theorem result_eq (Q : FVec Ideal SQ .f32) (K V : FVec Ideal SKV .f32) (hQ : Cert.Attn.Finite Q)
    (hK : Cert.Attn.Finite K) (hV : Cert.Attn.Finite V) :
    transpose S8x8x16x128 [0, 3, 1, 2] (Host.dotGeneral dot_S8x2048x16x128_S8x16x8x2048_S8x16x128x8_1_3_3_2_02_01 none V (Host.divf (Host.exp (subf (mulf (Host.dotGeneral dot_S8x8x16x128_S8x2048x16x128_S8x16x8x2048_3_3_1_1_02_02 none Q K) (broadcastInDim S8x16x8x2048 ![] bcast_S_S8x16x8x2048 (constant S_ .f32 0x3DB504F3#32))) (broadcastInDim S8x16x8x2048 ![0, 1, 2, 3] bcast_S8x16x8x1_S8x16x8x2048_0_1_2_3 (broadcastInDim S8x16x8x1 ![0, 1, 2] bcast_S8x16x8_S8x16x8x1_0_1_2 (Host.reduce FloatOps.maximumf (mulf (Host.dotGeneral dot_S8x8x16x128_S8x2048x16x128_S8x16x8x2048_3_3_1_1_02_02 none Q K) (broadcastInDim S8x16x8x2048 ![] bcast_S_S8x16x8x2048 (constant S_ .f32 0x3DB504F3#32))) (constant S_ .f32 0xFF800000#32) reducesTo_S8x16x8x2048_S8x16x8_d3 h_S_))))) (broadcastInDim S8x16x8x2048 ![0, 1, 2, 3] bcast_S8x16x8x1_S8x16x8x2048_0_1_2_3 (broadcastInDim S8x16x8x1 ![0, 1, 2] bcast_S8x16x8_S8x16x8x1_0_1_2 (Host.reduceAdd (Host.exp (subf (mulf (Host.dotGeneral dot_S8x8x16x128_S8x2048x16x128_S8x16x8x2048_3_3_1_1_02_02 none Q K) (broadcastInDim S8x16x8x2048 ![] bcast_S_S8x16x8x2048 (constant S_ .f32 0x3DB504F3#32))) (broadcastInDim S8x16x8x2048 ![0, 1, 2, 3] bcast_S8x16x8x1_S8x16x8x2048_0_1_2_3 (broadcastInDim S8x16x8x1 ![0, 1, 2] bcast_S8x16x8_S8x16x8x1_0_1_2 (Host.reduce FloatOps.maximumf (mulf (Host.dotGeneral dot_S8x8x16x128_S8x2048x16x128_S8x16x8x2048_3_3_1_1_02_02 none Q K) (broadcastInDim S8x16x8x2048 ![] bcast_S_S8x16x8x2048 (constant S_ .f32 0x3DB504F3#32))) (constant S_ .f32 0xFF800000#32) reducesTo_S8x16x8x2048_S8x16x8_d3 h_S_))))) (constant S_ .f32 0x00000000#32) reducesTo_S8x16x8x2048_S8x16x8_d3 h_S_))))) transposes_S8x16x128x8_S8x8x16x128_0_3_1_2
      = Cert.Attn.out Q K V :=
  (val_main_v13_eq (F := Ideal) Q K V).trans (stage_eq Q K V hQ hK hV)

end Cert.ReferenceIdeal.RefValue

end
-- ==== Proof.Claims.lean ====
import proofs.«900787_g7700000000000788_dist_flashdec_v7x_xyz2x2x4_y_b8_sq8_skv1024_h16_d128_f32_1_alg».proof.Defs
import proofs.«900787_g7700000000000788_dist_flashdec_v7x_xyz2x2x4_y_b8_sq8_skv1024_h16_d128_f32_1_alg».proof.Proof.Launch
import proofs.«900787_g7700000000000788_dist_flashdec_v7x_xyz2x2x4_y_b8_sq8_skv1024_h16_d128_f32_1_alg».proof.Proof.LaunchK
import proofs.«900787_g7700000000000788_dist_flashdec_v7x_xyz2x2x4_y_b8_sq8_skv1024_h16_d128_f32_1_alg».proof.Proof.KValue
import proofs.«900787_g7700000000000788_dist_flashdec_v7x_xyz2x2x4_y_b8_sq8_skv1024_h16_d128_f32_1_alg».proof.Proof.LayoutBridge
import proofs.«900787_g7700000000000788_dist_flashdec_v7x_xyz2x2x4_y_b8_sq8_skv1024_h16_d128_f32_1_alg».proof.Proof.RefValue
import proofs.«900787_g7700000000000788_dist_flashdec_v7x_xyz2x2x4_y_b8_sq8_skv1024_h16_d128_f32_1_alg».proof.Proof.Gen.ReferenceIdeal.Run
import proofs.«900787_g7700000000000788_dist_flashdec_v7x_xyz2x2x4_y_b8_sq8_skv1024_h16_d128_f32_1_alg».proof.Proof.Gen.Pre_finite_inputs_Kernel
import proofs.«900787_g7700000000000788_dist_flashdec_v7x_xyz2x2x4_y_b8_sq8_skv1024_h16_d128_f32_1_alg».proof.Proof.Gen.Pre_finite_inputs_ReferenceIdeal

noncomputable section

namespace Cert.Proof.Claims

open Idealize.ShloMosaic Idealize.SL.Sem
open Idealize.ShloMosaic.Pipeline (BodyObligation)

theorem frame_Kernel_of
    (hbodyK : ∀ (m : (ℓ : Loc Cert.Kernel.nD Cert.Kernel.τ Cert.Kernel.sig) → Buf (Elt Bits) ℓ) (c : Dev Cert.Kernel.nD),
      BodyObligation (Cert.Kernel.Iface.dats (F := Bits) m 0 c) (Cert.Kernel.defs₀ (F := Bits)) Cert.Kernel.Proto.𝒱₀ () Set.univ) :
    Cert.frame_Kernel := fun m g _ =>
  (θ_run _ _ _).mono (fun _ h c => ⟨((h c).1 0).trans (Cert.Kernel.LaunchProof.finalA_arg0 m c), (h c).2.1, (h c).2.2⟩)
    (Cert.Kernel.LaunchProof.run_main (F := Bits) m g (hbodyK m))

theorem frame_KernelIdeal_of
    (hbodyI : ∀ (m : (ℓ : Loc Cert.KernelIdeal.nD Cert.KernelIdeal.τ Cert.KernelIdeal.sig) → Buf (Elt Ideal) ℓ) (c : Dev Cert.KernelIdeal.nD),
      BodyObligation (Cert.KernelIdeal.Iface.dats (F := Ideal) m 0 c) (Cert.KernelIdeal.defs₀ (F := Ideal)) Cert.KernelIdeal.Proto.𝒱₀ () Set.univ) :
    Cert.frame_KernelIdeal := fun m g _ =>
  (θ_run _ _ _).mono (fun _ h c => ⟨((h c).1 0).trans (Cert.KernelIdeal.LaunchProof.finalA_arg0 m c), (h c).2.1, (h c).2.2⟩)
    (Cert.KernelIdeal.LaunchProof.run_main (F := Ideal) m g (hbodyI m))

theorem frame_ReferenceIdeal : Cert.frame_ReferenceIdeal := fun m g _ =>
  (θ_run _ _ _).mono (fun _ h c => (h c).2) (Cert.ReferenceIdeal.Value.run (F := Ideal) m g)

theorem preserves_Kernel_KernelIdeal : Cert.preserves_Kernel_KernelIdeal := trivial

theorem algebraic_of
    (hbodyI : ∀ (m : (ℓ : Loc Cert.KernelIdeal.nD Cert.KernelIdeal.τ Cert.KernelIdeal.sig) → Buf (Elt Ideal) ℓ) (c : Dev Cert.KernelIdeal.nD),
      BodyObligation (Cert.KernelIdeal.Iface.dats (F := Ideal) m 0 c) (Cert.KernelIdeal.defs₀ (F := Ideal)) Cert.KernelIdeal.Proto.𝒱₀ () Set.univ) :
    Cert.algebraic_KernelIdeal_ReferenceIdeal := by
  intro m g m' g' hpre hagree
  obtain ⟨fQ, fK, fV⟩ := Cert.KernelIdeal.LayoutBridge.finite_whole m m' hpre hagree
  refine ⟨Cert.Attn.out
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)), ?_, ?_⟩
  · exact (θ_run _ _ _).mono (fun _ h c =>
        ⟨((h c).1 1).trans ((Cert.KernelIdeal.LaunchProof.finalA_out m c).trans
            (Cert.KernelIdeal.KValue.out_eq m _ _ _ (Cert.KernelIdeal.LayoutBridge.arg0_eq m m' hagree)
              (Cert.KernelIdeal.LayoutBridge.arg1_apply m m' hagree) (Cert.KernelIdeal.LayoutBridge.arg2_apply m m' hagree) fQ fK fV c)),
          ((h c).1 0).trans (Cert.KernelIdeal.LaunchProof.finalA_arg0 m c), (h c).2.1, (h c).2.2⟩)
      (Cert.KernelIdeal.LaunchProof.run_main (F := Ideal) m g (hbodyI m))
  · exact (θ_run _ _ _).mono (fun _ h =>
        ⟨(h 0).1.trans (Cert.ReferenceIdeal.RefValue.result_eq _ _ _ fQ fK fV), (h 0).2.1, (h 0).2.2.1, (h 0).2.2.2⟩)
      (Cert.ReferenceIdeal.Value.run (F := Ideal) m' g')

theorem claim_of
    (hbodyI : ∀ (m : (ℓ : Loc Cert.KernelIdeal.nD Cert.KernelIdeal.τ Cert.KernelIdeal.sig) → Buf (Elt Ideal) ℓ) (c : Dev Cert.KernelIdeal.nD),
      BodyObligation (Cert.KernelIdeal.Iface.dats (F := Ideal) m 0 c) (Cert.KernelIdeal.defs₀ (F := Ideal)) Cert.KernelIdeal.Proto.𝒱₀ () Set.univ)
    (hbodyK : ∀ (m : (ℓ : Loc Cert.Kernel.nD Cert.Kernel.τ Cert.Kernel.sig) → Buf (Elt Bits) ℓ) (c : Dev Cert.Kernel.nD),
      BodyObligation (Cert.Kernel.Iface.dats (F := Bits) m 0 c) (Cert.Kernel.defs₀ (F := Bits)) Cert.Kernel.Proto.𝒱₀ () Set.univ) :
    Cert.Claim :=
  ⟨Cert.Kernel.Gen.facts, Cert.KernelIdeal.Gen.facts, Cert.ReferenceIdeal.Gen.facts, Cert.Pre_finite_inputs_Kernel.Gen.facts, Cert.Pre_finite_inputs_ReferenceIdeal.Gen.facts,
    frame_Kernel_of hbodyK, frame_KernelIdeal_of hbodyI, frame_ReferenceIdeal, preserves_Kernel_KernelIdeal, algebraic_of hbodyI⟩

/-- info: 'Cert.Proof.Claims.claim_of' depends on axioms: [propext, Classical.choice, Quot.sound] -/
#guard_msgs in #print axioms claim_of

end Cert.Proof.Claims

end
-- ==== Proof.MeshMore.lean ====
import proofs.«900787_g7700000000000788_dist_flashdec_v7x_xyz2x2x4_y_b8_sq8_skv1024_h16_d128_f32_1_alg».proof.Proof.Mesh

set_option Elab.async false

namespace Cert.KernelIdeal.Mesh

open Idealize.ShloMosaic Cert.KernelIdeal Cert.KernelIdeal.Gen

theorem plane_ring_pOf (c : Dev nD) (d : Fin 8) : plane (ring c d.val) (pOf c) = c := by revert c d; decide

theorem pOf_ne_pOf_ring (c : Dev nD) (d : Fin 8) (hd : d.val ≠ 0) : pOf c ≠ pOf (ring c d.val) := by revert c d; decide

theorem ne_ynbr_ring (c : Dev nD) (d : Fin 8) : c ≠ ynbr (ring c d.val) := by revert c d; decide

theorem rj_zero (c : Dev nD) : (pOf c + 0) % 8 = pOf c := by revert c; decide

theorem rj_ne (c : Dev nD) (d : Fin 8) (hd : d.val ≠ 0) : (pOf c + d.val) % 8 ≠ pOf c := by revert c d; decide

theorem plane_rj (c : Dev nD) (d : Fin 8) : plane c ((pOf c + d.val) % 8) = ring c d.val := by revert c d; decide

def barList (c : Dev nD) : List (Dev nD) := [ynbr c, ring c 1, ring c 2, ring c 3, ring c 4, ring c 5, ring c 6, ring c 7]
theorem barList_nodup (c : Dev nD) : (barList c).Nodup := by revert c; decide
theorem barList_length (c : Dev nD) : (barList c).length = 8 := rfl

theorem barList_toFinset (c : Dev nD) :
    insert (ynbr c) (((Finset.univ : Finset (Fin 8)).image fun d => ring c d.val).erase c) = (barList c).toFinset := by
  revert c; decide

end Cert.KernelIdeal.Mesh
-- ==== Proof.Tables.lean ====
import proofs.«900787_g7700000000000788_dist_flashdec_v7x_xyz2x2x4_y_b8_sq8_skv1024_h16_d128_f32_1_alg».proof.Proof.Iface
import proofs.«900787_g7700000000000788_dist_flashdec_v7x_xyz2x2x4_y_b8_sq8_skv1024_h16_d128_f32_1_alg».proof.Proof.MeshMore

noncomputable section

namespace Cert.KernelIdeal.Tables

open Cert.KernelIdeal Cert.KernelIdeal.Gen Cert.KernelIdeal.Mesh Cert.KernelIdeal.Proto Cert.KernelIdeal.Iface
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem duties_def (g : GSem nD τ sig) (r : ℕ) :
    (RdM m).duties g r = if r = 0 ∧ g.1.2 = .tc then payers g.1.1 (kindOf g.2) else ∅ := rfl
theorem duties_at (c : Dev nD) (s : SemLoc sig) : (RdM m).duties ((c : Thread nD τ), s) 0 = payers c (kindOf s) := by
  rw [duties_def]; exact if_pos ⟨rfl, rfl⟩
theorem amount_at (c e : Dev nD) (s : SemLoc sig) (r : ℕ) : (RdM m).amount ((c : Thread nD τ), s) r e = amt (kindOf s) := rfl
theorem payload_at (c e : Dev nD) (s : SemLoc sig) (r : ℕ) :
    (RdM m).payload ((c : Thread nD τ), s) r e = pay (Vals.landed m) c e (kindOf s) := rfl

theorem duties_bar (c : Dev nD) : (RdM m).duties (barCell c) 0 = (barList c).toFinset := by
  rw [duties_at, kindOf_bar]; exact barList_toFinset c
theorem duties_yoSend (g : Fin 4) (c : Dev nD) : (RdM m).duties (yoSendCell g c) 0 = {c} := by rw [duties_at, kindOf_yoSend]; rfl
theorem duties_ylSend (g : Fin 4) (c : Dev nD) : (RdM m).duties (ylSendCell g c) 0 = {c} := by rw [duties_at, kindOf_ylSend]; rfl
theorem duties_bcSend (i : Fin 14) (c : Dev nD) : (RdM m).duties (bcSendCell i c) 0 = {c} := by rw [duties_at, kindOf_bcSend]; rfl
theorem duties_yoRecv (g : Fin 4) (c : Dev nD) : (RdM m).duties (yoRecvCell g c) 0 = {ynbr c} := by rw [duties_at, kindOf_yoRecv]; rfl
theorem duties_ylRecv (g : Fin 4) (c : Dev nD) : (RdM m).duties (ylRecvCell g c) 0 = {ynbr c} := by rw [duties_at, kindOf_ylRecv]; rfl

theorem duties_bcRecv (h : Fin 2) (j : Fin 8) (c : Dev nD) (hj : j.val ≠ pOf c) : (RdM m).duties (bcRecvCell h j c) 0 = {plane c j.val} := by
  rw [duties_at, kindOf_bcRecv]; exact if_neg hj

theorem duties_bcRecv_rj (h : Fin 2) (c : Dev nD) (d : Fin 8) (hd : d.val ≠ 0) : (RdM m).duties (bcRecvCell h (rj c d.val) c) 0 = {ring c d.val} := by
  rw [duties_bcRecv m h (rj c d.val) c (rj_ne c d hd)]; exact congrArg _ (plane_rj c d)

theorem mem_bar_ynbr (c : Dev nD) : c ∈ (RdM m).duties (barCell (ynbr c)) 0 := by
  rw [duties_at, kindOf_bar]; exact Finset.mem_insert.mpr (Or.inl (ynbr_ynbr c).symm)
theorem mem_bar_ring (c : Dev nD) (d : Fin 8) (hd : d.val ≠ 0) : c ∈ (RdM m).duties (barCell (ring c d.val)) 0 := by
  rw [duties_at, kindOf_bar]
  exact Finset.mem_insert_of_mem (Finset.mem_erase.mpr ⟨(ring_ne c d hd).symm,
    Finset.mem_image.mpr ⟨⟨8 - d.val, by have := d.isLt; omega⟩, Finset.mem_univ _, ring_ring c d⟩⟩)
theorem mem_yoSend (g : Fin 4) (c : Dev nD) : c ∈ (RdM m).duties (yoSendCell g c) 0 := by rw [duties_yoSend]; exact Finset.mem_singleton_self c
theorem mem_ylSend (g : Fin 4) (c : Dev nD) : c ∈ (RdM m).duties (ylSendCell g c) 0 := by rw [duties_ylSend]; exact Finset.mem_singleton_self c
theorem mem_bcSend (i : Fin 14) (c : Dev nD) : c ∈ (RdM m).duties (bcSendCell i c) 0 := by rw [duties_bcSend]; exact Finset.mem_singleton_self c
theorem mem_yoRecv (g : Fin 4) (c : Dev nD) : c ∈ (RdM m).duties (yoRecvCell g (ynbr c)) 0 := by
  rw [duties_yoRecv, ynbr_ynbr]; exact Finset.mem_singleton_self c
theorem mem_ylRecv (g : Fin 4) (c : Dev nD) : c ∈ (RdM m).duties (ylRecvCell g (ynbr c)) 0 := by
  rw [duties_ylRecv, ynbr_ynbr]; exact Finset.mem_singleton_self c
theorem mem_bcRecv (h : Fin 2) (c : Dev nD) (d : Fin 8) (hd : d.val ≠ 0) : c ∈ (RdM m).duties (bcRecvCell h (pFin c) (ring c d.val)) 0 := by
  rw [duties_bcRecv m h (pFin c) (ring c d.val) (pOf_ne_pOf_ring c d hd)]
  exact Finset.mem_singleton.mpr (plane_ring_pOf c d).symm

theorem amount_bar (c e : Dev nD) : (RdM m).amount (barCell c) 0 e = 1 := rfl
theorem amount_yoSend (g : Fin 4) (c e : Dev nD) : (RdM m).amount (yoSendCell g c) 0 e = No := by rw [amount_at, kindOf_yoSend]; rfl
theorem amount_yoRecv (g : Fin 4) (c e : Dev nD) : (RdM m).amount (yoRecvCell g c) 0 e = No := by rw [amount_at, kindOf_yoRecv]; rfl
theorem amount_ylSend (g : Fin 4) (c e : Dev nD) : (RdM m).amount (ylSendCell g c) 0 e = Nl := by rw [amount_at, kindOf_ylSend]; rfl
theorem amount_ylRecv (g : Fin 4) (c e : Dev nD) : (RdM m).amount (ylRecvCell g c) 0 e = Nl := by rw [amount_at, kindOf_ylRecv]; rfl
theorem amount_bcSend (i : Fin 14) (c e : Dev nD) : (RdM m).amount (bcSendCell i c) 0 e = Nb := by rw [amount_at, kindOf_bcSend]; rfl
theorem amount_bcRecv (h : Fin 2) (j : Fin 8) (c e : Dev nD) : (RdM m).amount (bcRecvCell h j c) 0 e = Nb := by rw [amount_at, kindOf_bcRecv]; rfl

theorem payload_bar_ynbr (c : Dev nD) : (RdM m).payload (barCell (ynbr c)) 0 c = payBarY c :=
  if_pos (ynbr_ynbr c).symm
theorem payload_bar_ring (c : Dev nD) (d : Fin 8) (hd : d.val ≠ 0) : (RdM m).payload (barCell (ring c d.val)) 0 c = payBarR (ring c d.val) c :=
  if_neg (ne_ynbr_ring c d)
theorem payload_yoSend (g : Fin 4) (c e : Dev nD) :
    (RdM m).payload (yoSendCell g c) 0 e = ((obSrc g).view.loc (c : Thread nD τ) ↦[(obSrc g).view.set]{fullShare} Vals.ob m c : sProp 𝕄) := by
  rw [payload_at, kindOf_yoSend]; rfl
theorem payload_ylSend (g : Fin 4) (c e : Dev nD) :
    (RdM m).payload (ylSendCell g c) 0 e = ((lbSrc g).view.loc (c : Thread nD τ) ↦[(lbSrc g).view.set]{fullShare.left} Vals.lb m c : sProp 𝕄) := by
  rw [payload_at, kindOf_ylSend]; rfl
theorem payload_yoRecv (g : Fin 4) (c e : Dev nD) :
    (RdM m).payload (yoRecvCell g c) 0 e = ((obDst g).view.loc (c : Thread nD τ) ↦[(obDst g).view.set]{fullShare} Vals.ob m e : sProp 𝕄) := by
  rw [payload_at, kindOf_yoRecv]; rfl
theorem payload_ylRecv (g : Fin 4) (c e : Dev nD) :
    (RdM m).payload (ylRecvCell g c) 0 e = ((lbDst g).view.loc (c : Thread nD τ) ↦[(lbDst g).view.set]{fullShare} Vals.lb m e : sProp 𝕄) := by
  rw [payload_at, kindOf_ylRecv]; rfl

theorem pay_bcSend_eq (V : Landed F) (c e : Dev nD) (i : Fin 14) (h : Fin 2) (d : Fin 8) (hh : i.val / 7 = h.val) (hd : i.val % 7 + 1 = d.val) :
    pay V c e (.bcSend i) = ((bfView c h).view.loc (c : Thread nD τ) ↦[(bfView c h).view.set]{bcShare d} V.bf c : sProp 𝕄) := by
  obtain ⟨hv, hlt⟩ := h; obtain ⟨dv, dlt⟩ := d
  have hh' : i.val / 7 = hv := hh
  have hd' : i.val % 7 + 1 = dv := hd
  subst hh'; subst hd'; rfl

theorem payload_bcSend (h : Fin 2) (d : Fin 8) (hd : d.val ≠ 0) (c e : Dev nD) :
    (RdM m).payload (bcSendCell ⟨7 * h.val + d.val - 1, by have := h.isLt; have := d.isLt; omega⟩ c) 0 e
      = ((bfView c h).view.loc (c : Thread nD τ) ↦[(bfView c h).view.set]{bcShare d} Vals.bf m c : sProp 𝕄) := by
  rw [payload_at, kindOf_bcSend]
  exact pay_bcSend_eq (Vals.landed m) c e _ h d
    (by have := h.isLt; have := d.isLt; show (7 * h.val + d.val - 1) / 7 = h.val; omega)
    (by have := h.isLt; have := d.isLt; show (7 * h.val + d.val - 1) % 7 + 1 = d.val; omega)
theorem payload_bcRecv (h : Fin 2) (j : Fin 8) (c e : Dev nD) :
    (RdM m).payload (bcRecvCell h j c) 0 e = ((bfView e h).view.loc (c : Thread nD τ) ↦[(bfView e h).view.set]{fullShare} Vals.bf m e : sProp 𝕄) := by
  rw [payload_at, kindOf_bcRecv]; rfl

theorem expect_bar (c : Dev nD) : (RdM m).expect (barCell c) 0 = 8 := by
  unfold Schedule.expect Schedule.amountOf
  rw [duties_bar, Finset.sum_congr rfl fun e _ => amount_bar m c e, Finset.sum_const, List.toFinset_card_of_nodup (barList_nodup c), barList_length, smul_eq_mul]
theorem rest_bar (c : Dev nD) :
    bigSep ((RdM m).duties (barCell c) 0 \ ∅) (fun e => (RdM m).payload (barCell c) 0 e)
      = iprop(payBarY (ynbr c) ∗ payBarR c (ring c 1) ∗ payBarR c (ring c 2) ∗ payBarR c (ring c 3) ∗ payBarR c (ring c 4) ∗ payBarR c (ring c 5) ∗ payBarR c (ring c 6) ∗ payBarR c (ring c 7)) := by
  have hy : (RdM m).payload (barCell c) 0 (ynbr c) = payBarY (ynbr c) := if_pos rfl
  have hr : ∀ (k : ℕ) (hk : k < 8), (RdM m).payload (barCell c) 0 (ring c k) = payBarR c (ring c k) := fun k hk =>
    if_neg (ring_ne_ynbr c ⟨k, hk⟩)
  rw [Finset.sdiff_empty, duties_bar, bigSep_eq_bigSepL _ (barList_nodup c)]
  show iprop((RdM m).payload (barCell c) 0 (ynbr c) ∗ (RdM m).payload (barCell c) 0 (ring c 1) ∗ (RdM m).payload (barCell c) 0 (ring c 2)
    ∗ (RdM m).payload (barCell c) 0 (ring c 3) ∗ (RdM m).payload (barCell c) 0 (ring c 4) ∗ (RdM m).payload (barCell c) 0 (ring c 5)
    ∗ (RdM m).payload (barCell c) 0 (ring c 6) ∗ (RdM m).payload (barCell c) 0 (ring c 7)) = _
  rw [hy, hr 1 (by decide), hr 2 (by decide), hr 3 (by decide), hr 4 (by decide), hr 5 (by decide), hr 6 (by decide), hr 7 (by decide)]
theorem expect_yoSend (g : Fin 4) (c : Dev nD) : (RdM m).expect (yoSendCell g c) 0 = No := by
  unfold Schedule.expect Schedule.amountOf; rw [duties_yoSend, Finset.sum_singleton, amount_yoSend]
theorem expect_ylSend (g : Fin 4) (c : Dev nD) : (RdM m).expect (ylSendCell g c) 0 = Nl := by
  unfold Schedule.expect Schedule.amountOf; rw [duties_ylSend, Finset.sum_singleton, amount_ylSend]
theorem expect_bcSend (i : Fin 14) (c : Dev nD) : (RdM m).expect (bcSendCell i c) 0 = Nb := by
  unfold Schedule.expect Schedule.amountOf; rw [duties_bcSend, Finset.sum_singleton, amount_bcSend]
theorem expect_yoRecv (g : Fin 4) (c : Dev nD) : (RdM m).expect (yoRecvCell g c) 0 = No := by
  unfold Schedule.expect Schedule.amountOf; rw [duties_yoRecv, Finset.sum_singleton, amount_yoRecv]
theorem expect_ylRecv (g : Fin 4) (c : Dev nD) : (RdM m).expect (ylRecvCell g c) 0 = Nl := by
  unfold Schedule.expect Schedule.amountOf; rw [duties_ylRecv, Finset.sum_singleton, amount_ylRecv]
theorem expect_bcRecv (h : Fin 2) (c : Dev nD) (d : Fin 8) (hd : d.val ≠ 0) : (RdM m).expect (bcRecvCell h (rj c d.val) c) 0 = Nb := by
  unfold Schedule.expect Schedule.amountOf; rw [duties_bcRecv_rj m h c d hd, Finset.sum_singleton, amount_bcRecv]
theorem rest_yoSend (g : Fin 4) (c : Dev nD) :
    bigSep ((RdM m).duties (yoSendCell g c) 0 \ ∅) (fun e => (RdM m).payload (yoSendCell g c) 0 e)
      = ((obSrc g).view.loc (c : Thread nD τ) ↦[(obSrc g).view.set]{fullShare} Vals.ob m c : sProp 𝕄) := by
  rw [Finset.sdiff_empty, duties_yoSend, bigSep_singleton, payload_yoSend]
theorem rest_ylSend (g : Fin 4) (c : Dev nD) :
    bigSep ((RdM m).duties (ylSendCell g c) 0 \ ∅) (fun e => (RdM m).payload (ylSendCell g c) 0 e)
      = ((lbSrc g).view.loc (c : Thread nD τ) ↦[(lbSrc g).view.set]{fullShare.left} Vals.lb m c : sProp 𝕄) := by
  rw [Finset.sdiff_empty, duties_ylSend, bigSep_singleton, payload_ylSend]
theorem rest_yoRecv (g : Fin 4) (c : Dev nD) :
    bigSep ((RdM m).duties (yoRecvCell g c) 0 \ ∅) (fun e => (RdM m).payload (yoRecvCell g c) 0 e)
      = ((obDst g).view.loc (c : Thread nD τ) ↦[(obDst g).view.set]{fullShare} Vals.ob m (ynbr c) : sProp 𝕄) := by
  rw [Finset.sdiff_empty, duties_yoRecv, bigSep_singleton, payload_yoRecv]
theorem rest_ylRecv (g : Fin 4) (c : Dev nD) :
    bigSep ((RdM m).duties (ylRecvCell g c) 0 \ ∅) (fun e => (RdM m).payload (ylRecvCell g c) 0 e)
      = ((lbDst g).view.loc (c : Thread nD τ) ↦[(lbDst g).view.set]{fullShare} Vals.lb m (ynbr c) : sProp 𝕄) := by
  rw [Finset.sdiff_empty, duties_ylRecv, bigSep_singleton, payload_ylRecv]
theorem rest_bcSend (h : Fin 2) (d : Fin 8) (hd : d.val ≠ 0) (c : Dev nD) :
    bigSep ((RdM m).duties (bcSendCell ⟨7 * h.val + d.val - 1, by have := h.isLt; have := d.isLt; omega⟩ c) 0 \ ∅)
        (fun e => (RdM m).payload (bcSendCell ⟨7 * h.val + d.val - 1, by have := h.isLt; have := d.isLt; omega⟩ c) 0 e)
      = ((bfView c h).view.loc (c : Thread nD τ) ↦[(bfView c h).view.set]{bcShare d} Vals.bf m c : sProp 𝕄) := by
  rw [Finset.sdiff_empty, duties_bcSend, bigSep_singleton, payload_bcSend m h d hd]

theorem rest_bcRecv (h : Fin 2) (c : Dev nD) (d : Fin 8) (hd : d.val ≠ 0) :
    bigSep ((RdM m).duties (bcRecvCell h (rj c d.val) c) 0 \ ∅) (fun e => (RdM m).payload (bcRecvCell h (rj c d.val) c) 0 e)
      = ((bfView (ring c d.val) h).view.loc (c : Thread nD τ) ↦[(bfView (ring c d.val) h).view.set]{fullShare} Vals.bf m (ring c d.val) : sProp 𝕄) := by
  rw [Finset.sdiff_empty, duties_bcRecv_rj m h c d hd, bigSep_singleton, payload_bcRecv]

theorem duties_bcRecv_own (h : Fin 2) (c : Dev nD) (r : ℕ) : (RdM m).duties (bcRecvCell h (rj c 0) c) r = ∅ := by
  rw [duties_def]
  split
  · show payers c (kindOf (.dma (bcRecvS h (rj c 0)))) = ∅
    rw [kindOf_bcRecv]; exact if_pos (rj_zero c)
  · rfl
theorem duties_later (g : GSem nD τ sig) (r : ℕ) (hr : 1 ≤ r) : (RdM m).duties g r = ∅ := by
  rw [duties_def]; exact if_neg fun h => by omega

end Cert.KernelIdeal.Tables

end
-- ==== Proof.Geom.lean ====
import proofs.«900787_g7700000000000788_dist_flashdec_v7x_xyz2x2x4_y_b8_sq8_skv1024_h16_d128_f32_1_alg».proof.Proof.Iface
import Idealize.ShloMosaic.Lib.Pipeline.Value
import Idealize.ShloMosaic.Lib.Ring

noncomputable section

namespace Cert.KernelIdeal.Geom

open Cert.KernelIdeal Cert.KernelIdeal.Gen Cert.KernelIdeal.Mesh Cert.KernelIdeal.Proto Cert.KernelIdeal.Iface
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

open Idealize.ShloMosaic.Ring

theorem inb7 (h : Fin 2) (j : Fin 8) : ∀ a, (![h.val, j.val, 0, 0, 0] : Fin 5 → Nat) a + S1x1x8x8x128.size a ≤ S2x8x8x8x128.size a := by
  revert h j; decide
abbrev slotSet (h : Fin 2) (j : Fin 8) : Finset S2x8x8x8x128.Idx :=
  (Rect.unit (s := S2x8x8x8x128) ![h.val, j.val, 0, 0, 0] S1x1x8x8x128.size (inb7 h j)).set

-- A slot is whole on the last three axes, so only the first two coordinates decide membership.
theorem mem_slotSet (h : Fin 2) (j : Fin 8) (i : S2x8x8x8x128.Idx) : i ∈ slotSet h j ↔ (i 0).val = h.val ∧ (i 1).val = j.val := by
  rw [slotSet, Rect.mem_set_unit]
  refine ⟨fun H => ⟨?_, ?_⟩, fun ⟨e0, e1⟩ a => ?_⟩
  · have : h.val ≤ (i 0).val ∧ (i 0).val < h.val + 1 := H 0
    omega
  · have : j.val ≤ (i 1).val ∧ (i 1).val < j.val + 1 := H 1
    omega
  · match a with
    | ⟨0, _⟩ => show h.val ≤ (i 0).val ∧ (i 0).val < h.val + 1; omega
    | ⟨1, _⟩ => show j.val ≤ (i 1).val ∧ (i 1).val < j.val + 1; omega
    | ⟨2, _⟩ => exact ⟨Nat.zero_le _, (Nat.zero_add 8).symm ▸ (i 2).isLt⟩
    | ⟨3, _⟩ => exact ⟨Nat.zero_le _, (Nat.zero_add 8).symm ▸ (i 3).isLt⟩
    | ⟨4, _⟩ => exact ⟨Nat.zero_le _, (Nat.zero_add 128).symm ▸ (i 4).isLt⟩

theorem bfOff_eq (e : Dev nD) : ∀ h : Fin 2, bfOff e h = ![h.val, pOf e, 0, 0, 0]
  | 0 => off24_eq e
  | 1 => off28_eq e

theorem set_bfView (e : Dev nD) (h : Fin 2) : (bfView e h).view.set = slotSet h ⟨pOf e, pOf_lt e⟩ :=
  ((View.set_reshape _ _).trans (View.set_slice_whole _ _)).trans
    (congrArg (fun r : Rect S2x8x8x8x128 => r.set) (Rect.unit_congr (bfOff_eq e h) _ _))

abbrev peers (c : Dev nD) : Fin 8 → Dev nD := ![c, ring c 1, ring c 2, ring c 3, ring c 4, ring c 5, ring c 6, ring c 7]

theorem pOf_peers (c : Dev nD) (d : Fin 8) : pOf (peers c d) = (pOf c + d.val) % 8 := by
  refine Eq.trans ?_ (pOf_ring c d)
  match d with
  | 0 => exact congrArg pOf (plane_pOf c : ring c 0 = c).symm
  | 1 | 2 | 3 | 4 | 5 | 6 | 7 => rfl

abbrev slots (c : Dev nD) (b : Fin 8 × Fin 2) :
    Finset (Idx ((Memref.whole cc0_scratch7 : Memref sig .tc _ _ _).view.loc (c : Thread nD τ))) :=
  (bfView (peers c b.1) b.2).view.set

-- Step `d`, half `h` names the slot of half `h` at the ring position `d` ahead of `c`'s: sixteen different slots.
theorem mem_slots (c : Dev nD) (b : Fin 8 × Fin 2) (i : S2x8x8x8x128.Idx) :
    i ∈ slots c b ↔ (i 0).val = b.2.val ∧ (i 1).val = (pOf c + b.1.val) % 8 := by
  rw [← pOf_peers, slots, set_bfView, mem_slotSet]

theorem slots_disjoint (c : Dev nD) (b b' : Fin 8 × Fin 2) (hne : b ≠ b') : Disjoint (slots c b) (slots c b') := by
  rw [Finset.disjoint_left]
  intro i hi hi'
  have h1 := (mem_slots c b i).mp hi
  have h2 := (mem_slots c b' i).mp hi'
  have hb := b.1.isLt; have hb' := b'.1.isLt
  exact hne (Prod.ext (Fin.ext (by omega)) (Fin.ext (by omega)))

theorem slots_cover (c : Dev nD) : Finset.univ.biUnion (slots c) = Finset.univ := by
  refine Finset.eq_univ_iff_forall.mpr fun i => Finset.mem_biUnion.mpr ?_
  have hp := pOf_lt c
  have h1 : (i 1).val < 8 := (i 1).isLt
  refine ⟨(⟨((i 1).val + 8 - pOf c) % 8, Nat.mod_lt _ (by decide)⟩, ⟨(i 0).val, (i 0).isLt⟩), Finset.mem_univ _, (mem_slots c _ i).mpr ⟨rfl, ?_⟩⟩
  show (i 1).val = (pOf c + ((i 1).val + 8 - pOf c) % 8) % 8
  omega

abbrev slotList : List (Fin 8 × Fin 2) :=
  [(0, 0), (0, 1), (1, 0), (1, 1), (2, 0), (2, 1), (3, 0), (3, 1), (4, 0), (4, 1), (5, 0), (5, 1), (6, 0), (6, 1), (7, 0), (7, 1)]

theorem split7 (c : Dev nD) (f : Buf (Elt F) ((Memref.whole cc0_scratch7 : Memref sig .tc _ _ _).view.loc (c : Thread nD τ))) :
    (whole c cc0_scratch7 f : sProp 𝕄) ⊢ iprop(((bfView c 0).view.loc (c : Thread nD τ) ↦[(bfView c 0).view.set]{fullShare} f) ∗ ((bfView c 1).view.loc (c : Thread nD τ) ↦[(bfView c 1).view.set]{fullShare} f)
      ∗ ((bfView (ring c 1) 0).view.loc (c : Thread nD τ) ↦[(bfView (ring c 1) 0).view.set]{fullShare} f) ∗ ((bfView (ring c 1) 1).view.loc (c : Thread nD τ) ↦[(bfView (ring c 1) 1).view.set]{fullShare} f)
      ∗ ((bfView (ring c 2) 0).view.loc (c : Thread nD τ) ↦[(bfView (ring c 2) 0).view.set]{fullShare} f) ∗ ((bfView (ring c 2) 1).view.loc (c : Thread nD τ) ↦[(bfView (ring c 2) 1).view.set]{fullShare} f)
      ∗ ((bfView (ring c 3) 0).view.loc (c : Thread nD τ) ↦[(bfView (ring c 3) 0).view.set]{fullShare} f) ∗ ((bfView (ring c 3) 1).view.loc (c : Thread nD τ) ↦[(bfView (ring c 3) 1).view.set]{fullShare} f)
      ∗ ((bfView (ring c 4) 0).view.loc (c : Thread nD τ) ↦[(bfView (ring c 4) 0).view.set]{fullShare} f) ∗ ((bfView (ring c 4) 1).view.loc (c : Thread nD τ) ↦[(bfView (ring c 4) 1).view.set]{fullShare} f)
      ∗ ((bfView (ring c 5) 0).view.loc (c : Thread nD τ) ↦[(bfView (ring c 5) 0).view.set]{fullShare} f) ∗ ((bfView (ring c 5) 1).view.loc (c : Thread nD τ) ↦[(bfView (ring c 5) 1).view.set]{fullShare} f)
      ∗ ((bfView (ring c 6) 0).view.loc (c : Thread nD τ) ↦[(bfView (ring c 6) 0).view.set]{fullShare} f) ∗ ((bfView (ring c 6) 1).view.loc (c : Thread nD τ) ↦[(bfView (ring c 6) 1).view.set]{fullShare} f)
      ∗ ((bfView (ring c 7) 0).view.loc (c : Thread nD τ) ↦[(bfView (ring c 7) 0).view.set]{fullShare} f) ∗ ((bfView (ring c 7) 1).view.loc (c : Thread nD τ) ↦[(bfView (ring c 7) 1).view.set]{fullShare} f)) :=
  Entails.of_eq ((pointsTo_blocks (slots c) (slots_disjoint c) (slots_cover c) f).trans
    (bigSep_univ_eq_bigSepL slotList (by decide) (by decide) _))

theorem join7 (c : Dev nD) :
    (iprop((∃ f, (bfView c 0).view.loc (c : Thread nD τ) ↦[(bfView c 0).view.set]{fullShare} f) ∗ (∃ f, (bfView c 1).view.loc (c : Thread nD τ) ↦[(bfView c 1).view.set]{fullShare} f)
      ∗ (∃ f, (bfView (ring c 1) 0).view.loc (c : Thread nD τ) ↦[(bfView (ring c 1) 0).view.set]{fullShare} f) ∗ (∃ f, (bfView (ring c 1) 1).view.loc (c : Thread nD τ) ↦[(bfView (ring c 1) 1).view.set]{fullShare} f)
      ∗ (∃ f, (bfView (ring c 2) 0).view.loc (c : Thread nD τ) ↦[(bfView (ring c 2) 0).view.set]{fullShare} f) ∗ (∃ f, (bfView (ring c 2) 1).view.loc (c : Thread nD τ) ↦[(bfView (ring c 2) 1).view.set]{fullShare} f)
      ∗ (∃ f, (bfView (ring c 3) 0).view.loc (c : Thread nD τ) ↦[(bfView (ring c 3) 0).view.set]{fullShare} f) ∗ (∃ f, (bfView (ring c 3) 1).view.loc (c : Thread nD τ) ↦[(bfView (ring c 3) 1).view.set]{fullShare} f)
      ∗ (∃ f, (bfView (ring c 4) 0).view.loc (c : Thread nD τ) ↦[(bfView (ring c 4) 0).view.set]{fullShare} f) ∗ (∃ f, (bfView (ring c 4) 1).view.loc (c : Thread nD τ) ↦[(bfView (ring c 4) 1).view.set]{fullShare} f)
      ∗ (∃ f, (bfView (ring c 5) 0).view.loc (c : Thread nD τ) ↦[(bfView (ring c 5) 0).view.set]{fullShare} f) ∗ (∃ f, (bfView (ring c 5) 1).view.loc (c : Thread nD τ) ↦[(bfView (ring c 5) 1).view.set]{fullShare} f)
      ∗ (∃ f, (bfView (ring c 6) 0).view.loc (c : Thread nD τ) ↦[(bfView (ring c 6) 0).view.set]{fullShare} f) ∗ (∃ f, (bfView (ring c 6) 1).view.loc (c : Thread nD τ) ↦[(bfView (ring c 6) 1).view.set]{fullShare} f)
      ∗ (∃ f, (bfView (ring c 7) 0).view.loc (c : Thread nD τ) ↦[(bfView (ring c 7) 0).view.set]{fullShare} f) ∗ (∃ f, (bfView (ring c 7) 1).view.loc (c : Thread nD τ) ↦[(bfView (ring c 7) 1).view.set]{fullShare} f)) : sProp 𝕄)
      ⊢ iprop(∃ f, whole c cc0_scratch7 f) :=
  (Entails.of_eq (bigSep_univ_eq_bigSepL slotList (by decide) (by decide) _).symm).trans
    (pointsTo_blocks_join_exists (slots c) (slots_disjoint c) (slots_cover c) fun _ => Classical.arbitrary _)

-- Four pairwise disjoint sets `K` that cover a buffer split its full-share points-to, under any other spelling `J` of the four.
theorem four_eq {ℓ : Loc nD τ sig} (f : Buf (Elt F) ℓ) (J K : Fin 4 → Finset (Idx ℓ)) (hJ : ∀ g, J g = K g)
    (hd : ∀ g g', g ≠ g' → Disjoint (K g) (K g')) (hc : Finset.univ.biUnion K = Finset.univ) :
    (ℓ ↦{fullShare} f : sProp 𝕄)
      = iprop((ℓ ↦[J 0]{fullShare} f) ∗ (ℓ ↦[J 1]{fullShare} f) ∗ (ℓ ↦[J 2]{fullShare} f) ∗ (ℓ ↦[J 3]{fullShare} f)) := by
  obtain rfl : J = K := funext hJ
  exact (pointsTo_blocks J hd hc f).trans (bigSep_univ_eq_bigSepL [0, 1, 2, 3] (by decide) (by decide) _)

abbrev slice4 (g : Fin 4) : Finset S4x8x4x128.Idx := (Rect.unit (s := S4x8x4x128) ![g.val, 0, 0, 0] S1x8x4x128.size (inb4 g)).set
abbrev slice3 (g : Fin 4) : Finset S4x8x4.Idx := (Rect.unit (s := S4x8x4) ![g.val, 0, 0] S1x8x4.size (inb3 g)).set

theorem slice4_disjoint (g g' : Fin 4) (h : g ≠ g') : Disjoint (slice4 g) (slice4 g') :=
  lead_disjoint (s := S4x8x4x128) 0 1 (fun g : Fin 4 => ![g.val, 0, 0, 0]) S1x8x4x128.size inb4 (by decide) rfl g g' h
theorem slice4_cover : (Finset.univ : Finset (Fin 4)).biUnion slice4 = Finset.univ :=
  lead_cover (s := S4x8x4x128) 0 1 (fun g : Fin 4 => ![g.val, 0, 0, 0]) S1x8x4x128.size inb4 (by decide) (by decide) rfl (by decide) (by decide)
theorem slice3_disjoint (g g' : Fin 4) (h : g ≠ g') : Disjoint (slice3 g) (slice3 g') :=
  lead_disjoint (s := S4x8x4) 0 1 (fun g : Fin 4 => ![g.val, 0, 0]) S1x8x4.size inb3 (by decide) rfl g g' h
theorem slice3_cover : (Finset.univ : Finset (Fin 4)).biUnion slice3 = Finset.univ :=
  lead_cover (s := S4x8x4) 0 1 (fun g : Fin 4 => ![g.val, 0, 0]) S1x8x4.size inb3 (by decide) (by decide) rfl (by decide) (by decide)

theorem split3 (e : Dev nD) (f : Buf (Elt F) ((Memref.whole cc0_scratch3 : Memref sig .tc _ _ _).view.loc (e : Thread nD τ))) :
    (whole e cc0_scratch3 f : sProp 𝕄) ⊢ iprop(((obSrc 0).view.loc (e : Thread nD τ) ↦[(obSrc 0).view.set]{fullShare} f) ∗ ((obSrc 1).view.loc (e : Thread nD τ) ↦[(obSrc 1).view.set]{fullShare} f)
      ∗ ((obSrc 2).view.loc (e : Thread nD τ) ↦[(obSrc 2).view.set]{fullShare} f) ∗ ((obSrc 3).view.loc (e : Thread nD τ) ↦[(obSrc 3).view.set]{fullShare} f)) := Entails.of_eq (four_eq f (fun g => (obSrc g).view.set) slice4 (fun _ => (View.set_reshape _ _).trans (View.set_slice_whole _ _)) slice4_disjoint slice4_cover)
theorem split4 (e : Dev nD) (f : Buf (Elt F) ((Memref.whole cc0_scratch4 : Memref sig .tc _ _ _).view.loc (e : Thread nD τ))) :
    (whole e cc0_scratch4 f : sProp 𝕄) ⊢ iprop(((obDst 0).view.loc (e : Thread nD τ) ↦[(obDst 0).view.set]{fullShare} f) ∗ ((obDst 1).view.loc (e : Thread nD τ) ↦[(obDst 1).view.set]{fullShare} f)
      ∗ ((obDst 2).view.loc (e : Thread nD τ) ↦[(obDst 2).view.set]{fullShare} f) ∗ ((obDst 3).view.loc (e : Thread nD τ) ↦[(obDst 3).view.set]{fullShare} f)) := Entails.of_eq (four_eq f (fun g => (obDst g).view.set) slice4 (fun _ => (View.set_reshape _ _).trans (View.set_slice_whole _ _)) slice4_disjoint slice4_cover)
theorem split5 (e : Dev nD) (f : Buf (Elt F) ((Memref.whole cc0_scratch5 : Memref sig .tc _ _ _).view.loc (e : Thread nD τ))) :
    (whole e cc0_scratch5 f : sProp 𝕄) ⊢ iprop(((lbSrc 0).view.loc (e : Thread nD τ) ↦[(lbSrc 0).view.set]{fullShare} f) ∗ ((lbSrc 1).view.loc (e : Thread nD τ) ↦[(lbSrc 1).view.set]{fullShare} f)
      ∗ ((lbSrc 2).view.loc (e : Thread nD τ) ↦[(lbSrc 2).view.set]{fullShare} f) ∗ ((lbSrc 3).view.loc (e : Thread nD τ) ↦[(lbSrc 3).view.set]{fullShare} f)) := Entails.of_eq (four_eq f (fun g => (lbSrc g).view.set) slice3 (fun _ => (View.set_reshape _ _).trans (View.set_slice_whole _ _)) slice3_disjoint slice3_cover)
theorem split6 (e : Dev nD) (f : Buf (Elt F) ((Memref.whole cc0_scratch6 : Memref sig .tc _ _ _).view.loc (e : Thread nD τ))) :
    (whole e cc0_scratch6 f : sProp 𝕄) ⊢ iprop(((lbDst 0).view.loc (e : Thread nD τ) ↦[(lbDst 0).view.set]{fullShare} f) ∗ ((lbDst 1).view.loc (e : Thread nD τ) ↦[(lbDst 1).view.set]{fullShare} f)
      ∗ ((lbDst 2).view.loc (e : Thread nD τ) ↦[(lbDst 2).view.set]{fullShare} f) ∗ ((lbDst 3).view.loc (e : Thread nD τ) ↦[(lbDst 3).view.set]{fullShare} f)) := Entails.of_eq (four_eq f (fun g => (lbDst g).view.set) slice3 (fun _ => (View.set_reshape _ _).trans (View.set_slice_whole _ _)) slice3_disjoint slice3_cover)
theorem join3 (e : Dev nD) (f : Buf (Elt F) ((Memref.whole cc0_scratch3 : Memref sig .tc _ _ _).view.loc (e : Thread nD τ))) :
    (iprop(((obSrc 0).view.loc (e : Thread nD τ) ↦[(obSrc 0).view.set]{fullShare} f) ∗ ((obSrc 1).view.loc (e : Thread nD τ) ↦[(obSrc 1).view.set]{fullShare} f)
      ∗ ((obSrc 2).view.loc (e : Thread nD τ) ↦[(obSrc 2).view.set]{fullShare} f) ∗ ((obSrc 3).view.loc (e : Thread nD τ) ↦[(obSrc 3).view.set]{fullShare} f)) : sProp 𝕄) ⊢ whole e cc0_scratch3 f := Entails.of_eq (four_eq f (fun g => (obSrc g).view.set) slice4 (fun _ => (View.set_reshape _ _).trans (View.set_slice_whole _ _)) slice4_disjoint slice4_cover).symm
theorem join4 (e : Dev nD) (f : Buf (Elt F) ((Memref.whole cc0_scratch4 : Memref sig .tc _ _ _).view.loc (e : Thread nD τ))) :
    (iprop(((obDst 0).view.loc (e : Thread nD τ) ↦[(obDst 0).view.set]{fullShare} f) ∗ ((obDst 1).view.loc (e : Thread nD τ) ↦[(obDst 1).view.set]{fullShare} f)
      ∗ ((obDst 2).view.loc (e : Thread nD τ) ↦[(obDst 2).view.set]{fullShare} f) ∗ ((obDst 3).view.loc (e : Thread nD τ) ↦[(obDst 3).view.set]{fullShare} f)) : sProp 𝕄) ⊢ whole e cc0_scratch4 f := Entails.of_eq (four_eq f (fun g => (obDst g).view.set) slice4 (fun _ => (View.set_reshape _ _).trans (View.set_slice_whole _ _)) slice4_disjoint slice4_cover).symm
theorem join5 (e : Dev nD) (f : Buf (Elt F) ((Memref.whole cc0_scratch5 : Memref sig .tc _ _ _).view.loc (e : Thread nD τ))) :
    (iprop(((lbSrc 0).view.loc (e : Thread nD τ) ↦[(lbSrc 0).view.set]{fullShare} f) ∗ ((lbSrc 1).view.loc (e : Thread nD τ) ↦[(lbSrc 1).view.set]{fullShare} f)
      ∗ ((lbSrc 2).view.loc (e : Thread nD τ) ↦[(lbSrc 2).view.set]{fullShare} f) ∗ ((lbSrc 3).view.loc (e : Thread nD τ) ↦[(lbSrc 3).view.set]{fullShare} f)) : sProp 𝕄) ⊢ whole e cc0_scratch5 f := Entails.of_eq (four_eq f (fun g => (lbSrc g).view.set) slice3 (fun _ => (View.set_reshape _ _).trans (View.set_slice_whole _ _)) slice3_disjoint slice3_cover).symm
theorem join6 (e : Dev nD) (f : Buf (Elt F) ((Memref.whole cc0_scratch6 : Memref sig .tc _ _ _).view.loc (e : Thread nD τ))) :
    (iprop(((lbDst 0).view.loc (e : Thread nD τ) ↦[(lbDst 0).view.set]{fullShare} f) ∗ ((lbDst 1).view.loc (e : Thread nD τ) ↦[(lbDst 1).view.set]{fullShare} f)
      ∗ ((lbDst 2).view.loc (e : Thread nD τ) ↦[(lbDst 2).view.set]{fullShare} f) ∗ ((lbDst 3).view.loc (e : Thread nD τ) ↦[(lbDst 3).view.set]{fullShare} f)) : sProp 𝕄) ⊢ whole e cc0_scratch6 f := Entails.of_eq (four_eq f (fun g => (lbDst g).view.set) slice3 (fun _ => (View.set_reshape _ _).trans (View.set_slice_whole _ _)) slice3_disjoint slice3_cover).symm

theorem share_eq {ℓ : Loc nD τ sig} (S : Finset (Idx ℓ)) (f : Buf (Elt F) ℓ) (q : PosShare TreeShare) :
    (ℓ ↦[S]{q} f : sProp 𝕄) = iprop((ℓ ↦[S]{q.left} f) ∗ (ℓ ↦[S]{q.right} f)) :=
  BI.equiv_iff.mp ⟨(pointsTo_share (PosShare.mem_left_op_right q)).1, (pointsTo_share (PosShare.mem_left_op_right q)).2⟩

theorem shares7 {ℓ : Loc nD τ sig} (S : Finset (Idx ℓ)) (f : Buf (Elt F) ℓ) :
    (ℓ ↦[S]{fullShare} f : sProp 𝕄) ⊣⊢ iprop((ℓ ↦[S]{bcShare 1} f) ∗ (ℓ ↦[S]{bcShare 2} f) ∗ (ℓ ↦[S]{bcShare 3} f) ∗ (ℓ ↦[S]{bcShare 4} f) ∗ (ℓ ↦[S]{bcShare 5} f) ∗ (ℓ ↦[S]{bcShare 6} f) ∗ (ℓ ↦[S]{bcShare 7} f)) := by
  refine BiEntails.of_eq ?_
  rw [share_eq S f fullShare, share_eq S f fullShare.right, share_eq S f fullShare.right.right,
    share_eq S f fullShare.right.right.right, share_eq S f fullShare.right.right.right.right,
    share_eq S f fullShare.right.right.right.right.right]
  rfl
theorem halves {ℓ : Loc nD τ sig} (S : Finset (Idx ℓ)) (f : Buf (Elt F) ℓ) :
    (ℓ ↦[S]{fullShare} f : sProp 𝕄) ⊣⊢ iprop((ℓ ↦[S]{fullShare.left} f) ∗ (ℓ ↦[S]{fullShare.right} f)) :=
  pointsTo_share (PosShare.mem_left_op_right fullShare)

-- Where an unmasked write through a view put `X`, the buffer reads as any contents that `X` copies element by element.
theorem land {sp : Space} {s : Shape} {e : EltTy} (v : View sig .tc sp s e) (c : Dev nD) (fd fs : Buf (Elt F) (v.loc (c : Thread nD τ)))
    (X : s.Idx → Elt F e) (hX : ∀ x, X x = _root_.cast (congrArg (Elt F) v.elt_eq) (fs (v.emb x))) :
    (v.loc (c : Thread nD τ) ↦[v.set]{fullShare} v.write (Elt F) fd X Finset.univ : sProp 𝕄) ⊢ v.loc (c : Thread nD τ) ↦[v.set]{fullShare} fs := by
  refine Entails.of_eq (pointsTo_congr fun i hi => ?_)
  obtain ⟨x, rfl⟩ := View.exists_emb_of_mem_set _ hi
  rw [View.write_emb_of_mem _ _ (Finset.mem_univ x), hX, cast_cast, cast_eq]

theorem land_ob (g : Fin 4) (c : Dev nD) (fd : Buf (Elt F) ((obDst g).view.loc (c : Thread nD τ))) (fs : (cc0_scratch3 : Ref sig .tc).ty.Contents (Elt F)) :
    ((obDst g).view.loc (c : Thread nD τ) ↦[(obDst g).view.set]{fullShare} ((obDst g).view.write (Elt F) fd ((obSrc g).view.read (Elt F) fs) Finset.univ) : sProp 𝕄)
      ⊢ (obDst g).view.loc (c : Thread nD τ) ↦[(obDst g).view.set]{fullShare} fs := land _ _ fd fs _ fun _ => rfl
theorem land_lb (g : Fin 4) (c : Dev nD) (fd : Buf (Elt F) ((lbDst g).view.loc (c : Thread nD τ))) (fs : (cc0_scratch5 : Ref sig .tc).ty.Contents (Elt F)) :
    ((lbDst g).view.loc (c : Thread nD τ) ↦[(lbDst g).view.set]{fullShare} ((lbDst g).view.write (Elt F) fd ((lbSrc g).view.read (Elt F) fs) Finset.univ) : sProp 𝕄)
      ⊢ (lbDst g).view.loc (c : Thread nD τ) ↦[(lbDst g).view.set]{fullShare} fs := land _ _ fd fs _ fun _ => rfl
theorem land_bf (e : Dev nD) (h : Fin 2) (c : Dev nD) (fd : Buf (Elt F) ((bfView e h).view.loc (c : Thread nD τ))) (fs : (cc0_scratch7 : Ref sig .tc).ty.Contents (Elt F)) :
    ((bfView e h).view.loc (c : Thread nD τ) ↦[(bfView e h).view.set]{fullShare} ((bfView e h).view.write (Elt F) fd ((bfView e h).view.read (Elt F) fs) Finset.univ) : sProp 𝕄)
      ⊢ (bfView e h).view.loc (c : Thread nD τ) ↦[(bfView e h).view.set]{fullShare} fs := land _ _ fd fs _ fun _ => rfl

end Cert.KernelIdeal.Geom

end
-- ==== Proof.BodyLemmas.lean ====
import proofs.«900787_g7700000000000788_dist_flashdec_v7x_xyz2x2x4_y_b8_sq8_skv1024_h16_d128_f32_1_alg».proof.Proof.Iface

noncomputable section

namespace Cert.KernelIdeal.BodyLemmas

open Cert.KernelIdeal Cert.KernelIdeal.Gen Cert.KernelIdeal.Mesh Cert.KernelIdeal.Proto Cert.KernelIdeal.Iface
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 47 → ℕ)

-- A DMA semaphore numbered 18 or more is the protocol's semaphore number `s - 17`.
theorem csem_dma (s : DmaSem sig) (h : 18 ≤ s.val := by show 18 ≤ _ + _; omega) :
    csem ⟨s.val - 17, by have : s.val < 64 := s.isLt; omega⟩ = .dma s := by
  unfold csem
  rw [dif_neg (by show ¬(s.val - 17 = 0); omega)]
  congr 1
  apply Fin.ext
  show 17 + (s.val - 17) = s.val
  omega

-- The records hold every numbered cell's invariant.
theorem inv_at {i : Fin 47} {s : SemLoc sig} (hs : csem i = s) (e : Dev nD) :
    records m K ⊢ cellInv ER (RdM m) (K (e, i)) ((e : Thread nD τ), s) := by
  subst hs; unfold records
  exact sep_elim_left.trans (bigSep_elim (Φ := fun ck : Dev nD × Fin 47 => (cellInv ER (RdM m) (K ck) (kcell ck) : sProp 𝕄)) (Finset.mem_univ (e, i)))

-- The records hold that round 0 of every numbered cell is reached.
theorem reached_at {i : Fin 47} {s : SemLoc sig} (hs : csem i = s) (e : Dev nD) :
    records m K ⊢ reached ER ((e : Thread nD τ), s) 0 := by
  subst hs; unfold records
  exact sep_elim_right.trans (bigSep_elim (Φ := fun ck : Dev nD × Fin 47 => (reached ER (kcell ck) 0 : sProp 𝕄)) (Finset.mem_univ (e, i)))

variable (c : Dev nD)

-- A signal to the barrier cell of `e` paying this device's duty there, the payload made from `A ∗ B`.
theorem signal_step (e : Dev nD) (hd : c ∈ (RdM m).duties (barCell e) 0) {A B : sProp 𝕄} (hp : iprop(A ∗ B) ⊢ (RdM m).payload (barCell e) 0 c)
    {α : Type} {Q : α → sProp 𝕄} {k : PUnit → Prog (TpuEff nD τ sig (Elt F) Λ₀ .tc) α}
    (ts : List (CellTallies nD τ sig Unit)) (W : Waits sig Unit) :
    iprop(records m K ∗ levAts L lv ∗ A ∗ B ∗ owes (c : Thread nD τ) (Osum (tallyAt (barCell e) () 1 :: ts)) W ∗ dutyTok ER (barCell e) 0 c)
      ⊢ iprop((owes (c : Thread nD τ) (Osum ts) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc e : Thread nD τ) barS (1#32 : BitVec 32).toNat) k) Q) := by
  iintro ⟨#HR, -, HA, HB, HO, Ht⟩
  iapply (Rounds.wp_signal 𝒱₀ ER (RdM m) (c : Thread nD τ) none (dst := (e : Thread nD τ)) (κ := K (e, 0))
    (d := c) hd rfl () (Osum ts) (Osum_cons _ _) (W := W))
  isplitr; · iapply (inv_at m K (i := 0) rfl e); iexact HR
  isplitl [HO]; · iexact HO
  isplitl [Ht]; · iexact Ht
  isplitl [HA HB]
  · iapply hp
    isplitl [HA]; · iexact HA
    iexact HB
  iapply (reached_at m K (i := 0) rfl e); iexact HR

-- An addressed transfer paying this device's duties on its own send cell and on the receive cell of `e`.
theorem send_step {i₁ i₂ : Fin 47} {sS sem : SemLoc sig} (h₁ : csem i₁ = sS) (h₂ : csem i₂ = sem) {e : Dev nD}
    {sp sp' : Space} {s : Shape} {el : EltTy} {src : Memref sig .tc sp s el} {dst : Memref sig .tc sp' s el}
    {hsc : (dst : Memref sig (Dev.tc e : Thread nD τ).2.kind sp' s el).view.ref.isScScratch = false}
    {hsrc : src.view.WordExact} {hdst : dst.view.WordExact}
    {hsem : DmaTarget.Typed sp sem (.remote (Dev.tc e : Thread nD τ) dst sS hsc)}
    {q : PosShare TreeShare} {fs : Buf (Elt F) (src.view.loc (c : Thread nD τ))} (fd : Buf (Elt F) (dst.view.loc (e : Thread nD τ)))
    {N : ℕ} (hN : dst.view.amount sem = N)
    (hd₁ : c ∈ (RdM m).duties ((c : Thread nD τ), sS) 0) (hd₂ : c ∈ (RdM m).duties ((e : Thread nD τ), sem) 0)
    (hk₁ : (RdM m).amount ((c : Thread nD τ), sS) 0 c = N) (hk₂ : (RdM m).amount ((e : Thread nD τ), sem) 0 c = N)
    (hp₁ : (src.view.loc (c : Thread nD τ) ↦[src.view.set]{q} fs) ⊢ (RdM m).payload ((c : Thread nD τ), sS) 0 c)
    (hp₂ : (dst.view.loc (e : Thread nD τ) ↦[dst.view.set]{fullShare} (dst.view.write (Elt F) fd (src.view.read (Elt F) fs) Finset.univ))
      ⊢ (RdM m).payload ((e : Thread nD τ), sem) 0 c)
    {α : Type} {Q : α → sProp 𝕄} {k : PUnit → Prog (TpuEff nD τ sig (Elt F) Λ₀ .tc) α}
    (ts : List (CellTallies nD τ sig Unit)) (W : Waits sig Unit) :
    iprop(records m K ∗ levAts L lv
        ∗ (src.view.loc (c : Thread nD τ) ↦[src.view.set]{q} fs)
        ∗ (dst.view.loc (e : Thread nD τ) ↦[dst.view.set]{fullShare} fd)
        ∗ owes (c : Thread nD τ) (Osum (tallyAt ((e : Thread nD τ), sem) () N :: ts)) W
        ∗ dutyTok ER ((c : Thread nD τ), sS) 0 c ∗ dutyTok ER ((e : Thread nD τ), sem) 0 c)
      ⊢ iprop(((cred (tallyAt ((c : Thread nD τ), sS) () N) ∗ owes (c : Thread nD τ) (Osum ts) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc e : Thread nD τ) dst sS hsc) sem hsrc hdst hsem) k) Q) := by
  iintro ⟨#HR, -, Hs, Hd, HO, Ht1, Ht2⟩
  iapply (Rounds.wp_send_pointsTo 𝒱₀ ER (RdM m) (c : Thread nD τ) none (c' := (e : Thread nD τ)) (κ₁ := K (c, i₁)) (κ₂ := K (e, i₂))
    (r₁ := 0) (r₂ := 0) (d₁ := c) (d₂ := c) (fd := fd) hd₁ hd₂ () () N hN hk₁ hk₂ (Osum ts) (Osum_cons _ _) (W := W) hp₁ hp₂)
  isplitr; · iapply (inv_at m K h₁ c); iexact HR
  isplitr; · iapply (inv_at m K h₂ e); iexact HR
  isplitl [Hs]; · iexact Hs
  isplitl [Hd]; · iexact Hd
  isplitl [HO]; · iexact HO
  isplitl [Ht1]; · iexact Ht1
  isplitr; · iapply (reached_at m K h₁ c); iexact HR
  isplitl [Ht2]; · iexact Ht2
  iapply (reached_at m K h₂ e); iexact HR

-- A wait for the whole of round 0 of one of the device's own cells: it brings the round's payloads `P`.
theorem wait_step (ts : List (CellTallies nD τ sig Unit)) (W : Waits sig Unit) {i : Fin 47} {sm : SemLoc sig} (hs : csem i = sm) {w : TpuEff nD τ sig (Elt F) Λ₀ .tc PUnit} {N : ℕ}
    (hw : ∀ K' : PUnit → sProp 𝕄, wpE (defs₀ (F := F)) 𝒱₀ (c : Thread nD τ) none Set.univ w K' = waitSpec (c : Thread nD τ) Set.univ sm N K')
    (hN : (RdM m).expect ((c : Thread nD τ), sm) 0 = N) {P : sProp 𝕄}
    (hP : bigSep ((RdM m).duties ((c : Thread nD τ), sm) 0 \ ∅) (fun e => (RdM m).payload ((c : Thread nD τ), sm) 0 e) = P)
    {α : Type} {Q : α → sProp 𝕄} {k : PUnit → Prog (TpuEff nD τ sig (Elt F) Λ₀ .tc) α}
    (hmw : (levAts L lv : sProp 𝕄) ⊢ MayWait (c : Thread nD τ) sm () (Osum ts)) :
    iprop(records m K ∗ levAts L lv ∗ cred (tallyAt ((c : Thread nD τ), sm) () N) ∗ owes (c : Thread nD τ) (Osum ts) W ∗ atPos ER ((c : Thread nD τ), sm) 0 ∅ 0)
      ⊢ iprop(((owes (c : Thread nD τ) (Osum ts) (insert (sm, ()) W) ∗ atPos ER ((c : Thread nD τ), sm) 1 ∅ 0 ∗ P)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  subst hP
  iintro ⟨#HR, #Hlev, Hc, HO, Hat⟩ Hk
  iapply (Rounds.wp_wait_rest_token 𝒱₀ ER (RdM m) (c : Thread nD τ) none (κ := K (c, i)) hw (Set.mem_univ _) () (O := Osum ts) (W := W)
      (R := 0) (m := 0) (T := ∅) ((Nat.zero_add N).trans hN.symm)) $$ [Hc HO Hat]
  · isplitr; · iapply (inv_at m K hs c); iexact HR
    isplitl [Hc]; · iexact Hc
    isplitl [HO]; · iexact HO
    isplitr; · iapply hmw; iexact Hlev
    iexact Hat
  iintro ⟨HO, Hat, -, Hpay⟩
  iapply Hk
  isplitl [HO]; · iexact HO
  isplitl [Hat]; · iexact Hat
  iexact Hpay

-- A cell with no duty from round `R` on, its owner there with nothing taken, closes.
theorem close_step {i : Fin 47} {s : SemLoc sig} (hs : csem i = s) {R : ℕ} (hR : ∀ r, R ≤ r → (RdM m).duties ((c : Thread nD τ), s) r = ∅) :
    iprop(records m K ∗ atPos ER ((c : Thread nD τ), s) R ∅ 0) ⊢ iprop(|={Set.univ}=> semVal ((c : Thread nD τ), s) 0) :=
  (sep_mono_left (inv_at m K hs c)).trans (Rounds.cell_close ER (RdM m) (Set.mem_univ (K (c, i))) (fun hu => hu) hR)

end Cert.KernelIdeal.BodyLemmas

end
-- ==== Proof.StepsY.lean ====
import proofs.«900787_g7700000000000788_dist_flashdec_v7x_xyz2x2x4_y_b8_sq8_skv1024_h16_d128_f32_1_alg».proof.Proof.Tables
import proofs.«900787_g7700000000000788_dist_flashdec_v7x_xyz2x2x4_y_b8_sq8_skv1024_h16_d128_f32_1_alg».proof.Proof.Geom
import proofs.«900787_g7700000000000788_dist_flashdec_v7x_xyz2x2x4_y_b8_sq8_skv1024_h16_d128_f32_1_alg».proof.Proof.Levels
import proofs.«900787_g7700000000000788_dist_flashdec_v7x_xyz2x2x4_y_b8_sq8_skv1024_h16_d128_f32_1_alg».proof.Proof.BodyLemmas

noncomputable section

namespace Cert.KernelIdeal.Steps

open Cert.KernelIdeal Cert.KernelIdeal.Gen Cert.KernelIdeal.Mesh Cert.KernelIdeal.Proto Cert.KernelIdeal.Iface
open Cert.KernelIdeal.Tables Cert.KernelIdeal.Levels Cert.KernelIdeal.BodyLemmas
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 47 → ℕ) (c : Dev nD)

theorem signal_y (n : Dev nD) (hn : n = ynbr c)
    {α : Type} {Q : α → sProp 𝕄} {k : PUnit → Prog (TpuEff nD τ sig (Elt F) Λ₀ .tc) α}
    (f4 : Buf (Elt F) ((Memref.whole cc0_scratch4 : Memref sig .tc _ _ _).view.loc (c : Thread nD τ)))
    (f6 : Buf (Elt F) ((Memref.whole cc0_scratch6 : Memref sig .tc _ _ _).view.loc (c : Thread nD τ)))
    (ts : List (CellTallies nD τ sig Unit)) (W : Waits sig Unit) :
    iprop(records m K ∗ levAts L lv ∗ whole c cc0_scratch4 f4 ∗ whole c cc0_scratch6 f6
        ∗ owes (c : Thread nD τ) (Osum (tallyAt (barCell (ynbr c)) () 1 :: ts)) W ∗ dutyTok ER (barCell (ynbr c)) 0 c)
      ⊢ iprop((owes (c : Thread nD τ) (Osum ts) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS (1#32 : BitVec 32).toNat) k) Q) := by
  subst hn
  exact signal_step m K c (ynbr c) (mem_bar_ynbr m c) (by
    rw [payload_bar_ynbr]; unfold payBarY
    iintro ⟨H4, H6⟩
    isplitl [H4]
    · iexists f4; iexact H4
    · iexists f6; iexact H6) ts W

theorem signal_r (d : Fin 8) (hd : d.val ≠ 0) (n : Dev nD) (hn : n = ring c d.val)
    {α : Type} {Q : α → sProp 𝕄} {k : PUnit → Prog (TpuEff nD τ sig (Elt F) Λ₀ .tc) α}
    (f0 : Buf (Elt F) ((bfView (ring c d.val) 0).view.loc (c : Thread nD τ)))
    (f1 : Buf (Elt F) ((bfView (ring c d.val) 1).view.loc (c : Thread nD τ)))
    (ts : List (CellTallies nD τ sig Unit)) (W : Waits sig Unit) :
    iprop(records m K ∗ levAts L lv
        ∗ ((bfView (ring c d.val) 0).view.loc (c : Thread nD τ) ↦[(bfView (ring c d.val) 0).view.set]{fullShare} f0)
        ∗ ((bfView (ring c d.val) 1).view.loc (c : Thread nD τ) ↦[(bfView (ring c d.val) 1).view.set]{fullShare} f1)
        ∗ owes (c : Thread nD τ) (Osum (tallyAt (barCell (ring c d.val)) () 1 :: ts)) W ∗ dutyTok ER (barCell (ring c d.val)) 0 c)
      ⊢ iprop((owes (c : Thread nD τ) (Osum ts) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS (1#32 : BitVec 32).toNat) k) Q) := by
  subst hn
  exact signal_step m K c (ring c d.val) (mem_bar_ring m c d hd) (by
    rw [payload_bar_ring m c d hd]; unfold payBarR
    iintro ⟨H0, H1⟩
    isplitl [H0]
    · iexists f0; iexact H0
    · iexists f1; iexact H1) ts W

theorem wait_bar {α : Type} {Q : α → sProp 𝕄} {k : PUnit → Prog (TpuEff nD τ sig (Elt F) Λ₀ .tc) α}
    (ts : List (CellTallies nD τ sig Unit)) (W : Waits sig Unit)
    (hmw : (levAts L lv : sProp 𝕄) ⊢ MayWait (c : Thread nD τ) (.reg barS) () (Osum ts)) :
    iprop(records m K ∗ levAts L lv ∗ cred (tallyAt (barCell c) () 8) ∗ owes (c : Thread nD τ) (Osum ts) W ∗ atPos ER (barCell c) 0 ∅ 0)
      ⊢ iprop(((owes (c : Thread nD τ) (Osum ts) (insert (SemLoc.reg barS, ()) W) ∗ atPos ER (barCell c) 1 ∅ 0
              ∗ ((∃ f, whole (ynbr c) cc0_scratch4 f) ∗ (∃ f, whole (ynbr c) cc0_scratch6 f))
              ∗ ((∃ f, (bfView c 0).view.loc (ring c 1 : Thread nD τ) ↦[(bfView c 0).view.set]{fullShare} f) ∗ (∃ f, (bfView c 1).view.loc (ring c 1 : Thread nD τ) ↦[(bfView c 1).view.set]{fullShare} f))
              ∗ ((∃ f, (bfView c 0).view.loc (ring c 2 : Thread nD τ) ↦[(bfView c 0).view.set]{fullShare} f) ∗ (∃ f, (bfView c 1).view.loc (ring c 2 : Thread nD τ) ↦[(bfView c 1).view.set]{fullShare} f))
              ∗ ((∃ f, (bfView c 0).view.loc (ring c 3 : Thread nD τ) ↦[(bfView c 0).view.set]{fullShare} f) ∗ (∃ f, (bfView c 1).view.loc (ring c 3 : Thread nD τ) ↦[(bfView c 1).view.set]{fullShare} f))
              ∗ ((∃ f, (bfView c 0).view.loc (ring c 4 : Thread nD τ) ↦[(bfView c 0).view.set]{fullShare} f) ∗ (∃ f, (bfView c 1).view.loc (ring c 4 : Thread nD τ) ↦[(bfView c 1).view.set]{fullShare} f))
              ∗ ((∃ f, (bfView c 0).view.loc (ring c 5 : Thread nD τ) ↦[(bfView c 0).view.set]{fullShare} f) ∗ (∃ f, (bfView c 1).view.loc (ring c 5 : Thread nD τ) ↦[(bfView c 1).view.set]{fullShare} f))
              ∗ ((∃ f, (bfView c 0).view.loc (ring c 6 : Thread nD τ) ↦[(bfView c 0).view.set]{fullShare} f) ∗ (∃ f, (bfView c 1).view.loc (ring c 6 : Thread nD τ) ↦[(bfView c 1).view.set]{fullShare} f))
              ∗ ((∃ f, (bfView c 0).view.loc (ring c 7 : Thread nD τ) ↦[(bfView c 0).view.set]{fullShare} f) ∗ (∃ f, (bfView c 1).view.loc (ring c 7 : Thread nD τ) ↦[(bfView c 1).view.set]{fullShare} f)))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 8) k) Q) :=
  wait_step m K c ts W (i := 0) rfl (wpE_semWait_eq 𝒱₀ (c : Thread nD τ) none Set.univ) (expect_bar m c) (rest_bar m c) hmw

theorem send_ob (g : Fin 4) (n : Dev nD) (hn : n = ynbr c)
    {hsc : (obDst g : Memref sig (Dev.tc n : Thread nD τ).2.kind .vmem S8x4x128 .bf16).view.ref.isScScratch = false}
    {hsrc : (obSrc g : Memref sig .tc .vmem S8x4x128 .bf16).view.WordExact} {hdst : (obDst g : Memref sig .tc .vmem S8x4x128 .bf16).view.WordExact}
    {hsem : DmaTarget.Typed .vmem (.dma (yoRecvS g)) (.remote (Dev.tc n : Thread nD τ) (obDst g : Memref sig .tc .vmem S8x4x128 .bf16) (.dma (yoSendS g)) hsc)}
    {α : Type} {Q : α → sProp 𝕄} {k : PUnit → Prog (TpuEff nD τ sig (Elt F) Λ₀ .tc) α}
    (fd : Buf (Elt F) ((obDst g).view.loc (ynbr c : Thread nD τ))) (ts : List (CellTallies nD τ sig Unit)) (W : Waits sig Unit) :
    iprop(records m K ∗ levAts L lv
        ∗ ((obSrc g).view.loc (c : Thread nD τ) ↦[(obSrc g).view.set]{fullShare} Vals.ob m c)
        ∗ ((obDst g).view.loc (ynbr c : Thread nD τ) ↦[(obDst g).view.set]{fullShare} fd)
        ∗ owes (c : Thread nD τ) (Osum (tallyAt (yoRecvCell g (ynbr c)) () No :: ts)) W
        ∗ dutyTok ER (yoSendCell g c) 0 c ∗ dutyTok ER (yoRecvCell g (ynbr c)) 0 c)
      ⊢ iprop(((cred (tallyAt (yoSendCell g c) () No) ∗ owes (c : Thread nD τ) (Osum ts) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (obSrc g) (.remote (Dev.tc n : Thread nD τ) (obDst g) (.dma (yoSendS g)) hsc) (.dma (yoRecvS g)) hsrc hdst hsem) k) Q) := by
  subst hn
  exact send_step m K c (csem_dma _) (csem_dma _) fd rfl (mem_yoSend m g c) (mem_yoRecv m g c) (amount_yoSend m g c c)
    (amount_yoRecv m g (ynbr c) c) (by rw [payload_yoSend]) (by rw [payload_yoRecv]; exact Geom.land_ob g (ynbr c) fd (Vals.ob m c)) ts W

theorem send_lb (g : Fin 4) (n : Dev nD) (hn : n = ynbr c)
    {hsc : (lbDst g : Memref sig (Dev.tc n : Thread nD τ).2.kind .vmem S8x4 .f32).view.ref.isScScratch = false}
    {hsrc : (lbSrc g : Memref sig .tc .vmem S8x4 .f32).view.WordExact} {hdst : (lbDst g : Memref sig .tc .vmem S8x4 .f32).view.WordExact}
    {hsem : DmaTarget.Typed .vmem (.dma (ylRecvS g)) (.remote (Dev.tc n : Thread nD τ) (lbDst g : Memref sig .tc .vmem S8x4 .f32) (.dma (ylSendS g)) hsc)}
    {α : Type} {Q : α → sProp 𝕄} {k : PUnit → Prog (TpuEff nD τ sig (Elt F) Λ₀ .tc) α}
    (fd : Buf (Elt F) ((lbDst g).view.loc (ynbr c : Thread nD τ))) (ts : List (CellTallies nD τ sig Unit)) (W : Waits sig Unit) :
    iprop(records m K ∗ levAts L lv
        ∗ ((lbSrc g).view.loc (c : Thread nD τ) ↦[(lbSrc g).view.set]{fullShare.left} Vals.lb m c)
        ∗ ((lbDst g).view.loc (ynbr c : Thread nD τ) ↦[(lbDst g).view.set]{fullShare} fd)
        ∗ owes (c : Thread nD τ) (Osum (tallyAt (ylRecvCell g (ynbr c)) () Nl :: ts)) W
        ∗ dutyTok ER (ylSendCell g c) 0 c ∗ dutyTok ER (ylRecvCell g (ynbr c)) 0 c)
      ⊢ iprop(((cred (tallyAt (ylSendCell g c) () Nl) ∗ owes (c : Thread nD τ) (Osum ts) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (lbSrc g) (.remote (Dev.tc n : Thread nD τ) (lbDst g) (.dma (ylSendS g)) hsc) (.dma (ylRecvS g)) hsrc hdst hsem) k) Q) := by
  subst hn
  exact send_step m K c (csem_dma _) (csem_dma _) fd rfl (mem_ylSend m g c) (mem_ylRecv m g c) (amount_ylSend m g c c)
    (amount_ylRecv m g (ynbr c) c) (by rw [payload_ylSend]) (by rw [payload_ylRecv]; exact Geom.land_lb g (ynbr c) fd (Vals.lb m c)) ts W

theorem wait_yo (g : Fin 4)
    {hsrc : (obSrc g : Memref sig .tc .vmem S8x4x128 .bf16).view.WordExact} {hdst : (obDst g : Memref sig .tc .vmem S8x4x128 .bf16).view.WordExact}
    {α : Type} {Q : α → sProp 𝕄} {k : PUnit → Prog (TpuEff nD τ sig (Elt F) Λ₀ .tc) α}
    (ts : List (CellTallies nD τ sig Unit)) (W : Waits sig Unit)
    (hmw : (levAts L lv : sProp 𝕄) ⊢ MayWait (c : Thread nD τ) (.dma (yoRecvS g)) () (Osum ts)) :
    iprop(records m K ∗ levAts L lv ∗ cred (tallyAt (yoRecvCell g c) () No) ∗ owes (c : Thread nD τ) (Osum ts) W ∗ atPos ER (yoRecvCell g c) 0 ∅ 0)
      ⊢ iprop(((owes (c : Thread nD τ) (Osum ts) (insert (SemLoc.dma (yoRecvS g), ()) W) ∗ atPos ER (yoRecvCell g c) 1 ∅ 0
              ∗ ((obDst g).view.loc (c : Thread nD τ) ↦[(obDst g).view.set]{fullShare} Vals.ob m (ynbr c)))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (yoRecvS g) (obSrc g) (obDst g) hsrc hdst) k) Q) :=
  wait_step m K c ts W (csem_dma _) (wpE_waitDma2_eq (dst := obDst g) 𝒱₀ (c : Thread nD τ) none Set.univ) (expect_yoRecv m g c) (rest_yoRecv m g c) hmw

theorem wait_yl (g : Fin 4)
    {hsrc : (lbSrc g : Memref sig .tc .vmem S8x4 .f32).view.WordExact} {hdst : (lbDst g : Memref sig .tc .vmem S8x4 .f32).view.WordExact}
    {α : Type} {Q : α → sProp 𝕄} {k : PUnit → Prog (TpuEff nD τ sig (Elt F) Λ₀ .tc) α}
    (ts : List (CellTallies nD τ sig Unit)) (W : Waits sig Unit)
    (hmw : (levAts L lv : sProp 𝕄) ⊢ MayWait (c : Thread nD τ) (.dma (ylRecvS g)) () (Osum ts)) :
    iprop(records m K ∗ levAts L lv ∗ cred (tallyAt (ylRecvCell g c) () Nl) ∗ owes (c : Thread nD τ) (Osum ts) W ∗ atPos ER (ylRecvCell g c) 0 ∅ 0)
      ⊢ iprop(((owes (c : Thread nD τ) (Osum ts) (insert (SemLoc.dma (ylRecvS g), ()) W) ∗ atPos ER (ylRecvCell g c) 1 ∅ 0
              ∗ ((lbDst g).view.loc (c : Thread nD τ) ↦[(lbDst g).view.set]{fullShare} Vals.lb m (ynbr c)))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (ylRecvS g) (lbSrc g) (lbDst g) hsrc hdst) k) Q) :=
  wait_step m K c ts W (csem_dma _) (wpE_waitDma2_eq (dst := lbDst g) 𝒱₀ (c : Thread nD τ) none Set.univ) (expect_ylRecv m g c) (rest_ylRecv m g c) hmw

-- With zero owed, the level condition of a wait is empty.
theorem mayWait_nil (sm : SemLoc sig) : (levAts L lv : sProp 𝕄) ⊢ MayWait (c : Thread nD τ) sm () (Osum []) := by
  show _ ⊢ MayWait (c : Thread nD τ) sm () 0
  rw [MayWait_zero]; iintro -; iempintro

theorem wait_yos (g : Fin 4)
    {hsrc : (obDst g : Memref sig .tc .vmem S8x4x128 .bf16).view.WordExact} {hdst : (obSrc g : Memref sig .tc .vmem S8x4x128 .bf16).view.WordExact}
    {α : Type} {Q : α → sProp 𝕄} {k : PUnit → Prog (TpuEff nD τ sig (Elt F) Λ₀ .tc) α}
    (ts : List (CellTallies nD τ sig Unit)) (W : Waits sig Unit)
    (hmw : (levAts L lv : sProp 𝕄) ⊢ MayWait (c : Thread nD τ) (.dma (yoSendS g)) () (Osum ts)) :
    iprop(records m K ∗ levAts L lv ∗ cred (tallyAt (yoSendCell g c) () No) ∗ owes (c : Thread nD τ) (Osum ts) W ∗ atPos ER (yoSendCell g c) 0 ∅ 0)
      ⊢ iprop(((owes (c : Thread nD τ) (Osum ts) (insert (SemLoc.dma (yoSendS g), ()) W) ∗ atPos ER (yoSendCell g c) 1 ∅ 0
              ∗ ((obSrc g).view.loc (c : Thread nD τ) ↦[(obSrc g).view.set]{fullShare} Vals.ob m c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (yoSendS g) (obDst g) (obSrc g) hsrc hdst) k) Q) :=
  wait_step m K c ts W (csem_dma _) (wpE_waitDma2_eq (dst := obSrc g) 𝒱₀ (c : Thread nD τ) none Set.univ) (expect_yoSend m g c) (rest_yoSend m g c) hmw

theorem wait_yls (g : Fin 4)
    {hsrc : (lbDst g : Memref sig .tc .vmem S8x4 .f32).view.WordExact} {hdst : (lbSrc g : Memref sig .tc .vmem S8x4 .f32).view.WordExact}
    {α : Type} {Q : α → sProp 𝕄} {k : PUnit → Prog (TpuEff nD τ sig (Elt F) Λ₀ .tc) α}
    (ts : List (CellTallies nD τ sig Unit)) (W : Waits sig Unit)
    (hmw : (levAts L lv : sProp 𝕄) ⊢ MayWait (c : Thread nD τ) (.dma (ylSendS g)) () (Osum ts)) :
    iprop(records m K ∗ levAts L lv ∗ cred (tallyAt (ylSendCell g c) () Nl) ∗ owes (c : Thread nD τ) (Osum ts) W ∗ atPos ER (ylSendCell g c) 0 ∅ 0)
      ⊢ iprop(((owes (c : Thread nD τ) (Osum ts) (insert (SemLoc.dma (ylSendS g), ()) W) ∗ atPos ER (ylSendCell g c) 1 ∅ 0
              ∗ ((lbSrc g).view.loc (c : Thread nD τ) ↦[(lbSrc g).view.set]{fullShare.left} Vals.lb m c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (ylSendS g) (lbDst g) (lbSrc g) hsrc hdst) k) Q) :=
  wait_step m K c ts W (csem_dma _) (wpE_waitDma2_eq (dst := lbSrc g) 𝒱₀ (c : Thread nD τ) none Set.univ) (expect_ylSend m g c) (rest_ylSend m g c) hmw

end Cert.KernelIdeal.Steps

end
-- ==== Proof.StepsB.lean ====
import proofs.«900787_g7700000000000788_dist_flashdec_v7x_xyz2x2x4_y_b8_sq8_skv1024_h16_d128_f32_1_alg».proof.Proof.Tables
import proofs.«900787_g7700000000000788_dist_flashdec_v7x_xyz2x2x4_y_b8_sq8_skv1024_h16_d128_f32_1_alg».proof.Proof.Geom
import proofs.«900787_g7700000000000788_dist_flashdec_v7x_xyz2x2x4_y_b8_sq8_skv1024_h16_d128_f32_1_alg».proof.Proof.Levels
import proofs.«900787_g7700000000000788_dist_flashdec_v7x_xyz2x2x4_y_b8_sq8_skv1024_h16_d128_f32_1_alg».proof.Proof.BodyLemmas

noncomputable section

namespace Cert.KernelIdeal.Steps

open Cert.KernelIdeal Cert.KernelIdeal.Gen Cert.KernelIdeal.Mesh Cert.KernelIdeal.Proto Cert.KernelIdeal.Iface
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem bcSendSem_eq (i : Fin 14) {off : Fin 1 → Nat} (hoff : off = ![i.val]) (inb : ∀ a, off a + S1.size a ≤ S14.size a) :
    ((cc0_scratch14.slice (Rect.unit (s := S14) off S1.size inb)).squeeze S_ squeezes_S1_S_).sem = bcSendS i := by
  subst hoff
  have key : ∀ x : (Rect.unit (s := S14) ![i.val] S1.size inb).shape.Idx,
      (S14.rowMajor ((Rect.unit (s := S14) ![i.val] S1.size inb).emb x)).val = i.val := by
    intro x
    rw [Shape.rowMajor_val_one, Rect.emb_apply]
    have hx : (x 0).val < 1 := (x 0).isLt
    show i.val + 1 * (x 0).val = i.val
    omega
  exact Fin.ext (congrArg (34 + ·) (key _))

theorem bcRecvSem_eq (h : Fin 2) (j : Fin 8) {off : Fin 2 → Nat} (hoff : off = ![h.val, j.val]) (inb : ∀ a, off a + S1x1.size a ≤ S2x8.size a) :
    ((cc0_scratch15.slice (Rect.unit (s := S2x8) off S1x1.size inb)).squeeze S_ squeezes_S1x1_S_).sem = bcRecvS h j := by
  subst hoff
  have key : ∀ x : (Rect.unit (s := S2x8) ![h.val, j.val] S1x1.size inb).shape.Idx,
      (S2x8.rowMajor ((Rect.unit (s := S2x8) ![h.val, j.val] S1x1.size inb).emb x)).val = 8 * h.val + j.val := by
    intro x
    rw [Shape.rowMajor_val_two, Rect.emb_apply, Rect.emb_apply]
    have hx0 : (x 0).val < 1 := (x 0).isLt
    have hx1 : (x 1).val < 1 := (x 1).isLt
    show (h.val + 1 * (x 0).val) * 8 + (j.val + 1 * (x 1).val) = 8 * h.val + j.val
    omega
  refine Fin.ext ?_
  show 48 + _ = 48 + 8 * h.val + j.val
  rw [key]; omega

variable (m : (ℓ : Loc nD τ sig) → Buf (Elt F) ℓ) (K : Dev nD × Fin 47 → ℕ) (c : Dev nD)

abbrev bcIx (h : Fin 2) (d : Fin 8) : Fin 14 := ⟨7 * h.val + d.val - 1, by have := h.isLt; have := d.isLt; omega⟩

theorem send_bc (h : Fin 2) (d : Fin 8) (hd : d.val ≠ 0)
    {e : Dev nD} (he : e = ring c d.val)
    {sS : DmaSem sig} (hS : sS = bcSendS (bcIx h d))
    {sR : DmaSem sig} (hR : sR = bcRecvS h (pFin c))
    {hsc : ((bfView c h : Memref sig .tc .vmem S8x8x128 .bf16) : Memref sig (Dev.tc e : Thread nD τ).2.kind .vmem S8x8x128 .bf16).view.ref.isScScratch = false}
    {hsrc : (bfView c h).view.WordExact} {hdst : (bfView c h).view.WordExact}
    {hsem : DmaTarget.Typed .vmem (.dma sR) (.remote (Dev.tc e : Thread nD τ) (bfView c h) (.dma sS) hsc)}
    {α : Type} {Q : α → sProp 𝕄} {k : PUnit → Prog (TpuEff nD τ sig (Elt F) Λ₀ .tc) α}
    (fd : Buf (Elt F) ((bfView c h).view.loc (ring c d.val : Thread nD τ)))
    (ts : List (CellTallies nD τ sig Unit)) (W : Waits sig Unit) :
    iprop(records m K ∗ levAts L lv
        ∗ ((bfView c h).view.loc (c : Thread nD τ) ↦[(bfView c h).view.set]{bcShare d} Vals.bf m c)
        ∗ ((bfView c h).view.loc (ring c d.val : Thread nD τ) ↦[(bfView c h).view.set]{fullShare} fd)
        ∗ owes (c : Thread nD τ) (Osum (tallyAt (bcRecvCell h (pFin c) (ring c d.val)) () Nb :: ts)) W
        ∗ dutyTok ER (bcSendCell (bcIx h d) c) 0 c
        ∗ dutyTok ER (bcRecvCell h (pFin c) (ring c d.val)) 0 c)
      ⊢ iprop(((cred (tallyAt (bcSendCell (bcIx h d) c) () Nb) ∗ owes (c : Thread nD τ) (Osum ts) W)
              -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (bfView c h) (.remote (Dev.tc e : Thread nD τ) (bfView c h) (.dma sS) hsc) (.dma sR) hsrc hdst hsem) k) Q) := by
  subst he hS hR
  exact BodyLemmas.send_step m K c (BodyLemmas.csem_dma _) (BodyLemmas.csem_dma _) fd rfl (Tables.mem_bcSend m (bcIx h d) c) (Tables.mem_bcRecv m h c d hd)
    (Tables.amount_bcSend m (bcIx h d) c c) (Tables.amount_bcRecv m h (pFin c) (ring c d.val) c) (by rw [Tables.payload_bcSend m h d hd])
    (by rw [Tables.payload_bcRecv]; exact Geom.land_bf c h (ring c d.val) fd (Vals.bf m c)) ts W

theorem wait_bcr (h : Fin 2) (d : Fin 8) (hd : d.val ≠ 0)
    {sR : DmaSem sig} (hR : sR = bcRecvS h (rj c d.val))
    {offS offD : Fin 5 → Nat} {inbS : ∀ a, offS a + S1x1x8x8x128.size a ≤ S2x8x8x8x128.size a}
    {inbD : ∀ a, offD a + S1x1x8x8x128.size a ≤ S2x8x8x8x128.size a}
    {hsrc : (bfSlot offS inbS).view.WordExact} {hdst : (bfSlot offD inbD).view.WordExact}
    {α : Type} {Q : α → sProp 𝕄} {k : PUnit → Prog (TpuEff nD τ sig (Elt F) Λ₀ .tc) α}
    (ts : List (CellTallies nD τ sig Unit))
    (hmw : (levAts L lv : sProp 𝕄) ⊢ MayWait (c : Thread nD τ) (.dma (bcRecvS h (rj c d.val))) () (Osum ts))
    (W : Waits sig Unit) :
    iprop(records m K ∗ levAts L lv
        ∗ cred (tallyAt (bcRecvCell h (rj c d.val) c) () Nb)
        ∗ owes (c : Thread nD τ) (Osum ts) W
        ∗ atPos ER (bcRecvCell h (rj c d.val) c) 0 ∅ 0)
      ⊢ iprop(((owes (c : Thread nD τ) (Osum ts) (insert (SemLoc.dma (bcRecvS h (rj c d.val)), ()) W)
              ∗ atPos ER (bcRecvCell h (rj c d.val) c) 1 ∅ 0
              ∗ ((bfView (ring c d.val) h).view.loc (c : Thread nD τ) ↦[(bfView (ring c d.val) h).view.set]{fullShare} Vals.bf m (ring c d.val)))
              -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 sR (bfSlot offS inbS) (bfSlot offD inbD) hsrc hdst) k) Q) := by
  subst hR
  exact BodyLemmas.wait_step m K c ts W (BodyLemmas.csem_dma _) (wpE_waitDma2_eq (dst := bfSlot offD inbD) 𝒱₀ (c : Thread nD τ) none Set.univ) (Tables.expect_bcRecv m h c d hd) (Tables.rest_bcRecv m h c d hd) hmw

theorem wait_bcs (h : Fin 2) (d : Fin 8) (hd : d.val ≠ 0)
    {sS : DmaSem sig} (hS : sS = bcSendS (bcIx h d))
    {offS offD : Fin 5 → Nat} {inbS : ∀ a, offS a + S1x1x8x8x128.size a ≤ S2x8x8x8x128.size a}
    {inbD : ∀ a, offD a + S1x1x8x8x128.size a ≤ S2x8x8x8x128.size a}
    {hsrc : (bfSlot offS inbS).view.WordExact} {hdst : (bfSlot offD inbD).view.WordExact}
    {α : Type} {Q : α → sProp 𝕄} {k : PUnit → Prog (TpuEff nD τ sig (Elt F) Λ₀ .tc) α}
    (ts : List (CellTallies nD τ sig Unit))
    (hmw : (levAts L lv : sProp 𝕄) ⊢ MayWait (c : Thread nD τ) (.dma (bcSendS (bcIx h d))) () (Osum ts))
    (W : Waits sig Unit) :
    iprop(records m K ∗ levAts L lv
        ∗ cred (tallyAt (bcSendCell (bcIx h d) c) () Nb)
        ∗ owes (c : Thread nD τ) (Osum ts) W
        ∗ atPos ER (bcSendCell (bcIx h d) c) 0 ∅ 0)
      ⊢ iprop(((owes (c : Thread nD τ) (Osum ts) (insert (SemLoc.dma (bcSendS (bcIx h d)), ()) W)
              ∗ atPos ER (bcSendCell (bcIx h d) c) 1 ∅ 0
              ∗ ((bfView c h).view.loc (c : Thread nD τ) ↦[(bfView c h).view.set]{bcShare d} Vals.bf m c))
              -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 sS (bfSlot offS inbS) (bfSlot offD inbD) hsrc hdst) k) Q) := by
  subst hS
  exact BodyLemmas.wait_step m K c ts W (BodyLemmas.csem_dma _) (wpE_waitDma2_eq (dst := bfSlot offD inbD) 𝒱₀ (c : Thread nD τ) none Set.univ) (Tables.expect_bcSend m (bcIx h d) c) (Tables.rest_bcSend m h d hd c) hmw

theorem close_yoSend (g : Fin 4) :
    iprop(records m K ∗ atPos ER (yoSendCell g c) 1 ∅ 0) ⊢ iprop(|={Set.univ}=> semVal (yoSendCell g c) 0) :=
  BodyLemmas.close_step m K c (BodyLemmas.csem_dma _) fun r hr => Tables.duties_later m _ r hr
theorem close_yoRecv (g : Fin 4) :
    iprop(records m K ∗ atPos ER (yoRecvCell g c) 1 ∅ 0) ⊢ iprop(|={Set.univ}=> semVal (yoRecvCell g c) 0) :=
  BodyLemmas.close_step m K c (BodyLemmas.csem_dma _) fun r hr => Tables.duties_later m _ r hr
theorem close_ylSend (g : Fin 4) :
    iprop(records m K ∗ atPos ER (ylSendCell g c) 1 ∅ 0) ⊢ iprop(|={Set.univ}=> semVal (ylSendCell g c) 0) :=
  BodyLemmas.close_step m K c (BodyLemmas.csem_dma _) fun r hr => Tables.duties_later m _ r hr
theorem close_ylRecv (g : Fin 4) :
    iprop(records m K ∗ atPos ER (ylRecvCell g c) 1 ∅ 0) ⊢ iprop(|={Set.univ}=> semVal (ylRecvCell g c) 0) :=
  BodyLemmas.close_step m K c (BodyLemmas.csem_dma _) fun r hr => Tables.duties_later m _ r hr
theorem close_bcSend (i : Fin 14) :
    iprop(records m K ∗ atPos ER (bcSendCell i c) 1 ∅ 0) ⊢ iprop(|={Set.univ}=> semVal (bcSendCell i c) 0) :=
  BodyLemmas.close_step m K c (BodyLemmas.csem_dma _) fun r hr => Tables.duties_later m _ r hr
theorem close_bcRecv (h : Fin 2) (j : Fin 8) :
    iprop(records m K ∗ atPos ER (bcRecvCell h j c) 1 ∅ 0) ⊢ iprop(|={Set.univ}=> semVal (bcRecvCell h j c) 0) :=
  BodyLemmas.close_step m K c (BodyLemmas.csem_dma _) fun r hr => Tables.duties_later m _ r hr
-- No device pays a receive cell of the device's own row: it has no duty in any round.
theorem close_bcRecv_own (h : Fin 2) :
    iprop(records m K ∗ atPos ER (bcRecvCell h (rj c 0) c) 0 ∅ 0) ⊢ iprop(|={Set.univ}=> semVal (bcRecvCell h (rj c 0) c) 0) :=
  BodyLemmas.close_step m K c (BodyLemmas.csem_dma _) fun r _ => Tables.duties_bcRecv_own m h c r

end Cert.KernelIdeal.Steps

end
-- ==== Proof.StepsM.lean ====
import proofs.«900787_g7700000000000788_dist_flashdec_v7x_xyz2x2x4_y_b8_sq8_skv1024_h16_d128_f32_1_alg».proof.Proof.Vals

namespace Cert.KernelIdeal.Steps

open Cert.KernelIdeal Cert.KernelIdeal.Gen Cert.KernelIdeal.Proto
open Idealize.ShloMosaic Idealize.ShloMosaic.ValueIdx

abbrev R4 (g : Fin 4) : Rect S4x8x4x128 := Rect.unit (s := S4x8x4x128) ![g.val, 0, 0, 0] S1x8x4x128.size (inb4 g)
abbrev R3 (g : Fin 4) : Rect S4x8x4 := Rect.unit (s := S4x8x4) ![g.val, 0, 0] S1x8x4.size (inb3 g)
abbrev R5 (off : Fin 5 → Nat) (inb : ∀ a, off a + S1x1x8x8x128.size a ≤ S2x8x8x8x128.size a) : Rect S2x8x8x8x128 :=
  Rect.unit (s := S2x8x8x8x128) off S1x1x8x8x128.size inb

-- A unit-stride slice places its own index at its offsets: the group, slot or half on the leading axes, the rest unchanged.
theorem R4_emb (g : Fin 4) (x : S1x8x4x128.Idx) :
    (R4 g).emb x = ix4 g (show Fin 8 from x 1) (show Fin 4 from x 2) (show Fin 128 from x 3) := by
  funext a; apply Fin.ext
  have h0 : (x 0).val < 1 := (x 0).isLt
  match a with
  | ⟨0, _⟩ => show g.val + 1 * (x 0).val = g.val; omega
  | ⟨1, _⟩ | ⟨2, _⟩ | ⟨3, _⟩ => exact (Nat.zero_add _).trans (Nat.one_mul _)
theorem R3_emb (g : Fin 4) (x : S1x8x4.Idx) :
    (R3 g).emb x = ix3 g (show Fin 8 from x 1) (show Fin 4 from x 2) := by
  funext a; apply Fin.ext
  have h0 : (x 0).val < 1 := (x 0).isLt
  match a with
  | ⟨0, _⟩ => show g.val + 1 * (x 0).val = g.val; omega
  | ⟨1, _⟩ | ⟨2, _⟩ => exact (Nat.zero_add _).trans (Nat.one_mul _)
theorem R5_emb (h : Fin 2) (j : Fin 8) (inb) (x : S1x1x8x8x128.Idx) :
    (R5 ![h.val, j.val, 0, 0, 0] inb).emb x = ix5 h j (show Fin 8 from x 2) (show Fin 8 from x 3) (show Fin 128 from x 4) := by
  funext a; apply Fin.ext
  have h0 : (x 0).val < 1 := (x 0).isLt
  have h1 : (x 1).val < 1 := (x 1).isLt
  match a with
  | ⟨0, _⟩ => show h.val + 1 * (x 0).val = h.val; omega
  | ⟨1, _⟩ => show j.val + 1 * (x 1).val = j.val; omega
  | ⟨2, _⟩ | ⟨3, _⟩ | ⟨4, _⟩ => exact (Nat.zero_add _).trans (Nat.one_mul _)

-- An index of a block with leading axes of extent one has zero there.
theorem eq_ix4_0 (x : S1x8x4x128.Idx) : x = ix4 (0 : Fin 1) (show Fin 8 from x 1) (show Fin 4 from x 2) (show Fin 128 from x 3) :=
  funext fun a => match a with
  | ⟨0, _⟩ => Fin.ext (Nat.lt_one_iff.mp (x 0).isLt)
  | ⟨1, _⟩ | ⟨2, _⟩ | ⟨3, _⟩ => rfl
theorem eq_ix3_0 (x : S1x8x4.Idx) : x = ix3 (0 : Fin 1) (show Fin 8 from x 1) (show Fin 4 from x 2) :=
  funext fun a => match a with
  | ⟨0, _⟩ => Fin.ext (Nat.lt_one_iff.mp (x 0).isLt)
  | ⟨1, _⟩ | ⟨2, _⟩ => rfl
theorem eq_ix5_00 (x : S1x1x8x8x128.Idx) :
    x = ix5 (0 : Fin 1) (0 : Fin 1) (show Fin 8 from x 2) (show Fin 8 from x 3) (show Fin 128 from x 4) :=
  funext fun a => match a with
  | ⟨0, _⟩ => Fin.ext (Nat.lt_one_iff.mp (x 0).isLt)
  | ⟨1, _⟩ => Fin.ext (Nat.lt_one_iff.mp (x 1).isLt)
  | ⟨2, _⟩ | ⟨3, _⟩ | ⟨4, _⟩ => rfl

end Cert.KernelIdeal.Steps
-- ==== Proof.StepsZ.lean ====
import proofs.«900787_g7700000000000788_dist_flashdec_v7x_xyz2x2x4_y_b8_sq8_skv1024_h16_d128_f32_1_alg».proof.Proof.Geom

noncomputable section

namespace Cert.KernelIdeal.Steps

open Cert.KernelIdeal Cert.KernelIdeal.Gen Cert.KernelIdeal.Mesh Cert.KernelIdeal.Proto Cert.KernelIdeal.Iface
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

theorem rows_nodup (c : Dev nD) : [rj c 0, rj c 1, rj c 2, rj c 3, rj c 4, rj c 5, rj c 6, rj c 7].Nodup := by revert c; decide
theorem rows_univ (c : Dev nD) :
    (Finset.univ : Finset (Fin 8)) = [rj c 0, rj c 1, rj c 2, rj c 3, rj c 4, rj c 5, rj c 6, rj c 7].toFinset := by
  revert c; decide

-- The eight rows met going round the ring from any device are all eight rows, so a product over them may be listed from row 0.
theorem recv_rows (c : Dev nD) (Ψ : Fin 8 → sProp 𝕄) :
    (iprop(Ψ (rj c 0) ∗ Ψ (rj c 1) ∗ Ψ (rj c 2) ∗ Ψ (rj c 3) ∗ Ψ (rj c 4) ∗ Ψ (rj c 5) ∗ Ψ (rj c 6) ∗ Ψ (rj c 7)) : sProp 𝕄)
      ⊢ iprop(Ψ 0 ∗ Ψ 1 ∗ Ψ 2 ∗ Ψ 3 ∗ Ψ 4 ∗ Ψ 5 ∗ Ψ 6 ∗ Ψ 7) :=
  Entails.of_eq ((bigSep_univ_eq_bigSepL [rj c 0, rj c 1, rj c 2, rj c 3, rj c 4, rj c 5, rj c 6, rj c 7] (rows_univ c) (rows_nodup c) Ψ).symm.trans
    (bigSep_univ_eq_bigSepL [0, 1, 2, 3, 4, 5, 6, 7] (by decide) (by decide) Ψ))

theorem recv_rows₂ (c : Dev nD) (Ψ Ψ' : Fin 8 → sProp 𝕄) :
    (iprop(Ψ (rj c 0) ∗ Ψ (rj c 1) ∗ Ψ (rj c 2) ∗ Ψ (rj c 3) ∗ Ψ (rj c 4) ∗ Ψ (rj c 5) ∗ Ψ (rj c 6) ∗ Ψ (rj c 7)
        ∗ Ψ' (rj c 0) ∗ Ψ' (rj c 1) ∗ Ψ' (rj c 2) ∗ Ψ' (rj c 3) ∗ Ψ' (rj c 4) ∗ Ψ' (rj c 5) ∗ Ψ' (rj c 6) ∗ Ψ' (rj c 7)) : sProp 𝕄)
      ⊢ iprop(Ψ 0 ∗ Ψ 1 ∗ Ψ 2 ∗ Ψ 3 ∗ Ψ 4 ∗ Ψ 5 ∗ Ψ 6 ∗ Ψ 7 ∗ Ψ' 0 ∗ Ψ' 1 ∗ Ψ' 2 ∗ Ψ' 3 ∗ Ψ' 4 ∗ Ψ' 5 ∗ Ψ' 6 ∗ Ψ' 7) := by
  iintro ⟨Ha0, Ha1, Ha2, Ha3, Ha4, Ha5, Ha6, Ha7, Hb⟩
  ihave HA := (recv_rows c Ψ) $$ [Ha0 Ha1 Ha2 Ha3 Ha4 Ha5 Ha6 Ha7]
  · iframe
  ihave HB := (recv_rows c Ψ') $$ Hb
  icases HA with ⟨Ha0, Ha1, Ha2, Ha3, Ha4, Ha5, Ha6, Ha7⟩
  iframe Ha0 Ha1 Ha2 Ha3 Ha4 Ha5 Ha6 Ha7
  iexact HB

-- First the sixty-two semaphores, the last sixteen put in the order of their rows, become the product over 2 … 63; then each buffer is whole again from its pieces.
theorem assemble_phi1 (c : Dev nD) :
    (iprop((∃ f, whole c cc0_scratch0 f)
      ∗ (∃ f, whole c cc0_scratch1 f)
      ∗ (∃ f, whole c cc0_scratch2 f)
      ∗ ((obSrc 0).view.loc (c : Thread nD τ) ↦[(obSrc 0).view.set]{fullShare} Vals.ob m c)
      ∗ ((obSrc 1).view.loc (c : Thread nD τ) ↦[(obSrc 1).view.set]{fullShare} Vals.ob m c)
      ∗ ((obSrc 2).view.loc (c : Thread nD τ) ↦[(obSrc 2).view.set]{fullShare} Vals.ob m c)
      ∗ ((obSrc 3).view.loc (c : Thread nD τ) ↦[(obSrc 3).view.set]{fullShare} Vals.ob m c)
      ∗ ((obDst 0).view.loc (c : Thread nD τ) ↦[(obDst 0).view.set]{fullShare} Vals.ob m (ynbr c))
      ∗ ((obDst 1).view.loc (c : Thread nD τ) ↦[(obDst 1).view.set]{fullShare} Vals.ob m (ynbr c))
      ∗ ((obDst 2).view.loc (c : Thread nD τ) ↦[(obDst 2).view.set]{fullShare} Vals.ob m (ynbr c))
      ∗ ((obDst 3).view.loc (c : Thread nD τ) ↦[(obDst 3).view.set]{fullShare} Vals.ob m (ynbr c))
      ∗ ((lbSrc 0).view.loc (c : Thread nD τ) ↦[(lbSrc 0).view.set]{fullShare.left} Vals.lb m c)
      ∗ ((lbSrc 0).view.loc (c : Thread nD τ) ↦[(lbSrc 0).view.set]{fullShare.right} Vals.lb m c)
      ∗ ((lbSrc 1).view.loc (c : Thread nD τ) ↦[(lbSrc 1).view.set]{fullShare.left} Vals.lb m c)
      ∗ ((lbSrc 1).view.loc (c : Thread nD τ) ↦[(lbSrc 1).view.set]{fullShare.right} Vals.lb m c)
      ∗ ((lbSrc 2).view.loc (c : Thread nD τ) ↦[(lbSrc 2).view.set]{fullShare.left} Vals.lb m c)
      ∗ ((lbSrc 2).view.loc (c : Thread nD τ) ↦[(lbSrc 2).view.set]{fullShare.right} Vals.lb m c)
      ∗ ((lbSrc 3).view.loc (c : Thread nD τ) ↦[(lbSrc 3).view.set]{fullShare.left} Vals.lb m c)
      ∗ ((lbSrc 3).view.loc (c : Thread nD τ) ↦[(lbSrc 3).view.set]{fullShare.right} Vals.lb m c)
      ∗ ((lbDst 0).view.loc (c : Thread nD τ) ↦[(lbDst 0).view.set]{fullShare} Vals.lb m (ynbr c))
      ∗ ((lbDst 1).view.loc (c : Thread nD τ) ↦[(lbDst 1).view.set]{fullShare} Vals.lb m (ynbr c))
      ∗ ((lbDst 2).view.loc (c : Thread nD τ) ↦[(lbDst 2).view.set]{fullShare} Vals.lb m (ynbr c))
      ∗ ((lbDst 3).view.loc (c : Thread nD τ) ↦[(lbDst 3).view.set]{fullShare} Vals.lb m (ynbr c))
      ∗ ((bfView c 0).view.loc (c : Thread nD τ) ↦[(bfView c 0).view.set]{bcShare 1} Vals.bf m c)
      ∗ ((bfView c 0).view.loc (c : Thread nD τ) ↦[(bfView c 0).view.set]{bcShare 2} Vals.bf m c)
      ∗ ((bfView c 0).view.loc (c : Thread nD τ) ↦[(bfView c 0).view.set]{bcShare 3} Vals.bf m c)
      ∗ ((bfView c 0).view.loc (c : Thread nD τ) ↦[(bfView c 0).view.set]{bcShare 4} Vals.bf m c)
      ∗ ((bfView c 0).view.loc (c : Thread nD τ) ↦[(bfView c 0).view.set]{bcShare 5} Vals.bf m c)
      ∗ ((bfView c 0).view.loc (c : Thread nD τ) ↦[(bfView c 0).view.set]{bcShare 6} Vals.bf m c)
      ∗ ((bfView c 0).view.loc (c : Thread nD τ) ↦[(bfView c 0).view.set]{bcShare 7} Vals.bf m c)
      ∗ ((bfView c 1).view.loc (c : Thread nD τ) ↦[(bfView c 1).view.set]{bcShare 1} Vals.bf m c)
      ∗ ((bfView c 1).view.loc (c : Thread nD τ) ↦[(bfView c 1).view.set]{bcShare 2} Vals.bf m c)
      ∗ ((bfView c 1).view.loc (c : Thread nD τ) ↦[(bfView c 1).view.set]{bcShare 3} Vals.bf m c)
      ∗ ((bfView c 1).view.loc (c : Thread nD τ) ↦[(bfView c 1).view.set]{bcShare 4} Vals.bf m c)
      ∗ ((bfView c 1).view.loc (c : Thread nD τ) ↦[(bfView c 1).view.set]{bcShare 5} Vals.bf m c)
      ∗ ((bfView c 1).view.loc (c : Thread nD τ) ↦[(bfView c 1).view.set]{bcShare 6} Vals.bf m c)
      ∗ ((bfView c 1).view.loc (c : Thread nD τ) ↦[(bfView c 1).view.set]{bcShare 7} Vals.bf m c)
      ∗ ((bfView (ring c 1) 0).view.loc (c : Thread nD τ) ↦[(bfView (ring c 1) 0).view.set]{fullShare} Vals.bf m (ring c 1))
      ∗ ((bfView (ring c 2) 0).view.loc (c : Thread nD τ) ↦[(bfView (ring c 2) 0).view.set]{fullShare} Vals.bf m (ring c 2))
      ∗ ((bfView (ring c 3) 0).view.loc (c : Thread nD τ) ↦[(bfView (ring c 3) 0).view.set]{fullShare} Vals.bf m (ring c 3))
      ∗ ((bfView (ring c 4) 0).view.loc (c : Thread nD τ) ↦[(bfView (ring c 4) 0).view.set]{fullShare} Vals.bf m (ring c 4))
      ∗ ((bfView (ring c 5) 0).view.loc (c : Thread nD τ) ↦[(bfView (ring c 5) 0).view.set]{fullShare} Vals.bf m (ring c 5))
      ∗ ((bfView (ring c 6) 0).view.loc (c : Thread nD τ) ↦[(bfView (ring c 6) 0).view.set]{fullShare} Vals.bf m (ring c 6))
      ∗ ((bfView (ring c 7) 0).view.loc (c : Thread nD τ) ↦[(bfView (ring c 7) 0).view.set]{fullShare} Vals.bf m (ring c 7))
      ∗ ((bfView (ring c 1) 1).view.loc (c : Thread nD τ) ↦[(bfView (ring c 1) 1).view.set]{fullShare} Vals.bf m (ring c 1))
      ∗ ((bfView (ring c 2) 1).view.loc (c : Thread nD τ) ↦[(bfView (ring c 2) 1).view.set]{fullShare} Vals.bf m (ring c 2))
      ∗ ((bfView (ring c 3) 1).view.loc (c : Thread nD τ) ↦[(bfView (ring c 3) 1).view.set]{fullShare} Vals.bf m (ring c 3))
      ∗ ((bfView (ring c 4) 1).view.loc (c : Thread nD τ) ↦[(bfView (ring c 4) 1).view.set]{fullShare} Vals.bf m (ring c 4))
      ∗ ((bfView (ring c 5) 1).view.loc (c : Thread nD τ) ↦[(bfView (ring c 5) 1).view.set]{fullShare} Vals.bf m (ring c 5))
      ∗ ((bfView (ring c 6) 1).view.loc (c : Thread nD τ) ↦[(bfView (ring c 6) 1).view.set]{fullShare} Vals.bf m (ring c 6))
      ∗ ((bfView (ring c 7) 1).view.loc (c : Thread nD τ) ↦[(bfView (ring c 7) 1).view.set]{fullShare} Vals.bf m (ring c 7))
      ∗ whole c main_arg1 (m ((c : Thread nD τ).loc main_arg1))
      ∗ whole c main_arg2 (m ((c : Thread nD τ).loc main_arg2))
      ∗ semVal ((c : Thread nD τ), SemLoc.dma (2 : DmaSem sig)) 0
      ∗ semVal ((c : Thread nD τ), SemLoc.dma (3 : DmaSem sig)) 0
      ∗ semVal ((c : Thread nD τ), SemLoc.dma (4 : DmaSem sig)) 0
      ∗ semVal ((c : Thread nD τ), SemLoc.dma (5 : DmaSem sig)) 0
      ∗ semVal ((c : Thread nD τ), SemLoc.dma (6 : DmaSem sig)) 0
      ∗ semVal ((c : Thread nD τ), SemLoc.dma (7 : DmaSem sig)) 0
      ∗ semVal ((c : Thread nD τ), SemLoc.dma (8 : DmaSem sig)) 0
      ∗ semVal ((c : Thread nD τ), SemLoc.dma (9 : DmaSem sig)) 0
      ∗ semVal ((c : Thread nD τ), SemLoc.dma (10 : DmaSem sig)) 0
      ∗ semVal ((c : Thread nD τ), SemLoc.dma (11 : DmaSem sig)) 0
      ∗ semVal ((c : Thread nD τ), SemLoc.dma (12 : DmaSem sig)) 0
      ∗ semVal ((c : Thread nD τ), SemLoc.dma (13 : DmaSem sig)) 0
      ∗ semVal ((c : Thread nD τ), SemLoc.dma (14 : DmaSem sig)) 0
      ∗ semVal ((c : Thread nD τ), SemLoc.dma (15 : DmaSem sig)) 0
      ∗ semVal ((c : Thread nD τ), SemLoc.dma (16 : DmaSem sig)) 0
      ∗ semVal ((c : Thread nD τ), SemLoc.dma (17 : DmaSem sig)) 0
      ∗ semVal (yoSendCell 0 c) 0
      ∗ semVal (yoSendCell 1 c) 0
      ∗ semVal (yoSendCell 2 c) 0
      ∗ semVal (yoSendCell 3 c) 0
      ∗ semVal (yoRecvCell 0 c) 0
      ∗ semVal (yoRecvCell 1 c) 0
      ∗ semVal (yoRecvCell 2 c) 0
      ∗ semVal (yoRecvCell 3 c) 0
      ∗ semVal (ylSendCell 0 c) 0
      ∗ semVal (ylSendCell 1 c) 0
      ∗ semVal (ylSendCell 2 c) 0
      ∗ semVal (ylSendCell 3 c) 0
      ∗ semVal (ylRecvCell 0 c) 0
      ∗ semVal (ylRecvCell 1 c) 0
      ∗ semVal (ylRecvCell 2 c) 0
      ∗ semVal (ylRecvCell 3 c) 0
      ∗ semVal (bcSendCell ⟨0, by decide⟩ c) 0
      ∗ semVal (bcSendCell ⟨1, by decide⟩ c) 0
      ∗ semVal (bcSendCell ⟨2, by decide⟩ c) 0
      ∗ semVal (bcSendCell ⟨3, by decide⟩ c) 0
      ∗ semVal (bcSendCell ⟨4, by decide⟩ c) 0
      ∗ semVal (bcSendCell ⟨5, by decide⟩ c) 0
      ∗ semVal (bcSendCell ⟨6, by decide⟩ c) 0
      ∗ semVal (bcSendCell ⟨7, by decide⟩ c) 0
      ∗ semVal (bcSendCell ⟨8, by decide⟩ c) 0
      ∗ semVal (bcSendCell ⟨9, by decide⟩ c) 0
      ∗ semVal (bcSendCell ⟨10, by decide⟩ c) 0
      ∗ semVal (bcSendCell ⟨11, by decide⟩ c) 0
      ∗ semVal (bcSendCell ⟨12, by decide⟩ c) 0
      ∗ semVal (bcSendCell ⟨13, by decide⟩ c) 0
      ∗ semVal (bcRecvCell 0 (rj c 0) c) 0
      ∗ semVal (bcRecvCell 0 (rj c 1) c) 0
      ∗ semVal (bcRecvCell 0 (rj c 2) c) 0
      ∗ semVal (bcRecvCell 0 (rj c 3) c) 0
      ∗ semVal (bcRecvCell 0 (rj c 4) c) 0
      ∗ semVal (bcRecvCell 0 (rj c 5) c) 0
      ∗ semVal (bcRecvCell 0 (rj c 6) c) 0
      ∗ semVal (bcRecvCell 0 (rj c 7) c) 0
      ∗ semVal (bcRecvCell 1 (rj c 0) c) 0
      ∗ semVal (bcRecvCell 1 (rj c 1) c) 0
      ∗ semVal (bcRecvCell 1 (rj c 2) c) 0
      ∗ semVal (bcRecvCell 1 (rj c 3) c) 0
      ∗ semVal (bcRecvCell 1 (rj c 4) c) 0
      ∗ semVal (bcRecvCell 1 (rj c 5) c) 0
      ∗ semVal (bcRecvCell 1 (rj c 6) c) 0
      ∗ semVal (bcRecvCell 1 (rj c 7) c) 0) : sProp 𝕄)
      ⊢ Φ₁ m c := by
  apply BIBase.Entails.trans
  · iterate 53 apply sep_mono_right
    refine BIBase.Entails.trans ?_ (BIBase.Entails.of_eq (bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61] (by decide) (by decide)
      (fun i : Fin 62 => semVal ((c : Thread nD τ), SemLoc.dma (⟨2 + i.val, by show 2 + i.val < 64; have := i.isLt; omega⟩ : DmaSem sig)) 0)).symm)
    iterate 46 refine sep_mono_right ?_
    exact recv_rows₂ c (fun j => semVal (bcRecvCell 0 j c) 0) (fun j => semVal (bcRecvCell 1 j c) 0)
  unfold Φ₁
  iintro ⟨H0, H1, H2, Ho0, Ho1, Ho2, Ho3, Hp0, Hp1, Hp2, Hp3, Hl0a, Hl0b, Hl1a, Hl1b, Hl2a, Hl2b, Hl3a, Hl3b, Hq0, Hq1, Hq2, Hq3,
    Hs01, Hs02, Hs03, Hs04, Hs05, Hs06, Hs07, Hs11, Hs12, Hs13, Hs14, Hs15, Hs16, Hs17,
    Hr01, Hr02, Hr03, Hr04, Hr05, Hr06, Hr07, Hr11, Hr12, Hr13, Hr14, Hr15, Hr16, Hr17, Ha1, Ha2, Hsems⟩
  iframe H0 H1 H2 Ha1 Ha2
  isplitl [Ho0 Ho1 Ho2 Ho3]
  · iexists (Vals.ob m c)
    iapply (Geom.join3 c (Vals.ob m c))
    iframe
  isplitl [Hp0 Hp1 Hp2 Hp3]
  · iexists (Vals.ob m (ynbr c))
    iapply (Geom.join4 c (Vals.ob m (ynbr c)))
    iframe
  isplitl [Hl0a Hl0b Hl1a Hl1b Hl2a Hl2b Hl3a Hl3b]
  · iexists (Vals.lb m c)
    iapply (Geom.join5 c (Vals.lb m c))
    isplitl [Hl0a Hl0b]
    · iapply (Geom.halves _ _).2; iframe
    isplitl [Hl1a Hl1b]
    · iapply (Geom.halves _ _).2; iframe
    isplitl [Hl2a Hl2b]
    · iapply (Geom.halves _ _).2; iframe
    iapply (Geom.halves _ _).2; iframe
  isplitl [Hq0 Hq1 Hq2 Hq3]
  · iexists (Vals.lb m (ynbr c))
    iapply (Geom.join6 c (Vals.lb m (ynbr c)))
    iframe
  isplitr [Hsems]
  · iapply (Geom.join7 c)
    isplitl [Hs01 Hs02 Hs03 Hs04 Hs05 Hs06 Hs07]
    · iexists (Vals.bf m c)
      iapply (Geom.shares7 _ _).2
      iframe
    isplitl [Hs11 Hs12 Hs13 Hs14 Hs15 Hs16 Hs17]
    · iexists (Vals.bf m c)
      iapply (Geom.shares7 _ _).2
      iframe
    isplitl [Hr01]; · iexists _; iexact Hr01
    isplitl [Hr11]; · iexists _; iexact Hr11
    isplitl [Hr02]; · iexists _; iexact Hr02
    isplitl [Hr12]; · iexists _; iexact Hr12
    isplitl [Hr03]; · iexists _; iexact Hr03
    isplitl [Hr13]; · iexists _; iexact Hr13
    isplitl [Hr04]; · iexists _; iexact Hr04
    isplitl [Hr14]; · iexists _; iexact Hr14
    isplitl [Hr05]; · iexists _; iexact Hr05
    isplitl [Hr15]; · iexists _; iexact Hr15
    isplitl [Hr06]; · iexists _; iexact Hr06
    isplitl [Hr16]; · iexists _; iexact Hr16
    isplitl [Hr07]; · iexists _; iexact Hr07
    iexists _; iexact Hr17
  iexact Hsems

end Cert.KernelIdeal.Steps

end
-- ==== Proof.SlabValue.lean ====
import proofs.«900787_g7700000000000788_dist_flashdec_v7x_xyz2x2x4_y_b8_sq8_skv1024_h16_d128_f32_1_alg».proof.Proof.Vals
import Idealize.ShloMosaic.Lib.ValueLayout

noncomputable section

namespace Cert.KernelIdeal.SlabValue

open Cert.KernelIdeal Cert.KernelIdeal.Gen Cert.KernelIdeal.Mesh Cert.KernelIdeal.Proto
open Idealize.ShloMosaic Idealize.ShloMosaic.ValueIdx
open Idealize.ShloMosaic.TcCoe

variable {F : FTy → Type} [FloatOps F]
variable (m : (ℓ : Loc nD τ sig) → Buf (Elt F) ℓ)

abbrev Buf2 := Memref sig .tc .vmem S2x4x1024x128 .f32
abbrev Arr := Memref sig .tc .hbm S8x1024x16x128 .f32

theorem panel_inb {s : Nat} (hs : s < 2) (hh : Fin 4) (a : Fin 4) :
    (![s, hh.val, 0, 0] : Fin 4 → Nat) a + S1x1x1024x128.size a ≤ S2x4x1024x128.size a := by
  match a with
  | ⟨0, _⟩ => exact hs
  | ⟨1, _⟩ => exact hh.isLt
  | ⟨2, _⟩ => exact Nat.le_refl _
  | ⟨3, _⟩ => exact Nat.le_refl _

abbrev panel (B : Buf2) (s hh : Nat) (inb : ∀ a, (![s, hh, 0, 0] : Fin 4 → Nat) a + S1x1x1024x128.size a ≤ S2x4x1024x128.size a) :
    View sig .tc .vmem S1024x128 .f32 :=
  ((B.slice (Rect.unit (s := S2x4x1024x128) ![s, hh, 0, 0] S1x1x1024x128.size inb) (fun _ => rfl)).squeeze S1024x128 squeezes_S1x1x1024x128_S1024x128).view

theorem read_write_panel (B : Buf2) (s hh : Nat) (inb) (f : B.view.ty.Contents (Elt F)) (w : S1024x128.Idx → Elt F .f32)
    (a : Fin 2) (b : Fin 4) (k : Fin 1024) (d : Fin 128) :
    B.view.read (Elt F) (View.write (Elt F) (panel B s hh inb) f w Finset.univ) (ix4 a b k d)
      = if a.val = s ∧ b.val = hh then w (ix2 k d) else B.view.read (Elt F) f (ix4 a b k d) := by
  rw [show View.write (Elt F) (panel B s hh inb) f w Finset.univ = _ from
    View.write_reshape_univ (B.view.slice (Rect.unit (s := S2x4x1024x128) ![s, hh, 0, 0] S1x1x1024x128.size inb)) _ f w]
  by_cases h : a.val = s ∧ b.val = hh
  · rw [if_pos h]
    have hi : (Rect.unit (s := S2x4x1024x128) ![s, hh, 0, 0] S1x1x1024x128.size inb).emb
        (ix4 (0 : Fin 1) (0 : Fin 1) k d) = ix4 a b k d := by
      funext j; apply Fin.ext; rw [Rect.emb_apply]
      match j with
      | ⟨0, _⟩ => exact h.1.symm
      | ⟨1, _⟩ => exact h.2.symm
      | ⟨2, _⟩ => exact (Nat.zero_add _).trans (Nat.one_mul _)
      | ⟨3, _⟩ => exact (Nat.zero_add _).trans (Nat.one_mul _)
    refine (congrArg _ hi.symm).trans ((View.read_slice_write_emb _ _ _ (Finset.mem_univ _)).trans (congrArg w ?_))
    exact (Equiv.symm_apply_eq _).mpr (reshapeEquiv_ix2_11ab _ _ _).symm
  · rw [if_neg h]
    refine View.read_slice_write_of_not_mem _ _ _ _ fun hm => h ?_
    rw [Rect.map_emb_univ, Rect.mem_set_unit] at hm
    have h0 := hm 0
    have h1 := hm 1
    change s ≤ a.val ∧ a.val < s + 1 at h0
    change hh ≤ b.val ∧ b.val < hh + 1 at h1
    exact ⟨by omega, by omega⟩

abbrev fill (B : Buf2) (s : Nat) (hs : s < 2) (f : B.view.ty.Contents (Elt F)) (w0 w1 w2 w3 : S1024x128.Idx → Elt F .f32) :
    B.view.ty.Contents (Elt F) :=
  View.write (Elt F) (panel B s 3 (panel_inb hs 3))
    (View.write (Elt F) (panel B s 2 (panel_inb hs 2))
      (View.write (Elt F) (panel B s 1 (panel_inb hs 1))
        (View.write (Elt F) (panel B s 0 (panel_inb hs 0)) f w0 Finset.univ) w1 Finset.univ) w2 Finset.univ) w3 Finset.univ

theorem read_fill_ne {B : Buf2} {s : Nat} {hs} {f : B.view.ty.Contents (Elt F)} {w0 w1 w2 w3 : S1024x128.Idx → Elt F .f32}
    {a : Fin 2} (h : a.val ≠ s) (b : Fin 4) (k : Fin 1024) (d : Fin 128) :
    B.view.read (Elt F) (fill B s hs f w0 w1 w2 w3) (ix4 a b k d) = B.view.read (Elt F) f (ix4 a b k d) := by
  rw [read_write_panel, if_neg (mt And.left h), read_write_panel, if_neg (mt And.left h), read_write_panel,
    if_neg (mt And.left h), read_write_panel, if_neg (mt And.left h)]

abbrev src (A : Arr) (off : Fin 4 → Nat) (inb : ∀ a, off a + S1x1024x1x128.size a ≤ S8x1024x16x128.size a) : View sig .tc .hbm S1024x128 .f32 :=
  ((A.slice (Rect.unit (s := S8x1024x16x128) off S1x1024x1x128.size inb) (fun _ => rfl)).squeeze S1024x128 squeezes_S1x1024x1x128_S1024x128).view

abbrev carry (A : Arr) (a : A.view.ty.Contents (Elt F)) (off : Fin 4 → Nat) (inb : ∀ a, off a + S1x1024x1x128.size a ≤ S8x1024x16x128.size a) :
    S1024x128.Idx → Elt F .f32 :=
  ReadAs.same.apply (View.read (Elt F) (src A off inb) a)

theorem reshapeEquiv_ix2_1a1b {a b : ℕ} (h : (⟨2, ![a, b]⟩ : Shape).numel = (⟨4, ![1, a, 1, b]⟩ : Shape).numel) (x : Fin a) (y : Fin b) :
    Shape.reshapeEquiv h (ix2 x y) = ix4 (⟨0, Nat.one_pos⟩ : Fin 1) x (⟨0, Nat.one_pos⟩ : Fin 1) y :=
  Shape.reshapeEquiv_eq_of_rowMajor h (by
    rw [Shape.rowMajor_val_four, Shape.rowMajor_val_two]
    show ((0 * a + x.val) * 1 + 0) * b + y.val = x.val * b + y.val
    simp only [Nat.zero_mul, Nat.zero_add, Nat.mul_one, Nat.add_zero])

theorem carry_apply (A : Arr) (a : A.view.ty.Contents (Elt F)) (off : Fin 4 → Nat) (inb) (p : Fin 8) (hd : Fin 16)
    (hoff : off = ![p.val, 0, hd.val, 0]) (k : Fin 1024) (d : Fin 128) :
    carry A a off inb (ix2 k d) = A.view.read (Elt F) a (ix4 p k hd d) := by
  subst hoff
  show A.view.read (Elt F) a ((Rect.unit (s := S8x1024x16x128) ![p.val, 0, hd.val, 0] S1x1024x1x128.size inb).emb
    (Shape.reshapeEquiv squeezes_S1x1024x1x128_S1024x128.numel_eq (ix2 k d))) = _
  rw [reshapeEquiv_ix2_1a1b]
  refine congrArg _ (funext fun j => Fin.ext ?_)
  rw [Rect.emb_apply]
  match j with
  | ⟨0, _⟩ => exact Nat.add_zero _
  | ⟨1, _⟩ => exact (Nat.zero_add _).trans (Nat.one_mul _)
  | ⟨2, _⟩ => exact Nat.add_zero _
  | ⟨3, _⟩ => exact (Nat.zero_add _).trans (Nat.one_mul _)

theorem read_fill_carry {B : Buf2} {s : Nat} {hs} {f : B.view.ty.Contents (Elt F)} {A : Arr} {a : A.view.ty.Contents (Elt F)}
    {o0 o1 o2 o3 : Fin 4 → Nat} {i0 i1 i2 i3} (p : Fin 8) (g : Fin 4)
    (h0 : o0 = ![p.val, 0, 4 * g.val + 0, 0]) (h1 : o1 = ![p.val, 0, 4 * g.val + 1, 0])
    (h2 : o2 = ![p.val, 0, 4 * g.val + 2, 0]) (h3 : o3 = ![p.val, 0, 4 * g.val + 3, 0])
    (b : Fin 4) (k : Fin 1024) (d : Fin 128) :
    B.view.read (Elt F) (fill B s hs f (carry A a o0 i0) (carry A a o1 i1) (carry A a o2 i2) (carry A a o3 i3)) (ix4 (⟨s, hs⟩ : Fin 2) b k d)
      = A.view.read (Elt F) a (ix4 p k (Vals.head g b) d) := by
  match b with
  | 0 =>
    rw [read_write_panel, if_neg, read_write_panel, if_neg, read_write_panel, if_neg, read_write_panel, if_pos ⟨rfl, rfl⟩]
    exact carry_apply A a _ _ p _ h0 k d
    all_goals exact mt And.right (by decide)
  | 1 =>
    rw [read_write_panel, if_neg, read_write_panel, if_neg, read_write_panel, if_pos ⟨rfl, rfl⟩]
    exact carry_apply A a _ _ p _ h1 k d
    all_goals exact mt And.right (by decide)
  | 2 =>
    rw [read_write_panel, if_neg, read_write_panel, if_pos ⟨rfl, rfl⟩]
    exact carry_apply A a _ _ p _ h2 k d
    exact mt And.right (by decide)
  | 3 =>
    rw [read_write_panel, if_pos ⟨rfl, rfl⟩]
    exact carry_apply A a _ _ p _ h3 k d

abbrev slot (s : Nat) (inb : ∀ a, (![s, 0, 0, 0] : Fin 4 → Nat) a + S1x4x1024x128.size a ≤ S2x4x1024x128.size a) : LoadRect S2x4x1024x128 :=
  (Rect.unit (s := S2x4x1024x128) ![s, 0, 0, 0] S1x4x1024x128.size inb).toLoadRect

theorem slot_read (B : Buf2) (s : Nat) (inb) (G : B.view.ty.Contents (Elt F)) (hs : s < 2) (R : S1x4x1024x128.Idx → Elt F .f32)
    (h : ∀ b k d, B.view.read (Elt F) G (ix4 (⟨s, hs⟩ : Fin 2) b k d) = R (ix4 (0 : Fin 1) b k d)) :
    View.readAt (Elt F) B.view (slot s inb) G = R := by
  funext y
  have h0 : (y 0).val < 1 := (y 0).isLt
  refine (congrArg (B.view.read (Elt F) G) (funext fun j => Fin.ext ?_)).trans
    ((h (y 1) (y 2) (y 3)).trans (congrArg R (funext fun j => Fin.ext ?_)))
  · rw [LoadRect.idx_apply]
    match j with
    | ⟨0, _⟩ => show s + 1 * (y 0).val = s; omega
    | ⟨1, _⟩ => exact (Nat.zero_add _).trans (Nat.one_mul _)
    | ⟨2, _⟩ => exact (Nat.zero_add _).trans (Nat.one_mul _)
    | ⟨3, _⟩ => exact (Nat.zero_add _).trans (Nat.one_mul _)
  · match j with
    | ⟨0, _⟩ => show 0 = (y 0).val; omega
    | ⟨1, _⟩ => rfl
    | ⟨2, _⟩ => rfl
    | ⟨3, _⟩ => rfl

theorem read_q (c : Dev nD) (g : Fin 4) (off : Fin 4 → Nat) (inb) (hoff : off = ![pOf c, 0, 4 * g.val, 0]) :
    View.readAt (Elt F) (Memref.whole cc0_stg0_0).view (Rect.unit (s := S8x8x16x128) off S1x8x4x128.size inb).toLoadRect (Vals.qst m c)
      = Vals.qRows m c g := by
  subst hoff
  funext y
  have h0 : (y 0).val < 1 := (y 0).isLt
  show Vals.qst m c ((Rect.unit (s := S8x8x16x128) ![pOf c, 0, 4 * g.val, 0] S1x8x4x128.size inb).toLoadRect.idx y)
    = Vals.qst m c (ix4 (Vals.pFin c) (show Fin 8 from y 1) (Vals.head g (show Fin 4 from y 2)) (show Fin 128 from y 3))
  refine congrArg (Vals.qst m c) (funext fun j => Fin.ext ?_)
  rw [LoadRect.idx_apply]
  match j with
  | ⟨0, _⟩ => show pOf c + 1 * (y 0).val = pOf c; omega
  | ⟨1, _⟩ => exact (Nat.zero_add _).trans (Nat.one_mul _)
  | ⟨2, _⟩ => show 4 * g.val + 1 * (y 2).val = 4 * g.val + (y 2).val; omega
  | ⟨3, _⟩ => exact (Nat.zero_add _).trans (Nat.one_mul _)

theorem read_q_0 (c : Dev nD) :
    View.readAt (Elt F) (Memref.whole cc0_stg0_0).view (Rect.unit (s := S8x8x16x128) (k0_off9 c) S1x8x4x128.size (k0_off9_inb c)).toLoadRect (Vals.qst m c)
      = Vals.qRows m c ⟨0, by decide⟩ :=
  read_q m c _ _ _ (off9_eq c)

theorem read_q_1 (c : Dev nD) :
    View.readAt (Elt F) (Memref.whole cc0_stg0_0).view (Rect.unit (s := S8x8x16x128) (k0_off14 c) S1x8x4x128.size (k0_off14_inb c)).toLoadRect (Vals.qst m c)
      = Vals.qRows m c ⟨1, by decide⟩ :=
  read_q m c _ _ _ (off14_eq c)

theorem read_q_2 (c : Dev nD) :
    View.readAt (Elt F) (Memref.whole cc0_stg0_0).view (Rect.unit (s := S8x8x16x128) (k0_off19 c) S1x8x4x128.size (k0_off19_inb c)).toLoadRect (Vals.qst m c)
      = Vals.qRows m c ⟨2, by decide⟩ :=
  read_q m c _ _ _ (off19_eq c)

theorem read_q_3 (c : Dev nD) :
    View.readAt (Elt F) (Memref.whole cc0_stg0_0).view (Rect.unit (s := S8x8x16x128) (k0_off20 c) S1x8x4x128.size (k0_off20_inb c)).toLoadRect (Vals.qst m c)
      = Vals.qRows m c ⟨3, by decide⟩ :=
  read_q m c _ _ _ (off20_eq c)

abbrev bufK : Buf2 := Memref.whole cc0_scratch0
abbrev bufV : Buf2 := Memref.whole cc0_scratch1
abbrev cpK (c : Dev nD) (off : Fin 4 → Nat) (inb : ∀ a, off a + S1x1024x1x128.size a ≤ S8x1024x16x128.size a) : S1024x128.Idx → Elt F .f32 :=
  carry (Memref.whole main_arg1) (m ((c : Thread nD τ).loc main_arg1)) off inb
abbrev cpV (c : Dev nD) (off : Fin 4 → Nat) (inb : ∀ a, off a + S1x1024x1x128.size a ≤ S8x1024x16x128.size a) : S1024x128.Idx → Elt F .f32 :=
  carry (Memref.whole main_arg2) (m ((c : Thread nD τ).loc main_arg2)) off inb

theorem slab_K_0 (c : Dev nD) (f0 : Buf (Elt F) ((Memref.whole cc0_scratch0 : Memref sig .tc _ _ _).view.loc (c : Thread nD τ)))
    (p10 p11 p12 p13 : S1024x128.Idx → Elt F .f32) :
    View.readAt (Elt F) (Memref.whole cc0_scratch0).view (slot 0 (by decide))
      (fill bufK 1 (by decide) (fill bufK 0 (by decide) f0 (cpK m c (k0_off1 c) (k0_off1_inb c)) (cpK m c (k0_off2 c) (k0_off2_inb c)) (cpK m c (k0_off3 c) (k0_off3_inb c)) (cpK m c (k0_off4 c) (k0_off4_inb c))) p10 p11 p12 p13)
      = Vals.kSlab m c ⟨0, by decide⟩ :=
  slot_read _ _ _ _ (by decide) _ fun b k d =>
    (read_fill_ne (by decide) b k d).trans (read_fill_carry (Vals.pFin c) 0 (off1_eq c) (off2_eq c) (off3_eq c) (off4_eq c) b k d)

theorem slab_K_1 (c : Dev nD) (f0 : Buf (Elt F) ((Memref.whole cc0_scratch0 : Memref sig .tc _ _ _).view.loc (c : Thread nD τ)))
    (p00 p01 p02 p03 p20 p21 p22 p23 : S1024x128.Idx → Elt F .f32) :
    View.readAt (Elt F) (Memref.whole cc0_scratch0).view (slot 1 (by decide))
      (fill bufK 0 (by decide) (fill bufK 1 (by decide) (fill bufK 0 (by decide) f0 p00 p01 p02 p03) (cpK m c (k0_off5 c) (k0_off5_inb c)) (cpK m c (k0_off6 c) (k0_off6_inb c)) (cpK m c (k0_off7 c) (k0_off7_inb c)) (cpK m c (k0_off8 c) (k0_off8_inb c))) p20 p21 p22 p23)
      = Vals.kSlab m c ⟨1, by decide⟩ :=
  slot_read _ _ _ _ (by decide) _ fun b k d =>
    (read_fill_ne (by decide) b k d).trans (read_fill_carry (Vals.pFin c) 1 (off5_eq c) (off6_eq c) (off7_eq c) (off8_eq c) b k d)

theorem slab_K_2 (c : Dev nD) (f0 : Buf (Elt F) ((Memref.whole cc0_scratch0 : Memref sig .tc _ _ _).view.loc (c : Thread nD τ)))
    (p00 p01 p02 p03 p10 p11 p12 p13 p30 p31 p32 p33 : S1024x128.Idx → Elt F .f32) :
    View.readAt (Elt F) (Memref.whole cc0_scratch0).view (slot 0 (by decide))
      (fill bufK 1 (by decide) (fill bufK 0 (by decide) (fill bufK 1 (by decide) (fill bufK 0 (by decide) f0 p00 p01 p02 p03) p10 p11 p12 p13) (cpK m c (k0_off10 c) (k0_off10_inb c)) (cpK m c (k0_off11 c) (k0_off11_inb c)) (cpK m c (k0_off12 c) (k0_off12_inb c)) (cpK m c (k0_off13 c) (k0_off13_inb c))) p30 p31 p32 p33)
      = Vals.kSlab m c ⟨2, by decide⟩ :=
  slot_read _ _ _ _ (by decide) _ fun b k d =>
    (read_fill_ne (by decide) b k d).trans (read_fill_carry (Vals.pFin c) 2 (off10_eq c) (off11_eq c) (off12_eq c) (off13_eq c) b k d)

theorem slab_K_3 (c : Dev nD) (f0 : Buf (Elt F) ((Memref.whole cc0_scratch0 : Memref sig .tc _ _ _).view.loc (c : Thread nD τ)))
    (p00 p01 p02 p03 p10 p11 p12 p13 p20 p21 p22 p23 : S1024x128.Idx → Elt F .f32) :
    View.readAt (Elt F) (Memref.whole cc0_scratch0).view (slot 1 (by decide))
      (fill bufK 1 (by decide) (fill bufK 0 (by decide) (fill bufK 1 (by decide) (fill bufK 0 (by decide) f0 p00 p01 p02 p03) p10 p11 p12 p13) p20 p21 p22 p23) (cpK m c (k0_off15 c) (k0_off15_inb c)) (cpK m c (k0_off16 c) (k0_off16_inb c)) (cpK m c (k0_off17 c) (k0_off17_inb c)) (cpK m c (k0_off18 c) (k0_off18_inb c)))
      = Vals.kSlab m c ⟨3, by decide⟩ :=
  slot_read _ _ _ _ (by decide) _ (read_fill_carry (Vals.pFin c) 3 (off15_eq c) (off16_eq c) (off17_eq c) (off18_eq c))

theorem slab_V_0 (c : Dev nD) (f0 : Buf (Elt F) ((Memref.whole cc0_scratch1 : Memref sig .tc _ _ _).view.loc (c : Thread nD τ)))
    (p10 p11 p12 p13 : S1024x128.Idx → Elt F .f32) :
    View.readAt (Elt F) (Memref.whole cc0_scratch1).view (slot 0 (by decide))
      (fill bufV 1 (by decide) (fill bufV 0 (by decide) f0 (cpV m c (k0_off1 c) (k0_off1_inb c)) (cpV m c (k0_off2 c) (k0_off2_inb c)) (cpV m c (k0_off3 c) (k0_off3_inb c)) (cpV m c (k0_off4 c) (k0_off4_inb c))) p10 p11 p12 p13)
      = Vals.vSlab m c ⟨0, by decide⟩ :=
  slot_read _ _ _ _ (by decide) _ fun b k d =>
    (read_fill_ne (by decide) b k d).trans (read_fill_carry (Vals.pFin c) 0 (off1_eq c) (off2_eq c) (off3_eq c) (off4_eq c) b k d)

theorem slab_V_1 (c : Dev nD) (f0 : Buf (Elt F) ((Memref.whole cc0_scratch1 : Memref sig .tc _ _ _).view.loc (c : Thread nD τ)))
    (p00 p01 p02 p03 p20 p21 p22 p23 : S1024x128.Idx → Elt F .f32) :
    View.readAt (Elt F) (Memref.whole cc0_scratch1).view (slot 1 (by decide))
      (fill bufV 0 (by decide) (fill bufV 1 (by decide) (fill bufV 0 (by decide) f0 p00 p01 p02 p03) (cpV m c (k0_off5 c) (k0_off5_inb c)) (cpV m c (k0_off6 c) (k0_off6_inb c)) (cpV m c (k0_off7 c) (k0_off7_inb c)) (cpV m c (k0_off8 c) (k0_off8_inb c))) p20 p21 p22 p23)
      = Vals.vSlab m c ⟨1, by decide⟩ :=
  slot_read _ _ _ _ (by decide) _ fun b k d =>
    (read_fill_ne (by decide) b k d).trans (read_fill_carry (Vals.pFin c) 1 (off5_eq c) (off6_eq c) (off7_eq c) (off8_eq c) b k d)

theorem slab_V_2 (c : Dev nD) (f0 : Buf (Elt F) ((Memref.whole cc0_scratch1 : Memref sig .tc _ _ _).view.loc (c : Thread nD τ)))
    (p00 p01 p02 p03 p10 p11 p12 p13 p30 p31 p32 p33 : S1024x128.Idx → Elt F .f32) :
    View.readAt (Elt F) (Memref.whole cc0_scratch1).view (slot 0 (by decide))
      (fill bufV 1 (by decide) (fill bufV 0 (by decide) (fill bufV 1 (by decide) (fill bufV 0 (by decide) f0 p00 p01 p02 p03) p10 p11 p12 p13) (cpV m c (k0_off10 c) (k0_off10_inb c)) (cpV m c (k0_off11 c) (k0_off11_inb c)) (cpV m c (k0_off12 c) (k0_off12_inb c)) (cpV m c (k0_off13 c) (k0_off13_inb c))) p30 p31 p32 p33)
      = Vals.vSlab m c ⟨2, by decide⟩ :=
  slot_read _ _ _ _ (by decide) _ fun b k d =>
    (read_fill_ne (by decide) b k d).trans (read_fill_carry (Vals.pFin c) 2 (off10_eq c) (off11_eq c) (off12_eq c) (off13_eq c) b k d)

theorem slab_V_3 (c : Dev nD) (f0 : Buf (Elt F) ((Memref.whole cc0_scratch1 : Memref sig .tc _ _ _).view.loc (c : Thread nD τ)))
    (p00 p01 p02 p03 p10 p11 p12 p13 p20 p21 p22 p23 : S1024x128.Idx → Elt F .f32) :
    View.readAt (Elt F) (Memref.whole cc0_scratch1).view (slot 1 (by decide))
      (fill bufV 1 (by decide) (fill bufV 0 (by decide) (fill bufV 1 (by decide) (fill bufV 0 (by decide) f0 p00 p01 p02 p03) p10 p11 p12 p13) p20 p21 p22 p23) (cpV m c (k0_off15 c) (k0_off15_inb c)) (cpV m c (k0_off16 c) (k0_off16_inb c)) (cpV m c (k0_off17 c) (k0_off17_inb c)) (cpV m c (k0_off18 c) (k0_off18_inb c)))
      = Vals.vSlab m c ⟨3, by decide⟩ :=
  slot_read _ _ _ _ (by decide) _ (read_fill_carry (Vals.pFin c) 3 (off15_eq c) (off16_eq c) (off17_eq c) (off18_eq c))

end Cert.KernelIdeal.SlabValue

end
-- ==== Proof.OutValue.lean ====
import proofs.«900787_g7700000000000788_dist_flashdec_v7x_xyz2x2x4_y_b8_sq8_skv1024_h16_d128_f32_1_alg».proof.Proof.Iface
import proofs.«900787_g7700000000000788_dist_flashdec_v7x_xyz2x2x4_y_b8_sq8_skv1024_h16_d128_f32_1_alg».proof.Proof.MeshMore
import Idealize.ShloMosaic.Lib.Writes

noncomputable section

namespace Cert.KernelIdeal.OutValue

open Cert.KernelIdeal Cert.KernelIdeal.Gen Cert.KernelIdeal.Mesh Cert.KernelIdeal.Proto Cert.KernelIdeal.Iface
open Idealize.ShloMosaic Idealize.ShloMosaic.ValueIdx
open Idealize.ShloMosaic.TcCoe

variable {F : FTy → Type} [FloatOps F]
variable (m : (ℓ : Loc nD τ sig) → Buf (Elt F) ℓ)

theorem pay33_eq : (k0_pay33 : Vec F S1x1x8x8x128 .bf16 → FVec F S1x8x8x128 .f32) = k0_pay32 := rfl
theorem pay34_eq : (k0_pay34 : Vec F S1x1x8x8x128 .bf16 → FVec F S1x8x8x128 .f32) = k0_pay32 := rfl
theorem pay35_eq : (k0_pay35 : Vec F S1x1x8x8x128 .bf16 → FVec F S1x8x8x128 .f32) = k0_pay32 := rfl
theorem pay36_eq : (k0_pay36 : Vec F S1x1x8x8x128 .bf16 → FVec F S1x8x8x128 .f32) = k0_pay32 := rfl
theorem pay37_eq : (k0_pay37 : Vec F S1x1x8x8x128 .bf16 → FVec F S1x8x8x128 .f32) = k0_pay32 := rfl
theorem pay38_eq : (k0_pay38 : Vec F S1x1x8x8x128 .bf16 → FVec F S1x8x8x128 .f32) = k0_pay32 := rfl
theorem pay39_eq : (k0_pay39 : Vec F S1x1x8x8x128 .bf16 → FVec F S1x8x8x128 .f32) = k0_pay32 := rfl
theorem pay40_eq : (k0_pay40 : Vec F S1x1x8x8x128 .bf16 → FVec F S1x8x8x128 .f32) = k0_pay32 := rfl
theorem pay41_eq : (k0_pay41 : Vec F S1x1x8x8x128 .bf16 → FVec F S1x8x8x128 .f32) = k0_pay32 := rfl
theorem pay42_eq : (k0_pay42 : Vec F S1x1x8x8x128 .bf16 → FVec F S1x8x8x128 .f32) = k0_pay32 := rfl
theorem pay43_eq : (k0_pay43 : Vec F S1x1x8x8x128 .bf16 → FVec F S1x8x8x128 .f32) = k0_pay32 := rfl
theorem pay44_eq : (k0_pay44 : Vec F S1x1x8x8x128 .bf16 → FVec F S1x8x8x128 .f32) = k0_pay32 := rfl
theorem pay45_eq : (k0_pay45 : Vec F S1x1x8x8x128 .bf16 → FVec F S1x8x8x128 .f32) = k0_pay32 := rfl
theorem pay30_eq (a b : Vec F S1x8x4x128 .bf16) (c d e f : Vec F S1x8x4 .f32) (g : Vec F S8x8x128 .f32) :
    k0_pay30 a b c d e f g = k0_pay27 (k0_pay23 a b) (k0_pay24 c d) (k0_pay25 e) f g := rfl

-- The store of half `h` of the heads into the batch row `d` steps ahead of the device's own: its offsets,
def poff (c : Dev nD) : Fin 2 → Fin 8 → Fin 4 → Nat
  | 0, 0 => k0_off21 c
  | 1, 0 => k0_off25 c
  | 0, ⟨d + 1, _⟩ => k0_off32 c (BitVec.ofNat 32 (1 + d))
  | 1, ⟨d + 1, _⟩ => k0_off36 c (BitVec.ofNat 32 (1 + d))
theorem poff_inb (c : Dev nD) : ∀ (h : Fin 2) (d : Fin 8) (a : Fin 4), poff c h d a + S1x8x8x128.size a ≤ S8x8x16x128.size a
  | 0, 0 => k0_off21_inb c
  | 1, 0 => k0_off25_inb c
  | 0, ⟨d + 1, hd⟩ => k0_off32_inb c ⟨d, Nat.lt_of_succ_lt_succ hd⟩
  | 1, ⟨d + 1, hd⟩ => k0_off36_inb c ⟨d, Nat.lt_of_succ_lt_succ hd⟩
-- its payload: the device's own row unrounded, a received row widened,
def pval (c : Dev nD) (h : Fin 2) : Fin 8 → FVec F S1x8x8x128 .f32
  | 0 => Vals.finOut m c h
  | ⟨d + 1, _⟩ => k0_pay32 (Vals.bfSlotOf m c h (rj c (d + 1)))
def piece (c : Dev nD) (h : Fin 2) (d : Fin 8) : View.Piece (Elt F) S8x8x16x128 .f32 :=
  ⟨Rect.unit (s := S8x8x16x128) (poff c h d) S1x8x8x128.size (poff_inb c h d), pval m c h d⟩

-- and the offsets in closed form: row `(pOf c + d) % 8`, heads from `8 h`.
theorem poff_eq (c : Dev nD) : ∀ (h : Fin 2) (d : Fin 8), poff c h d = ![(rj c d.val).val, 0, 8 * h.val, 0]
  | 0, 0 => (off21_eq c).trans (congrArg (![·, 0, 0, 0]) (rj_zero c).symm)
  | 1, 0 => (off25_eq c).trans (congrArg (![·, 0, 8, 0]) (rj_zero c).symm)
  | 0, 1 => off32_eq_1 c | 0, 2 => off32_eq_2 c | 0, 3 => off32_eq_3 c | 0, 4 => off32_eq_4 c
  | 0, 5 => off32_eq_5 c | 0, 6 => off32_eq_6 c | 0, 7 => off32_eq_7 c
  | 1, 1 => off36_eq_1 c | 1, 2 => off36_eq_2 c | 1, 3 => off36_eq_3 c | 1, 4 => off36_eq_4 c
  | 1, 5 => off36_eq_5 c | 1, 6 => off36_eq_6 c | 1, 7 => off36_eq_7 c

theorem emb_piece (r : Fin 8) (h : Fin 2) (off : Fin 4 → Nat) (hoff : off = ![r.val, 0, 8 * h.val, 0])
    (inb : ∀ a, off a + S1x8x8x128.size a ≤ S8x8x16x128.size a) (x : S1x8x8x128.Idx) :
    (Rect.unit (s := S8x8x16x128) off S1x8x8x128.size inb).emb x = ix4 r (show Fin 8 from x 1) (Vals.head8 h (show Fin 8 from x 2)) (show Fin 128 from x 3) := by
  subst hoff
  funext a
  apply Fin.ext
  rw [Rect.emb_apply]
  have h0 : (x 0).val < 1 := (x 0).isLt
  match a with
  | ⟨0, _⟩ => show r.val + 1 * (x 0).val = r.val; omega
  | ⟨1, _⟩ => exact (Nat.zero_add _).trans (Nat.one_mul _)
  | ⟨2, _⟩ => exact congrArg _ (Nat.one_mul _)
  | ⟨3, _⟩ => exact (Nat.zero_add _).trans (Nat.one_mul _)

theorem mem_piece (r : Fin 8) (h : Fin 2) (off : Fin 4 → Nat) (hoff : off = ![r.val, 0, 8 * h.val, 0])
    (inb : ∀ a, off a + S1x8x8x128.size a ≤ S8x8x16x128.size a) (y : S8x8x16x128.Idx)
    (h0 : (y 0).val = r.val) (h2 : (y 2).val / 8 = h.val) :
    y ∈ (Rect.unit (s := S8x8x16x128) off S1x8x8x128.size inb).set := by
  subst hoff
  rw [Rect.mem_set_unit]
  intro a
  have hh := h.isLt
  have y2 : (y 2).val < 16 := (y 2).isLt
  match a with
  | ⟨0, _⟩ => show r.val ≤ (y 0).val ∧ (y 0).val < r.val + 1; omega
  | ⟨1, _⟩ => exact ⟨Nat.zero_le _, (Nat.zero_add 8).symm ▸ (y 1).isLt⟩
  | ⟨2, _⟩ => show 8 * h.val ≤ (y 2).val ∧ (y 2).val < 8 * h.val + 8; omega
  | ⟨3, _⟩ => exact ⟨Nat.zero_le _, (Nat.zero_add 128).symm ▸ (y 3).isLt⟩

theorem half_of (h : Fin 2) (x2 : Fin 8) :
    (⟨(Vals.head8 h x2).val / 8, by have := (Vals.head8 h x2).isLt; omega⟩ : Fin 2) = h
      ∧ (⟨(Vals.head8 h x2).val % 8, Nat.mod_lt _ (by decide)⟩ : Fin 8) = x2 := by
  have := h.isLt; have := x2.isLt
  exact ⟨Fin.ext (by show (8 * h.val + x2.val) / 8 = h.val; omega), Fin.ext (by show (8 * h.val + x2.val) % 8 = x2.val; omega)⟩

theorem ix4_zero (x : S1x8x8x128.Idx) : ix4 (0 : Fin 1) (show Fin 8 from x 1) (show Fin 8 from x 2) (show Fin 128 from x 3) = x := by
  funext a
  match a with
  | ⟨0, _⟩ => exact (Subsingleton.elim _ _ : (0 : Fin 1) = x 0)
  | ⟨1, _⟩ | ⟨2, _⟩ | ⟨3, _⟩ => rfl

-- Reading the result at head `8 h + x₂` undoes the cut of a head into its half and its place in the half.
theorem out_at (c : Dev nD) (h : Fin 2) (r : Fin 8) (x : S1x8x8x128.Idx) :
    Vals.out m c (ix4 r (show Fin 8 from x 1) (Vals.head8 h (show Fin 8 from x 2)) (show Fin 128 from x 3))
      = if r.val = pOf c then Vals.finOut m c h x else k0_pay32 (Vals.bfSlotOf m c h r) x := by
  obtain ⟨e1, e2⟩ := half_of h (show Fin 8 from x 2)
  show (if r.val = pOf c then Vals.finOut m c ⟨(Vals.head8 h (show Fin 8 from x 2)).val / 8, _⟩ (ix4 (0 : Fin 1) (show Fin 8 from x 1) ⟨(Vals.head8 h (show Fin 8 from x 2)).val % 8, _⟩ (show Fin 128 from x 3))
    else k0_pay32 (Vals.bfSlotOf m c ⟨(Vals.head8 h (show Fin 8 from x 2)).val / 8, _⟩ r) (ix4 (0 : Fin 1) (show Fin 8 from x 1) ⟨(Vals.head8 h (show Fin 8 from x 2)).val % 8, _⟩ (show Fin 128 from x 3))) = _
  rw [e1, e2, ix4_zero]

theorem piece_agree (c : Dev nD) (h : Fin 2) (d : Fin 8) (x : S1x8x8x128.Idx) :
    (piece m c h d).2 x = Vals.out m c ((piece m c h d).1.emb x) := by
  show pval m c h d x = Vals.out m c ((Rect.unit (s := S8x8x16x128) (poff c h d) S1x8x8x128.size (poff_inb c h d)).emb x)
  rw [emb_piece (rj c d.val) h _ (poff_eq c h d) _ x, out_at]
  match d with
  | 0 => exact (if_pos (rj_zero c)).symm
  | ⟨d + 1, hd⟩ => exact (if_neg (rj_ne c ⟨d + 1, hd⟩ (Nat.succ_ne_zero d))).symm

-- The order in which the list of writes names the sixteen pieces.
abbrev ord : List (Fin 2 × Fin 8) :=
  [(1, 7), (1, 6), (1, 5), (1, 4), (1, 3), (1, 2), (1, 1), (0, 7), (0, 6), (0, 5), (0, 4), (0, 3), (0, 2), (0, 1), (1, 0), (0, 0)]
theorem mem_ord : ∀ b : Fin 2 × Fin 8, b ∈ ord := by decide

theorem pieces_agree (c : Dev nD) : ∀ p ∈ ord.map (fun b => piece m c b.1 b.2), ∀ x : p.1.shape.Idx, p.2 x = Vals.out m c (p.1.emb x) := by
  intro p hp
  obtain ⟨b, -, rfl⟩ := List.mem_map.mp hp
  exact piece_agree m c b.1 b.2

-- An element lies in the piece named by its head's half and by how far its row is ahead of the device's own.
theorem pieces_cover (c : Dev nD) (y : S8x8x16x128.Idx) : ∃ p ∈ ord.map (fun b => piece m c b.1 b.2), y ∈ p.1.set := by
  have hp := pOf_lt c
  have y0 : (y 0).val < 8 := (y 0).isLt
  have y2 : (y 2).val < 16 := (y 2).isLt
  let h : Fin 2 := ⟨(y 2).val / 8, by omega⟩
  let d : Fin 8 := ⟨((y 0).val + 8 - pOf c) % 8, Nat.mod_lt _ (by decide)⟩
  exact ⟨piece m c h d, List.mem_map.mpr ⟨(h, d), mem_ord _, rfl⟩, mem_piece (rj c d.val) h (poff c h d) (poff_eq c h d) (poff_inb c h d) y
    (by show (y 0).val = (pOf c + ((y 0).val + 8 - pOf c) % 8) % 8; omega) rfl⟩

theorem read_whole_apply (g : (Memref.whole cc0_stg1_0 : Memref sig .tc _ _ _).view.ty.Contents (Elt F)) (y : S8x8x16x128.Idx) :
    (Memref.whole cc0_stg1_0 : Memref sig .tc _ _ _).view.read (Elt F) g y = g y := rfl

theorem out_of (c : Dev nD) (fo : Buf (Elt F) ((Memref.whole cc0_stg1_0 : Memref sig .tc _ _ _).view.loc (c : Thread nD τ)))
    (L : List (View.Piece (Elt F) S8x8x16x128 .f32)) (hL : L = ord.map fun b => piece m c b.1 b.2) :
    (Memref.whole cc0_stg1_0 : Memref sig .tc _ _ _).view.writes (Elt F) fo L = Vals.out m c := by
  subst hL
  exact funext fun y => (read_whole_apply _ y).symm.trans
    (View.read_writes_apply_of_pieces (Memref.whole cc0_stg1_0 : Memref sig .tc _ _ _).view fo (Vals.out m c) _ (pieces_agree m c) y (pieces_cover m c y))

theorem out_writes (c : Dev nD) (fo : Buf (Elt F) ((Memref.whole cc0_stg1_0 : Memref sig .tc _ _ _).view.loc (c : Thread nD τ))) :
    (Memref.whole cc0_stg1_0 : Memref sig .tc _ _ _).view.writes (Elt F) fo
      [⟨Rect.unit (s := S8x8x16x128) (k0_off36 c 7#32) S1x8x8x128.size (k0_off36_inb c 6), k0_pay32 (Vals.bfSlotOf m c 1 (rj c 7))⟩,
       ⟨Rect.unit (s := S8x8x16x128) (k0_off36 c 6#32) S1x8x8x128.size (k0_off36_inb c 5), k0_pay32 (Vals.bfSlotOf m c 1 (rj c 6))⟩,
       ⟨Rect.unit (s := S8x8x16x128) (k0_off36 c 5#32) S1x8x8x128.size (k0_off36_inb c 4), k0_pay32 (Vals.bfSlotOf m c 1 (rj c 5))⟩,
       ⟨Rect.unit (s := S8x8x16x128) (k0_off36 c 4#32) S1x8x8x128.size (k0_off36_inb c 3), k0_pay32 (Vals.bfSlotOf m c 1 (rj c 4))⟩,
       ⟨Rect.unit (s := S8x8x16x128) (k0_off36 c 3#32) S1x8x8x128.size (k0_off36_inb c 2), k0_pay32 (Vals.bfSlotOf m c 1 (rj c 3))⟩,
       ⟨Rect.unit (s := S8x8x16x128) (k0_off36 c 2#32) S1x8x8x128.size (k0_off36_inb c 1), k0_pay32 (Vals.bfSlotOf m c 1 (rj c 2))⟩,
       ⟨Rect.unit (s := S8x8x16x128) (k0_off36 c 1#32) S1x8x8x128.size (k0_off36_inb c 0), k0_pay32 (Vals.bfSlotOf m c 1 (rj c 1))⟩,
       ⟨Rect.unit (s := S8x8x16x128) (k0_off32 c 7#32) S1x8x8x128.size (k0_off32_inb c 6), k0_pay32 (Vals.bfSlotOf m c 0 (rj c 7))⟩,
       ⟨Rect.unit (s := S8x8x16x128) (k0_off32 c 6#32) S1x8x8x128.size (k0_off32_inb c 5), k0_pay32 (Vals.bfSlotOf m c 0 (rj c 6))⟩,
       ⟨Rect.unit (s := S8x8x16x128) (k0_off32 c 5#32) S1x8x8x128.size (k0_off32_inb c 4), k0_pay32 (Vals.bfSlotOf m c 0 (rj c 5))⟩,
       ⟨Rect.unit (s := S8x8x16x128) (k0_off32 c 4#32) S1x8x8x128.size (k0_off32_inb c 3), k0_pay32 (Vals.bfSlotOf m c 0 (rj c 4))⟩,
       ⟨Rect.unit (s := S8x8x16x128) (k0_off32 c 3#32) S1x8x8x128.size (k0_off32_inb c 2), k0_pay32 (Vals.bfSlotOf m c 0 (rj c 3))⟩,
       ⟨Rect.unit (s := S8x8x16x128) (k0_off32 c 2#32) S1x8x8x128.size (k0_off32_inb c 1), k0_pay32 (Vals.bfSlotOf m c 0 (rj c 2))⟩,
       ⟨Rect.unit (s := S8x8x16x128) (k0_off32 c 1#32) S1x8x8x128.size (k0_off32_inb c 0), k0_pay32 (Vals.bfSlotOf m c 0 (rj c 1))⟩,
       ⟨Rect.unit (s := S8x8x16x128) (k0_off25 c) S1x8x8x128.size (k0_off25_inb c), Vals.finOut m c 1⟩,
       ⟨Rect.unit (s := S8x8x16x128) (k0_off21 c) S1x8x8x128.size (k0_off21_inb c), Vals.finOut m c 0⟩]
    = Vals.out m c :=
  out_of m c fo _ rfl

end Cert.KernelIdeal.OutValue

end
-- ==== Proof.StepsR.lean ====
import proofs.«900787_g7700000000000788_dist_flashdec_v7x_xyz2x2x4_y_b8_sq8_skv1024_h16_d128_f32_1_alg».proof.Proof.Geom
import proofs.«900787_g7700000000000788_dist_flashdec_v7x_xyz2x2x4_y_b8_sq8_skv1024_h16_d128_f32_1_alg».proof.Proof.MeshMore
import proofs.«900787_g7700000000000788_dist_flashdec_v7x_xyz2x2x4_y_b8_sq8_skv1024_h16_d128_f32_1_alg».proof.Proof.StepsM

noncomputable section

namespace Cert.KernelIdeal.Steps

open Cert.KernelIdeal Cert.KernelIdeal.Gen Cert.KernelIdeal.Mesh Cert.KernelIdeal.Proto Cert.KernelIdeal.Iface Cert.KernelIdeal.Geom
open Idealize.ShloMosaic
open Idealize.ShloMosaic.TcCoe
open Idealize.SL Idealize.SL.RA Idealize.SL.BI
open scoped Idealize.SL.BI
open Idealize.SL.BI.BIBase Idealize.SL.BI.Laws

variable {F : FTy → Type} [FloatOps F]

local notation "𝕄" => MT nD τ sig Unit (Elt F) ℕ UU ℕ

variable (m : (ℓ : Loc nD τ sig) → Buf (Elt F) ℓ) (c : Dev nD)

-- A full store through a rectangle leaves any contents that read, at each element of the rectangle, what was stored there.
theorem restate_of {cs : CoreSpace} {s : Shape} {e : EltTy} (M : Memref sig (c : Thread nD τ).2.kind cs s e) (r : Rect s)
    {S : Finset (Idx ((M.access r).loc (c : Thread nD τ)))} (hS : S = (M.access r).set)
    (f V : Buf (Elt F) ((M.access r).loc (c : Thread nD τ))) (w : r.shape.Idx → Elt F e)
    (hV : ∀ x, _root_.cast (congrArg (Elt F) (M.access r).elt_eq.symm) (w x) = V ((M.access r).emb x)) :
    (((M.access r).loc (c : Thread nD τ) ↦[S]{fullShare} (M.access r).write (Elt F) f w Finset.univ) : sProp 𝕄)
      ⊢ ((M.access r).loc (c : Thread nD τ) ↦[S]{fullShare} V) := by
  subst hS
  refine Entails.of_eq (pointsTo_congr fun i hi => ?_)
  obtain ⟨x, rfl⟩ := View.exists_emb_of_mem_set _ hi
  rw [View.write_emb_of_mem _ _ (Finset.mem_univ x)]
  exact hV x

theorem restate7 (g : Fin 4) (B : Buf (Elt F) ((obSrc g).view.loc (c : Thread nD τ))) :
    (((obSrc g).view.loc (c : Thread nD τ) ↦[(obSrc g).view.set]{fullShare} B) : sProp 𝕄)
      ⊢ iprop(∀ (f : Buf (Elt F) ((obSrc g).view.loc (c : Thread nD τ))) (w : FVec F S1x8x4x128 .bf16)
          (_ : B = ((Memref.whole cc0_scratch3 : Memref sig .tc .vmem S4x8x4x128 .bf16).access (R4 g)).write (Elt F) f w Finset.univ) (_ : w = Vals.obG m c g),
          ((obSrc g).view.loc (c : Thread nD τ) ↦[(obSrc g).view.set]{fullShare} Vals.ob m c)) :=
  forall_intro fun f => forall_intro fun w => forall_intro fun hB => forall_intro fun hw => by
    subst hB hw
    exact restate_of c (Memref.whole cc0_scratch3 : Memref sig .tc .vmem S4x8x4x128 .bf16) (R4 g) (View.set_reshape _ _) f _ _ fun x =>
      (congrArg (Vals.obG m c g) (eq_ix4_0 x)).trans (congrArg (Vals.ob m c) (R4_emb g x)).symm
theorem restate9 (g : Fin 4) (B : Buf (Elt F) ((lbSrc g).view.loc (c : Thread nD τ))) :
    (((lbSrc g).view.loc (c : Thread nD τ) ↦[(lbSrc g).view.set]{fullShare} B) : sProp 𝕄)
      ⊢ iprop(∀ (f : Buf (Elt F) ((lbSrc g).view.loc (c : Thread nD τ))) (w : FVec F S1x8x4 .f32)
          (_ : B = ((Memref.whole cc0_scratch5 : Memref sig .tc .vmem S4x8x4 .f32).access (R3 g)).write (Elt F) f w Finset.univ) (_ : w = Vals.lG m c g),
          ((lbSrc g).view.loc (c : Thread nD τ) ↦[(lbSrc g).view.set]{fullShare} Vals.lb m c)) :=
  forall_intro fun f => forall_intro fun w => forall_intro fun hB => forall_intro fun hw => by
    subst hB hw
    exact restate_of c (Memref.whole cc0_scratch5 : Memref sig .tc .vmem S4x8x4 .f32) (R3 g) (View.set_reshape _ _) f _ _ fun x =>
      (congrArg (Vals.lG m c g) (eq_ix3_0 x)).trans (congrArg (Vals.lb m c) (R3_emb g x)).symm
theorem restate11 (h : Fin 2) (B : Buf (Elt F) ((bfView c h).view.loc (c : Thread nD τ))) :
    (((bfView c h).view.loc (c : Thread nD τ) ↦[(bfView c h).view.set]{fullShare} B) : sProp 𝕄)
      ⊢ iprop(∀ (off : Fin 5 → Nat) (_ : off = ![h.val, pOf c, 0, 0, 0]) (inb : ∀ a, off a + S1x1x8x8x128.size a ≤ S2x8x8x8x128.size a)
          (f : Buf (Elt F) ((bfView c h).view.loc (c : Thread nD τ))) (w : FVec F S1x1x8x8x128 .bf16)
          (_ : B = ((Memref.whole cc0_scratch7 : Memref sig .tc .vmem S2x8x8x8x128 .bf16).access (R5 off inb)).write (Elt F) f w Finset.univ) (_ : w = Vals.finBf m c h),
          ((bfView c h).view.loc (c : Thread nD τ) ↦[(bfView c h).view.set]{fullShare} Vals.bf m c)) :=
  forall_intro fun off => forall_intro fun hoff => forall_intro fun inb => forall_intro fun f => forall_intro fun w =>
    forall_intro fun hB => forall_intro fun hw => by
      subst hoff hB hw
      exact restate_of c (Memref.whole cc0_scratch7 : Memref sig .tc .vmem S2x8x8x8x128 .bf16) (R5 _ inb) ((set_bfView c h).trans (View.set_slice_whole _ _).symm) f _ _ fun x =>
        (congrArg (Vals.finBf m c h) (eq_ix5_00 x)).trans (congrArg (Vals.bf m c) (R5_emb h (pFin c) inb x)).symm

-- A load through a slice reads the buffer at the slice's elements.
theorem read8 (g : Fin 4) : (Memref.whole cc0_scratch4 : Memref sig .tc .vmem S4x8x4x128 .bf16).view.readAt (Elt F) (R4 g).toLoadRect (Vals.ob m (ynbr c)) = Vals.obPeer m c g :=
  funext fun x => congrArg (Vals.ob m (ynbr c)) (R4_emb g x)
theorem read10 (g : Fin 4) : (Memref.whole cc0_scratch6 : Memref sig .tc .vmem S4x8x4 .f32).view.readAt (Elt F) (R3 g).toLoadRect (Vals.lb m (ynbr c)) = Vals.lbPeer m c g :=
  funext fun x => congrArg (Vals.lb m (ynbr c)) (R3_emb g x)
theorem read9r (g : Fin 4) : (Memref.whole cc0_scratch5 : Memref sig .tc .vmem S4x8x4 .f32).view.readAt (Elt F) (R3 g).toLoadRect (Vals.lb m c) = Vals.lbOwn m c g :=
  funext fun x => congrArg (Vals.lb m c) (R3_emb g x)
theorem read11r (h : Fin 2) (d : ℕ) (hd : d < 8) (off : Fin 5 → Nat) (hoff : off = ![h.val, (pOf c + d) % 8, 0, 0, 0]) {inb : ∀ a, off a + S1x1x8x8x128.size a ≤ S2x8x8x8x128.size a} :
    (Memref.whole cc0_scratch7 : Memref sig .tc .vmem S2x8x8x8x128 .bf16).view.readAt (Elt F) (R5 off inb).toLoadRect (Vals.bf m (ring c d)) = Vals.bfSlotOf m c h (rj c d) := by
  subst hoff
  exact funext fun x => (congrArg (Vals.bf m (ring c d)) (R5_emb h (rj c d) inb x)).trans (by rw [← plane_rj c ⟨d, hd⟩]; rfl)

theorem read8_0 : (Memref.whole cc0_scratch4 : Memref sig .tc .vmem S4x8x4x128 .bf16).view.readAt (Elt F) (Rect.unit (s := S4x8x4x128) ![0, 0, 0, 0] S1x8x4x128.size inb_S4x8x4x128_S1x8x4x128_0_0_0_0).toLoadRect (Vals.ob m (ynbr c)) = Vals.obPeer m c 0 := read8 m c 0
theorem read10_0 : (Memref.whole cc0_scratch6 : Memref sig .tc .vmem S4x8x4 .f32).view.readAt (Elt F) (Rect.unit (s := S4x8x4) ![0, 0, 0] S1x8x4.size inb_S4x8x4_S1x8x4_0_0_0).toLoadRect (Vals.lb m (ynbr c)) = Vals.lbPeer m c 0 := read10 m c 0
theorem read9r_0 : (Memref.whole cc0_scratch5 : Memref sig .tc .vmem S4x8x4 .f32).view.readAt (Elt F) (Rect.unit (s := S4x8x4) ![0, 0, 0] S1x8x4.size inb_S4x8x4_S1x8x4_0_0_0).toLoadRect (Vals.lb m c) = Vals.lbOwn m c 0 := read9r m c 0
theorem read8_1 : (Memref.whole cc0_scratch4 : Memref sig .tc .vmem S4x8x4x128 .bf16).view.readAt (Elt F) (Rect.unit (s := S4x8x4x128) ![1, 0, 0, 0] S1x8x4x128.size inb_S4x8x4x128_S1x8x4x128_1_0_0_0).toLoadRect (Vals.ob m (ynbr c)) = Vals.obPeer m c 1 := read8 m c 1
theorem read10_1 : (Memref.whole cc0_scratch6 : Memref sig .tc .vmem S4x8x4 .f32).view.readAt (Elt F) (Rect.unit (s := S4x8x4) ![1, 0, 0] S1x8x4.size inb_S4x8x4_S1x8x4_1_0_0).toLoadRect (Vals.lb m (ynbr c)) = Vals.lbPeer m c 1 := read10 m c 1
theorem read9r_1 : (Memref.whole cc0_scratch5 : Memref sig .tc .vmem S4x8x4 .f32).view.readAt (Elt F) (Rect.unit (s := S4x8x4) ![1, 0, 0] S1x8x4.size inb_S4x8x4_S1x8x4_1_0_0).toLoadRect (Vals.lb m c) = Vals.lbOwn m c 1 := read9r m c 1
theorem read8_2 : (Memref.whole cc0_scratch4 : Memref sig .tc .vmem S4x8x4x128 .bf16).view.readAt (Elt F) (Rect.unit (s := S4x8x4x128) ![2, 0, 0, 0] S1x8x4x128.size inb_S4x8x4x128_S1x8x4x128_2_0_0_0).toLoadRect (Vals.ob m (ynbr c)) = Vals.obPeer m c 2 := read8 m c 2
theorem read10_2 : (Memref.whole cc0_scratch6 : Memref sig .tc .vmem S4x8x4 .f32).view.readAt (Elt F) (Rect.unit (s := S4x8x4) ![2, 0, 0] S1x8x4.size inb_S4x8x4_S1x8x4_2_0_0).toLoadRect (Vals.lb m (ynbr c)) = Vals.lbPeer m c 2 := read10 m c 2
theorem read9r_2 : (Memref.whole cc0_scratch5 : Memref sig .tc .vmem S4x8x4 .f32).view.readAt (Elt F) (Rect.unit (s := S4x8x4) ![2, 0, 0] S1x8x4.size inb_S4x8x4_S1x8x4_2_0_0).toLoadRect (Vals.lb m c) = Vals.lbOwn m c 2 := read9r m c 2
theorem read8_3 : (Memref.whole cc0_scratch4 : Memref sig .tc .vmem S4x8x4x128 .bf16).view.readAt (Elt F) (Rect.unit (s := S4x8x4x128) ![3, 0, 0, 0] S1x8x4x128.size inb_S4x8x4x128_S1x8x4x128_3_0_0_0).toLoadRect (Vals.ob m (ynbr c)) = Vals.obPeer m c 3 := read8 m c 3
theorem read10_3 : (Memref.whole cc0_scratch6 : Memref sig .tc .vmem S4x8x4 .f32).view.readAt (Elt F) (Rect.unit (s := S4x8x4) ![3, 0, 0] S1x8x4.size inb_S4x8x4_S1x8x4_3_0_0).toLoadRect (Vals.lb m (ynbr c)) = Vals.lbPeer m c 3 := read10 m c 3
theorem read9r_3 : (Memref.whole cc0_scratch5 : Memref sig .tc .vmem S4x8x4 .f32).view.readAt (Elt F) (Rect.unit (s := S4x8x4) ![3, 0, 0] S1x8x4.size inb_S4x8x4_S1x8x4_3_0_0).toLoadRect (Vals.lb m c) = Vals.lbOwn m c 3 := read9r m c 3

-- The by-head buffer at head 4g + a of a row is group g's numerators at head a.
theorem piece_om (g : Fin 4) (inb : ∀ a, (![0, 4 * g.val, 0] : Fin 3 → Nat) a + S8x4x128.size a ≤ S8x16x128.size a) (x : S8x4x128.Idx) :
    Vals.oG m c g x = Vals.om m c ((Rect.unit (s := S8x16x128) ![0, 4 * g.val, 0] S8x4x128.size inb).emb x) := by
  have hx1 : (x 1).val < 4 := (x 1).isLt
  have hg := g.isLt
  have key : ∀ (a : Fin 4) (b : S8x4x128.Idx), a = g → b = x → Vals.oG m c g x = Vals.oG m c a b := by
    rintro _ _ rfl rfl; rfl
  refine key _ _ (Fin.ext ?_) (funext fun a => Fin.ext ?_)
  · show (4 * g.val + 1 * (x 1).val) / 4 = g.val; omega
  · match a with
    | ⟨0, _⟩ => show 0 + 1 * (x 0).val = (x 0).val; omega
    | ⟨1, _⟩ => show (4 * g.val + 1 * (x 1).val) % 4 = (x 1).val; omega
    | ⟨2, _⟩ => show 0 + 1 * (x 2).val = (x 2).val; omega

theorem omHalf_idx (h : Fin 2) (inb : ∀ a, (![0, 8 * h.val, 0] : Fin 3 → Nat) a + S8x8x128.size a ≤ S8x16x128.size a) (j : S8x8x128.Idx) :
    Vals.om m c ((Rect.unit (s := S8x16x128) ![0, 8 * h.val, 0] S8x8x128.size inb).toLoadRect.idx j) = Vals.omHalf m c h j := by
  refine congrArg (Vals.om m c) (funext fun a => Fin.ext ?_)
  match a with
  | ⟨0, _⟩ => show 0 + 1 * (j 0).val = (j 0).val; omega
  | ⟨1, _⟩ => show 8 * h.val + 1 * (j 1).val = 8 * h.val + (j 1).val; omega
  | ⟨2, _⟩ => show 0 + 1 * (j 2).val = (j 2).val; omega

theorem mem_piece (o b : ℕ) (inbP : ∀ a, (![0, o, 0] : Fin 3 → Nat) a + S8x4x128.size a ≤ S8x16x128.size a)
    (inbB : ∀ a, (![0, b, 0] : Fin 3 → Nat) a + S8x8x128.size a ≤ S8x16x128.size a) (j : S8x8x128.Idx)
    (hlo : o ≤ b + (j 1).val) (hhi : b + (j 1).val < o + 4) :
    (Rect.unit (s := S8x16x128) ![0, b, 0] S8x8x128.size inbB).toLoadRect.idx j ∈ (Rect.unit (s := S8x16x128) ![0, o, 0] S8x4x128.size inbP).set := by
  have hj0 : (j 0).val < 8 := (j 0).isLt
  have hj2 : (j 2).val < 128 := (j 2).isLt
  refine Rect.mem_set_unit.mpr fun a => ?_
  match a with
  | ⟨0, _⟩ => show 0 ≤ 0 + 1 * (j 0).val ∧ 0 + 1 * (j 0).val < 0 + 8; omega
  | ⟨1, _⟩ => show o ≤ b + 1 * (j 1).val ∧ b + 1 * (j 1).val < o + 4; omega
  | ⟨2, _⟩ => show 0 ≤ 0 + 1 * (j 2).val ∧ 0 + 1 * (j 2).val < 0 + 128; omega

abbrev omPieces (w0 w1 w2 w3 : FVec F S8x4x128 .f32) : List (View.Piece (Elt F) S8x16x128 .f32) :=
  [⟨Rect.unit (s := S8x16x128) ![0, 12, 0] S8x4x128.size inb_S8x16x128_S8x4x128_0_12_0, w3⟩, ⟨Rect.unit (s := S8x16x128) ![0, 8, 0] S8x4x128.size inb_S8x16x128_S8x4x128_0_8_0, w2⟩, ⟨Rect.unit (s := S8x16x128) ![0, 4, 0] S8x4x128.size inb_S8x16x128_S8x4x128_0_4_0, w1⟩, ⟨Rect.unit (s := S8x16x128) ![0, 0, 0] S8x4x128.size inb_S8x16x128_S8x4x128_0_0_0, w0⟩]

-- The four groups' pieces agree with the by-head numerators; where they cover a half's box, the box reads the half's numerators.
theorem omHalf_readCov (h : Fin 2) (inbB : ∀ a, (![0, 8 * h.val, 0] : Fin 3 → Nat) a + S8x8x128.size a ≤ S8x16x128.size a)
    (w0 w1 w2 w3 : FVec F S8x4x128 .f32) (h0 : w0 = Vals.oG m c 0) (h1 : w1 = Vals.oG m c 1) (h2 : w2 = Vals.oG m c 2) (h3 : w3 = Vals.oG m c 3)
    (hcov : ∀ j : S8x8x128.Idx, ∃ p ∈ omPieces w0 w1 w2 w3, (Rect.unit (s := S8x16x128) ![0, 8 * h.val, 0] S8x8x128.size inbB).toLoadRect.idx j ∈ p.1.set) :
    (Memref.whole cc0_scratch2 : Memref sig .tc .vmem S8x16x128 .f32).view.readCov (omPieces w0 w1 w2 w3) (Rect.unit (s := S8x16x128) ![0, 8 * h.val, 0] S8x8x128.size inbB).toLoadRect = Vals.omHalf m c h := by
  subst h0 h1 h2 h3
  refine funext fun j => (View.read_writes_apply_of_pieces (Memref.whole cc0_scratch2 : Memref sig .tc _ _ _).view _ (Vals.om m c) _ ?_ _ (hcov j)).trans (omHalf_idx m c h inbB j)
  intro p hp x
  simp only [List.mem_cons, List.mem_nil_iff, or_false] at hp
  rcases hp with rfl | rfl | rfl | rfl
  exacts [piece_om m c 3 inb_S8x16x128_S8x4x128_0_12_0 x, piece_om m c 2 inb_S8x16x128_S8x4x128_0_8_0 x, piece_om m c 1 inb_S8x16x128_S8x4x128_0_4_0 x, piece_om m c 0 inb_S8x16x128_S8x4x128_0_0_0 x]

theorem omHalf_readCov0 (w0 w1 w2 w3 : FVec F S8x4x128 .f32) (h0 : w0 = Vals.oG m c 0) (h1 : w1 = Vals.oG m c 1) (h2 : w2 = Vals.oG m c 2) (h3 : w3 = Vals.oG m c 3) :
    (Memref.whole cc0_scratch2 : Memref sig .tc .vmem S8x16x128 .f32).view.readCov [⟨Rect.unit (s := S8x16x128) ![0, 12, 0] S8x4x128.size inb_S8x16x128_S8x4x128_0_12_0, w3⟩, ⟨Rect.unit (s := S8x16x128) ![0, 8, 0] S8x4x128.size inb_S8x16x128_S8x4x128_0_8_0, w2⟩, ⟨Rect.unit (s := S8x16x128) ![0, 4, 0] S8x4x128.size inb_S8x16x128_S8x4x128_0_4_0, w1⟩, ⟨Rect.unit (s := S8x16x128) ![0, 0, 0] S8x4x128.size inb_S8x16x128_S8x4x128_0_0_0, w0⟩] (Rect.unit (s := S8x16x128) ![0, 0, 0] S8x8x128.size inb_S8x16x128_S8x8x128_0_0_0).toLoadRect = Vals.omHalf m c 0 :=
  omHalf_readCov m c 0 inb_S8x16x128_S8x8x128_0_0_0 w0 w1 w2 w3 h0 h1 h2 h3 fun j => by
    have hj1 : (j 1).val < 8 := (j 1).isLt
    by_cases hlt : (j 1).val < 4
    · exact ⟨_, .tail _ (.tail _ (.tail _ (.head _))), mem_piece 0 0 inb_S8x16x128_S8x4x128_0_0_0 inb_S8x16x128_S8x8x128_0_0_0 j (by omega) (by omega)⟩
    · exact ⟨_, .tail _ (.tail _ (.head _)), mem_piece 4 0 inb_S8x16x128_S8x4x128_0_4_0 inb_S8x16x128_S8x8x128_0_0_0 j (by omega) (by omega)⟩
theorem omHalf_readCov1 (w0 w1 w2 w3 : FVec F S8x4x128 .f32) (h0 : w0 = Vals.oG m c 0) (h1 : w1 = Vals.oG m c 1) (h2 : w2 = Vals.oG m c 2) (h3 : w3 = Vals.oG m c 3) :
    (Memref.whole cc0_scratch2 : Memref sig .tc .vmem S8x16x128 .f32).view.readCov [⟨Rect.unit (s := S8x16x128) ![0, 12, 0] S8x4x128.size inb_S8x16x128_S8x4x128_0_12_0, w3⟩, ⟨Rect.unit (s := S8x16x128) ![0, 8, 0] S8x4x128.size inb_S8x16x128_S8x4x128_0_8_0, w2⟩, ⟨Rect.unit (s := S8x16x128) ![0, 4, 0] S8x4x128.size inb_S8x16x128_S8x4x128_0_4_0, w1⟩, ⟨Rect.unit (s := S8x16x128) ![0, 0, 0] S8x4x128.size inb_S8x16x128_S8x4x128_0_0_0, w0⟩] (Rect.unit (s := S8x16x128) ![0, 8, 0] S8x8x128.size inb_S8x16x128_S8x8x128_0_8_0).toLoadRect = Vals.omHalf m c 1 :=
  omHalf_readCov m c 1 inb_S8x16x128_S8x8x128_0_8_0 w0 w1 w2 w3 h0 h1 h2 h3 fun j => by
    have hj1 : (j 1).val < 8 := (j 1).isLt
    by_cases hlt : (j 1).val < 4
    · exact ⟨_, .tail _ (.head _), mem_piece 8 8 inb_S8x16x128_S8x4x128_0_8_0 inb_S8x16x128_S8x8x128_0_8_0 j (by omega) (by omega)⟩
    · exact ⟨_, .head _, mem_piece 12 8 inb_S8x16x128_S8x4x128_0_12_0 inb_S8x16x128_S8x8x128_0_8_0 j (by omega) (by omega)⟩

end Cert.KernelIdeal.Steps

end
-- ==== Proof.Closed.lean ====
import proofs.«900787_g7700000000000788_dist_flashdec_v7x_xyz2x2x4_y_b8_sq8_skv1024_h16_d128_f32_1_alg».proof.Proof.Geom
import proofs.«900787_g7700000000000788_dist_flashdec_v7x_xyz2x2x4_y_b8_sq8_skv1024_h16_d128_f32_1_alg».proof.Proof.MeshMore

namespace Cert.KernelIdeal.Closed

open Cert.KernelIdeal Cert.KernelIdeal.Gen Cert.KernelIdeal.Mesh Cert.KernelIdeal.Proto
open Idealize.ShloMosaic

-- The slot of the device `d` steps ahead, half `h`, sits at that device's ring position.
theorem bfOff_ring (c : Dev nD) (d : Fin 8) (h : Fin 2) : bfOff (ring c d.val) h = ![h.val, (pOf c + d.val) % 8, 0, 0, 0] := by
  rw [Geom.bfOff_eq, pOf_ring]

instance off22 (c : Dev nD) : ClosedOff (k0_off22 c) := ⟨![0, pOf c, 0, 0, 0], off22_eq c⟩
instance off24 (c : Dev nD) : ClosedOff (k0_off24 c) := ⟨![0, pOf c, 0, 0, 0], off24_eq c⟩
instance off26 (c : Dev nD) : ClosedOff (k0_off26 c) := ⟨![1, pOf c, 0, 0, 0], off26_eq c⟩
instance off28 (c : Dev nD) : ClosedOff (k0_off28 c) := ⟨![1, pOf c, 0, 0, 0], off28_eq c⟩
instance bfOff0 (c : Dev nD) : ClosedOff (bfOff c 0) := ⟨![0, pOf c, 0, 0, 0], off24_eq c⟩
instance bfOff1 (c : Dev nD) : ClosedOff (bfOff c 1) := ⟨![1, pOf c, 0, 0, 0], off28_eq c⟩
instance off31_1 (c : Dev nD) : ClosedOff (k0_off31 c 1#32) := ⟨![0, (pOf c + 1) % 8, 0, 0, 0], off31_eq_1 c⟩
instance off35_1 (c : Dev nD) : ClosedOff (k0_off35 c 1#32) := ⟨![1, (pOf c + 1) % 8, 0, 0, 0], off35_eq_1 c⟩
instance bfOff0_1 (c : Dev nD) : ClosedOff (bfOff (ring c 1) 0) := ⟨![0, (pOf c + 1) % 8, 0, 0, 0], bfOff_ring c 1 0⟩
instance bfOff1_1 (c : Dev nD) : ClosedOff (bfOff (ring c 1) 1) := ⟨![1, (pOf c + 1) % 8, 0, 0, 0], bfOff_ring c 1 1⟩
instance off31_2 (c : Dev nD) : ClosedOff (k0_off31 c 2#32) := ⟨![0, (pOf c + 2) % 8, 0, 0, 0], off31_eq_2 c⟩
instance off35_2 (c : Dev nD) : ClosedOff (k0_off35 c 2#32) := ⟨![1, (pOf c + 2) % 8, 0, 0, 0], off35_eq_2 c⟩
instance bfOff0_2 (c : Dev nD) : ClosedOff (bfOff (ring c 2) 0) := ⟨![0, (pOf c + 2) % 8, 0, 0, 0], bfOff_ring c 2 0⟩
instance bfOff1_2 (c : Dev nD) : ClosedOff (bfOff (ring c 2) 1) := ⟨![1, (pOf c + 2) % 8, 0, 0, 0], bfOff_ring c 2 1⟩
instance off31_3 (c : Dev nD) : ClosedOff (k0_off31 c 3#32) := ⟨![0, (pOf c + 3) % 8, 0, 0, 0], off31_eq_3 c⟩
instance off35_3 (c : Dev nD) : ClosedOff (k0_off35 c 3#32) := ⟨![1, (pOf c + 3) % 8, 0, 0, 0], off35_eq_3 c⟩
instance bfOff0_3 (c : Dev nD) : ClosedOff (bfOff (ring c 3) 0) := ⟨![0, (pOf c + 3) % 8, 0, 0, 0], bfOff_ring c 3 0⟩
instance bfOff1_3 (c : Dev nD) : ClosedOff (bfOff (ring c 3) 1) := ⟨![1, (pOf c + 3) % 8, 0, 0, 0], bfOff_ring c 3 1⟩
instance off31_4 (c : Dev nD) : ClosedOff (k0_off31 c 4#32) := ⟨![0, (pOf c + 4) % 8, 0, 0, 0], off31_eq_4 c⟩
instance off35_4 (c : Dev nD) : ClosedOff (k0_off35 c 4#32) := ⟨![1, (pOf c + 4) % 8, 0, 0, 0], off35_eq_4 c⟩
instance bfOff0_4 (c : Dev nD) : ClosedOff (bfOff (ring c 4) 0) := ⟨![0, (pOf c + 4) % 8, 0, 0, 0], bfOff_ring c 4 0⟩
instance bfOff1_4 (c : Dev nD) : ClosedOff (bfOff (ring c 4) 1) := ⟨![1, (pOf c + 4) % 8, 0, 0, 0], bfOff_ring c 4 1⟩
instance off31_5 (c : Dev nD) : ClosedOff (k0_off31 c 5#32) := ⟨![0, (pOf c + 5) % 8, 0, 0, 0], off31_eq_5 c⟩
instance off35_5 (c : Dev nD) : ClosedOff (k0_off35 c 5#32) := ⟨![1, (pOf c + 5) % 8, 0, 0, 0], off35_eq_5 c⟩
instance bfOff0_5 (c : Dev nD) : ClosedOff (bfOff (ring c 5) 0) := ⟨![0, (pOf c + 5) % 8, 0, 0, 0], bfOff_ring c 5 0⟩
instance bfOff1_5 (c : Dev nD) : ClosedOff (bfOff (ring c 5) 1) := ⟨![1, (pOf c + 5) % 8, 0, 0, 0], bfOff_ring c 5 1⟩
instance off31_6 (c : Dev nD) : ClosedOff (k0_off31 c 6#32) := ⟨![0, (pOf c + 6) % 8, 0, 0, 0], off31_eq_6 c⟩
instance off35_6 (c : Dev nD) : ClosedOff (k0_off35 c 6#32) := ⟨![1, (pOf c + 6) % 8, 0, 0, 0], off35_eq_6 c⟩
instance bfOff0_6 (c : Dev nD) : ClosedOff (bfOff (ring c 6) 0) := ⟨![0, (pOf c + 6) % 8, 0, 0, 0], bfOff_ring c 6 0⟩
instance bfOff1_6 (c : Dev nD) : ClosedOff (bfOff (ring c 6) 1) := ⟨![1, (pOf c + 6) % 8, 0, 0, 0], bfOff_ring c 6 1⟩
instance off31_7 (c : Dev nD) : ClosedOff (k0_off31 c 7#32) := ⟨![0, (pOf c + 7) % 8, 0, 0, 0], off31_eq_7 c⟩
instance off35_7 (c : Dev nD) : ClosedOff (k0_off35 c 7#32) := ⟨![1, (pOf c + 7) % 8, 0, 0, 0], off35_eq_7 c⟩
instance bfOff0_7 (c : Dev nD) : ClosedOff (bfOff (ring c 7) 0) := ⟨![0, (pOf c + 7) % 8, 0, 0, 0], bfOff_ring c 7 0⟩
instance bfOff1_7 (c : Dev nD) : ClosedOff (bfOff (ring c 7) 1) := ⟨![1, (pOf c + 7) % 8, 0, 0, 0], bfOff_ring c 7 1⟩
instance bfOff0v_1 (c : Dev nD) : ClosedOff (bfOff (ring c ((1 : Fin 8) : Fin 8).val) 0) := ⟨![0, (pOf c + 1) % 8, 0, 0, 0], bfOff_ring c 1 0⟩
instance bfOff1v_1 (c : Dev nD) : ClosedOff (bfOff (ring c ((1 : Fin 8) : Fin 8).val) 1) := ⟨![1, (pOf c + 1) % 8, 0, 0, 0], bfOff_ring c 1 1⟩
instance bfOff0v_2 (c : Dev nD) : ClosedOff (bfOff (ring c ((2 : Fin 8) : Fin 8).val) 0) := ⟨![0, (pOf c + 2) % 8, 0, 0, 0], bfOff_ring c 2 0⟩
instance bfOff1v_2 (c : Dev nD) : ClosedOff (bfOff (ring c ((2 : Fin 8) : Fin 8).val) 1) := ⟨![1, (pOf c + 2) % 8, 0, 0, 0], bfOff_ring c 2 1⟩
instance bfOff0v_3 (c : Dev nD) : ClosedOff (bfOff (ring c ((3 : Fin 8) : Fin 8).val) 0) := ⟨![0, (pOf c + 3) % 8, 0, 0, 0], bfOff_ring c 3 0⟩
instance bfOff1v_3 (c : Dev nD) : ClosedOff (bfOff (ring c ((3 : Fin 8) : Fin 8).val) 1) := ⟨![1, (pOf c + 3) % 8, 0, 0, 0], bfOff_ring c 3 1⟩
instance bfOff0v_4 (c : Dev nD) : ClosedOff (bfOff (ring c ((4 : Fin 8) : Fin 8).val) 0) := ⟨![0, (pOf c + 4) % 8, 0, 0, 0], bfOff_ring c 4 0⟩
instance bfOff1v_4 (c : Dev nD) : ClosedOff (bfOff (ring c ((4 : Fin 8) : Fin 8).val) 1) := ⟨![1, (pOf c + 4) % 8, 0, 0, 0], bfOff_ring c 4 1⟩
instance bfOff0v_5 (c : Dev nD) : ClosedOff (bfOff (ring c ((5 : Fin 8) : Fin 8).val) 0) := ⟨![0, (pOf c + 5) % 8, 0, 0, 0], bfOff_ring c 5 0⟩
instance bfOff1v_5 (c : Dev nD) : ClosedOff (bfOff (ring c ((5 : Fin 8) : Fin 8).val) 1) := ⟨![1, (pOf c + 5) % 8, 0, 0, 0], bfOff_ring c 5 1⟩
instance bfOff0v_6 (c : Dev nD) : ClosedOff (bfOff (ring c ((6 : Fin 8) : Fin 8).val) 0) := ⟨![0, (pOf c + 6) % 8, 0, 0, 0], bfOff_ring c 6 0⟩
instance bfOff1v_6 (c : Dev nD) : ClosedOff (bfOff (ring c ((6 : Fin 8) : Fin 8).val) 1) := ⟨![1, (pOf c + 6) % 8, 0, 0, 0], bfOff_ring c 6 1⟩
instance bfOff0v_7 (c : Dev nD) : ClosedOff (bfOff (ring c ((7 : Fin 8) : Fin 8).val) 0) := ⟨![0, (pOf c + 7) % 8, 0, 0, 0], bfOff_ring c 7 0⟩
instance bfOff1v_7 (c : Dev nD) : ClosedOff (bfOff (ring c ((7 : Fin 8) : Fin 8).val) 1) := ⟨![1, (pOf c + 7) % 8, 0, 0, 0], bfOff_ring c 7 1⟩

end Cert.KernelIdeal.Closed
-- ==== Proof.BodyWrap.lean ====
import proofs.«900787_g7700000000000788_dist_flashdec_v7x_xyz2x2x4_y_b8_sq8_skv1024_h16_d128_f32_1_alg».proof.Proof.Iface

noncomputable section

namespace Cert.KernelIdeal.BodyWrap

open Cert.KernelIdeal Cert.KernelIdeal.Gen Cert.KernelIdeal.Mesh Cert.KernelIdeal.Proto Cert.KernelIdeal.Iface
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev bodyPost (m : (ℓ : Loc nD τ sig) → Buf (Elt F) ℓ) (c : Dev nD) : sProp 𝕄 :=
  iprop(Φ₁ m c ∗ (∃ W, owes (c : Thread nD τ) 0 W) ∗ whole c cc0_stg0_0 (Vals.qst m c) ∗ whole c cc0_stg1_0 (Vals.out m c))

abbrev SoundBody : Prop :=
  ∀ (m : (ℓ : Loc nD τ sig) → Buf (Elt F) ℓ) (K : Dev nD × Fin 47 → ℕ) (c : Dev nD) (Kt : PUnit → sProp 𝕄) (W₀ : Waits sig Unit),
    iprop(records m K ∗ payToks c ∗ positions c ∗ credits c ∗ copySems0 c ∗ levAts L lv
        ∗ owes (c : Thread nD τ) (O₀ c) W₀
        ∗ whole c cc0_stg0_0 (Vals.qst m c) ∗ (∃ f, whole c cc0_stg1_0 f)
        ∗ (∃ f, whole c cc0_scratch0 f) ∗ (∃ f, whole c cc0_scratch1 f) ∗ (∃ f, whole c cc0_scratch2 f) ∗ (∃ f, whole c cc0_scratch3 f)
        ∗ (∃ f, whole c cc0_scratch4 f) ∗ (∃ f, whole c cc0_scratch5 f) ∗ (∃ f, whole c cc0_scratch6 f) ∗ (∃ f, whole c cc0_scratch7 f)
        ∗ whole c main_arg1 (m ((c : Thread nD τ).loc main_arg1)) ∗ whole c main_arg2 (m ((c : Thread nD τ).loc main_arg2))
        ∗ (bodyPost m c -∗ Kt ⟨⟩))
      ⊢ wp frame (wpE (defs₀ (F := F)) 𝒱₀ c none) Set.univ (cc0_body (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15) Kt

abbrev stg (c : Dev nD) (b : Ref sig .tc) (X : b.ty.Contents (Elt F)) : sProp 𝕄 :=
  iprop(∃ f : Buf (Elt F) ((Memref.whole b : Memref sig .tc _ _ _).view.loc (c : Thread nD τ)), ⌜f = X⌝ ∗ whole c b f)

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns
  rw [show (Memref.whole b : Memref sig .tc _ _ _).view.set = Finset.univ from View.set_whole b]
  rfl

theorem before0 (m : (ℓ : Loc nD τ sig) → Buf (Elt F) ℓ) (c : Dev nD) (d) : (dats m 0 c).before (0 : Fin 2) t0_0 d = Vals.qst m c := by
  unfold Dat.before
  rw [if_pos (by decide)]
  rfl

def bodyPost' (m : (ℓ : Loc nD τ sig) → Buf (Elt F) ℓ) (c : Dev nD) : sProp 𝕄 :=
  iprop(Φ₁ m c ∗ (dats m 0 c).owesAt () t0_0.succ ∗ stg c cc0_stg0_0 (Vals.qst m c) ∗ stg c cc0_stg1_0 (Vals.out m c))

set_option maxRecDepth 65536 in
theorem body_obligation_of (hsound : SoundBody (F := F)) (m : (ℓ : Loc nD τ sig) → Buf (Elt F) ℓ) (c : Dev nD) :
    BodyObligation (dats (F := F) m 0 c) (defs₀ (F := F)) 𝒱₀ () Set.univ := fun t => by
  rw [fin_N0 t]
  rw [bigSep_W0, bigSep_W0]
  simp only [owns_whole_eq]
  show iprop(Φ₀ m c ∗ (dats m 0 c).owesAt () t0_0.castSucc
      ∗ (∃ d, stg c cc0_stg0_0 ((dats m 0 c).before (0 : Fin 2) t0_0 d))
      ∗ (∃ d, stg c cc0_stg1_0 ((dats m 0 c).before (1 : Fin 2) t0_0 d)))
    ⊢ wp frame _ Set.univ _ (fun _ => bodyPost' m c)
  unfold Φ₀ start
  iintro ⟨⟨⟨⟨%K, HK⟩, Ht, Hp, Hcr, Hcp, Hlev⟩, S0, S1, S2, S3, S4, S5, S6, S7, Ha1, Ha2⟩, ⟨%W₀, -, Ho⟩, ⟨%d0, %f0, %hf0, Hx⟩, ⟨%d1, %f1, -, Hout⟩⟩
  rw [before0] at hf0
  subst hf0
  iapply (hsound m K c (fun _ => bodyPost' m c) W₀)
  iframe HK Ht Hp Hcr Hcp Hlev Hx S0 S1 S2 S3 S4 S5 S6 S7 Ha1 Ha2
  isplitl [Ho]; · iexact Ho
  isplitl [Hout]; · iexists f1; iexact Hout
  unfold bodyPost'
  iintro ⟨HΦ, ⟨%W, HO⟩, Hq, Hres⟩
  iframe HΦ
  isplitl [HO]
  · iexists W
    isplitr; · ipureintro; exact fun x _ => Or.inl (Set.mem_univ x)
    iexact HO
  isplitl [Hq]
  · iexists _; isplitr; · (ipureintro; rfl)
    iexact Hq
  iexists _; isplitr; · (ipureintro; rfl)
  iexact Hres

/-- info: 'Cert.KernelIdeal.BodyWrap.body_obligation_of' depends on axioms: [propext, Classical.choice, Quot.sound] -/
#guard_msgs in #print axioms body_obligation_of

end Cert.KernelIdeal.BodyWrap

end
-- ==== Proof.Body.lean ====
import proofs.«900787_g7700000000000788_dist_flashdec_v7x_xyz2x2x4_y_b8_sq8_skv1024_h16_d128_f32_1_alg».proof.Proof.Tables
import proofs.«900787_g7700000000000788_dist_flashdec_v7x_xyz2x2x4_y_b8_sq8_skv1024_h16_d128_f32_1_alg».proof.Proof.Geom
import proofs.«900787_g7700000000000788_dist_flashdec_v7x_xyz2x2x4_y_b8_sq8_skv1024_h16_d128_f32_1_alg».proof.Proof.BodyLemmas
import proofs.«900787_g7700000000000788_dist_flashdec_v7x_xyz2x2x4_y_b8_sq8_skv1024_h16_d128_f32_1_alg».proof.Proof.Levels
import proofs.«900787_g7700000000000788_dist_flashdec_v7x_xyz2x2x4_y_b8_sq8_skv1024_h16_d128_f32_1_alg».proof.Proof.StepsY
import proofs.«900787_g7700000000000788_dist_flashdec_v7x_xyz2x2x4_y_b8_sq8_skv1024_h16_d128_f32_1_alg».proof.Proof.StepsB
import proofs.«900787_g7700000000000788_dist_flashdec_v7x_xyz2x2x4_y_b8_sq8_skv1024_h16_d128_f32_1_alg».proof.Proof.StepsM
import proofs.«900787_g7700000000000788_dist_flashdec_v7x_xyz2x2x4_y_b8_sq8_skv1024_h16_d128_f32_1_alg».proof.Proof.StepsZ
import proofs.«900787_g7700000000000788_dist_flashdec_v7x_xyz2x2x4_y_b8_sq8_skv1024_h16_d128_f32_1_alg».proof.Proof.SlabValue
import proofs.«900787_g7700000000000788_dist_flashdec_v7x_xyz2x2x4_y_b8_sq8_skv1024_h16_d128_f32_1_alg».proof.Proof.OutValue
import proofs.«900787_g7700000000000788_dist_flashdec_v7x_xyz2x2x4_y_b8_sq8_skv1024_h16_d128_f32_1_alg».proof.Proof.StepsR
import proofs.«900787_g7700000000000788_dist_flashdec_v7x_xyz2x2x4_y_b8_sq8_skv1024_h16_d128_f32_1_alg».proof.Proof.Closed
import proofs.«900787_g7700000000000788_dist_flashdec_v7x_xyz2x2x4_y_b8_sq8_skv1024_h16_d128_f32_1_alg».proof.Proof.BodyWrap

noncomputable section

namespace Cert.KernelIdeal.Body

open Cert.KernelIdeal Cert.KernelIdeal.Gen Cert.KernelIdeal.Mesh Cert.KernelIdeal.Proto Cert.KernelIdeal.Iface Cert.KernelIdeal.BodyLemmas
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev ow29 (c : Dev nD) : List (CellTallies nD τ sig Unit) := [tallyAt (bcRecvCell 1 (pFin c) (ring c 7)) () Nb]
abbrev ow28 (c : Dev nD) : List (CellTallies nD τ sig Unit) := tallyAt (bcRecvCell 1 (pFin c) (ring c 6)) () Nb :: ow29 c
abbrev ow27 (c : Dev nD) : List (CellTallies nD τ sig Unit) := tallyAt (bcRecvCell 1 (pFin c) (ring c 5)) () Nb :: ow28 c
abbrev ow26 (c : Dev nD) : List (CellTallies nD τ sig Unit) := tallyAt (bcRecvCell 1 (pFin c) (ring c 4)) () Nb :: ow27 c
abbrev ow25 (c : Dev nD) : List (CellTallies nD τ sig Unit) := tallyAt (bcRecvCell 1 (pFin c) (ring c 3)) () Nb :: ow26 c
abbrev ow24 (c : Dev nD) : List (CellTallies nD τ sig Unit) := tallyAt (bcRecvCell 1 (pFin c) (ring c 2)) () Nb :: ow25 c
abbrev ow23 (c : Dev nD) : List (CellTallies nD τ sig Unit) := tallyAt (bcRecvCell 1 (pFin c) (ring c 1)) () Nb :: ow24 c
abbrev ow22 (c : Dev nD) : List (CellTallies nD τ sig Unit) := tallyAt (bcRecvCell 0 (pFin c) (ring c 7)) () Nb :: ow23 c
abbrev ow21 (c : Dev nD) : List (CellTallies nD τ sig Unit) := tallyAt (bcRecvCell 0 (pFin c) (ring c 6)) () Nb :: ow22 c
abbrev ow20 (c : Dev nD) : List (CellTallies nD τ sig Unit) := tallyAt (bcRecvCell 0 (pFin c) (ring c 5)) () Nb :: ow21 c
abbrev ow19 (c : Dev nD) : List (CellTallies nD τ sig Unit) := tallyAt (bcRecvCell 0 (pFin c) (ring c 4)) () Nb :: ow20 c
abbrev ow18 (c : Dev nD) : List (CellTallies nD τ sig Unit) := tallyAt (bcRecvCell 0 (pFin c) (ring c 3)) () Nb :: ow19 c
abbrev ow17 (c : Dev nD) : List (CellTallies nD τ sig Unit) := tallyAt (bcRecvCell 0 (pFin c) (ring c 2)) () Nb :: ow18 c
abbrev ow16 (c : Dev nD) : List (CellTallies nD τ sig Unit) := tallyAt (bcRecvCell 0 (pFin c) (ring c 1)) () Nb :: ow17 c
abbrev ow15 (c : Dev nD) : List (CellTallies nD τ sig Unit) := tallyAt (ylRecvCell 3 (ynbr c)) () Nl :: ow16 c
abbrev ow14 (c : Dev nD) : List (CellTallies nD τ sig Unit) := tallyAt (yoRecvCell 3 (ynbr c)) () No :: ow15 c
abbrev ow13 (c : Dev nD) : List (CellTallies nD τ sig Unit) := tallyAt (ylRecvCell 2 (ynbr c)) () Nl :: ow14 c
abbrev ow12 (c : Dev nD) : List (CellTallies nD τ sig Unit) := tallyAt (yoRecvCell 2 (ynbr c)) () No :: ow13 c
abbrev ow11 (c : Dev nD) : List (CellTallies nD τ sig Unit) := tallyAt (ylRecvCell 1 (ynbr c)) () Nl :: ow12 c
abbrev ow10 (c : Dev nD) : List (CellTallies nD τ sig Unit) := tallyAt (yoRecvCell 1 (ynbr c)) () No :: ow11 c
abbrev ow9 (c : Dev nD) : List (CellTallies nD τ sig Unit) := tallyAt (ylRecvCell 0 (ynbr c)) () Nl :: ow10 c
abbrev ow8 (c : Dev nD) : List (CellTallies nD τ sig Unit) := tallyAt (yoRecvCell 0 (ynbr c)) () No :: ow9 c
abbrev ow7 (c : Dev nD) : List (CellTallies nD τ sig Unit) := tallyAt (barCell (ring c 7)) () 1 :: ow8 c
abbrev ow6 (c : Dev nD) : List (CellTallies nD τ sig Unit) := tallyAt (barCell (ring c 6)) () 1 :: ow7 c
abbrev ow5 (c : Dev nD) : List (CellTallies nD τ sig Unit) := tallyAt (barCell (ring c 5)) () 1 :: ow6 c
abbrev ow4 (c : Dev nD) : List (CellTallies nD τ sig Unit) := tallyAt (barCell (ring c 4)) () 1 :: ow5 c
abbrev ow3 (c : Dev nD) : List (CellTallies nD τ sig Unit) := tallyAt (barCell (ring c 3)) () 1 :: ow4 c
abbrev ow2 (c : Dev nD) : List (CellTallies nD τ sig Unit) := tallyAt (barCell (ring c 2)) () 1 :: ow3 c
abbrev ow1 (c : Dev nD) : List (CellTallies nD τ sig Unit) := tallyAt (barCell (ring c 1)) () 1 :: ow2 c

variable (m : (ℓ : Loc nD τ sig) → Buf (Elt F) ℓ)

def bodyPost (c : Dev nD) : sProp 𝕄 :=
  iprop(Φ₁ m c ∗ (∃ W, owes (c : Thread nD τ) 0 W) ∗ whole c cc0_stg0_0 (Vals.qst m c) ∗ whole c cc0_stg1_0 (Vals.out m c))

theorem restate_whole (c : Dev nD) (b : Ref sig .tc) (X Y : Buf (Elt F) ((Memref.whole b : Memref sig .tc _ _ _).view.loc (c : Thread nD τ))) :
    (whole c b X : sProp 𝕄) ⊢ iprop(∀ _ : X = Y, whole c b Y) := by
  iintro H %h
  rw [← h]
  iexact H

set_option sl_exec.dmaWindow true in
set_option maxHeartbeats 16000000 in
set_option maxRecDepth 65536 in
theorem sound_body (K : Dev nD × Fin 47 → ℕ) (c : Dev nD) (Kt : PUnit → sProp 𝕄) (W₀ : Waits sig Unit) :
    iprop(records m K ∗ payToks c ∗ positions c ∗ credits c ∗ copySems0 c ∗ levAts L lv
        ∗ owes (c : Thread nD τ) (O₀ c) W₀
        ∗ whole c cc0_stg0_0 (Vals.qst m c) ∗ (∃ f, whole c cc0_stg1_0 f)
        ∗ (∃ f, whole c cc0_scratch0 f) ∗ (∃ f, whole c cc0_scratch1 f) ∗ (∃ f, whole c cc0_scratch2 f) ∗ (∃ f, whole c cc0_scratch3 f)
        ∗ (∃ f, whole c cc0_scratch4 f) ∗ (∃ f, whole c cc0_scratch5 f) ∗ (∃ f, whole c cc0_scratch6 f) ∗ (∃ f, whole c cc0_scratch7 f)
        ∗ whole c main_arg1 (m ((c : Thread nD τ).loc main_arg1)) ∗ whole c main_arg2 (m ((c : Thread nD τ).loc main_arg2))
        ∗ (bodyPost m c -∗ Kt ⟨⟩))
      ⊢ wp frame (wpE (defs₀ (F := F)) 𝒱₀ c none) Set.univ (cc0_body (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15) Kt := by
  unfold payToks positions credits copySems0 O₀ owedList
  iintro ⟨#HRec, ⟨tBarY, tBarR1, tBarR2, tBarR3, tBarR4, tBarR5, tBarR6, tBarR7, tYoS0, tYoR0, tYlS0, tYlR0, tYoS1, tYoR1, tYlS1, tYlR1, tYoS2, tYoR2, tYlS2, tYlR2, tYoS3, tYoR3, tYlS3, tYlR3, tBcS0_1, tBcR0_1, tBcS0_2, tBcR0_2, tBcS0_3, tBcR0_3, tBcS0_4, tBcR0_4, tBcS0_5, tBcR0_5, tBcS0_6, tBcR0_6, tBcS0_7, tBcR0_7, tBcS1_1, tBcR1_1, tBcS1_2, tBcR1_2, tBcS1_3, tBcR1_3, tBcS1_4, tBcR1_4, tBcS1_5, tBcR1_5, tBcS1_6, tBcR1_6, tBcS1_7, tBcR1_7⟩, ⟨aBar, aYoS0, aYoR0, aYlS0, aYlR0, aYoS1, aYoR1, aYlS1, aYlR1, aYoS2, aYoR2, aYlS2, aYlR2, aYoS3, aYoR3, aYlS3, aYlR3, aBcS0_1, aBcS0_2, aBcS0_3, aBcS0_4, aBcS0_5, aBcS0_6, aBcS0_7, aBcS1_1, aBcS1_2, aBcS1_3, aBcS1_4, aBcS1_5, aBcS1_6, aBcS1_7, aBcR0_0, aBcR0_1, aBcR0_2, aBcR0_3, aBcR0_4, aBcR0_5, aBcR0_6, aBcR0_7, aBcR1_0, aBcR1_1, aBcR1_2, aBcR1_3, aBcR1_4, aBcR1_5, aBcR1_6, aBcR1_7⟩, ⟨cBar, cYoR0, cYlR0, cYoR1, cYlR1, cYoR2, cYlR2, cYoR3, cYlR3, cBcR0_1, cBcR0_2, cBcR0_3, cBcR0_4, cBcR0_5, cBcR0_6, cBcR0_7, cBcR1_1, cBcR1_2, cBcR1_3, cBcR1_4, cBcR1_5, cBcR1_6, cBcR1_7⟩, ⟨z2, z3, z4, z5, z6, z7, z8, z9, z10, z11, z12, z13, z14, z15, z16, z17⟩, #Hlev, HO, Hq, ⟨%fo, Ho⟩, ⟨%f0, H0⟩, ⟨%f1, H1⟩, ⟨%f2, H2⟩, ⟨%f3, H3⟩, ⟨%f4, H4⟩, ⟨%f5, H5⟩, ⟨%f6, H6⟩, ⟨%f7, H7⟩, Hk, Hv, HK⟩

  ihave H7s := (Geom.split7 c f7) $$ H7
  icases H7s with ⟨S0_0, S1_0, S0_1, S1_1, S0_2, S1_2, S0_3, S1_3, S0_4, S1_4, S0_5, S1_5, S0_6, S1_6, S0_7, S1_7⟩

  ihave H3s := (Geom.split3 c f3) $$ H3
  icases H3s with ⟨B7_0, B7_1, B7_2, B7_3⟩
  ihave H5s := (Geom.split5 c f5) $$ H5
  icases H5s with ⟨B9_0, B9_1, B9_2, B9_3⟩
  sl_unfold [cc0_body]
  sl_exec

  iapply (Steps.signal_y m K c _ (dev1_eq c) f4 f6 (ow1 c) _) $$ [H4 H6 HO tBarY]
  · iframe HRec Hlev H4 H6 HO tBarY
  iintro HO
  sl_exec
  iapply (Steps.signal_r m K c 1 (by decide) _ (dev2_eq c) f7 f7 (ow2 c) _) $$ [S0_1 S1_1 HO tBarR1]
  · isplitr; · iexact HRec
    isplitr; · iexact Hlev
    isplitl [S0_1]; · iexact S0_1
    isplitl [S1_1]; · iexact S1_1
    isplitl [HO]; · iexact HO
    iexact tBarR1
  iintro HO
  sl_exec
  iapply (Steps.signal_r m K c 2 (by decide) _ (dev3_eq c) f7 f7 (ow3 c) _) $$ [S0_2 S1_2 HO tBarR2]
  · isplitr; · iexact HRec
    isplitr; · iexact Hlev
    isplitl [S0_2]; · iexact S0_2
    isplitl [S1_2]; · iexact S1_2
    isplitl [HO]; · iexact HO
    iexact tBarR2
  iintro HO
  sl_exec
  iapply (Steps.signal_r m K c 3 (by decide) _ (dev4_eq c) f7 f7 (ow4 c) _) $$ [S0_3 S1_3 HO tBarR3]
  · isplitr; · iexact HRec
    isplitr; · iexact Hlev
    isplitl [S0_3]; · iexact S0_3
    isplitl [S1_3]; · iexact S1_3
    isplitl [HO]; · iexact HO
    iexact tBarR3
  iintro HO
  sl_exec
  iapply (Steps.signal_r m K c 4 (by decide) _ (dev5_eq c) f7 f7 (ow5 c) _) $$ [S0_4 S1_4 HO tBarR4]
  · isplitr; · iexact HRec
    isplitr; · iexact Hlev
    isplitl [S0_4]; · iexact S0_4
    isplitl [S1_4]; · iexact S1_4
    isplitl [HO]; · iexact HO
    iexact tBarR4
  iintro HO
  sl_exec
  iapply (Steps.signal_r m K c 5 (by decide) _ (dev6_eq c) f7 f7 (ow6 c) _) $$ [S0_5 S1_5 HO tBarR5]
  · isplitr; · iexact HRec
    isplitr; · iexact Hlev
    isplitl [S0_5]; · iexact S0_5
    isplitl [S1_5]; · iexact S1_5
    isplitl [HO]; · iexact HO
    iexact tBarR5
  iintro HO
  sl_exec
  iapply (Steps.signal_r m K c 6 (by decide) _ (dev7_eq c) f7 f7 (ow7 c) _) $$ [S0_6 S1_6 HO tBarR6]
  · isplitr; · iexact HRec
    isplitr; · iexact Hlev
    isplitl [S0_6]; · iexact S0_6
    isplitl [S1_6]; · iexact S1_6
    isplitl [HO]; · iexact HO
    iexact tBarR6
  iintro HO
  sl_exec
  iapply (Steps.signal_r m K c 7 (by decide) _ (dev8_eq c) f7 f7 (ow8 c) _) $$ [S0_7 S1_7 HO tBarR7]
  · isplitr; · iexact HRec
    isplitr; · iexact Hlev
    isplitl [S0_7]; · iexact S0_7
    isplitl [S1_7]; · iexact S1_7
    isplitl [HO]; · iexact HO
    iexact tBarR7
  iintro HO
  have hmw : ∀ s : DmaSem sig, s.val < 18 → ((levAts L lv : sProp 𝕄) ⊢ MayWait (c : Thread nD τ) (SemLoc.dma s) () (Osum (ow8 c))) :=
    fun s hs => Levels.mayWait_low c (SemLoc.dma s) (Levels.lv_dma_low c s hs) 8
  sl_exec
  clear hmw

  iapply (Steps.wait_bar m K c (ow8 c) _ (Levels.mayWait_bar c 8 (by decide))) $$ [cBar HO aBar]
  · iframe HRec Hlev cBar HO aBar
  iintro ⟨HO, aBar, ⟨⟨%g4, P4⟩, ⟨%g6, P6⟩⟩, ⟨⟨%r0_1, R0_1⟩, ⟨%r1_1, R1_1⟩⟩, ⟨⟨%r0_2, R0_2⟩, ⟨%r1_2, R1_2⟩⟩, ⟨⟨%r0_3, R0_3⟩, ⟨%r1_3, R1_3⟩⟩, ⟨⟨%r0_4, R0_4⟩, ⟨%r1_4, R1_4⟩⟩, ⟨⟨%r0_5, R0_5⟩, ⟨%r1_5, R1_5⟩⟩, ⟨⟨%r0_6, R0_6⟩, ⟨%r1_6, R1_6⟩⟩, ⟨⟨%r0_7, R0_7⟩, ⟨%r1_7, R1_7⟩⟩⟩
  ihave P4s := (Geom.split4 (ynbr c) g4) $$ P4
  icases P4s with ⟨D8_0, D8_1, D8_2, D8_3⟩
  ihave P6s := (Geom.split6 (ynbr c) g6) $$ P6
  icases P6s with ⟨D10_0, D10_1, D10_2, D10_3⟩
  sl_exec

  ihave B7_0 := (Steps.restate7 m c 0 _) $$ B7_0
  ispecialize B7_0 $$ %_ %_ %(rfl) %(by sl_unfold_run_names; rw [SlabValue.slab_K_0 m c f0 _ _ _ _ , SlabValue.slab_V_0 m c f1 _ _ _ _ , SlabValue.read_q_0 m c]; rfl)
  iapply (Steps.send_ob m K c 0 _ (dev9_eq c) g4 (ow9 c) _) $$ [B7_0 D8_0 HO tYoS0 tYoR0]
  · iframe HRec Hlev B7_0 D8_0 HO tYoS0 tYoR0
  iintro ⟨cYoS0, HO⟩
  sl_exec

  ihave B9_0 := (Steps.restate9 m c 0 _) $$ B9_0
  ispecialize B9_0 $$ %_ %_ %(rfl) %(by sl_unfold_run_names; rw [SlabValue.slab_K_0 m c f0 _ _ _ _ , SlabValue.read_q_0 m c]; rfl)
  ihave B9h := (Geom.halves _ _).1 $$ B9_0
  icases B9h with ⟨B9L_0, B9R_0⟩
  have hmw : ∀ s : DmaSem sig, s.val < 18 → ((levAts L lv : sProp 𝕄) ⊢ MayWait (c : Thread nD τ) (SemLoc.dma s) () (Osum (ow10 c))) :=
    fun s hs => Levels.mayWait_low c (SemLoc.dma s) (Levels.lv_dma_low c s hs) 10
  iapply (Steps.send_lb m K c 0 _ (dev10_eq c) g6 (ow10 c) _) $$ [B9L_0 D10_0 HO tYlS0 tYlR0]
  · iframe HRec Hlev B9L_0 D10_0 HO tYlS0 tYlR0
  iintro ⟨cYlS0, HO⟩
  sl_exec
  clear hmw

  ihave B7_1 := (Steps.restate7 m c 1 _) $$ B7_1
  ispecialize B7_1 $$ %_ %_ %(rfl) %(by sl_unfold_run_names; rw [SlabValue.slab_K_1 m c f0 _ _ _ _ _ _ _ _ , SlabValue.slab_V_1 m c f1 _ _ _ _ _ _ _ _ , SlabValue.read_q_1 m c]; rfl)
  iapply (Steps.send_ob m K c 1 _ (dev11_eq c) g4 (ow11 c) _) $$ [B7_1 D8_1 HO tYoS1 tYoR1]
  · iframe HRec Hlev B7_1 D8_1 HO tYoS1 tYoR1
  iintro ⟨cYoS1, HO⟩
  sl_exec

  ihave B9_1 := (Steps.restate9 m c 1 _) $$ B9_1
  ispecialize B9_1 $$ %_ %_ %(rfl) %(by sl_unfold_run_names; rw [SlabValue.slab_K_1 m c f0 _ _ _ _ _ _ _ _ , SlabValue.read_q_1 m c]; rfl)
  ihave B9h := (Geom.halves _ _).1 $$ B9_1
  icases B9h with ⟨B9L_1, B9R_1⟩
  have hmw : ∀ s : DmaSem sig, s.val < 18 → ((levAts L lv : sProp 𝕄) ⊢ MayWait (c : Thread nD τ) (SemLoc.dma s) () (Osum (ow12 c))) :=
    fun s hs => Levels.mayWait_low c (SemLoc.dma s) (Levels.lv_dma_low c s hs) 12
  iapply (Steps.send_lb m K c 1 _ (dev12_eq c) g6 (ow12 c) _) $$ [B9L_1 D10_1 HO tYlS1 tYlR1]
  · iframe HRec Hlev B9L_1 D10_1 HO tYlS1 tYlR1
  iintro ⟨cYlS1, HO⟩
  sl_exec
  clear hmw

  ihave B7_2 := (Steps.restate7 m c 2 _) $$ B7_2
  ispecialize B7_2 $$ %_ %_ %(rfl) %(by sl_unfold_run_names; rw [SlabValue.slab_K_2 m c f0 _ _ _ _ _ _ _ _ _ _ _ _ , SlabValue.slab_V_2 m c f1 _ _ _ _ _ _ _ _ _ _ _ _ , SlabValue.read_q_2 m c]; rfl)
  iapply (Steps.send_ob m K c 2 _ (dev13_eq c) g4 (ow13 c) _) $$ [B7_2 D8_2 HO tYoS2 tYoR2]
  · iframe HRec Hlev B7_2 D8_2 HO tYoS2 tYoR2
  iintro ⟨cYoS2, HO⟩
  sl_exec

  ihave B9_2 := (Steps.restate9 m c 2 _) $$ B9_2
  ispecialize B9_2 $$ %_ %_ %(rfl) %(by sl_unfold_run_names; rw [SlabValue.slab_K_2 m c f0 _ _ _ _ _ _ _ _ _ _ _ _ , SlabValue.read_q_2 m c]; rfl)
  ihave B9h := (Geom.halves _ _).1 $$ B9_2
  icases B9h with ⟨B9L_2, B9R_2⟩
  have hmw : ∀ s : DmaSem sig, s.val < 18 → ((levAts L lv : sProp 𝕄) ⊢ MayWait (c : Thread nD τ) (SemLoc.dma s) () (Osum (ow14 c))) :=
    fun s hs => Levels.mayWait_low c (SemLoc.dma s) (Levels.lv_dma_low c s hs) 14
  iapply (Steps.send_lb m K c 2 _ (dev14_eq c) g6 (ow14 c) _) $$ [B9L_2 D10_2 HO tYlS2 tYlR2]
  · iframe HRec Hlev B9L_2 D10_2 HO tYlS2 tYlR2
  iintro ⟨cYlS2, HO⟩
  sl_exec
  clear hmw

  ihave B7_3 := (Steps.restate7 m c 3 _) $$ B7_3
  ispecialize B7_3 $$ %_ %_ %(rfl) %(by sl_unfold_run_names; rw [SlabValue.slab_K_3 m c f0 _ _ _ _ _ _ _ _ _ _ _ _ , SlabValue.slab_V_3 m c f1 _ _ _ _ _ _ _ _ _ _ _ _ , SlabValue.read_q_3 m c]; rfl)
  iapply (Steps.send_ob m K c 3 _ (dev15_eq c) g4 (ow15 c) _) $$ [B7_3 D8_3 HO tYoS3 tYoR3]
  · iframe HRec Hlev B7_3 D8_3 HO tYoS3 tYoR3
  iintro ⟨cYoS3, HO⟩
  sl_exec

  ihave B9_3 := (Steps.restate9 m c 3 _) $$ B9_3
  ispecialize B9_3 $$ %_ %_ %(rfl) %(by sl_unfold_run_names; rw [SlabValue.slab_K_3 m c f0 _ _ _ _ _ _ _ _ _ _ _ _ , SlabValue.read_q_3 m c]; rfl)
  ihave B9h := (Geom.halves _ _).1 $$ B9_3
  icases B9h with ⟨B9L_3, B9R_3⟩
  iapply (Steps.send_lb m K c 3 _ (dev16_eq c) g6 (ow16 c) _) $$ [B9L_3 D10_3 HO tYlS3 tYlR3]
  · iframe HRec Hlev B9L_3 D10_3 HO tYlS3 tYlR3
  iintro ⟨cYlS3, HO⟩
  sl_exec

  iapply (Steps.wait_yo m K c 0 (ow16 c) _ (Levels.mayWait_mid c _ (Levels.lv_yoRecv 0 c) 16 (by decide))) $$ [cYoR0 HO aYoR0]
  · iframe HRec Hlev cYoR0 HO aYoR0
  iintro ⟨HO, aYoR0, E8_0⟩
  sl_exec
  iapply (Steps.wait_yl m K c 0 (ow16 c) _ (Levels.mayWait_mid c _ (Levels.lv_ylRecv 0 c) 16 (by decide))) $$ [cYlR0 HO aYlR0]
  · iframe HRec Hlev cYlR0 HO aYlR0
  iintro ⟨HO, aYlR0, E10_0⟩
  sl_exec
  iapply (Steps.wait_yo m K c 1 (ow16 c) _ (Levels.mayWait_mid c _ (Levels.lv_yoRecv 1 c) 16 (by decide))) $$ [cYoR1 HO aYoR1]
  · iframe HRec Hlev cYoR1 HO aYoR1
  iintro ⟨HO, aYoR1, E8_1⟩
  sl_exec
  iapply (Steps.wait_yl m K c 1 (ow16 c) _ (Levels.mayWait_mid c _ (Levels.lv_ylRecv 1 c) 16 (by decide))) $$ [cYlR1 HO aYlR1]
  · iframe HRec Hlev cYlR1 HO aYlR1
  iintro ⟨HO, aYlR1, E10_1⟩
  sl_exec

  ihave S0_0 := (Steps.restate11 m c 0 _) $$ S0_0
  ispecialize S0_0 $$ %_ %(off22_eq c) %_ %_ %_ %(rfl) %(by sl_unfold_run_names; rw [Steps.read8_0 m c, Steps.read8_1 m c, Steps.read10_0 m c, Steps.read10_1 m c, Steps.read9r_0 m c, Steps.read9r_1 m c, Steps.omHalf_readCov0 m c _ _ _ _ ?_ ?_ ?_ ?_]; all_goals (first | rfl | (rw [SlabValue.slab_K_0 m c f0 _ _ _ _ , SlabValue.slab_V_0 m c f1 _ _ _ _ , SlabValue.read_q_0 m c]; rfl) | (rw [SlabValue.slab_K_1 m c f0 _ _ _ _ _ _ _ _ , SlabValue.slab_V_1 m c f1 _ _ _ _ _ _ _ _ , SlabValue.read_q_1 m c]; rfl) | (rw [SlabValue.slab_K_2 m c f0 _ _ _ _ _ _ _ _ _ _ _ _ , SlabValue.slab_V_2 m c f1 _ _ _ _ _ _ _ _ _ _ _ _ , SlabValue.read_q_2 m c]; rfl) | (rw [SlabValue.slab_K_3 m c f0 _ _ _ _ _ _ _ _ _ _ _ _ , SlabValue.slab_V_3 m c f1 _ _ _ _ _ _ _ _ _ _ _ _ , SlabValue.read_q_3 m c]; rfl)))
  ihave Sh := (Geom.shares7 _ _).1 $$ S0_0
  icases Sh with ⟨Q0_1, Q0_2, Q0_3, Q0_4, Q0_5, Q0_6, Q0_7⟩
  iapply (Steps.send_bc m K c 0 1 (by decide) (dev17_eq c) (Steps.bcSendSem_eq ⟨0, by decide⟩ rfl _) (Steps.bcRecvSem_eq 0 (pFin c) (off23_eq c) _) r0_1 (ow17 c) _) $$ [Q0_1 R0_1 HO tBcS0_1 tBcR0_1]
  · isplitr; · iexact HRec
    isplitr; · iexact Hlev
    isplitl [Q0_1]; · iexact Q0_1
    isplitl [R0_1]; · iexact R0_1
    isplitl [HO]; · iexact HO
    isplitl [tBcS0_1]; · iexact tBcS0_1
    iexact tBcR0_1
  iintro ⟨cBcS0_1, HO⟩
  sl_exec
  iapply (Steps.send_bc m K c 0 2 (by decide) (dev18_eq c) (Steps.bcSendSem_eq ⟨1, by decide⟩ rfl _) (Steps.bcRecvSem_eq 0 (pFin c) (off23_eq c) _) r0_2 (ow18 c) _) $$ [Q0_2 R0_2 HO tBcS0_2 tBcR0_2]
  · isplitr; · iexact HRec
    isplitr; · iexact Hlev
    isplitl [Q0_2]; · iexact Q0_2
    isplitl [R0_2]; · iexact R0_2
    isplitl [HO]; · iexact HO
    isplitl [tBcS0_2]; · iexact tBcS0_2
    iexact tBcR0_2
  iintro ⟨cBcS0_2, HO⟩
  sl_exec
  iapply (Steps.send_bc m K c 0 3 (by decide) (dev19_eq c) (Steps.bcSendSem_eq ⟨2, by decide⟩ rfl _) (Steps.bcRecvSem_eq 0 (pFin c) (off23_eq c) _) r0_3 (ow19 c) _) $$ [Q0_3 R0_3 HO tBcS0_3 tBcR0_3]
  · isplitr; · iexact HRec
    isplitr; · iexact Hlev
    isplitl [Q0_3]; · iexact Q0_3
    isplitl [R0_3]; · iexact R0_3
    isplitl [HO]; · iexact HO
    isplitl [tBcS0_3]; · iexact tBcS0_3
    iexact tBcR0_3
  iintro ⟨cBcS0_3, HO⟩
  sl_exec
  iapply (Steps.send_bc m K c 0 4 (by decide) (dev20_eq c) (Steps.bcSendSem_eq ⟨3, by decide⟩ rfl _) (Steps.bcRecvSem_eq 0 (pFin c) (off23_eq c) _) r0_4 (ow20 c) _) $$ [Q0_4 R0_4 HO tBcS0_4 tBcR0_4]
  · isplitr; · iexact HRec
    isplitr; · iexact Hlev
    isplitl [Q0_4]; · iexact Q0_4
    isplitl [R0_4]; · iexact R0_4
    isplitl [HO]; · iexact HO
    isplitl [tBcS0_4]; · iexact tBcS0_4
    iexact tBcR0_4
  iintro ⟨cBcS0_4, HO⟩
  sl_exec
  iapply (Steps.send_bc m K c 0 5 (by decide) (dev21_eq c) (Steps.bcSendSem_eq ⟨4, by decide⟩ rfl _) (Steps.bcRecvSem_eq 0 (pFin c) (off23_eq c) _) r0_5 (ow21 c) _) $$ [Q0_5 R0_5 HO tBcS0_5 tBcR0_5]
  · isplitr; · iexact HRec
    isplitr; · iexact Hlev
    isplitl [Q0_5]; · iexact Q0_5
    isplitl [R0_5]; · iexact R0_5
    isplitl [HO]; · iexact HO
    isplitl [tBcS0_5]; · iexact tBcS0_5
    iexact tBcR0_5
  iintro ⟨cBcS0_5, HO⟩
  sl_exec
  iapply (Steps.send_bc m K c 0 6 (by decide) (dev22_eq c) (Steps.bcSendSem_eq ⟨5, by decide⟩ rfl _) (Steps.bcRecvSem_eq 0 (pFin c) (off23_eq c) _) r0_6 (ow22 c) _) $$ [Q0_6 R0_6 HO tBcS0_6 tBcR0_6]
  · isplitr; · iexact HRec
    isplitr; · iexact Hlev
    isplitl [Q0_6]; · iexact Q0_6
    isplitl [R0_6]; · iexact R0_6
    isplitl [HO]; · iexact HO
    isplitl [tBcS0_6]; · iexact tBcS0_6
    iexact tBcR0_6
  iintro ⟨cBcS0_6, HO⟩
  sl_exec
  iapply (Steps.send_bc m K c 0 7 (by decide) (dev23_eq c) (Steps.bcSendSem_eq ⟨6, by decide⟩ rfl _) (Steps.bcRecvSem_eq 0 (pFin c) (off23_eq c) _) r0_7 (ow23 c) _) $$ [Q0_7 R0_7 HO tBcS0_7 tBcR0_7]
  · isplitr; · iexact HRec
    isplitr; · iexact Hlev
    isplitl [Q0_7]; · iexact Q0_7
    isplitl [R0_7]; · iexact R0_7
    isplitl [HO]; · iexact HO
    isplitl [tBcS0_7]; · iexact tBcS0_7
    iexact tBcR0_7
  iintro ⟨cBcS0_7, HO⟩
  sl_exec

  iapply (Steps.wait_yo m K c 2 (ow23 c) _ (Levels.mayWait_mid c _ (Levels.lv_yoRecv 2 c) 23 (by decide))) $$ [cYoR2 HO aYoR2]
  · iframe HRec Hlev cYoR2 HO aYoR2
  iintro ⟨HO, aYoR2, E8_2⟩
  sl_exec
  iapply (Steps.wait_yl m K c 2 (ow23 c) _ (Levels.mayWait_mid c _ (Levels.lv_ylRecv 2 c) 23 (by decide))) $$ [cYlR2 HO aYlR2]
  · iframe HRec Hlev cYlR2 HO aYlR2
  iintro ⟨HO, aYlR2, E10_2⟩
  sl_exec
  iapply (Steps.wait_yo m K c 3 (ow23 c) _ (Levels.mayWait_mid c _ (Levels.lv_yoRecv 3 c) 23 (by decide))) $$ [cYoR3 HO aYoR3]
  · iframe HRec Hlev cYoR3 HO aYoR3
  iintro ⟨HO, aYoR3, E8_3⟩
  sl_exec
  iapply (Steps.wait_yl m K c 3 (ow23 c) _ (Levels.mayWait_mid c _ (Levels.lv_ylRecv 3 c) 23 (by decide))) $$ [cYlR3 HO aYlR3]
  · iframe HRec Hlev cYlR3 HO aYlR3
  iintro ⟨HO, aYlR3, E10_3⟩
  sl_exec

  ihave S1_0 := (Steps.restate11 m c 1 _) $$ S1_0
  ispecialize S1_0 $$ %_ %(off26_eq c) %_ %_ %_ %(rfl) %(by sl_unfold_run_names; rw [Steps.read8_2 m c, Steps.read8_3 m c, Steps.read10_2 m c, Steps.read10_3 m c, Steps.read9r_2 m c, Steps.read9r_3 m c, Steps.omHalf_readCov1 m c _ _ _ _ ?_ ?_ ?_ ?_]; all_goals (first | rfl | (rw [SlabValue.slab_K_0 m c f0 _ _ _ _ , SlabValue.slab_V_0 m c f1 _ _ _ _ , SlabValue.read_q_0 m c]; rfl) | (rw [SlabValue.slab_K_1 m c f0 _ _ _ _ _ _ _ _ , SlabValue.slab_V_1 m c f1 _ _ _ _ _ _ _ _ , SlabValue.read_q_1 m c]; rfl) | (rw [SlabValue.slab_K_2 m c f0 _ _ _ _ _ _ _ _ _ _ _ _ , SlabValue.slab_V_2 m c f1 _ _ _ _ _ _ _ _ _ _ _ _ , SlabValue.read_q_2 m c]; rfl) | (rw [SlabValue.slab_K_3 m c f0 _ _ _ _ _ _ _ _ _ _ _ _ , SlabValue.slab_V_3 m c f1 _ _ _ _ _ _ _ _ _ _ _ _ , SlabValue.read_q_3 m c]; rfl)))
  ihave Sh := (Geom.shares7 _ _).1 $$ S1_0
  icases Sh with ⟨Q1_1, Q1_2, Q1_3, Q1_4, Q1_5, Q1_6, Q1_7⟩
  iapply (Steps.send_bc m K c 1 1 (by decide) (dev24_eq c) (Steps.bcSendSem_eq ⟨7, by decide⟩ rfl _) (Steps.bcRecvSem_eq 1 (pFin c) (off27_eq c) _) r1_1 (ow24 c) _) $$ [Q1_1 R1_1 HO tBcS1_1 tBcR1_1]
  · isplitr; · iexact HRec
    isplitr; · iexact Hlev
    isplitl [Q1_1]; · iexact Q1_1
    isplitl [R1_1]; · iexact R1_1
    isplitl [HO]; · iexact HO
    isplitl [tBcS1_1]; · iexact tBcS1_1
    iexact tBcR1_1
  iintro ⟨cBcS1_1, HO⟩
  sl_exec
  iapply (Steps.send_bc m K c 1 2 (by decide) (dev25_eq c) (Steps.bcSendSem_eq ⟨8, by decide⟩ rfl _) (Steps.bcRecvSem_eq 1 (pFin c) (off27_eq c) _) r1_2 (ow25 c) _) $$ [Q1_2 R1_2 HO tBcS1_2 tBcR1_2]
  · isplitr; · iexact HRec
    isplitr; · iexact Hlev
    isplitl [Q1_2]; · iexact Q1_2
    isplitl [R1_2]; · iexact R1_2
    isplitl [HO]; · iexact HO
    isplitl [tBcS1_2]; · iexact tBcS1_2
    iexact tBcR1_2
  iintro ⟨cBcS1_2, HO⟩
  sl_exec
  iapply (Steps.send_bc m K c 1 3 (by decide) (dev26_eq c) (Steps.bcSendSem_eq ⟨9, by decide⟩ rfl _) (Steps.bcRecvSem_eq 1 (pFin c) (off27_eq c) _) r1_3 (ow26 c) _) $$ [Q1_3 R1_3 HO tBcS1_3 tBcR1_3]
  · isplitr; · iexact HRec
    isplitr; · iexact Hlev
    isplitl [Q1_3]; · iexact Q1_3
    isplitl [R1_3]; · iexact R1_3
    isplitl [HO]; · iexact HO
    isplitl [tBcS1_3]; · iexact tBcS1_3
    iexact tBcR1_3
  iintro ⟨cBcS1_3, HO⟩
  sl_exec
  iapply (Steps.send_bc m K c 1 4 (by decide) (dev27_eq c) (Steps.bcSendSem_eq ⟨10, by decide⟩ rfl _) (Steps.bcRecvSem_eq 1 (pFin c) (off27_eq c) _) r1_4 (ow27 c) _) $$ [Q1_4 R1_4 HO tBcS1_4 tBcR1_4]
  · isplitr; · iexact HRec
    isplitr; · iexact Hlev
    isplitl [Q1_4]; · iexact Q1_4
    isplitl [R1_4]; · iexact R1_4
    isplitl [HO]; · iexact HO
    isplitl [tBcS1_4]; · iexact tBcS1_4
    iexact tBcR1_4
  iintro ⟨cBcS1_4, HO⟩
  sl_exec
  iapply (Steps.send_bc m K c 1 5 (by decide) (dev28_eq c) (Steps.bcSendSem_eq ⟨11, by decide⟩ rfl _) (Steps.bcRecvSem_eq 1 (pFin c) (off27_eq c) _) r1_5 (ow28 c) _) $$ [Q1_5 R1_5 HO tBcS1_5 tBcR1_5]
  · isplitr; · iexact HRec
    isplitr; · iexact Hlev
    isplitl [Q1_5]; · iexact Q1_5
    isplitl [R1_5]; · iexact R1_5
    isplitl [HO]; · iexact HO
    isplitl [tBcS1_5]; · iexact tBcS1_5
    iexact tBcR1_5
  iintro ⟨cBcS1_5, HO⟩
  sl_exec
  iapply (Steps.send_bc m K c 1 6 (by decide) (dev29_eq c) (Steps.bcSendSem_eq ⟨12, by decide⟩ rfl _) (Steps.bcRecvSem_eq 1 (pFin c) (off27_eq c) _) r1_6 (ow29 c) _) $$ [Q1_6 R1_6 HO tBcS1_6 tBcR1_6]
  · isplitr; · iexact HRec
    isplitr; · iexact Hlev
    isplitl [Q1_6]; · iexact Q1_6
    isplitl [R1_6]; · iexact R1_6
    isplitl [HO]; · iexact HO
    isplitl [tBcS1_6]; · iexact tBcS1_6
    iexact tBcR1_6
  iintro ⟨cBcS1_6, HO⟩
  sl_exec
  iapply (Steps.send_bc m K c 1 7 (by decide) (dev30_eq c) (Steps.bcSendSem_eq ⟨13, by decide⟩ rfl _) (Steps.bcRecvSem_eq 1 (pFin c) (off27_eq c) _) r1_7 [] _) $$ [Q1_7 R1_7 HO tBcS1_7 tBcR1_7]
  · isplitr; · iexact HRec
    isplitr; · iexact Hlev
    isplitl [Q1_7]; · iexact Q1_7
    isplitl [R1_7]; · iexact R1_7
    isplitl [HO]; · iexact HO
    isplitl [tBcS1_7]; · iexact tBcS1_7
    iexact tBcR1_7
  iintro ⟨cBcS1_7, HO⟩
  sl_exec

  iapply (Steps.wait_bcr m K c 0 1 (by decide) (Steps.bcRecvSem_eq 0 (rj c 1) (off29_eq_1 c) _) [] (Steps.mayWait_nil c _) _) $$ [cBcR0_1 HO aBcR0_1]
  · iframe HRec Hlev cBcR0_1 HO aBcR0_1
  iintro ⟨HO, aBcR0_1, F0_1⟩
  sl_exec
  iapply (Steps.wait_bcr m K c 0 2 (by decide) (Steps.bcRecvSem_eq 0 (rj c 2) (off29_eq_2 c) _) [] (Steps.mayWait_nil c _) _) $$ [cBcR0_2 HO aBcR0_2]
  · iframe HRec Hlev cBcR0_2 HO aBcR0_2
  iintro ⟨HO, aBcR0_2, F0_2⟩
  sl_exec
  iapply (Steps.wait_bcr m K c 0 3 (by decide) (Steps.bcRecvSem_eq 0 (rj c 3) (off29_eq_3 c) _) [] (Steps.mayWait_nil c _) _) $$ [cBcR0_3 HO aBcR0_3]
  · iframe HRec Hlev cBcR0_3 HO aBcR0_3
  iintro ⟨HO, aBcR0_3, F0_3⟩
  sl_exec
  iapply (Steps.wait_bcr m K c 0 4 (by decide) (Steps.bcRecvSem_eq 0 (rj c 4) (off29_eq_4 c) _) [] (Steps.mayWait_nil c _) _) $$ [cBcR0_4 HO aBcR0_4]
  · iframe HRec Hlev cBcR0_4 HO aBcR0_4
  iintro ⟨HO, aBcR0_4, F0_4⟩
  sl_exec
  iapply (Steps.wait_bcr m K c 0 5 (by decide) (Steps.bcRecvSem_eq 0 (rj c 5) (off29_eq_5 c) _) [] (Steps.mayWait_nil c _) _) $$ [cBcR0_5 HO aBcR0_5]
  · iframe HRec Hlev cBcR0_5 HO aBcR0_5
  iintro ⟨HO, aBcR0_5, F0_5⟩
  sl_exec
  iapply (Steps.wait_bcr m K c 0 6 (by decide) (Steps.bcRecvSem_eq 0 (rj c 6) (off29_eq_6 c) _) [] (Steps.mayWait_nil c _) _) $$ [cBcR0_6 HO aBcR0_6]
  · iframe HRec Hlev cBcR0_6 HO aBcR0_6
  iintro ⟨HO, aBcR0_6, F0_6⟩
  sl_exec
  iapply (Steps.wait_bcr m K c 0 7 (by decide) (Steps.bcRecvSem_eq 0 (rj c 7) (off29_eq_7 c) _) [] (Steps.mayWait_nil c _) _) $$ [cBcR0_7 HO aBcR0_7]
  · iframe HRec Hlev cBcR0_7 HO aBcR0_7
  iintro ⟨HO, aBcR0_7, F0_7⟩
  sl_exec
  iapply (Steps.wait_bcr m K c 1 1 (by decide) (Steps.bcRecvSem_eq 1 (rj c 1) (off33_eq_1 c) _) [] (Steps.mayWait_nil c _) _) $$ [cBcR1_1 HO aBcR1_1]
  · iframe HRec Hlev cBcR1_1 HO aBcR1_1
  iintro ⟨HO, aBcR1_1, F1_1⟩
  sl_exec
  iapply (Steps.wait_bcr m K c 1 2 (by decide) (Steps.bcRecvSem_eq 1 (rj c 2) (off33_eq_2 c) _) [] (Steps.mayWait_nil c _) _) $$ [cBcR1_2 HO aBcR1_2]
  · iframe HRec Hlev cBcR1_2 HO aBcR1_2
  iintro ⟨HO, aBcR1_2, F1_2⟩
  sl_exec
  iapply (Steps.wait_bcr m K c 1 3 (by decide) (Steps.bcRecvSem_eq 1 (rj c 3) (off33_eq_3 c) _) [] (Steps.mayWait_nil c _) _) $$ [cBcR1_3 HO aBcR1_3]
  · iframe HRec Hlev cBcR1_3 HO aBcR1_3
  iintro ⟨HO, aBcR1_3, F1_3⟩
  sl_exec
  iapply (Steps.wait_bcr m K c 1 4 (by decide) (Steps.bcRecvSem_eq 1 (rj c 4) (off33_eq_4 c) _) [] (Steps.mayWait_nil c _) _) $$ [cBcR1_4 HO aBcR1_4]
  · iframe HRec Hlev cBcR1_4 HO aBcR1_4
  iintro ⟨HO, aBcR1_4, F1_4⟩
  sl_exec
  iapply (Steps.wait_bcr m K c 1 5 (by decide) (Steps.bcRecvSem_eq 1 (rj c 5) (off33_eq_5 c) _) [] (Steps.mayWait_nil c _) _) $$ [cBcR1_5 HO aBcR1_5]
  · iframe HRec Hlev cBcR1_5 HO aBcR1_5
  iintro ⟨HO, aBcR1_5, F1_5⟩
  sl_exec
  iapply (Steps.wait_bcr m K c 1 6 (by decide) (Steps.bcRecvSem_eq 1 (rj c 6) (off33_eq_6 c) _) [] (Steps.mayWait_nil c _) _) $$ [cBcR1_6 HO aBcR1_6]
  · iframe HRec Hlev cBcR1_6 HO aBcR1_6
  iintro ⟨HO, aBcR1_6, F1_6⟩
  sl_exec
  iapply (Steps.wait_bcr m K c 1 7 (by decide) (Steps.bcRecvSem_eq 1 (rj c 7) (off33_eq_7 c) _) [] (Steps.mayWait_nil c _) _) $$ [cBcR1_7 HO aBcR1_7]
  · iframe HRec Hlev cBcR1_7 HO aBcR1_7
  iintro ⟨HO, aBcR1_7, F1_7⟩
  sl_exec

  iapply (Steps.wait_bcs m K c 0 1 (by decide) (Steps.bcSendSem_eq ⟨0, by decide⟩ rfl _) [] (Steps.mayWait_nil c _) _) $$ [cBcS0_1 HO aBcS0_1]
  · iframe HRec Hlev cBcS0_1 HO aBcS0_1
  iintro ⟨HO, aBcS0_1, Q0_1⟩
  sl_exec
  iapply (Steps.wait_bcs m K c 0 2 (by decide) (Steps.bcSendSem_eq ⟨1, by decide⟩ rfl _) [] (Steps.mayWait_nil c _) _) $$ [cBcS0_2 HO aBcS0_2]
  · iframe HRec Hlev cBcS0_2 HO aBcS0_2
  iintro ⟨HO, aBcS0_2, Q0_2⟩
  sl_exec
  iapply (Steps.wait_bcs m K c 0 3 (by decide) (Steps.bcSendSem_eq ⟨2, by decide⟩ rfl _) [] (Steps.mayWait_nil c _) _) $$ [cBcS0_3 HO aBcS0_3]
  · iframe HRec Hlev cBcS0_3 HO aBcS0_3
  iintro ⟨HO, aBcS0_3, Q0_3⟩
  sl_exec
  iapply (Steps.wait_bcs m K c 0 4 (by decide) (Steps.bcSendSem_eq ⟨3, by decide⟩ rfl _) [] (Steps.mayWait_nil c _) _) $$ [cBcS0_4 HO aBcS0_4]
  · iframe HRec Hlev cBcS0_4 HO aBcS0_4
  iintro ⟨HO, aBcS0_4, Q0_4⟩
  sl_exec
  iapply (Steps.wait_bcs m K c 0 5 (by decide) (Steps.bcSendSem_eq ⟨4, by decide⟩ rfl _) [] (Steps.mayWait_nil c _) _) $$ [cBcS0_5 HO aBcS0_5]
  · iframe HRec Hlev cBcS0_5 HO aBcS0_5
  iintro ⟨HO, aBcS0_5, Q0_5⟩
  sl_exec
  iapply (Steps.wait_bcs m K c 0 6 (by decide) (Steps.bcSendSem_eq ⟨5, by decide⟩ rfl _) [] (Steps.mayWait_nil c _) _) $$ [cBcS0_6 HO aBcS0_6]
  · iframe HRec Hlev cBcS0_6 HO aBcS0_6
  iintro ⟨HO, aBcS0_6, Q0_6⟩
  sl_exec
  iapply (Steps.wait_bcs m K c 0 7 (by decide) (Steps.bcSendSem_eq ⟨6, by decide⟩ rfl _) [] (Steps.mayWait_nil c _) _) $$ [cBcS0_7 HO aBcS0_7]
  · iframe HRec Hlev cBcS0_7 HO aBcS0_7
  iintro ⟨HO, aBcS0_7, Q0_7⟩
  sl_exec
  iapply (Steps.wait_bcs m K c 1 1 (by decide) (Steps.bcSendSem_eq ⟨7, by decide⟩ rfl _) [] (Steps.mayWait_nil c _) _) $$ [cBcS1_1 HO aBcS1_1]
  · iframe HRec Hlev cBcS1_1 HO aBcS1_1
  iintro ⟨HO, aBcS1_1, Q1_1⟩
  sl_exec
  iapply (Steps.wait_bcs m K c 1 2 (by decide) (Steps.bcSendSem_eq ⟨8, by decide⟩ rfl _) [] (Steps.mayWait_nil c _) _) $$ [cBcS1_2 HO aBcS1_2]
  · iframe HRec Hlev cBcS1_2 HO aBcS1_2
  iintro ⟨HO, aBcS1_2, Q1_2⟩
  sl_exec
  iapply (Steps.wait_bcs m K c 1 3 (by decide) (Steps.bcSendSem_eq ⟨9, by decide⟩ rfl _) [] (Steps.mayWait_nil c _) _) $$ [cBcS1_3 HO aBcS1_3]
  · iframe HRec Hlev cBcS1_3 HO aBcS1_3
  iintro ⟨HO, aBcS1_3, Q1_3⟩
  sl_exec
  iapply (Steps.wait_bcs m K c 1 4 (by decide) (Steps.bcSendSem_eq ⟨10, by decide⟩ rfl _) [] (Steps.mayWait_nil c _) _) $$ [cBcS1_4 HO aBcS1_4]
  · iframe HRec Hlev cBcS1_4 HO aBcS1_4
  iintro ⟨HO, aBcS1_4, Q1_4⟩
  sl_exec
  iapply (Steps.wait_bcs m K c 1 5 (by decide) (Steps.bcSendSem_eq ⟨11, by decide⟩ rfl _) [] (Steps.mayWait_nil c _) _) $$ [cBcS1_5 HO aBcS1_5]
  · iframe HRec Hlev cBcS1_5 HO aBcS1_5
  iintro ⟨HO, aBcS1_5, Q1_5⟩
  sl_exec
  iapply (Steps.wait_bcs m K c 1 6 (by decide) (Steps.bcSendSem_eq ⟨12, by decide⟩ rfl _) [] (Steps.mayWait_nil c _) _) $$ [cBcS1_6 HO aBcS1_6]
  · iframe HRec Hlev cBcS1_6 HO aBcS1_6
  iintro ⟨HO, aBcS1_6, Q1_6⟩
  sl_exec
  iapply (Steps.wait_bcs m K c 1 7 (by decide) (Steps.bcSendSem_eq ⟨13, by decide⟩ rfl _) [] (Steps.mayWait_nil c _) _) $$ [cBcS1_7 HO aBcS1_7]
  · iframe HRec Hlev cBcS1_7 HO aBcS1_7
  iintro ⟨HO, aBcS1_7, Q1_7⟩
  sl_exec
  iapply (Steps.wait_yos m K c 0 [] _ (Steps.mayWait_nil c _)) $$ [cYoS0 HO aYoS0]
  · iframe HRec Hlev cYoS0 HO aYoS0
  iintro ⟨HO, aYoS0, B7_0⟩
  sl_exec
  iapply (Steps.wait_yls m K c 0 [] _ (Steps.mayWait_nil c _)) $$ [cYlS0 HO aYlS0]
  · iframe HRec Hlev cYlS0 HO aYlS0
  iintro ⟨HO, aYlS0, B9L_0⟩
  sl_exec
  iapply (Steps.wait_yos m K c 1 [] _ (Steps.mayWait_nil c _)) $$ [cYoS1 HO aYoS1]
  · iframe HRec Hlev cYoS1 HO aYoS1
  iintro ⟨HO, aYoS1, B7_1⟩
  sl_exec
  iapply (Steps.wait_yls m K c 1 [] _ (Steps.mayWait_nil c _)) $$ [cYlS1 HO aYlS1]
  · iframe HRec Hlev cYlS1 HO aYlS1
  iintro ⟨HO, aYlS1, B9L_1⟩
  sl_exec
  iapply (Steps.wait_yos m K c 2 [] _ (Steps.mayWait_nil c _)) $$ [cYoS2 HO aYoS2]
  · iframe HRec Hlev cYoS2 HO aYoS2
  iintro ⟨HO, aYoS2, B7_2⟩
  sl_exec
  iapply (Steps.wait_yls m K c 2 [] _ (Steps.mayWait_nil c _)) $$ [cYlS2 HO aYlS2]
  · iframe HRec Hlev cYlS2 HO aYlS2
  iintro ⟨HO, aYlS2, B9L_2⟩
  sl_exec
  iapply (Steps.wait_yos m K c 3 [] _ (Steps.mayWait_nil c _)) $$ [cYoS3 HO aYoS3]
  · iframe HRec Hlev cYoS3 HO aYoS3
  iintro ⟨HO, aYoS3, B7_3⟩
  sl_exec
  iapply (Steps.wait_yls m K c 3 [] _ (Steps.mayWait_nil c _)) $$ [cYlS3 HO aYlS3]
  · iframe HRec Hlev cYlS3 HO aYlS3
  iintro ⟨HO, aYlS3, B9L_3⟩

  imod (Steps.close_yoSend m K c 0) $$ [aYoS0] with zYoS0
  · iframe HRec aYoS0
  imod (Steps.close_yoRecv m K c 0) $$ [aYoR0] with zYoR0
  · iframe HRec aYoR0
  imod (Steps.close_ylSend m K c 0) $$ [aYlS0] with zYlS0
  · iframe HRec aYlS0
  imod (Steps.close_ylRecv m K c 0) $$ [aYlR0] with zYlR0
  · iframe HRec aYlR0
  imod (Steps.close_yoSend m K c 1) $$ [aYoS1] with zYoS1
  · iframe HRec aYoS1
  imod (Steps.close_yoRecv m K c 1) $$ [aYoR1] with zYoR1
  · iframe HRec aYoR1
  imod (Steps.close_ylSend m K c 1) $$ [aYlS1] with zYlS1
  · iframe HRec aYlS1
  imod (Steps.close_ylRecv m K c 1) $$ [aYlR1] with zYlR1
  · iframe HRec aYlR1
  imod (Steps.close_yoSend m K c 2) $$ [aYoS2] with zYoS2
  · iframe HRec aYoS2
  imod (Steps.close_yoRecv m K c 2) $$ [aYoR2] with zYoR2
  · iframe HRec aYoR2
  imod (Steps.close_ylSend m K c 2) $$ [aYlS2] with zYlS2
  · iframe HRec aYlS2
  imod (Steps.close_ylRecv m K c 2) $$ [aYlR2] with zYlR2
  · iframe HRec aYlR2
  imod (Steps.close_yoSend m K c 3) $$ [aYoS3] with zYoS3
  · iframe HRec aYoS3
  imod (Steps.close_yoRecv m K c 3) $$ [aYoR3] with zYoR3
  · iframe HRec aYoR3
  imod (Steps.close_ylSend m K c 3) $$ [aYlS3] with zYlS3
  · iframe HRec aYlS3
  imod (Steps.close_ylRecv m K c 3) $$ [aYlR3] with zYlR3
  · iframe HRec aYlR3
  imod (Steps.close_bcSend m K c ⟨0, by decide⟩) $$ [aBcS0_1] with zBcS0_1
  · iframe HRec aBcS0_1
  imod (Steps.close_bcSend m K c ⟨1, by decide⟩) $$ [aBcS0_2] with zBcS0_2
  · iframe HRec aBcS0_2
  imod (Steps.close_bcSend m K c ⟨2, by decide⟩) $$ [aBcS0_3] with zBcS0_3
  · iframe HRec aBcS0_3
  imod (Steps.close_bcSend m K c ⟨3, by decide⟩) $$ [aBcS0_4] with zBcS0_4
  · iframe HRec aBcS0_4
  imod (Steps.close_bcSend m K c ⟨4, by decide⟩) $$ [aBcS0_5] with zBcS0_5
  · iframe HRec aBcS0_5
  imod (Steps.close_bcSend m K c ⟨5, by decide⟩) $$ [aBcS0_6] with zBcS0_6
  · iframe HRec aBcS0_6
  imod (Steps.close_bcSend m K c ⟨6, by decide⟩) $$ [aBcS0_7] with zBcS0_7
  · iframe HRec aBcS0_7
  imod (Steps.close_bcSend m K c ⟨7, by decide⟩) $$ [aBcS1_1] with zBcS1_1
  · iframe HRec aBcS1_1
  imod (Steps.close_bcSend m K c ⟨8, by decide⟩) $$ [aBcS1_2] with zBcS1_2
  · iframe HRec aBcS1_2
  imod (Steps.close_bcSend m K c ⟨9, by decide⟩) $$ [aBcS1_3] with zBcS1_3
  · iframe HRec aBcS1_3
  imod (Steps.close_bcSend m K c ⟨10, by decide⟩) $$ [aBcS1_4] with zBcS1_4
  · iframe HRec aBcS1_4
  imod (Steps.close_bcSend m K c ⟨11, by decide⟩) $$ [aBcS1_5] with zBcS1_5
  · iframe HRec aBcS1_5
  imod (Steps.close_bcSend m K c ⟨12, by decide⟩) $$ [aBcS1_6] with zBcS1_6
  · iframe HRec aBcS1_6
  imod (Steps.close_bcSend m K c ⟨13, by decide⟩) $$ [aBcS1_7] with zBcS1_7
  · iframe HRec aBcS1_7
  imod (Steps.close_bcRecv_own m K c 0) $$ [aBcR0_0] with zBcR0_0
  · iframe HRec aBcR0_0
  imod (Steps.close_bcRecv m K c 0 (rj c 1)) $$ [aBcR0_1] with zBcR0_1
  · iframe HRec aBcR0_1
  imod (Steps.close_bcRecv m K c 0 (rj c 2)) $$ [aBcR0_2] with zBcR0_2
  · iframe HRec aBcR0_2
  imod (Steps.close_bcRecv m K c 0 (rj c 3)) $$ [aBcR0_3] with zBcR0_3
  · iframe HRec aBcR0_3
  imod (Steps.close_bcRecv m K c 0 (rj c 4)) $$ [aBcR0_4] with zBcR0_4
  · iframe HRec aBcR0_4
  imod (Steps.close_bcRecv m K c 0 (rj c 5)) $$ [aBcR0_5] with zBcR0_5
  · iframe HRec aBcR0_5
  imod (Steps.close_bcRecv m K c 0 (rj c 6)) $$ [aBcR0_6] with zBcR0_6
  · iframe HRec aBcR0_6
  imod (Steps.close_bcRecv m K c 0 (rj c 7)) $$ [aBcR0_7] with zBcR0_7
  · iframe HRec aBcR0_7
  imod (Steps.close_bcRecv_own m K c 1) $$ [aBcR1_0] with zBcR1_0
  · iframe HRec aBcR1_0
  imod (Steps.close_bcRecv m K c 1 (rj c 1)) $$ [aBcR1_1] with zBcR1_1
  · iframe HRec aBcR1_1
  imod (Steps.close_bcRecv m K c 1 (rj c 2)) $$ [aBcR1_2] with zBcR1_2
  · iframe HRec aBcR1_2
  imod (Steps.close_bcRecv m K c 1 (rj c 3)) $$ [aBcR1_3] with zBcR1_3
  · iframe HRec aBcR1_3
  imod (Steps.close_bcRecv m K c 1 (rj c 4)) $$ [aBcR1_4] with zBcR1_4
  · iframe HRec aBcR1_4
  imod (Steps.close_bcRecv m K c 1 (rj c 5)) $$ [aBcR1_5] with zBcR1_5
  · iframe HRec aBcR1_5
  imod (Steps.close_bcRecv m K c 1 (rj c 6)) $$ [aBcR1_6] with zBcR1_6
  · iframe HRec aBcR1_6
  imod (Steps.close_bcRecv m K c 1 (rj c 7)) $$ [aBcR1_7] with zBcR1_7
  · iframe HRec aBcR1_7
  sl_exec
  sl_step
  iapply HK
  unfold bodyPost
  isplitl [H0 H1 H2 B7_0 B7_1 B7_2 B7_3 E8_0 E8_1 E8_2 E8_3 B9L_0 B9R_0 B9L_1 B9R_1 B9L_2 B9R_2 B9L_3 B9R_3 E10_0 E10_1 E10_2 E10_3 Q0_1 Q0_2 Q0_3 Q0_4 Q0_5 Q0_6 Q0_7 Q1_1 Q1_2 Q1_3 Q1_4 Q1_5 Q1_6 Q1_7 F0_1 F0_2 F0_3 F0_4 F0_5 F0_6 F0_7 F1_1 F1_2 F1_3 F1_4 F1_5 F1_6 F1_7 Hk Hv z2 z3 z4 z5 z6 z7 z8 z9 z10 z11 z12 z13 z14 z15 z16 z17 zYoS0 zYoS1 zYoS2 zYoS3 zYoR0 zYoR1 zYoR2 zYoR3 zYlS0 zYlS1 zYlS2 zYlS3 zYlR0 zYlR1 zYlR2 zYlR3 zBcS0_1 zBcS0_2 zBcS0_3 zBcS0_4 zBcS0_5 zBcS0_6 zBcS0_7 zBcS1_1 zBcS1_2 zBcS1_3 zBcS1_4 zBcS1_5 zBcS1_6 zBcS1_7 zBcR0_0 zBcR0_1 zBcR0_2 zBcR0_3 zBcR0_4 zBcR0_5 zBcR0_6 zBcR0_7 zBcR1_0 zBcR1_1 zBcR1_2 zBcR1_3 zBcR1_4 zBcR1_5 zBcR1_6 zBcR1_7]
  · iapply (Steps.assemble_phi1 m c)
    isplitl [H0]; · iexists _; iexact H0
    isplitl [H1]; · iexists _; iexact H1
    isplitl [H2]; · iexists _; iexact H2
    isplitl [B7_0]; · iexact B7_0
    isplitl [B7_1]; · iexact B7_1
    isplitl [B7_2]; · iexact B7_2
    isplitl [B7_3]; · iexact B7_3
    isplitl [E8_0]; · iexact E8_0
    isplitl [E8_1]; · iexact E8_1
    isplitl [E8_2]; · iexact E8_2
    isplitl [E8_3]; · iexact E8_3
    isplitl [B9L_0]; · iexact B9L_0
    isplitl [B9R_0]; · iexact B9R_0
    isplitl [B9L_1]; · iexact B9L_1
    isplitl [B9R_1]; · iexact B9R_1
    isplitl [B9L_2]; · iexact B9L_2
    isplitl [B9R_2]; · iexact B9R_2
    isplitl [B9L_3]; · iexact B9L_3
    isplitl [B9R_3]; · iexact B9R_3
    isplitl [E10_0]; · iexact E10_0
    isplitl [E10_1]; · iexact E10_1
    isplitl [E10_2]; · iexact E10_2
    isplitl [E10_3]; · iexact E10_3
    isplitl [Q0_1]; · iexact Q0_1
    isplitl [Q0_2]; · iexact Q0_2
    isplitl [Q0_3]; · iexact Q0_3
    isplitl [Q0_4]; · iexact Q0_4
    isplitl [Q0_5]; · iexact Q0_5
    isplitl [Q0_6]; · iexact Q0_6
    isplitl [Q0_7]; · iexact Q0_7
    isplitl [Q1_1]; · iexact Q1_1
    isplitl [Q1_2]; · iexact Q1_2
    isplitl [Q1_3]; · iexact Q1_3
    isplitl [Q1_4]; · iexact Q1_4
    isplitl [Q1_5]; · iexact Q1_5
    isplitl [Q1_6]; · iexact Q1_6
    isplitl [Q1_7]; · iexact Q1_7
    isplitl [F0_1]; · iexact F0_1
    isplitl [F0_2]; · iexact F0_2
    isplitl [F0_3]; · iexact F0_3
    isplitl [F0_4]; · iexact F0_4
    isplitl [F0_5]; · iexact F0_5
    isplitl [F0_6]; · iexact F0_6
    isplitl [F0_7]; · iexact F0_7
    isplitl [F1_1]; · iexact F1_1
    isplitl [F1_2]; · iexact F1_2
    isplitl [F1_3]; · iexact F1_3
    isplitl [F1_4]; · iexact F1_4
    isplitl [F1_5]; · iexact F1_5
    isplitl [F1_6]; · iexact F1_6
    isplitl [F1_7]; · iexact F1_7
    isplitl [Hk]; · iexact Hk
    isplitl [Hv]; · iexact Hv
    isplitl [z2]; · iexact z2
    isplitl [z3]; · iexact z3
    isplitl [z4]; · iexact z4
    isplitl [z5]; · iexact z5
    isplitl [z6]; · iexact z6
    isplitl [z7]; · iexact z7
    isplitl [z8]; · iexact z8
    isplitl [z9]; · iexact z9
    isplitl [z10]; · iexact z10
    isplitl [z11]; · iexact z11
    isplitl [z12]; · iexact z12
    isplitl [z13]; · iexact z13
    isplitl [z14]; · iexact z14
    isplitl [z15]; · iexact z15
    isplitl [z16]; · iexact z16
    isplitl [z17]; · iexact z17
    isplitl [zYoS0]; · iexact zYoS0
    isplitl [zYoS1]; · iexact zYoS1
    isplitl [zYoS2]; · iexact zYoS2
    isplitl [zYoS3]; · iexact zYoS3
    isplitl [zYoR0]; · iexact zYoR0
    isplitl [zYoR1]; · iexact zYoR1
    isplitl [zYoR2]; · iexact zYoR2
    isplitl [zYoR3]; · iexact zYoR3
    isplitl [zYlS0]; · iexact zYlS0
    isplitl [zYlS1]; · iexact zYlS1
    isplitl [zYlS2]; · iexact zYlS2
    isplitl [zYlS3]; · iexact zYlS3
    isplitl [zYlR0]; · iexact zYlR0
    isplitl [zYlR1]; · iexact zYlR1
    isplitl [zYlR2]; · iexact zYlR2
    isplitl [zYlR3]; · iexact zYlR3
    isplitl [zBcS0_1]; · iexact zBcS0_1
    isplitl [zBcS0_2]; · iexact zBcS0_2
    isplitl [zBcS0_3]; · iexact zBcS0_3
    isplitl [zBcS0_4]; · iexact zBcS0_4
    isplitl [zBcS0_5]; · iexact zBcS0_5
    isplitl [zBcS0_6]; · iexact zBcS0_6
    isplitl [zBcS0_7]; · iexact zBcS0_7
    isplitl [zBcS1_1]; · iexact zBcS1_1
    isplitl [zBcS1_2]; · iexact zBcS1_2
    isplitl [zBcS1_3]; · iexact zBcS1_3
    isplitl [zBcS1_4]; · iexact zBcS1_4
    isplitl [zBcS1_5]; · iexact zBcS1_5
    isplitl [zBcS1_6]; · iexact zBcS1_6
    isplitl [zBcS1_7]; · iexact zBcS1_7
    isplitl [zBcR0_0]; · iexact zBcR0_0
    isplitl [zBcR0_1]; · iexact zBcR0_1
    isplitl [zBcR0_2]; · iexact zBcR0_2
    isplitl [zBcR0_3]; · iexact zBcR0_3
    isplitl [zBcR0_4]; · iexact zBcR0_4
    isplitl [zBcR0_5]; · iexact zBcR0_5
    isplitl [zBcR0_6]; · iexact zBcR0_6
    isplitl [zBcR0_7]; · iexact zBcR0_7
    isplitl [zBcR1_0]; · iexact zBcR1_0
    isplitl [zBcR1_1]; · iexact zBcR1_1
    isplitl [zBcR1_2]; · iexact zBcR1_2
    isplitl [zBcR1_3]; · iexact zBcR1_3
    isplitl [zBcR1_4]; · iexact zBcR1_4
    isplitl [zBcR1_5]; · iexact zBcR1_5
    isplitl [zBcR1_6]; · iexact zBcR1_6
    iexact zBcR1_7
  isplitl [HO]; · iexists _; iexact HO
  isplitl [Hq]; · iexact Hq
  ihave Ho := (restate_whole c cc0_stg1_0 _ (Vals.out m c)) $$ Ho
  ispecialize Ho $$ %(by
    sl_unfold_run_names
    rw [Steps.read8_0 m c, Steps.read8_1 m c, Steps.read10_0 m c, Steps.read10_1 m c, Steps.read9r_0 m c, Steps.read9r_1 m c, Steps.omHalf_readCov0 m c _ _ _ _ ?_ ?_ ?_ ?_]
    rw [Steps.read8_2 m c, Steps.read8_3 m c, Steps.read10_2 m c, Steps.read10_3 m c, Steps.read9r_2 m c, Steps.read9r_3 m c, Steps.omHalf_readCov1 m c _ _ _ _ ?_ ?_ ?_ ?_]
    rw [Steps.read11r m c 0 ((1 : Fin 8) : Fin 8).val (by decide) _ (off31_eq_1 c), Steps.read11r m c 0 ((2 : Fin 8) : Fin 8).val (by decide) _ (off31_eq_2 c), Steps.read11r m c 0 ((3 : Fin 8) : Fin 8).val (by decide) _ (off31_eq_3 c), Steps.read11r m c 0 ((4 : Fin 8) : Fin 8).val (by decide) _ (off31_eq_4 c), Steps.read11r m c 0 ((5 : Fin 8) : Fin 8).val (by decide) _ (off31_eq_5 c), Steps.read11r m c 0 ((6 : Fin 8) : Fin 8).val (by decide) _ (off31_eq_6 c), Steps.read11r m c 0 ((7 : Fin 8) : Fin 8).val (by decide) _ (off31_eq_7 c), Steps.read11r m c 1 ((1 : Fin 8) : Fin 8).val (by decide) _ (off35_eq_1 c), Steps.read11r m c 1 ((2 : Fin 8) : Fin 8).val (by decide) _ (off35_eq_2 c), Steps.read11r m c 1 ((3 : Fin 8) : Fin 8).val (by decide) _ (off35_eq_3 c), Steps.read11r m c 1 ((4 : Fin 8) : Fin 8).val (by decide) _ (off35_eq_4 c), Steps.read11r m c 1 ((5 : Fin 8) : Fin 8).val (by decide) _ (off35_eq_5 c), Steps.read11r m c 1 ((6 : Fin 8) : Fin 8).val (by decide) _ (off35_eq_6 c), Steps.read11r m c 1 ((7 : Fin 8) : Fin 8).val (by decide) _ (off35_eq_7 c)]
    rw [OutValue.pay33_eq, OutValue.pay34_eq, OutValue.pay35_eq, OutValue.pay36_eq, OutValue.pay37_eq, OutValue.pay38_eq, OutValue.pay39_eq, OutValue.pay40_eq, OutValue.pay41_eq, OutValue.pay42_eq, OutValue.pay43_eq, OutValue.pay44_eq, OutValue.pay45_eq, OutValue.pay30_eq]
    all_goals (first | exact OutValue.out_writes m c fo | rfl | (rw [SlabValue.slab_K_0 m c f0 _ _ _ _ , SlabValue.slab_V_0 m c f1 _ _ _ _ , SlabValue.read_q_0 m c]; rfl) | (rw [SlabValue.slab_K_1 m c f0 _ _ _ _ _ _ _ _ , SlabValue.slab_V_1 m c f1 _ _ _ _ _ _ _ _ , SlabValue.read_q_1 m c]; rfl) | (rw [SlabValue.slab_K_2 m c f0 _ _ _ _ _ _ _ _ _ _ _ _ , SlabValue.slab_V_2 m c f1 _ _ _ _ _ _ _ _ _ _ _ _ , SlabValue.read_q_2 m c]; rfl) | (rw [SlabValue.slab_K_3 m c f0 _ _ _ _ _ _ _ _ _ _ _ _ , SlabValue.slab_V_3 m c f1 _ _ _ _ _ _ _ _ _ _ _ _ , SlabValue.read_q_3 m c]; rfl)))
  iexact Ho

theorem body_obligation (c : Dev nD) : BodyObligation (Iface.dats (F := F) m 0 c) (defs₀ (F := F)) Proto.𝒱₀ () Set.univ :=
  Cert.KernelIdeal.BodyWrap.body_obligation_of (fun m K c Kt W₀ => sound_body m K c Kt W₀) m c

end Cert.KernelIdeal.Body

end
-- ==== Proof.MeshMoreK.lean ====
import proofs.«900787_g7700000000000788_dist_flashdec_v7x_xyz2x2x4_y_b8_sq8_skv1024_h16_d128_f32_1_alg».proof.Proof.MeshK

set_option Elab.async false

namespace Cert.Kernel.Mesh

open Idealize.ShloMosaic Cert.Kernel Cert.Kernel.Gen

theorem plane_ring_pOf (c : Dev nD) (d : Fin 8) : plane (ring c d.val) (pOf c) = c := by revert c d; decide

theorem pOf_ne_pOf_ring (c : Dev nD) (d : Fin 8) (hd : d.val ≠ 0) : pOf c ≠ pOf (ring c d.val) := by revert c d; decide

theorem ne_ynbr_ring (c : Dev nD) (d : Fin 8) : c ≠ ynbr (ring c d.val) := by revert c d; decide

theorem rj_zero (c : Dev nD) : (pOf c + 0) % 8 = pOf c := by revert c; decide

theorem rj_ne (c : Dev nD) (d : Fin 8) (hd : d.val ≠ 0) : (pOf c + d.val) % 8 ≠ pOf c := by revert c d; decide

theorem plane_rj (c : Dev nD) (d : Fin 8) : plane c ((pOf c + d.val) % 8) = ring c d.val := by revert c d; decide

def barList (c : Dev nD) : List (Dev nD) := [ynbr c, ring c 1, ring c 2, ring c 3, ring c 4, ring c 5, ring c 6, ring c 7]
theorem barList_nodup (c : Dev nD) : (barList c).Nodup := by revert c; decide
theorem barList_length (c : Dev nD) : (barList c).length = 8 := rfl

theorem barList_toFinset (c : Dev nD) :
    insert (ynbr c) (((Finset.univ : Finset (Fin 8)).image fun d => ring c d.val).erase c) = (barList c).toFinset := by
  revert c; decide

end Cert.Kernel.Mesh
-- ==== Proof.TablesK.lean ====
import proofs.«900787_g7700000000000788_dist_flashdec_v7x_xyz2x2x4_y_b8_sq8_skv1024_h16_d128_f32_1_alg».proof.Proof.IfaceK
import proofs.«900787_g7700000000000788_dist_flashdec_v7x_xyz2x2x4_y_b8_sq8_skv1024_h16_d128_f32_1_alg».proof.Proof.MeshMoreK

noncomputable section

namespace Cert.Kernel.Tables

open Cert.Kernel Cert.Kernel.Gen Cert.Kernel.Mesh Cert.Kernel.Proto Cert.Kernel.Iface
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem duties_def (g : GSem nD τ sig) (r : ℕ) :
    (RdM m).duties g r = if r = 0 ∧ g.1.2 = .tc then payers g.1.1 (kindOf g.2) else ∅ := rfl
theorem duties_at (c : Dev nD) (s : SemLoc sig) : (RdM m).duties ((c : Thread nD τ), s) 0 = payers c (kindOf s) := by
  rw [duties_def]; exact if_pos ⟨rfl, rfl⟩
theorem amount_at (c e : Dev nD) (s : SemLoc sig) (r : ℕ) : (RdM m).amount ((c : Thread nD τ), s) r e = amt (kindOf s) := rfl
theorem payload_at (c e : Dev nD) (s : SemLoc sig) (r : ℕ) :
    (RdM m).payload ((c : Thread nD τ), s) r e = pay (Vals.landed m) c e (kindOf s) := rfl

theorem duties_bar (c : Dev nD) : (RdM m).duties (barCell c) 0 = (barList c).toFinset := by
  rw [duties_at, kindOf_bar]; exact barList_toFinset c
theorem duties_yoSend (g : Fin 4) (c : Dev nD) : (RdM m).duties (yoSendCell g c) 0 = {c} := by rw [duties_at, kindOf_yoSend]; rfl
theorem duties_ylSend (g : Fin 4) (c : Dev nD) : (RdM m).duties (ylSendCell g c) 0 = {c} := by rw [duties_at, kindOf_ylSend]; rfl
theorem duties_bcSend (i : Fin 14) (c : Dev nD) : (RdM m).duties (bcSendCell i c) 0 = {c} := by rw [duties_at, kindOf_bcSend]; rfl
theorem duties_yoRecv (g : Fin 4) (c : Dev nD) : (RdM m).duties (yoRecvCell g c) 0 = {ynbr c} := by rw [duties_at, kindOf_yoRecv]; rfl
theorem duties_ylRecv (g : Fin 4) (c : Dev nD) : (RdM m).duties (ylRecvCell g c) 0 = {ynbr c} := by rw [duties_at, kindOf_ylRecv]; rfl

theorem duties_bcRecv (h : Fin 2) (j : Fin 8) (c : Dev nD) (hj : j.val ≠ pOf c) : (RdM m).duties (bcRecvCell h j c) 0 = {plane c j.val} := by
  rw [duties_at, kindOf_bcRecv]; exact if_neg hj

theorem duties_bcRecv_rj (h : Fin 2) (c : Dev nD) (d : Fin 8) (hd : d.val ≠ 0) : (RdM m).duties (bcRecvCell h (rj c d.val) c) 0 = {ring c d.val} := by
  rw [duties_bcRecv m h (rj c d.val) c (rj_ne c d hd)]; exact congrArg _ (plane_rj c d)

theorem mem_bar_ynbr (c : Dev nD) : c ∈ (RdM m).duties (barCell (ynbr c)) 0 := by
  rw [duties_at, kindOf_bar]; exact Finset.mem_insert.mpr (Or.inl (ynbr_ynbr c).symm)
theorem mem_bar_ring (c : Dev nD) (d : Fin 8) (hd : d.val ≠ 0) : c ∈ (RdM m).duties (barCell (ring c d.val)) 0 := by
  rw [duties_at, kindOf_bar]
  exact Finset.mem_insert_of_mem (Finset.mem_erase.mpr ⟨(ring_ne c d hd).symm,
    Finset.mem_image.mpr ⟨⟨8 - d.val, by have := d.isLt; omega⟩, Finset.mem_univ _, ring_ring c d⟩⟩)
theorem mem_yoSend (g : Fin 4) (c : Dev nD) : c ∈ (RdM m).duties (yoSendCell g c) 0 := by rw [duties_yoSend]; exact Finset.mem_singleton_self c
theorem mem_ylSend (g : Fin 4) (c : Dev nD) : c ∈ (RdM m).duties (ylSendCell g c) 0 := by rw [duties_ylSend]; exact Finset.mem_singleton_self c
theorem mem_bcSend (i : Fin 14) (c : Dev nD) : c ∈ (RdM m).duties (bcSendCell i c) 0 := by rw [duties_bcSend]; exact Finset.mem_singleton_self c
theorem mem_yoRecv (g : Fin 4) (c : Dev nD) : c ∈ (RdM m).duties (yoRecvCell g (ynbr c)) 0 := by
  rw [duties_yoRecv, ynbr_ynbr]; exact Finset.mem_singleton_self c
theorem mem_ylRecv (g : Fin 4) (c : Dev nD) : c ∈ (RdM m).duties (ylRecvCell g (ynbr c)) 0 := by
  rw [duties_ylRecv, ynbr_ynbr]; exact Finset.mem_singleton_self c
theorem mem_bcRecv (h : Fin 2) (c : Dev nD) (d : Fin 8) (hd : d.val ≠ 0) : c ∈ (RdM m).duties (bcRecvCell h (pFin c) (ring c d.val)) 0 := by
  rw [duties_bcRecv m h (pFin c) (ring c d.val) (pOf_ne_pOf_ring c d hd)]
  exact Finset.mem_singleton.mpr (plane_ring_pOf c d).symm

theorem amount_bar (c e : Dev nD) : (RdM m).amount (barCell c) 0 e = 1 := rfl
theorem amount_yoSend (g : Fin 4) (c e : Dev nD) : (RdM m).amount (yoSendCell g c) 0 e = No := by rw [amount_at, kindOf_yoSend]; rfl
theorem amount_yoRecv (g : Fin 4) (c e : Dev nD) : (RdM m).amount (yoRecvCell g c) 0 e = No := by rw [amount_at, kindOf_yoRecv]; rfl
theorem amount_ylSend (g : Fin 4) (c e : Dev nD) : (RdM m).amount (ylSendCell g c) 0 e = Nl := by rw [amount_at, kindOf_ylSend]; rfl
theorem amount_ylRecv (g : Fin 4) (c e : Dev nD) : (RdM m).amount (ylRecvCell g c) 0 e = Nl := by rw [amount_at, kindOf_ylRecv]; rfl
theorem amount_bcSend (i : Fin 14) (c e : Dev nD) : (RdM m).amount (bcSendCell i c) 0 e = Nb := by rw [amount_at, kindOf_bcSend]; rfl
theorem amount_bcRecv (h : Fin 2) (j : Fin 8) (c e : Dev nD) : (RdM m).amount (bcRecvCell h j c) 0 e = Nb := by rw [amount_at, kindOf_bcRecv]; rfl

theorem payload_bar_ynbr (c : Dev nD) : (RdM m).payload (barCell (ynbr c)) 0 c = payBarY c :=
  if_pos (ynbr_ynbr c).symm
theorem payload_bar_ring (c : Dev nD) (d : Fin 8) (hd : d.val ≠ 0) : (RdM m).payload (barCell (ring c d.val)) 0 c = payBarR (ring c d.val) c :=
  if_neg (ne_ynbr_ring c d)
theorem payload_yoSend (g : Fin 4) (c e : Dev nD) :
    (RdM m).payload (yoSendCell g c) 0 e = ((obSrc g).view.loc (c : Thread nD τ) ↦[(obSrc g).view.set]{fullShare} Vals.ob m c : sProp 𝕄) := by
  rw [payload_at, kindOf_yoSend]; rfl
theorem payload_ylSend (g : Fin 4) (c e : Dev nD) :
    (RdM m).payload (ylSendCell g c) 0 e = ((lbSrc g).view.loc (c : Thread nD τ) ↦[(lbSrc g).view.set]{fullShare.left} Vals.lb m c : sProp 𝕄) := by
  rw [payload_at, kindOf_ylSend]; rfl
theorem payload_yoRecv (g : Fin 4) (c e : Dev nD) :
    (RdM m).payload (yoRecvCell g c) 0 e = ((obDst g).view.loc (c : Thread nD τ) ↦[(obDst g).view.set]{fullShare} Vals.ob m e : sProp 𝕄) := by
  rw [payload_at, kindOf_yoRecv]; rfl
theorem payload_ylRecv (g : Fin 4) (c e : Dev nD) :
    (RdM m).payload (ylRecvCell g c) 0 e = ((lbDst g).view.loc (c : Thread nD τ) ↦[(lbDst g).view.set]{fullShare} Vals.lb m e : sProp 𝕄) := by
  rw [payload_at, kindOf_ylRecv]; rfl

theorem pay_bcSend_eq (V : Landed F) (c e : Dev nD) (i : Fin 14) (h : Fin 2) (d : Fin 8) (hh : i.val / 7 = h.val) (hd : i.val % 7 + 1 = d.val) :
    pay V c e (.bcSend i) = ((bfView c h).view.loc (c : Thread nD τ) ↦[(bfView c h).view.set]{bcShare d} V.bf c : sProp 𝕄) := by
  obtain ⟨hv, hlt⟩ := h; obtain ⟨dv, dlt⟩ := d
  have hh' : i.val / 7 = hv := hh
  have hd' : i.val % 7 + 1 = dv := hd
  subst hh'; subst hd'; rfl

theorem payload_bcSend (h : Fin 2) (d : Fin 8) (hd : d.val ≠ 0) (c e : Dev nD) :
    (RdM m).payload (bcSendCell ⟨7 * h.val + d.val - 1, by have := h.isLt; have := d.isLt; omega⟩ c) 0 e
      = ((bfView c h).view.loc (c : Thread nD τ) ↦[(bfView c h).view.set]{bcShare d} Vals.bf m c : sProp 𝕄) := by
  rw [payload_at, kindOf_bcSend]
  exact pay_bcSend_eq (Vals.landed m) c e _ h d
    (by have := h.isLt; have := d.isLt; show (7 * h.val + d.val - 1) / 7 = h.val; omega)
    (by have := h.isLt; have := d.isLt; show (7 * h.val + d.val - 1) % 7 + 1 = d.val; omega)
theorem payload_bcRecv (h : Fin 2) (j : Fin 8) (c e : Dev nD) :
    (RdM m).payload (bcRecvCell h j c) 0 e = ((bfView e h).view.loc (c : Thread nD τ) ↦[(bfView e h).view.set]{fullShare} Vals.bf m e : sProp 𝕄) := by
  rw [payload_at, kindOf_bcRecv]; rfl

theorem expect_bar (c : Dev nD) : (RdM m).expect (barCell c) 0 = 8 := by
  unfold Schedule.expect Schedule.amountOf
  rw [duties_bar, Finset.sum_congr rfl fun e _ => amount_bar m c e, Finset.sum_const, List.toFinset_card_of_nodup (barList_nodup c), barList_length, smul_eq_mul]
theorem rest_bar (c : Dev nD) :
    bigSep ((RdM m).duties (barCell c) 0 \ ∅) (fun e => (RdM m).payload (barCell c) 0 e)
      = iprop(payBarY (ynbr c) ∗ payBarR c (ring c 1) ∗ payBarR c (ring c 2) ∗ payBarR c (ring c 3) ∗ payBarR c (ring c 4) ∗ payBarR c (ring c 5) ∗ payBarR c (ring c 6) ∗ payBarR c (ring c 7)) := by
  have hy : (RdM m).payload (barCell c) 0 (ynbr c) = payBarY (ynbr c) := if_pos rfl
  have hr : ∀ (k : ℕ) (hk : k < 8), (RdM m).payload (barCell c) 0 (ring c k) = payBarR c (ring c k) := fun k hk =>
    if_neg (ring_ne_ynbr c ⟨k, hk⟩)
  rw [Finset.sdiff_empty, duties_bar, bigSep_eq_bigSepL _ (barList_nodup c)]
  show iprop((RdM m).payload (barCell c) 0 (ynbr c) ∗ (RdM m).payload (barCell c) 0 (ring c 1) ∗ (RdM m).payload (barCell c) 0 (ring c 2)
    ∗ (RdM m).payload (barCell c) 0 (ring c 3) ∗ (RdM m).payload (barCell c) 0 (ring c 4) ∗ (RdM m).payload (barCell c) 0 (ring c 5)
    ∗ (RdM m).payload (barCell c) 0 (ring c 6) ∗ (RdM m).payload (barCell c) 0 (ring c 7)) = _
  rw [hy, hr 1 (by decide), hr 2 (by decide), hr 3 (by decide), hr 4 (by decide), hr 5 (by decide), hr 6 (by decide), hr 7 (by decide)]
theorem expect_yoSend (g : Fin 4) (c : Dev nD) : (RdM m).expect (yoSendCell g c) 0 = No := by
  unfold Schedule.expect Schedule.amountOf; rw [duties_yoSend, Finset.sum_singleton, amount_yoSend]
theorem expect_ylSend (g : Fin 4) (c : Dev nD) : (RdM m).expect (ylSendCell g c) 0 = Nl := by
  unfold Schedule.expect Schedule.amountOf; rw [duties_ylSend, Finset.sum_singleton, amount_ylSend]
theorem expect_bcSend (i : Fin 14) (c : Dev nD) : (RdM m).expect (bcSendCell i c) 0 = Nb := by
  unfold Schedule.expect Schedule.amountOf; rw [duties_bcSend, Finset.sum_singleton, amount_bcSend]
theorem expect_yoRecv (g : Fin 4) (c : Dev nD) : (RdM m).expect (yoRecvCell g c) 0 = No := by
  unfold Schedule.expect Schedule.amountOf; rw [duties_yoRecv, Finset.sum_singleton, amount_yoRecv]
theorem expect_ylRecv (g : Fin 4) (c : Dev nD) : (RdM m).expect (ylRecvCell g c) 0 = Nl := by
  unfold Schedule.expect Schedule.amountOf; rw [duties_ylRecv, Finset.sum_singleton, amount_ylRecv]
theorem expect_bcRecv (h : Fin 2) (c : Dev nD) (d : Fin 8) (hd : d.val ≠ 0) : (RdM m).expect (bcRecvCell h (rj c d.val) c) 0 = Nb := by
  unfold Schedule.expect Schedule.amountOf; rw [duties_bcRecv_rj m h c d hd, Finset.sum_singleton, amount_bcRecv]
theorem rest_yoSend (g : Fin 4) (c : Dev nD) :
    bigSep ((RdM m).duties (yoSendCell g c) 0 \ ∅) (fun e => (RdM m).payload (yoSendCell g c) 0 e)
      = ((obSrc g).view.loc (c : Thread nD τ) ↦[(obSrc g).view.set]{fullShare} Vals.ob m c : sProp 𝕄) := by
  rw [Finset.sdiff_empty, duties_yoSend, bigSep_singleton, payload_yoSend]
theorem rest_ylSend (g : Fin 4) (c : Dev nD) :
    bigSep ((RdM m).duties (ylSendCell g c) 0 \ ∅) (fun e => (RdM m).payload (ylSendCell g c) 0 e)
      = ((lbSrc g).view.loc (c : Thread nD τ) ↦[(lbSrc g).view.set]{fullShare.left} Vals.lb m c : sProp 𝕄) := by
  rw [Finset.sdiff_empty, duties_ylSend, bigSep_singleton, payload_ylSend]
theorem rest_yoRecv (g : Fin 4) (c : Dev nD) :
    bigSep ((RdM m).duties (yoRecvCell g c) 0 \ ∅) (fun e => (RdM m).payload (yoRecvCell g c) 0 e)
      = ((obDst g).view.loc (c : Thread nD τ) ↦[(obDst g).view.set]{fullShare} Vals.ob m (ynbr c) : sProp 𝕄) := by
  rw [Finset.sdiff_empty, duties_yoRecv, bigSep_singleton, payload_yoRecv]
theorem rest_ylRecv (g : Fin 4) (c : Dev nD) :
    bigSep ((RdM m).duties (ylRecvCell g c) 0 \ ∅) (fun e => (RdM m).payload (ylRecvCell g c) 0 e)
      = ((lbDst g).view.loc (c : Thread nD τ) ↦[(lbDst g).view.set]{fullShare} Vals.lb m (ynbr c) : sProp 𝕄) := by
  rw [Finset.sdiff_empty, duties_ylRecv, bigSep_singleton, payload_ylRecv]
theorem rest_bcSend (h : Fin 2) (d : Fin 8) (hd : d.val ≠ 0) (c : Dev nD) :
    bigSep ((RdM m).duties (bcSendCell ⟨7 * h.val + d.val - 1, by have := h.isLt; have := d.isLt; omega⟩ c) 0 \ ∅)
        (fun e => (RdM m).payload (bcSendCell ⟨7 * h.val + d.val - 1, by have := h.isLt; have := d.isLt; omega⟩ c) 0 e)
      = ((bfView c h).view.loc (c : Thread nD τ) ↦[(bfView c h).view.set]{bcShare d} Vals.bf m c : sProp 𝕄) := by
  rw [Finset.sdiff_empty, duties_bcSend, bigSep_singleton, payload_bcSend m h d hd]

theorem rest_bcRecv (h : Fin 2) (c : Dev nD) (d : Fin 8) (hd : d.val ≠ 0) :
    bigSep ((RdM m).duties (bcRecvCell h (rj c d.val) c) 0 \ ∅) (fun e => (RdM m).payload (bcRecvCell h (rj c d.val) c) 0 e)
      = ((bfView (ring c d.val) h).view.loc (c : Thread nD τ) ↦[(bfView (ring c d.val) h).view.set]{fullShare} Vals.bf m (ring c d.val) : sProp 𝕄) := by
  rw [Finset.sdiff_empty, duties_bcRecv_rj m h c d hd, bigSep_singleton, payload_bcRecv]

theorem duties_bcRecv_own (h : Fin 2) (c : Dev nD) (r : ℕ) : (RdM m).duties (bcRecvCell h (rj c 0) c) r = ∅ := by
  rw [duties_def]
  split
  · show payers c (kindOf (.dma (bcRecvS h (rj c 0)))) = ∅
    rw [kindOf_bcRecv]; exact if_pos (rj_zero c)
  · rfl
theorem duties_later (g : GSem nD τ sig) (r : ℕ) (hr : 1 ≤ r) : (RdM m).duties g r = ∅ := by
  rw [duties_def]; exact if_neg fun h => by omega

end Cert.Kernel.Tables

end
-- ==== Proof.GeomK.lean ====
import proofs.«900787_g7700000000000788_dist_flashdec_v7x_xyz2x2x4_y_b8_sq8_skv1024_h16_d128_f32_1_alg».proof.Proof.IfaceK
import Idealize.ShloMosaic.Lib.Pipeline.Value
import Idealize.ShloMosaic.Lib.Ring

noncomputable section

namespace Cert.Kernel.Geom

open Cert.Kernel Cert.Kernel.Gen Cert.Kernel.Mesh Cert.Kernel.Proto Cert.Kernel.Iface
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

open Idealize.ShloMosaic.Ring

theorem inb7 (h : Fin 2) (j : Fin 8) : ∀ a, (![h.val, j.val, 0, 0, 0] : Fin 5 → Nat) a + S1x1x8x8x128.size a ≤ S2x8x8x8x128.size a := by
  revert h j; decide
abbrev slotSet (h : Fin 2) (j : Fin 8) : Finset S2x8x8x8x128.Idx :=
  (Rect.unit (s := S2x8x8x8x128) ![h.val, j.val, 0, 0, 0] S1x1x8x8x128.size (inb7 h j)).set

-- A slot is whole on the last three axes, so only the first two coordinates decide membership.
theorem mem_slotSet (h : Fin 2) (j : Fin 8) (i : S2x8x8x8x128.Idx) : i ∈ slotSet h j ↔ (i 0).val = h.val ∧ (i 1).val = j.val := by
  rw [slotSet, Rect.mem_set_unit]
  refine ⟨fun H => ⟨?_, ?_⟩, fun ⟨e0, e1⟩ a => ?_⟩
  · have : h.val ≤ (i 0).val ∧ (i 0).val < h.val + 1 := H 0
    omega
  · have : j.val ≤ (i 1).val ∧ (i 1).val < j.val + 1 := H 1
    omega
  · match a with
    | ⟨0, _⟩ => show h.val ≤ (i 0).val ∧ (i 0).val < h.val + 1; omega
    | ⟨1, _⟩ => show j.val ≤ (i 1).val ∧ (i 1).val < j.val + 1; omega
    | ⟨2, _⟩ => exact ⟨Nat.zero_le _, (Nat.zero_add 8).symm ▸ (i 2).isLt⟩
    | ⟨3, _⟩ => exact ⟨Nat.zero_le _, (Nat.zero_add 8).symm ▸ (i 3).isLt⟩
    | ⟨4, _⟩ => exact ⟨Nat.zero_le _, (Nat.zero_add 128).symm ▸ (i 4).isLt⟩

theorem bfOff_eq (e : Dev nD) : ∀ h : Fin 2, bfOff e h = ![h.val, pOf e, 0, 0, 0]
  | 0 => off24_eq e
  | 1 => off28_eq e

theorem set_bfView (e : Dev nD) (h : Fin 2) : (bfView e h).view.set = slotSet h ⟨pOf e, pOf_lt e⟩ :=
  ((View.set_reshape _ _).trans (View.set_slice_whole _ _)).trans
    (congrArg (fun r : Rect S2x8x8x8x128 => r.set) (Rect.unit_congr (bfOff_eq e h) _ _))

abbrev peers (c : Dev nD) : Fin 8 → Dev nD := ![c, ring c 1, ring c 2, ring c 3, ring c 4, ring c 5, ring c 6, ring c 7]

theorem pOf_peers (c : Dev nD) (d : Fin 8) : pOf (peers c d) = (pOf c + d.val) % 8 := by
  refine Eq.trans ?_ (pOf_ring c d)
  match d with
  | 0 => exact congrArg pOf (plane_pOf c : ring c 0 = c).symm
  | 1 | 2 | 3 | 4 | 5 | 6 | 7 => rfl

abbrev slots (c : Dev nD) (b : Fin 8 × Fin 2) :
    Finset (Idx ((Memref.whole cc0_scratch7 : Memref sig .tc _ _ _).view.loc (c : Thread nD τ))) :=
  (bfView (peers c b.1) b.2).view.set

-- Step `d`, half `h` names the slot of half `h` at the ring position `d` ahead of `c`'s: sixteen different slots.
theorem mem_slots (c : Dev nD) (b : Fin 8 × Fin 2) (i : S2x8x8x8x128.Idx) :
    i ∈ slots c b ↔ (i 0).val = b.2.val ∧ (i 1).val = (pOf c + b.1.val) % 8 := by
  rw [← pOf_peers, slots, set_bfView, mem_slotSet]

theorem slots_disjoint (c : Dev nD) (b b' : Fin 8 × Fin 2) (hne : b ≠ b') : Disjoint (slots c b) (slots c b') := by
  rw [Finset.disjoint_left]
  intro i hi hi'
  have h1 := (mem_slots c b i).mp hi
  have h2 := (mem_slots c b' i).mp hi'
  have hb := b.1.isLt; have hb' := b'.1.isLt
  exact hne (Prod.ext (Fin.ext (by omega)) (Fin.ext (by omega)))

theorem slots_cover (c : Dev nD) : Finset.univ.biUnion (slots c) = Finset.univ := by
  refine Finset.eq_univ_iff_forall.mpr fun i => Finset.mem_biUnion.mpr ?_
  have hp := pOf_lt c
  have h1 : (i 1).val < 8 := (i 1).isLt
  refine ⟨(⟨((i 1).val + 8 - pOf c) % 8, Nat.mod_lt _ (by decide)⟩, ⟨(i 0).val, (i 0).isLt⟩), Finset.mem_univ _, (mem_slots c _ i).mpr ⟨rfl, ?_⟩⟩
  show (i 1).val = (pOf c + ((i 1).val + 8 - pOf c) % 8) % 8
  omega

abbrev slotList : List (Fin 8 × Fin 2) :=
  [(0, 0), (0, 1), (1, 0), (1, 1), (2, 0), (2, 1), (3, 0), (3, 1), (4, 0), (4, 1), (5, 0), (5, 1), (6, 0), (6, 1), (7, 0), (7, 1)]

theorem split7 (c : Dev nD) (f : Buf (Elt F) ((Memref.whole cc0_scratch7 : Memref sig .tc _ _ _).view.loc (c : Thread nD τ))) :
    (whole c cc0_scratch7 f : sProp 𝕄) ⊢ iprop(((bfView c 0).view.loc (c : Thread nD τ) ↦[(bfView c 0).view.set]{fullShare} f) ∗ ((bfView c 1).view.loc (c : Thread nD τ) ↦[(bfView c 1).view.set]{fullShare} f)
      ∗ ((bfView (ring c 1) 0).view.loc (c : Thread nD τ) ↦[(bfView (ring c 1) 0).view.set]{fullShare} f) ∗ ((bfView (ring c 1) 1).view.loc (c : Thread nD τ) ↦[(bfView (ring c 1) 1).view.set]{fullShare} f)
      ∗ ((bfView (ring c 2) 0).view.loc (c : Thread nD τ) ↦[(bfView (ring c 2) 0).view.set]{fullShare} f) ∗ ((bfView (ring c 2) 1).view.loc (c : Thread nD τ) ↦[(bfView (ring c 2) 1).view.set]{fullShare} f)
      ∗ ((bfView (ring c 3) 0).view.loc (c : Thread nD τ) ↦[(bfView (ring c 3) 0).view.set]{fullShare} f) ∗ ((bfView (ring c 3) 1).view.loc (c : Thread nD τ) ↦[(bfView (ring c 3) 1).view.set]{fullShare} f)
      ∗ ((bfView (ring c 4) 0).view.loc (c : Thread nD τ) ↦[(bfView (ring c 4) 0).view.set]{fullShare} f) ∗ ((bfView (ring c 4) 1).view.loc (c : Thread nD τ) ↦[(bfView (ring c 4) 1).view.set]{fullShare} f)
      ∗ ((bfView (ring c 5) 0).view.loc (c : Thread nD τ) ↦[(bfView (ring c 5) 0).view.set]{fullShare} f) ∗ ((bfView (ring c 5) 1).view.loc (c : Thread nD τ) ↦[(bfView (ring c 5) 1).view.set]{fullShare} f)
      ∗ ((bfView (ring c 6) 0).view.loc (c : Thread nD τ) ↦[(bfView (ring c 6) 0).view.set]{fullShare} f) ∗ ((bfView (ring c 6) 1).view.loc (c : Thread nD τ) ↦[(bfView (ring c 6) 1).view.set]{fullShare} f)
      ∗ ((bfView (ring c 7) 0).view.loc (c : Thread nD τ) ↦[(bfView (ring c 7) 0).view.set]{fullShare} f) ∗ ((bfView (ring c 7) 1).view.loc (c : Thread nD τ) ↦[(bfView (ring c 7) 1).view.set]{fullShare} f)) :=
  Entails.of_eq ((pointsTo_blocks (slots c) (slots_disjoint c) (slots_cover c) f).trans
    (bigSep_univ_eq_bigSepL slotList (by decide) (by decide) _))

theorem join7 (c : Dev nD) :
    (iprop((∃ f, (bfView c 0).view.loc (c : Thread nD τ) ↦[(bfView c 0).view.set]{fullShare} f) ∗ (∃ f, (bfView c 1).view.loc (c : Thread nD τ) ↦[(bfView c 1).view.set]{fullShare} f)
      ∗ (∃ f, (bfView (ring c 1) 0).view.loc (c : Thread nD τ) ↦[(bfView (ring c 1) 0).view.set]{fullShare} f) ∗ (∃ f, (bfView (ring c 1) 1).view.loc (c : Thread nD τ) ↦[(bfView (ring c 1) 1).view.set]{fullShare} f)
      ∗ (∃ f, (bfView (ring c 2) 0).view.loc (c : Thread nD τ) ↦[(bfView (ring c 2) 0).view.set]{fullShare} f) ∗ (∃ f, (bfView (ring c 2) 1).view.loc (c : Thread nD τ) ↦[(bfView (ring c 2) 1).view.set]{fullShare} f)
      ∗ (∃ f, (bfView (ring c 3) 0).view.loc (c : Thread nD τ) ↦[(bfView (ring c 3) 0).view.set]{fullShare} f) ∗ (∃ f, (bfView (ring c 3) 1).view.loc (c : Thread nD τ) ↦[(bfView (ring c 3) 1).view.set]{fullShare} f)
      ∗ (∃ f, (bfView (ring c 4) 0).view.loc (c : Thread nD τ) ↦[(bfView (ring c 4) 0).view.set]{fullShare} f) ∗ (∃ f, (bfView (ring c 4) 1).view.loc (c : Thread nD τ) ↦[(bfView (ring c 4) 1).view.set]{fullShare} f)
      ∗ (∃ f, (bfView (ring c 5) 0).view.loc (c : Thread nD τ) ↦[(bfView (ring c 5) 0).view.set]{fullShare} f) ∗ (∃ f, (bfView (ring c 5) 1).view.loc (c : Thread nD τ) ↦[(bfView (ring c 5) 1).view.set]{fullShare} f)
      ∗ (∃ f, (bfView (ring c 6) 0).view.loc (c : Thread nD τ) ↦[(bfView (ring c 6) 0).view.set]{fullShare} f) ∗ (∃ f, (bfView (ring c 6) 1).view.loc (c : Thread nD τ) ↦[(bfView (ring c 6) 1).view.set]{fullShare} f)
      ∗ (∃ f, (bfView (ring c 7) 0).view.loc (c : Thread nD τ) ↦[(bfView (ring c 7) 0).view.set]{fullShare} f) ∗ (∃ f, (bfView (ring c 7) 1).view.loc (c : Thread nD τ) ↦[(bfView (ring c 7) 1).view.set]{fullShare} f)) : sProp 𝕄)
      ⊢ iprop(∃ f, whole c cc0_scratch7 f) :=
  (Entails.of_eq (bigSep_univ_eq_bigSepL slotList (by decide) (by decide) _).symm).trans
    (pointsTo_blocks_join_exists (slots c) (slots_disjoint c) (slots_cover c) fun _ => Classical.arbitrary _)

-- Four pairwise disjoint sets `K` that cover a buffer split its full-share points-to, under any other spelling `J` of the four.
theorem four_eq {ℓ : Loc nD τ sig} (f : Buf (Elt F) ℓ) (J K : Fin 4 → Finset (Idx ℓ)) (hJ : ∀ g, J g = K g)
    (hd : ∀ g g', g ≠ g' → Disjoint (K g) (K g')) (hc : Finset.univ.biUnion K = Finset.univ) :
    (ℓ ↦{fullShare} f : sProp 𝕄)
      = iprop((ℓ ↦[J 0]{fullShare} f) ∗ (ℓ ↦[J 1]{fullShare} f) ∗ (ℓ ↦[J 2]{fullShare} f) ∗ (ℓ ↦[J 3]{fullShare} f)) := by
  obtain rfl : J = K := funext hJ
  exact (pointsTo_blocks J hd hc f).trans (bigSep_univ_eq_bigSepL [0, 1, 2, 3] (by decide) (by decide) _)

abbrev slice4 (g : Fin 4) : Finset S4x8x4x128.Idx := (Rect.unit (s := S4x8x4x128) ![g.val, 0, 0, 0] S1x8x4x128.size (inb4 g)).set
abbrev slice3 (g : Fin 4) : Finset S4x8x4.Idx := (Rect.unit (s := S4x8x4) ![g.val, 0, 0] S1x8x4.size (inb3 g)).set

theorem slice4_disjoint (g g' : Fin 4) (h : g ≠ g') : Disjoint (slice4 g) (slice4 g') :=
  lead_disjoint (s := S4x8x4x128) 0 1 (fun g : Fin 4 => ![g.val, 0, 0, 0]) S1x8x4x128.size inb4 (by decide) rfl g g' h
theorem slice4_cover : (Finset.univ : Finset (Fin 4)).biUnion slice4 = Finset.univ :=
  lead_cover (s := S4x8x4x128) 0 1 (fun g : Fin 4 => ![g.val, 0, 0, 0]) S1x8x4x128.size inb4 (by decide) (by decide) rfl (by decide) (by decide)
theorem slice3_disjoint (g g' : Fin 4) (h : g ≠ g') : Disjoint (slice3 g) (slice3 g') :=
  lead_disjoint (s := S4x8x4) 0 1 (fun g : Fin 4 => ![g.val, 0, 0]) S1x8x4.size inb3 (by decide) rfl g g' h
theorem slice3_cover : (Finset.univ : Finset (Fin 4)).biUnion slice3 = Finset.univ :=
  lead_cover (s := S4x8x4) 0 1 (fun g : Fin 4 => ![g.val, 0, 0]) S1x8x4.size inb3 (by decide) (by decide) rfl (by decide) (by decide)

theorem split3 (e : Dev nD) (f : Buf (Elt F) ((Memref.whole cc0_scratch3 : Memref sig .tc _ _ _).view.loc (e : Thread nD τ))) :
    (whole e cc0_scratch3 f : sProp 𝕄) ⊢ iprop(((obSrc 0).view.loc (e : Thread nD τ) ↦[(obSrc 0).view.set]{fullShare} f) ∗ ((obSrc 1).view.loc (e : Thread nD τ) ↦[(obSrc 1).view.set]{fullShare} f)
      ∗ ((obSrc 2).view.loc (e : Thread nD τ) ↦[(obSrc 2).view.set]{fullShare} f) ∗ ((obSrc 3).view.loc (e : Thread nD τ) ↦[(obSrc 3).view.set]{fullShare} f)) := Entails.of_eq (four_eq f (fun g => (obSrc g).view.set) slice4 (fun _ => (View.set_reshape _ _).trans (View.set_slice_whole _ _)) slice4_disjoint slice4_cover)
theorem split4 (e : Dev nD) (f : Buf (Elt F) ((Memref.whole cc0_scratch4 : Memref sig .tc _ _ _).view.loc (e : Thread nD τ))) :
    (whole e cc0_scratch4 f : sProp 𝕄) ⊢ iprop(((obDst 0).view.loc (e : Thread nD τ) ↦[(obDst 0).view.set]{fullShare} f) ∗ ((obDst 1).view.loc (e : Thread nD τ) ↦[(obDst 1).view.set]{fullShare} f)
      ∗ ((obDst 2).view.loc (e : Thread nD τ) ↦[(obDst 2).view.set]{fullShare} f) ∗ ((obDst 3).view.loc (e : Thread nD τ) ↦[(obDst 3).view.set]{fullShare} f)) := Entails.of_eq (four_eq f (fun g => (obDst g).view.set) slice4 (fun _ => (View.set_reshape _ _).trans (View.set_slice_whole _ _)) slice4_disjoint slice4_cover)
theorem split5 (e : Dev nD) (f : Buf (Elt F) ((Memref.whole cc0_scratch5 : Memref sig .tc _ _ _).view.loc (e : Thread nD τ))) :
    (whole e cc0_scratch5 f : sProp 𝕄) ⊢ iprop(((lbSrc 0).view.loc (e : Thread nD τ) ↦[(lbSrc 0).view.set]{fullShare} f) ∗ ((lbSrc 1).view.loc (e : Thread nD τ) ↦[(lbSrc 1).view.set]{fullShare} f)
      ∗ ((lbSrc 2).view.loc (e : Thread nD τ) ↦[(lbSrc 2).view.set]{fullShare} f) ∗ ((lbSrc 3).view.loc (e : Thread nD τ) ↦[(lbSrc 3).view.set]{fullShare} f)) := Entails.of_eq (four_eq f (fun g => (lbSrc g).view.set) slice3 (fun _ => (View.set_reshape _ _).trans (View.set_slice_whole _ _)) slice3_disjoint slice3_cover)
theorem split6 (e : Dev nD) (f : Buf (Elt F) ((Memref.whole cc0_scratch6 : Memref sig .tc _ _ _).view.loc (e : Thread nD τ))) :
    (whole e cc0_scratch6 f : sProp 𝕄) ⊢ iprop(((lbDst 0).view.loc (e : Thread nD τ) ↦[(lbDst 0).view.set]{fullShare} f) ∗ ((lbDst 1).view.loc (e : Thread nD τ) ↦[(lbDst 1).view.set]{fullShare} f)
      ∗ ((lbDst 2).view.loc (e : Thread nD τ) ↦[(lbDst 2).view.set]{fullShare} f) ∗ ((lbDst 3).view.loc (e : Thread nD τ) ↦[(lbDst 3).view.set]{fullShare} f)) := Entails.of_eq (four_eq f (fun g => (lbDst g).view.set) slice3 (fun _ => (View.set_reshape _ _).trans (View.set_slice_whole _ _)) slice3_disjoint slice3_cover)
theorem join3 (e : Dev nD) (f : Buf (Elt F) ((Memref.whole cc0_scratch3 : Memref sig .tc _ _ _).view.loc (e : Thread nD τ))) :
    (iprop(((obSrc 0).view.loc (e : Thread nD τ) ↦[(obSrc 0).view.set]{fullShare} f) ∗ ((obSrc 1).view.loc (e : Thread nD τ) ↦[(obSrc 1).view.set]{fullShare} f)
      ∗ ((obSrc 2).view.loc (e : Thread nD τ) ↦[(obSrc 2).view.set]{fullShare} f) ∗ ((obSrc 3).view.loc (e : Thread nD τ) ↦[(obSrc 3).view.set]{fullShare} f)) : sProp 𝕄) ⊢ whole e cc0_scratch3 f := Entails.of_eq (four_eq f (fun g => (obSrc g).view.set) slice4 (fun _ => (View.set_reshape _ _).trans (View.set_slice_whole _ _)) slice4_disjoint slice4_cover).symm
theorem join4 (e : Dev nD) (f : Buf (Elt F) ((Memref.whole cc0_scratch4 : Memref sig .tc _ _ _).view.loc (e : Thread nD τ))) :
    (iprop(((obDst 0).view.loc (e : Thread nD τ) ↦[(obDst 0).view.set]{fullShare} f) ∗ ((obDst 1).view.loc (e : Thread nD τ) ↦[(obDst 1).view.set]{fullShare} f)
      ∗ ((obDst 2).view.loc (e : Thread nD τ) ↦[(obDst 2).view.set]{fullShare} f) ∗ ((obDst 3).view.loc (e : Thread nD τ) ↦[(obDst 3).view.set]{fullShare} f)) : sProp 𝕄) ⊢ whole e cc0_scratch4 f := Entails.of_eq (four_eq f (fun g => (obDst g).view.set) slice4 (fun _ => (View.set_reshape _ _).trans (View.set_slice_whole _ _)) slice4_disjoint slice4_cover).symm
theorem join5 (e : Dev nD) (f : Buf (Elt F) ((Memref.whole cc0_scratch5 : Memref sig .tc _ _ _).view.loc (e : Thread nD τ))) :
    (iprop(((lbSrc 0).view.loc (e : Thread nD τ) ↦[(lbSrc 0).view.set]{fullShare} f) ∗ ((lbSrc 1).view.loc (e : Thread nD τ) ↦[(lbSrc 1).view.set]{fullShare} f)
      ∗ ((lbSrc 2).view.loc (e : Thread nD τ) ↦[(lbSrc 2).view.set]{fullShare} f) ∗ ((lbSrc 3).view.loc (e : Thread nD τ) ↦[(lbSrc 3).view.set]{fullShare} f)) : sProp 𝕄) ⊢ whole e cc0_scratch5 f := Entails.of_eq (four_eq f (fun g => (lbSrc g).view.set) slice3 (fun _ => (View.set_reshape _ _).trans (View.set_slice_whole _ _)) slice3_disjoint slice3_cover).symm
theorem join6 (e : Dev nD) (f : Buf (Elt F) ((Memref.whole cc0_scratch6 : Memref sig .tc _ _ _).view.loc (e : Thread nD τ))) :
    (iprop(((lbDst 0).view.loc (e : Thread nD τ) ↦[(lbDst 0).view.set]{fullShare} f) ∗ ((lbDst 1).view.loc (e : Thread nD τ) ↦[(lbDst 1).view.set]{fullShare} f)
      ∗ ((lbDst 2).view.loc (e : Thread nD τ) ↦[(lbDst 2).view.set]{fullShare} f) ∗ ((lbDst 3).view.loc (e : Thread nD τ) ↦[(lbDst 3).view.set]{fullShare} f)) : sProp 𝕄) ⊢ whole e cc0_scratch6 f := Entails.of_eq (four_eq f (fun g => (lbDst g).view.set) slice3 (fun _ => (View.set_reshape _ _).trans (View.set_slice_whole _ _)) slice3_disjoint slice3_cover).symm

theorem share_eq {ℓ : Loc nD τ sig} (S : Finset (Idx ℓ)) (f : Buf (Elt F) ℓ) (q : PosShare TreeShare) :
    (ℓ ↦[S]{q} f : sProp 𝕄) = iprop((ℓ ↦[S]{q.left} f) ∗ (ℓ ↦[S]{q.right} f)) :=
  BI.equiv_iff.mp ⟨(pointsTo_share (PosShare.mem_left_op_right q)).1, (pointsTo_share (PosShare.mem_left_op_right q)).2⟩

theorem shares7 {ℓ : Loc nD τ sig} (S : Finset (Idx ℓ)) (f : Buf (Elt F) ℓ) :
    (ℓ ↦[S]{fullShare} f : sProp 𝕄) ⊣⊢ iprop((ℓ ↦[S]{bcShare 1} f) ∗ (ℓ ↦[S]{bcShare 2} f) ∗ (ℓ ↦[S]{bcShare 3} f) ∗ (ℓ ↦[S]{bcShare 4} f) ∗ (ℓ ↦[S]{bcShare 5} f) ∗ (ℓ ↦[S]{bcShare 6} f) ∗ (ℓ ↦[S]{bcShare 7} f)) := by
  refine BiEntails.of_eq ?_
  rw [share_eq S f fullShare, share_eq S f fullShare.right, share_eq S f fullShare.right.right,
    share_eq S f fullShare.right.right.right, share_eq S f fullShare.right.right.right.right,
    share_eq S f fullShare.right.right.right.right.right]
  rfl
theorem halves {ℓ : Loc nD τ sig} (S : Finset (Idx ℓ)) (f : Buf (Elt F) ℓ) :
    (ℓ ↦[S]{fullShare} f : sProp 𝕄) ⊣⊢ iprop((ℓ ↦[S]{fullShare.left} f) ∗ (ℓ ↦[S]{fullShare.right} f)) :=
  pointsTo_share (PosShare.mem_left_op_right fullShare)

-- Where an unmasked write through a view put `X`, the buffer reads as any contents that `X` copies element by element.
theorem land {sp : Space} {s : Shape} {e : EltTy} (v : View sig .tc sp s e) (c : Dev nD) (fd fs : Buf (Elt F) (v.loc (c : Thread nD τ)))
    (X : s.Idx → Elt F e) (hX : ∀ x, X x = _root_.cast (congrArg (Elt F) v.elt_eq) (fs (v.emb x))) :
    (v.loc (c : Thread nD τ) ↦[v.set]{fullShare} v.write (Elt F) fd X Finset.univ : sProp 𝕄) ⊢ v.loc (c : Thread nD τ) ↦[v.set]{fullShare} fs := by
  refine Entails.of_eq (pointsTo_congr fun i hi => ?_)
  obtain ⟨x, rfl⟩ := View.exists_emb_of_mem_set _ hi
  rw [View.write_emb_of_mem _ _ (Finset.mem_univ x), hX, cast_cast, cast_eq]

theorem land_ob (g : Fin 4) (c : Dev nD) (fd : Buf (Elt F) ((obDst g).view.loc (c : Thread nD τ))) (fs : (cc0_scratch3 : Ref sig .tc).ty.Contents (Elt F)) :
    ((obDst g).view.loc (c : Thread nD τ) ↦[(obDst g).view.set]{fullShare} ((obDst g).view.write (Elt F) fd ((obSrc g).view.read (Elt F) fs) Finset.univ) : sProp 𝕄)
      ⊢ (obDst g).view.loc (c : Thread nD τ) ↦[(obDst g).view.set]{fullShare} fs := land _ _ fd fs _ fun _ => rfl
theorem land_lb (g : Fin 4) (c : Dev nD) (fd : Buf (Elt F) ((lbDst g).view.loc (c : Thread nD τ))) (fs : (cc0_scratch5 : Ref sig .tc).ty.Contents (Elt F)) :
    ((lbDst g).view.loc (c : Thread nD τ) ↦[(lbDst g).view.set]{fullShare} ((lbDst g).view.write (Elt F) fd ((lbSrc g).view.read (Elt F) fs) Finset.univ) : sProp 𝕄)
      ⊢ (lbDst g).view.loc (c : Thread nD τ) ↦[(lbDst g).view.set]{fullShare} fs := land _ _ fd fs _ fun _ => rfl
theorem land_bf (e : Dev nD) (h : Fin 2) (c : Dev nD) (fd : Buf (Elt F) ((bfView e h).view.loc (c : Thread nD τ))) (fs : (cc0_scratch7 : Ref sig .tc).ty.Contents (Elt F)) :
    ((bfView e h).view.loc (c : Thread nD τ) ↦[(bfView e h).view.set]{fullShare} ((bfView e h).view.write (Elt F) fd ((bfView e h).view.read (Elt F) fs) Finset.univ) : sProp 𝕄)
      ⊢ (bfView e h).view.loc (c : Thread nD τ) ↦[(bfView e h).view.set]{fullShare} fs := land _ _ fd fs _ fun _ => rfl

end Cert.Kernel.Geom

end
-- ==== Proof.BodyLemmasK.lean ====
import proofs.«900787_g7700000000000788_dist_flashdec_v7x_xyz2x2x4_y_b8_sq8_skv1024_h16_d128_f32_1_alg».proof.Proof.IfaceK

noncomputable section

namespace Cert.Kernel.BodyLemmas

open Cert.Kernel Cert.Kernel.Gen Cert.Kernel.Mesh Cert.Kernel.Proto Cert.Kernel.Iface
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 47 → ℕ)

-- A DMA semaphore numbered 18 or more is the protocol's semaphore number `s - 17`.
theorem csem_dma (s : DmaSem sig) (h : 18 ≤ s.val := by show 18 ≤ _ + _; omega) :
    csem ⟨s.val - 17, by have : s.val < 64 := s.isLt; omega⟩ = .dma s := by
  unfold csem
  rw [dif_neg (by show ¬(s.val - 17 = 0); omega)]
  congr 1
  apply Fin.ext
  show 17 + (s.val - 17) = s.val
  omega

-- The records hold every numbered cell's invariant.
theorem inv_at {i : Fin 47} {s : SemLoc sig} (hs : csem i = s) (e : Dev nD) :
    records m K ⊢ cellInv ER (RdM m) (K (e, i)) ((e : Thread nD τ), s) := by
  subst hs; unfold records
  exact sep_elim_left.trans (bigSep_elim (Φ := fun ck : Dev nD × Fin 47 => (cellInv ER (RdM m) (K ck) (kcell ck) : sProp 𝕄)) (Finset.mem_univ (e, i)))

-- The records hold that round 0 of every numbered cell is reached.
theorem reached_at {i : Fin 47} {s : SemLoc sig} (hs : csem i = s) (e : Dev nD) :
    records m K ⊢ reached ER ((e : Thread nD τ), s) 0 := by
  subst hs; unfold records
  exact sep_elim_right.trans (bigSep_elim (Φ := fun ck : Dev nD × Fin 47 => (reached ER (kcell ck) 0 : sProp 𝕄)) (Finset.mem_univ (e, i)))

variable (c : Dev nD)

-- A signal to the barrier cell of `e` paying this device's duty there, the payload made from `A ∗ B`.
theorem signal_step (e : Dev nD) (hd : c ∈ (RdM m).duties (barCell e) 0) {A B : sProp 𝕄} (hp : iprop(A ∗ B) ⊢ (RdM m).payload (barCell e) 0 c)
    {α : Type} {Q : α → sProp 𝕄} {k : PUnit → Prog (TpuEff nD τ sig (Elt F) Λ₀ .tc) α}
    (ts : List (CellTallies nD τ sig Unit)) (W : Waits sig Unit) :
    iprop(records m K ∗ levAts L lv ∗ A ∗ B ∗ owes (c : Thread nD τ) (Osum (tallyAt (barCell e) () 1 :: ts)) W ∗ dutyTok ER (barCell e) 0 c)
      ⊢ iprop((owes (c : Thread nD τ) (Osum ts) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc e : Thread nD τ) barS (1#32 : BitVec 32).toNat) k) Q) := by
  iintro ⟨#HR, -, HA, HB, HO, Ht⟩
  iapply (Rounds.wp_signal 𝒱₀ ER (RdM m) (c : Thread nD τ) none (dst := (e : Thread nD τ)) (κ := K (e, 0))
    (d := c) hd rfl () (Osum ts) (Osum_cons _ _) (W := W))
  isplitr; · iapply (inv_at m K (i := 0) rfl e); iexact HR
  isplitl [HO]; · iexact HO
  isplitl [Ht]; · iexact Ht
  isplitl [HA HB]
  · iapply hp
    isplitl [HA]; · iexact HA
    iexact HB
  iapply (reached_at m K (i := 0) rfl e); iexact HR

-- An addressed transfer paying this device's duties on its own send cell and on the receive cell of `e`.
theorem send_step {i₁ i₂ : Fin 47} {sS sem : SemLoc sig} (h₁ : csem i₁ = sS) (h₂ : csem i₂ = sem) {e : Dev nD}
    {sp sp' : Space} {s : Shape} {el : EltTy} {src : Memref sig .tc sp s el} {dst : Memref sig .tc sp' s el}
    {hsc : (dst : Memref sig (Dev.tc e : Thread nD τ).2.kind sp' s el).view.ref.isScScratch = false}
    {hsrc : src.view.WordExact} {hdst : dst.view.WordExact}
    {hsem : DmaTarget.Typed sp sem (.remote (Dev.tc e : Thread nD τ) dst sS hsc)}
    {q : PosShare TreeShare} {fs : Buf (Elt F) (src.view.loc (c : Thread nD τ))} (fd : Buf (Elt F) (dst.view.loc (e : Thread nD τ)))
    {N : ℕ} (hN : dst.view.amount sem = N)
    (hd₁ : c ∈ (RdM m).duties ((c : Thread nD τ), sS) 0) (hd₂ : c ∈ (RdM m).duties ((e : Thread nD τ), sem) 0)
    (hk₁ : (RdM m).amount ((c : Thread nD τ), sS) 0 c = N) (hk₂ : (RdM m).amount ((e : Thread nD τ), sem) 0 c = N)
    (hp₁ : (src.view.loc (c : Thread nD τ) ↦[src.view.set]{q} fs) ⊢ (RdM m).payload ((c : Thread nD τ), sS) 0 c)
    (hp₂ : (dst.view.loc (e : Thread nD τ) ↦[dst.view.set]{fullShare} (dst.view.write (Elt F) fd (src.view.read (Elt F) fs) Finset.univ))
      ⊢ (RdM m).payload ((e : Thread nD τ), sem) 0 c)
    {α : Type} {Q : α → sProp 𝕄} {k : PUnit → Prog (TpuEff nD τ sig (Elt F) Λ₀ .tc) α}
    (ts : List (CellTallies nD τ sig Unit)) (W : Waits sig Unit) :
    iprop(records m K ∗ levAts L lv
        ∗ (src.view.loc (c : Thread nD τ) ↦[src.view.set]{q} fs)
        ∗ (dst.view.loc (e : Thread nD τ) ↦[dst.view.set]{fullShare} fd)
        ∗ owes (c : Thread nD τ) (Osum (tallyAt ((e : Thread nD τ), sem) () N :: ts)) W
        ∗ dutyTok ER ((c : Thread nD τ), sS) 0 c ∗ dutyTok ER ((e : Thread nD τ), sem) 0 c)
      ⊢ iprop(((cred (tallyAt ((c : Thread nD τ), sS) () N) ∗ owes (c : Thread nD τ) (Osum ts) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc e : Thread nD τ) dst sS hsc) sem hsrc hdst hsem) k) Q) := by
  iintro ⟨#HR, -, Hs, Hd, HO, Ht1, Ht2⟩
  iapply (Rounds.wp_send_pointsTo 𝒱₀ ER (RdM m) (c : Thread nD τ) none (c' := (e : Thread nD τ)) (κ₁ := K (c, i₁)) (κ₂ := K (e, i₂))
    (r₁ := 0) (r₂ := 0) (d₁ := c) (d₂ := c) (fd := fd) hd₁ hd₂ () () N hN hk₁ hk₂ (Osum ts) (Osum_cons _ _) (W := W) hp₁ hp₂)
  isplitr; · iapply (inv_at m K h₁ c); iexact HR
  isplitr; · iapply (inv_at m K h₂ e); iexact HR
  isplitl [Hs]; · iexact Hs
  isplitl [Hd]; · iexact Hd
  isplitl [HO]; · iexact HO
  isplitl [Ht1]; · iexact Ht1
  isplitr; · iapply (reached_at m K h₁ c); iexact HR
  isplitl [Ht2]; · iexact Ht2
  iapply (reached_at m K h₂ e); iexact HR

-- A wait for the whole of round 0 of one of the device's own cells: it brings the round's payloads `P`.
theorem wait_step (ts : List (CellTallies nD τ sig Unit)) (W : Waits sig Unit) {i : Fin 47} {sm : SemLoc sig} (hs : csem i = sm) {w : TpuEff nD τ sig (Elt F) Λ₀ .tc PUnit} {N : ℕ}
    (hw : ∀ K' : PUnit → sProp 𝕄, wpE (defs₀ (F := F)) 𝒱₀ (c : Thread nD τ) none Set.univ w K' = waitSpec (c : Thread nD τ) Set.univ sm N K')
    (hN : (RdM m).expect ((c : Thread nD τ), sm) 0 = N) {P : sProp 𝕄}
    (hP : bigSep ((RdM m).duties ((c : Thread nD τ), sm) 0 \ ∅) (fun e => (RdM m).payload ((c : Thread nD τ), sm) 0 e) = P)
    {α : Type} {Q : α → sProp 𝕄} {k : PUnit → Prog (TpuEff nD τ sig (Elt F) Λ₀ .tc) α}
    (hmw : (levAts L lv : sProp 𝕄) ⊢ MayWait (c : Thread nD τ) sm () (Osum ts)) :
    iprop(records m K ∗ levAts L lv ∗ cred (tallyAt ((c : Thread nD τ), sm) () N) ∗ owes (c : Thread nD τ) (Osum ts) W ∗ atPos ER ((c : Thread nD τ), sm) 0 ∅ 0)
      ⊢ iprop(((owes (c : Thread nD τ) (Osum ts) (insert (sm, ()) W) ∗ atPos ER ((c : Thread nD τ), sm) 1 ∅ 0 ∗ P)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  subst hP
  iintro ⟨#HR, #Hlev, Hc, HO, Hat⟩ Hk
  iapply (Rounds.wp_wait_rest_token 𝒱₀ ER (RdM m) (c : Thread nD τ) none (κ := K (c, i)) hw (Set.mem_univ _) () (O := Osum ts) (W := W)
      (R := 0) (m := 0) (T := ∅) ((Nat.zero_add N).trans hN.symm)) $$ [Hc HO Hat]
  · isplitr; · iapply (inv_at m K hs c); iexact HR
    isplitl [Hc]; · iexact Hc
    isplitl [HO]; · iexact HO
    isplitr; · iapply hmw; iexact Hlev
    iexact Hat
  iintro ⟨HO, Hat, -, Hpay⟩
  iapply Hk
  isplitl [HO]; · iexact HO
  isplitl [Hat]; · iexact Hat
  iexact Hpay

-- A cell with no duty from round `R` on, its owner there with nothing taken, closes.
theorem close_step {i : Fin 47} {s : SemLoc sig} (hs : csem i = s) {R : ℕ} (hR : ∀ r, R ≤ r → (RdM m).duties ((c : Thread nD τ), s) r = ∅) :
    iprop(records m K ∗ atPos ER ((c : Thread nD τ), s) R ∅ 0) ⊢ iprop(|={Set.univ}=> semVal ((c : Thread nD τ), s) 0) :=
  (sep_mono_left (inv_at m K hs c)).trans (Rounds.cell_close ER (RdM m) (Set.mem_univ (K (c, i))) (fun hu => hu) hR)

end Cert.Kernel.BodyLemmas

end
-- ==== Proof.StepsYK.lean ====
import proofs.«900787_g7700000000000788_dist_flashdec_v7x_xyz2x2x4_y_b8_sq8_skv1024_h16_d128_f32_1_alg».proof.Proof.TablesK
import proofs.«900787_g7700000000000788_dist_flashdec_v7x_xyz2x2x4_y_b8_sq8_skv1024_h16_d128_f32_1_alg».proof.Proof.GeomK
import proofs.«900787_g7700000000000788_dist_flashdec_v7x_xyz2x2x4_y_b8_sq8_skv1024_h16_d128_f32_1_alg».proof.Proof.LevelsK
import proofs.«900787_g7700000000000788_dist_flashdec_v7x_xyz2x2x4_y_b8_sq8_skv1024_h16_d128_f32_1_alg».proof.Proof.BodyLemmasK

noncomputable section

namespace Cert.Kernel.Steps

open Cert.Kernel Cert.Kernel.Gen Cert.Kernel.Mesh Cert.Kernel.Proto Cert.Kernel.Iface
open Cert.Kernel.Tables Cert.Kernel.Levels Cert.Kernel.BodyLemmas
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 47 → ℕ) (c : Dev nD)

theorem signal_y (n : Dev nD) (hn : n = ynbr c)
    {α : Type} {Q : α → sProp 𝕄} {k : PUnit → Prog (TpuEff nD τ sig (Elt F) Λ₀ .tc) α}
    (f4 : Buf (Elt F) ((Memref.whole cc0_scratch4 : Memref sig .tc _ _ _).view.loc (c : Thread nD τ)))
    (f6 : Buf (Elt F) ((Memref.whole cc0_scratch6 : Memref sig .tc _ _ _).view.loc (c : Thread nD τ)))
    (ts : List (CellTallies nD τ sig Unit)) (W : Waits sig Unit) :
    iprop(records m K ∗ levAts L lv ∗ whole c cc0_scratch4 f4 ∗ whole c cc0_scratch6 f6
        ∗ owes (c : Thread nD τ) (Osum (tallyAt (barCell (ynbr c)) () 1 :: ts)) W ∗ dutyTok ER (barCell (ynbr c)) 0 c)
      ⊢ iprop((owes (c : Thread nD τ) (Osum ts) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS (1#32 : BitVec 32).toNat) k) Q) := by
  subst hn
  exact signal_step m K c (ynbr c) (mem_bar_ynbr m c) (by
    rw [payload_bar_ynbr]; unfold payBarY
    iintro ⟨H4, H6⟩
    isplitl [H4]
    · iexists f4; iexact H4
    · iexists f6; iexact H6) ts W

theorem signal_r (d : Fin 8) (hd : d.val ≠ 0) (n : Dev nD) (hn : n = ring c d.val)
    {α : Type} {Q : α → sProp 𝕄} {k : PUnit → Prog (TpuEff nD τ sig (Elt F) Λ₀ .tc) α}
    (f0 : Buf (Elt F) ((bfView (ring c d.val) 0).view.loc (c : Thread nD τ)))
    (f1 : Buf (Elt F) ((bfView (ring c d.val) 1).view.loc (c : Thread nD τ)))
    (ts : List (CellTallies nD τ sig Unit)) (W : Waits sig Unit) :
    iprop(records m K ∗ levAts L lv
        ∗ ((bfView (ring c d.val) 0).view.loc (c : Thread nD τ) ↦[(bfView (ring c d.val) 0).view.set]{fullShare} f0)
        ∗ ((bfView (ring c d.val) 1).view.loc (c : Thread nD τ) ↦[(bfView (ring c d.val) 1).view.set]{fullShare} f1)
        ∗ owes (c : Thread nD τ) (Osum (tallyAt (barCell (ring c d.val)) () 1 :: ts)) W ∗ dutyTok ER (barCell (ring c d.val)) 0 c)
      ⊢ iprop((owes (c : Thread nD τ) (Osum ts) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS (1#32 : BitVec 32).toNat) k) Q) := by
  subst hn
  exact signal_step m K c (ring c d.val) (mem_bar_ring m c d hd) (by
    rw [payload_bar_ring m c d hd]; unfold payBarR
    iintro ⟨H0, H1⟩
    isplitl [H0]
    · iexists f0; iexact H0
    · iexists f1; iexact H1) ts W

theorem wait_bar {α : Type} {Q : α → sProp 𝕄} {k : PUnit → Prog (TpuEff nD τ sig (Elt F) Λ₀ .tc) α}
    (ts : List (CellTallies nD τ sig Unit)) (W : Waits sig Unit)
    (hmw : (levAts L lv : sProp 𝕄) ⊢ MayWait (c : Thread nD τ) (.reg barS) () (Osum ts)) :
    iprop(records m K ∗ levAts L lv ∗ cred (tallyAt (barCell c) () 8) ∗ owes (c : Thread nD τ) (Osum ts) W ∗ atPos ER (barCell c) 0 ∅ 0)
      ⊢ iprop(((owes (c : Thread nD τ) (Osum ts) (insert (SemLoc.reg barS, ()) W) ∗ atPos ER (barCell c) 1 ∅ 0
              ∗ ((∃ f, whole (ynbr c) cc0_scratch4 f) ∗ (∃ f, whole (ynbr c) cc0_scratch6 f))
              ∗ ((∃ f, (bfView c 0).view.loc (ring c 1 : Thread nD τ) ↦[(bfView c 0).view.set]{fullShare} f) ∗ (∃ f, (bfView c 1).view.loc (ring c 1 : Thread nD τ) ↦[(bfView c 1).view.set]{fullShare} f))
              ∗ ((∃ f, (bfView c 0).view.loc (ring c 2 : Thread nD τ) ↦[(bfView c 0).view.set]{fullShare} f) ∗ (∃ f, (bfView c 1).view.loc (ring c 2 : Thread nD τ) ↦[(bfView c 1).view.set]{fullShare} f))
              ∗ ((∃ f, (bfView c 0).view.loc (ring c 3 : Thread nD τ) ↦[(bfView c 0).view.set]{fullShare} f) ∗ (∃ f, (bfView c 1).view.loc (ring c 3 : Thread nD τ) ↦[(bfView c 1).view.set]{fullShare} f))
              ∗ ((∃ f, (bfView c 0).view.loc (ring c 4 : Thread nD τ) ↦[(bfView c 0).view.set]{fullShare} f) ∗ (∃ f, (bfView c 1).view.loc (ring c 4 : Thread nD τ) ↦[(bfView c 1).view.set]{fullShare} f))
              ∗ ((∃ f, (bfView c 0).view.loc (ring c 5 : Thread nD τ) ↦[(bfView c 0).view.set]{fullShare} f) ∗ (∃ f, (bfView c 1).view.loc (ring c 5 : Thread nD τ) ↦[(bfView c 1).view.set]{fullShare} f))
              ∗ ((∃ f, (bfView c 0).view.loc (ring c 6 : Thread nD τ) ↦[(bfView c 0).view.set]{fullShare} f) ∗ (∃ f, (bfView c 1).view.loc (ring c 6 : Thread nD τ) ↦[(bfView c 1).view.set]{fullShare} f))
              ∗ ((∃ f, (bfView c 0).view.loc (ring c 7 : Thread nD τ) ↦[(bfView c 0).view.set]{fullShare} f) ∗ (∃ f, (bfView c 1).view.loc (ring c 7 : Thread nD τ) ↦[(bfView c 1).view.set]{fullShare} f)))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 8) k) Q) :=
  wait_step m K c ts W (i := 0) rfl (wpE_semWait_eq 𝒱₀ (c : Thread nD τ) none Set.univ) (expect_bar m c) (rest_bar m c) hmw

theorem send_ob (g : Fin 4) (n : Dev nD) (hn : n = ynbr c)
    {hsc : (obDst g : Memref sig (Dev.tc n : Thread nD τ).2.kind .vmem S8x4x128 .bf16).view.ref.isScScratch = false}
    {hsrc : (obSrc g : Memref sig .tc .vmem S8x4x128 .bf16).view.WordExact} {hdst : (obDst g : Memref sig .tc .vmem S8x4x128 .bf16).view.WordExact}
    {hsem : DmaTarget.Typed .vmem (.dma (yoRecvS g)) (.remote (Dev.tc n : Thread nD τ) (obDst g : Memref sig .tc .vmem S8x4x128 .bf16) (.dma (yoSendS g)) hsc)}
    {α : Type} {Q : α → sProp 𝕄} {k : PUnit → Prog (TpuEff nD τ sig (Elt F) Λ₀ .tc) α}
    (fd : Buf (Elt F) ((obDst g).view.loc (ynbr c : Thread nD τ))) (ts : List (CellTallies nD τ sig Unit)) (W : Waits sig Unit) :
    iprop(records m K ∗ levAts L lv
        ∗ ((obSrc g).view.loc (c : Thread nD τ) ↦[(obSrc g).view.set]{fullShare} Vals.ob m c)
        ∗ ((obDst g).view.loc (ynbr c : Thread nD τ) ↦[(obDst g).view.set]{fullShare} fd)
        ∗ owes (c : Thread nD τ) (Osum (tallyAt (yoRecvCell g (ynbr c)) () No :: ts)) W
        ∗ dutyTok ER (yoSendCell g c) 0 c ∗ dutyTok ER (yoRecvCell g (ynbr c)) 0 c)
      ⊢ iprop(((cred (tallyAt (yoSendCell g c) () No) ∗ owes (c : Thread nD τ) (Osum ts) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (obSrc g) (.remote (Dev.tc n : Thread nD τ) (obDst g) (.dma (yoSendS g)) hsc) (.dma (yoRecvS g)) hsrc hdst hsem) k) Q) := by
  subst hn
  exact send_step m K c (csem_dma _) (csem_dma _) fd rfl (mem_yoSend m g c) (mem_yoRecv m g c) (amount_yoSend m g c c)
    (amount_yoRecv m g (ynbr c) c) (by rw [payload_yoSend]) (by rw [payload_yoRecv]; exact Geom.land_ob g (ynbr c) fd (Vals.ob m c)) ts W

theorem send_lb (g : Fin 4) (n : Dev nD) (hn : n = ynbr c)
    {hsc : (lbDst g : Memref sig (Dev.tc n : Thread nD τ).2.kind .vmem S8x4 .f32).view.ref.isScScratch = false}
    {hsrc : (lbSrc g : Memref sig .tc .vmem S8x4 .f32).view.WordExact} {hdst : (lbDst g : Memref sig .tc .vmem S8x4 .f32).view.WordExact}
    {hsem : DmaTarget.Typed .vmem (.dma (ylRecvS g)) (.remote (Dev.tc n : Thread nD τ) (lbDst g : Memref sig .tc .vmem S8x4 .f32) (.dma (ylSendS g)) hsc)}
    {α : Type} {Q : α → sProp 𝕄} {k : PUnit → Prog (TpuEff nD τ sig (Elt F) Λ₀ .tc) α}
    (fd : Buf (Elt F) ((lbDst g).view.loc (ynbr c : Thread nD τ))) (ts : List (CellTallies nD τ sig Unit)) (W : Waits sig Unit) :
    iprop(records m K ∗ levAts L lv
        ∗ ((lbSrc g).view.loc (c : Thread nD τ) ↦[(lbSrc g).view.set]{fullShare.left} Vals.lb m c)
        ∗ ((lbDst g).view.loc (ynbr c : Thread nD τ) ↦[(lbDst g).view.set]{fullShare} fd)
        ∗ owes (c : Thread nD τ) (Osum (tallyAt (ylRecvCell g (ynbr c)) () Nl :: ts)) W
        ∗ dutyTok ER (ylSendCell g c) 0 c ∗ dutyTok ER (ylRecvCell g (ynbr c)) 0 c)
      ⊢ iprop(((cred (tallyAt (ylSendCell g c) () Nl) ∗ owes (c : Thread nD τ) (Osum ts) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (lbSrc g) (.remote (Dev.tc n : Thread nD τ) (lbDst g) (.dma (ylSendS g)) hsc) (.dma (ylRecvS g)) hsrc hdst hsem) k) Q) := by
  subst hn
  exact send_step m K c (csem_dma _) (csem_dma _) fd rfl (mem_ylSend m g c) (mem_ylRecv m g c) (amount_ylSend m g c c)
    (amount_ylRecv m g (ynbr c) c) (by rw [payload_ylSend]) (by rw [payload_ylRecv]; exact Geom.land_lb g (ynbr c) fd (Vals.lb m c)) ts W

theorem wait_yo (g : Fin 4)
    {hsrc : (obSrc g : Memref sig .tc .vmem S8x4x128 .bf16).view.WordExact} {hdst : (obDst g : Memref sig .tc .vmem S8x4x128 .bf16).view.WordExact}
    {α : Type} {Q : α → sProp 𝕄} {k : PUnit → Prog (TpuEff nD τ sig (Elt F) Λ₀ .tc) α}
    (ts : List (CellTallies nD τ sig Unit)) (W : Waits sig Unit)
    (hmw : (levAts L lv : sProp 𝕄) ⊢ MayWait (c : Thread nD τ) (.dma (yoRecvS g)) () (Osum ts)) :
    iprop(records m K ∗ levAts L lv ∗ cred (tallyAt (yoRecvCell g c) () No) ∗ owes (c : Thread nD τ) (Osum ts) W ∗ atPos ER (yoRecvCell g c) 0 ∅ 0)
      ⊢ iprop(((owes (c : Thread nD τ) (Osum ts) (insert (SemLoc.dma (yoRecvS g), ()) W) ∗ atPos ER (yoRecvCell g c) 1 ∅ 0
              ∗ ((obDst g).view.loc (c : Thread nD τ) ↦[(obDst g).view.set]{fullShare} Vals.ob m (ynbr c)))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (yoRecvS g) (obSrc g) (obDst g) hsrc hdst) k) Q) :=
  wait_step m K c ts W (csem_dma _) (wpE_waitDma2_eq (dst := obDst g) 𝒱₀ (c : Thread nD τ) none Set.univ) (expect_yoRecv m g c) (rest_yoRecv m g c) hmw

theorem wait_yl (g : Fin 4)
    {hsrc : (lbSrc g : Memref sig .tc .vmem S8x4 .f32).view.WordExact} {hdst : (lbDst g : Memref sig .tc .vmem S8x4 .f32).view.WordExact}
    {α : Type} {Q : α → sProp 𝕄} {k : PUnit → Prog (TpuEff nD τ sig (Elt F) Λ₀ .tc) α}
    (ts : List (CellTallies nD τ sig Unit)) (W : Waits sig Unit)
    (hmw : (levAts L lv : sProp 𝕄) ⊢ MayWait (c : Thread nD τ) (.dma (ylRecvS g)) () (Osum ts)) :
    iprop(records m K ∗ levAts L lv ∗ cred (tallyAt (ylRecvCell g c) () Nl) ∗ owes (c : Thread nD τ) (Osum ts) W ∗ atPos ER (ylRecvCell g c) 0 ∅ 0)
      ⊢ iprop(((owes (c : Thread nD τ) (Osum ts) (insert (SemLoc.dma (ylRecvS g), ()) W) ∗ atPos ER (ylRecvCell g c) 1 ∅ 0
              ∗ ((lbDst g).view.loc (c : Thread nD τ) ↦[(lbDst g).view.set]{fullShare} Vals.lb m (ynbr c)))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (ylRecvS g) (lbSrc g) (lbDst g) hsrc hdst) k) Q) :=
  wait_step m K c ts W (csem_dma _) (wpE_waitDma2_eq (dst := lbDst g) 𝒱₀ (c : Thread nD τ) none Set.univ) (expect_ylRecv m g c) (rest_ylRecv m g c) hmw

-- With zero owed, the level condition of a wait is empty.
theorem mayWait_nil (sm : SemLoc sig) : (levAts L lv : sProp 𝕄) ⊢ MayWait (c : Thread nD τ) sm () (Osum []) := by
  show _ ⊢ MayWait (c : Thread nD τ) sm () 0
  rw [MayWait_zero]; iintro -; iempintro

theorem wait_yos (g : Fin 4)
    {hsrc : (obDst g : Memref sig .tc .vmem S8x4x128 .bf16).view.WordExact} {hdst : (obSrc g : Memref sig .tc .vmem S8x4x128 .bf16).view.WordExact}
    {α : Type} {Q : α → sProp 𝕄} {k : PUnit → Prog (TpuEff nD τ sig (Elt F) Λ₀ .tc) α}
    (ts : List (CellTallies nD τ sig Unit)) (W : Waits sig Unit)
    (hmw : (levAts L lv : sProp 𝕄) ⊢ MayWait (c : Thread nD τ) (.dma (yoSendS g)) () (Osum ts)) :
    iprop(records m K ∗ levAts L lv ∗ cred (tallyAt (yoSendCell g c) () No) ∗ owes (c : Thread nD τ) (Osum ts) W ∗ atPos ER (yoSendCell g c) 0 ∅ 0)
      ⊢ iprop(((owes (c : Thread nD τ) (Osum ts) (insert (SemLoc.dma (yoSendS g), ()) W) ∗ atPos ER (yoSendCell g c) 1 ∅ 0
              ∗ ((obSrc g).view.loc (c : Thread nD τ) ↦[(obSrc g).view.set]{fullShare} Vals.ob m c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (yoSendS g) (obDst g) (obSrc g) hsrc hdst) k) Q) :=
  wait_step m K c ts W (csem_dma _) (wpE_waitDma2_eq (dst := obSrc g) 𝒱₀ (c : Thread nD τ) none Set.univ) (expect_yoSend m g c) (rest_yoSend m g c) hmw

theorem wait_yls (g : Fin 4)
    {hsrc : (lbDst g : Memref sig .tc .vmem S8x4 .f32).view.WordExact} {hdst : (lbSrc g : Memref sig .tc .vmem S8x4 .f32).view.WordExact}
    {α : Type} {Q : α → sProp 𝕄} {k : PUnit → Prog (TpuEff nD τ sig (Elt F) Λ₀ .tc) α}
    (ts : List (CellTallies nD τ sig Unit)) (W : Waits sig Unit)
    (hmw : (levAts L lv : sProp 𝕄) ⊢ MayWait (c : Thread nD τ) (.dma (ylSendS g)) () (Osum ts)) :
    iprop(records m K ∗ levAts L lv ∗ cred (tallyAt (ylSendCell g c) () Nl) ∗ owes (c : Thread nD τ) (Osum ts) W ∗ atPos ER (ylSendCell g c) 0 ∅ 0)
      ⊢ iprop(((owes (c : Thread nD τ) (Osum ts) (insert (SemLoc.dma (ylSendS g), ()) W) ∗ atPos ER (ylSendCell g c) 1 ∅ 0
              ∗ ((lbSrc g).view.loc (c : Thread nD τ) ↦[(lbSrc g).view.set]{fullShare.left} Vals.lb m c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (ylSendS g) (lbDst g) (lbSrc g) hsrc hdst) k) Q) :=
  wait_step m K c ts W (csem_dma _) (wpE_waitDma2_eq (dst := lbSrc g) 𝒱₀ (c : Thread nD τ) none Set.univ) (expect_ylSend m g c) (rest_ylSend m g c) hmw

end Cert.Kernel.Steps

end
-- ==== Proof.StepsBK.lean ====
import proofs.«900787_g7700000000000788_dist_flashdec_v7x_xyz2x2x4_y_b8_sq8_skv1024_h16_d128_f32_1_alg».proof.Proof.TablesK
import proofs.«900787_g7700000000000788_dist_flashdec_v7x_xyz2x2x4_y_b8_sq8_skv1024_h16_d128_f32_1_alg».proof.Proof.GeomK
import proofs.«900787_g7700000000000788_dist_flashdec_v7x_xyz2x2x4_y_b8_sq8_skv1024_h16_d128_f32_1_alg».proof.Proof.LevelsK
import proofs.«900787_g7700000000000788_dist_flashdec_v7x_xyz2x2x4_y_b8_sq8_skv1024_h16_d128_f32_1_alg».proof.Proof.BodyLemmasK

noncomputable section

namespace Cert.Kernel.Steps

open Cert.Kernel Cert.Kernel.Gen Cert.Kernel.Mesh Cert.Kernel.Proto Cert.Kernel.Iface
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem bcSendSem_eq (i : Fin 14) {off : Fin 1 → Nat} (hoff : off = ![i.val]) (inb : ∀ a, off a + S1.size a ≤ S14.size a) :
    ((cc0_scratch14.slice (Rect.unit (s := S14) off S1.size inb)).squeeze S_ squeezes_S1_S_).sem = bcSendS i := by
  subst hoff
  have key : ∀ x : (Rect.unit (s := S14) ![i.val] S1.size inb).shape.Idx,
      (S14.rowMajor ((Rect.unit (s := S14) ![i.val] S1.size inb).emb x)).val = i.val := by
    intro x
    rw [Shape.rowMajor_val_one, Rect.emb_apply]
    have hx : (x 0).val < 1 := (x 0).isLt
    show i.val + 1 * (x 0).val = i.val
    omega
  exact Fin.ext (congrArg (34 + ·) (key _))

theorem bcRecvSem_eq (h : Fin 2) (j : Fin 8) {off : Fin 2 → Nat} (hoff : off = ![h.val, j.val]) (inb : ∀ a, off a + S1x1.size a ≤ S2x8.size a) :
    ((cc0_scratch15.slice (Rect.unit (s := S2x8) off S1x1.size inb)).squeeze S_ squeezes_S1x1_S_).sem = bcRecvS h j := by
  subst hoff
  have key : ∀ x : (Rect.unit (s := S2x8) ![h.val, j.val] S1x1.size inb).shape.Idx,
      (S2x8.rowMajor ((Rect.unit (s := S2x8) ![h.val, j.val] S1x1.size inb).emb x)).val = 8 * h.val + j.val := by
    intro x
    rw [Shape.rowMajor_val_two, Rect.emb_apply, Rect.emb_apply]
    have hx0 : (x 0).val < 1 := (x 0).isLt
    have hx1 : (x 1).val < 1 := (x 1).isLt
    show (h.val + 1 * (x 0).val) * 8 + (j.val + 1 * (x 1).val) = 8 * h.val + j.val
    omega
  refine Fin.ext ?_
  show 48 + _ = 48 + 8 * h.val + j.val
  rw [key]; omega

variable (m : (ℓ : Loc nD τ sig) → Buf (Elt F) ℓ) (K : Dev nD × Fin 47 → ℕ) (c : Dev nD)

abbrev bcIx (h : Fin 2) (d : Fin 8) : Fin 14 := ⟨7 * h.val + d.val - 1, by have := h.isLt; have := d.isLt; omega⟩

theorem send_bc (h : Fin 2) (d : Fin 8) (hd : d.val ≠ 0)
    {e : Dev nD} (he : e = ring c d.val)
    {sS : DmaSem sig} (hS : sS = bcSendS (bcIx h d))
    {sR : DmaSem sig} (hR : sR = bcRecvS h (pFin c))
    {hsc : ((bfView c h : Memref sig .tc .vmem S8x8x128 .bf16) : Memref sig (Dev.tc e : Thread nD τ).2.kind .vmem S8x8x128 .bf16).view.ref.isScScratch = false}
    {hsrc : (bfView c h).view.WordExact} {hdst : (bfView c h).view.WordExact}
    {hsem : DmaTarget.Typed .vmem (.dma sR) (.remote (Dev.tc e : Thread nD τ) (bfView c h) (.dma sS) hsc)}
    {α : Type} {Q : α → sProp 𝕄} {k : PUnit → Prog (TpuEff nD τ sig (Elt F) Λ₀ .tc) α}
    (fd : Buf (Elt F) ((bfView c h).view.loc (ring c d.val : Thread nD τ)))
    (ts : List (CellTallies nD τ sig Unit)) (W : Waits sig Unit) :
    iprop(records m K ∗ levAts L lv
        ∗ ((bfView c h).view.loc (c : Thread nD τ) ↦[(bfView c h).view.set]{bcShare d} Vals.bf m c)
        ∗ ((bfView c h).view.loc (ring c d.val : Thread nD τ) ↦[(bfView c h).view.set]{fullShare} fd)
        ∗ owes (c : Thread nD τ) (Osum (tallyAt (bcRecvCell h (pFin c) (ring c d.val)) () Nb :: ts)) W
        ∗ dutyTok ER (bcSendCell (bcIx h d) c) 0 c
        ∗ dutyTok ER (bcRecvCell h (pFin c) (ring c d.val)) 0 c)
      ⊢ iprop(((cred (tallyAt (bcSendCell (bcIx h d) c) () Nb) ∗ owes (c : Thread nD τ) (Osum ts) W)
              -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (bfView c h) (.remote (Dev.tc e : Thread nD τ) (bfView c h) (.dma sS) hsc) (.dma sR) hsrc hdst hsem) k) Q) := by
  subst he hS hR
  exact BodyLemmas.send_step m K c (BodyLemmas.csem_dma _) (BodyLemmas.csem_dma _) fd rfl (Tables.mem_bcSend m (bcIx h d) c) (Tables.mem_bcRecv m h c d hd)
    (Tables.amount_bcSend m (bcIx h d) c c) (Tables.amount_bcRecv m h (pFin c) (ring c d.val) c) (by rw [Tables.payload_bcSend m h d hd])
    (by rw [Tables.payload_bcRecv]; exact Geom.land_bf c h (ring c d.val) fd (Vals.bf m c)) ts W

theorem wait_bcr (h : Fin 2) (d : Fin 8) (hd : d.val ≠ 0)
    {sR : DmaSem sig} (hR : sR = bcRecvS h (rj c d.val))
    {offS offD : Fin 5 → Nat} {inbS : ∀ a, offS a + S1x1x8x8x128.size a ≤ S2x8x8x8x128.size a}
    {inbD : ∀ a, offD a + S1x1x8x8x128.size a ≤ S2x8x8x8x128.size a}
    {hsrc : (bfSlot offS inbS).view.WordExact} {hdst : (bfSlot offD inbD).view.WordExact}
    {α : Type} {Q : α → sProp 𝕄} {k : PUnit → Prog (TpuEff nD τ sig (Elt F) Λ₀ .tc) α}
    (ts : List (CellTallies nD τ sig Unit))
    (hmw : (levAts L lv : sProp 𝕄) ⊢ MayWait (c : Thread nD τ) (.dma (bcRecvS h (rj c d.val))) () (Osum ts))
    (W : Waits sig Unit) :
    iprop(records m K ∗ levAts L lv
        ∗ cred (tallyAt (bcRecvCell h (rj c d.val) c) () Nb)
        ∗ owes (c : Thread nD τ) (Osum ts) W
        ∗ atPos ER (bcRecvCell h (rj c d.val) c) 0 ∅ 0)
      ⊢ iprop(((owes (c : Thread nD τ) (Osum ts) (insert (SemLoc.dma (bcRecvS h (rj c d.val)), ()) W)
              ∗ atPos ER (bcRecvCell h (rj c d.val) c) 1 ∅ 0
              ∗ ((bfView (ring c d.val) h).view.loc (c : Thread nD τ) ↦[(bfView (ring c d.val) h).view.set]{fullShare} Vals.bf m (ring c d.val)))
              -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 sR (bfSlot offS inbS) (bfSlot offD inbD) hsrc hdst) k) Q) := by
  subst hR
  exact BodyLemmas.wait_step m K c ts W (BodyLemmas.csem_dma _) (wpE_waitDma2_eq (dst := bfSlot offD inbD) 𝒱₀ (c : Thread nD τ) none Set.univ) (Tables.expect_bcRecv m h c d hd) (Tables.rest_bcRecv m h c d hd) hmw

theorem wait_bcs (h : Fin 2) (d : Fin 8) (hd : d.val ≠ 0)
    {sS : DmaSem sig} (hS : sS = bcSendS (bcIx h d))
    {offS offD : Fin 5 → Nat} {inbS : ∀ a, offS a + S1x1x8x8x128.size a ≤ S2x8x8x8x128.size a}
    {inbD : ∀ a, offD a + S1x1x8x8x128.size a ≤ S2x8x8x8x128.size a}
    {hsrc : (bfSlot offS inbS).view.WordExact} {hdst : (bfSlot offD inbD).view.WordExact}
    {α : Type} {Q : α → sProp 𝕄} {k : PUnit → Prog (TpuEff nD τ sig (Elt F) Λ₀ .tc) α}
    (ts : List (CellTallies nD τ sig Unit))
    (hmw : (levAts L lv : sProp 𝕄) ⊢ MayWait (c : Thread nD τ) (.dma (bcSendS (bcIx h d))) () (Osum ts))
    (W : Waits sig Unit) :
    iprop(records m K ∗ levAts L lv
        ∗ cred (tallyAt (bcSendCell (bcIx h d) c) () Nb)
        ∗ owes (c : Thread nD τ) (Osum ts) W
        ∗ atPos ER (bcSendCell (bcIx h d) c) 0 ∅ 0)
      ⊢ iprop(((owes (c : Thread nD τ) (Osum ts) (insert (SemLoc.dma (bcSendS (bcIx h d)), ()) W)
              ∗ atPos ER (bcSendCell (bcIx h d) c) 1 ∅ 0
              ∗ ((bfView c h).view.loc (c : Thread nD τ) ↦[(bfView c h).view.set]{bcShare d} Vals.bf m c))
              -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 sS (bfSlot offS inbS) (bfSlot offD inbD) hsrc hdst) k) Q) := by
  subst hS
  exact BodyLemmas.wait_step m K c ts W (BodyLemmas.csem_dma _) (wpE_waitDma2_eq (dst := bfSlot offD inbD) 𝒱₀ (c : Thread nD τ) none Set.univ) (Tables.expect_bcSend m (bcIx h d) c) (Tables.rest_bcSend m h d hd c) hmw

theorem close_yoSend (g : Fin 4) :
    iprop(records m K ∗ atPos ER (yoSendCell g c) 1 ∅ 0) ⊢ iprop(|={Set.univ}=> semVal (yoSendCell g c) 0) :=
  BodyLemmas.close_step m K c (BodyLemmas.csem_dma _) fun r hr => Tables.duties_later m _ r hr
theorem close_yoRecv (g : Fin 4) :
    iprop(records m K ∗ atPos ER (yoRecvCell g c) 1 ∅ 0) ⊢ iprop(|={Set.univ}=> semVal (yoRecvCell g c) 0) :=
  BodyLemmas.close_step m K c (BodyLemmas.csem_dma _) fun r hr => Tables.duties_later m _ r hr
theorem close_ylSend (g : Fin 4) :
    iprop(records m K ∗ atPos ER (ylSendCell g c) 1 ∅ 0) ⊢ iprop(|={Set.univ}=> semVal (ylSendCell g c) 0) :=
  BodyLemmas.close_step m K c (BodyLemmas.csem_dma _) fun r hr => Tables.duties_later m _ r hr
theorem close_ylRecv (g : Fin 4) :
    iprop(records m K ∗ atPos ER (ylRecvCell g c) 1 ∅ 0) ⊢ iprop(|={Set.univ}=> semVal (ylRecvCell g c) 0) :=
  BodyLemmas.close_step m K c (BodyLemmas.csem_dma _) fun r hr => Tables.duties_later m _ r hr
theorem close_bcSend (i : Fin 14) :
    iprop(records m K ∗ atPos ER (bcSendCell i c) 1 ∅ 0) ⊢ iprop(|={Set.univ}=> semVal (bcSendCell i c) 0) :=
  BodyLemmas.close_step m K c (BodyLemmas.csem_dma _) fun r hr => Tables.duties_later m _ r hr
theorem close_bcRecv (h : Fin 2) (j : Fin 8) :
    iprop(records m K ∗ atPos ER (bcRecvCell h j c) 1 ∅ 0) ⊢ iprop(|={Set.univ}=> semVal (bcRecvCell h j c) 0) :=
  BodyLemmas.close_step m K c (BodyLemmas.csem_dma _) fun r hr => Tables.duties_later m _ r hr
-- No device pays a receive cell of the device's own row: it has no duty in any round.
theorem close_bcRecv_own (h : Fin 2) :
    iprop(records m K ∗ atPos ER (bcRecvCell h (rj c 0) c) 0 ∅ 0) ⊢ iprop(|={Set.univ}=> semVal (bcRecvCell h (rj c 0) c) 0) :=
  BodyLemmas.close_step m K c (BodyLemmas.csem_dma _) fun r _ => Tables.duties_bcRecv_own m h c r

end Cert.Kernel.Steps

end
-- ==== Proof.StepsMK.lean ====
import proofs.«900787_g7700000000000788_dist_flashdec_v7x_xyz2x2x4_y_b8_sq8_skv1024_h16_d128_f32_1_alg».proof.Proof.ValsK

namespace Cert.Kernel.Steps

open Cert.Kernel Cert.Kernel.Gen Cert.Kernel.Proto
open Idealize.ShloMosaic Idealize.ShloMosaic.ValueIdx

abbrev R4 (g : Fin 4) : Rect S4x8x4x128 := Rect.unit (s := S4x8x4x128) ![g.val, 0, 0, 0] S1x8x4x128.size (inb4 g)
abbrev R3 (g : Fin 4) : Rect S4x8x4 := Rect.unit (s := S4x8x4) ![g.val, 0, 0] S1x8x4.size (inb3 g)
abbrev R5 (off : Fin 5 → Nat) (inb : ∀ a, off a + S1x1x8x8x128.size a ≤ S2x8x8x8x128.size a) : Rect S2x8x8x8x128 :=
  Rect.unit (s := S2x8x8x8x128) off S1x1x8x8x128.size inb

-- A unit-stride slice places its own index at its offsets: the group, slot or half on the leading axes, the rest unchanged.
theorem R4_emb (g : Fin 4) (x : S1x8x4x128.Idx) :
    (R4 g).emb x = ix4 g (show Fin 8 from x 1) (show Fin 4 from x 2) (show Fin 128 from x 3) := by
  funext a; apply Fin.ext
  have h0 : (x 0).val < 1 := (x 0).isLt
  match a with
  | ⟨0, _⟩ => show g.val + 1 * (x 0).val = g.val; omega
  | ⟨1, _⟩ | ⟨2, _⟩ | ⟨3, _⟩ => exact (Nat.zero_add _).trans (Nat.one_mul _)
theorem R3_emb (g : Fin 4) (x : S1x8x4.Idx) :
    (R3 g).emb x = ix3 g (show Fin 8 from x 1) (show Fin 4 from x 2) := by
  funext a; apply Fin.ext
  have h0 : (x 0).val < 1 := (x 0).isLt
  match a with
  | ⟨0, _⟩ => show g.val + 1 * (x 0).val = g.val; omega
  | ⟨1, _⟩ | ⟨2, _⟩ => exact (Nat.zero_add _).trans (Nat.one_mul _)
theorem R5_emb (h : Fin 2) (j : Fin 8) (inb) (x : S1x1x8x8x128.Idx) :
    (R5 ![h.val, j.val, 0, 0, 0] inb).emb x = ix5 h j (show Fin 8 from x 2) (show Fin 8 from x 3) (show Fin 128 from x 4) := by
  funext a; apply Fin.ext
  have h0 : (x 0).val < 1 := (x 0).isLt
  have h1 : (x 1).val < 1 := (x 1).isLt
  match a with
  | ⟨0, _⟩ => show h.val + 1 * (x 0).val = h.val; omega
  | ⟨1, _⟩ => show j.val + 1 * (x 1).val = j.val; omega
  | ⟨2, _⟩ | ⟨3, _⟩ | ⟨4, _⟩ => exact (Nat.zero_add _).trans (Nat.one_mul _)

-- An index of a block with leading axes of extent one has zero there.
theorem eq_ix4_0 (x : S1x8x4x128.Idx) : x = ix4 (0 : Fin 1) (show Fin 8 from x 1) (show Fin 4 from x 2) (show Fin 128 from x 3) :=
  funext fun a => match a with
  | ⟨0, _⟩ => Fin.ext (Nat.lt_one_iff.mp (x 0).isLt)
  | ⟨1, _⟩ | ⟨2, _⟩ | ⟨3, _⟩ => rfl
theorem eq_ix3_0 (x : S1x8x4.Idx) : x = ix3 (0 : Fin 1) (show Fin 8 from x 1) (show Fin 4 from x 2) :=
  funext fun a => match a with
  | ⟨0, _⟩ => Fin.ext (Nat.lt_one_iff.mp (x 0).isLt)
  | ⟨1, _⟩ | ⟨2, _⟩ => rfl
theorem eq_ix5_00 (x : S1x1x8x8x128.Idx) :
    x = ix5 (0 : Fin 1) (0 : Fin 1) (show Fin 8 from x 2) (show Fin 8 from x 3) (show Fin 128 from x 4) :=
  funext fun a => match a with
  | ⟨0, _⟩ => Fin.ext (Nat.lt_one_iff.mp (x 0).isLt)
  | ⟨1, _⟩ => Fin.ext (Nat.lt_one_iff.mp (x 1).isLt)
  | ⟨2, _⟩ | ⟨3, _⟩ | ⟨4, _⟩ => rfl

end Cert.Kernel.Steps
-- ==== Proof.StepsZK.lean ====
import proofs.«900787_g7700000000000788_dist_flashdec_v7x_xyz2x2x4_y_b8_sq8_skv1024_h16_d128_f32_1_alg».proof.Proof.GeomK

noncomputable section

namespace Cert.Kernel.Steps

open Cert.Kernel Cert.Kernel.Gen Cert.Kernel.Mesh Cert.Kernel.Proto Cert.Kernel.Iface
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

theorem rows_nodup (c : Dev nD) : [rj c 0, rj c 1, rj c 2, rj c 3, rj c 4, rj c 5, rj c 6, rj c 7].Nodup := by revert c; decide
theorem rows_univ (c : Dev nD) :
    (Finset.univ : Finset (Fin 8)) = [rj c 0, rj c 1, rj c 2, rj c 3, rj c 4, rj c 5, rj c 6, rj c 7].toFinset := by
  revert c; decide

-- The eight rows met going round the ring from any device are all eight rows, so a product over them may be listed from row 0.
theorem recv_rows (c : Dev nD) (Ψ : Fin 8 → sProp 𝕄) :
    (iprop(Ψ (rj c 0) ∗ Ψ (rj c 1) ∗ Ψ (rj c 2) ∗ Ψ (rj c 3) ∗ Ψ (rj c 4) ∗ Ψ (rj c 5) ∗ Ψ (rj c 6) ∗ Ψ (rj c 7)) : sProp 𝕄)
      ⊢ iprop(Ψ 0 ∗ Ψ 1 ∗ Ψ 2 ∗ Ψ 3 ∗ Ψ 4 ∗ Ψ 5 ∗ Ψ 6 ∗ Ψ 7) :=
  Entails.of_eq ((bigSep_univ_eq_bigSepL [rj c 0, rj c 1, rj c 2, rj c 3, rj c 4, rj c 5, rj c 6, rj c 7] (rows_univ c) (rows_nodup c) Ψ).symm.trans
    (bigSep_univ_eq_bigSepL [0, 1, 2, 3, 4, 5, 6, 7] (by decide) (by decide) Ψ))

theorem recv_rows₂ (c : Dev nD) (Ψ Ψ' : Fin 8 → sProp 𝕄) :
    (iprop(Ψ (rj c 0) ∗ Ψ (rj c 1) ∗ Ψ (rj c 2) ∗ Ψ (rj c 3) ∗ Ψ (rj c 4) ∗ Ψ (rj c 5) ∗ Ψ (rj c 6) ∗ Ψ (rj c 7)
        ∗ Ψ' (rj c 0) ∗ Ψ' (rj c 1) ∗ Ψ' (rj c 2) ∗ Ψ' (rj c 3) ∗ Ψ' (rj c 4) ∗ Ψ' (rj c 5) ∗ Ψ' (rj c 6) ∗ Ψ' (rj c 7)) : sProp 𝕄)
      ⊢ iprop(Ψ 0 ∗ Ψ 1 ∗ Ψ 2 ∗ Ψ 3 ∗ Ψ 4 ∗ Ψ 5 ∗ Ψ 6 ∗ Ψ 7 ∗ Ψ' 0 ∗ Ψ' 1 ∗ Ψ' 2 ∗ Ψ' 3 ∗ Ψ' 4 ∗ Ψ' 5 ∗ Ψ' 6 ∗ Ψ' 7) := by
  iintro ⟨Ha0, Ha1, Ha2, Ha3, Ha4, Ha5, Ha6, Ha7, Hb⟩
  ihave HA := (recv_rows c Ψ) $$ [Ha0 Ha1 Ha2 Ha3 Ha4 Ha5 Ha6 Ha7]
  · iframe
  ihave HB := (recv_rows c Ψ') $$ Hb
  icases HA with ⟨Ha0, Ha1, Ha2, Ha3, Ha4, Ha5, Ha6, Ha7⟩
  iframe Ha0 Ha1 Ha2 Ha3 Ha4 Ha5 Ha6 Ha7
  iexact HB

-- First the sixty-two semaphores, the last sixteen put in the order of their rows, become the product over 2 … 63; then each buffer is whole again from its pieces.
theorem assemble_phi1 (c : Dev nD) :
    (iprop((∃ f, whole c cc0_scratch0 f)
      ∗ (∃ f, whole c cc0_scratch1 f)
      ∗ (∃ f, whole c cc0_scratch2 f)
      ∗ ((obSrc 0).view.loc (c : Thread nD τ) ↦[(obSrc 0).view.set]{fullShare} Vals.ob m c)
      ∗ ((obSrc 1).view.loc (c : Thread nD τ) ↦[(obSrc 1).view.set]{fullShare} Vals.ob m c)
      ∗ ((obSrc 2).view.loc (c : Thread nD τ) ↦[(obSrc 2).view.set]{fullShare} Vals.ob m c)
      ∗ ((obSrc 3).view.loc (c : Thread nD τ) ↦[(obSrc 3).view.set]{fullShare} Vals.ob m c)
      ∗ ((obDst 0).view.loc (c : Thread nD τ) ↦[(obDst 0).view.set]{fullShare} Vals.ob m (ynbr c))
      ∗ ((obDst 1).view.loc (c : Thread nD τ) ↦[(obDst 1).view.set]{fullShare} Vals.ob m (ynbr c))
      ∗ ((obDst 2).view.loc (c : Thread nD τ) ↦[(obDst 2).view.set]{fullShare} Vals.ob m (ynbr c))
      ∗ ((obDst 3).view.loc (c : Thread nD τ) ↦[(obDst 3).view.set]{fullShare} Vals.ob m (ynbr c))
      ∗ ((lbSrc 0).view.loc (c : Thread nD τ) ↦[(lbSrc 0).view.set]{fullShare.left} Vals.lb m c)
      ∗ ((lbSrc 0).view.loc (c : Thread nD τ) ↦[(lbSrc 0).view.set]{fullShare.right} Vals.lb m c)
      ∗ ((lbSrc 1).view.loc (c : Thread nD τ) ↦[(lbSrc 1).view.set]{fullShare.left} Vals.lb m c)
      ∗ ((lbSrc 1).view.loc (c : Thread nD τ) ↦[(lbSrc 1).view.set]{fullShare.right} Vals.lb m c)
      ∗ ((lbSrc 2).view.loc (c : Thread nD τ) ↦[(lbSrc 2).view.set]{fullShare.left} Vals.lb m c)
      ∗ ((lbSrc 2).view.loc (c : Thread nD τ) ↦[(lbSrc 2).view.set]{fullShare.right} Vals.lb m c)
      ∗ ((lbSrc 3).view.loc (c : Thread nD τ) ↦[(lbSrc 3).view.set]{fullShare.left} Vals.lb m c)
      ∗ ((lbSrc 3).view.loc (c : Thread nD τ) ↦[(lbSrc 3).view.set]{fullShare.right} Vals.lb m c)
      ∗ ((lbDst 0).view.loc (c : Thread nD τ) ↦[(lbDst 0).view.set]{fullShare} Vals.lb m (ynbr c))
      ∗ ((lbDst 1).view.loc (c : Thread nD τ) ↦[(lbDst 1).view.set]{fullShare} Vals.lb m (ynbr c))
      ∗ ((lbDst 2).view.loc (c : Thread nD τ) ↦[(lbDst 2).view.set]{fullShare} Vals.lb m (ynbr c))
      ∗ ((lbDst 3).view.loc (c : Thread nD τ) ↦[(lbDst 3).view.set]{fullShare} Vals.lb m (ynbr c))
      ∗ ((bfView c 0).view.loc (c : Thread nD τ) ↦[(bfView c 0).view.set]{bcShare 1} Vals.bf m c)
      ∗ ((bfView c 0).view.loc (c : Thread nD τ) ↦[(bfView c 0).view.set]{bcShare 2} Vals.bf m c)
      ∗ ((bfView c 0).view.loc (c : Thread nD τ) ↦[(bfView c 0).view.set]{bcShare 3} Vals.bf m c)
      ∗ ((bfView c 0).view.loc (c : Thread nD τ) ↦[(bfView c 0).view.set]{bcShare 4} Vals.bf m c)
      ∗ ((bfView c 0).view.loc (c : Thread nD τ) ↦[(bfView c 0).view.set]{bcShare 5} Vals.bf m c)
      ∗ ((bfView c 0).view.loc (c : Thread nD τ) ↦[(bfView c 0).view.set]{bcShare 6} Vals.bf m c)
      ∗ ((bfView c 0).view.loc (c : Thread nD τ) ↦[(bfView c 0).view.set]{bcShare 7} Vals.bf m c)
      ∗ ((bfView c 1).view.loc (c : Thread nD τ) ↦[(bfView c 1).view.set]{bcShare 1} Vals.bf m c)
      ∗ ((bfView c 1).view.loc (c : Thread nD τ) ↦[(bfView c 1).view.set]{bcShare 2} Vals.bf m c)
      ∗ ((bfView c 1).view.loc (c : Thread nD τ) ↦[(bfView c 1).view.set]{bcShare 3} Vals.bf m c)
      ∗ ((bfView c 1).view.loc (c : Thread nD τ) ↦[(bfView c 1).view.set]{bcShare 4} Vals.bf m c)
      ∗ ((bfView c 1).view.loc (c : Thread nD τ) ↦[(bfView c 1).view.set]{bcShare 5} Vals.bf m c)
      ∗ ((bfView c 1).view.loc (c : Thread nD τ) ↦[(bfView c 1).view.set]{bcShare 6} Vals.bf m c)
      ∗ ((bfView c 1).view.loc (c : Thread nD τ) ↦[(bfView c 1).view.set]{bcShare 7} Vals.bf m c)
      ∗ ((bfView (ring c 1) 0).view.loc (c : Thread nD τ) ↦[(bfView (ring c 1) 0).view.set]{fullShare} Vals.bf m (ring c 1))
      ∗ ((bfView (ring c 2) 0).view.loc (c : Thread nD τ) ↦[(bfView (ring c 2) 0).view.set]{fullShare} Vals.bf m (ring c 2))
      ∗ ((bfView (ring c 3) 0).view.loc (c : Thread nD τ) ↦[(bfView (ring c 3) 0).view.set]{fullShare} Vals.bf m (ring c 3))
      ∗ ((bfView (ring c 4) 0).view.loc (c : Thread nD τ) ↦[(bfView (ring c 4) 0).view.set]{fullShare} Vals.bf m (ring c 4))
      ∗ ((bfView (ring c 5) 0).view.loc (c : Thread nD τ) ↦[(bfView (ring c 5) 0).view.set]{fullShare} Vals.bf m (ring c 5))
      ∗ ((bfView (ring c 6) 0).view.loc (c : Thread nD τ) ↦[(bfView (ring c 6) 0).view.set]{fullShare} Vals.bf m (ring c 6))
      ∗ ((bfView (ring c 7) 0).view.loc (c : Thread nD τ) ↦[(bfView (ring c 7) 0).view.set]{fullShare} Vals.bf m (ring c 7))
      ∗ ((bfView (ring c 1) 1).view.loc (c : Thread nD τ) ↦[(bfView (ring c 1) 1).view.set]{fullShare} Vals.bf m (ring c 1))
      ∗ ((bfView (ring c 2) 1).view.loc (c : Thread nD τ) ↦[(bfView (ring c 2) 1).view.set]{fullShare} Vals.bf m (ring c 2))
      ∗ ((bfView (ring c 3) 1).view.loc (c : Thread nD τ) ↦[(bfView (ring c 3) 1).view.set]{fullShare} Vals.bf m (ring c 3))
      ∗ ((bfView (ring c 4) 1).view.loc (c : Thread nD τ) ↦[(bfView (ring c 4) 1).view.set]{fullShare} Vals.bf m (ring c 4))
      ∗ ((bfView (ring c 5) 1).view.loc (c : Thread nD τ) ↦[(bfView (ring c 5) 1).view.set]{fullShare} Vals.bf m (ring c 5))
      ∗ ((bfView (ring c 6) 1).view.loc (c : Thread nD τ) ↦[(bfView (ring c 6) 1).view.set]{fullShare} Vals.bf m (ring c 6))
      ∗ ((bfView (ring c 7) 1).view.loc (c : Thread nD τ) ↦[(bfView (ring c 7) 1).view.set]{fullShare} Vals.bf m (ring c 7))
      ∗ whole c main_arg1 (m ((c : Thread nD τ).loc main_arg1))
      ∗ whole c main_arg2 (m ((c : Thread nD τ).loc main_arg2))
      ∗ semVal ((c : Thread nD τ), SemLoc.dma (2 : DmaSem sig)) 0
      ∗ semVal ((c : Thread nD τ), SemLoc.dma (3 : DmaSem sig)) 0
      ∗ semVal ((c : Thread nD τ), SemLoc.dma (4 : DmaSem sig)) 0
      ∗ semVal ((c : Thread nD τ), SemLoc.dma (5 : DmaSem sig)) 0
      ∗ semVal ((c : Thread nD τ), SemLoc.dma (6 : DmaSem sig)) 0
      ∗ semVal ((c : Thread nD τ), SemLoc.dma (7 : DmaSem sig)) 0
      ∗ semVal ((c : Thread nD τ), SemLoc.dma (8 : DmaSem sig)) 0
      ∗ semVal ((c : Thread nD τ), SemLoc.dma (9 : DmaSem sig)) 0
      ∗ semVal ((c : Thread nD τ), SemLoc.dma (10 : DmaSem sig)) 0
      ∗ semVal ((c : Thread nD τ), SemLoc.dma (11 : DmaSem sig)) 0
      ∗ semVal ((c : Thread nD τ), SemLoc.dma (12 : DmaSem sig)) 0
      ∗ semVal ((c : Thread nD τ), SemLoc.dma (13 : DmaSem sig)) 0
      ∗ semVal ((c : Thread nD τ), SemLoc.dma (14 : DmaSem sig)) 0
      ∗ semVal ((c : Thread nD τ), SemLoc.dma (15 : DmaSem sig)) 0
      ∗ semVal ((c : Thread nD τ), SemLoc.dma (16 : DmaSem sig)) 0
      ∗ semVal ((c : Thread nD τ), SemLoc.dma (17 : DmaSem sig)) 0
      ∗ semVal (yoSendCell 0 c) 0
      ∗ semVal (yoSendCell 1 c) 0
      ∗ semVal (yoSendCell 2 c) 0
      ∗ semVal (yoSendCell 3 c) 0
      ∗ semVal (yoRecvCell 0 c) 0
      ∗ semVal (yoRecvCell 1 c) 0
      ∗ semVal (yoRecvCell 2 c) 0
      ∗ semVal (yoRecvCell 3 c) 0
      ∗ semVal (ylSendCell 0 c) 0
      ∗ semVal (ylSendCell 1 c) 0
      ∗ semVal (ylSendCell 2 c) 0
      ∗ semVal (ylSendCell 3 c) 0
      ∗ semVal (ylRecvCell 0 c) 0
      ∗ semVal (ylRecvCell 1 c) 0
      ∗ semVal (ylRecvCell 2 c) 0
      ∗ semVal (ylRecvCell 3 c) 0
      ∗ semVal (bcSendCell ⟨0, by decide⟩ c) 0
      ∗ semVal (bcSendCell ⟨1, by decide⟩ c) 0
      ∗ semVal (bcSendCell ⟨2, by decide⟩ c) 0
      ∗ semVal (bcSendCell ⟨3, by decide⟩ c) 0
      ∗ semVal (bcSendCell ⟨4, by decide⟩ c) 0
      ∗ semVal (bcSendCell ⟨5, by decide⟩ c) 0
      ∗ semVal (bcSendCell ⟨6, by decide⟩ c) 0
      ∗ semVal (bcSendCell ⟨7, by decide⟩ c) 0
      ∗ semVal (bcSendCell ⟨8, by decide⟩ c) 0
      ∗ semVal (bcSendCell ⟨9, by decide⟩ c) 0
      ∗ semVal (bcSendCell ⟨10, by decide⟩ c) 0
      ∗ semVal (bcSendCell ⟨11, by decide⟩ c) 0
      ∗ semVal (bcSendCell ⟨12, by decide⟩ c) 0
      ∗ semVal (bcSendCell ⟨13, by decide⟩ c) 0
      ∗ semVal (bcRecvCell 0 (rj c 0) c) 0
      ∗ semVal (bcRecvCell 0 (rj c 1) c) 0
      ∗ semVal (bcRecvCell 0 (rj c 2) c) 0
      ∗ semVal (bcRecvCell 0 (rj c 3) c) 0
      ∗ semVal (bcRecvCell 0 (rj c 4) c) 0
      ∗ semVal (bcRecvCell 0 (rj c 5) c) 0
      ∗ semVal (bcRecvCell 0 (rj c 6) c) 0
      ∗ semVal (bcRecvCell 0 (rj c 7) c) 0
      ∗ semVal (bcRecvCell 1 (rj c 0) c) 0
      ∗ semVal (bcRecvCell 1 (rj c 1) c) 0
      ∗ semVal (bcRecvCell 1 (rj c 2) c) 0
      ∗ semVal (bcRecvCell 1 (rj c 3) c) 0
      ∗ semVal (bcRecvCell 1 (rj c 4) c) 0
      ∗ semVal (bcRecvCell 1 (rj c 5) c) 0
      ∗ semVal (bcRecvCell 1 (rj c 6) c) 0
      ∗ semVal (bcRecvCell 1 (rj c 7) c) 0) : sProp 𝕄)
      ⊢ Φ₁ m c := by
  apply BIBase.Entails.trans
  · iterate 53 apply sep_mono_right
    refine BIBase.Entails.trans ?_ (BIBase.Entails.of_eq (bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61] (by decide) (by decide)
      (fun i : Fin 62 => semVal ((c : Thread nD τ), SemLoc.dma (⟨2 + i.val, by show 2 + i.val < 64; have := i.isLt; omega⟩ : DmaSem sig)) 0)).symm)
    iterate 46 refine sep_mono_right ?_
    exact recv_rows₂ c (fun j => semVal (bcRecvCell 0 j c) 0) (fun j => semVal (bcRecvCell 1 j c) 0)
  unfold Φ₁
  iintro ⟨H0, H1, H2, Ho0, Ho1, Ho2, Ho3, Hp0, Hp1, Hp2, Hp3, Hl0a, Hl0b, Hl1a, Hl1b, Hl2a, Hl2b, Hl3a, Hl3b, Hq0, Hq1, Hq2, Hq3,
    Hs01, Hs02, Hs03, Hs04, Hs05, Hs06, Hs07, Hs11, Hs12, Hs13, Hs14, Hs15, Hs16, Hs17,
    Hr01, Hr02, Hr03, Hr04, Hr05, Hr06, Hr07, Hr11, Hr12, Hr13, Hr14, Hr15, Hr16, Hr17, Ha1, Ha2, Hsems⟩
  iframe H0 H1 H2 Ha1 Ha2
  isplitl [Ho0 Ho1 Ho2 Ho3]
  · iexists (Vals.ob m c)
    iapply (Geom.join3 c (Vals.ob m c))
    iframe
  isplitl [Hp0 Hp1 Hp2 Hp3]
  · iexists (Vals.ob m (ynbr c))
    iapply (Geom.join4 c (Vals.ob m (ynbr c)))
    iframe
  isplitl [Hl0a Hl0b Hl1a Hl1b Hl2a Hl2b Hl3a Hl3b]
  · iexists (Vals.lb m c)
    iapply (Geom.join5 c (Vals.lb m c))
    isplitl [Hl0a Hl0b]
    · iapply (Geom.halves _ _).2; iframe
    isplitl [Hl1a Hl1b]
    · iapply (Geom.halves _ _).2; iframe
    isplitl [Hl2a Hl2b]
    · iapply (Geom.halves _ _).2; iframe
    iapply (Geom.halves _ _).2; iframe
  isplitl [Hq0 Hq1 Hq2 Hq3]
  · iexists (Vals.lb m (ynbr c))
    iapply (Geom.join6 c (Vals.lb m (ynbr c)))
    iframe
  isplitr [Hsems]
  · iapply (Geom.join7 c)
    isplitl [Hs01 Hs02 Hs03 Hs04 Hs05 Hs06 Hs07]
    · iexists (Vals.bf m c)
      iapply (Geom.shares7 _ _).2
      iframe
    isplitl [Hs11 Hs12 Hs13 Hs14 Hs15 Hs16 Hs17]
    · iexists (Vals.bf m c)
      iapply (Geom.shares7 _ _).2
      iframe
    isplitl [Hr01]; · iexists _; iexact Hr01
    isplitl [Hr11]; · iexists _; iexact Hr11
    isplitl [Hr02]; · iexists _; iexact Hr02
    isplitl [Hr12]; · iexists _; iexact Hr12
    isplitl [Hr03]; · iexists _; iexact Hr03
    isplitl [Hr13]; · iexists _; iexact Hr13
    isplitl [Hr04]; · iexists _; iexact Hr04
    isplitl [Hr14]; · iexists _; iexact Hr14
    isplitl [Hr05]; · iexists _; iexact Hr05
    isplitl [Hr15]; · iexists _; iexact Hr15
    isplitl [Hr06]; · iexists _; iexact Hr06
    isplitl [Hr16]; · iexists _; iexact Hr16
    isplitl [Hr07]; · iexists _; iexact Hr07
    iexists _; iexact Hr17
  iexact Hsems

end Cert.Kernel.Steps

end
-- ==== Proof.SlabValueK.lean ====
import proofs.«900787_g7700000000000788_dist_flashdec_v7x_xyz2x2x4_y_b8_sq8_skv1024_h16_d128_f32_1_alg».proof.Proof.ValsK
import Idealize.ShloMosaic.Lib.ValueLayout

noncomputable section

namespace Cert.Kernel.SlabValue

open Cert.Kernel Cert.Kernel.Gen Cert.Kernel.Mesh Cert.Kernel.Proto
open Idealize.ShloMosaic Idealize.ShloMosaic.ValueIdx
open Idealize.ShloMosaic.TcCoe

variable {F : FTy → Type} [FloatOps F]
variable (m : (ℓ : Loc nD τ sig) → Buf (Elt F) ℓ)

abbrev Buf2 := Memref sig .tc .vmem S2x4x1024x128 .f32
abbrev Arr := Memref sig .tc .hbm S8x1024x16x128 .f32

theorem panel_inb {s : Nat} (hs : s < 2) (hh : Fin 4) (a : Fin 4) :
    (![s, hh.val, 0, 0] : Fin 4 → Nat) a + S1x1x1024x128.size a ≤ S2x4x1024x128.size a := by
  match a with
  | ⟨0, _⟩ => exact hs
  | ⟨1, _⟩ => exact hh.isLt
  | ⟨2, _⟩ => exact Nat.le_refl _
  | ⟨3, _⟩ => exact Nat.le_refl _

abbrev panel (B : Buf2) (s hh : Nat) (inb : ∀ a, (![s, hh, 0, 0] : Fin 4 → Nat) a + S1x1x1024x128.size a ≤ S2x4x1024x128.size a) :
    View sig .tc .vmem S1024x128 .f32 :=
  ((B.slice (Rect.unit (s := S2x4x1024x128) ![s, hh, 0, 0] S1x1x1024x128.size inb) (fun _ => rfl)).squeeze S1024x128 squeezes_S1x1x1024x128_S1024x128).view

theorem read_write_panel (B : Buf2) (s hh : Nat) (inb) (f : B.view.ty.Contents (Elt F)) (w : S1024x128.Idx → Elt F .f32)
    (a : Fin 2) (b : Fin 4) (k : Fin 1024) (d : Fin 128) :
    B.view.read (Elt F) (View.write (Elt F) (panel B s hh inb) f w Finset.univ) (ix4 a b k d)
      = if a.val = s ∧ b.val = hh then w (ix2 k d) else B.view.read (Elt F) f (ix4 a b k d) := by
  rw [show View.write (Elt F) (panel B s hh inb) f w Finset.univ = _ from
    View.write_reshape_univ (B.view.slice (Rect.unit (s := S2x4x1024x128) ![s, hh, 0, 0] S1x1x1024x128.size inb)) _ f w]
  by_cases h : a.val = s ∧ b.val = hh
  · rw [if_pos h]
    have hi : (Rect.unit (s := S2x4x1024x128) ![s, hh, 0, 0] S1x1x1024x128.size inb).emb
        (ix4 (0 : Fin 1) (0 : Fin 1) k d) = ix4 a b k d := by
      funext j; apply Fin.ext; rw [Rect.emb_apply]
      match j with
      | ⟨0, _⟩ => exact h.1.symm
      | ⟨1, _⟩ => exact h.2.symm
      | ⟨2, _⟩ => exact (Nat.zero_add _).trans (Nat.one_mul _)
      | ⟨3, _⟩ => exact (Nat.zero_add _).trans (Nat.one_mul _)
    refine (congrArg _ hi.symm).trans ((View.read_slice_write_emb _ _ _ (Finset.mem_univ _)).trans (congrArg w ?_))
    exact (Equiv.symm_apply_eq _).mpr (reshapeEquiv_ix2_11ab _ _ _).symm
  · rw [if_neg h]
    refine View.read_slice_write_of_not_mem _ _ _ _ fun hm => h ?_
    rw [Rect.map_emb_univ, Rect.mem_set_unit] at hm
    have h0 := hm 0
    have h1 := hm 1
    change s ≤ a.val ∧ a.val < s + 1 at h0
    change hh ≤ b.val ∧ b.val < hh + 1 at h1
    exact ⟨by omega, by omega⟩

abbrev fill (B : Buf2) (s : Nat) (hs : s < 2) (f : B.view.ty.Contents (Elt F)) (w0 w1 w2 w3 : S1024x128.Idx → Elt F .f32) :
    B.view.ty.Contents (Elt F) :=
  View.write (Elt F) (panel B s 3 (panel_inb hs 3))
    (View.write (Elt F) (panel B s 2 (panel_inb hs 2))
      (View.write (Elt F) (panel B s 1 (panel_inb hs 1))
        (View.write (Elt F) (panel B s 0 (panel_inb hs 0)) f w0 Finset.univ) w1 Finset.univ) w2 Finset.univ) w3 Finset.univ

theorem read_fill_ne {B : Buf2} {s : Nat} {hs} {f : B.view.ty.Contents (Elt F)} {w0 w1 w2 w3 : S1024x128.Idx → Elt F .f32}
    {a : Fin 2} (h : a.val ≠ s) (b : Fin 4) (k : Fin 1024) (d : Fin 128) :
    B.view.read (Elt F) (fill B s hs f w0 w1 w2 w3) (ix4 a b k d) = B.view.read (Elt F) f (ix4 a b k d) := by
  rw [read_write_panel, if_neg (mt And.left h), read_write_panel, if_neg (mt And.left h), read_write_panel,
    if_neg (mt And.left h), read_write_panel, if_neg (mt And.left h)]

abbrev src (A : Arr) (off : Fin 4 → Nat) (inb : ∀ a, off a + S1x1024x1x128.size a ≤ S8x1024x16x128.size a) : View sig .tc .hbm S1024x128 .f32 :=
  ((A.slice (Rect.unit (s := S8x1024x16x128) off S1x1024x1x128.size inb) (fun _ => rfl)).squeeze S1024x128 squeezes_S1x1024x1x128_S1024x128).view

abbrev carry (A : Arr) (a : A.view.ty.Contents (Elt F)) (off : Fin 4 → Nat) (inb : ∀ a, off a + S1x1024x1x128.size a ≤ S8x1024x16x128.size a) :
    S1024x128.Idx → Elt F .f32 :=
  ReadAs.same.apply (View.read (Elt F) (src A off inb) a)

theorem reshapeEquiv_ix2_1a1b {a b : ℕ} (h : (⟨2, ![a, b]⟩ : Shape).numel = (⟨4, ![1, a, 1, b]⟩ : Shape).numel) (x : Fin a) (y : Fin b) :
    Shape.reshapeEquiv h (ix2 x y) = ix4 (⟨0, Nat.one_pos⟩ : Fin 1) x (⟨0, Nat.one_pos⟩ : Fin 1) y :=
  Shape.reshapeEquiv_eq_of_rowMajor h (by
    rw [Shape.rowMajor_val_four, Shape.rowMajor_val_two]
    show ((0 * a + x.val) * 1 + 0) * b + y.val = x.val * b + y.val
    simp only [Nat.zero_mul, Nat.zero_add, Nat.mul_one, Nat.add_zero])

theorem carry_apply (A : Arr) (a : A.view.ty.Contents (Elt F)) (off : Fin 4 → Nat) (inb) (p : Fin 8) (hd : Fin 16)
    (hoff : off = ![p.val, 0, hd.val, 0]) (k : Fin 1024) (d : Fin 128) :
    carry A a off inb (ix2 k d) = A.view.read (Elt F) a (ix4 p k hd d) := by
  subst hoff
  show A.view.read (Elt F) a ((Rect.unit (s := S8x1024x16x128) ![p.val, 0, hd.val, 0] S1x1024x1x128.size inb).emb
    (Shape.reshapeEquiv squeezes_S1x1024x1x128_S1024x128.numel_eq (ix2 k d))) = _
  rw [reshapeEquiv_ix2_1a1b]
  refine congrArg _ (funext fun j => Fin.ext ?_)
  rw [Rect.emb_apply]
  match j with
  | ⟨0, _⟩ => exact Nat.add_zero _
  | ⟨1, _⟩ => exact (Nat.zero_add _).trans (Nat.one_mul _)
  | ⟨2, _⟩ => exact Nat.add_zero _
  | ⟨3, _⟩ => exact (Nat.zero_add _).trans (Nat.one_mul _)

theorem read_fill_carry {B : Buf2} {s : Nat} {hs} {f : B.view.ty.Contents (Elt F)} {A : Arr} {a : A.view.ty.Contents (Elt F)}
    {o0 o1 o2 o3 : Fin 4 → Nat} {i0 i1 i2 i3} (p : Fin 8) (g : Fin 4)
    (h0 : o0 = ![p.val, 0, 4 * g.val + 0, 0]) (h1 : o1 = ![p.val, 0, 4 * g.val + 1, 0])
    (h2 : o2 = ![p.val, 0, 4 * g.val + 2, 0]) (h3 : o3 = ![p.val, 0, 4 * g.val + 3, 0])
    (b : Fin 4) (k : Fin 1024) (d : Fin 128) :
    B.view.read (Elt F) (fill B s hs f (carry A a o0 i0) (carry A a o1 i1) (carry A a o2 i2) (carry A a o3 i3)) (ix4 (⟨s, hs⟩ : Fin 2) b k d)
      = A.view.read (Elt F) a (ix4 p k (Vals.head g b) d) := by
  match b with
  | 0 =>
    rw [read_write_panel, if_neg, read_write_panel, if_neg, read_write_panel, if_neg, read_write_panel, if_pos ⟨rfl, rfl⟩]
    exact carry_apply A a _ _ p _ h0 k d
    all_goals exact mt And.right (by decide)
  | 1 =>
    rw [read_write_panel, if_neg, read_write_panel, if_neg, read_write_panel, if_pos ⟨rfl, rfl⟩]
    exact carry_apply A a _ _ p _ h1 k d
    all_goals exact mt And.right (by decide)
  | 2 =>
    rw [read_write_panel, if_neg, read_write_panel, if_pos ⟨rfl, rfl⟩]
    exact carry_apply A a _ _ p _ h2 k d
    exact mt And.right (by decide)
  | 3 =>
    rw [read_write_panel, if_pos ⟨rfl, rfl⟩]
    exact carry_apply A a _ _ p _ h3 k d

abbrev slot (s : Nat) (inb : ∀ a, (![s, 0, 0, 0] : Fin 4 → Nat) a + S1x4x1024x128.size a ≤ S2x4x1024x128.size a) : LoadRect S2x4x1024x128 :=
  (Rect.unit (s := S2x4x1024x128) ![s, 0, 0, 0] S1x4x1024x128.size inb).toLoadRect

theorem slot_read (B : Buf2) (s : Nat) (inb) (G : B.view.ty.Contents (Elt F)) (hs : s < 2) (R : S1x4x1024x128.Idx → Elt F .f32)
    (h : ∀ b k d, B.view.read (Elt F) G (ix4 (⟨s, hs⟩ : Fin 2) b k d) = R (ix4 (0 : Fin 1) b k d)) :
    View.readAt (Elt F) B.view (slot s inb) G = R := by
  funext y
  have h0 : (y 0).val < 1 := (y 0).isLt
  refine (congrArg (B.view.read (Elt F) G) (funext fun j => Fin.ext ?_)).trans
    ((h (y 1) (y 2) (y 3)).trans (congrArg R (funext fun j => Fin.ext ?_)))
  · rw [LoadRect.idx_apply]
    match j with
    | ⟨0, _⟩ => show s + 1 * (y 0).val = s; omega
    | ⟨1, _⟩ => exact (Nat.zero_add _).trans (Nat.one_mul _)
    | ⟨2, _⟩ => exact (Nat.zero_add _).trans (Nat.one_mul _)
    | ⟨3, _⟩ => exact (Nat.zero_add _).trans (Nat.one_mul _)
  · match j with
    | ⟨0, _⟩ => show 0 = (y 0).val; omega
    | ⟨1, _⟩ => rfl
    | ⟨2, _⟩ => rfl
    | ⟨3, _⟩ => rfl

theorem read_q (c : Dev nD) (g : Fin 4) (off : Fin 4 → Nat) (inb) (hoff : off = ![pOf c, 0, 4 * g.val, 0]) :
    View.readAt (Elt F) (Memref.whole cc0_stg0_0).view (Rect.unit (s := S8x8x16x128) off S1x8x4x128.size inb).toLoadRect (Vals.qst m c)
      = Vals.qRows m c g := by
  subst hoff
  funext y
  have h0 : (y 0).val < 1 := (y 0).isLt
  show Vals.qst m c ((Rect.unit (s := S8x8x16x128) ![pOf c, 0, 4 * g.val, 0] S1x8x4x128.size inb).toLoadRect.idx y)
    = Vals.qst m c (ix4 (Vals.pFin c) (show Fin 8 from y 1) (Vals.head g (show Fin 4 from y 2)) (show Fin 128 from y 3))
  refine congrArg (Vals.qst m c) (funext fun j => Fin.ext ?_)
  rw [LoadRect.idx_apply]
  match j with
  | ⟨0, _⟩ => show pOf c + 1 * (y 0).val = pOf c; omega
  | ⟨1, _⟩ => exact (Nat.zero_add _).trans (Nat.one_mul _)
  | ⟨2, _⟩ => show 4 * g.val + 1 * (y 2).val = 4 * g.val + (y 2).val; omega
  | ⟨3, _⟩ => exact (Nat.zero_add _).trans (Nat.one_mul _)

theorem read_q_0 (c : Dev nD) :
    View.readAt (Elt F) (Memref.whole cc0_stg0_0).view (Rect.unit (s := S8x8x16x128) (k0_off9 c) S1x8x4x128.size (k0_off9_inb c)).toLoadRect (Vals.qst m c)
      = Vals.qRows m c ⟨0, by decide⟩ :=
  read_q m c _ _ _ (off9_eq c)

theorem read_q_1 (c : Dev nD) :
    View.readAt (Elt F) (Memref.whole cc0_stg0_0).view (Rect.unit (s := S8x8x16x128) (k0_off14 c) S1x8x4x128.size (k0_off14_inb c)).toLoadRect (Vals.qst m c)
      = Vals.qRows m c ⟨1, by decide⟩ :=
  read_q m c _ _ _ (off14_eq c)

theorem read_q_2 (c : Dev nD) :
    View.readAt (Elt F) (Memref.whole cc0_stg0_0).view (Rect.unit (s := S8x8x16x128) (k0_off19 c) S1x8x4x128.size (k0_off19_inb c)).toLoadRect (Vals.qst m c)
      = Vals.qRows m c ⟨2, by decide⟩ :=
  read_q m c _ _ _ (off19_eq c)

theorem read_q_3 (c : Dev nD) :
    View.readAt (Elt F) (Memref.whole cc0_stg0_0).view (Rect.unit (s := S8x8x16x128) (k0_off20 c) S1x8x4x128.size (k0_off20_inb c)).toLoadRect (Vals.qst m c)
      = Vals.qRows m c ⟨3, by decide⟩ :=
  read_q m c _ _ _ (off20_eq c)

abbrev bufK : Buf2 := Memref.whole cc0_scratch0
abbrev bufV : Buf2 := Memref.whole cc0_scratch1
abbrev cpK (c : Dev nD) (off : Fin 4 → Nat) (inb : ∀ a, off a + S1x1024x1x128.size a ≤ S8x1024x16x128.size a) : S1024x128.Idx → Elt F .f32 :=
  carry (Memref.whole main_arg1) (m ((c : Thread nD τ).loc main_arg1)) off inb
abbrev cpV (c : Dev nD) (off : Fin 4 → Nat) (inb : ∀ a, off a + S1x1024x1x128.size a ≤ S8x1024x16x128.size a) : S1024x128.Idx → Elt F .f32 :=
  carry (Memref.whole main_arg2) (m ((c : Thread nD τ).loc main_arg2)) off inb

theorem slab_K_0 (c : Dev nD) (f0 : Buf (Elt F) ((Memref.whole cc0_scratch0 : Memref sig .tc _ _ _).view.loc (c : Thread nD τ)))
    (p10 p11 p12 p13 : S1024x128.Idx → Elt F .f32) :
    View.readAt (Elt F) (Memref.whole cc0_scratch0).view (slot 0 (by decide))
      (fill bufK 1 (by decide) (fill bufK 0 (by decide) f0 (cpK m c (k0_off1 c) (k0_off1_inb c)) (cpK m c (k0_off2 c) (k0_off2_inb c)) (cpK m c (k0_off3 c) (k0_off3_inb c)) (cpK m c (k0_off4 c) (k0_off4_inb c))) p10 p11 p12 p13)
      = Vals.kSlab m c ⟨0, by decide⟩ :=
  slot_read _ _ _ _ (by decide) _ fun b k d =>
    (read_fill_ne (by decide) b k d).trans (read_fill_carry (Vals.pFin c) 0 (off1_eq c) (off2_eq c) (off3_eq c) (off4_eq c) b k d)

theorem slab_K_1 (c : Dev nD) (f0 : Buf (Elt F) ((Memref.whole cc0_scratch0 : Memref sig .tc _ _ _).view.loc (c : Thread nD τ)))
    (p00 p01 p02 p03 p20 p21 p22 p23 : S1024x128.Idx → Elt F .f32) :
    View.readAt (Elt F) (Memref.whole cc0_scratch0).view (slot 1 (by decide))
      (fill bufK 0 (by decide) (fill bufK 1 (by decide) (fill bufK 0 (by decide) f0 p00 p01 p02 p03) (cpK m c (k0_off5 c) (k0_off5_inb c)) (cpK m c (k0_off6 c) (k0_off6_inb c)) (cpK m c (k0_off7 c) (k0_off7_inb c)) (cpK m c (k0_off8 c) (k0_off8_inb c))) p20 p21 p22 p23)
      = Vals.kSlab m c ⟨1, by decide⟩ :=
  slot_read _ _ _ _ (by decide) _ fun b k d =>
    (read_fill_ne (by decide) b k d).trans (read_fill_carry (Vals.pFin c) 1 (off5_eq c) (off6_eq c) (off7_eq c) (off8_eq c) b k d)

theorem slab_K_2 (c : Dev nD) (f0 : Buf (Elt F) ((Memref.whole cc0_scratch0 : Memref sig .tc _ _ _).view.loc (c : Thread nD τ)))
    (p00 p01 p02 p03 p10 p11 p12 p13 p30 p31 p32 p33 : S1024x128.Idx → Elt F .f32) :
    View.readAt (Elt F) (Memref.whole cc0_scratch0).view (slot 0 (by decide))
      (fill bufK 1 (by decide) (fill bufK 0 (by decide) (fill bufK 1 (by decide) (fill bufK 0 (by decide) f0 p00 p01 p02 p03) p10 p11 p12 p13) (cpK m c (k0_off10 c) (k0_off10_inb c)) (cpK m c (k0_off11 c) (k0_off11_inb c)) (cpK m c (k0_off12 c) (k0_off12_inb c)) (cpK m c (k0_off13 c) (k0_off13_inb c))) p30 p31 p32 p33)
      = Vals.kSlab m c ⟨2, by decide⟩ :=
  slot_read _ _ _ _ (by decide) _ fun b k d =>
    (read_fill_ne (by decide) b k d).trans (read_fill_carry (Vals.pFin c) 2 (off10_eq c) (off11_eq c) (off12_eq c) (off13_eq c) b k d)

theorem slab_K_3 (c : Dev nD) (f0 : Buf (Elt F) ((Memref.whole cc0_scratch0 : Memref sig .tc _ _ _).view.loc (c : Thread nD τ)))
    (p00 p01 p02 p03 p10 p11 p12 p13 p20 p21 p22 p23 : S1024x128.Idx → Elt F .f32) :
    View.readAt (Elt F) (Memref.whole cc0_scratch0).view (slot 1 (by decide))
      (fill bufK 1 (by decide) (fill bufK 0 (by decide) (fill bufK 1 (by decide) (fill bufK 0 (by decide) f0 p00 p01 p02 p03) p10 p11 p12 p13) p20 p21 p22 p23) (cpK m c (k0_off15 c) (k0_off15_inb c)) (cpK m c (k0_off16 c) (k0_off16_inb c)) (cpK m c (k0_off17 c) (k0_off17_inb c)) (cpK m c (k0_off18 c) (k0_off18_inb c)))
      = Vals.kSlab m c ⟨3, by decide⟩ :=
  slot_read _ _ _ _ (by decide) _ (read_fill_carry (Vals.pFin c) 3 (off15_eq c) (off16_eq c) (off17_eq c) (off18_eq c))

theorem slab_V_0 (c : Dev nD) (f0 : Buf (Elt F) ((Memref.whole cc0_scratch1 : Memref sig .tc _ _ _).view.loc (c : Thread nD τ)))
    (p10 p11 p12 p13 : S1024x128.Idx → Elt F .f32) :
    View.readAt (Elt F) (Memref.whole cc0_scratch1).view (slot 0 (by decide))
      (fill bufV 1 (by decide) (fill bufV 0 (by decide) f0 (cpV m c (k0_off1 c) (k0_off1_inb c)) (cpV m c (k0_off2 c) (k0_off2_inb c)) (cpV m c (k0_off3 c) (k0_off3_inb c)) (cpV m c (k0_off4 c) (k0_off4_inb c))) p10 p11 p12 p13)
      = Vals.vSlab m c ⟨0, by decide⟩ :=
  slot_read _ _ _ _ (by decide) _ fun b k d =>
    (read_fill_ne (by decide) b k d).trans (read_fill_carry (Vals.pFin c) 0 (off1_eq c) (off2_eq c) (off3_eq c) (off4_eq c) b k d)

theorem slab_V_1 (c : Dev nD) (f0 : Buf (Elt F) ((Memref.whole cc0_scratch1 : Memref sig .tc _ _ _).view.loc (c : Thread nD τ)))
    (p00 p01 p02 p03 p20 p21 p22 p23 : S1024x128.Idx → Elt F .f32) :
    View.readAt (Elt F) (Memref.whole cc0_scratch1).view (slot 1 (by decide))
      (fill bufV 0 (by decide) (fill bufV 1 (by decide) (fill bufV 0 (by decide) f0 p00 p01 p02 p03) (cpV m c (k0_off5 c) (k0_off5_inb c)) (cpV m c (k0_off6 c) (k0_off6_inb c)) (cpV m c (k0_off7 c) (k0_off7_inb c)) (cpV m c (k0_off8 c) (k0_off8_inb c))) p20 p21 p22 p23)
      = Vals.vSlab m c ⟨1, by decide⟩ :=
  slot_read _ _ _ _ (by decide) _ fun b k d =>
    (read_fill_ne (by decide) b k d).trans (read_fill_carry (Vals.pFin c) 1 (off5_eq c) (off6_eq c) (off7_eq c) (off8_eq c) b k d)

theorem slab_V_2 (c : Dev nD) (f0 : Buf (Elt F) ((Memref.whole cc0_scratch1 : Memref sig .tc _ _ _).view.loc (c : Thread nD τ)))
    (p00 p01 p02 p03 p10 p11 p12 p13 p30 p31 p32 p33 : S1024x128.Idx → Elt F .f32) :
    View.readAt (Elt F) (Memref.whole cc0_scratch1).view (slot 0 (by decide))
      (fill bufV 1 (by decide) (fill bufV 0 (by decide) (fill bufV 1 (by decide) (fill bufV 0 (by decide) f0 p00 p01 p02 p03) p10 p11 p12 p13) (cpV m c (k0_off10 c) (k0_off10_inb c)) (cpV m c (k0_off11 c) (k0_off11_inb c)) (cpV m c (k0_off12 c) (k0_off12_inb c)) (cpV m c (k0_off13 c) (k0_off13_inb c))) p30 p31 p32 p33)
      = Vals.vSlab m c ⟨2, by decide⟩ :=
  slot_read _ _ _ _ (by decide) _ fun b k d =>
    (read_fill_ne (by decide) b k d).trans (read_fill_carry (Vals.pFin c) 2 (off10_eq c) (off11_eq c) (off12_eq c) (off13_eq c) b k d)

theorem slab_V_3 (c : Dev nD) (f0 : Buf (Elt F) ((Memref.whole cc0_scratch1 : Memref sig .tc _ _ _).view.loc (c : Thread nD τ)))
    (p00 p01 p02 p03 p10 p11 p12 p13 p20 p21 p22 p23 : S1024x128.Idx → Elt F .f32) :
    View.readAt (Elt F) (Memref.whole cc0_scratch1).view (slot 1 (by decide))
      (fill bufV 1 (by decide) (fill bufV 0 (by decide) (fill bufV 1 (by decide) (fill bufV 0 (by decide) f0 p00 p01 p02 p03) p10 p11 p12 p13) p20 p21 p22 p23) (cpV m c (k0_off15 c) (k0_off15_inb c)) (cpV m c (k0_off16 c) (k0_off16_inb c)) (cpV m c (k0_off17 c) (k0_off17_inb c)) (cpV m c (k0_off18 c) (k0_off18_inb c)))
      = Vals.vSlab m c ⟨3, by decide⟩ :=
  slot_read _ _ _ _ (by decide) _ (read_fill_carry (Vals.pFin c) 3 (off15_eq c) (off16_eq c) (off17_eq c) (off18_eq c))

end Cert.Kernel.SlabValue

end
-- ==== Proof.OutValueK.lean ====
import proofs.«900787_g7700000000000788_dist_flashdec_v7x_xyz2x2x4_y_b8_sq8_skv1024_h16_d128_f32_1_alg».proof.Proof.IfaceK
import proofs.«900787_g7700000000000788_dist_flashdec_v7x_xyz2x2x4_y_b8_sq8_skv1024_h16_d128_f32_1_alg».proof.Proof.MeshMoreK
import Idealize.ShloMosaic.Lib.Writes

noncomputable section

namespace Cert.Kernel.OutValue

open Cert.Kernel Cert.Kernel.Gen Cert.Kernel.Mesh Cert.Kernel.Proto Cert.Kernel.Iface
open Idealize.ShloMosaic Idealize.ShloMosaic.ValueIdx
open Idealize.ShloMosaic.TcCoe

variable {F : FTy → Type} [FloatOps F]
variable (m : (ℓ : Loc nD τ sig) → Buf (Elt F) ℓ)

theorem pay33_eq : (k0_pay33 : Vec F S1x1x8x8x128 .bf16 → FVec F S1x8x8x128 .f32) = k0_pay32 := rfl
theorem pay34_eq : (k0_pay34 : Vec F S1x1x8x8x128 .bf16 → FVec F S1x8x8x128 .f32) = k0_pay32 := rfl
theorem pay35_eq : (k0_pay35 : Vec F S1x1x8x8x128 .bf16 → FVec F S1x8x8x128 .f32) = k0_pay32 := rfl
theorem pay36_eq : (k0_pay36 : Vec F S1x1x8x8x128 .bf16 → FVec F S1x8x8x128 .f32) = k0_pay32 := rfl
theorem pay37_eq : (k0_pay37 : Vec F S1x1x8x8x128 .bf16 → FVec F S1x8x8x128 .f32) = k0_pay32 := rfl
theorem pay38_eq : (k0_pay38 : Vec F S1x1x8x8x128 .bf16 → FVec F S1x8x8x128 .f32) = k0_pay32 := rfl
theorem pay39_eq : (k0_pay39 : Vec F S1x1x8x8x128 .bf16 → FVec F S1x8x8x128 .f32) = k0_pay32 := rfl
theorem pay40_eq : (k0_pay40 : Vec F S1x1x8x8x128 .bf16 → FVec F S1x8x8x128 .f32) = k0_pay32 := rfl
theorem pay41_eq : (k0_pay41 : Vec F S1x1x8x8x128 .bf16 → FVec F S1x8x8x128 .f32) = k0_pay32 := rfl
theorem pay42_eq : (k0_pay42 : Vec F S1x1x8x8x128 .bf16 → FVec F S1x8x8x128 .f32) = k0_pay32 := rfl
theorem pay43_eq : (k0_pay43 : Vec F S1x1x8x8x128 .bf16 → FVec F S1x8x8x128 .f32) = k0_pay32 := rfl
theorem pay44_eq : (k0_pay44 : Vec F S1x1x8x8x128 .bf16 → FVec F S1x8x8x128 .f32) = k0_pay32 := rfl
theorem pay45_eq : (k0_pay45 : Vec F S1x1x8x8x128 .bf16 → FVec F S1x8x8x128 .f32) = k0_pay32 := rfl
theorem pay30_eq (a b : Vec F S1x8x4x128 .bf16) (c d e f : Vec F S1x8x4 .f32) (g : Vec F S8x8x128 .f32) :
    k0_pay30 a b c d e f g = k0_pay27 (k0_pay23 a b) (k0_pay24 c d) (k0_pay25 e) f g := rfl

-- The store of half `h` of the heads into the batch row `d` steps ahead of the device's own: its offsets,
def poff (c : Dev nD) : Fin 2 → Fin 8 → Fin 4 → Nat
  | 0, 0 => k0_off21 c
  | 1, 0 => k0_off25 c
  | 0, ⟨d + 1, _⟩ => k0_off32 c (BitVec.ofNat 32 (1 + d))
  | 1, ⟨d + 1, _⟩ => k0_off36 c (BitVec.ofNat 32 (1 + d))
theorem poff_inb (c : Dev nD) : ∀ (h : Fin 2) (d : Fin 8) (a : Fin 4), poff c h d a + S1x8x8x128.size a ≤ S8x8x16x128.size a
  | 0, 0 => k0_off21_inb c
  | 1, 0 => k0_off25_inb c
  | 0, ⟨d + 1, hd⟩ => k0_off32_inb c ⟨d, Nat.lt_of_succ_lt_succ hd⟩
  | 1, ⟨d + 1, hd⟩ => k0_off36_inb c ⟨d, Nat.lt_of_succ_lt_succ hd⟩
-- its payload: the device's own row unrounded, a received row widened,
def pval (c : Dev nD) (h : Fin 2) : Fin 8 → FVec F S1x8x8x128 .f32
  | 0 => Vals.finOut m c h
  | ⟨d + 1, _⟩ => k0_pay32 (Vals.bfSlotOf m c h (rj c (d + 1)))
def piece (c : Dev nD) (h : Fin 2) (d : Fin 8) : View.Piece (Elt F) S8x8x16x128 .f32 :=
  ⟨Rect.unit (s := S8x8x16x128) (poff c h d) S1x8x8x128.size (poff_inb c h d), pval m c h d⟩

-- and the offsets in closed form: row `(pOf c + d) % 8`, heads from `8 h`.
theorem poff_eq (c : Dev nD) : ∀ (h : Fin 2) (d : Fin 8), poff c h d = ![(rj c d.val).val, 0, 8 * h.val, 0]
  | 0, 0 => (off21_eq c).trans (congrArg (![·, 0, 0, 0]) (rj_zero c).symm)
  | 1, 0 => (off25_eq c).trans (congrArg (![·, 0, 8, 0]) (rj_zero c).symm)
  | 0, 1 => off32_eq_1 c | 0, 2 => off32_eq_2 c | 0, 3 => off32_eq_3 c | 0, 4 => off32_eq_4 c
  | 0, 5 => off32_eq_5 c | 0, 6 => off32_eq_6 c | 0, 7 => off32_eq_7 c
  | 1, 1 => off36_eq_1 c | 1, 2 => off36_eq_2 c | 1, 3 => off36_eq_3 c | 1, 4 => off36_eq_4 c
  | 1, 5 => off36_eq_5 c | 1, 6 => off36_eq_6 c | 1, 7 => off36_eq_7 c

theorem emb_piece (r : Fin 8) (h : Fin 2) (off : Fin 4 → Nat) (hoff : off = ![r.val, 0, 8 * h.val, 0])
    (inb : ∀ a, off a + S1x8x8x128.size a ≤ S8x8x16x128.size a) (x : S1x8x8x128.Idx) :
    (Rect.unit (s := S8x8x16x128) off S1x8x8x128.size inb).emb x = ix4 r (show Fin 8 from x 1) (Vals.head8 h (show Fin 8 from x 2)) (show Fin 128 from x 3) := by
  subst hoff
  funext a
  apply Fin.ext
  rw [Rect.emb_apply]
  have h0 : (x 0).val < 1 := (x 0).isLt
  match a with
  | ⟨0, _⟩ => show r.val + 1 * (x 0).val = r.val; omega
  | ⟨1, _⟩ => exact (Nat.zero_add _).trans (Nat.one_mul _)
  | ⟨2, _⟩ => exact congrArg _ (Nat.one_mul _)
  | ⟨3, _⟩ => exact (Nat.zero_add _).trans (Nat.one_mul _)

theorem mem_piece (r : Fin 8) (h : Fin 2) (off : Fin 4 → Nat) (hoff : off = ![r.val, 0, 8 * h.val, 0])
    (inb : ∀ a, off a + S1x8x8x128.size a ≤ S8x8x16x128.size a) (y : S8x8x16x128.Idx)
    (h0 : (y 0).val = r.val) (h2 : (y 2).val / 8 = h.val) :
    y ∈ (Rect.unit (s := S8x8x16x128) off S1x8x8x128.size inb).set := by
  subst hoff
  rw [Rect.mem_set_unit]
  intro a
  have hh := h.isLt
  have y2 : (y 2).val < 16 := (y 2).isLt
  match a with
  | ⟨0, _⟩ => show r.val ≤ (y 0).val ∧ (y 0).val < r.val + 1; omega
  | ⟨1, _⟩ => exact ⟨Nat.zero_le _, (Nat.zero_add 8).symm ▸ (y 1).isLt⟩
  | ⟨2, _⟩ => show 8 * h.val ≤ (y 2).val ∧ (y 2).val < 8 * h.val + 8; omega
  | ⟨3, _⟩ => exact ⟨Nat.zero_le _, (Nat.zero_add 128).symm ▸ (y 3).isLt⟩

theorem half_of (h : Fin 2) (x2 : Fin 8) :
    (⟨(Vals.head8 h x2).val / 8, by have := (Vals.head8 h x2).isLt; omega⟩ : Fin 2) = h
      ∧ (⟨(Vals.head8 h x2).val % 8, Nat.mod_lt _ (by decide)⟩ : Fin 8) = x2 := by
  have := h.isLt; have := x2.isLt
  exact ⟨Fin.ext (by show (8 * h.val + x2.val) / 8 = h.val; omega), Fin.ext (by show (8 * h.val + x2.val) % 8 = x2.val; omega)⟩

theorem ix4_zero (x : S1x8x8x128.Idx) : ix4 (0 : Fin 1) (show Fin 8 from x 1) (show Fin 8 from x 2) (show Fin 128 from x 3) = x := by
  funext a
  match a with
  | ⟨0, _⟩ => exact (Subsingleton.elim _ _ : (0 : Fin 1) = x 0)
  | ⟨1, _⟩ | ⟨2, _⟩ | ⟨3, _⟩ => rfl

-- Reading the result at head `8 h + x₂` undoes the cut of a head into its half and its place in the half.
theorem out_at (c : Dev nD) (h : Fin 2) (r : Fin 8) (x : S1x8x8x128.Idx) :
    Vals.out m c (ix4 r (show Fin 8 from x 1) (Vals.head8 h (show Fin 8 from x 2)) (show Fin 128 from x 3))
      = if r.val = pOf c then Vals.finOut m c h x else k0_pay32 (Vals.bfSlotOf m c h r) x := by
  obtain ⟨e1, e2⟩ := half_of h (show Fin 8 from x 2)
  show (if r.val = pOf c then Vals.finOut m c ⟨(Vals.head8 h (show Fin 8 from x 2)).val / 8, _⟩ (ix4 (0 : Fin 1) (show Fin 8 from x 1) ⟨(Vals.head8 h (show Fin 8 from x 2)).val % 8, _⟩ (show Fin 128 from x 3))
    else k0_pay32 (Vals.bfSlotOf m c ⟨(Vals.head8 h (show Fin 8 from x 2)).val / 8, _⟩ r) (ix4 (0 : Fin 1) (show Fin 8 from x 1) ⟨(Vals.head8 h (show Fin 8 from x 2)).val % 8, _⟩ (show Fin 128 from x 3))) = _
  rw [e1, e2, ix4_zero]

theorem piece_agree (c : Dev nD) (h : Fin 2) (d : Fin 8) (x : S1x8x8x128.Idx) :
    (piece m c h d).2 x = Vals.out m c ((piece m c h d).1.emb x) := by
  show pval m c h d x = Vals.out m c ((Rect.unit (s := S8x8x16x128) (poff c h d) S1x8x8x128.size (poff_inb c h d)).emb x)
  rw [emb_piece (rj c d.val) h _ (poff_eq c h d) _ x, out_at]
  match d with
  | 0 => exact (if_pos (rj_zero c)).symm
  | ⟨d + 1, hd⟩ => exact (if_neg (rj_ne c ⟨d + 1, hd⟩ (Nat.succ_ne_zero d))).symm

-- The order in which the list of writes names the sixteen pieces.
abbrev ord : List (Fin 2 × Fin 8) :=
  [(1, 7), (1, 6), (1, 5), (1, 4), (1, 3), (1, 2), (1, 1), (0, 7), (0, 6), (0, 5), (0, 4), (0, 3), (0, 2), (0, 1), (1, 0), (0, 0)]
theorem mem_ord : ∀ b : Fin 2 × Fin 8, b ∈ ord := by decide

theorem pieces_agree (c : Dev nD) : ∀ p ∈ ord.map (fun b => piece m c b.1 b.2), ∀ x : p.1.shape.Idx, p.2 x = Vals.out m c (p.1.emb x) := by
  intro p hp
  obtain ⟨b, -, rfl⟩ := List.mem_map.mp hp
  exact piece_agree m c b.1 b.2

-- An element lies in the piece named by its head's half and by how far its row is ahead of the device's own.
theorem pieces_cover (c : Dev nD) (y : S8x8x16x128.Idx) : ∃ p ∈ ord.map (fun b => piece m c b.1 b.2), y ∈ p.1.set := by
  have hp := pOf_lt c
  have y0 : (y 0).val < 8 := (y 0).isLt
  have y2 : (y 2).val < 16 := (y 2).isLt
  let h : Fin 2 := ⟨(y 2).val / 8, by omega⟩
  let d : Fin 8 := ⟨((y 0).val + 8 - pOf c) % 8, Nat.mod_lt _ (by decide)⟩
  exact ⟨piece m c h d, List.mem_map.mpr ⟨(h, d), mem_ord _, rfl⟩, mem_piece (rj c d.val) h (poff c h d) (poff_eq c h d) (poff_inb c h d) y
    (by show (y 0).val = (pOf c + ((y 0).val + 8 - pOf c) % 8) % 8; omega) rfl⟩

theorem read_whole_apply (g : (Memref.whole cc0_stg1_0 : Memref sig .tc _ _ _).view.ty.Contents (Elt F)) (y : S8x8x16x128.Idx) :
    (Memref.whole cc0_stg1_0 : Memref sig .tc _ _ _).view.read (Elt F) g y = g y := rfl

theorem out_of (c : Dev nD) (fo : Buf (Elt F) ((Memref.whole cc0_stg1_0 : Memref sig .tc _ _ _).view.loc (c : Thread nD τ)))
    (L : List (View.Piece (Elt F) S8x8x16x128 .f32)) (hL : L = ord.map fun b => piece m c b.1 b.2) :
    (Memref.whole cc0_stg1_0 : Memref sig .tc _ _ _).view.writes (Elt F) fo L = Vals.out m c := by
  subst hL
  exact funext fun y => (read_whole_apply _ y).symm.trans
    (View.read_writes_apply_of_pieces (Memref.whole cc0_stg1_0 : Memref sig .tc _ _ _).view fo (Vals.out m c) _ (pieces_agree m c) y (pieces_cover m c y))

theorem out_writes (c : Dev nD) (fo : Buf (Elt F) ((Memref.whole cc0_stg1_0 : Memref sig .tc _ _ _).view.loc (c : Thread nD τ))) :
    (Memref.whole cc0_stg1_0 : Memref sig .tc _ _ _).view.writes (Elt F) fo
      [⟨Rect.unit (s := S8x8x16x128) (k0_off36 c 7#32) S1x8x8x128.size (k0_off36_inb c 6), k0_pay32 (Vals.bfSlotOf m c 1 (rj c 7))⟩,
       ⟨Rect.unit (s := S8x8x16x128) (k0_off36 c 6#32) S1x8x8x128.size (k0_off36_inb c 5), k0_pay32 (Vals.bfSlotOf m c 1 (rj c 6))⟩,
       ⟨Rect.unit (s := S8x8x16x128) (k0_off36 c 5#32) S1x8x8x128.size (k0_off36_inb c 4), k0_pay32 (Vals.bfSlotOf m c 1 (rj c 5))⟩,
       ⟨Rect.unit (s := S8x8x16x128) (k0_off36 c 4#32) S1x8x8x128.size (k0_off36_inb c 3), k0_pay32 (Vals.bfSlotOf m c 1 (rj c 4))⟩,
       ⟨Rect.unit (s := S8x8x16x128) (k0_off36 c 3#32) S1x8x8x128.size (k0_off36_inb c 2), k0_pay32 (Vals.bfSlotOf m c 1 (rj c 3))⟩,
       ⟨Rect.unit (s := S8x8x16x128) (k0_off36 c 2#32) S1x8x8x128.size (k0_off36_inb c 1), k0_pay32 (Vals.bfSlotOf m c 1 (rj c 2))⟩,
       ⟨Rect.unit (s := S8x8x16x128) (k0_off36 c 1#32) S1x8x8x128.size (k0_off36_inb c 0), k0_pay32 (Vals.bfSlotOf m c 1 (rj c 1))⟩,
       ⟨Rect.unit (s := S8x8x16x128) (k0_off32 c 7#32) S1x8x8x128.size (k0_off32_inb c 6), k0_pay32 (Vals.bfSlotOf m c 0 (rj c 7))⟩,
       ⟨Rect.unit (s := S8x8x16x128) (k0_off32 c 6#32) S1x8x8x128.size (k0_off32_inb c 5), k0_pay32 (Vals.bfSlotOf m c 0 (rj c 6))⟩,
       ⟨Rect.unit (s := S8x8x16x128) (k0_off32 c 5#32) S1x8x8x128.size (k0_off32_inb c 4), k0_pay32 (Vals.bfSlotOf m c 0 (rj c 5))⟩,
       ⟨Rect.unit (s := S8x8x16x128) (k0_off32 c 4#32) S1x8x8x128.size (k0_off32_inb c 3), k0_pay32 (Vals.bfSlotOf m c 0 (rj c 4))⟩,
       ⟨Rect.unit (s := S8x8x16x128) (k0_off32 c 3#32) S1x8x8x128.size (k0_off32_inb c 2), k0_pay32 (Vals.bfSlotOf m c 0 (rj c 3))⟩,
       ⟨Rect.unit (s := S8x8x16x128) (k0_off32 c 2#32) S1x8x8x128.size (k0_off32_inb c 1), k0_pay32 (Vals.bfSlotOf m c 0 (rj c 2))⟩,
       ⟨Rect.unit (s := S8x8x16x128) (k0_off32 c 1#32) S1x8x8x128.size (k0_off32_inb c 0), k0_pay32 (Vals.bfSlotOf m c 0 (rj c 1))⟩,
       ⟨Rect.unit (s := S8x8x16x128) (k0_off25 c) S1x8x8x128.size (k0_off25_inb c), Vals.finOut m c 1⟩,
       ⟨Rect.unit (s := S8x8x16x128) (k0_off21 c) S1x8x8x128.size (k0_off21_inb c), Vals.finOut m c 0⟩]
    = Vals.out m c :=
  out_of m c fo _ rfl

end Cert.Kernel.OutValue

end
-- ==== Proof.StepsRK.lean ====
import proofs.«900787_g7700000000000788_dist_flashdec_v7x_xyz2x2x4_y_b8_sq8_skv1024_h16_d128_f32_1_alg».proof.Proof.GeomK
import proofs.«900787_g7700000000000788_dist_flashdec_v7x_xyz2x2x4_y_b8_sq8_skv1024_h16_d128_f32_1_alg».proof.Proof.MeshMoreK
import proofs.«900787_g7700000000000788_dist_flashdec_v7x_xyz2x2x4_y_b8_sq8_skv1024_h16_d128_f32_1_alg».proof.Proof.StepsMK

noncomputable section

namespace Cert.Kernel.Steps

open Cert.Kernel Cert.Kernel.Gen Cert.Kernel.Mesh Cert.Kernel.Proto Cert.Kernel.Iface Cert.Kernel.Geom
open Idealize.ShloMosaic
open Idealize.ShloMosaic.TcCoe
open Idealize.SL Idealize.SL.RA Idealize.SL.BI
open scoped Idealize.SL.BI
open Idealize.SL.BI.BIBase Idealize.SL.BI.Laws

variable {F : FTy → Type} [FloatOps F]

local notation "𝕄" => MT nD τ sig Unit (Elt F) ℕ UU ℕ

variable (m : (ℓ : Loc nD τ sig) → Buf (Elt F) ℓ) (c : Dev nD)

-- A full store through a rectangle leaves any contents that read, at each element of the rectangle, what was stored there.
theorem restate_of {cs : CoreSpace} {s : Shape} {e : EltTy} (M : Memref sig (c : Thread nD τ).2.kind cs s e) (r : Rect s)
    {S : Finset (Idx ((M.access r).loc (c : Thread nD τ)))} (hS : S = (M.access r).set)
    (f V : Buf (Elt F) ((M.access r).loc (c : Thread nD τ))) (w : r.shape.Idx → Elt F e)
    (hV : ∀ x, _root_.cast (congrArg (Elt F) (M.access r).elt_eq.symm) (w x) = V ((M.access r).emb x)) :
    (((M.access r).loc (c : Thread nD τ) ↦[S]{fullShare} (M.access r).write (Elt F) f w Finset.univ) : sProp 𝕄)
      ⊢ ((M.access r).loc (c : Thread nD τ) ↦[S]{fullShare} V) := by
  subst hS
  refine Entails.of_eq (pointsTo_congr fun i hi => ?_)
  obtain ⟨x, rfl⟩ := View.exists_emb_of_mem_set _ hi
  rw [View.write_emb_of_mem _ _ (Finset.mem_univ x)]
  exact hV x

theorem restate7 (g : Fin 4) (B : Buf (Elt F) ((obSrc g).view.loc (c : Thread nD τ))) :
    (((obSrc g).view.loc (c : Thread nD τ) ↦[(obSrc g).view.set]{fullShare} B) : sProp 𝕄)
      ⊢ iprop(∀ (f : Buf (Elt F) ((obSrc g).view.loc (c : Thread nD τ))) (w : FVec F S1x8x4x128 .bf16)
          (_ : B = ((Memref.whole cc0_scratch3 : Memref sig .tc .vmem S4x8x4x128 .bf16).access (R4 g)).write (Elt F) f w Finset.univ) (_ : w = Vals.obG m c g),
          ((obSrc g).view.loc (c : Thread nD τ) ↦[(obSrc g).view.set]{fullShare} Vals.ob m c)) :=
  forall_intro fun f => forall_intro fun w => forall_intro fun hB => forall_intro fun hw => by
    subst hB hw
    exact restate_of c (Memref.whole cc0_scratch3 : Memref sig .tc .vmem S4x8x4x128 .bf16) (R4 g) (View.set_reshape _ _) f _ _ fun x =>
      (congrArg (Vals.obG m c g) (eq_ix4_0 x)).trans (congrArg (Vals.ob m c) (R4_emb g x)).symm
theorem restate9 (g : Fin 4) (B : Buf (Elt F) ((lbSrc g).view.loc (c : Thread nD τ))) :
    (((lbSrc g).view.loc (c : Thread nD τ) ↦[(lbSrc g).view.set]{fullShare} B) : sProp 𝕄)
      ⊢ iprop(∀ (f : Buf (Elt F) ((lbSrc g).view.loc (c : Thread nD τ))) (w : FVec F S1x8x4 .f32)
          (_ : B = ((Memref.whole cc0_scratch5 : Memref sig .tc .vmem S4x8x4 .f32).access (R3 g)).write (Elt F) f w Finset.univ) (_ : w = Vals.lG m c g),
          ((lbSrc g).view.loc (c : Thread nD τ) ↦[(lbSrc g).view.set]{fullShare} Vals.lb m c)) :=
  forall_intro fun f => forall_intro fun w => forall_intro fun hB => forall_intro fun hw => by
    subst hB hw
    exact restate_of c (Memref.whole cc0_scratch5 : Memref sig .tc .vmem S4x8x4 .f32) (R3 g) (View.set_reshape _ _) f _ _ fun x =>
      (congrArg (Vals.lG m c g) (eq_ix3_0 x)).trans (congrArg (Vals.lb m c) (R3_emb g x)).symm
theorem restate11 (h : Fin 2) (B : Buf (Elt F) ((bfView c h).view.loc (c : Thread nD τ))) :
    (((bfView c h).view.loc (c : Thread nD τ) ↦[(bfView c h).view.set]{fullShare} B) : sProp 𝕄)
      ⊢ iprop(∀ (off : Fin 5 → Nat) (_ : off = ![h.val, pOf c, 0, 0, 0]) (inb : ∀ a, off a + S1x1x8x8x128.size a ≤ S2x8x8x8x128.size a)
          (f : Buf (Elt F) ((bfView c h).view.loc (c : Thread nD τ))) (w : FVec F S1x1x8x8x128 .bf16)
          (_ : B = ((Memref.whole cc0_scratch7 : Memref sig .tc .vmem S2x8x8x8x128 .bf16).access (R5 off inb)).write (Elt F) f w Finset.univ) (_ : w = Vals.finBf m c h),
          ((bfView c h).view.loc (c : Thread nD τ) ↦[(bfView c h).view.set]{fullShare} Vals.bf m c)) :=
  forall_intro fun off => forall_intro fun hoff => forall_intro fun inb => forall_intro fun f => forall_intro fun w =>
    forall_intro fun hB => forall_intro fun hw => by
      subst hoff hB hw
      exact restate_of c (Memref.whole cc0_scratch7 : Memref sig .tc .vmem S2x8x8x8x128 .bf16) (R5 _ inb) ((set_bfView c h).trans (View.set_slice_whole _ _).symm) f _ _ fun x =>
        (congrArg (Vals.finBf m c h) (eq_ix5_00 x)).trans (congrArg (Vals.bf m c) (R5_emb h (pFin c) inb x)).symm

-- A load through a slice reads the buffer at the slice's elements.
theorem read8 (g : Fin 4) : (Memref.whole cc0_scratch4 : Memref sig .tc .vmem S4x8x4x128 .bf16).view.readAt (Elt F) (R4 g).toLoadRect (Vals.ob m (ynbr c)) = Vals.obPeer m c g :=
  funext fun x => congrArg (Vals.ob m (ynbr c)) (R4_emb g x)
theorem read10 (g : Fin 4) : (Memref.whole cc0_scratch6 : Memref sig .tc .vmem S4x8x4 .f32).view.readAt (Elt F) (R3 g).toLoadRect (Vals.lb m (ynbr c)) = Vals.lbPeer m c g :=
  funext fun x => congrArg (Vals.lb m (ynbr c)) (R3_emb g x)
theorem read9r (g : Fin 4) : (Memref.whole cc0_scratch5 : Memref sig .tc .vmem S4x8x4 .f32).view.readAt (Elt F) (R3 g).toLoadRect (Vals.lb m c) = Vals.lbOwn m c g :=
  funext fun x => congrArg (Vals.lb m c) (R3_emb g x)
theorem read11r (h : Fin 2) (d : ℕ) (hd : d < 8) (off : Fin 5 → Nat) (hoff : off = ![h.val, (pOf c + d) % 8, 0, 0, 0]) {inb : ∀ a, off a + S1x1x8x8x128.size a ≤ S2x8x8x8x128.size a} :
    (Memref.whole cc0_scratch7 : Memref sig .tc .vmem S2x8x8x8x128 .bf16).view.readAt (Elt F) (R5 off inb).toLoadRect (Vals.bf m (ring c d)) = Vals.bfSlotOf m c h (rj c d) := by
  subst hoff
  exact funext fun x => (congrArg (Vals.bf m (ring c d)) (R5_emb h (rj c d) inb x)).trans (by rw [← plane_rj c ⟨d, hd⟩]; rfl)

theorem read8_0 : (Memref.whole cc0_scratch4 : Memref sig .tc .vmem S4x8x4x128 .bf16).view.readAt (Elt F) (Rect.unit (s := S4x8x4x128) ![0, 0, 0, 0] S1x8x4x128.size inb_S4x8x4x128_S1x8x4x128_0_0_0_0).toLoadRect (Vals.ob m (ynbr c)) = Vals.obPeer m c 0 := read8 m c 0
theorem read10_0 : (Memref.whole cc0_scratch6 : Memref sig .tc .vmem S4x8x4 .f32).view.readAt (Elt F) (Rect.unit (s := S4x8x4) ![0, 0, 0] S1x8x4.size inb_S4x8x4_S1x8x4_0_0_0).toLoadRect (Vals.lb m (ynbr c)) = Vals.lbPeer m c 0 := read10 m c 0
theorem read9r_0 : (Memref.whole cc0_scratch5 : Memref sig .tc .vmem S4x8x4 .f32).view.readAt (Elt F) (Rect.unit (s := S4x8x4) ![0, 0, 0] S1x8x4.size inb_S4x8x4_S1x8x4_0_0_0).toLoadRect (Vals.lb m c) = Vals.lbOwn m c 0 := read9r m c 0
theorem read8_1 : (Memref.whole cc0_scratch4 : Memref sig .tc .vmem S4x8x4x128 .bf16).view.readAt (Elt F) (Rect.unit (s := S4x8x4x128) ![1, 0, 0, 0] S1x8x4x128.size inb_S4x8x4x128_S1x8x4x128_1_0_0_0).toLoadRect (Vals.ob m (ynbr c)) = Vals.obPeer m c 1 := read8 m c 1
theorem read10_1 : (Memref.whole cc0_scratch6 : Memref sig .tc .vmem S4x8x4 .f32).view.readAt (Elt F) (Rect.unit (s := S4x8x4) ![1, 0, 0] S1x8x4.size inb_S4x8x4_S1x8x4_1_0_0).toLoadRect (Vals.lb m (ynbr c)) = Vals.lbPeer m c 1 := read10 m c 1
theorem read9r_1 : (Memref.whole cc0_scratch5 : Memref sig .tc .vmem S4x8x4 .f32).view.readAt (Elt F) (Rect.unit (s := S4x8x4) ![1, 0, 0] S1x8x4.size inb_S4x8x4_S1x8x4_1_0_0).toLoadRect (Vals.lb m c) = Vals.lbOwn m c 1 := read9r m c 1
theorem read8_2 : (Memref.whole cc0_scratch4 : Memref sig .tc .vmem S4x8x4x128 .bf16).view.readAt (Elt F) (Rect.unit (s := S4x8x4x128) ![2, 0, 0, 0] S1x8x4x128.size inb_S4x8x4x128_S1x8x4x128_2_0_0_0).toLoadRect (Vals.ob m (ynbr c)) = Vals.obPeer m c 2 := read8 m c 2
theorem read10_2 : (Memref.whole cc0_scratch6 : Memref sig .tc .vmem S4x8x4 .f32).view.readAt (Elt F) (Rect.unit (s := S4x8x4) ![2, 0, 0] S1x8x4.size inb_S4x8x4_S1x8x4_2_0_0).toLoadRect (Vals.lb m (ynbr c)) = Vals.lbPeer m c 2 := read10 m c 2
theorem read9r_2 : (Memref.whole cc0_scratch5 : Memref sig .tc .vmem S4x8x4 .f32).view.readAt (Elt F) (Rect.unit (s := S4x8x4) ![2, 0, 0] S1x8x4.size inb_S4x8x4_S1x8x4_2_0_0).toLoadRect (Vals.lb m c) = Vals.lbOwn m c 2 := read9r m c 2
theorem read8_3 : (Memref.whole cc0_scratch4 : Memref sig .tc .vmem S4x8x4x128 .bf16).view.readAt (Elt F) (Rect.unit (s := S4x8x4x128) ![3, 0, 0, 0] S1x8x4x128.size inb_S4x8x4x128_S1x8x4x128_3_0_0_0).toLoadRect (Vals.ob m (ynbr c)) = Vals.obPeer m c 3 := read8 m c 3
theorem read10_3 : (Memref.whole cc0_scratch6 : Memref sig .tc .vmem S4x8x4 .f32).view.readAt (Elt F) (Rect.unit (s := S4x8x4) ![3, 0, 0] S1x8x4.size inb_S4x8x4_S1x8x4_3_0_0).toLoadRect (Vals.lb m (ynbr c)) = Vals.lbPeer m c 3 := read10 m c 3
theorem read9r_3 : (Memref.whole cc0_scratch5 : Memref sig .tc .vmem S4x8x4 .f32).view.readAt (Elt F) (Rect.unit (s := S4x8x4) ![3, 0, 0] S1x8x4.size inb_S4x8x4_S1x8x4_3_0_0).toLoadRect (Vals.lb m c) = Vals.lbOwn m c 3 := read9r m c 3

-- The by-head buffer at head 4g + a of a row is group g's numerators at head a.
theorem piece_om (g : Fin 4) (inb : ∀ a, (![0, 4 * g.val, 0] : Fin 3 → Nat) a + S8x4x128.size a ≤ S8x16x128.size a) (x : S8x4x128.Idx) :
    Vals.oG m c g x = Vals.om m c ((Rect.unit (s := S8x16x128) ![0, 4 * g.val, 0] S8x4x128.size inb).emb x) := by
  have hx1 : (x 1).val < 4 := (x 1).isLt
  have hg := g.isLt
  have key : ∀ (a : Fin 4) (b : S8x4x128.Idx), a = g → b = x → Vals.oG m c g x = Vals.oG m c a b := by
    rintro _ _ rfl rfl; rfl
  refine key _ _ (Fin.ext ?_) (funext fun a => Fin.ext ?_)
  · show (4 * g.val + 1 * (x 1).val) / 4 = g.val; omega
  · match a with
    | ⟨0, _⟩ => show 0 + 1 * (x 0).val = (x 0).val; omega
    | ⟨1, _⟩ => show (4 * g.val + 1 * (x 1).val) % 4 = (x 1).val; omega
    | ⟨2, _⟩ => show 0 + 1 * (x 2).val = (x 2).val; omega

theorem omHalf_idx (h : Fin 2) (inb : ∀ a, (![0, 8 * h.val, 0] : Fin 3 → Nat) a + S8x8x128.size a ≤ S8x16x128.size a) (j : S8x8x128.Idx) :
    Vals.om m c ((Rect.unit (s := S8x16x128) ![0, 8 * h.val, 0] S8x8x128.size inb).toLoadRect.idx j) = Vals.omHalf m c h j := by
  refine congrArg (Vals.om m c) (funext fun a => Fin.ext ?_)
  match a with
  | ⟨0, _⟩ => show 0 + 1 * (j 0).val = (j 0).val; omega
  | ⟨1, _⟩ => show 8 * h.val + 1 * (j 1).val = 8 * h.val + (j 1).val; omega
  | ⟨2, _⟩ => show 0 + 1 * (j 2).val = (j 2).val; omega

theorem mem_piece (o b : ℕ) (inbP : ∀ a, (![0, o, 0] : Fin 3 → Nat) a + S8x4x128.size a ≤ S8x16x128.size a)
    (inbB : ∀ a, (![0, b, 0] : Fin 3 → Nat) a + S8x8x128.size a ≤ S8x16x128.size a) (j : S8x8x128.Idx)
    (hlo : o ≤ b + (j 1).val) (hhi : b + (j 1).val < o + 4) :
    (Rect.unit (s := S8x16x128) ![0, b, 0] S8x8x128.size inbB).toLoadRect.idx j ∈ (Rect.unit (s := S8x16x128) ![0, o, 0] S8x4x128.size inbP).set := by
  have hj0 : (j 0).val < 8 := (j 0).isLt
  have hj2 : (j 2).val < 128 := (j 2).isLt
  refine Rect.mem_set_unit.mpr fun a => ?_
  match a with
  | ⟨0, _⟩ => show 0 ≤ 0 + 1 * (j 0).val ∧ 0 + 1 * (j 0).val < 0 + 8; omega
  | ⟨1, _⟩ => show o ≤ b + 1 * (j 1).val ∧ b + 1 * (j 1).val < o + 4; omega
  | ⟨2, _⟩ => show 0 ≤ 0 + 1 * (j 2).val ∧ 0 + 1 * (j 2).val < 0 + 128; omega

abbrev omPieces (w0 w1 w2 w3 : FVec F S8x4x128 .f32) : List (View.Piece (Elt F) S8x16x128 .f32) :=
  [⟨Rect.unit (s := S8x16x128) ![0, 12, 0] S8x4x128.size inb_S8x16x128_S8x4x128_0_12_0, w3⟩, ⟨Rect.unit (s := S8x16x128) ![0, 8, 0] S8x4x128.size inb_S8x16x128_S8x4x128_0_8_0, w2⟩, ⟨Rect.unit (s := S8x16x128) ![0, 4, 0] S8x4x128.size inb_S8x16x128_S8x4x128_0_4_0, w1⟩, ⟨Rect.unit (s := S8x16x128) ![0, 0, 0] S8x4x128.size inb_S8x16x128_S8x4x128_0_0_0, w0⟩]

-- The four groups' pieces agree with the by-head numerators; where they cover a half's box, the box reads the half's numerators.
theorem omHalf_readCov (h : Fin 2) (inbB : ∀ a, (![0, 8 * h.val, 0] : Fin 3 → Nat) a + S8x8x128.size a ≤ S8x16x128.size a)
    (w0 w1 w2 w3 : FVec F S8x4x128 .f32) (h0 : w0 = Vals.oG m c 0) (h1 : w1 = Vals.oG m c 1) (h2 : w2 = Vals.oG m c 2) (h3 : w3 = Vals.oG m c 3)
    (hcov : ∀ j : S8x8x128.Idx, ∃ p ∈ omPieces w0 w1 w2 w3, (Rect.unit (s := S8x16x128) ![0, 8 * h.val, 0] S8x8x128.size inbB).toLoadRect.idx j ∈ p.1.set) :
    (Memref.whole cc0_scratch2 : Memref sig .tc .vmem S8x16x128 .f32).view.readCov (omPieces w0 w1 w2 w3) (Rect.unit (s := S8x16x128) ![0, 8 * h.val, 0] S8x8x128.size inbB).toLoadRect = Vals.omHalf m c h := by
  subst h0 h1 h2 h3
  refine funext fun j => (View.read_writes_apply_of_pieces (Memref.whole cc0_scratch2 : Memref sig .tc _ _ _).view _ (Vals.om m c) _ ?_ _ (hcov j)).trans (omHalf_idx m c h inbB j)
  intro p hp x
  simp only [List.mem_cons, List.mem_nil_iff, or_false] at hp
  rcases hp with rfl | rfl | rfl | rfl
  exacts [piece_om m c 3 inb_S8x16x128_S8x4x128_0_12_0 x, piece_om m c 2 inb_S8x16x128_S8x4x128_0_8_0 x, piece_om m c 1 inb_S8x16x128_S8x4x128_0_4_0 x, piece_om m c 0 inb_S8x16x128_S8x4x128_0_0_0 x]

theorem omHalf_readCov0 (w0 w1 w2 w3 : FVec F S8x4x128 .f32) (h0 : w0 = Vals.oG m c 0) (h1 : w1 = Vals.oG m c 1) (h2 : w2 = Vals.oG m c 2) (h3 : w3 = Vals.oG m c 3) :
    (Memref.whole cc0_scratch2 : Memref sig .tc .vmem S8x16x128 .f32).view.readCov [⟨Rect.unit (s := S8x16x128) ![0, 12, 0] S8x4x128.size inb_S8x16x128_S8x4x128_0_12_0, w3⟩, ⟨Rect.unit (s := S8x16x128) ![0, 8, 0] S8x4x128.size inb_S8x16x128_S8x4x128_0_8_0, w2⟩, ⟨Rect.unit (s := S8x16x128) ![0, 4, 0] S8x4x128.size inb_S8x16x128_S8x4x128_0_4_0, w1⟩, ⟨Rect.unit (s := S8x16x128) ![0, 0, 0] S8x4x128.size inb_S8x16x128_S8x4x128_0_0_0, w0⟩] (Rect.unit (s := S8x16x128) ![0, 0, 0] S8x8x128.size inb_S8x16x128_S8x8x128_0_0_0).toLoadRect = Vals.omHalf m c 0 :=
  omHalf_readCov m c 0 inb_S8x16x128_S8x8x128_0_0_0 w0 w1 w2 w3 h0 h1 h2 h3 fun j => by
    have hj1 : (j 1).val < 8 := (j 1).isLt
    by_cases hlt : (j 1).val < 4
    · exact ⟨_, .tail _ (.tail _ (.tail _ (.head _))), mem_piece 0 0 inb_S8x16x128_S8x4x128_0_0_0 inb_S8x16x128_S8x8x128_0_0_0 j (by omega) (by omega)⟩
    · exact ⟨_, .tail _ (.tail _ (.head _)), mem_piece 4 0 inb_S8x16x128_S8x4x128_0_4_0 inb_S8x16x128_S8x8x128_0_0_0 j (by omega) (by omega)⟩
theorem omHalf_readCov1 (w0 w1 w2 w3 : FVec F S8x4x128 .f32) (h0 : w0 = Vals.oG m c 0) (h1 : w1 = Vals.oG m c 1) (h2 : w2 = Vals.oG m c 2) (h3 : w3 = Vals.oG m c 3) :
    (Memref.whole cc0_scratch2 : Memref sig .tc .vmem S8x16x128 .f32).view.readCov [⟨Rect.unit (s := S8x16x128) ![0, 12, 0] S8x4x128.size inb_S8x16x128_S8x4x128_0_12_0, w3⟩, ⟨Rect.unit (s := S8x16x128) ![0, 8, 0] S8x4x128.size inb_S8x16x128_S8x4x128_0_8_0, w2⟩, ⟨Rect.unit (s := S8x16x128) ![0, 4, 0] S8x4x128.size inb_S8x16x128_S8x4x128_0_4_0, w1⟩, ⟨Rect.unit (s := S8x16x128) ![0, 0, 0] S8x4x128.size inb_S8x16x128_S8x4x128_0_0_0, w0⟩] (Rect.unit (s := S8x16x128) ![0, 8, 0] S8x8x128.size inb_S8x16x128_S8x8x128_0_8_0).toLoadRect = Vals.omHalf m c 1 :=
  omHalf_readCov m c 1 inb_S8x16x128_S8x8x128_0_8_0 w0 w1 w2 w3 h0 h1 h2 h3 fun j => by
    have hj1 : (j 1).val < 8 := (j 1).isLt
    by_cases hlt : (j 1).val < 4
    · exact ⟨_, .tail _ (.head _), mem_piece 8 8 inb_S8x16x128_S8x4x128_0_8_0 inb_S8x16x128_S8x8x128_0_8_0 j (by omega) (by omega)⟩
    · exact ⟨_, .head _, mem_piece 12 8 inb_S8x16x128_S8x4x128_0_12_0 inb_S8x16x128_S8x8x128_0_8_0 j (by omega) (by omega)⟩

end Cert.Kernel.Steps

end
-- ==== Proof.ClosedK.lean ====
import proofs.«900787_g7700000000000788_dist_flashdec_v7x_xyz2x2x4_y_b8_sq8_skv1024_h16_d128_f32_1_alg».proof.Proof.GeomK
import proofs.«900787_g7700000000000788_dist_flashdec_v7x_xyz2x2x4_y_b8_sq8_skv1024_h16_d128_f32_1_alg».proof.Proof.MeshMoreK

namespace Cert.Kernel.Closed

open Cert.Kernel Cert.Kernel.Gen Cert.Kernel.Mesh Cert.Kernel.Proto
open Idealize.ShloMosaic

-- The slot of the device `d` steps ahead, half `h`, sits at that device's ring position.
theorem bfOff_ring (c : Dev nD) (d : Fin 8) (h : Fin 2) : bfOff (ring c d.val) h = ![h.val, (pOf c + d.val) % 8, 0, 0, 0] := by
  rw [Geom.bfOff_eq, pOf_ring]

instance off22 (c : Dev nD) : ClosedOff (k0_off22 c) := ⟨![0, pOf c, 0, 0, 0], off22_eq c⟩
instance off24 (c : Dev nD) : ClosedOff (k0_off24 c) := ⟨![0, pOf c, 0, 0, 0], off24_eq c⟩
instance off26 (c : Dev nD) : ClosedOff (k0_off26 c) := ⟨![1, pOf c, 0, 0, 0], off26_eq c⟩
instance off28 (c : Dev nD) : ClosedOff (k0_off28 c) := ⟨![1, pOf c, 0, 0, 0], off28_eq c⟩
instance bfOff0 (c : Dev nD) : ClosedOff (bfOff c 0) := ⟨![0, pOf c, 0, 0, 0], off24_eq c⟩
instance bfOff1 (c : Dev nD) : ClosedOff (bfOff c 1) := ⟨![1, pOf c, 0, 0, 0], off28_eq c⟩
instance off31_1 (c : Dev nD) : ClosedOff (k0_off31 c 1#32) := ⟨![0, (pOf c + 1) % 8, 0, 0, 0], off31_eq_1 c⟩
instance off35_1 (c : Dev nD) : ClosedOff (k0_off35 c 1#32) := ⟨![1, (pOf c + 1) % 8, 0, 0, 0], off35_eq_1 c⟩
instance bfOff0_1 (c : Dev nD) : ClosedOff (bfOff (ring c 1) 0) := ⟨![0, (pOf c + 1) % 8, 0, 0, 0], bfOff_ring c 1 0⟩
instance bfOff1_1 (c : Dev nD) : ClosedOff (bfOff (ring c 1) 1) := ⟨![1, (pOf c + 1) % 8, 0, 0, 0], bfOff_ring c 1 1⟩
instance off31_2 (c : Dev nD) : ClosedOff (k0_off31 c 2#32) := ⟨![0, (pOf c + 2) % 8, 0, 0, 0], off31_eq_2 c⟩
instance off35_2 (c : Dev nD) : ClosedOff (k0_off35 c 2#32) := ⟨![1, (pOf c + 2) % 8, 0, 0, 0], off35_eq_2 c⟩
instance bfOff0_2 (c : Dev nD) : ClosedOff (bfOff (ring c 2) 0) := ⟨![0, (pOf c + 2) % 8, 0, 0, 0], bfOff_ring c 2 0⟩
instance bfOff1_2 (c : Dev nD) : ClosedOff (bfOff (ring c 2) 1) := ⟨![1, (pOf c + 2) % 8, 0, 0, 0], bfOff_ring c 2 1⟩
instance off31_3 (c : Dev nD) : ClosedOff (k0_off31 c 3#32) := ⟨![0, (pOf c + 3) % 8, 0, 0, 0], off31_eq_3 c⟩
instance off35_3 (c : Dev nD) : ClosedOff (k0_off35 c 3#32) := ⟨![1, (pOf c + 3) % 8, 0, 0, 0], off35_eq_3 c⟩
instance bfOff0_3 (c : Dev nD) : ClosedOff (bfOff (ring c 3) 0) := ⟨![0, (pOf c + 3) % 8, 0, 0, 0], bfOff_ring c 3 0⟩
instance bfOff1_3 (c : Dev nD) : ClosedOff (bfOff (ring c 3) 1) := ⟨![1, (pOf c + 3) % 8, 0, 0, 0], bfOff_ring c 3 1⟩
instance off31_4 (c : Dev nD) : ClosedOff (k0_off31 c 4#32) := ⟨![0, (pOf c + 4) % 8, 0, 0, 0], off31_eq_4 c⟩
instance off35_4 (c : Dev nD) : ClosedOff (k0_off35 c 4#32) := ⟨![1, (pOf c + 4) % 8, 0, 0, 0], off35_eq_4 c⟩
instance bfOff0_4 (c : Dev nD) : ClosedOff (bfOff (ring c 4) 0) := ⟨![0, (pOf c + 4) % 8, 0, 0, 0], bfOff_ring c 4 0⟩
instance bfOff1_4 (c : Dev nD) : ClosedOff (bfOff (ring c 4) 1) := ⟨![1, (pOf c + 4) % 8, 0, 0, 0], bfOff_ring c 4 1⟩
instance off31_5 (c : Dev nD) : ClosedOff (k0_off31 c 5#32) := ⟨![0, (pOf c + 5) % 8, 0, 0, 0], off31_eq_5 c⟩
instance off35_5 (c : Dev nD) : ClosedOff (k0_off35 c 5#32) := ⟨![1, (pOf c + 5) % 8, 0, 0, 0], off35_eq_5 c⟩
instance bfOff0_5 (c : Dev nD) : ClosedOff (bfOff (ring c 5) 0) := ⟨![0, (pOf c + 5) % 8, 0, 0, 0], bfOff_ring c 5 0⟩
instance bfOff1_5 (c : Dev nD) : ClosedOff (bfOff (ring c 5) 1) := ⟨![1, (pOf c + 5) % 8, 0, 0, 0], bfOff_ring c 5 1⟩
instance off31_6 (c : Dev nD) : ClosedOff (k0_off31 c 6#32) := ⟨![0, (pOf c + 6) % 8, 0, 0, 0], off31_eq_6 c⟩
instance off35_6 (c : Dev nD) : ClosedOff (k0_off35 c 6#32) := ⟨![1, (pOf c + 6) % 8, 0, 0, 0], off35_eq_6 c⟩
instance bfOff0_6 (c : Dev nD) : ClosedOff (bfOff (ring c 6) 0) := ⟨![0, (pOf c + 6) % 8, 0, 0, 0], bfOff_ring c 6 0⟩
instance bfOff1_6 (c : Dev nD) : ClosedOff (bfOff (ring c 6) 1) := ⟨![1, (pOf c + 6) % 8, 0, 0, 0], bfOff_ring c 6 1⟩
instance off31_7 (c : Dev nD) : ClosedOff (k0_off31 c 7#32) := ⟨![0, (pOf c + 7) % 8, 0, 0, 0], off31_eq_7 c⟩
instance off35_7 (c : Dev nD) : ClosedOff (k0_off35 c 7#32) := ⟨![1, (pOf c + 7) % 8, 0, 0, 0], off35_eq_7 c⟩
instance bfOff0_7 (c : Dev nD) : ClosedOff (bfOff (ring c 7) 0) := ⟨![0, (pOf c + 7) % 8, 0, 0, 0], bfOff_ring c 7 0⟩
instance bfOff1_7 (c : Dev nD) : ClosedOff (bfOff (ring c 7) 1) := ⟨![1, (pOf c + 7) % 8, 0, 0, 0], bfOff_ring c 7 1⟩
instance bfOff0v_1 (c : Dev nD) : ClosedOff (bfOff (ring c ((1 : Fin 8) : Fin 8).val) 0) := ⟨![0, (pOf c + 1) % 8, 0, 0, 0], bfOff_ring c 1 0⟩
instance bfOff1v_1 (c : Dev nD) : ClosedOff (bfOff (ring c ((1 : Fin 8) : Fin 8).val) 1) := ⟨![1, (pOf c + 1) % 8, 0, 0, 0], bfOff_ring c 1 1⟩
instance bfOff0v_2 (c : Dev nD) : ClosedOff (bfOff (ring c ((2 : Fin 8) : Fin 8).val) 0) := ⟨![0, (pOf c + 2) % 8, 0, 0, 0], bfOff_ring c 2 0⟩
instance bfOff1v_2 (c : Dev nD) : ClosedOff (bfOff (ring c ((2 : Fin 8) : Fin 8).val) 1) := ⟨![1, (pOf c + 2) % 8, 0, 0, 0], bfOff_ring c 2 1⟩
instance bfOff0v_3 (c : Dev nD) : ClosedOff (bfOff (ring c ((3 : Fin 8) : Fin 8).val) 0) := ⟨![0, (pOf c + 3) % 8, 0, 0, 0], bfOff_ring c 3 0⟩
instance bfOff1v_3 (c : Dev nD) : ClosedOff (bfOff (ring c ((3 : Fin 8) : Fin 8).val) 1) := ⟨![1, (pOf c + 3) % 8, 0, 0, 0], bfOff_ring c 3 1⟩
instance bfOff0v_4 (c : Dev nD) : ClosedOff (bfOff (ring c ((4 : Fin 8) : Fin 8).val) 0) := ⟨![0, (pOf c + 4) % 8, 0, 0, 0], bfOff_ring c 4 0⟩
instance bfOff1v_4 (c : Dev nD) : ClosedOff (bfOff (ring c ((4 : Fin 8) : Fin 8).val) 1) := ⟨![1, (pOf c + 4) % 8, 0, 0, 0], bfOff_ring c 4 1⟩
instance bfOff0v_5 (c : Dev nD) : ClosedOff (bfOff (ring c ((5 : Fin 8) : Fin 8).val) 0) := ⟨![0, (pOf c + 5) % 8, 0, 0, 0], bfOff_ring c 5 0⟩
instance bfOff1v_5 (c : Dev nD) : ClosedOff (bfOff (ring c ((5 : Fin 8) : Fin 8).val) 1) := ⟨![1, (pOf c + 5) % 8, 0, 0, 0], bfOff_ring c 5 1⟩
instance bfOff0v_6 (c : Dev nD) : ClosedOff (bfOff (ring c ((6 : Fin 8) : Fin 8).val) 0) := ⟨![0, (pOf c + 6) % 8, 0, 0, 0], bfOff_ring c 6 0⟩
instance bfOff1v_6 (c : Dev nD) : ClosedOff (bfOff (ring c ((6 : Fin 8) : Fin 8).val) 1) := ⟨![1, (pOf c + 6) % 8, 0, 0, 0], bfOff_ring c 6 1⟩
instance bfOff0v_7 (c : Dev nD) : ClosedOff (bfOff (ring c ((7 : Fin 8) : Fin 8).val) 0) := ⟨![0, (pOf c + 7) % 8, 0, 0, 0], bfOff_ring c 7 0⟩
instance bfOff1v_7 (c : Dev nD) : ClosedOff (bfOff (ring c ((7 : Fin 8) : Fin 8).val) 1) := ⟨![1, (pOf c + 7) % 8, 0, 0, 0], bfOff_ring c 7 1⟩

end Cert.Kernel.Closed
-- ==== Proof.BodyWrapK.lean ====
import proofs.«900787_g7700000000000788_dist_flashdec_v7x_xyz2x2x4_y_b8_sq8_skv1024_h16_d128_f32_1_alg».proof.Proof.IfaceK

noncomputable section

namespace Cert.Kernel.BodyWrap

open Cert.Kernel Cert.Kernel.Gen Cert.Kernel.Mesh Cert.Kernel.Proto Cert.Kernel.Iface
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev bodyPost (m : (ℓ : Loc nD τ sig) → Buf (Elt F) ℓ) (c : Dev nD) : sProp 𝕄 :=
  iprop(Φ₁ m c ∗ (∃ W, owes (c : Thread nD τ) 0 W) ∗ whole c cc0_stg0_0 (Vals.qst m c) ∗ whole c cc0_stg1_0 (Vals.out m c))

abbrev SoundBody : Prop :=
  ∀ (m : (ℓ : Loc nD τ sig) → Buf (Elt F) ℓ) (K : Dev nD × Fin 47 → ℕ) (c : Dev nD) (Kt : PUnit → sProp 𝕄) (W₀ : Waits sig Unit),
    iprop(records m K ∗ payToks c ∗ positions c ∗ credits c ∗ copySems0 c ∗ levAts L lv
        ∗ owes (c : Thread nD τ) (O₀ c) W₀
        ∗ whole c cc0_stg0_0 (Vals.qst m c) ∗ (∃ f, whole c cc0_stg1_0 f)
        ∗ (∃ f, whole c cc0_scratch0 f) ∗ (∃ f, whole c cc0_scratch1 f) ∗ (∃ f, whole c cc0_scratch2 f) ∗ (∃ f, whole c cc0_scratch3 f)
        ∗ (∃ f, whole c cc0_scratch4 f) ∗ (∃ f, whole c cc0_scratch5 f) ∗ (∃ f, whole c cc0_scratch6 f) ∗ (∃ f, whole c cc0_scratch7 f)
        ∗ whole c main_arg1 (m ((c : Thread nD τ).loc main_arg1)) ∗ whole c main_arg2 (m ((c : Thread nD τ).loc main_arg2))
        ∗ (bodyPost m c -∗ Kt ⟨⟩))
      ⊢ wp frame (wpE (defs₀ (F := F)) 𝒱₀ c none) Set.univ (cc0_body (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15) Kt

abbrev stg (c : Dev nD) (b : Ref sig .tc) (X : b.ty.Contents (Elt F)) : sProp 𝕄 :=
  iprop(∃ f : Buf (Elt F) ((Memref.whole b : Memref sig .tc _ _ _).view.loc (c : Thread nD τ)), ⌜f = X⌝ ∗ whole c b f)

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns
  rw [show (Memref.whole b : Memref sig .tc _ _ _).view.set = Finset.univ from View.set_whole b]
  rfl

theorem before0 (m : (ℓ : Loc nD τ sig) → Buf (Elt F) ℓ) (c : Dev nD) (d) : (dats m 0 c).before (0 : Fin 2) t0_0 d = Vals.qst m c := by
  unfold Dat.before
  rw [if_pos (by decide)]
  rfl

def bodyPost' (m : (ℓ : Loc nD τ sig) → Buf (Elt F) ℓ) (c : Dev nD) : sProp 𝕄 :=
  iprop(Φ₁ m c ∗ (dats m 0 c).owesAt () t0_0.succ ∗ stg c cc0_stg0_0 (Vals.qst m c) ∗ stg c cc0_stg1_0 (Vals.out m c))

set_option maxRecDepth 65536 in
theorem body_obligation_of (hsound : SoundBody (F := F)) (m : (ℓ : Loc nD τ sig) → Buf (Elt F) ℓ) (c : Dev nD) :
    BodyObligation (dats (F := F) m 0 c) (defs₀ (F := F)) 𝒱₀ () Set.univ := fun t => by
  rw [fin_N0 t]
  rw [bigSep_W0, bigSep_W0]
  simp only [owns_whole_eq]
  show iprop(Φ₀ m c ∗ (dats m 0 c).owesAt () t0_0.castSucc
      ∗ (∃ d, stg c cc0_stg0_0 ((dats m 0 c).before (0 : Fin 2) t0_0 d))
      ∗ (∃ d, stg c cc0_stg1_0 ((dats m 0 c).before (1 : Fin 2) t0_0 d)))
    ⊢ wp frame _ Set.univ _ (fun _ => bodyPost' m c)
  unfold Φ₀ start
  iintro ⟨⟨⟨⟨%K, HK⟩, Ht, Hp, Hcr, Hcp, Hlev⟩, S0, S1, S2, S3, S4, S5, S6, S7, Ha1, Ha2⟩, ⟨%W₀, -, Ho⟩, ⟨%d0, %f0, %hf0, Hx⟩, ⟨%d1, %f1, -, Hout⟩⟩
  rw [before0] at hf0
  subst hf0
  iapply (hsound m K c (fun _ => bodyPost' m c) W₀)
  iframe HK Ht Hp Hcr Hcp Hlev Hx S0 S1 S2 S3 S4 S5 S6 S7 Ha1 Ha2
  isplitl [Ho]; · iexact Ho
  isplitl [Hout]; · iexists f1; iexact Hout
  unfold bodyPost'
  iintro ⟨HΦ, ⟨%W, HO⟩, Hq, Hres⟩
  iframe HΦ
  isplitl [HO]
  · iexists W
    isplitr; · ipureintro; exact fun x _ => Or.inl (Set.mem_univ x)
    iexact HO
  isplitl [Hq]
  · iexists _; isplitr; · (ipureintro; rfl)
    iexact Hq
  iexists _; isplitr; · (ipureintro; rfl)
  iexact Hres

/-- info: 'Cert.Kernel.BodyWrap.body_obligation_of' depends on axioms: [propext, Classical.choice, Quot.sound] -/
#guard_msgs in #print axioms body_obligation_of

end Cert.Kernel.BodyWrap

end
-- ==== Proof.BodyK.lean ====
import proofs.«900787_g7700000000000788_dist_flashdec_v7x_xyz2x2x4_y_b8_sq8_skv1024_h16_d128_f32_1_alg».proof.Proof.TablesK
import proofs.«900787_g7700000000000788_dist_flashdec_v7x_xyz2x2x4_y_b8_sq8_skv1024_h16_d128_f32_1_alg».proof.Proof.GeomK
import proofs.«900787_g7700000000000788_dist_flashdec_v7x_xyz2x2x4_y_b8_sq8_skv1024_h16_d128_f32_1_alg».proof.Proof.BodyLemmasK
import proofs.«900787_g7700000000000788_dist_flashdec_v7x_xyz2x2x4_y_b8_sq8_skv1024_h16_d128_f32_1_alg».proof.Proof.LevelsK
import proofs.«900787_g7700000000000788_dist_flashdec_v7x_xyz2x2x4_y_b8_sq8_skv1024_h16_d128_f32_1_alg».proof.Proof.StepsYK
import proofs.«900787_g7700000000000788_dist_flashdec_v7x_xyz2x2x4_y_b8_sq8_skv1024_h16_d128_f32_1_alg».proof.Proof.StepsBK
import proofs.«900787_g7700000000000788_dist_flashdec_v7x_xyz2x2x4_y_b8_sq8_skv1024_h16_d128_f32_1_alg».proof.Proof.StepsMK
import proofs.«900787_g7700000000000788_dist_flashdec_v7x_xyz2x2x4_y_b8_sq8_skv1024_h16_d128_f32_1_alg».proof.Proof.StepsZK
import proofs.«900787_g7700000000000788_dist_flashdec_v7x_xyz2x2x4_y_b8_sq8_skv1024_h16_d128_f32_1_alg».proof.Proof.SlabValueK
import proofs.«900787_g7700000000000788_dist_flashdec_v7x_xyz2x2x4_y_b8_sq8_skv1024_h16_d128_f32_1_alg».proof.Proof.OutValueK
import proofs.«900787_g7700000000000788_dist_flashdec_v7x_xyz2x2x4_y_b8_sq8_skv1024_h16_d128_f32_1_alg».proof.Proof.StepsRK
import proofs.«900787_g7700000000000788_dist_flashdec_v7x_xyz2x2x4_y_b8_sq8_skv1024_h16_d128_f32_1_alg».proof.Proof.ClosedK
import proofs.«900787_g7700000000000788_dist_flashdec_v7x_xyz2x2x4_y_b8_sq8_skv1024_h16_d128_f32_1_alg».proof.Proof.BodyWrapK

noncomputable section

namespace Cert.Kernel.Body

open Cert.Kernel Cert.Kernel.Gen Cert.Kernel.Mesh Cert.Kernel.Proto Cert.Kernel.Iface Cert.Kernel.BodyLemmas
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev ow29 (c : Dev nD) : List (CellTallies nD τ sig Unit) := [tallyAt (bcRecvCell 1 (pFin c) (ring c 7)) () Nb]
abbrev ow28 (c : Dev nD) : List (CellTallies nD τ sig Unit) := tallyAt (bcRecvCell 1 (pFin c) (ring c 6)) () Nb :: ow29 c
abbrev ow27 (c : Dev nD) : List (CellTallies nD τ sig Unit) := tallyAt (bcRecvCell 1 (pFin c) (ring c 5)) () Nb :: ow28 c
abbrev ow26 (c : Dev nD) : List (CellTallies nD τ sig Unit) := tallyAt (bcRecvCell 1 (pFin c) (ring c 4)) () Nb :: ow27 c
abbrev ow25 (c : Dev nD) : List (CellTallies nD τ sig Unit) := tallyAt (bcRecvCell 1 (pFin c) (ring c 3)) () Nb :: ow26 c
abbrev ow24 (c : Dev nD) : List (CellTallies nD τ sig Unit) := tallyAt (bcRecvCell 1 (pFin c) (ring c 2)) () Nb :: ow25 c
abbrev ow23 (c : Dev nD) : List (CellTallies nD τ sig Unit) := tallyAt (bcRecvCell 1 (pFin c) (ring c 1)) () Nb :: ow24 c
abbrev ow22 (c : Dev nD) : List (CellTallies nD τ sig Unit) := tallyAt (bcRecvCell 0 (pFin c) (ring c 7)) () Nb :: ow23 c
abbrev ow21 (c : Dev nD) : List (CellTallies nD τ sig Unit) := tallyAt (bcRecvCell 0 (pFin c) (ring c 6)) () Nb :: ow22 c
abbrev ow20 (c : Dev nD) : List (CellTallies nD τ sig Unit) := tallyAt (bcRecvCell 0 (pFin c) (ring c 5)) () Nb :: ow21 c
abbrev ow19 (c : Dev nD) : List (CellTallies nD τ sig Unit) := tallyAt (bcRecvCell 0 (pFin c) (ring c 4)) () Nb :: ow20 c
abbrev ow18 (c : Dev nD) : List (CellTallies nD τ sig Unit) := tallyAt (bcRecvCell 0 (pFin c) (ring c 3)) () Nb :: ow19 c
abbrev ow17 (c : Dev nD) : List (CellTallies nD τ sig Unit) := tallyAt (bcRecvCell 0 (pFin c) (ring c 2)) () Nb :: ow18 c
abbrev ow16 (c : Dev nD) : List (CellTallies nD τ sig Unit) := tallyAt (bcRecvCell 0 (pFin c) (ring c 1)) () Nb :: ow17 c
abbrev ow15 (c : Dev nD) : List (CellTallies nD τ sig Unit) := tallyAt (ylRecvCell 3 (ynbr c)) () Nl :: ow16 c
abbrev ow14 (c : Dev nD) : List (CellTallies nD τ sig Unit) := tallyAt (yoRecvCell 3 (ynbr c)) () No :: ow15 c
abbrev ow13 (c : Dev nD) : List (CellTallies nD τ sig Unit) := tallyAt (ylRecvCell 2 (ynbr c)) () Nl :: ow14 c
abbrev ow12 (c : Dev nD) : List (CellTallies nD τ sig Unit) := tallyAt (yoRecvCell 2 (ynbr c)) () No :: ow13 c
abbrev ow11 (c : Dev nD) : List (CellTallies nD τ sig Unit) := tallyAt (ylRecvCell 1 (ynbr c)) () Nl :: ow12 c
abbrev ow10 (c : Dev nD) : List (CellTallies nD τ sig Unit) := tallyAt (yoRecvCell 1 (ynbr c)) () No :: ow11 c
abbrev ow9 (c : Dev nD) : List (CellTallies nD τ sig Unit) := tallyAt (ylRecvCell 0 (ynbr c)) () Nl :: ow10 c
abbrev ow8 (c : Dev nD) : List (CellTallies nD τ sig Unit) := tallyAt (yoRecvCell 0 (ynbr c)) () No :: ow9 c
abbrev ow7 (c : Dev nD) : List (CellTallies nD τ sig Unit) := tallyAt (barCell (ring c 7)) () 1 :: ow8 c
abbrev ow6 (c : Dev nD) : List (CellTallies nD τ sig Unit) := tallyAt (barCell (ring c 6)) () 1 :: ow7 c
abbrev ow5 (c : Dev nD) : List (CellTallies nD τ sig Unit) := tallyAt (barCell (ring c 5)) () 1 :: ow6 c
abbrev ow4 (c : Dev nD) : List (CellTallies nD τ sig Unit) := tallyAt (barCell (ring c 4)) () 1 :: ow5 c
abbrev ow3 (c : Dev nD) : List (CellTallies nD τ sig Unit) := tallyAt (barCell (ring c 3)) () 1 :: ow4 c
abbrev ow2 (c : Dev nD) : List (CellTallies nD τ sig Unit) := tallyAt (barCell (ring c 2)) () 1 :: ow3 c
abbrev ow1 (c : Dev nD) : List (CellTallies nD τ sig Unit) := tallyAt (barCell (ring c 1)) () 1 :: ow2 c

variable (m : (ℓ : Loc nD τ sig) → Buf (Elt F) ℓ)

def bodyPost (c : Dev nD) : sProp 𝕄 :=
  iprop(Φ₁ m c ∗ (∃ W, owes (c : Thread nD τ) 0 W) ∗ whole c cc0_stg0_0 (Vals.qst m c) ∗ whole c cc0_stg1_0 (Vals.out m c))

theorem restate_whole (c : Dev nD) (b : Ref sig .tc) (X Y : Buf (Elt F) ((Memref.whole b : Memref sig .tc _ _ _).view.loc (c : Thread nD τ))) :
    (whole c b X : sProp 𝕄) ⊢ iprop(∀ _ : X = Y, whole c b Y) := by
  iintro H %h
  rw [← h]
  iexact H

set_option sl_exec.dmaWindow true in
set_option maxHeartbeats 16000000 in
set_option maxRecDepth 65536 in
theorem sound_body (K : Dev nD × Fin 47 → ℕ) (c : Dev nD) (Kt : PUnit → sProp 𝕄) (W₀ : Waits sig Unit) :
    iprop(records m K ∗ payToks c ∗ positions c ∗ credits c ∗ copySems0 c ∗ levAts L lv
        ∗ owes (c : Thread nD τ) (O₀ c) W₀
        ∗ whole c cc0_stg0_0 (Vals.qst m c) ∗ (∃ f, whole c cc0_stg1_0 f)
        ∗ (∃ f, whole c cc0_scratch0 f) ∗ (∃ f, whole c cc0_scratch1 f) ∗ (∃ f, whole c cc0_scratch2 f) ∗ (∃ f, whole c cc0_scratch3 f)
        ∗ (∃ f, whole c cc0_scratch4 f) ∗ (∃ f, whole c cc0_scratch5 f) ∗ (∃ f, whole c cc0_scratch6 f) ∗ (∃ f, whole c cc0_scratch7 f)
        ∗ whole c main_arg1 (m ((c : Thread nD τ).loc main_arg1)) ∗ whole c main_arg2 (m ((c : Thread nD τ).loc main_arg2))
        ∗ (bodyPost m c -∗ Kt ⟨⟩))
      ⊢ wp frame (wpE (defs₀ (F := F)) 𝒱₀ c none) Set.univ (cc0_body (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15) Kt := by
  unfold payToks positions credits copySems0 O₀ owedList
  iintro ⟨#HRec, ⟨tBarY, tBarR1, tBarR2, tBarR3, tBarR4, tBarR5, tBarR6, tBarR7, tYoS0, tYoR0, tYlS0, tYlR0, tYoS1, tYoR1, tYlS1, tYlR1, tYoS2, tYoR2, tYlS2, tYlR2, tYoS3, tYoR3, tYlS3, tYlR3, tBcS0_1, tBcR0_1, tBcS0_2, tBcR0_2, tBcS0_3, tBcR0_3, tBcS0_4, tBcR0_4, tBcS0_5, tBcR0_5, tBcS0_6, tBcR0_6, tBcS0_7, tBcR0_7, tBcS1_1, tBcR1_1, tBcS1_2, tBcR1_2, tBcS1_3, tBcR1_3, tBcS1_4, tBcR1_4, tBcS1_5, tBcR1_5, tBcS1_6, tBcR1_6, tBcS1_7, tBcR1_7⟩, ⟨aBar, aYoS0, aYoR0, aYlS0, aYlR0, aYoS1, aYoR1, aYlS1, aYlR1, aYoS2, aYoR2, aYlS2, aYlR2, aYoS3, aYoR3, aYlS3, aYlR3, aBcS0_1, aBcS0_2, aBcS0_3, aBcS0_4, aBcS0_5, aBcS0_6, aBcS0_7, aBcS1_1, aBcS1_2, aBcS1_3, aBcS1_4, aBcS1_5, aBcS1_6, aBcS1_7, aBcR0_0, aBcR0_1, aBcR0_2, aBcR0_3, aBcR0_4, aBcR0_5, aBcR0_6, aBcR0_7, aBcR1_0, aBcR1_1, aBcR1_2, aBcR1_3, aBcR1_4, aBcR1_5, aBcR1_6, aBcR1_7⟩, ⟨cBar, cYoR0, cYlR0, cYoR1, cYlR1, cYoR2, cYlR2, cYoR3, cYlR3, cBcR0_1, cBcR0_2, cBcR0_3, cBcR0_4, cBcR0_5, cBcR0_6, cBcR0_7, cBcR1_1, cBcR1_2, cBcR1_3, cBcR1_4, cBcR1_5, cBcR1_6, cBcR1_7⟩, ⟨z2, z3, z4, z5, z6, z7, z8, z9, z10, z11, z12, z13, z14, z15, z16, z17⟩, #Hlev, HO, Hq, ⟨%fo, Ho⟩, ⟨%f0, H0⟩, ⟨%f1, H1⟩, ⟨%f2, H2⟩, ⟨%f3, H3⟩, ⟨%f4, H4⟩, ⟨%f5, H5⟩, ⟨%f6, H6⟩, ⟨%f7, H7⟩, Hk, Hv, HK⟩

  ihave H7s := (Geom.split7 c f7) $$ H7
  icases H7s with ⟨S0_0, S1_0, S0_1, S1_1, S0_2, S1_2, S0_3, S1_3, S0_4, S1_4, S0_5, S1_5, S0_6, S1_6, S0_7, S1_7⟩

  ihave H3s := (Geom.split3 c f3) $$ H3
  icases H3s with ⟨B7_0, B7_1, B7_2, B7_3⟩
  ihave H5s := (Geom.split5 c f5) $$ H5
  icases H5s with ⟨B9_0, B9_1, B9_2, B9_3⟩
  sl_unfold [cc0_body]
  sl_exec

  iapply (Steps.signal_y m K c _ (dev1_eq c) f4 f6 (ow1 c) _) $$ [H4 H6 HO tBarY]
  · iframe HRec Hlev H4 H6 HO tBarY
  iintro HO
  sl_exec
  iapply (Steps.signal_r m K c 1 (by decide) _ (dev2_eq c) f7 f7 (ow2 c) _) $$ [S0_1 S1_1 HO tBarR1]
  · isplitr; · iexact HRec
    isplitr; · iexact Hlev
    isplitl [S0_1]; · iexact S0_1
    isplitl [S1_1]; · iexact S1_1
    isplitl [HO]; · iexact HO
    iexact tBarR1
  iintro HO
  sl_exec
  iapply (Steps.signal_r m K c 2 (by decide) _ (dev3_eq c) f7 f7 (ow3 c) _) $$ [S0_2 S1_2 HO tBarR2]
  · isplitr; · iexact HRec
    isplitr; · iexact Hlev
    isplitl [S0_2]; · iexact S0_2
    isplitl [S1_2]; · iexact S1_2
    isplitl [HO]; · iexact HO
    iexact tBarR2
  iintro HO
  sl_exec
  iapply (Steps.signal_r m K c 3 (by decide) _ (dev4_eq c) f7 f7 (ow4 c) _) $$ [S0_3 S1_3 HO tBarR3]
  · isplitr; · iexact HRec
    isplitr; · iexact Hlev
    isplitl [S0_3]; · iexact S0_3
    isplitl [S1_3]; · iexact S1_3
    isplitl [HO]; · iexact HO
    iexact tBarR3
  iintro HO
  sl_exec
  iapply (Steps.signal_r m K c 4 (by decide) _ (dev5_eq c) f7 f7 (ow5 c) _) $$ [S0_4 S1_4 HO tBarR4]
  · isplitr; · iexact HRec
    isplitr; · iexact Hlev
    isplitl [S0_4]; · iexact S0_4
    isplitl [S1_4]; · iexact S1_4
    isplitl [HO]; · iexact HO
    iexact tBarR4
  iintro HO
  sl_exec
  iapply (Steps.signal_r m K c 5 (by decide) _ (dev6_eq c) f7 f7 (ow6 c) _) $$ [S0_5 S1_5 HO tBarR5]
  · isplitr; · iexact HRec
    isplitr; · iexact Hlev
    isplitl [S0_5]; · iexact S0_5
    isplitl [S1_5]; · iexact S1_5
    isplitl [HO]; · iexact HO
    iexact tBarR5
  iintro HO
  sl_exec
  iapply (Steps.signal_r m K c 6 (by decide) _ (dev7_eq c) f7 f7 (ow7 c) _) $$ [S0_6 S1_6 HO tBarR6]
  · isplitr; · iexact HRec
    isplitr; · iexact Hlev
    isplitl [S0_6]; · iexact S0_6
    isplitl [S1_6]; · iexact S1_6
    isplitl [HO]; · iexact HO
    iexact tBarR6
  iintro HO
  sl_exec
  iapply (Steps.signal_r m K c 7 (by decide) _ (dev8_eq c) f7 f7 (ow8 c) _) $$ [S0_7 S1_7 HO tBarR7]
  · isplitr; · iexact HRec
    isplitr; · iexact Hlev
    isplitl [S0_7]; · iexact S0_7
    isplitl [S1_7]; · iexact S1_7
    isplitl [HO]; · iexact HO
    iexact tBarR7
  iintro HO
  have hmw : ∀ s : DmaSem sig, s.val < 18 → ((levAts L lv : sProp 𝕄) ⊢ MayWait (c : Thread nD τ) (SemLoc.dma s) () (Osum (ow8 c))) :=
    fun s hs => Levels.mayWait_low c (SemLoc.dma s) (Levels.lv_dma_low c s hs) 8
  sl_exec
  clear hmw

  iapply (Steps.wait_bar m K c (ow8 c) _ (Levels.mayWait_bar c 8 (by decide))) $$ [cBar HO aBar]
  · iframe HRec Hlev cBar HO aBar
  iintro ⟨HO, aBar, ⟨⟨%g4, P4⟩, ⟨%g6, P6⟩⟩, ⟨⟨%r0_1, R0_1⟩, ⟨%r1_1, R1_1⟩⟩, ⟨⟨%r0_2, R0_2⟩, ⟨%r1_2, R1_2⟩⟩, ⟨⟨%r0_3, R0_3⟩, ⟨%r1_3, R1_3⟩⟩, ⟨⟨%r0_4, R0_4⟩, ⟨%r1_4, R1_4⟩⟩, ⟨⟨%r0_5, R0_5⟩, ⟨%r1_5, R1_5⟩⟩, ⟨⟨%r0_6, R0_6⟩, ⟨%r1_6, R1_6⟩⟩, ⟨⟨%r0_7, R0_7⟩, ⟨%r1_7, R1_7⟩⟩⟩
  ihave P4s := (Geom.split4 (ynbr c) g4) $$ P4
  icases P4s with ⟨D8_0, D8_1, D8_2, D8_3⟩
  ihave P6s := (Geom.split6 (ynbr c) g6) $$ P6
  icases P6s with ⟨D10_0, D10_1, D10_2, D10_3⟩
  sl_exec

  ihave B7_0 := (Steps.restate7 m c 0 _) $$ B7_0
  ispecialize B7_0 $$ %_ %_ %(rfl) %(by sl_unfold_run_names; rw [SlabValue.slab_K_0 m c f0 _ _ _ _ , SlabValue.slab_V_0 m c f1 _ _ _ _ , SlabValue.read_q_0 m c]; rfl)
  iapply (Steps.send_ob m K c 0 _ (dev9_eq c) g4 (ow9 c) _) $$ [B7_0 D8_0 HO tYoS0 tYoR0]
  · iframe HRec Hlev B7_0 D8_0 HO tYoS0 tYoR0
  iintro ⟨cYoS0, HO⟩
  sl_exec

  ihave B9_0 := (Steps.restate9 m c 0 _) $$ B9_0
  ispecialize B9_0 $$ %_ %_ %(rfl) %(by sl_unfold_run_names; rw [SlabValue.slab_K_0 m c f0 _ _ _ _ , SlabValue.read_q_0 m c]; rfl)
  ihave B9h := (Geom.halves _ _).1 $$ B9_0
  icases B9h with ⟨B9L_0, B9R_0⟩
  have hmw : ∀ s : DmaSem sig, s.val < 18 → ((levAts L lv : sProp 𝕄) ⊢ MayWait (c : Thread nD τ) (SemLoc.dma s) () (Osum (ow10 c))) :=
    fun s hs => Levels.mayWait_low c (SemLoc.dma s) (Levels.lv_dma_low c s hs) 10
  iapply (Steps.send_lb m K c 0 _ (dev10_eq c) g6 (ow10 c) _) $$ [B9L_0 D10_0 HO tYlS0 tYlR0]
  · iframe HRec Hlev B9L_0 D10_0 HO tYlS0 tYlR0
  iintro ⟨cYlS0, HO⟩
  sl_exec
  clear hmw

  ihave B7_1 := (Steps.restate7 m c 1 _) $$ B7_1
  ispecialize B7_1 $$ %_ %_ %(rfl) %(by sl_unfold_run_names; rw [SlabValue.slab_K_1 m c f0 _ _ _ _ _ _ _ _ , SlabValue.slab_V_1 m c f1 _ _ _ _ _ _ _ _ , SlabValue.read_q_1 m c]; rfl)
  iapply (Steps.send_ob m K c 1 _ (dev11_eq c) g4 (ow11 c) _) $$ [B7_1 D8_1 HO tYoS1 tYoR1]
  · iframe HRec Hlev B7_1 D8_1 HO tYoS1 tYoR1
  iintro ⟨cYoS1, HO⟩
  sl_exec

  ihave B9_1 := (Steps.restate9 m c 1 _) $$ B9_1
  ispecialize B9_1 $$ %_ %_ %(rfl) %(by sl_unfold_run_names; rw [SlabValue.slab_K_1 m c f0 _ _ _ _ _ _ _ _ , SlabValue.read_q_1 m c]; rfl)
  ihave B9h := (Geom.halves _ _).1 $$ B9_1
  icases B9h with ⟨B9L_1, B9R_1⟩
  have hmw : ∀ s : DmaSem sig, s.val < 18 → ((levAts L lv : sProp 𝕄) ⊢ MayWait (c : Thread nD τ) (SemLoc.dma s) () (Osum (ow12 c))) :=
    fun s hs => Levels.mayWait_low c (SemLoc.dma s) (Levels.lv_dma_low c s hs) 12
  iapply (Steps.send_lb m K c 1 _ (dev12_eq c) g6 (ow12 c) _) $$ [B9L_1 D10_1 HO tYlS1 tYlR1]
  · iframe HRec Hlev B9L_1 D10_1 HO tYlS1 tYlR1
  iintro ⟨cYlS1, HO⟩
  sl_exec
  clear hmw

  ihave B7_2 := (Steps.restate7 m c 2 _) $$ B7_2
  ispecialize B7_2 $$ %_ %_ %(rfl) %(by sl_unfold_run_names; rw [SlabValue.slab_K_2 m c f0 _ _ _ _ _ _ _ _ _ _ _ _ , SlabValue.slab_V_2 m c f1 _ _ _ _ _ _ _ _ _ _ _ _ , SlabValue.read_q_2 m c]; rfl)
  iapply (Steps.send_ob m K c 2 _ (dev13_eq c) g4 (ow13 c) _) $$ [B7_2 D8_2 HO tYoS2 tYoR2]
  · iframe HRec Hlev B7_2 D8_2 HO tYoS2 tYoR2
  iintro ⟨cYoS2, HO⟩
  sl_exec

  ihave B9_2 := (Steps.restate9 m c 2 _) $$ B9_2
  ispecialize B9_2 $$ %_ %_ %(rfl) %(by sl_unfold_run_names; rw [SlabValue.slab_K_2 m c f0 _ _ _ _ _ _ _ _ _ _ _ _ , SlabValue.read_q_2 m c]; rfl)
  ihave B9h := (Geom.halves _ _).1 $$ B9_2
  icases B9h with ⟨B9L_2, B9R_2⟩
  have hmw : ∀ s : DmaSem sig, s.val < 18 → ((levAts L lv : sProp 𝕄) ⊢ MayWait (c : Thread nD τ) (SemLoc.dma s) () (Osum (ow14 c))) :=
    fun s hs => Levels.mayWait_low c (SemLoc.dma s) (Levels.lv_dma_low c s hs) 14
  iapply (Steps.send_lb m K c 2 _ (dev14_eq c) g6 (ow14 c) _) $$ [B9L_2 D10_2 HO tYlS2 tYlR2]
  · iframe HRec Hlev B9L_2 D10_2 HO tYlS2 tYlR2
  iintro ⟨cYlS2, HO⟩
  sl_exec
  clear hmw

  ihave B7_3 := (Steps.restate7 m c 3 _) $$ B7_3
  ispecialize B7_3 $$ %_ %_ %(rfl) %(by sl_unfold_run_names; rw [SlabValue.slab_K_3 m c f0 _ _ _ _ _ _ _ _ _ _ _ _ , SlabValue.slab_V_3 m c f1 _ _ _ _ _ _ _ _ _ _ _ _ , SlabValue.read_q_3 m c]; rfl)
  iapply (Steps.send_ob m K c 3 _ (dev15_eq c) g4 (ow15 c) _) $$ [B7_3 D8_3 HO tYoS3 tYoR3]
  · iframe HRec Hlev B7_3 D8_3 HO tYoS3 tYoR3
  iintro ⟨cYoS3, HO⟩
  sl_exec

  ihave B9_3 := (Steps.restate9 m c 3 _) $$ B9_3
  ispecialize B9_3 $$ %_ %_ %(rfl) %(by sl_unfold_run_names; rw [SlabValue.slab_K_3 m c f0 _ _ _ _ _ _ _ _ _ _ _ _ , SlabValue.read_q_3 m c]; rfl)
  ihave B9h := (Geom.halves _ _).1 $$ B9_3
  icases B9h with ⟨B9L_3, B9R_3⟩
  iapply (Steps.send_lb m K c 3 _ (dev16_eq c) g6 (ow16 c) _) $$ [B9L_3 D10_3 HO tYlS3 tYlR3]
  · iframe HRec Hlev B9L_3 D10_3 HO tYlS3 tYlR3
  iintro ⟨cYlS3, HO⟩
  sl_exec

  iapply (Steps.wait_yo m K c 0 (ow16 c) _ (Levels.mayWait_mid c _ (Levels.lv_yoRecv 0 c) 16 (by decide))) $$ [cYoR0 HO aYoR0]
  · iframe HRec Hlev cYoR0 HO aYoR0
  iintro ⟨HO, aYoR0, E8_0⟩
  sl_exec
  iapply (Steps.wait_yl m K c 0 (ow16 c) _ (Levels.mayWait_mid c _ (Levels.lv_ylRecv 0 c) 16 (by decide))) $$ [cYlR0 HO aYlR0]
  · iframe HRec Hlev cYlR0 HO aYlR0
  iintro ⟨HO, aYlR0, E10_0⟩
  sl_exec
  iapply (Steps.wait_yo m K c 1 (ow16 c) _ (Levels.mayWait_mid c _ (Levels.lv_yoRecv 1 c) 16 (by decide))) $$ [cYoR1 HO aYoR1]
  · iframe HRec Hlev cYoR1 HO aYoR1
  iintro ⟨HO, aYoR1, E8_1⟩
  sl_exec
  iapply (Steps.wait_yl m K c 1 (ow16 c) _ (Levels.mayWait_mid c _ (Levels.lv_ylRecv 1 c) 16 (by decide))) $$ [cYlR1 HO aYlR1]
  · iframe HRec Hlev cYlR1 HO aYlR1
  iintro ⟨HO, aYlR1, E10_1⟩
  sl_exec

  ihave S0_0 := (Steps.restate11 m c 0 _) $$ S0_0
  ispecialize S0_0 $$ %_ %(off22_eq c) %_ %_ %_ %(rfl) %(by sl_unfold_run_names; rw [Steps.read8_0 m c, Steps.read8_1 m c, Steps.read10_0 m c, Steps.read10_1 m c, Steps.read9r_0 m c, Steps.read9r_1 m c, Steps.omHalf_readCov0 m c _ _ _ _ ?_ ?_ ?_ ?_]; all_goals (first | rfl | (rw [SlabValue.slab_K_0 m c f0 _ _ _ _ , SlabValue.slab_V_0 m c f1 _ _ _ _ , SlabValue.read_q_0 m c]; rfl) | (rw [SlabValue.slab_K_1 m c f0 _ _ _ _ _ _ _ _ , SlabValue.slab_V_1 m c f1 _ _ _ _ _ _ _ _ , SlabValue.read_q_1 m c]; rfl) | (rw [SlabValue.slab_K_2 m c f0 _ _ _ _ _ _ _ _ _ _ _ _ , SlabValue.slab_V_2 m c f1 _ _ _ _ _ _ _ _ _ _ _ _ , SlabValue.read_q_2 m c]; rfl) | (rw [SlabValue.slab_K_3 m c f0 _ _ _ _ _ _ _ _ _ _ _ _ , SlabValue.slab_V_3 m c f1 _ _ _ _ _ _ _ _ _ _ _ _ , SlabValue.read_q_3 m c]; rfl)))
  ihave Sh := (Geom.shares7 _ _).1 $$ S0_0
  icases Sh with ⟨Q0_1, Q0_2, Q0_3, Q0_4, Q0_5, Q0_6, Q0_7⟩
  iapply (Steps.send_bc m K c 0 1 (by decide) (dev17_eq c) (Steps.bcSendSem_eq ⟨0, by decide⟩ rfl _) (Steps.bcRecvSem_eq 0 (pFin c) (off23_eq c) _) r0_1 (ow17 c) _) $$ [Q0_1 R0_1 HO tBcS0_1 tBcR0_1]
  · isplitr; · iexact HRec
    isplitr; · iexact Hlev
    isplitl [Q0_1]; · iexact Q0_1
    isplitl [R0_1]; · iexact R0_1
    isplitl [HO]; · iexact HO
    isplitl [tBcS0_1]; · iexact tBcS0_1
    iexact tBcR0_1
  iintro ⟨cBcS0_1, HO⟩
  sl_exec
  iapply (Steps.send_bc m K c 0 2 (by decide) (dev18_eq c) (Steps.bcSendSem_eq ⟨1, by decide⟩ rfl _) (Steps.bcRecvSem_eq 0 (pFin c) (off23_eq c) _) r0_2 (ow18 c) _) $$ [Q0_2 R0_2 HO tBcS0_2 tBcR0_2]
  · isplitr; · iexact HRec
    isplitr; · iexact Hlev
    isplitl [Q0_2]; · iexact Q0_2
    isplitl [R0_2]; · iexact R0_2
    isplitl [HO]; · iexact HO
    isplitl [tBcS0_2]; · iexact tBcS0_2
    iexact tBcR0_2
  iintro ⟨cBcS0_2, HO⟩
  sl_exec
  iapply (Steps.send_bc m K c 0 3 (by decide) (dev19_eq c) (Steps.bcSendSem_eq ⟨2, by decide⟩ rfl _) (Steps.bcRecvSem_eq 0 (pFin c) (off23_eq c) _) r0_3 (ow19 c) _) $$ [Q0_3 R0_3 HO tBcS0_3 tBcR0_3]
  · isplitr; · iexact HRec
    isplitr; · iexact Hlev
    isplitl [Q0_3]; · iexact Q0_3
    isplitl [R0_3]; · iexact R0_3
    isplitl [HO]; · iexact HO
    isplitl [tBcS0_3]; · iexact tBcS0_3
    iexact tBcR0_3
  iintro ⟨cBcS0_3, HO⟩
  sl_exec
  iapply (Steps.send_bc m K c 0 4 (by decide) (dev20_eq c) (Steps.bcSendSem_eq ⟨3, by decide⟩ rfl _) (Steps.bcRecvSem_eq 0 (pFin c) (off23_eq c) _) r0_4 (ow20 c) _) $$ [Q0_4 R0_4 HO tBcS0_4 tBcR0_4]
  · isplitr; · iexact HRec
    isplitr; · iexact Hlev
    isplitl [Q0_4]; · iexact Q0_4
    isplitl [R0_4]; · iexact R0_4
    isplitl [HO]; · iexact HO
    isplitl [tBcS0_4]; · iexact tBcS0_4
    iexact tBcR0_4
  iintro ⟨cBcS0_4, HO⟩
  sl_exec
  iapply (Steps.send_bc m K c 0 5 (by decide) (dev21_eq c) (Steps.bcSendSem_eq ⟨4, by decide⟩ rfl _) (Steps.bcRecvSem_eq 0 (pFin c) (off23_eq c) _) r0_5 (ow21 c) _) $$ [Q0_5 R0_5 HO tBcS0_5 tBcR0_5]
  · isplitr; · iexact HRec
    isplitr; · iexact Hlev
    isplitl [Q0_5]; · iexact Q0_5
    isplitl [R0_5]; · iexact R0_5
    isplitl [HO]; · iexact HO
    isplitl [tBcS0_5]; · iexact tBcS0_5
    iexact tBcR0_5
  iintro ⟨cBcS0_5, HO⟩
  sl_exec
  iapply (Steps.send_bc m K c 0 6 (by decide) (dev22_eq c) (Steps.bcSendSem_eq ⟨5, by decide⟩ rfl _) (Steps.bcRecvSem_eq 0 (pFin c) (off23_eq c) _) r0_6 (ow22 c) _) $$ [Q0_6 R0_6 HO tBcS0_6 tBcR0_6]
  · isplitr; · iexact HRec
    isplitr; · iexact Hlev
    isplitl [Q0_6]; · iexact Q0_6
    isplitl [R0_6]; · iexact R0_6
    isplitl [HO]; · iexact HO
    isplitl [tBcS0_6]; · iexact tBcS0_6
    iexact tBcR0_6
  iintro ⟨cBcS0_6, HO⟩
  sl_exec
  iapply (Steps.send_bc m K c 0 7 (by decide) (dev23_eq c) (Steps.bcSendSem_eq ⟨6, by decide⟩ rfl _) (Steps.bcRecvSem_eq 0 (pFin c) (off23_eq c) _) r0_7 (ow23 c) _) $$ [Q0_7 R0_7 HO tBcS0_7 tBcR0_7]
  · isplitr; · iexact HRec
    isplitr; · iexact Hlev
    isplitl [Q0_7]; · iexact Q0_7
    isplitl [R0_7]; · iexact R0_7
    isplitl [HO]; · iexact HO
    isplitl [tBcS0_7]; · iexact tBcS0_7
    iexact tBcR0_7
  iintro ⟨cBcS0_7, HO⟩
  sl_exec

  iapply (Steps.wait_yo m K c 2 (ow23 c) _ (Levels.mayWait_mid c _ (Levels.lv_yoRecv 2 c) 23 (by decide))) $$ [cYoR2 HO aYoR2]
  · iframe HRec Hlev cYoR2 HO aYoR2
  iintro ⟨HO, aYoR2, E8_2⟩
  sl_exec
  iapply (Steps.wait_yl m K c 2 (ow23 c) _ (Levels.mayWait_mid c _ (Levels.lv_ylRecv 2 c) 23 (by decide))) $$ [cYlR2 HO aYlR2]
  · iframe HRec Hlev cYlR2 HO aYlR2
  iintro ⟨HO, aYlR2, E10_2⟩
  sl_exec
  iapply (Steps.wait_yo m K c 3 (ow23 c) _ (Levels.mayWait_mid c _ (Levels.lv_yoRecv 3 c) 23 (by decide))) $$ [cYoR3 HO aYoR3]
  · iframe HRec Hlev cYoR3 HO aYoR3
  iintro ⟨HO, aYoR3, E8_3⟩
  sl_exec
  iapply (Steps.wait_yl m K c 3 (ow23 c) _ (Levels.mayWait_mid c _ (Levels.lv_ylRecv 3 c) 23 (by decide))) $$ [cYlR3 HO aYlR3]
  · iframe HRec Hlev cYlR3 HO aYlR3
  iintro ⟨HO, aYlR3, E10_3⟩
  sl_exec

  ihave S1_0 := (Steps.restate11 m c 1 _) $$ S1_0
  ispecialize S1_0 $$ %_ %(off26_eq c) %_ %_ %_ %(rfl) %(by sl_unfold_run_names; rw [Steps.read8_2 m c, Steps.read8_3 m c, Steps.read10_2 m c, Steps.read10_3 m c, Steps.read9r_2 m c, Steps.read9r_3 m c, Steps.omHalf_readCov1 m c _ _ _ _ ?_ ?_ ?_ ?_]; all_goals (first | rfl | (rw [SlabValue.slab_K_0 m c f0 _ _ _ _ , SlabValue.slab_V_0 m c f1 _ _ _ _ , SlabValue.read_q_0 m c]; rfl) | (rw [SlabValue.slab_K_1 m c f0 _ _ _ _ _ _ _ _ , SlabValue.slab_V_1 m c f1 _ _ _ _ _ _ _ _ , SlabValue.read_q_1 m c]; rfl) | (rw [SlabValue.slab_K_2 m c f0 _ _ _ _ _ _ _ _ _ _ _ _ , SlabValue.slab_V_2 m c f1 _ _ _ _ _ _ _ _ _ _ _ _ , SlabValue.read_q_2 m c]; rfl) | (rw [SlabValue.slab_K_3 m c f0 _ _ _ _ _ _ _ _ _ _ _ _ , SlabValue.slab_V_3 m c f1 _ _ _ _ _ _ _ _ _ _ _ _ , SlabValue.read_q_3 m c]; rfl)))
  ihave Sh := (Geom.shares7 _ _).1 $$ S1_0
  icases Sh with ⟨Q1_1, Q1_2, Q1_3, Q1_4, Q1_5, Q1_6, Q1_7⟩
  iapply (Steps.send_bc m K c 1 1 (by decide) (dev24_eq c) (Steps.bcSendSem_eq ⟨7, by decide⟩ rfl _) (Steps.bcRecvSem_eq 1 (pFin c) (off27_eq c) _) r1_1 (ow24 c) _) $$ [Q1_1 R1_1 HO tBcS1_1 tBcR1_1]
  · isplitr; · iexact HRec
    isplitr; · iexact Hlev
    isplitl [Q1_1]; · iexact Q1_1
    isplitl [R1_1]; · iexact R1_1
    isplitl [HO]; · iexact HO
    isplitl [tBcS1_1]; · iexact tBcS1_1
    iexact tBcR1_1
  iintro ⟨cBcS1_1, HO⟩
  sl_exec
  iapply (Steps.send_bc m K c 1 2 (by decide) (dev25_eq c) (Steps.bcSendSem_eq ⟨8, by decide⟩ rfl _) (Steps.bcRecvSem_eq 1 (pFin c) (off27_eq c) _) r1_2 (ow25 c) _) $$ [Q1_2 R1_2 HO tBcS1_2 tBcR1_2]
  · isplitr; · iexact HRec
    isplitr; · iexact Hlev
    isplitl [Q1_2]; · iexact Q1_2
    isplitl [R1_2]; · iexact R1_2
    isplitl [HO]; · iexact HO
    isplitl [tBcS1_2]; · iexact tBcS1_2
    iexact tBcR1_2
  iintro ⟨cBcS1_2, HO⟩
  sl_exec
  iapply (Steps.send_bc m K c 1 3 (by decide) (dev26_eq c) (Steps.bcSendSem_eq ⟨9, by decide⟩ rfl _) (Steps.bcRecvSem_eq 1 (pFin c) (off27_eq c) _) r1_3 (ow26 c) _) $$ [Q1_3 R1_3 HO tBcS1_3 tBcR1_3]
  · isplitr; · iexact HRec
    isplitr; · iexact Hlev
    isplitl [Q1_3]; · iexact Q1_3
    isplitl [R1_3]; · iexact R1_3
    isplitl [HO]; · iexact HO
    isplitl [tBcS1_3]; · iexact tBcS1_3
    iexact tBcR1_3
  iintro ⟨cBcS1_3, HO⟩
  sl_exec
  iapply (Steps.send_bc m K c 1 4 (by decide) (dev27_eq c) (Steps.bcSendSem_eq ⟨10, by decide⟩ rfl _) (Steps.bcRecvSem_eq 1 (pFin c) (off27_eq c) _) r1_4 (ow27 c) _) $$ [Q1_4 R1_4 HO tBcS1_4 tBcR1_4]
  · isplitr; · iexact HRec
    isplitr; · iexact Hlev
    isplitl [Q1_4]; · iexact Q1_4
    isplitl [R1_4]; · iexact R1_4
    isplitl [HO]; · iexact HO
    isplitl [tBcS1_4]; · iexact tBcS1_4
    iexact tBcR1_4
  iintro ⟨cBcS1_4, HO⟩
  sl_exec
  iapply (Steps.send_bc m K c 1 5 (by decide) (dev28_eq c) (Steps.bcSendSem_eq ⟨11, by decide⟩ rfl _) (Steps.bcRecvSem_eq 1 (pFin c) (off27_eq c) _) r1_5 (ow28 c) _) $$ [Q1_5 R1_5 HO tBcS1_5 tBcR1_5]
  · isplitr; · iexact HRec
    isplitr; · iexact Hlev
    isplitl [Q1_5]; · iexact Q1_5
    isplitl [R1_5]; · iexact R1_5
    isplitl [HO]; · iexact HO
    isplitl [tBcS1_5]; · iexact tBcS1_5
    iexact tBcR1_5
  iintro ⟨cBcS1_5, HO⟩
  sl_exec
  iapply (Steps.send_bc m K c 1 6 (by decide) (dev29_eq c) (Steps.bcSendSem_eq ⟨12, by decide⟩ rfl _) (Steps.bcRecvSem_eq 1 (pFin c) (off27_eq c) _) r1_6 (ow29 c) _) $$ [Q1_6 R1_6 HO tBcS1_6 tBcR1_6]
  · isplitr; · iexact HRec
    isplitr; · iexact Hlev
    isplitl [Q1_6]; · iexact Q1_6
    isplitl [R1_6]; · iexact R1_6
    isplitl [HO]; · iexact HO
    isplitl [tBcS1_6]; · iexact tBcS1_6
    iexact tBcR1_6
  iintro ⟨cBcS1_6, HO⟩
  sl_exec
  iapply (Steps.send_bc m K c 1 7 (by decide) (dev30_eq c) (Steps.bcSendSem_eq ⟨13, by decide⟩ rfl _) (Steps.bcRecvSem_eq 1 (pFin c) (off27_eq c) _) r1_7 [] _) $$ [Q1_7 R1_7 HO tBcS1_7 tBcR1_7]
  · isplitr; · iexact HRec
    isplitr; · iexact Hlev
    isplitl [Q1_7]; · iexact Q1_7
    isplitl [R1_7]; · iexact R1_7
    isplitl [HO]; · iexact HO
    isplitl [tBcS1_7]; · iexact tBcS1_7
    iexact tBcR1_7
  iintro ⟨cBcS1_7, HO⟩
  sl_exec

  iapply (Steps.wait_bcr m K c 0 1 (by decide) (Steps.bcRecvSem_eq 0 (rj c 1) (off29_eq_1 c) _) [] (Steps.mayWait_nil c _) _) $$ [cBcR0_1 HO aBcR0_1]
  · iframe HRec Hlev cBcR0_1 HO aBcR0_1
  iintro ⟨HO, aBcR0_1, F0_1⟩
  sl_exec
  iapply (Steps.wait_bcr m K c 0 2 (by decide) (Steps.bcRecvSem_eq 0 (rj c 2) (off29_eq_2 c) _) [] (Steps.mayWait_nil c _) _) $$ [cBcR0_2 HO aBcR0_2]
  · iframe HRec Hlev cBcR0_2 HO aBcR0_2
  iintro ⟨HO, aBcR0_2, F0_2⟩
  sl_exec
  iapply (Steps.wait_bcr m K c 0 3 (by decide) (Steps.bcRecvSem_eq 0 (rj c 3) (off29_eq_3 c) _) [] (Steps.mayWait_nil c _) _) $$ [cBcR0_3 HO aBcR0_3]
  · iframe HRec Hlev cBcR0_3 HO aBcR0_3
  iintro ⟨HO, aBcR0_3, F0_3⟩
  sl_exec
  iapply (Steps.wait_bcr m K c 0 4 (by decide) (Steps.bcRecvSem_eq 0 (rj c 4) (off29_eq_4 c) _) [] (Steps.mayWait_nil c _) _) $$ [cBcR0_4 HO aBcR0_4]
  · iframe HRec Hlev cBcR0_4 HO aBcR0_4
  iintro ⟨HO, aBcR0_4, F0_4⟩
  sl_exec
  iapply (Steps.wait_bcr m K c 0 5 (by decide) (Steps.bcRecvSem_eq 0 (rj c 5) (off29_eq_5 c) _) [] (Steps.mayWait_nil c _) _) $$ [cBcR0_5 HO aBcR0_5]
  · iframe HRec Hlev cBcR0_5 HO aBcR0_5
  iintro ⟨HO, aBcR0_5, F0_5⟩
  sl_exec
  iapply (Steps.wait_bcr m K c 0 6 (by decide) (Steps.bcRecvSem_eq 0 (rj c 6) (off29_eq_6 c) _) [] (Steps.mayWait_nil c _) _) $$ [cBcR0_6 HO aBcR0_6]
  · iframe HRec Hlev cBcR0_6 HO aBcR0_6
  iintro ⟨HO, aBcR0_6, F0_6⟩
  sl_exec
  iapply (Steps.wait_bcr m K c 0 7 (by decide) (Steps.bcRecvSem_eq 0 (rj c 7) (off29_eq_7 c) _) [] (Steps.mayWait_nil c _) _) $$ [cBcR0_7 HO aBcR0_7]
  · iframe HRec Hlev cBcR0_7 HO aBcR0_7
  iintro ⟨HO, aBcR0_7, F0_7⟩
  sl_exec
  iapply (Steps.wait_bcr m K c 1 1 (by decide) (Steps.bcRecvSem_eq 1 (rj c 1) (off33_eq_1 c) _) [] (Steps.mayWait_nil c _) _) $$ [cBcR1_1 HO aBcR1_1]
  · iframe HRec Hlev cBcR1_1 HO aBcR1_1
  iintro ⟨HO, aBcR1_1, F1_1⟩
  sl_exec
  iapply (Steps.wait_bcr m K c 1 2 (by decide) (Steps.bcRecvSem_eq 1 (rj c 2) (off33_eq_2 c) _) [] (Steps.mayWait_nil c _) _) $$ [cBcR1_2 HO aBcR1_2]
  · iframe HRec Hlev cBcR1_2 HO aBcR1_2
  iintro ⟨HO, aBcR1_2, F1_2⟩
  sl_exec
  iapply (Steps.wait_bcr m K c 1 3 (by decide) (Steps.bcRecvSem_eq 1 (rj c 3) (off33_eq_3 c) _) [] (Steps.mayWait_nil c _) _) $$ [cBcR1_3 HO aBcR1_3]
  · iframe HRec Hlev cBcR1_3 HO aBcR1_3
  iintro ⟨HO, aBcR1_3, F1_3⟩
  sl_exec
  iapply (Steps.wait_bcr m K c 1 4 (by decide) (Steps.bcRecvSem_eq 1 (rj c 4) (off33_eq_4 c) _) [] (Steps.mayWait_nil c _) _) $$ [cBcR1_4 HO aBcR1_4]
  · iframe HRec Hlev cBcR1_4 HO aBcR1_4
  iintro ⟨HO, aBcR1_4, F1_4⟩
  sl_exec
  iapply (Steps.wait_bcr m K c 1 5 (by decide) (Steps.bcRecvSem_eq 1 (rj c 5) (off33_eq_5 c) _) [] (Steps.mayWait_nil c _) _) $$ [cBcR1_5 HO aBcR1_5]
  · iframe HRec Hlev cBcR1_5 HO aBcR1_5
  iintro ⟨HO, aBcR1_5, F1_5⟩
  sl_exec
  iapply (Steps.wait_bcr m K c 1 6 (by decide) (Steps.bcRecvSem_eq 1 (rj c 6) (off33_eq_6 c) _) [] (Steps.mayWait_nil c _) _) $$ [cBcR1_6 HO aBcR1_6]
  · iframe HRec Hlev cBcR1_6 HO aBcR1_6
  iintro ⟨HO, aBcR1_6, F1_6⟩
  sl_exec
  iapply (Steps.wait_bcr m K c 1 7 (by decide) (Steps.bcRecvSem_eq 1 (rj c 7) (off33_eq_7 c) _) [] (Steps.mayWait_nil c _) _) $$ [cBcR1_7 HO aBcR1_7]
  · iframe HRec Hlev cBcR1_7 HO aBcR1_7
  iintro ⟨HO, aBcR1_7, F1_7⟩
  sl_exec

  iapply (Steps.wait_bcs m K c 0 1 (by decide) (Steps.bcSendSem_eq ⟨0, by decide⟩ rfl _) [] (Steps.mayWait_nil c _) _) $$ [cBcS0_1 HO aBcS0_1]
  · iframe HRec Hlev cBcS0_1 HO aBcS0_1
  iintro ⟨HO, aBcS0_1, Q0_1⟩
  sl_exec
  iapply (Steps.wait_bcs m K c 0 2 (by decide) (Steps.bcSendSem_eq ⟨1, by decide⟩ rfl _) [] (Steps.mayWait_nil c _) _) $$ [cBcS0_2 HO aBcS0_2]
  · iframe HRec Hlev cBcS0_2 HO aBcS0_2
  iintro ⟨HO, aBcS0_2, Q0_2⟩
  sl_exec
  iapply (Steps.wait_bcs m K c 0 3 (by decide) (Steps.bcSendSem_eq ⟨2, by decide⟩ rfl _) [] (Steps.mayWait_nil c _) _) $$ [cBcS0_3 HO aBcS0_3]
  · iframe HRec Hlev cBcS0_3 HO aBcS0_3
  iintro ⟨HO, aBcS0_3, Q0_3⟩
  sl_exec
  iapply (Steps.wait_bcs m K c 0 4 (by decide) (Steps.bcSendSem_eq ⟨3, by decide⟩ rfl _) [] (Steps.mayWait_nil c _) _) $$ [cBcS0_4 HO aBcS0_4]
  · iframe HRec Hlev cBcS0_4 HO aBcS0_4
  iintro ⟨HO, aBcS0_4, Q0_4⟩
  sl_exec
  iapply (Steps.wait_bcs m K c 0 5 (by decide) (Steps.bcSendSem_eq ⟨4, by decide⟩ rfl _) [] (Steps.mayWait_nil c _) _) $$ [cBcS0_5 HO aBcS0_5]
  · iframe HRec Hlev cBcS0_5 HO aBcS0_5
  iintro ⟨HO, aBcS0_5, Q0_5⟩
  sl_exec
  iapply (Steps.wait_bcs m K c 0 6 (by decide) (Steps.bcSendSem_eq ⟨5, by decide⟩ rfl _) [] (Steps.mayWait_nil c _) _) $$ [cBcS0_6 HO aBcS0_6]
  · iframe HRec Hlev cBcS0_6 HO aBcS0_6
  iintro ⟨HO, aBcS0_6, Q0_6⟩
  sl_exec
  iapply (Steps.wait_bcs m K c 0 7 (by decide) (Steps.bcSendSem_eq ⟨6, by decide⟩ rfl _) [] (Steps.mayWait_nil c _) _) $$ [cBcS0_7 HO aBcS0_7]
  · iframe HRec Hlev cBcS0_7 HO aBcS0_7
  iintro ⟨HO, aBcS0_7, Q0_7⟩
  sl_exec
  iapply (Steps.wait_bcs m K c 1 1 (by decide) (Steps.bcSendSem_eq ⟨7, by decide⟩ rfl _) [] (Steps.mayWait_nil c _) _) $$ [cBcS1_1 HO aBcS1_1]
  · iframe HRec Hlev cBcS1_1 HO aBcS1_1
  iintro ⟨HO, aBcS1_1, Q1_1⟩
  sl_exec
  iapply (Steps.wait_bcs m K c 1 2 (by decide) (Steps.bcSendSem_eq ⟨8, by decide⟩ rfl _) [] (Steps.mayWait_nil c _) _) $$ [cBcS1_2 HO aBcS1_2]
  · iframe HRec Hlev cBcS1_2 HO aBcS1_2
  iintro ⟨HO, aBcS1_2, Q1_2⟩
  sl_exec
  iapply (Steps.wait_bcs m K c 1 3 (by decide) (Steps.bcSendSem_eq ⟨9, by decide⟩ rfl _) [] (Steps.mayWait_nil c _) _) $$ [cBcS1_3 HO aBcS1_3]
  · iframe HRec Hlev cBcS1_3 HO aBcS1_3
  iintro ⟨HO, aBcS1_3, Q1_3⟩
  sl_exec
  iapply (Steps.wait_bcs m K c 1 4 (by decide) (Steps.bcSendSem_eq ⟨10, by decide⟩ rfl _) [] (Steps.mayWait_nil c _) _) $$ [cBcS1_4 HO aBcS1_4]
  · iframe HRec Hlev cBcS1_4 HO aBcS1_4
  iintro ⟨HO, aBcS1_4, Q1_4⟩
  sl_exec
  iapply (Steps.wait_bcs m K c 1 5 (by decide) (Steps.bcSendSem_eq ⟨11, by decide⟩ rfl _) [] (Steps.mayWait_nil c _) _) $$ [cBcS1_5 HO aBcS1_5]
  · iframe HRec Hlev cBcS1_5 HO aBcS1_5
  iintro ⟨HO, aBcS1_5, Q1_5⟩
  sl_exec
  iapply (Steps.wait_bcs m K c 1 6 (by decide) (Steps.bcSendSem_eq ⟨12, by decide⟩ rfl _) [] (Steps.mayWait_nil c _) _) $$ [cBcS1_6 HO aBcS1_6]
  · iframe HRec Hlev cBcS1_6 HO aBcS1_6
  iintro ⟨HO, aBcS1_6, Q1_6⟩
  sl_exec
  iapply (Steps.wait_bcs m K c 1 7 (by decide) (Steps.bcSendSem_eq ⟨13, by decide⟩ rfl _) [] (Steps.mayWait_nil c _) _) $$ [cBcS1_7 HO aBcS1_7]
  · iframe HRec Hlev cBcS1_7 HO aBcS1_7
  iintro ⟨HO, aBcS1_7, Q1_7⟩
  sl_exec
  iapply (Steps.wait_yos m K c 0 [] _ (Steps.mayWait_nil c _)) $$ [cYoS0 HO aYoS0]
  · iframe HRec Hlev cYoS0 HO aYoS0
  iintro ⟨HO, aYoS0, B7_0⟩
  sl_exec
  iapply (Steps.wait_yls m K c 0 [] _ (Steps.mayWait_nil c _)) $$ [cYlS0 HO aYlS0]
  · iframe HRec Hlev cYlS0 HO aYlS0
  iintro ⟨HO, aYlS0, B9L_0⟩
  sl_exec
  iapply (Steps.wait_yos m K c 1 [] _ (Steps.mayWait_nil c _)) $$ [cYoS1 HO aYoS1]
  · iframe HRec Hlev cYoS1 HO aYoS1
  iintro ⟨HO, aYoS1, B7_1⟩
  sl_exec
  iapply (Steps.wait_yls m K c 1 [] _ (Steps.mayWait_nil c _)) $$ [cYlS1 HO aYlS1]
  · iframe HRec Hlev cYlS1 HO aYlS1
  iintro ⟨HO, aYlS1, B9L_1⟩
  sl_exec
  iapply (Steps.wait_yos m K c 2 [] _ (Steps.mayWait_nil c _)) $$ [cYoS2 HO aYoS2]
  · iframe HRec Hlev cYoS2 HO aYoS2
  iintro ⟨HO, aYoS2, B7_2⟩
  sl_exec
  iapply (Steps.wait_yls m K c 2 [] _ (Steps.mayWait_nil c _)) $$ [cYlS2 HO aYlS2]
  · iframe HRec Hlev cYlS2 HO aYlS2
  iintro ⟨HO, aYlS2, B9L_2⟩
  sl_exec
  iapply (Steps.wait_yos m K c 3 [] _ (Steps.mayWait_nil c _)) $$ [cYoS3 HO aYoS3]
  · iframe HRec Hlev cYoS3 HO aYoS3
  iintro ⟨HO, aYoS3, B7_3⟩
  sl_exec
  iapply (Steps.wait_yls m K c 3 [] _ (Steps.mayWait_nil c _)) $$ [cYlS3 HO aYlS3]
  · iframe HRec Hlev cYlS3 HO aYlS3
  iintro ⟨HO, aYlS3, B9L_3⟩

  imod (Steps.close_yoSend m K c 0) $$ [aYoS0] with zYoS0
  · iframe HRec aYoS0
  imod (Steps.close_yoRecv m K c 0) $$ [aYoR0] with zYoR0
  · iframe HRec aYoR0
  imod (Steps.close_ylSend m K c 0) $$ [aYlS0] with zYlS0
  · iframe HRec aYlS0
  imod (Steps.close_ylRecv m K c 0) $$ [aYlR0] with zYlR0
  · iframe HRec aYlR0
  imod (Steps.close_yoSend m K c 1) $$ [aYoS1] with zYoS1
  · iframe HRec aYoS1
  imod (Steps.close_yoRecv m K c 1) $$ [aYoR1] with zYoR1
  · iframe HRec aYoR1
  imod (Steps.close_ylSend m K c 1) $$ [aYlS1] with zYlS1
  · iframe HRec aYlS1
  imod (Steps.close_ylRecv m K c 1) $$ [aYlR1] with zYlR1
  · iframe HRec aYlR1
  imod (Steps.close_yoSend m K c 2) $$ [aYoS2] with zYoS2
  · iframe HRec aYoS2
  imod (Steps.close_yoRecv m K c 2) $$ [aYoR2] with zYoR2
  · iframe HRec aYoR2
  imod (Steps.close_ylSend m K c 2) $$ [aYlS2] with zYlS2
  · iframe HRec aYlS2
  imod (Steps.close_ylRecv m K c 2) $$ [aYlR2] with zYlR2
  · iframe HRec aYlR2
  imod (Steps.close_yoSend m K c 3) $$ [aYoS3] with zYoS3
  · iframe HRec aYoS3
  imod (Steps.close_yoRecv m K c 3) $$ [aYoR3] with zYoR3
  · iframe HRec aYoR3
  imod (Steps.close_ylSend m K c 3) $$ [aYlS3] with zYlS3
  · iframe HRec aYlS3
  imod (Steps.close_ylRecv m K c 3) $$ [aYlR3] with zYlR3
  · iframe HRec aYlR3
  imod (Steps.close_bcSend m K c ⟨0, by decide⟩) $$ [aBcS0_1] with zBcS0_1
  · iframe HRec aBcS0_1
  imod (Steps.close_bcSend m K c ⟨1, by decide⟩) $$ [aBcS0_2] with zBcS0_2
  · iframe HRec aBcS0_2
  imod (Steps.close_bcSend m K c ⟨2, by decide⟩) $$ [aBcS0_3] with zBcS0_3
  · iframe HRec aBcS0_3
  imod (Steps.close_bcSend m K c ⟨3, by decide⟩) $$ [aBcS0_4] with zBcS0_4
  · iframe HRec aBcS0_4
  imod (Steps.close_bcSend m K c ⟨4, by decide⟩) $$ [aBcS0_5] with zBcS0_5
  · iframe HRec aBcS0_5
  imod (Steps.close_bcSend m K c ⟨5, by decide⟩) $$ [aBcS0_6] with zBcS0_6
  · iframe HRec aBcS0_6
  imod (Steps.close_bcSend m K c ⟨6, by decide⟩) $$ [aBcS0_7] with zBcS0_7
  · iframe HRec aBcS0_7
  imod (Steps.close_bcSend m K c ⟨7, by decide⟩) $$ [aBcS1_1] with zBcS1_1
  · iframe HRec aBcS1_1
  imod (Steps.close_bcSend m K c ⟨8, by decide⟩) $$ [aBcS1_2] with zBcS1_2
  · iframe HRec aBcS1_2
  imod (Steps.close_bcSend m K c ⟨9, by decide⟩) $$ [aBcS1_3] with zBcS1_3
  · iframe HRec aBcS1_3
  imod (Steps.close_bcSend m K c ⟨10, by decide⟩) $$ [aBcS1_4] with zBcS1_4
  · iframe HRec aBcS1_4
  imod (Steps.close_bcSend m K c ⟨11, by decide⟩) $$ [aBcS1_5] with zBcS1_5
  · iframe HRec aBcS1_5
  imod (Steps.close_bcSend m K c ⟨12, by decide⟩) $$ [aBcS1_6] with zBcS1_6
  · iframe HRec aBcS1_6
  imod (Steps.close_bcSend m K c ⟨13, by decide⟩) $$ [aBcS1_7] with zBcS1_7
  · iframe HRec aBcS1_7
  imod (Steps.close_bcRecv_own m K c 0) $$ [aBcR0_0] with zBcR0_0
  · iframe HRec aBcR0_0
  imod (Steps.close_bcRecv m K c 0 (rj c 1)) $$ [aBcR0_1] with zBcR0_1
  · iframe HRec aBcR0_1
  imod (Steps.close_bcRecv m K c 0 (rj c 2)) $$ [aBcR0_2] with zBcR0_2
  · iframe HRec aBcR0_2
  imod (Steps.close_bcRecv m K c 0 (rj c 3)) $$ [aBcR0_3] with zBcR0_3
  · iframe HRec aBcR0_3
  imod (Steps.close_bcRecv m K c 0 (rj c 4)) $$ [aBcR0_4] with zBcR0_4
  · iframe HRec aBcR0_4
  imod (Steps.close_bcRecv m K c 0 (rj c 5)) $$ [aBcR0_5] with zBcR0_5
  · iframe HRec aBcR0_5
  imod (Steps.close_bcRecv m K c 0 (rj c 6)) $$ [aBcR0_6] with zBcR0_6
  · iframe HRec aBcR0_6
  imod (Steps.close_bcRecv m K c 0 (rj c 7)) $$ [aBcR0_7] with zBcR0_7
  · iframe HRec aBcR0_7
  imod (Steps.close_bcRecv_own m K c 1) $$ [aBcR1_0] with zBcR1_0
  · iframe HRec aBcR1_0
  imod (Steps.close_bcRecv m K c 1 (rj c 1)) $$ [aBcR1_1] with zBcR1_1
  · iframe HRec aBcR1_1
  imod (Steps.close_bcRecv m K c 1 (rj c 2)) $$ [aBcR1_2] with zBcR1_2
  · iframe HRec aBcR1_2
  imod (Steps.close_bcRecv m K c 1 (rj c 3)) $$ [aBcR1_3] with zBcR1_3
  · iframe HRec aBcR1_3
  imod (Steps.close_bcRecv m K c 1 (rj c 4)) $$ [aBcR1_4] with zBcR1_4
  · iframe HRec aBcR1_4
  imod (Steps.close_bcRecv m K c 1 (rj c 5)) $$ [aBcR1_5] with zBcR1_5
  · iframe HRec aBcR1_5
  imod (Steps.close_bcRecv m K c 1 (rj c 6)) $$ [aBcR1_6] with zBcR1_6
  · iframe HRec aBcR1_6
  imod (Steps.close_bcRecv m K c 1 (rj c 7)) $$ [aBcR1_7] with zBcR1_7
  · iframe HRec aBcR1_7
  sl_exec
  sl_step
  iapply HK
  unfold bodyPost
  isplitl [H0 H1 H2 B7_0 B7_1 B7_2 B7_3 E8_0 E8_1 E8_2 E8_3 B9L_0 B9R_0 B9L_1 B9R_1 B9L_2 B9R_2 B9L_3 B9R_3 E10_0 E10_1 E10_2 E10_3 Q0_1 Q0_2 Q0_3 Q0_4 Q0_5 Q0_6 Q0_7 Q1_1 Q1_2 Q1_3 Q1_4 Q1_5 Q1_6 Q1_7 F0_1 F0_2 F0_3 F0_4 F0_5 F0_6 F0_7 F1_1 F1_2 F1_3 F1_4 F1_5 F1_6 F1_7 Hk Hv z2 z3 z4 z5 z6 z7 z8 z9 z10 z11 z12 z13 z14 z15 z16 z17 zYoS0 zYoS1 zYoS2 zYoS3 zYoR0 zYoR1 zYoR2 zYoR3 zYlS0 zYlS1 zYlS2 zYlS3 zYlR0 zYlR1 zYlR2 zYlR3 zBcS0_1 zBcS0_2 zBcS0_3 zBcS0_4 zBcS0_5 zBcS0_6 zBcS0_7 zBcS1_1 zBcS1_2 zBcS1_3 zBcS1_4 zBcS1_5 zBcS1_6 zBcS1_7 zBcR0_0 zBcR0_1 zBcR0_2 zBcR0_3 zBcR0_4 zBcR0_5 zBcR0_6 zBcR0_7 zBcR1_0 zBcR1_1 zBcR1_2 zBcR1_3 zBcR1_4 zBcR1_5 zBcR1_6 zBcR1_7]
  · iapply (Steps.assemble_phi1 m c)
    isplitl [H0]; · iexists _; iexact H0
    isplitl [H1]; · iexists _; iexact H1
    isplitl [H2]; · iexists _; iexact H2
    isplitl [B7_0]; · iexact B7_0
    isplitl [B7_1]; · iexact B7_1
    isplitl [B7_2]; · iexact B7_2
    isplitl [B7_3]; · iexact B7_3
    isplitl [E8_0]; · iexact E8_0
    isplitl [E8_1]; · iexact E8_1
    isplitl [E8_2]; · iexact E8_2
    isplitl [E8_3]; · iexact E8_3
    isplitl [B9L_0]; · iexact B9L_0
    isplitl [B9R_0]; · iexact B9R_0
    isplitl [B9L_1]; · iexact B9L_1
    isplitl [B9R_1]; · iexact B9R_1
    isplitl [B9L_2]; · iexact B9L_2
    isplitl [B9R_2]; · iexact B9R_2
    isplitl [B9L_3]; · iexact B9L_3
    isplitl [B9R_3]; · iexact B9R_3
    isplitl [E10_0]; · iexact E10_0
    isplitl [E10_1]; · iexact E10_1
    isplitl [E10_2]; · iexact E10_2
    isplitl [E10_3]; · iexact E10_3
    isplitl [Q0_1]; · iexact Q0_1
    isplitl [Q0_2]; · iexact Q0_2
    isplitl [Q0_3]; · iexact Q0_3
    isplitl [Q0_4]; · iexact Q0_4
    isplitl [Q0_5]; · iexact Q0_5
    isplitl [Q0_6]; · iexact Q0_6
    isplitl [Q0_7]; · iexact Q0_7
    isplitl [Q1_1]; · iexact Q1_1
    isplitl [Q1_2]; · iexact Q1_2
    isplitl [Q1_3]; · iexact Q1_3
    isplitl [Q1_4]; · iexact Q1_4
    isplitl [Q1_5]; · iexact Q1_5
    isplitl [Q1_6]; · iexact Q1_6
    isplitl [Q1_7]; · iexact Q1_7
    isplitl [F0_1]; · iexact F0_1
    isplitl [F0_2]; · iexact F0_2
    isplitl [F0_3]; · iexact F0_3
    isplitl [F0_4]; · iexact F0_4
    isplitl [F0_5]; · iexact F0_5
    isplitl [F0_6]; · iexact F0_6
    isplitl [F0_7]; · iexact F0_7
    isplitl [F1_1]; · iexact F1_1
    isplitl [F1_2]; · iexact F1_2
    isplitl [F1_3]; · iexact F1_3
    isplitl [F1_4]; · iexact F1_4
    isplitl [F1_5]; · iexact F1_5
    isplitl [F1_6]; · iexact F1_6
    isplitl [F1_7]; · iexact F1_7
    isplitl [Hk]; · iexact Hk
    isplitl [Hv]; · iexact Hv
    isplitl [z2]; · iexact z2
    isplitl [z3]; · iexact z3
    isplitl [z4]; · iexact z4
    isplitl [z5]; · iexact z5
    isplitl [z6]; · iexact z6
    isplitl [z7]; · iexact z7
    isplitl [z8]; · iexact z8
    isplitl [z9]; · iexact z9
    isplitl [z10]; · iexact z10
    isplitl [z11]; · iexact z11
    isplitl [z12]; · iexact z12
    isplitl [z13]; · iexact z13
    isplitl [z14]; · iexact z14
    isplitl [z15]; · iexact z15
    isplitl [z16]; · iexact z16
    isplitl [z17]; · iexact z17
    isplitl [zYoS0]; · iexact zYoS0
    isplitl [zYoS1]; · iexact zYoS1
    isplitl [zYoS2]; · iexact zYoS2
    isplitl [zYoS3]; · iexact zYoS3
    isplitl [zYoR0]; · iexact zYoR0
    isplitl [zYoR1]; · iexact zYoR1
    isplitl [zYoR2]; · iexact zYoR2
    isplitl [zYoR3]; · iexact zYoR3
    isplitl [zYlS0]; · iexact zYlS0
    isplitl [zYlS1]; · iexact zYlS1
    isplitl [zYlS2]; · iexact zYlS2
    isplitl [zYlS3]; · iexact zYlS3
    isplitl [zYlR0]; · iexact zYlR0
    isplitl [zYlR1]; · iexact zYlR1
    isplitl [zYlR2]; · iexact zYlR2
    isplitl [zYlR3]; · iexact zYlR3
    isplitl [zBcS0_1]; · iexact zBcS0_1
    isplitl [zBcS0_2]; · iexact zBcS0_2
    isplitl [zBcS0_3]; · iexact zBcS0_3
    isplitl [zBcS0_4]; · iexact zBcS0_4
    isplitl [zBcS0_5]; · iexact zBcS0_5
    isplitl [zBcS0_6]; · iexact zBcS0_6
    isplitl [zBcS0_7]; · iexact zBcS0_7
    isplitl [zBcS1_1]; · iexact zBcS1_1
    isplitl [zBcS1_2]; · iexact zBcS1_2
    isplitl [zBcS1_3]; · iexact zBcS1_3
    isplitl [zBcS1_4]; · iexact zBcS1_4
    isplitl [zBcS1_5]; · iexact zBcS1_5
    isplitl [zBcS1_6]; · iexact zBcS1_6
    isplitl [zBcS1_7]; · iexact zBcS1_7
    isplitl [zBcR0_0]; · iexact zBcR0_0
    isplitl [zBcR0_1]; · iexact zBcR0_1
    isplitl [zBcR0_2]; · iexact zBcR0_2
    isplitl [zBcR0_3]; · iexact zBcR0_3
    isplitl [zBcR0_4]; · iexact zBcR0_4
    isplitl [zBcR0_5]; · iexact zBcR0_5
    isplitl [zBcR0_6]; · iexact zBcR0_6
    isplitl [zBcR0_7]; · iexact zBcR0_7
    isplitl [zBcR1_0]; · iexact zBcR1_0
    isplitl [zBcR1_1]; · iexact zBcR1_1
    isplitl [zBcR1_2]; · iexact zBcR1_2
    isplitl [zBcR1_3]; · iexact zBcR1_3
    isplitl [zBcR1_4]; · iexact zBcR1_4
    isplitl [zBcR1_5]; · iexact zBcR1_5
    isplitl [zBcR1_6]; · iexact zBcR1_6
    iexact zBcR1_7
  isplitl [HO]; · iexists _; iexact HO
  isplitl [Hq]; · iexact Hq
  ihave Ho := (restate_whole c cc0_stg1_0 _ (Vals.out m c)) $$ Ho
  ispecialize Ho $$ %(by
    sl_unfold_run_names
    rw [Steps.read8_0 m c, Steps.read8_1 m c, Steps.read10_0 m c, Steps.read10_1 m c, Steps.read9r_0 m c, Steps.read9r_1 m c, Steps.omHalf_readCov0 m c _ _ _ _ ?_ ?_ ?_ ?_]
    rw [Steps.read8_2 m c, Steps.read8_3 m c, Steps.read10_2 m c, Steps.read10_3 m c, Steps.read9r_2 m c, Steps.read9r_3 m c, Steps.omHalf_readCov1 m c _ _ _ _ ?_ ?_ ?_ ?_]
    rw [Steps.read11r m c 0 ((1 : Fin 8) : Fin 8).val (by decide) _ (off31_eq_1 c), Steps.read11r m c 0 ((2 : Fin 8) : Fin 8).val (by decide) _ (off31_eq_2 c), Steps.read11r m c 0 ((3 : Fin 8) : Fin 8).val (by decide) _ (off31_eq_3 c), Steps.read11r m c 0 ((4 : Fin 8) : Fin 8).val (by decide) _ (off31_eq_4 c), Steps.read11r m c 0 ((5 : Fin 8) : Fin 8).val (by decide) _ (off31_eq_5 c), Steps.read11r m c 0 ((6 : Fin 8) : Fin 8).val (by decide) _ (off31_eq_6 c), Steps.read11r m c 0 ((7 : Fin 8) : Fin 8).val (by decide) _ (off31_eq_7 c), Steps.read11r m c 1 ((1 : Fin 8) : Fin 8).val (by decide) _ (off35_eq_1 c), Steps.read11r m c 1 ((2 : Fin 8) : Fin 8).val (by decide) _ (off35_eq_2 c), Steps.read11r m c 1 ((3 : Fin 8) : Fin 8).val (by decide) _ (off35_eq_3 c), Steps.read11r m c 1 ((4 : Fin 8) : Fin 8).val (by decide) _ (off35_eq_4 c), Steps.read11r m c 1 ((5 : Fin 8) : Fin 8).val (by decide) _ (off35_eq_5 c), Steps.read11r m c 1 ((6 : Fin 8) : Fin 8).val (by decide) _ (off35_eq_6 c), Steps.read11r m c 1 ((7 : Fin 8) : Fin 8).val (by decide) _ (off35_eq_7 c)]
    rw [OutValue.pay33_eq, OutValue.pay34_eq, OutValue.pay35_eq, OutValue.pay36_eq, OutValue.pay37_eq, OutValue.pay38_eq, OutValue.pay39_eq, OutValue.pay40_eq, OutValue.pay41_eq, OutValue.pay42_eq, OutValue.pay43_eq, OutValue.pay44_eq, OutValue.pay45_eq, OutValue.pay30_eq]
    all_goals (first | exact OutValue.out_writes m c fo | rfl | (rw [SlabValue.slab_K_0 m c f0 _ _ _ _ , SlabValue.slab_V_0 m c f1 _ _ _ _ , SlabValue.read_q_0 m c]; rfl) | (rw [SlabValue.slab_K_1 m c f0 _ _ _ _ _ _ _ _ , SlabValue.slab_V_1 m c f1 _ _ _ _ _ _ _ _ , SlabValue.read_q_1 m c]; rfl) | (rw [SlabValue.slab_K_2 m c f0 _ _ _ _ _ _ _ _ _ _ _ _ , SlabValue.slab_V_2 m c f1 _ _ _ _ _ _ _ _ _ _ _ _ , SlabValue.read_q_2 m c]; rfl) | (rw [SlabValue.slab_K_3 m c f0 _ _ _ _ _ _ _ _ _ _ _ _ , SlabValue.slab_V_3 m c f1 _ _ _ _ _ _ _ _ _ _ _ _ , SlabValue.read_q_3 m c]; rfl)))
  iexact Ho

theorem body_obligation (c : Dev nD) : BodyObligation (Iface.dats (F := F) m 0 c) (defs₀ (F := F)) Proto.𝒱₀ () Set.univ :=
  Cert.Kernel.BodyWrap.body_obligation_of (fun m K c Kt W₀ => sound_body m K c Kt W₀) m c

end Cert.Kernel.Body

end
-- ==== Proof.lean ====
import proofs.«900787_g7700000000000788_dist_flashdec_v7x_xyz2x2x4_y_b8_sq8_skv1024_h16_d128_f32_1_alg».proof.Defs
import proofs.«900787_g7700000000000788_dist_flashdec_v7x_xyz2x2x4_y_b8_sq8_skv1024_h16_d128_f32_1_alg».proof.Proof.Gen.Kernel
import proofs.«900787_g7700000000000788_dist_flashdec_v7x_xyz2x2x4_y_b8_sq8_skv1024_h16_d128_f32_1_alg».proof.Proof.Gen.Kernel.Skeleton
import proofs.«900787_g7700000000000788_dist_flashdec_v7x_xyz2x2x4_y_b8_sq8_skv1024_h16_d128_f32_1_alg».proof.Proof.Gen.Kernel.Launch
import proofs.«900787_g7700000000000788_dist_flashdec_v7x_xyz2x2x4_y_b8_sq8_skv1024_h16_d128_f32_1_alg».proof.Proof.Gen.Kernel.Points
import proofs.«900787_g7700000000000788_dist_flashdec_v7x_xyz2x2x4_y_b8_sq8_skv1024_h16_d128_f32_1_alg».proof.Proof.Gen.Kernel.Frame
import proofs.«900787_g7700000000000788_dist_flashdec_v7x_xyz2x2x4_y_b8_sq8_skv1024_h16_d128_f32_1_alg».proof.Proof.Gen.KernelIdeal
import proofs.«900787_g7700000000000788_dist_flashdec_v7x_xyz2x2x4_y_b8_sq8_skv1024_h16_d128_f32_1_alg».proof.Proof.Gen.KernelIdeal.Skeleton
import proofs.«900787_g7700000000000788_dist_flashdec_v7x_xyz2x2x4_y_b8_sq8_skv1024_h16_d128_f32_1_alg».proof.Proof.Gen.KernelIdeal.Launch
import proofs.«900787_g7700000000000788_dist_flashdec_v7x_xyz2x2x4_y_b8_sq8_skv1024_h16_d128_f32_1_alg».proof.Proof.Gen.KernelIdeal.Points
import proofs.«900787_g7700000000000788_dist_flashdec_v7x_xyz2x2x4_y_b8_sq8_skv1024_h16_d128_f32_1_alg».proof.Proof.Gen.KernelIdeal.Frame
import proofs.«900787_g7700000000000788_dist_flashdec_v7x_xyz2x2x4_y_b8_sq8_skv1024_h16_d128_f32_1_alg».proof.Proof.Gen.ReferenceIdeal
import proofs.«900787_g7700000000000788_dist_flashdec_v7x_xyz2x2x4_y_b8_sq8_skv1024_h16_d128_f32_1_alg».proof.Proof.Gen.ReferenceIdeal.Run
import proofs.«900787_g7700000000000788_dist_flashdec_v7x_xyz2x2x4_y_b8_sq8_skv1024_h16_d128_f32_1_alg».proof.Proof.Gen.ReferenceIdeal.Read
import proofs.«900787_g7700000000000788_dist_flashdec_v7x_xyz2x2x4_y_b8_sq8_skv1024_h16_d128_f32_1_alg».proof.Proof.Gen.Pre_finite_inputs_Kernel
import proofs.«900787_g7700000000000788_dist_flashdec_v7x_xyz2x2x4_y_b8_sq8_skv1024_h16_d128_f32_1_alg».proof.Proof.Gen.Pre_finite_inputs_ReferenceIdeal
import proofs.«900787_g7700000000000788_dist_flashdec_v7x_xyz2x2x4_y_b8_sq8_skv1024_h16_d128_f32_1_alg».proof.Proof.Claims
import proofs.«900787_g7700000000000788_dist_flashdec_v7x_xyz2x2x4_y_b8_sq8_skv1024_h16_d128_f32_1_alg».proof.Proof.Body
import proofs.«900787_g7700000000000788_dist_flashdec_v7x_xyz2x2x4_y_b8_sq8_skv1024_h16_d128_f32_1_alg».proof.Proof.BodyK
import Idealize.ShloMosaic.Adequacy
import Idealize.ShloMosaic.Init

noncomputable section

namespace Cert.Proof

open Idealize.ShloMosaic Idealize.SL.Sem Cert.Kernel

theorem claim : Cert.Claim :=
  Cert.Proof.Claims.claim_of (fun m c => Cert.KernelIdeal.Body.body_obligation m c) (fun m c => Cert.Kernel.Body.body_obligation m c)

end Cert.Proof

end
